-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S400000 : Shape := ⟨1, ![400000]⟩
abbrev S2x128x64 : Shape := ⟨3, ![2, 128, 64]⟩
abbrev S2x64 : Shape := ⟨2, ![2, 64]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S256x1 : Shape := ⟨2, ![256, 1]⟩
abbrev S1 : Shape := ⟨1, ![1]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S400000 : S_.BroadcastsInDim S400000 (![] : Fin 0 → Fin S400000.rank)
  reducesTo_S400000_S_d0 : S400000.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S256x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x1 .f32 := Host.absf main_arg10
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S2x128x128 .f32) (main_arg7 : FVec F S2x128 .f32) (main_arg8 : FVec F S128x64 .f32) (main_arg9 : FVec F S64 .f32) (main_arg10 : FVec F S256x1 .f32) (main_arg11 : FVec F S1 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S2x50000x128 .f32) (main_arg1 : IVec S400000 32) (main_arg2 : IVec S400000 32) (main_arg3 : FVec F S400000 .f32) (main_arg4 : FVec F S2x128x64 .f32) (main_arg5 : FVec F S2x64 .f32) (main_arg6 : FVec F S2x128x128 .f32) (main_arg7 : FVec F S2x128 .f32) (main_arg8 : FVec F S128x64 .f32) (main_arg9 : FVec F S64 .f32) (main_arg10 : FVec F S256x1 .f32) (main_arg11 : FVec F S1 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S2x128x64 .f32 := Host.absf main_arg4
  let main_cst_2 : FVec F S_ .f32 := constant S_ .f32 0x7F800000#32
  let main_v10 : FVec F S2x128x64 .f32 := broadcastInDim S2x128x64 ![] bcast_S_S2x128x64 main_cst_2
  let main_v11 : IVec S2x128x64 1 := cmpf .olt main_v9 main_v10
  let main_c_3 : IVec S_ 1 := constantI S_ 1 1#1
  let main_v12 : IVec S_ 1 := (fun x v => Host.reduce IntOp.andi x v reducesTo_S2x128x64_S_d0_1_2 h_S_) main_v11 main_c_3
  let main_v13 : IVec S_ 1 := andi main_v8 main_v12
  let main_v14 : FVec F S2x64 .f32 := Host.absf main_arg5
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg7 main_arg8 main_arg9 main_arg10 main_arg11 main_v13 main_v16
-- ==== Kernel.lean ====
abbrev S2x50000x128 : Shape := ⟨3, ![2, 50000, 128]⟩
abbrev S400000 : Shape := ⟨1, ![400000]⟩
abbrev S2x128x64 : Shape := ⟨3, ![2, 128, 64]⟩
abbrev S2x64 : Shape := ⟨2, ![2, 64]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S256x1 : Shape := ⟨2, ![256, 1]⟩
abbrev S1 : Shape := ⟨1, ![1]⟩
abbrev S1x50000x128 : Shape := ⟨3, ![1, 50000, 128]⟩
abbrev S50000x128 : Shape := ⟨2, ![50000, 128]⟩
abbrev S1x128x64 : Shape := ⟨3, ![1, 128, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S400000x1 : Shape := ⟨2, ![400000, 1]⟩
abbrev S400000x64 : Shape := ⟨2, ![400000, 64]⟩
abbrev S1x64 : Shape := ⟨2, ![1, 64]⟩
abbrev S128x1 : Shape := ⟨2, ![128, 1]⟩
abbrev S1x1 : Shape := ⟨2, ![1, 1]⟩
abbrev S50000x1 : Shape := ⟨2, ![50000, 1]⟩
abbrev S5000x1 : Shape := ⟨2, ![5000, 1]⟩
abbrev S1x128x128 : Shape := ⟨3, ![1, 128, 128]⟩
abbrev S128x128 : Shape := ⟨2, ![128, 128]⟩
abbrev S400000x128 : Shape := ⟨2, ![400000, 128]⟩
abbrev S1x128 : Shape := ⟨2, ![1, 128]⟩
abbrev S128 : Shape := ⟨1, ![128]⟩
abbrev S5000 : Shape := ⟨1, ![5000]⟩

abbrev nBuf : Space → Nat
  | .hbm => 145
  | .vmem => 116
  | .smem => 0
  | _ => 0

abbrev hbmTy0_0 (i : Nat) : BufTy := match i % 128 with
  | 0 => ⟨S2x50000x128, .f32⟩
  | 1 => ⟨S400000, .i32⟩
  | 2 => ⟨S400000, .i32⟩
  | 3 => ⟨S400000, .f32⟩
  | 4 => ⟨S2x128x64, .f32⟩
  | 5 => ⟨S2x64, .f32⟩
  | 6 => ⟨S2x128x128, .f32⟩
  | 7 => ⟨S2x128, .f32⟩
  | 8 => ⟨S128x64, .f32⟩
  | 9 => ⟨S64, .f32⟩
  | 10 => ⟨S256x1, .f32⟩
  | 11 => ⟨S1, .f32⟩
  | 12 => ⟨S1x50000x128, .f32⟩
  | 13 => ⟨S50000x128, .f32⟩
  | 14 => ⟨S1x128x64, .f32⟩
  | 15 => ⟨S128x64, .f32⟩
  | 16 => ⟨S50000x64, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x64, .f32⟩
  | 26 => ⟨S400000x1, .f32⟩
  | 27 => ⟨S400000x64, .f32⟩
  | 28 => ⟨S400000x64, .f32⟩
  | 29 => ⟨S_, .f32⟩
  | 30 => ⟨S50000x64, .f32⟩
  | 31 => ⟨S400000x1, .i32⟩
  | 32 => ⟨S50000x64, .f32⟩
  | 33 => ⟨S1x64, .f32⟩
  | 34 => ⟨S64, .f32⟩
  | 35 => ⟨S1x64, .f32⟩
  | 36 => ⟨S1x64, .f32⟩
  | 37 => ⟨S1x64, .f32⟩
  | 38 => ⟨S50000x64, .f32⟩
  | 39 => ⟨S1x50000x128, .f32⟩
  | 40 => ⟨S50000x128, .f32⟩
  | 41 => ⟨S1x128x64, .f32⟩
  | 42 => ⟨S128x64, .f32⟩
  | 43 => ⟨S50000x64, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x64, .f32⟩
  | 53 => ⟨S400000x1, .f32⟩
  | 54 => ⟨S400000x64, .f32⟩
  | 55 => ⟨S400000x64, .f32⟩
  | 56 => ⟨S_, .f32⟩
  | 57 => ⟨S50000x64, .f32⟩
  | 58 => ⟨S400000x1, .i32⟩
  | 59 => ⟨S50000x64, .f32⟩
  | 60 => ⟨S1x64, .f32⟩
  | 61 => ⟨S64, .f32⟩
  | 62 => ⟨S1x64, .f32⟩
  | 63 => ⟨S1x64, .f32⟩
  | 64 => ⟨S1x64, .f32⟩
  | 65 => ⟨S50000x64, .f32⟩
  | 66 => ⟨S50000x128, .f32⟩
  | 67 => ⟨S128x1, .f32⟩
  | 68 => ⟨S128x1, .f32⟩
  | 69 => ⟨S1x1, .f32⟩
  | 70 => ⟨S50000x128, .f32⟩
  | 71 => ⟨S50000x1, .f32⟩
  | 72 => ⟨S1x128x128, .f32⟩
  | 73 => ⟨S128x128, .f32⟩
  | 74 => ⟨S50000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S400000x1, .f32⟩
  | 85 => ⟨S400000x128, .f32⟩
  | 86 => ⟨S400000x128, .f32⟩
  | 87 => ⟨S_, .f32⟩
  | 88 => ⟨S50000x128, .f32⟩
  | 89 => ⟨S400000x1, .i32⟩
  | 90 => ⟨S50000x128, .f32⟩
  | 91 => ⟨S1x128, .f32⟩
  | 92 => ⟨S128, .f32⟩
  | 93 => ⟨S1x128, .f32⟩
  | 94 => ⟨S1x128, .f32⟩
  | 95 => ⟨S1x128, .f32⟩
  | 96 => ⟨S50000x128, .f32⟩
  | 97 => ⟨S1x1, .f32⟩
  | 98 => ⟨S50000x128, .f32⟩
  | 99 => ⟨S50000x1, .f32⟩
  | 100 => ⟨S1x128x128, .f32⟩
  | 101 => ⟨S128x128, .f32⟩
  | 102 => ⟨S50000x128, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S400000x1, .f32⟩
  | 113 => ⟨S400000x128, .f32⟩
  | 114 => ⟨S400000x128, .f32⟩
  | 115 => ⟨S_, .f32⟩
  | 116 => ⟨S50000x128, .f32⟩
  | 117 => ⟨S400000x1, .i32⟩
  | 118 => ⟨S50000x128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S50000x128, .f32⟩
  | 125 => ⟨S50000x128, .f32⟩
  | 126 => ⟨S50000x64, .f32⟩
  | 127 => ⟨S_, .i32⟩
  | _ => ⟨S2x50000x128, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x64, .f32⟩
  | 8 => ⟨S400000x1, .f32⟩
  | 9 => ⟨S400000x64, .f32⟩
  | 10 => ⟨S400000x64, .f32⟩
  | 11 => ⟨S_, .f32⟩
  | 12 => ⟨S50000x64, .f32⟩
  | 13 => ⟨S400000x1, .i32⟩
  | 14 => ⟨S50000x64, .f32⟩
  | 15 => ⟨S1x64, .f32⟩
  | 16 => ⟨S50000x64, .f32⟩
  | _ => ⟨S2x50000x128, .f32⟩

abbrev hbmTy (i : Nat) : BufTy := match i / 128 with
  | 0 => hbmTy0_0 i
  | 1 => hbmTy0_1 i
  | _ => ⟨S2x50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x1, .f32⟩
  | .local _ .vmem, ⟨43, _⟩ => ⟨S128x1, .f32⟩
  | .local _ .vmem, ⟨44, _⟩ => ⟨S1x1, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S5000x128, .f32⟩
  | .local _ .vmem, ⟨50, _⟩ => ⟨S5000x128, .f32⟩
  | .local _ .vmem, ⟨51, _⟩ => ⟨S128x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x1, .f32⟩
  | .local _ .vmem, ⟨73, _⟩ => ⟨S128x1, .f32⟩
  | .local _ .vmem, ⟨74, _⟩ => ⟨S1x1, .f32⟩
  | .local _ .vmem, ⟨75, _⟩ => ⟨S5000x128, .f32⟩
  | .local _ .vmem, ⟨76, _⟩ => ⟨S5000x128, .f32⟩
  | .local _ .vmem, ⟨77, _⟩ => ⟨S5000x1, .f32⟩
  | .local _ .vmem, ⟨78, _⟩ => ⟨S5000x1, .f32⟩
  | .local _ .vmem, ⟨79, _⟩ => ⟨S5000x128, .f32⟩
  | .local _ .vmem, ⟨80, _⟩ => ⟨S5000x128, .f32⟩
  | .local _ .vmem, ⟨81, _⟩ => ⟨S128x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S5000x128, .f32⟩
  | .local _ .vmem, ⟨92, _⟩ => ⟨S5000x128, .f32⟩
  | .local _ .vmem, ⟨93, _⟩ => ⟨S1x128, .f32⟩
  | .local _ .vmem, ⟨94, _⟩ => ⟨S1x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x128, .f32⟩
  | .local _ .vmem, ⟨101, _⟩ => ⟨S5000x128, .f32⟩
  | .local _ .vmem, ⟨102, _⟩ => ⟨S5000x1, .f32⟩
  | .local _ .vmem, ⟨103, _⟩ => ⟨S5000x1, .f32⟩
  | .local _ .vmem, ⟨104, _⟩ => ⟨S5000x128, .f32⟩
  | .local _ .vmem, ⟨105, _⟩ => ⟨S5000x128, .f32⟩
  | .local _ .vmem, ⟨106, _⟩ => ⟨S5000x128, .f32⟩
  | .local _ .vmem, ⟨107, _⟩ => ⟨S5000x128, .f32⟩
  | .local _ .vmem, ⟨108, _⟩ => ⟨S128x64, .f32⟩
  | .local _ .vmem, ⟨109, _⟩ => ⟨S5000x64, .f32⟩
  | .local _ .vmem, ⟨110, _⟩ => ⟨S5000x64, .f32⟩
  | .local _ .vmem, ⟨111, _⟩ => ⟨S5000x64, .f32⟩
  | .local _ .vmem, ⟨112, _⟩ => ⟨S5000x64, .f32⟩
  | .local _ .vmem, ⟨113, _⟩ => ⟨S1x64, .f32⟩
  | .local _ .vmem, ⟨114, _⟩ => ⟨S5000x64, .f32⟩
  | .local _ .vmem, ⟨115, _⟩ => ⟨S5000x64, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_4 : Ref sig .tc := ⟨.hbm, 75, rfl⟩
abbrev main_v54 : Ref sig .tc := ⟨.hbm, 76, rfl⟩
abbrev main_v55 : Ref sig .tc := ⟨.hbm, 77, rfl⟩
abbrev main_c_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70_0 : Ref sig .tc := ⟨.hbm, 94, rfl⟩
abbrev main_v70_1 : Ref sig .tc := ⟨.hbm, 95, rfl⟩
abbrev main_v71 : Ref sig .tc := ⟨.hbm, 96, rfl⟩
abbrev main_v72 : Ref sig .tc := ⟨.hbm, 97, rfl⟩
abbrev main_v73_0 : Ref sig .tc := ⟨.hbm, 98, rfl⟩
abbrev main_v73_1 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_7 : Ref sig .tc := ⟨.hbm, 103, rfl⟩
abbrev main_v77 : Ref sig .tc := ⟨.hbm, 104, rfl⟩
abbrev main_v78 : Ref sig .tc := ⟨.hbm, 105, rfl⟩
abbrev main_c_8 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93_0 : Ref sig .tc := ⟨.hbm, 122, rfl⟩
abbrev main_v93_1 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_10 : Ref sig .tc := ⟨.hbm, 127, rfl⟩
abbrev main_v97 : Ref sig .tc := ⟨.hbm, 128, rfl⟩
abbrev main_v98 : Ref sig .tc := ⟨.hbm, 129, rfl⟩
abbrev main_c_11 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_12 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_scratch0 : Ref sig .tc := ⟨.vmem, 29, rfl⟩
abbrev cc4_scratch1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg5_1 : Ref sig .tc := ⟨.vmem, 46, rfl⟩
abbrev cc6_stg6_0 : Ref sig .tc := ⟨.vmem, 47, rfl⟩
abbrev cc6_stg6_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_scratch0 : Ref sig .tc := ⟨.vmem, 59, rfl⟩
abbrev cc8_scratch1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg4_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg4_0 : Ref sig .tc := ⟨.vmem, 74, rfl⟩
abbrev cc10_stg5_0 : Ref sig .tc := ⟨.vmem, 75, rfl⟩
abbrev cc10_stg5_1 : Ref sig .tc := ⟨.vmem, 76, rfl⟩
abbrev cc10_stg6_0 : Ref sig .tc := ⟨.vmem, 77, rfl⟩
abbrev cc10_stg6_1 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg2_0 : Ref sig .tc := ⟨.vmem, 82, rfl⟩
abbrev cc11_stg2_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_scratch0 : Ref sig .tc := ⟨.vmem, 89, rfl⟩
abbrev cc12_scratch1 : Ref sig .tc := ⟨.vmem, 90, rfl⟩
abbrev cc13_stg0_0 : Ref sig .tc := ⟨.vmem, 91, rfl⟩
abbrev cc13_stg0_1 : Ref sig .tc := ⟨.vmem, 92, rfl⟩
abbrev cc13_stg1_0 : Ref sig .tc := ⟨.vmem, 93, rfl⟩
abbrev cc13_stg2_0 : Ref sig .tc := ⟨.vmem, 94, rfl⟩
abbrev cc13_stg3_0 : Ref sig .tc := ⟨.vmem, 95, rfl⟩
abbrev cc13_stg4_0 : Ref sig .tc := ⟨.vmem, 96, rfl⟩
abbrev cc13_stg4_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg2_1 : Ref sig .tc := ⟨.vmem, 103, rfl⟩
abbrev cc14_stg3_0 : Ref sig .tc := ⟨.vmem, 104, rfl⟩
abbrev cc14_stg3_1 : Ref sig .tc := ⟨.vmem, 105, rfl⟩
abbrev cc15_stg0_0 : Ref sig .tc := ⟨.vmem, 106, rfl⟩
abbrev cc15_stg0_1 : Ref sig .tc := ⟨.vmem, 107, rfl⟩
abbrev cc15_stg1_0 : Ref sig .tc := ⟨.vmem, 108, rfl⟩
abbrev cc15_stg2_0 : Ref sig .tc := ⟨.vmem, 109, rfl⟩
abbrev cc15_stg2_1 : Ref sig .tc := ⟨.vmem, 110, rfl⟩
abbrev cc16_stg0_0 : Ref sig .tc := ⟨.vmem, 111, rfl⟩
abbrev cc16_stg0_1 : Ref sig .tc := ⟨.vmem, 112, rfl⟩
abbrev cc16_stg1_0 : Ref sig .tc := ⟨.vmem, 113, rfl⟩
abbrev cc16_stg2_0 : Ref sig .tc := ⟨.vmem, 114, rfl⟩
abbrev cc16_stg2_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem3_0 : DmaSem sig := 39
abbrev cc6_sem4_0 : DmaSem sig := 40
abbrev cc6_sem5_0 : DmaSem sig := 41
abbrev cc6_sem5_1 : DmaSem sig := 42
abbrev cc6_sem6_0 : DmaSem sig := 43
abbrev cc6_sem6_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem3_0 : DmaSem sig := 54
abbrev cc9_sem0_0 : DmaSem sig := 55
abbrev cc9_sem0_1 : DmaSem sig := 56
abbrev cc9_sem1_0 : DmaSem sig := 57
abbrev cc9_sem2_0 : DmaSem sig := 58
abbrev cc9_sem3_0 : DmaSem sig := 59
abbrev cc9_sem4_0 : DmaSem sig := 60
abbrev cc9_sem4_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem3_0 : DmaSem sig := 67
abbrev cc10_sem4_0 : DmaSem sig := 68
abbrev cc10_sem5_0 : DmaSem sig := 69
abbrev cc10_sem5_1 : DmaSem sig := 70
abbrev cc10_sem6_0 : DmaSem sig := 71
abbrev cc10_sem6_1 : DmaSem sig := 72
abbrev cc11_sem0_0 : DmaSem sig := 73
abbrev cc11_sem0_1 : DmaSem sig := 74
abbrev cc11_sem1_0 : DmaSem sig := 75
abbrev cc11_sem2_0 : DmaSem sig := 76
abbrev cc11_sem2_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem3_0 : DmaSem sig := 82
abbrev cc13_sem0_0 : DmaSem sig := 83
abbrev cc13_sem0_1 : DmaSem sig := 84
abbrev cc13_sem1_0 : DmaSem sig := 85
abbrev cc13_sem2_0 : DmaSem sig := 86
abbrev cc13_sem3_0 : DmaSem sig := 87
abbrev cc13_sem4_0 : DmaSem sig := 88
abbrev cc13_sem4_1 : DmaSem sig := 89
abbrev cc14_sem0_0 : DmaSem sig := 90
abbrev cc14_sem0_1 : DmaSem sig := 91
abbrev cc14_sem1_0 : DmaSem sig := 92
abbrev cc14_sem1_1 : DmaSem sig := 93
abbrev cc14_sem2_0 : DmaSem sig := 94
abbrev cc14_sem2_1 : DmaSem sig := 95
abbrev cc14_sem3_0 : DmaSem sig := 96
abbrev cc14_sem3_1 : DmaSem sig := 97
abbrev cc15_sem0_0 : DmaSem sig := 98
abbrev cc15_sem0_1 : DmaSem sig := 99
abbrev cc15_sem1_0 : DmaSem sig := 100
abbrev cc15_sem2_0 : DmaSem sig := 101
abbrev cc15_sem2_1 : DmaSem sig := 102
abbrev cc16_sem0_0 : DmaSem sig := 103
abbrev cc16_sem0_1 : DmaSem sig := 104
abbrev cc16_sem1_0 : DmaSem sig := 105
abbrev cc16_sem2_0 : DmaSem sig := 106
abbrev cc16_sem2_1 : DmaSem sig := 107

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S5000x1 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def k12_cond2 (i : grid12.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S5000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

class Facts₀ : Prop where
  slices_S2x50000x128_S1x50000x128_0_0_0 : S2x50000x128.Slices ![0, 0, 0] S1x50000x128
  shapeCasts_S1x50000x128_S50000x128 : S1x50000x128.ShapeCasts S50000x128
  slices_S2x128x64_S1x128x64_0_0_0 : S2x128x64.Slices ![0, 0, 0] S1x128x64
  shapeCasts_S1x128x64_S128x64 : S1x128x64.ShapeCasts S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  slices_S2x50000x128_S1x50000x128_1_0_0 : S2x50000x128.Slices ![1, 0, 0] S1x50000x128
  slices_S2x128x64_S1x128x64_1_0_0 : S2x128x64.Slices ![1, 0, 0] S1x128x64
  slices_S2x64_S1x64_1_0 : S2x64.Slices ![1, 0] S1x64
  concatenates_S50000x64_S50000x64_S50000x128_d1 : Shape.Concatenates [S50000x64, S50000x64] S50000x128 1
  slices_S256x1_S128x1_0_0 : S256x1.Slices ![0, 0] S128x1
  slices_S256x1_S128x1_128_0 : S256x1.Slices ![128, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x128 : S5000x1.Broadcasts S5000x128
  inb_S5000x1_S5000x1_0_0 : ∀ a, (![0, 0] : Fin 2 → Nat) a + S5000x1.size a ≤ S5000x1.size a
  h_S5000x1 : 0 < S5000x1.numel
  slices_S2x128x128_S1x128x128_0_0_0 : S2x128x128.Slices ![0, 0, 0] S1x128x128
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  slices_S2x128x128_S1x128x128_1_0_0 : S2x128x128.Slices ![1, 0, 0] S1x128x128
  slices_S2x128_S1x128_1_0 : S2x128.Slices ![1, 0] S1x128
  shapeCasts_S5000x1_S5000x1 : S5000x1.ShapeCasts S5000x1
  reduces_S5000x64_S5000 : S5000x64.Reduces [1] S5000
  shapeCasts_S5000_S5000x1 : S5000.ShapeCasts S5000x1
  broadcasts_S5000x1_S5000x64 : S5000x1.Broadcasts S5000x64
  dot_S5000x128_S128x64_S5000x64_1_0_0_1_n_n_wf : DotDims.WF S5000x128 S128x64 S5000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S5000x128_S128x1_S5000x1_1_0_0_1_n_n_wf : DotDims.WF S5000x128 S128x1 S5000x1 [1] [0] [0] [1] [] []
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x1.size a ≤ S50000x1.size a
  hwx6_6 : ∀ i : grid6.Coords, EltTy.bits .f32 = 32 ∨ (Rect.block (s := S50000x1) S5000x1.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x1.size a ≤ S128x1.size a
  hwx10_2 : ∀ i : grid10.Coords, EltTy.bits .f32 = 32 ∨ (Rect.block (s := S128x1) S128x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x1.size a ≤ S128x1.size a
  hwx10_3 : ∀ i : grid10.Coords, EltTy.bits .f32 = 32 ∨ (Rect.block (s := S128x1) S128x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x1.size a ≤ S50000x1.size a
  hwx10_6 : ∀ i : grid10.Coords, EltTy.bits .f32 = 32 ∨ (Rect.block (s := S50000x1) S5000x1.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S50000x128.size a
  hwx14_1 : ∀ i : grid14.Coords, EltTy.bits .f32 = 32 ∨ (Rect.block (s := S50000x128) S5000x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x1.size a ≤ S50000x1.size a
  hwx14_2 : ∀ i : grid14.Coords, EltTy.bits .f32 = 32 ∨ (Rect.block (s := S50000x1) S5000x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S50000x128.size a
  hwx14_3 : ∀ i : grid14.Coords, EltTy.bits .f32 = 32 ∨ (Rect.block (s := S50000x128) S5000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x64.size a ≤ S128x64.size a
  hwx15_1 : ∀ i : grid15.Coords, EltTy.bits .f32 = 32 ∨ (Rect.block (s := S128x64) S128x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x64.size a ≤ S50000x64.size a
  hwx15_2 : ∀ i : grid15.Coords, EltTy.bits .f32 = 32 ∨ (Rect.block (s := S50000x64) S5000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S50000x64.size a
  hwx16_0 : ∀ i : grid16.Coords, EltTy.bits .f32 = 32 ∨ (Rect.block (s := S50000x64) S5000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x64.size a ≤ S1x64.size a
  hwx16_1 : ∀ i : grid16.Coords, EltTy.bits .f32 = 32 ∨ (Rect.block (s := S1x64) S1x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x64.size a ≤ S50000x64.size a
  hwx16_2 : ∀ i : grid16.Coords, EltTy.bits .f32 = 32 ∨ (Rect.block (s := S50000x64) S5000x64.size (cc16_transform_2 i) (hinb16_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_v1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21_0) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_1) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v40) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44_0) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44_1) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v46) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v46) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v47) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v48) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v49) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v50_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v50_1) S5000x1.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v50_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v52) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v53) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v66) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v69) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v70_0) S1x128.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v70_1) S1x128.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun i => !(k8_cond2 i == 1#1) | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v66) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v69) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v70_0) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v70_1) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v71) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v71) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v46) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v47) S128x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v48) S128x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v72) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v73_0) S5000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v73_1) S5000x1.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v73_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v75) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v76) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v89) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v92) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v93_0) S1x128.size cc12_transform_2 reads12_2 true true 1 stage12_2 sem12_2
    hrank12 hreads12_2 hinb12_2 nbuf12_2 (Memref.isWhole_whole _) hwx12_2 hstage12_2

abbrev win12_3 : Pipeline.Window sig grid12 :=
  Pipeline.Window.ofSpec (Memref.whole main_v93_1) S1x128.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun i => !(k12_cond2 i == 1#1) | 3 => fun i => !(k12_cond2 i == 1#1) | ⟨_ + 4, h⟩ => absurd h (Nat.not_lt.2 (Nat.le_add_left _ _))

abbrev win13_0 : Pipeline.Window sig grid13 :=
  Pipeline.Window.ofSpec (Memref.whole main_v89) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v92) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v93_0) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v93_1) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v94) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v94) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v46) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v73_1) S5000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v95) S5000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v95) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg8) S128x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v96) S5000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v109) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v110) S1x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v111) S5000x64.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

class Facts : Prop extends Facts₀ where

variable [Facts]
-- ==== ReferenceIdeal.lean ====
abbrev S2x50000x128 : Shape := ⟨3, ![2, 50000, 128]⟩
abbrev S400000 : Shape := ⟨1, ![400000]⟩
abbrev S2x128x64 : Shape := ⟨3, ![2, 128, 64]⟩
abbrev S2x64 : Shape := ⟨2, ![2, 64]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S256x1 : Shape := ⟨2, ![256, 1]⟩
abbrev S1 : Shape := ⟨1, ![1]⟩
abbrev S1x50000x128 : Shape := ⟨3, ![1, 50000, 128]⟩
abbrev S50000x128 : Shape := ⟨2, ![50000, 128]⟩
abbrev S1x128x64 : Shape := ⟨3, ![1, 128, 64]⟩
abbrev S1x64 : Shape := ⟨2, ![1, 64]⟩
abbrev S50000x64 : Shape := ⟨2, ![50000, 64]⟩
abbrev S400000x1 : Shape := ⟨2, ![400000, 1]⟩
abbrev S_ : Shape := ⟨0, ![]⟩
abbrev S400000x64 : Shape := ⟨2, ![400000, 64]⟩
abbrev S50000x256 : Shape := ⟨2, ![50000, 256]⟩
abbrev S50000x1 : Shape := ⟨2, ![50000, 1]⟩
abbrev S1x1 : Shape := ⟨2, ![1, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S400000x128 : Shape := ⟨2, ![400000, 128]⟩
abbrev S50000 : Shape := ⟨1, ![50000]⟩

abbrev nBuf : Space → Nat
  | .hbm => 362
  | .vmem => 0
  | .smem => 0
  | _ => 0

abbrev hbmTy0_0 (i : Nat) : BufTy := match i % 128 with
  | 0 => ⟨S2x50000x128, .f32⟩
  | 1 => ⟨S400000, .i32⟩
  | 2 => ⟨S400000, .i32⟩
  | 3 => ⟨S400000, .f32⟩
  | 4 => ⟨S2x128x64, .f32⟩
  | 5 => ⟨S2x64, .f32⟩
  | 6 => ⟨S2x128x128, .f32⟩
  | 7 => ⟨S2x128, .f32⟩
  | 8 => ⟨S128x64, .f32⟩
  | 9 => ⟨S64, .f32⟩
  | 10 => ⟨S256x1, .f32⟩
  | 11 => ⟨S1, .f32⟩
  | 12 => ⟨S1x50000x128, .f32⟩
  | 13 => ⟨S50000x128, .f32⟩
  | 14 => ⟨S1x128x64, .f32⟩
  | 15 => ⟨S128x64, .f32⟩
  | 16 => ⟨S1x64, .f32⟩
  | 17 => ⟨S64, .f32⟩
  | 18 => ⟨S50000x64, .f32⟩
  | 19 => ⟨S400000x1, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x64, .f32⟩
  | 29 => ⟨S400000x64, .f32⟩
  | 30 => ⟨S400000x64, .f32⟩
  | 31 => ⟨S_, .f32⟩
  | 32 => ⟨S50000x64, .f32⟩
  | 33 => ⟨S400000x1, .i32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S_, .i32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S50000x64, .f32⟩
  | 51 => ⟨S50000x64, .f32⟩
  | 52 => ⟨S50000x64, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S64, .f32⟩
  | 60 => ⟨S_, .f32⟩
  | 61 => ⟨S_, .i1⟩
  | 62 => ⟨S_, .f32⟩
  | 63 => ⟨S_, .f32⟩
  | 64 => ⟨S64, .f32⟩
  | 65 => ⟨S64, .f32⟩
  | 66 => ⟨S1x64, .f32⟩
  | 67 => ⟨S50000x64, .f32⟩
  | 68 => ⟨S50000x64, .f32⟩
  | 69 => ⟨S_, .f32⟩
  | 70 => ⟨S64, .f32⟩
  | 71 => ⟨S64, .f32⟩
  | 72 => ⟨S64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S1x50000x128, .f32⟩
  | 80 => ⟨S50000x128, .f32⟩
  | 81 => ⟨S1x128x64, .f32⟩
  | 82 => ⟨S128x64, .f32⟩
  | 83 => ⟨S1x64, .f32⟩
  | 84 => ⟨S64, .f32⟩
  | 85 => ⟨S50000x64, .f32⟩
  | 86 => ⟨S400000x1, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x64, .f32⟩
  | 96 => ⟨S400000x64, .f32⟩
  | 97 => ⟨S400000x64, .f32⟩
  | 98 => ⟨S_, .f32⟩
  | 99 => ⟨S50000x64, .f32⟩
  | 100 => ⟨S400000x1, .i32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S50000x64, .f32⟩
  | 118 => ⟨S50000x64, .f32⟩
  | 119 => ⟨S50000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S2x50000x128, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S50000x64, .f32⟩
  | 7 => ⟨S50000x64, .f32⟩
  | 8 => ⟨S_, .f32⟩
  | 9 => ⟨S64, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x128, .f32⟩
  | 19 => ⟨S50000x256, .f32⟩
  | 20 => ⟨S50000x1, .f32⟩
  | 21 => ⟨S1x1, .f32⟩
  | 22 => ⟨S50000x1, .f32⟩
  | 23 => ⟨S50000x1, .f32⟩
  | 24 => ⟨S50000x1, .f32⟩
  | 25 => ⟨S50000x1, .f32⟩
  | 26 => ⟨S_, .f32⟩
  | 27 => ⟨S50000x1, .f32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S50000x128, .f32⟩
  | 45 => ⟨S400000x1, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x128, .f32⟩
  | 55 => ⟨S400000x128, .f32⟩
  | 56 => ⟨S400000x128, .f32⟩
  | 57 => ⟨S_, .f32⟩
  | 58 => ⟨S50000x128, .f32⟩
  | 59 => ⟨S400000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x256, .f32⟩
  | 106 => ⟨S50000x1, .f32⟩
  | 107 => ⟨S1x1, .f32⟩
  | 108 => ⟨S50000x1, .f32⟩
  | 109 => ⟨S50000x1, .f32⟩
  | 110 => ⟨S50000x1, .f32⟩
  | 111 => ⟨S50000x1, .f32⟩
  | 112 => ⟨S_, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S2x50000x128, .f32⟩

abbrev hbmTy0_2 (i : Nat) : BufTy := match i % 128 with
  | 0 => ⟨S1x128, .f32⟩
  | 1 => ⟨S128, .f32⟩
  | 2 => ⟨S50000x128, .f32⟩
  | 3 => ⟨S400000x1, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S400000x128, .f32⟩
  | 14 => ⟨S400000x128, .f32⟩
  | 15 => ⟨S_, .f32⟩
  | 16 => ⟨S50000x128, .f32⟩
  | 17 => ⟨S400000x1, .i32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x128, .f32⟩
  | 65 => ⟨S_, .f32⟩
  | 66 => ⟨S50000x1, .f32⟩
  | 67 => ⟨S50000x1, .f32⟩
  | 68 => ⟨S50000x128, .f32⟩
  | 69 => ⟨S50000x128, .f32⟩
  | 70 => ⟨S50000x128, .f32⟩
  | 71 => ⟨S50000x64, .f32⟩
  | 72 => ⟨S400000x1, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x64, .f32⟩
  | 82 => ⟨S400000x64, .f32⟩
  | 83 => ⟨S400000x64, .f32⟩
  | 84 => ⟨S_, .f32⟩
  | 85 => ⟨S50000x64, .f32⟩
  | 86 => ⟨S400000x1, .i32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S50000x64, .f32⟩
  | 100 => ⟨S_, .f32⟩
  | 101 => ⟨S50000, .f32⟩
  | 102 => ⟨S50000x1, .f32⟩
  | 103 => ⟨S50000x1, .f32⟩
  | 104 => ⟨S50000x64, .f32⟩
  | 105 => ⟨S50000x64, .f32⟩
  | _ => ⟨S2x50000x128, .f32⟩

abbrev hbmTy (i : Nat) : BufTy := match i / 128 with
  | 0 => hbmTy0_0 i
  | 1 => hbmTy0_1 i
  | 2 => hbmTy0_2 i
  | _ => ⟨S2x50000x128, .f32⟩

abbrev bufTy : (tb : Table) → Fin (tcTables nBuf tb) → BufTy
  | .hbm, ⟨i, _⟩ => hbmTy i
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_cst_3 : Ref sig .tc := ⟨.hbm, 60, rfl⟩
abbrev main_call0_v12 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_call1_cst : Ref sig .tc := ⟨.hbm, 76, rfl⟩
abbrev main_call1_v0 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_5 : Ref sig .tc := ⟨.hbm, 87, rfl⟩
abbrev main_v45 : Ref sig .tc := ⟨.hbm, 88, rfl⟩
abbrev main_v46 : Ref sig .tc := ⟨.hbm, 89, rfl⟩
abbrev main_c_6 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_7 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_8 : Ref sig .tc := ⟨.hbm, 105, rfl⟩
abbrev main_v60 : Ref sig .tc := ⟨.hbm, 106, rfl⟩
abbrev main_cst_9 : Ref sig .tc := ⟨.hbm, 107, rfl⟩
abbrev main_v61 : Ref sig .tc := ⟨.hbm, 108, rfl⟩
abbrev main_v62 : Ref sig .tc := ⟨.hbm, 109, rfl⟩
abbrev main_c_10 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_cst_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_cst_1 : Ref sig .tc := ⟨.hbm, 121, rfl⟩
abbrev main_call2_v8 : Ref sig .tc := ⟨.hbm, 122, rfl⟩
abbrev main_call2_cst_2 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_cst_3 : Ref sig .tc := ⟨.hbm, 127, rfl⟩
abbrev main_call2_v12 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_11 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_call3_cst : Ref sig .tc := ⟨.hbm, 143, rfl⟩
abbrev main_call3_v0 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_12 : Ref sig .tc := ⟨.hbm, 154, rfl⟩
abbrev main_v82 : Ref sig .tc := ⟨.hbm, 155, rfl⟩
abbrev main_v83 : Ref sig .tc := ⟨.hbm, 156, rfl⟩
abbrev main_cst_13 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_14 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_c_15 : Ref sig .tc := ⟨.hbm, 174, rfl⟩
abbrev main_v99 : Ref sig .tc := ⟨.hbm, 175, rfl⟩
abbrev main_v100 : Ref sig .tc := ⟨.hbm, 176, rfl⟩
abbrev main_c_16 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_cst_17 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_cst_18 : Ref sig .tc := ⟨.hbm, 192, rfl⟩
abbrev main_v114 : Ref sig .tc := ⟨.hbm, 193, rfl⟩
abbrev main_cst_19 : Ref sig .tc := ⟨.hbm, 194, rfl⟩
abbrev main_v115 : Ref sig .tc := ⟨.hbm, 195, rfl⟩
abbrev main_v116 : Ref sig .tc := ⟨.hbm, 196, rfl⟩
abbrev main_c_20 : Ref sig .tc := ⟨.hbm, 197, rfl⟩
abbrev main_call4_cst : Ref sig .tc := ⟨.hbm, 198, rfl⟩
abbrev main_call4_v0 : Ref sig .tc := ⟨.hbm, 199, rfl⟩
abbrev main_call4_v1 : Ref sig .tc := ⟨.hbm, 200, rfl⟩
abbrev main_call4_cst_0 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_cst_1 : Ref sig .tc := ⟨.hbm, 208, rfl⟩
abbrev main_call4_v8 : Ref sig .tc := ⟨.hbm, 209, rfl⟩
abbrev main_call4_cst_2 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_cst_3 : Ref sig .tc := ⟨.hbm, 214, rfl⟩
abbrev main_call4_v12 : Ref sig .tc := ⟨.hbm, 215, rfl⟩
abbrev main_call4_cst_4 : Ref sig .tc := ⟨.hbm, 216, rfl⟩
abbrev main_call4_call0_v0 : Ref sig .tc := ⟨.hbm, 217, rfl⟩
abbrev main_call4_call0_v1 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_cst_21 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_call5_cst : Ref sig .tc := ⟨.hbm, 230, rfl⟩
abbrev main_call5_v0 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_cst_22 : Ref sig .tc := ⟨.hbm, 240, rfl⟩
abbrev main_v135 : Ref sig .tc := ⟨.hbm, 241, rfl⟩
abbrev main_v136 : Ref sig .tc := ⟨.hbm, 242, rfl⟩
abbrev main_cst_23 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_cst_24 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_c_25 : Ref sig .tc := ⟨.hbm, 260, rfl⟩
abbrev main_v152 : Ref sig .tc := ⟨.hbm, 261, rfl⟩
abbrev main_v153 : Ref sig .tc := ⟨.hbm, 262, rfl⟩
abbrev main_c_26 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_cst_27 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_28 : Ref sig .tc := ⟨.hbm, 278, rfl⟩
abbrev main_v167 : Ref sig .tc := ⟨.hbm, 279, rfl⟩
abbrev main_cst_29 : Ref sig .tc := ⟨.hbm, 280, rfl⟩
abbrev main_v168 : Ref sig .tc := ⟨.hbm, 281, rfl⟩
abbrev main_v169 : Ref sig .tc := ⟨.hbm, 282, rfl⟩
abbrev main_c_30 : Ref sig .tc := ⟨.hbm, 283, rfl⟩
abbrev main_call6_cst : Ref sig .tc := ⟨.hbm, 284, rfl⟩
abbrev main_call6_v0 : Ref sig .tc := ⟨.hbm, 285, rfl⟩
abbrev main_call6_v1 : Ref sig .tc := ⟨.hbm, 286, rfl⟩
abbrev main_call6_cst_0 : Ref sig .tc := ⟨.hbm, 287, rfl⟩
abbrev main_call6_v2 : Ref sig .tc := ⟨.hbm, 288, rfl⟩
abbrev main_call6_v3 : Ref sig .tc := ⟨.hbm, 289, rfl⟩
abbrev main_call6_v4 : Ref sig .tc := ⟨.hbm, 290, rfl⟩
abbrev main_call6_v5 : Ref sig .tc := ⟨.hbm, 291, rfl⟩
abbrev main_call6_v6 : Ref sig .tc := ⟨.hbm, 292, rfl⟩
abbrev main_call6_v7 : Ref sig .tc := ⟨.hbm, 293, rfl⟩
abbrev main_call6_cst_1 : Ref sig .tc := ⟨.hbm, 294, rfl⟩
abbrev main_call6_v8 : Ref sig .tc := ⟨.hbm, 295, rfl⟩
abbrev main_call6_cst_2 : Ref sig .tc := ⟨.hbm, 296, rfl⟩
abbrev main_call6_v9 : Ref sig .tc := ⟨.hbm, 297, rfl⟩
abbrev main_call6_v10 : Ref sig .tc := ⟨.hbm, 298, rfl⟩
abbrev main_call6_v11 : Ref sig .tc := ⟨.hbm, 299, rfl⟩
abbrev main_call6_cst_3 : Ref sig .tc := ⟨.hbm, 300, rfl⟩
abbrev main_call6_v12 : Ref sig .tc := ⟨.hbm, 301, rfl⟩
abbrev main_call6_cst_4 : Ref sig .tc := ⟨.hbm, 302, rfl⟩
abbrev main_call6_call0_v0 : Ref sig .tc := ⟨.hbm, 303, rfl⟩
abbrev main_call6_call0_v1 : Ref sig .tc := ⟨.hbm, 304, rfl⟩
abbrev main_v170 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_cst_31 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_call7_cst : Ref sig .tc := ⟨.hbm, 316, rfl⟩
abbrev main_call7_v0 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_cst_32 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_c_33 : Ref sig .tc := ⟨.hbm, 329, rfl⟩
abbrev main_v190 : Ref sig .tc := ⟨.hbm, 330, rfl⟩
abbrev main_v191 : Ref sig .tc := ⟨.hbm, 331, rfl⟩
abbrev main_c_34 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_cst_35 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_call8_cst : Ref sig .tc := ⟨.hbm, 347, rfl⟩
abbrev main_call8_v0 : Ref sig .tc := ⟨.hbm, 348, rfl⟩
abbrev main_call8_cst_0 : Ref sig .tc := ⟨.hbm, 349, rfl⟩
abbrev main_call8_v1 : Ref sig .tc := ⟨.hbm, 350, rfl⟩
abbrev main_call8_v2 : Ref sig .tc := ⟨.hbm, 351, rfl⟩
abbrev main_call8_v3 : Ref sig .tc := ⟨.hbm, 352, rfl⟩
abbrev main_call8_v4 : Ref sig .tc := ⟨.hbm, 353, rfl⟩
abbrev main_call8_v5 : Ref sig .tc := ⟨.hbm, 354, rfl⟩
abbrev main_call8_v6 : Ref sig .tc := ⟨.hbm, 355, rfl⟩
abbrev main_call8_cst_1 : Ref sig .tc := ⟨.hbm, 356, rfl⟩
abbrev main_call8_v7 : Ref sig .tc := ⟨.hbm, 357, rfl⟩
abbrev main_call8_v8 : Ref sig .tc := ⟨.hbm, 358, rfl⟩
abbrev main_call8_v9 : Ref sig .tc := ⟨.hbm, 359, rfl⟩
abbrev main_call8_v10 : Ref sig .tc := ⟨.hbm, 360, rfl⟩
abbrev main_v205 : Ref sig .tc := ⟨.hbm, 361, rfl⟩

abbrev nD : Nat := 1
abbrev τ : Topo := Topo.v7x

variable {F : FTy → Type} [FloatOps F]

class Facts₀ : Prop where
  slices_S2x50000x128_S1x50000x128_0_0_0 : S2x50000x128.Slices ![0, 0, 0] S1x50000x128
  shapeCasts_S1x50000x128_S50000x128 : S1x50000x128.ShapeCasts S50000x128
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x50000x128_S1x50000x128_1_0_0 : S2x50000x128.Slices ![1, 0, 0] S1x50000x128
  slices_S2x128x64_S1x128x64_1_0_0 : S2x128x64.Slices ![1, 0, 0] S1x128x64
  slices_S2x64_S1x64_1_0 : S2x64.Slices ![1, 0] S1x64
  concatenates_S50000x64_S50000x64_S50000x128_d1 : Shape.Concatenates [S50000x64, S50000x64] S50000x128 1
  concatenates_S50000x128_S50000x128_S50000x256_d1 : Shape.Concatenates [S50000x128, S50000x128] S50000x256 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S50000x256_S256x1_S50000x1_1_0_0_1_n_n_wf : DotDims.WF S50000x256 S256x1 S50000x1 [1] [0] [0] [1] [] []
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.K.BodyCommon.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev all5000x128 : Rect S5000x128 := Rect.unit (s := S5000x128) ![0, 0] S5000x128.size inb_S5000x128_S5000x128_0_0
abbrev all5000x64 : Rect S5000x64 := Rect.unit (s := S5000x64) ![0, 0] S5000x64.size inb_S5000x64_S5000x64_0_0
abbrev all5000x1 : Rect S5000x1 := Rect.unit (s := S5000x1) ![0, 0] S5000x1.size inb_S5000x1_S5000x1_0_0
abbrev all128x128 : Rect S128x128 := Rect.unit (s := S128x128) ![0, 0] S128x128.size inb_S128x128_S128x128_0_0
abbrev all128x64 : Rect S128x64 := Rect.unit (s := S128x64) ![0, 0] S128x64.size inb_S128x64_S128x64_0_0
abbrev all1x128 : Rect S1x128 := Rect.unit (s := S1x128) ![0, 0] S1x128.size inb_S1x128_S1x128_0_0
abbrev all1x64 : Rect S1x64 := Rect.unit (s := S1x64) ![0, 0] S1x64.size inb_S1x64_S1x64_0_0

theorem covers5000x64 (p : Vec F S5000x64 .f32) (y : S5000x64.Idx) :
    ∃ pc ∈ ([⟨all5000x64, p⟩] : List (View.Piece (Elt F) S5000x64 .f32)), y ∈ pc.1.set :=
  View.cover_of_tiled [⟨all5000x64, p⟩] S5000x64.size (by rfl) y

theorem covers5000x128 (p : Vec F S5000x128 .f32) (y : S5000x128.Idx) :
    ∃ pc ∈ ([⟨all5000x128, p⟩] : List (View.Piece (Elt F) S5000x128 .f32)), y ∈ pc.1.set :=
  View.cover_of_tiled [⟨all5000x128, p⟩] S5000x128.size (by rfl) y

-- If every `b d` is `x`, a buffer at some `b d` is a buffer at `x`.
theorem held_elim {c : Dev nD} {sh : Shape} {e : EltTy} (m : Memref sig .tc .vmem sh e) {D : Type} {b : D → sh.Idx → Elt F e}
    {x : sh.Idx → Elt F e} (h : ∀ d, b d = x) :
    (iprop(∃ d, owns (c : Thread nD τ) m fullShare (b d)) : sProp 𝕄) ⊢ owns (c : Thread nD τ) m fullShare x := by
  iintro ⟨%d, H⟩
  rw [h d]
  iexact H

theorem any_intro {c : Dev nD} {sh : Shape} {e : EltTy} (m : Memref sig .tc .vmem sh e) {D : Type} {b : D → sh.Idx → Elt F e} :
    (iprop(∃ d, owns (c : Thread nD τ) m fullShare (b d)) : sProp 𝕄) ⊢ iprop(∃ y, owns (c : Thread nD τ) m fullShare y) := by
  iintro ⟨%d, H⟩
  iexists _
  iexact H

-- The frame rule: `Φ` and `O` pass unread through a body that turns `P` into `Q`.
theorem sound_of_triple {c : Dev nD} {e : Prog (TpuEff nD τ sig (Elt F) Λ₀ .tc) PUnit} {Φ O P' P Q : sProp 𝕄}
    (hP : P' ⊢ P)
    (h : ∀ K : PUnit → sProp 𝕄, iprop(P ∗ (Q -∗ K ⟨⟩)) ⊢ wp frame (wpE (defs₀ (F := F)) Variants.none c none) Set.univ e K) :
    iprop(Φ ∗ O ∗ P') ⊢ wp frame (wpE (defs₀ (F := F)) Variants.none c none) Set.univ e fun _ => iprop(Φ ∗ O ∗ Q) := by
  iintro ⟨HΦ, HO, HP⟩
  iapply h
  isplitl [HP]
  · iapply hP; iexact HP
  iintro HQ
  isplitl [HΦ]
  · iexact HΦ
  isplitl [HO]
  · iexact HO
  iexact HQ

end Cert.Kernel.Hand

end
-- ==== Proof.K.R0.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def product0 (x : Vec F S5000x128 .f32) (w : Vec F S128x64 .f32) : Vec F S5000x64 .f32 :=
  View.canon [⟨all5000x64, k0_pay1 (View.ld x all5000x128) (View.ld w all128x64)⟩]

set_option maxHeartbeats 1000000 in
theorem kernel_triple0 (c : Dev nD) (E : Set ℕ) (i : grid0.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product0 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc0_kernel i arg1 harg1 arg2 harg2 arg3 harg3) K := by
  subst hp
  simp only [cc0_kernel_eq_skeleton]; unfold cc0_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => product0 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_in0 (c : Dev nD) : Pipeline.ΦA spec0 c ⊢ ((dat0 V c).Φ 0 : sProp 𝕄) := .rfl

theorem Phi_out0 (c : Dev nD) : (dat0 V c).Φ (Fin.last cfg0.N) ⊢ (Pipeline.ΦA spec0 c : sProp 𝕄) := .rfl

theorem after_prod0 (c : Dev nD) (t : Fin cfg0.N) :
    (dat0 V c).after 2 t = product0 (blockAt0 V c 0 t) (blockAt0 V c 1 t) := by dsimp only [dat0]

theorem lhs_held0 (c : Dev nD) (t : Fin cfg0.N) (d) : (dat0 V c).before 0 t d = blockAt0 V c 0 t :=
  (dat0 V c).before_in_eq_fetched 0 rfl (fun _ => rfl) (fun _ _ _ => rfl) (fun _ => rfl) t d

theorem rhs_held0 (c : Dev nD) (t : Fin cfg0.N) (d) : (dat0 V c).before 1 t d = blockAt0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  exact sound_of_triple (e := bodyAt0 t)
    (BI.sep_mono (held_elim _ (lhs_held0 V c t)) (BI.sep_mono (held_elim _ (rhs_held0 V c t)) (any_intro _)))
    (kernel_triple0 c _ _ _ _ _ _ _ _ _ _ _ (after_prod0 V c t))

end Cert.Kernel.Hand

end
-- ==== Proof.K.StatsCommon.lean ====
import proofs.«165280_j63788854280268_1_alg».proof.Proof.Gen.Kernel.Launch
import Idealize.ShloMosaic.Lib.Pipeline.FrameBody
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI Idealize.SL.Sem
open Idealize.ShloMosaic.Pipeline (Dat Cfg)

variable {F : FTy → Type} [FloatOps F]

theorem off00 : (![0, 0] : Fin 2 → ℕ) = fun _ => 0 := funext fun a => by fin_cases a <;> rfl

-- A store through the whole buffer's rectangle, made last, is all the buffer then reads.
theorem read_writes_top {S : Shape} {off : Fin S.rank → ℕ} (h : off = fun _ => 0) (inb : ∀ a, off a + S.size a ≤ S.size a)
    {κ : Kind} {sp : Space} (v : View sig κ sp S .f32) (f : v.ty.Contents (Elt F)) (w : Vec F S .f32) (L : List (View.Piece (Elt F) S .f32)) :
    v.read (Elt F) (v.writes (Elt F) f (⟨Rect.unit off S.size inb, w⟩ :: L)) = View.canon [⟨Rect.unit off S.size inb, w⟩] := by
  rw [View.read_writes_eq_canon v f _ fun y => ⟨_, List.mem_cons_self, View.mem_set_unit_zero h inb y⟩,
    View.canon_cons_unit_zero h, View.canon_unit_zero h]

theorem ld_canon_top {S : Shape} {off : Fin S.rank → ℕ} (h : off = fun _ => 0) (inb : ∀ a, off a + S.size a ≤ S.size a) (w : Vec F S .f32) :
    View.ld (View.canon ([⟨Rect.unit off S.size inb, w⟩] : List (View.Piece (Elt F) S .f32))) (Rect.unit off S.size inb) = w := by
  rw [View.canon_unit_zero h, View.ld_unit_zero h]

theorem leavesExact_live {Λ₀ : Sem.Labels} {cfg : Cfg sig Λ₀} {c : Dev nD} (dat : Dat τ (Elt F) Unit ℕ (UR sig nD τ) ℕ cfg c)
    (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

end Cert.Kernel.Hand

end
-- ==== Proof.K.R1.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import proofs.«165280_j63788854280268_1_alg».proof.Proof.K.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev first1 (i : grid1.Coords) : Prop := (Scalar.cmpi .ne (Scalar.extui (Scalar.cmpi .eq (BitVec.ofNat 32 (i 0).val) 0#32)) 0#32) = 1#1
theorem hfirst1 : ∀ t : Fin cfg1.N, first1 (grid1.coords t) ↔ t.val = 0 :=
  (by decide +kernel : ∀ t : Fin grid1.N, first1 (grid1.coords t) ↔ t.val = 0)
abbrev last1 (i : grid1.Coords) : Prop := k1_cond2 i = 1#1
theorem hlast1 : ∀ t : Fin cfg1.N, last1 (grid1.coords t) ↔ t.val = 9 :=
  (by decide +kernel : ∀ t : Fin grid1.N, last1 (grid1.coords t) ↔ t.val = 9)

theorem off1 : ∀ t : Fin cfg1.N, ¬last1 (grid1.coords t) → (cfg1.idle 2 (grid1.coords t) = true ∧ (cfg1.win 2).flush t = false)
    ∧ cfg1.idle 3 (grid1.coords t) = true ∧ (cfg1.win 3).flush t = false := by decide +kernel
theorem on1 : ∀ t : Fin cfg1.N, last1 (grid1.coords t) → cfg1.idle 2 (grid1.coords t) = false ∧ cfg1.idle 3 (grid1.coords t) = false := by
  decide +kernel

abbrev rX1 : Rect S5000x64 := Rect.unit (s := S5000x64) ![0, 0] S5000x64.size inb_S5000x64_S5000x64_0_0
abbrev rS1 : Rect S1x64 := Rect.unit (s := S1x64) ![0, 0] S1x64.size inb_S1x64_S1x64_0_0

section body
variable (c : Dev nD) (E : Set ℕ) (i : grid1.Coords)
  (arg1 : Memref sig .tc .vmem S5000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S1x64 .f32) (harg6 : arg6.IsWhole)

set_option maxHeartbeats 1000000 in
theorem run1_first (x : Vec F S5000x64 .f32) (b : Vec F S1x64 .f32) (K : PUnit → sProp 𝕄) (h1 : first1 i) (h2 : ¬last1 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS1, k1_pay4 (View.ld x rX1) (View.ld b rS1) k1_pay1⟩])
            ∗ owns (c : Thread nD τ) arg6 fullShare (View.canon [⟨rS1, k1_pay5 (View.ld x rX1) (View.ld b rS1) k1_pay2⟩])) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run1_first.sl.v9 run1_first.sl.H5_1
    rw [View.readCov_cons_toLoadRect]; rfl
  iexists _; isplitr
  swap; · iexact H6
  ipureintro
  refine (read_writes_top off00 _ _ _ _ _).trans ?_
  unfold run1_first.sl.v16 run1_first.sl.H6_1
  rw [View.readCov_cons_toLoadRect]; rfl

-- The rows' loads are named (`a0`, `a1`) so that the triple applies whatever form the rows' contents have.
set_option maxHeartbeats 1000000 in
theorem run1_mid (x : Vec F S5000x64 .f32) (b s0 s1 a0 a1 : Vec F S1x64 .f32) (K : PUnit → sProp 𝕄) (h1 : ¬first1 i) (h2 : ¬last1 i)
    (e0 : View.ld s0 rS1 = a0) (e1 : View.ld s1 rS1 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS1, k1_pay4 (View.ld x rX1) (View.ld b rS1) a0⟩])
            ∗ owns (c : Thread nD τ) arg6 fullShare (View.canon [⟨rS1, k1_pay5 (View.ld x rX1) (View.ld b rS1) a1⟩])) -∗ K ⟨⟩))
      ⊢ wp frame (wpE (defs₀ (F := F)) Variants.none c none) E (cc1_kernel i arg1 harg1 arg2 harg2 arg3 harg3 arg4 harg4 arg5 harg5 arg6 harg6) K := by
  subst e0 e1
  simp only [cc1_kernel_eq_skeleton]; unfold cc1_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run1_last (x : Vec F S5000x64 .f32) (b s0 s1 a0 a1 : Vec F S1x64 .f32) (K : PUnit → sProp 𝕄) (h1 : ¬first1 i) (h2 : last1 i)
    (e0 : View.ld s0 rS1 = a0) (e1 : View.ld s1 rS1 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS1, k1_pay6 (k1_pay4 (View.ld x rX1) (View.ld b rS1) a0)⟩])
            ∗ owns (c : Thread nD τ) arg4 fullShare (View.canon [⟨rS1, k1_pay7 (k1_pay4 (View.ld x rX1) (View.ld b rS1) a0) (k1_pay5 (View.ld x rX1) (View.ld b rS1) a1)⟩])
            ∗ owns (c : Thread nD τ) arg5 fullShare (View.canon [⟨rS1, k1_pay4 (View.ld x rX1) (View.ld b rS1) a0⟩])
            ∗ owns (c : Thread nD τ) arg6 fullShare (View.canon [⟨rS1, k1_pay5 (View.ld x rX1) (View.ld b rS1) a1⟩])) -∗ K ⟨⟩))
      ⊢ wp frame (wpE (defs₀ (F := F)) Variants.none c none) E (cc1_kernel i arg1 harg1 arg2 harg2 arg3 harg3 arg4 harg4 arg5 harg5 arg6 harg6) K := by
  subst e0 e1
  simp only [cc1_kernel_eq_skeleton]; unfold cc1_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run1_last.sl.v27 run1_last.sl.H5_1
    rw [View.readCov_cons_toLoadRect]; rfl
  isplitl [H4]
  · iexists _; isplitr
    swap; · iexact H4
    ipureintro
    refine (read_writes_top off00 _ _ _ _ _).trans ?_
    unfold run1_last.sl.v27 run1_last.sl.H5_1 run1_last.sl.v30 run1_last.sl.H6_1
    rw [View.readCov_cons_toLoadRect, View.readCov_cons_toLoadRect]; rfl
  isplitl [H5]
  · iexists _; isplitr
    swap; · iexact H5
    ipureintro
    unfold run1_last.sl.H5_1
    exact read_writes_top off00 _ _ _ _ _
  iexists _; isplitr
  swap; · iexact H6
  ipureintro
  unfold run1_last.sl.H6_1
  exact read_writes_top off00 _ _ _ _ _

end body

def pt1 (n : ℕ) : Fin cfg1.N := ⟨n % 10, lt_of_lt_of_eq (Nat.mod_lt n (by decide)) (show cfg1.N = 10 from N_1).symm⟩
theorem pt1_val (t : Fin cfg1.N) : pt1 t.val = t :=
  Fin.ext (Nat.mod_eq_of_lt (lt_of_lt_of_eq t.isLt (show cfg1.N = 10 from N_1)))
def xAt1 (c : Dev nD) (n : ℕ) : Vec F S5000x64 .f32 := iblk1 V c 0 (pt1 n)
def bAt1 (c : Dev nD) (n : ℕ) : Vec F S1x64 .f32 := iblk1 V c 1 (pt1 n)

def sum1 (c : Dev nD) : ℕ → Vec F S1x64 .f32
  | 0 => k1_pay4 (View.ld (xAt1 V c 0) rX1) (View.ld (bAt1 V c 0) rS1) k1_pay1
  | n + 1 => k1_pay4 (View.ld (xAt1 V c (n + 1)) rX1) (View.ld (bAt1 V c (n + 1)) rS1) (sum1 c n)

def sq1 (c : Dev nD) : ℕ → Vec F S1x64 .f32
  | 0 => k1_pay5 (View.ld (xAt1 V c 0) rX1) (View.ld (bAt1 V c 0) rS1) k1_pay2
  | n + 1 => k1_pay5 (View.ld (xAt1 V c (n + 1)) rX1) (View.ld (bAt1 V c (n + 1)) rS1) (sq1 c n)

theorem xAt1_val (c : Dev nD) (t : Fin cfg1.N) : xAt1 V c t.val = iblk1 V c 0 t := by unfold xAt1; rw [pt1_val]
theorem bAt1_val (c : Dev nD) (t : Fin cfg1.N) : bAt1 V c t.val = iblk1 V c 1 t := by unfold bAt1; rw [pt1_val]

theorem sum1_zero (c : Dev nD) (n : ℕ) (h : n = 0) :
    sum1 V c n = k1_pay4 (View.ld (xAt1 V c n) rX1) (View.ld (bAt1 V c n) rS1) k1_pay1 := by subst h; rfl
theorem sum1_pos (c : Dev nD) (n : ℕ) (h : n ≠ 0) :
    sum1 V c n = k1_pay4 (View.ld (xAt1 V c n) rX1) (View.ld (bAt1 V c n) rS1) (sum1 V c (n - 1)) := by
  obtain ⟨n, rfl⟩ := Nat.exists_eq_succ_of_ne_zero h; rfl
theorem sq1_zero (c : Dev nD) (n : ℕ) (h : n = 0) :
    sq1 V c n = k1_pay5 (View.ld (xAt1 V c n) rX1) (View.ld (bAt1 V c n) rS1) k1_pay2 := by subst h; rfl
theorem sq1_pos (c : Dev nD) (n : ℕ) (h : n ≠ 0) :
    sq1 V c n = k1_pay5 (View.ld (xAt1 V c n) rX1) (View.ld (bAt1 V c n) rS1) (sq1 V c (n - 1)) := by
  obtain ⟨n, rfl⟩ := Nat.exists_eq_succ_of_ne_zero h; rfl

abbrev scr1_0 : Memref sig .tc .vmem S1x64 .f32 := Memref.whole cc1_scratch0
abbrev scr1_1 : Memref sig .tc .vmem S1x64 .f32 := Memref.whole cc1_scratch1

-- What the region keeps between points once the two scratch rows hold `a` and `b`.
abbrev Inv1 (c : Dev nD) (a b : Vec F S1x64 .f32) : sProp 𝕄 :=
  iprop(((owns (c : Thread nD τ) scr1_0 fullShare a ∗ owns (c : Thread nD τ) scr1_1 fullShare b)
      ∗ Pipeline.scopedRestBut (Ix := Unit) (Name := ℕ) (U := UR sig nD τ) (Lvl := ℕ) (Val := Elt F) spec1 c [cc1_scratch0, cc1_scratch1])
      ∗ (∃ r, prngReg c r))

def Phi1 (c : Dev nD) : ℕ → sProp 𝕄
  | 0 => Pipeline.ΦA spec1 c
  | n + 1 => Inv1 c (View.canon [⟨rS1, sum1 V c n⟩]) (View.canon [⟨rS1, sq1 V c n⟩])

theorem Phi1_pos (c : Dev nD) (n : ℕ) (h : n ≠ 0) :
    Phi1 V c n = Inv1 c (View.canon [⟨rS1, sum1 V c (n - 1)⟩]) (View.canon [⟨rS1, sq1 V c (n - 1)⟩]) := by
  obtain ⟨n, rfl⟩ := Nat.exists_eq_succ_of_ne_zero h; rfl

theorem PhiA1_eq (c : Dev nD) :
    (Pipeline.ΦA spec1 c : sProp 𝕄)
      = iprop((((∃ d, owns (c : Thread nD τ) scr1_0 fullShare d) ∗ (∃ d, owns (c : Thread nD τ) scr1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scr1_0, scr1_1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨rS1, k1_pay6 (sum1 V c t.val)⟩]
    | ⟨3, _⟩ => View.canon [⟨rS1, k1_pay7 (sum1 V c t.val) (sq1 V c t.val)⟩]
  Φ t := Phi1 V c t.val
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = View.canon [⟨rS1, k1_pay6 (sum1 V c t.val)⟩] := by dsimp only [dat1]
theorem after1_3 (c : Dev nD) (t : Fin cfg1.N) :
    (dat1 V c).after 3 t = View.canon [⟨rS1, k1_pay7 (sum1 V c t.val) (sq1 V c t.val)⟩] := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem Phi_in1 (c : Dev nD) : Pipeline.ΦA spec1 c ⊢ ((dat1 V c).Φ 0 : sProp 𝕄) := Idealize.SL.BI.Entails.refl _

theorem Phi_out1 (c : Dev nD) : (dat1 V c).Φ (Fin.last cfg1.N) ⊢ (Pipeline.ΦA spec1 c : sProp 𝕄) := by
  rw [show (dat1 V c).Φ (Fin.last cfg1.N) = Phi1 V c cfg1.N from rfl,
    Phi1_pos V c _ (by rw [show cfg1.N = 10 from N_1]; decide), PhiA1_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body1 (c : Dev nD) (t : Fin cfg1.N) :
    iprop(Phi1 V c t.val ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop(Phi1 V c (t.val + 1) ∗ (dat1 V c).owesAt () t.castSucc
        ∗ owns (c : Thread nD τ) (st1_0 t) fullShare (iblk1 V c 0 t) ∗ owns (c : Thread nD τ) (st1_1 t) fullShare (iblk1 V c 1 t)
        ∗ (dat1 V c).leavesExact 2 t ∗ (dat1 V c).leavesExact 3 t)) := by
  unfold bodyAt1
  simp only [before1_0, before1_1]
  rw [Phi1_pos V c (t.val + 1) (Nat.succ_ne_zero _), Nat.add_sub_cancel]
  unfold Inv1
  have hN : t.val < 10 := lt_of_lt_of_eq t.isLt (show cfg1.N = 10 from N_1)
  by_cases h9 : t.val = 9
  · have hl := (hlast1 t).mpr h9
    have h0 : t.val ≠ 0 := by omega
    rw [leavesExact_live _ 2 t (on1 t hl).1, leavesExact_live _ 3 t (on1 t hl).2, after1_2, after1_3,
      Phi1_pos V c _ h0, sum1_pos V c _ h0, sq1_pos V c _ h0, xAt1_val, bAt1_val]
    iintro ⟨⟨⟨⟨HS0, HS1⟩, HR⟩, Hg⟩, Ho, ⟨%d0, H0⟩, ⟨%d1, H1⟩, ⟨%d2, H2⟩, ⟨%d3, H3⟩⟩
    iapply (run1_last c Set.univ (grid1.coords t) _ _ _ _ _ _ _ _ _ _ _ _ (iblk1 V c 0 t) (iblk1 V c 1 t) _ _ _ _ _
      (fun h => h0 ((hfirst1 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last1 (grid1.coords t) := fun h => h9 ((hlast1 t).mp h)
    rw [Dat.leavesExact_idle _ 2 t (off1 t hl).1.1 (off1 t hl).1.2, Dat.leavesExact_idle _ 3 t (off1 t hl).2.1 (off1 t hl).2.2]
    by_cases h0 : t.val = 0
    · rw [show Phi1 V c t.val = Pipeline.ΦA spec1 c from by rw [h0]; rfl, PhiA1_eq, sum1_zero V c _ h0, sq1_zero V c _ h0, xAt1_val, bAt1_val]
      iintro ⟨⟨⟨⟨HS0, HS1⟩, HR⟩, Hg⟩, Ho, ⟨%d0, H0⟩, ⟨%d1, H1⟩, H2, H3⟩
      iapply (run1_first c Set.univ (grid1.coords t) _ _ _ _ _ _ _ _ _ _ _ _ (iblk1 V c 0 t) (iblk1 V c 1 t) _ ((hfirst1 t).mpr h0) hl)
      iframe H0 H1 HS0 HS1
      iintro ⟨H0, H1, HS0, HS1⟩
      iframe
    · rw [Phi1_pos V c _ h0, sum1_pos V c _ h0, sq1_pos V c _ h0, xAt1_val, bAt1_val]
      iintro ⟨⟨⟨⟨HS0, HS1⟩, HR⟩, Hg⟩, Ho, ⟨%d0, H0⟩, ⟨%d1, H1⟩, H2, H3⟩
      iapply (run1_mid c Set.univ (grid1.coords t) _ _ _ _ _ _ _ _ _ _ _ _ (iblk1 V c 0 t) (iblk1 V c 1 t) _ _ _ _ _
        (fun h => h0 ((hfirst1 t).mp h)) hl (ld_canon_top off00 _ _) (ld_canon_top off00 _ _))
      iframe H0 H1 HS0 HS1
      iintro ⟨H0, H1, HS0, HS1⟩
      iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def shown2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def normed2 (x : Vec F S5000x64 .f32) (b mean var : Vec F S1x64 .f32) : Vec F S5000x64 .f32 :=
  View.canon [⟨all5000x64, k2_pay1 (View.ld x all5000x64) (View.ld b all1x64) (View.ld var all1x64) (View.ld mean all1x64)⟩]

set_option maxHeartbeats 1000000 in
theorem kernel2_runs (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x : Vec F S5000x64 .f32) (b mean var : Vec F S1x64 .f32) (p : Vec F S5000x64 .f32) (hp : p = normed2 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc2_kernel i arg1 harg1 arg2 harg2 arg3 harg3 arg4 harg4 arg5 harg5) K := by
  subst hp
  simp only [cc2_kernel_eq_skeleton]; unfold cc2_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x64 _)

def dat2 (c : Dev nD) : Dat τ (Elt F) Unit ℕ (UR sig nD τ) ℕ cfg2 c where
  A w := V c (Pipeline.arrRef spec2 w)
  after w t := match w with
    | ⟨0, _⟩ => shown2 V c 0 t
    | ⟨1, _⟩ => shown2 V c 1 t
    | ⟨2, _⟩ => shown2 V c 2 t
    | ⟨3, _⟩ => shown2 V c 3 t
    | ⟨4, _⟩ => normed2 (shown2 V c 0 t) (shown2 V c 1 t) (shown2 V c 2 t) (shown2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_in2 (c : Dev nD) : Pipeline.ΦA spec2 c ⊢ ((dat2 V c).Φ 0 : sProp 𝕄) := .rfl

theorem Phi_out2 (c : Dev nD) : (dat2 V c).Φ (Fin.last cfg2.N) ⊢ (Pipeline.ΦA spec2 c : sProp 𝕄) := .rfl

theorem after2_out (c : Dev nD) (t : Fin cfg2.N) :
    (dat2 V c).after 4 t = normed2 (shown2 V c 0 t) (shown2 V c 1 t) (shown2 V c 2 t) (shown2 V c 3 t) := by dsimp only [dat2]

theorem before2_x (c : Dev nD) (t : Fin cfg2.N) (d) : (dat2 V c).before 0 t d = shown2 V c 0 t :=
  (dat2 V c).before_in_eq_fetched 0 rfl (fun _ => rfl) (fun _ _ _ => rfl) (fun _ => rfl) t d

theorem before2_b (c : Dev nD) (t : Fin cfg2.N) (d) : (dat2 V c).before 1 t d = shown2 V c 1 t :=
  (dat2 V c).before_in_eq_fetched 1 rfl (fun _ => rfl) (fun _ _ _ => rfl) (fun _ => rfl) t d

theorem before2_mean (c : Dev nD) (t : Fin cfg2.N) (d) : (dat2 V c).before 2 t d = shown2 V c 2 t :=
  (dat2 V c).before_in_eq_fetched 2 rfl (fun _ => rfl) (fun _ _ _ => rfl) (fun _ => rfl) t d

theorem before2_var (c : Dev nD) (t : Fin cfg2.N) (d) : (dat2 V c).before 3 t d = shown2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  exact sound_of_triple (e := bodyAt2 t)
    (BI.sep_mono (held_elim _ (before2_x V c t)) (BI.sep_mono (held_elim _ (before2_b V c t)) (BI.sep_mono (held_elim _ (before2_mean V c t)) (BI.sep_mono (held_elim _ (before2_var V c t)) (any_intro _)))))
    (kernel2_runs c _ _ _ _ _ _ _ _ _ _ _ _ _ _ _ _ _ (after2_out V c t))

end Cert.Kernel.Hand

end
-- ==== Proof.K.R3.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

def product3 (x : Vec F S5000x128 .f32) (w : Vec F S128x64 .f32) : Vec F S5000x64 .f32 :=
  View.canon [⟨all5000x64, k3_pay1 (View.ld x all5000x128) (View.ld w all128x64)⟩]

set_option maxHeartbeats 1000000 in
theorem kernel_triple3 (c : Dev nD) (E : Set ℕ) (i : grid3.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product3 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc3_kernel i arg1 harg1 arg2 harg2 arg3 harg3) K := by
  subst hp
  simp only [cc3_kernel_eq_skeleton]; unfold cc3_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => product3 (blockAt3 V c 0 t) (blockAt3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_in3 (c : Dev nD) : Pipeline.ΦA spec3 c ⊢ ((dat3 V c).Φ 0 : sProp 𝕄) := .rfl

theorem Phi_out3 (c : Dev nD) : (dat3 V c).Φ (Fin.last cfg3.N) ⊢ (Pipeline.ΦA spec3 c : sProp 𝕄) := .rfl

theorem after_prod3 (c : Dev nD) (t : Fin cfg3.N) :
    (dat3 V c).after 2 t = product3 (blockAt3 V c 0 t) (blockAt3 V c 1 t) := by dsimp only [dat3]

theorem lhs_held3 (c : Dev nD) (t : Fin cfg3.N) (d) : (dat3 V c).before 0 t d = blockAt3 V c 0 t :=
  (dat3 V c).before_in_eq_fetched 0 rfl (fun _ => rfl) (fun _ _ _ => rfl) (fun _ => rfl) t d

theorem rhs_held3 (c : Dev nD) (t : Fin cfg3.N) (d) : (dat3 V c).before 1 t d = blockAt3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  exact sound_of_triple (e := bodyAt3 t)
    (BI.sep_mono (held_elim _ (lhs_held3 V c t)) (BI.sep_mono (held_elim _ (rhs_held3 V c t)) (any_intro _)))
    (kernel_triple3 c _ _ _ _ _ _ _ _ _ _ _ (after_prod3 V c t))

end Cert.Kernel.Hand

end
-- ==== Proof.K.R4.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import proofs.«165280_j63788854280268_1_alg».proof.Proof.K.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev first4 (i : grid4.Coords) : Prop := (Scalar.cmpi .ne (Scalar.extui (Scalar.cmpi .eq (BitVec.ofNat 32 (i 0).val) 0#32)) 0#32) = 1#1
theorem hfirst4 : ∀ t : Fin cfg4.N, first4 (grid4.coords t) ↔ t.val = 0 :=
  (by decide +kernel : ∀ t : Fin grid4.N, first4 (grid4.coords t) ↔ t.val = 0)
abbrev last4 (i : grid4.Coords) : Prop := k4_cond2 i = 1#1
theorem hlast4 : ∀ t : Fin cfg4.N, last4 (grid4.coords t) ↔ t.val = 9 :=
  (by decide +kernel : ∀ t : Fin grid4.N, last4 (grid4.coords t) ↔ t.val = 9)

theorem off4 : ∀ t : Fin cfg4.N, ¬last4 (grid4.coords t) → (cfg4.idle 2 (grid4.coords t) = true ∧ (cfg4.win 2).flush t = false)
    ∧ cfg4.idle 3 (grid4.coords t) = true ∧ (cfg4.win 3).flush t = false := by decide +kernel
theorem on4 : ∀ t : Fin cfg4.N, last4 (grid4.coords t) → cfg4.idle 2 (grid4.coords t) = false ∧ cfg4.idle 3 (grid4.coords t) = false := by
  decide +kernel

abbrev rX4 : Rect S5000x64 := Rect.unit (s := S5000x64) ![0, 0] S5000x64.size inb_S5000x64_S5000x64_0_0
abbrev rS4 : Rect S1x64 := Rect.unit (s := S1x64) ![0, 0] S1x64.size inb_S1x64_S1x64_0_0

section body
variable (c : Dev nD) (E : Set ℕ) (i : grid4.Coords)
  (arg1 : Memref sig .tc .vmem S5000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S1x64 .f32) (harg6 : arg6.IsWhole)

set_option maxHeartbeats 1000000 in
theorem run4_first (x : Vec F S5000x64 .f32) (b : Vec F S1x64 .f32) (K : PUnit → sProp 𝕄) (h1 : first4 i) (h2 : ¬last4 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS4, k4_pay4 (View.ld x rX4) (View.ld b rS4) k4_pay1⟩])
            ∗ owns (c : Thread nD τ) arg6 fullShare (View.canon [⟨rS4, k4_pay5 (View.ld x rX4) (View.ld b rS4) k4_pay2⟩])) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run4_first.sl.v9 run4_first.sl.H5_1
    rw [View.readCov_cons_toLoadRect]; rfl
  iexists _; isplitr
  swap; · iexact H6
  ipureintro
  refine (read_writes_top off00 _ _ _ _ _).trans ?_
  unfold run4_first.sl.v16 run4_first.sl.H6_1
  rw [View.readCov_cons_toLoadRect]; rfl

-- The rows' loads are named (`a0`, `a1`) so that the triple applies whatever form the rows' contents have.
set_option maxHeartbeats 1000000 in
theorem run4_mid (x : Vec F S5000x64 .f32) (b s0 s1 a0 a1 : Vec F S1x64 .f32) (K : PUnit → sProp 𝕄) (h1 : ¬first4 i) (h2 : ¬last4 i)
    (e0 : View.ld s0 rS4 = a0) (e1 : View.ld s1 rS4 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS4, k4_pay4 (View.ld x rX4) (View.ld b rS4) a0⟩])
            ∗ owns (c : Thread nD τ) arg6 fullShare (View.canon [⟨rS4, k4_pay5 (View.ld x rX4) (View.ld b rS4) a1⟩])) -∗ K ⟨⟩))
      ⊢ wp frame (wpE (defs₀ (F := F)) Variants.none c none) E (cc4_kernel i arg1 harg1 arg2 harg2 arg3 harg3 arg4 harg4 arg5 harg5 arg6 harg6) K := by
  subst e0 e1
  simp only [cc4_kernel_eq_skeleton]; unfold cc4_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run4_last (x : Vec F S5000x64 .f32) (b s0 s1 a0 a1 : Vec F S1x64 .f32) (K : PUnit → sProp 𝕄) (h1 : ¬first4 i) (h2 : last4 i)
    (e0 : View.ld s0 rS4 = a0) (e1 : View.ld s1 rS4 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS4, k4_pay6 (k4_pay4 (View.ld x rX4) (View.ld b rS4) a0)⟩])
            ∗ owns (c : Thread nD τ) arg4 fullShare (View.canon [⟨rS4, k4_pay7 (k4_pay4 (View.ld x rX4) (View.ld b rS4) a0) (k4_pay5 (View.ld x rX4) (View.ld b rS4) a1)⟩])
            ∗ owns (c : Thread nD τ) arg5 fullShare (View.canon [⟨rS4, k4_pay4 (View.ld x rX4) (View.ld b rS4) a0⟩])
            ∗ owns (c : Thread nD τ) arg6 fullShare (View.canon [⟨rS4, k4_pay5 (View.ld x rX4) (View.ld b rS4) a1⟩])) -∗ K ⟨⟩))
      ⊢ wp frame (wpE (defs₀ (F := F)) Variants.none c none) E (cc4_kernel i arg1 harg1 arg2 harg2 arg3 harg3 arg4 harg4 arg5 harg5 arg6 harg6) K := by
  subst e0 e1
  simp only [cc4_kernel_eq_skeleton]; unfold cc4_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run4_last.sl.v27 run4_last.sl.H5_1
    rw [View.readCov_cons_toLoadRect]; rfl
  isplitl [H4]
  · iexists _; isplitr
    swap; · iexact H4
    ipureintro
    refine (read_writes_top off00 _ _ _ _ _).trans ?_
    unfold run4_last.sl.v27 run4_last.sl.H5_1 run4_last.sl.v30 run4_last.sl.H6_1
    rw [View.readCov_cons_toLoadRect, View.readCov_cons_toLoadRect]; rfl
  isplitl [H5]
  · iexists _; isplitr
    swap; · iexact H5
    ipureintro
    unfold run4_last.sl.H5_1
    exact read_writes_top off00 _ _ _ _ _
  iexists _; isplitr
  swap; · iexact H6
  ipureintro
  unfold run4_last.sl.H6_1
  exact read_writes_top off00 _ _ _ _ _

end body

def pt4 (n : ℕ) : Fin cfg4.N := ⟨n % 10, lt_of_lt_of_eq (Nat.mod_lt n (by decide)) (show cfg4.N = 10 from N_4).symm⟩
theorem pt4_val (t : Fin cfg4.N) : pt4 t.val = t :=
  Fin.ext (Nat.mod_eq_of_lt (lt_of_lt_of_eq t.isLt (show cfg4.N = 10 from N_4)))
def xAt4 (c : Dev nD) (n : ℕ) : Vec F S5000x64 .f32 := iblk4 V c 0 (pt4 n)
def bAt4 (c : Dev nD) (n : ℕ) : Vec F S1x64 .f32 := iblk4 V c 1 (pt4 n)

def sum4 (c : Dev nD) : ℕ → Vec F S1x64 .f32
  | 0 => k4_pay4 (View.ld (xAt4 V c 0) rX4) (View.ld (bAt4 V c 0) rS4) k4_pay1
  | n + 1 => k4_pay4 (View.ld (xAt4 V c (n + 1)) rX4) (View.ld (bAt4 V c (n + 1)) rS4) (sum4 c n)

def sq4 (c : Dev nD) : ℕ → Vec F S1x64 .f32
  | 0 => k4_pay5 (View.ld (xAt4 V c 0) rX4) (View.ld (bAt4 V c 0) rS4) k4_pay2
  | n + 1 => k4_pay5 (View.ld (xAt4 V c (n + 1)) rX4) (View.ld (bAt4 V c (n + 1)) rS4) (sq4 c n)

theorem xAt4_val (c : Dev nD) (t : Fin cfg4.N) : xAt4 V c t.val = iblk4 V c 0 t := by unfold xAt4; rw [pt4_val]
theorem bAt4_val (c : Dev nD) (t : Fin cfg4.N) : bAt4 V c t.val = iblk4 V c 1 t := by unfold bAt4; rw [pt4_val]

theorem sum4_zero (c : Dev nD) (n : ℕ) (h : n = 0) :
    sum4 V c n = k4_pay4 (View.ld (xAt4 V c n) rX4) (View.ld (bAt4 V c n) rS4) k4_pay1 := by subst h; rfl
theorem sum4_pos (c : Dev nD) (n : ℕ) (h : n ≠ 0) :
    sum4 V c n = k4_pay4 (View.ld (xAt4 V c n) rX4) (View.ld (bAt4 V c n) rS4) (sum4 V c (n - 1)) := by
  obtain ⟨n, rfl⟩ := Nat.exists_eq_succ_of_ne_zero h; rfl
theorem sq4_zero (c : Dev nD) (n : ℕ) (h : n = 0) :
    sq4 V c n = k4_pay5 (View.ld (xAt4 V c n) rX4) (View.ld (bAt4 V c n) rS4) k4_pay2 := by subst h; rfl
theorem sq4_pos (c : Dev nD) (n : ℕ) (h : n ≠ 0) :
    sq4 V c n = k4_pay5 (View.ld (xAt4 V c n) rX4) (View.ld (bAt4 V c n) rS4) (sq4 V c (n - 1)) := by
  obtain ⟨n, rfl⟩ := Nat.exists_eq_succ_of_ne_zero h; rfl

abbrev scr4_0 : Memref sig .tc .vmem S1x64 .f32 := Memref.whole cc4_scratch0
abbrev scr4_1 : Memref sig .tc .vmem S1x64 .f32 := Memref.whole cc4_scratch1

-- What the region keeps between points once the two scratch rows hold `a` and `b`.
abbrev Inv4 (c : Dev nD) (a b : Vec F S1x64 .f32) : sProp 𝕄 :=
  iprop(((owns (c : Thread nD τ) scr4_0 fullShare a ∗ owns (c : Thread nD τ) scr4_1 fullShare b)
      ∗ Pipeline.scopedRestBut (Ix := Unit) (Name := ℕ) (U := UR sig nD τ) (Lvl := ℕ) (Val := Elt F) spec4 c [cc4_scratch0, cc4_scratch1])
      ∗ (∃ r, prngReg c r))

def Phi4 (c : Dev nD) : ℕ → sProp 𝕄
  | 0 => Pipeline.ΦA spec4 c
  | n + 1 => Inv4 c (View.canon [⟨rS4, sum4 V c n⟩]) (View.canon [⟨rS4, sq4 V c n⟩])

theorem Phi4_pos (c : Dev nD) (n : ℕ) (h : n ≠ 0) :
    Phi4 V c n = Inv4 c (View.canon [⟨rS4, sum4 V c (n - 1)⟩]) (View.canon [⟨rS4, sq4 V c (n - 1)⟩]) := by
  obtain ⟨n, rfl⟩ := Nat.exists_eq_succ_of_ne_zero h; rfl

theorem PhiA4_eq (c : Dev nD) :
    (Pipeline.ΦA spec4 c : sProp 𝕄)
      = iprop((((∃ d, owns (c : Thread nD τ) scr4_0 fullShare d) ∗ (∃ d, owns (c : Thread nD τ) scr4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scr4_0, scr4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => View.canon [⟨rS4, k4_pay6 (sum4 V c t.val)⟩]
    | ⟨3, _⟩ => View.canon [⟨rS4, k4_pay7 (sum4 V c t.val) (sq4 V c t.val)⟩]
  Φ t := Phi4 V c t.val
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) :
    (dat4 V c).after 2 t = View.canon [⟨rS4, k4_pay6 (sum4 V c t.val)⟩] := by dsimp only [dat4]
theorem after4_3 (c : Dev nD) (t : Fin cfg4.N) :
    (dat4 V c).after 3 t = View.canon [⟨rS4, k4_pay7 (sum4 V c t.val) (sq4 V c t.val)⟩] := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem Phi_in4 (c : Dev nD) : Pipeline.ΦA spec4 c ⊢ ((dat4 V c).Φ 0 : sProp 𝕄) := Idealize.SL.BI.Entails.refl _

theorem Phi_out4 (c : Dev nD) : (dat4 V c).Φ (Fin.last cfg4.N) ⊢ (Pipeline.ΦA spec4 c : sProp 𝕄) := by
  rw [show (dat4 V c).Φ (Fin.last cfg4.N) = Phi4 V c cfg4.N from rfl,
    Phi4_pos V c _ (by rw [show cfg4.N = 10 from N_4]; decide), PhiA4_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body4 (c : Dev nD) (t : Fin cfg4.N) :
    iprop(Phi4 V c t.val ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop(Phi4 V c (t.val + 1) ∗ (dat4 V c).owesAt () t.castSucc
        ∗ owns (c : Thread nD τ) (st4_0 t) fullShare (iblk4 V c 0 t) ∗ owns (c : Thread nD τ) (st4_1 t) fullShare (iblk4 V c 1 t)
        ∗ (dat4 V c).leavesExact 2 t ∗ (dat4 V c).leavesExact 3 t)) := by
  unfold bodyAt4
  simp only [before4_0, before4_1]
  rw [Phi4_pos V c (t.val + 1) (Nat.succ_ne_zero _), Nat.add_sub_cancel]
  unfold Inv4
  have hN : t.val < 10 := lt_of_lt_of_eq t.isLt (show cfg4.N = 10 from N_4)
  by_cases h9 : t.val = 9
  · have hl := (hlast4 t).mpr h9
    have h0 : t.val ≠ 0 := by omega
    rw [leavesExact_live _ 2 t (on4 t hl).1, leavesExact_live _ 3 t (on4 t hl).2, after4_2, after4_3,
      Phi4_pos V c _ h0, sum4_pos V c _ h0, sq4_pos V c _ h0, xAt4_val, bAt4_val]
    iintro ⟨⟨⟨⟨HS0, HS1⟩, HR⟩, Hg⟩, Ho, ⟨%d0, H0⟩, ⟨%d1, H1⟩, ⟨%d2, H2⟩, ⟨%d3, H3⟩⟩
    iapply (run4_last c Set.univ (grid4.coords t) _ _ _ _ _ _ _ _ _ _ _ _ (iblk4 V c 0 t) (iblk4 V c 1 t) _ _ _ _ _
      (fun h => h0 ((hfirst4 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last4 (grid4.coords t) := fun h => h9 ((hlast4 t).mp h)
    rw [Dat.leavesExact_idle _ 2 t (off4 t hl).1.1 (off4 t hl).1.2, Dat.leavesExact_idle _ 3 t (off4 t hl).2.1 (off4 t hl).2.2]
    by_cases h0 : t.val = 0
    · rw [show Phi4 V c t.val = Pipeline.ΦA spec4 c from by rw [h0]; rfl, PhiA4_eq, sum4_zero V c _ h0, sq4_zero V c _ h0, xAt4_val, bAt4_val]
      iintro ⟨⟨⟨⟨HS0, HS1⟩, HR⟩, Hg⟩, Ho, ⟨%d0, H0⟩, ⟨%d1, H1⟩, H2, H3⟩
      iapply (run4_first c Set.univ (grid4.coords t) _ _ _ _ _ _ _ _ _ _ _ _ (iblk4 V c 0 t) (iblk4 V c 1 t) _ ((hfirst4 t).mpr h0) hl)
      iframe H0 H1 HS0 HS1
      iintro ⟨H0, H1, HS0, HS1⟩
      iframe
    · rw [Phi4_pos V c _ h0, sum4_pos V c _ h0, sq4_pos V c _ h0, xAt4_val, bAt4_val]
      iintro ⟨⟨⟨⟨HS0, HS1⟩, HR⟩, Hg⟩, Ho, ⟨%d0, H0⟩, ⟨%d1, H1⟩, H2, H3⟩
      iapply (run4_mid c Set.univ (grid4.coords t) _ _ _ _ _ _ _ _ _ _ _ _ (iblk4 V c 0 t) (iblk4 V c 1 t) _ _ _ _ _
        (fun h => h0 ((hfirst4 t).mp h)) hl (ld_canon_top off00 _ _) (ld_canon_top off00 _ _))
      iframe H0 H1 HS0 HS1
      iintro ⟨H0, H1, HS0, HS1⟩
      iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def shown5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def normed5 (x : Vec F S5000x64 .f32) (b mean var : Vec F S1x64 .f32) : Vec F S5000x64 .f32 :=
  View.canon [⟨all5000x64, k5_pay1 (View.ld x all5000x64) (View.ld b all1x64) (View.ld var all1x64) (View.ld mean all1x64)⟩]

set_option maxHeartbeats 1000000 in
theorem kernel5_runs (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x : Vec F S5000x64 .f32) (b mean var : Vec F S1x64 .f32) (p : Vec F S5000x64 .f32) (hp : p = normed5 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc5_kernel i arg1 harg1 arg2 harg2 arg3 harg3 arg4 harg4 arg5 harg5) K := by
  subst hp
  simp only [cc5_kernel_eq_skeleton]; unfold cc5_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x64 _)

def dat5 (c : Dev nD) : Dat τ (Elt F) Unit ℕ (UR sig nD τ) ℕ cfg5 c where
  A w := V c (Pipeline.arrRef spec5 w)
  after w t := match w with
    | ⟨0, _⟩ => shown5 V c 0 t
    | ⟨1, _⟩ => shown5 V c 1 t
    | ⟨2, _⟩ => shown5 V c 2 t
    | ⟨3, _⟩ => shown5 V c 3 t
    | ⟨4, _⟩ => normed5 (shown5 V c 0 t) (shown5 V c 1 t) (shown5 V c 2 t) (shown5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_in5 (c : Dev nD) : Pipeline.ΦA spec5 c ⊢ ((dat5 V c).Φ 0 : sProp 𝕄) := .rfl

theorem Phi_out5 (c : Dev nD) : (dat5 V c).Φ (Fin.last cfg5.N) ⊢ (Pipeline.ΦA spec5 c : sProp 𝕄) := .rfl

theorem after5_out (c : Dev nD) (t : Fin cfg5.N) :
    (dat5 V c).after 4 t = normed5 (shown5 V c 0 t) (shown5 V c 1 t) (shown5 V c 2 t) (shown5 V c 3 t) := by dsimp only [dat5]

theorem before5_x (c : Dev nD) (t : Fin cfg5.N) (d) : (dat5 V c).before 0 t d = shown5 V c 0 t :=
  (dat5 V c).before_in_eq_fetched 0 rfl (fun _ => rfl) (fun _ _ _ => rfl) (fun _ => rfl) t d

theorem before5_b (c : Dev nD) (t : Fin cfg5.N) (d) : (dat5 V c).before 1 t d = shown5 V c 1 t :=
  (dat5 V c).before_in_eq_fetched 1 rfl (fun _ => rfl) (fun _ _ _ => rfl) (fun _ => rfl) t d

theorem before5_mean (c : Dev nD) (t : Fin cfg5.N) (d) : (dat5 V c).before 2 t d = shown5 V c 2 t :=
  (dat5 V c).before_in_eq_fetched 2 rfl (fun _ => rfl) (fun _ _ _ => rfl) (fun _ => rfl) t d

theorem before5_var (c : Dev nD) (t : Fin cfg5.N) (d) : (dat5 V c).before 3 t d = shown5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  exact sound_of_triple (e := bodyAt5 t)
    (BI.sep_mono (held_elim _ (before5_x V c t)) (BI.sep_mono (held_elim _ (before5_b V c t)) (BI.sep_mono (held_elim _ (before5_mean V c t)) (BI.sep_mono (held_elim _ (before5_var V c t)) (any_intro _)))))
    (kernel5_runs c _ _ _ _ _ _ _ _ _ _ _ _ _ _ _ _ _ (after5_out V c t))

end Cert.Kernel.Hand

end
-- ==== Proof.K.R6.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rows6 : Rect S5000x128 := Rect.unit (s := S5000x128) ![0, 0] S5000x128.size inb_S5000x128_S5000x128_0_0

abbrev wcol6 : Rect S128x1 := Rect.unit (s := S128x1) ![0, 0] S128x1.size inb_S128x1_S128x1_0_0

abbrev bias6 : Rect S1x1 := Rect.unit (s := S1x1) ![0, 0] S1x1.size inb_S1x1_S1x1_0_0

abbrev gcol6 : Rect S5000x1 := Rect.unit (s := S5000x1) ![0, 0] S5000x1.size inb_S5000x1_S5000x1_0_0

def alpha6 (x0 x1 : Vec F S5000x128 .f32) (x2 x3 : Vec F S128x1 .f32) (x4 : Vec F S1x1 .f32) : Vec F S5000x1 .f32 :=
  View.canon [⟨gcol6, k6_pay3 (View.ld x0 rows6) (View.ld x1 rows6) (View.ld x2 wcol6) (View.ld x3 wcol6) (View.ld x4 bias6)⟩]

def mixed6 (x0 x1 : Vec F S5000x128 .f32) (x2 x3 : Vec F S128x1 .f32) (x4 : Vec F S1x1 .f32) : Vec F S5000x128 .f32 :=
  View.canon [⟨rows6, k6_pay4 (View.ld x0 rows6) (View.ld x1 rows6) (View.ld x2 wcol6) (View.ld x3 wcol6) (View.ld x4 bias6)⟩]

theorem cover_rows6 (p : Vec F S5000x128 .f32) (y : S5000x128.Idx) :
    ∃ pc ∈ ([⟨rows6, p⟩] : List (View.Piece (Elt F) S5000x128 .f32)), y ∈ pc.1.set :=
  View.cover_of_tiled [⟨rows6, p⟩] S5000x128.size (by rfl) y

theorem cover_gcol6 (p : Vec F S5000x1 .f32) (y : S5000x1.Idx) :
    ∃ pc ∈ ([⟨gcol6, p⟩] : List (View.Piece (Elt F) S5000x1 .f32)), y ∈ pc.1.set :=
  View.cover_of_tiled [⟨gcol6, p⟩] S5000x1.size (by rfl) y

set_option maxHeartbeats 4000000 in
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S5000x1 .f32) (harg7 : arg7.IsWhole)
    (x0 x1 : Vec F S5000x128 .f32) (x2 x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixed6 x0 x1 x2 x3 x4) ∗ owns (c : Thread nD τ) arg7 fullShare (alpha6 x0 x1 x2 x3 x4)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows6 _)
  iexists _; isplitr
  swap; · iexact H6
  ipureintro
  exact View.read_writes_eq_canon _ _ _ (cover_gcol6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => mixed6 (iblk6 V c 0 t) (iblk6 V c 1 t) (iblk6 V c 2 t) (iblk6 V c 3 t) (iblk6 V c 4 t)
    | ⟨6, _⟩ => alpha6 (iblk6 V c 0 t) (iblk6 V c 1 t) (iblk6 V c 2 t) (iblk6 V c 3 t) (iblk6 V c 4 t)
  Φ _ := Pipeline.ΦA spec6 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq6 (c : Dev nD) (w : Fin cfg6.W) : (dat6 V c).A w = V c (Pipeline.arrRef spec6 w) := by
  dsimp only [dat6]

theorem Phi_in6 (c : Dev nD) : Pipeline.ΦA spec6 c ⊢ ((dat6 V c).Φ 0 : sProp 𝕄) := .rfl

theorem Phi_out6 (c : Dev nD) : (dat6 V c).Φ (Fin.last cfg6.N) ⊢ (Pipeline.ΦA spec6 c : sProp 𝕄) := .rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = mixed6 (iblk6 V c 0 t) (iblk6 V c 1 t) (iblk6 V c 2 t) (iblk6 V c 3 t) (iblk6 V c 4 t) := by dsimp only [dat6]
theorem after6_6 (c : Dev nD) (t : Fin cfg6.N) : (dat6 V c).after 6 t = alpha6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

def product7 (x : Vec F S5000x128 .f32) (w : Vec F S128x128 .f32) : Vec F S5000x128 .f32 :=
  View.canon [⟨all5000x128, k7_pay1 (View.ld x all5000x128) (View.ld w all128x128)⟩]

set_option maxHeartbeats 1000000 in
theorem kernel_triple7 (c : Dev nD) (E : Set ℕ) (i : grid7.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (p : Vec F S5000x128 .f32) (hp : p = product7 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc7_kernel i arg1 harg1 arg2 harg2 arg3 harg3) K := by
  subst hp
  simp only [cc7_kernel_eq_skeleton]; unfold cc7_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x128 _)

def dat7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => product7 (blockAt7 V c 0 t) (blockAt7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_in7 (c : Dev nD) : Pipeline.ΦA spec7 c ⊢ ((dat7 V c).Φ 0 : sProp 𝕄) := .rfl

theorem Phi_out7 (c : Dev nD) : (dat7 V c).Φ (Fin.last cfg7.N) ⊢ (Pipeline.ΦA spec7 c : sProp 𝕄) := .rfl

theorem after_prod7 (c : Dev nD) (t : Fin cfg7.N) :
    (dat7 V c).after 2 t = product7 (blockAt7 V c 0 t) (blockAt7 V c 1 t) := by dsimp only [dat7]

theorem lhs_held7 (c : Dev nD) (t : Fin cfg7.N) (d) : (dat7 V c).before 0 t d = blockAt7 V c 0 t :=
  (dat7 V c).before_in_eq_fetched 0 rfl (fun _ => rfl) (fun _ _ _ => rfl) (fun _ => rfl) t d

theorem rhs_held7 (c : Dev nD) (t : Fin cfg7.N) (d) : (dat7 V c).before 1 t d = blockAt7 V c 1 t :=
  (dat7 V c).before_in_eq_fetched 1 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  exact sound_of_triple (e := bodyAt7 t)
    (BI.sep_mono (held_elim _ (lhs_held7 V c t)) (BI.sep_mono (held_elim _ (rhs_held7 V c t)) (any_intro _)))
    (kernel_triple7 c _ _ _ _ _ _ _ _ _ _ _ (after_prod7 V c t))

end Cert.Kernel.Hand

end
-- ==== Proof.K.R8.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import proofs.«165280_j63788854280268_1_alg».proof.Proof.K.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev first8 (i : grid8.Coords) : Prop := (Scalar.cmpi .ne (Scalar.extui (Scalar.cmpi .eq (BitVec.ofNat 32 (i 0).val) 0#32)) 0#32) = 1#1
theorem hfirst8 : ∀ t : Fin cfg8.N, first8 (grid8.coords t) ↔ t.val = 0 :=
  (by decide +kernel : ∀ t : Fin grid8.N, first8 (grid8.coords t) ↔ t.val = 0)
abbrev last8 (i : grid8.Coords) : Prop := k8_cond2 i = 1#1
theorem hlast8 : ∀ t : Fin cfg8.N, last8 (grid8.coords t) ↔ t.val = 9 :=
  (by decide +kernel : ∀ t : Fin grid8.N, last8 (grid8.coords t) ↔ t.val = 9)

theorem off8 : ∀ t : Fin cfg8.N, ¬last8 (grid8.coords t) → (cfg8.idle 2 (grid8.coords t) = true ∧ (cfg8.win 2).flush t = false)
    ∧ cfg8.idle 3 (grid8.coords t) = true ∧ (cfg8.win 3).flush t = false := by decide +kernel
theorem on8 : ∀ t : Fin cfg8.N, last8 (grid8.coords t) → cfg8.idle 2 (grid8.coords t) = false ∧ cfg8.idle 3 (grid8.coords t) = false := by
  decide +kernel

abbrev rX8 : Rect S5000x128 := Rect.unit (s := S5000x128) ![0, 0] S5000x128.size inb_S5000x128_S5000x128_0_0
abbrev rS8 : Rect S1x128 := Rect.unit (s := S1x128) ![0, 0] S1x128.size inb_S1x128_S1x128_0_0

section body
variable (c : Dev nD) (E : Set ℕ) (i : grid8.Coords)
  (arg1 : Memref sig .tc .vmem S5000x128 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)

set_option maxHeartbeats 1000000 in
theorem run8_first (x : Vec F S5000x128 .f32) (b : Vec F S1x128 .f32) (K : PUnit → sProp 𝕄) (h1 : first8 i) (h2 : ¬last8 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS8, k8_pay4 (View.ld x rX8) (View.ld b rS8) k8_pay1⟩])
            ∗ owns (c : Thread nD τ) arg6 fullShare (View.canon [⟨rS8, k8_pay5 (View.ld x rX8) (View.ld b rS8) k8_pay2⟩])) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run8_first.sl.v9 run8_first.sl.H5_1
    rw [View.readCov_cons_toLoadRect]; rfl
  iexists _; isplitr
  swap; · iexact H6
  ipureintro
  refine (read_writes_top off00 _ _ _ _ _).trans ?_
  unfold run8_first.sl.v16 run8_first.sl.H6_1
  rw [View.readCov_cons_toLoadRect]; rfl

-- The rows' loads are named (`a0`, `a1`) so that the triple applies whatever form the rows' contents have.
set_option maxHeartbeats 1000000 in
theorem run8_mid (x : Vec F S5000x128 .f32) (b s0 s1 a0 a1 : Vec F S1x128 .f32) (K : PUnit → sProp 𝕄) (h1 : ¬first8 i) (h2 : ¬last8 i)
    (e0 : View.ld s0 rS8 = a0) (e1 : View.ld s1 rS8 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS8, k8_pay4 (View.ld x rX8) (View.ld b rS8) a0⟩])
            ∗ owns (c : Thread nD τ) arg6 fullShare (View.canon [⟨rS8, k8_pay5 (View.ld x rX8) (View.ld b rS8) a1⟩])) -∗ K ⟨⟩))
      ⊢ wp frame (wpE (defs₀ (F := F)) Variants.none c none) E (cc8_kernel i arg1 harg1 arg2 harg2 arg3 harg3 arg4 harg4 arg5 harg5 arg6 harg6) K := by
  subst e0 e1
  simp only [cc8_kernel_eq_skeleton]; unfold cc8_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run8_last (x : Vec F S5000x128 .f32) (b s0 s1 a0 a1 : Vec F S1x128 .f32) (K : PUnit → sProp 𝕄) (h1 : ¬first8 i) (h2 : last8 i)
    (e0 : View.ld s0 rS8 = a0) (e1 : View.ld s1 rS8 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS8, k8_pay6 (k8_pay4 (View.ld x rX8) (View.ld b rS8) a0)⟩])
            ∗ owns (c : Thread nD τ) arg4 fullShare (View.canon [⟨rS8, k8_pay7 (k8_pay4 (View.ld x rX8) (View.ld b rS8) a0) (k8_pay5 (View.ld x rX8) (View.ld b rS8) a1)⟩])
            ∗ owns (c : Thread nD τ) arg5 fullShare (View.canon [⟨rS8, k8_pay4 (View.ld x rX8) (View.ld b rS8) a0⟩])
            ∗ owns (c : Thread nD τ) arg6 fullShare (View.canon [⟨rS8, k8_pay5 (View.ld x rX8) (View.ld b rS8) a1⟩])) -∗ K ⟨⟩))
      ⊢ wp frame (wpE (defs₀ (F := F)) Variants.none c none) E (cc8_kernel i arg1 harg1 arg2 harg2 arg3 harg3 arg4 harg4 arg5 harg5 arg6 harg6) K := by
  subst e0 e1
  simp only [cc8_kernel_eq_skeleton]; unfold cc8_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run8_last.sl.v27 run8_last.sl.H5_1
    rw [View.readCov_cons_toLoadRect]; rfl
  isplitl [H4]
  · iexists _; isplitr
    swap; · iexact H4
    ipureintro
    refine (read_writes_top off00 _ _ _ _ _).trans ?_
    unfold run8_last.sl.v27 run8_last.sl.H5_1 run8_last.sl.v30 run8_last.sl.H6_1
    rw [View.readCov_cons_toLoadRect, View.readCov_cons_toLoadRect]; rfl
  isplitl [H5]
  · iexists _; isplitr
    swap; · iexact H5
    ipureintro
    unfold run8_last.sl.H5_1
    exact read_writes_top off00 _ _ _ _ _
  iexists _; isplitr
  swap; · iexact H6
  ipureintro
  unfold run8_last.sl.H6_1
  exact read_writes_top off00 _ _ _ _ _

end body

def pt8 (n : ℕ) : Fin cfg8.N := ⟨n % 10, lt_of_lt_of_eq (Nat.mod_lt n (by decide)) (show cfg8.N = 10 from N_8).symm⟩
theorem pt8_val (t : Fin cfg8.N) : pt8 t.val = t :=
  Fin.ext (Nat.mod_eq_of_lt (lt_of_lt_of_eq t.isLt (show cfg8.N = 10 from N_8)))
def xAt8 (c : Dev nD) (n : ℕ) : Vec F S5000x128 .f32 := iblk8 V c 0 (pt8 n)
def bAt8 (c : Dev nD) (n : ℕ) : Vec F S1x128 .f32 := iblk8 V c 1 (pt8 n)

def sum8 (c : Dev nD) : ℕ → Vec F S1x128 .f32
  | 0 => k8_pay4 (View.ld (xAt8 V c 0) rX8) (View.ld (bAt8 V c 0) rS8) k8_pay1
  | n + 1 => k8_pay4 (View.ld (xAt8 V c (n + 1)) rX8) (View.ld (bAt8 V c (n + 1)) rS8) (sum8 c n)

def sq8 (c : Dev nD) : ℕ → Vec F S1x128 .f32
  | 0 => k8_pay5 (View.ld (xAt8 V c 0) rX8) (View.ld (bAt8 V c 0) rS8) k8_pay2
  | n + 1 => k8_pay5 (View.ld (xAt8 V c (n + 1)) rX8) (View.ld (bAt8 V c (n + 1)) rS8) (sq8 c n)

theorem xAt8_val (c : Dev nD) (t : Fin cfg8.N) : xAt8 V c t.val = iblk8 V c 0 t := by unfold xAt8; rw [pt8_val]
theorem bAt8_val (c : Dev nD) (t : Fin cfg8.N) : bAt8 V c t.val = iblk8 V c 1 t := by unfold bAt8; rw [pt8_val]

theorem sum8_zero (c : Dev nD) (n : ℕ) (h : n = 0) :
    sum8 V c n = k8_pay4 (View.ld (xAt8 V c n) rX8) (View.ld (bAt8 V c n) rS8) k8_pay1 := by subst h; rfl
theorem sum8_pos (c : Dev nD) (n : ℕ) (h : n ≠ 0) :
    sum8 V c n = k8_pay4 (View.ld (xAt8 V c n) rX8) (View.ld (bAt8 V c n) rS8) (sum8 V c (n - 1)) := by
  obtain ⟨n, rfl⟩ := Nat.exists_eq_succ_of_ne_zero h; rfl
theorem sq8_zero (c : Dev nD) (n : ℕ) (h : n = 0) :
    sq8 V c n = k8_pay5 (View.ld (xAt8 V c n) rX8) (View.ld (bAt8 V c n) rS8) k8_pay2 := by subst h; rfl
theorem sq8_pos (c : Dev nD) (n : ℕ) (h : n ≠ 0) :
    sq8 V c n = k8_pay5 (View.ld (xAt8 V c n) rX8) (View.ld (bAt8 V c n) rS8) (sq8 V c (n - 1)) := by
  obtain ⟨n, rfl⟩ := Nat.exists_eq_succ_of_ne_zero h; rfl

abbrev scr8_0 : Memref sig .tc .vmem S1x128 .f32 := Memref.whole cc8_scratch0
abbrev scr8_1 : Memref sig .tc .vmem S1x128 .f32 := Memref.whole cc8_scratch1

-- What the region keeps between points once the two scratch rows hold `a` and `b`.
abbrev Inv8 (c : Dev nD) (a b : Vec F S1x128 .f32) : sProp 𝕄 :=
  iprop(((owns (c : Thread nD τ) scr8_0 fullShare a ∗ owns (c : Thread nD τ) scr8_1 fullShare b)
      ∗ Pipeline.scopedRestBut (Ix := Unit) (Name := ℕ) (U := UR sig nD τ) (Lvl := ℕ) (Val := Elt F) spec8 c [cc8_scratch0, cc8_scratch1])
      ∗ (∃ r, prngReg c r))

def Phi8 (c : Dev nD) : ℕ → sProp 𝕄
  | 0 => Pipeline.ΦA spec8 c
  | n + 1 => Inv8 c (View.canon [⟨rS8, sum8 V c n⟩]) (View.canon [⟨rS8, sq8 V c n⟩])

theorem Phi8_pos (c : Dev nD) (n : ℕ) (h : n ≠ 0) :
    Phi8 V c n = Inv8 c (View.canon [⟨rS8, sum8 V c (n - 1)⟩]) (View.canon [⟨rS8, sq8 V c (n - 1)⟩]) := by
  obtain ⟨n, rfl⟩ := Nat.exists_eq_succ_of_ne_zero h; rfl

theorem PhiA8_eq (c : Dev nD) :
    (Pipeline.ΦA spec8 c : sProp 𝕄)
      = iprop((((∃ d, owns (c : Thread nD τ) scr8_0 fullShare d) ∗ (∃ d, owns (c : Thread nD τ) scr8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scr8_0, scr8_1, owns_whole]; try rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => View.canon [⟨rS8, k8_pay6 (sum8 V c t.val)⟩]
    | ⟨3, _⟩ => View.canon [⟨rS8, k8_pay7 (sum8 V c t.val) (sq8 V c t.val)⟩]
  Φ t := Phi8 V c t.val
  q _ := fullShare
  owed _ := 0

theorem A_eq8 (c : Dev nD) (w : Fin cfg8.W) : (dat8 V c).A w = V c (Pipeline.arrRef spec8 w) := by
  dsimp only [dat8]

theorem after8_2 (c : Dev nD) (t : Fin cfg8.N) :
    (dat8 V c).after 2 t = View.canon [⟨rS8, k8_pay6 (sum8 V c t.val)⟩] := by dsimp only [dat8]
theorem after8_3 (c : Dev nD) (t : Fin cfg8.N) :
    (dat8 V c).after 3 t = View.canon [⟨rS8, k8_pay7 (sum8 V c t.val) (sq8 V c t.val)⟩] := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem Phi_in8 (c : Dev nD) : Pipeline.ΦA spec8 c ⊢ ((dat8 V c).Φ 0 : sProp 𝕄) := Idealize.SL.BI.Entails.refl _

theorem Phi_out8 (c : Dev nD) : (dat8 V c).Φ (Fin.last cfg8.N) ⊢ (Pipeline.ΦA spec8 c : sProp 𝕄) := by
  rw [show (dat8 V c).Φ (Fin.last cfg8.N) = Phi8 V c cfg8.N from rfl,
    Phi8_pos V c _ (by rw [show cfg8.N = 10 from N_8]; decide), PhiA8_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body8 (c : Dev nD) (t : Fin cfg8.N) :
    iprop(Phi8 V c t.val ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d)))
    ⊢ wp frame (wpE (defs₀ (F := F)) Variants.none c none) Set.univ (bodyAt8 t) (fun _ =>
      iprop(Phi8 V c (t.val + 1) ∗ (dat8 V c).owesAt () t.castSucc
        ∗ owns (c : Thread nD τ) (st8_0 t) fullShare (iblk8 V c 0 t) ∗ owns (c : Thread nD τ) (st8_1 t) fullShare (iblk8 V c 1 t)
        ∗ (dat8 V c).leavesExact 2 t ∗ (dat8 V c).leavesExact 3 t)) := by
  unfold bodyAt8
  simp only [before8_0, before8_1]
  rw [Phi8_pos V c (t.val + 1) (Nat.succ_ne_zero _), Nat.add_sub_cancel]
  unfold Inv8
  have hN : t.val < 10 := lt_of_lt_of_eq t.isLt (show cfg8.N = 10 from N_8)
  by_cases h9 : t.val = 9
  · have hl := (hlast8 t).mpr h9
    have h0 : t.val ≠ 0 := by omega
    rw [leavesExact_live _ 2 t (on8 t hl).1, leavesExact_live _ 3 t (on8 t hl).2, after8_2, after8_3,
      Phi8_pos V c _ h0, sum8_pos V c _ h0, sq8_pos V c _ h0, xAt8_val, bAt8_val]
    iintro ⟨⟨⟨⟨HS0, HS1⟩, HR⟩, Hg⟩, Ho, ⟨%d0, H0⟩, ⟨%d1, H1⟩, ⟨%d2, H2⟩, ⟨%d3, H3⟩⟩
    iapply (run8_last c Set.univ (grid8.coords t) _ _ _ _ _ _ _ _ _ _ _ _ (iblk8 V c 0 t) (iblk8 V c 1 t) _ _ _ _ _
      (fun h => h0 ((hfirst8 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last8 (grid8.coords t) := fun h => h9 ((hlast8 t).mp h)
    rw [Dat.leavesExact_idle _ 2 t (off8 t hl).1.1 (off8 t hl).1.2, Dat.leavesExact_idle _ 3 t (off8 t hl).2.1 (off8 t hl).2.2]
    by_cases h0 : t.val = 0
    · rw [show Phi8 V c t.val = Pipeline.ΦA spec8 c from by rw [h0]; rfl, PhiA8_eq, sum8_zero V c _ h0, sq8_zero V c _ h0, xAt8_val, bAt8_val]
      iintro ⟨⟨⟨⟨HS0, HS1⟩, HR⟩, Hg⟩, Ho, ⟨%d0, H0⟩, ⟨%d1, H1⟩, H2, H3⟩
      iapply (run8_first c Set.univ (grid8.coords t) _ _ _ _ _ _ _ _ _ _ _ _ (iblk8 V c 0 t) (iblk8 V c 1 t) _ ((hfirst8 t).mpr h0) hl)
      iframe H0 H1 HS0 HS1
      iintro ⟨H0, H1, HS0, HS1⟩
      iframe
    · rw [Phi8_pos V c _ h0, sum8_pos V c _ h0, sq8_pos V c _ h0, xAt8_val, bAt8_val]
      iintro ⟨⟨⟨⟨HS0, HS1⟩, HR⟩, Hg⟩, Ho, ⟨%d0, H0⟩, ⟨%d1, H1⟩, H2, H3⟩
      iapply (run8_mid c Set.univ (grid8.coords t) _ _ _ _ _ _ _ _ _ _ _ _ (iblk8 V c 0 t) (iblk8 V c 1 t) _ _ _ _ _
        (fun h => h0 ((hfirst8 t).mp h)) hl (ld_canon_top off00 _ _) (ld_canon_top off00 _ _))
      iframe H0 H1 HS0 HS1
      iintro ⟨H0, H1, HS0, HS1⟩
      iframe

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def shown9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def normed9 (x : Vec F S5000x128 .f32) (b mean var : Vec F S1x128 .f32) : Vec F S5000x128 .f32 :=
  View.canon [⟨all5000x128, k9_pay1 (View.ld x all5000x128) (View.ld b all1x128) (View.ld var all1x128) (View.ld mean all1x128)⟩]

set_option maxHeartbeats 1000000 in
theorem kernel9_runs (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x : Vec F S5000x128 .f32) (b mean var : Vec F S1x128 .f32) (p : Vec F S5000x128 .f32) (hp : p = normed9 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc9_kernel i arg1 harg1 arg2 harg2 arg3 harg3 arg4 harg4 arg5 harg5) K := by
  subst hp
  simp only [cc9_kernel_eq_skeleton]; unfold cc9_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x128 _)

def dat9 (c : Dev nD) : Dat τ (Elt F) Unit ℕ (UR sig nD τ) ℕ cfg9 c where
  A w := V c (Pipeline.arrRef spec9 w)
  after w t := match w with
    | ⟨0, _⟩ => shown9 V c 0 t
    | ⟨1, _⟩ => shown9 V c 1 t
    | ⟨2, _⟩ => shown9 V c 2 t
    | ⟨3, _⟩ => shown9 V c 3 t
    | ⟨4, _⟩ => normed9 (shown9 V c 0 t) (shown9 V c 1 t) (shown9 V c 2 t) (shown9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi_in9 (c : Dev nD) : Pipeline.ΦA spec9 c ⊢ ((dat9 V c).Φ 0 : sProp 𝕄) := .rfl

theorem Phi_out9 (c : Dev nD) : (dat9 V c).Φ (Fin.last cfg9.N) ⊢ (Pipeline.ΦA spec9 c : sProp 𝕄) := .rfl

theorem after9_out (c : Dev nD) (t : Fin cfg9.N) :
    (dat9 V c).after 4 t = normed9 (shown9 V c 0 t) (shown9 V c 1 t) (shown9 V c 2 t) (shown9 V c 3 t) := by dsimp only [dat9]

theorem before9_x (c : Dev nD) (t : Fin cfg9.N) (d) : (dat9 V c).before 0 t d = shown9 V c 0 t :=
  (dat9 V c).before_in_eq_fetched 0 rfl (fun _ => rfl) (fun _ _ _ => rfl) (fun _ => rfl) t d

theorem before9_b (c : Dev nD) (t : Fin cfg9.N) (d) : (dat9 V c).before 1 t d = shown9 V c 1 t :=
  (dat9 V c).before_in_eq_fetched 1 rfl (fun _ => rfl) (fun _ _ _ => rfl) (fun _ => rfl) t d

theorem before9_mean (c : Dev nD) (t : Fin cfg9.N) (d) : (dat9 V c).before 2 t d = shown9 V c 2 t :=
  (dat9 V c).before_in_eq_fetched 2 rfl (fun _ => rfl) (fun _ _ _ => rfl) (fun _ => rfl) t d

theorem before9_var (c : Dev nD) (t : Fin cfg9.N) (d) : (dat9 V c).before 3 t d = shown9 V c 3 t :=
  (dat9 V c).before_in_eq_fetched 3 rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  exact sound_of_triple (e := bodyAt9 t)
    (BI.sep_mono (held_elim _ (before9_x V c t)) (BI.sep_mono (held_elim _ (before9_b V c t)) (BI.sep_mono (held_elim _ (before9_mean V c t)) (BI.sep_mono (held_elim _ (before9_var V c t)) (any_intro _)))))
    (kernel9_runs c _ _ _ _ _ _ _ _ _ _ _ _ _ _ _ _ _ (after9_out V c t))

end Cert.Kernel.Hand

end
-- ==== Proof.K.R10.lean ====
import proofs.«165280_j63788854280268_1_alg».proof.Proof.K.R6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rows10 : Rect S5000x128 := Rect.unit (s := S5000x128) ![0, 0] S5000x128.size inb_S5000x128_S5000x128_0_0

abbrev wcol10 : Rect S128x1 := Rect.unit (s := S128x1) ![0, 0] S128x1.size inb_S128x1_S128x1_0_0

abbrev bias10 : Rect S1x1 := Rect.unit (s := S1x1) ![0, 0] S1x1.size inb_S1x1_S1x1_0_0

abbrev gcol10 : Rect S5000x1 := Rect.unit (s := S5000x1) ![0, 0] S5000x1.size inb_S5000x1_S5000x1_0_0

def alpha10 (x0 x1 : Vec F S5000x128 .f32) (x2 x3 : Vec F S128x1 .f32) (x4 : Vec F S1x1 .f32) : Vec F S5000x1 .f32 :=
  View.canon [⟨gcol10, k10_pay3 (View.ld x0 rows10) (View.ld x1 rows10) (View.ld x2 wcol10) (View.ld x3 wcol10) (View.ld x4 bias10)⟩]

def mixed10 (x0 x1 : Vec F S5000x128 .f32) (x2 x3 : Vec F S128x1 .f32) (x4 : Vec F S1x1 .f32) : Vec F S5000x128 .f32 :=
  View.canon [⟨rows10, k10_pay4 (View.ld x0 rows10) (View.ld x1 rows10) (View.ld x2 wcol10) (View.ld x3 wcol10) (View.ld x4 bias10)⟩]

theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S5000x1 .f32) (harg7 : arg7.IsWhole)
    (x0 x1 : Vec F S5000x128 .f32) (x2 x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixed10 x0 x1 x2 x3 x4) ∗ owns (c : Thread nD τ) arg7 fullShare (alpha10 x0 x1 x2 x3 x4)) -∗ K ⟨⟩))
      ⊢ wp frame (wpE (defs₀ (F := F)) Variants.none c none) E (cc10_kernel i arg1 harg1 arg2 harg2 arg3 harg3 arg4 harg4 arg5 harg5 arg6 harg6 arg7 harg7) K :=
  sound_kernel6 c E i arg1 harg1 arg2 harg2 arg3 harg3 arg4 harg4 arg5 harg5 arg6 harg6 arg7 harg7 x0 x1 x2 x3 x4 K

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => mixed10 (iblk10 V c 0 t) (iblk10 V c 1 t) (iblk10 V c 2 t) (iblk10 V c 3 t) (iblk10 V c 4 t)
    | ⟨6, _⟩ => alpha10 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem Phi_in10 (c : Dev nD) : Pipeline.ΦA spec10 c ⊢ ((dat10 V c).Φ 0 : sProp 𝕄) := .rfl

theorem Phi_out10 (c : Dev nD) : (dat10 V c).Φ (Fin.last cfg10.N) ⊢ (Pipeline.ΦA spec10 c : sProp 𝕄) := .rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = mixed10 (iblk10 V c 0 t) (iblk10 V c 1 t) (iblk10 V c 2 t) (iblk10 V c 3 t) (iblk10 V c 4 t) := by dsimp only [dat10]
theorem after10_6 (c : Dev nD) (t : Fin cfg10.N) : (dat10 V c).after 6 t = alpha10 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d
theorem before10_3 (c : Dev nD) (t : Fin cfg10.N) (d) : (dat10 V c).before 3 t d = iblk10 V c 3 t :=
  (dat10 V c).before_in_eq_fetched 3 rfl (fun _ => rfl) (fun _ _ _ => rfl) (fun _ => rfl) t d
theorem before10_4 (c : Dev nD) (t : Fin cfg10.N) (d) : (dat10 V c).before 4 t d = iblk10 V c 4 t :=
  (dat10 V c).before_in_eq_fetched 4 rfl (fun _ => rfl) (fun _ _ _ => rfl) (fun _ => rfl) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

def product11 (x : Vec F S5000x128 .f32) (w : Vec F S128x128 .f32) : Vec F S5000x128 .f32 :=
  View.canon [⟨all5000x128, k11_pay1 (View.ld x all5000x128) (View.ld w all128x128)⟩]

set_option maxHeartbeats 1000000 in
theorem kernel_triple11 (c : Dev nD) (E : Set ℕ) (i : grid11.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (p : Vec F S5000x128 .f32) (hp : p = product11 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc11_kernel i arg1 harg1 arg2 harg2 arg3 harg3) K := by
  subst hp
  simp only [cc11_kernel_eq_skeleton]; unfold cc11_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x128 _)

def dat11 (c : Dev nD) : Dat τ (Elt F) Unit ℕ (UR sig nD τ) ℕ cfg11 c where
  A w := V c (Pipeline.arrRef spec11 w)
  after w t := match w with
    | ⟨0, _⟩ => blockAt11 V c 0 t
    | ⟨1, _⟩ => blockAt11 V c 1 t
    | ⟨2, _⟩ => product11 (blockAt11 V c 0 t) (blockAt11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem Phi_in11 (c : Dev nD) : Pipeline.ΦA spec11 c ⊢ ((dat11 V c).Φ 0 : sProp 𝕄) := .rfl

theorem Phi_out11 (c : Dev nD) : (dat11 V c).Φ (Fin.last cfg11.N) ⊢ (Pipeline.ΦA spec11 c : sProp 𝕄) := .rfl

theorem after_prod11 (c : Dev nD) (t : Fin cfg11.N) :
    (dat11 V c).after 2 t = product11 (blockAt11 V c 0 t) (blockAt11 V c 1 t) := by dsimp only [dat11]

theorem lhs_held11 (c : Dev nD) (t : Fin cfg11.N) (d) : (dat11 V c).before 0 t d = blockAt11 V c 0 t :=
  (dat11 V c).before_in_eq_fetched 0 rfl (fun _ => rfl) (fun _ _ _ => rfl) (fun _ => rfl) t d

theorem rhs_held11 (c : Dev nD) (t : Fin cfg11.N) (d) : (dat11 V c).before 1 t d = blockAt11 V c 1 t :=
  (dat11 V c).before_in_eq_fetched 1 rfl (fun _ => rfl) (fun _ _ _ => rfl) (fun _ => rfl) t d

theorem body_obligation11 (c : Dev nD) : BodyObligation (dat11 (F := F) V c) (defs₀ (F := F)) Variants.none () Set.univ := fun t => by
  rw [bigSep_W11, bigSep_W11]
  exact sound_of_triple (e := bodyAt11 t)
    (BI.sep_mono (held_elim _ (lhs_held11 V c t)) (BI.sep_mono (held_elim _ (rhs_held11 V c t)) (any_intro _)))
    (kernel_triple11 c _ _ _ _ _ _ _ _ _ _ _ (after_prod11 V c t))

end Cert.Kernel.Hand

end
-- ==== Proof.K.R12.lean ====
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import proofs.«165280_j63788854280268_1_alg».proof.Proof.K.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev first12 (i : grid12.Coords) : Prop := (Scalar.cmpi .ne (Scalar.extui (Scalar.cmpi .eq (BitVec.ofNat 32 (i 0).val) 0#32)) 0#32) = 1#1
theorem hfirst12 : ∀ t : Fin cfg12.N, first12 (grid12.coords t) ↔ t.val = 0 :=
  (by decide +kernel : ∀ t : Fin grid12.N, first12 (grid12.coords t) ↔ t.val = 0)
abbrev last12 (i : grid12.Coords) : Prop := k12_cond2 i = 1#1
theorem hlast12 : ∀ t : Fin cfg12.N, last12 (grid12.coords t) ↔ t.val = 9 :=
  (by decide +kernel : ∀ t : Fin grid12.N, last12 (grid12.coords t) ↔ t.val = 9)

theorem off12 : ∀ t : Fin cfg12.N, ¬last12 (grid12.coords t) → (cfg12.idle 2 (grid12.coords t) = true ∧ (cfg12.win 2).flush t = false)
    ∧ cfg12.idle 3 (grid12.coords t) = true ∧ (cfg12.win 3).flush t = false := by decide +kernel
theorem on12 : ∀ t : Fin cfg12.N, last12 (grid12.coords t) → cfg12.idle 2 (grid12.coords t) = false ∧ cfg12.idle 3 (grid12.coords t) = false := by
  decide +kernel

abbrev rX12 : Rect S5000x128 := Rect.unit (s := S5000x128) ![0, 0] S5000x128.size inb_S5000x128_S5000x128_0_0
abbrev rS12 : Rect S1x128 := Rect.unit (s := S1x128) ![0, 0] S1x128.size inb_S1x128_S1x128_0_0

section body
variable (c : Dev nD) (E : Set ℕ) (i : grid12.Coords)
  (arg1 : Memref sig .tc .vmem S5000x128 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)

set_option maxHeartbeats 1000000 in
theorem run12_first (x : Vec F S5000x128 .f32) (b : Vec F S1x128 .f32) (K : PUnit → sProp 𝕄) (h1 : first12 i) (h2 : ¬last12 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS12, k12_pay4 (View.ld x rX12) (View.ld b rS12) k12_pay1⟩])
            ∗ owns (c : Thread nD τ) arg6 fullShare (View.canon [⟨rS12, k12_pay5 (View.ld x rX12) (View.ld b rS12) k12_pay2⟩])) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run12_first.sl.v9 run12_first.sl.H5_1
    rw [View.readCov_cons_toLoadRect]; rfl
  iexists _; isplitr
  swap; · iexact H6
  ipureintro
  refine (read_writes_top off00 _ _ _ _ _).trans ?_
  unfold run12_first.sl.v16 run12_first.sl.H6_1
  rw [View.readCov_cons_toLoadRect]; rfl

-- The rows' loads are named (`a0`, `a1`) so that the triple applies whatever form the rows' contents have.
set_option maxHeartbeats 1000000 in
theorem run12_mid (x : Vec F S5000x128 .f32) (b s0 s1 a0 a1 : Vec F S1x128 .f32) (K : PUnit → sProp 𝕄) (h1 : ¬first12 i) (h2 : ¬last12 i)
    (e0 : View.ld s0 rS12 = a0) (e1 : View.ld s1 rS12 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS12, k12_pay4 (View.ld x rX12) (View.ld b rS12) a0⟩])
            ∗ owns (c : Thread nD τ) arg6 fullShare (View.canon [⟨rS12, k12_pay5 (View.ld x rX12) (View.ld b rS12) a1⟩])) -∗ K ⟨⟩))
      ⊢ wp frame (wpE (defs₀ (F := F)) Variants.none c none) E (cc12_kernel i arg1 harg1 arg2 harg2 arg3 harg3 arg4 harg4 arg5 harg5 arg6 harg6) K := by
  subst e0 e1
  simp only [cc12_kernel_eq_skeleton]; unfold cc12_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run12_last (x : Vec F S5000x128 .f32) (b s0 s1 a0 a1 : Vec F S1x128 .f32) (K : PUnit → sProp 𝕄) (h1 : ¬first12 i) (h2 : last12 i)
    (e0 : View.ld s0 rS12 = a0) (e1 : View.ld s1 rS12 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS12, k12_pay6 (k12_pay4 (View.ld x rX12) (View.ld b rS12) a0)⟩])
            ∗ owns (c : Thread nD τ) arg4 fullShare (View.canon [⟨rS12, k12_pay7 (k12_pay4 (View.ld x rX12) (View.ld b rS12) a0) (k12_pay5 (View.ld x rX12) (View.ld b rS12) a1)⟩])
            ∗ owns (c : Thread nD τ) arg5 fullShare (View.canon [⟨rS12, k12_pay4 (View.ld x rX12) (View.ld b rS12) a0⟩])
            ∗ owns (c : Thread nD τ) arg6 fullShare (View.canon [⟨rS12, k12_pay5 (View.ld x rX12) (View.ld b rS12) a1⟩])) -∗ K ⟨⟩))
      ⊢ wp frame (wpE (defs₀ (F := F)) Variants.none c none) E (cc12_kernel i arg1 harg1 arg2 harg2 arg3 harg3 arg4 harg4 arg5 harg5 arg6 harg6) K := by
  subst e0 e1
  simp only [cc12_kernel_eq_skeleton]; unfold cc12_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run12_last.sl.v27 run12_last.sl.H5_1
    rw [View.readCov_cons_toLoadRect]; rfl
  isplitl [H4]
  · iexists _; isplitr
    swap; · iexact H4
    ipureintro
    refine (read_writes_top off00 _ _ _ _ _).trans ?_
    unfold run12_last.sl.v27 run12_last.sl.H5_1 run12_last.sl.v30 run12_last.sl.H6_1
    rw [View.readCov_cons_toLoadRect, View.readCov_cons_toLoadRect]; rfl
  isplitl [H5]
  · iexists _; isplitr
    swap; · iexact H5
    ipureintro
    unfold run12_last.sl.H5_1
    exact read_writes_top off00 _ _ _ _ _
  iexists _; isplitr
  swap; · iexact H6
  ipureintro
  unfold run12_last.sl.H6_1
  exact read_writes_top off00 _ _ _ _ _

end body

def pt12 (n : ℕ) : Fin cfg12.N := ⟨n % 10, lt_of_lt_of_eq (Nat.mod_lt n (by decide)) (show cfg12.N = 10 from N_12).symm⟩
theorem pt12_val (t : Fin cfg12.N) : pt12 t.val = t :=
  Fin.ext (Nat.mod_eq_of_lt (lt_of_lt_of_eq t.isLt (show cfg12.N = 10 from N_12)))
def xAt12 (c : Dev nD) (n : ℕ) : Vec F S5000x128 .f32 := iblk12 V c 0 (pt12 n)
def bAt12 (c : Dev nD) (n : ℕ) : Vec F S1x128 .f32 := iblk12 V c 1 (pt12 n)

def sum12 (c : Dev nD) : ℕ → Vec F S1x128 .f32
  | 0 => k12_pay4 (View.ld (xAt12 V c 0) rX12) (View.ld (bAt12 V c 0) rS12) k12_pay1
  | n + 1 => k12_pay4 (View.ld (xAt12 V c (n + 1)) rX12) (View.ld (bAt12 V c (n + 1)) rS12) (sum12 c n)

def sq12 (c : Dev nD) : ℕ → Vec F S1x128 .f32
  | 0 => k12_pay5 (View.ld (xAt12 V c 0) rX12) (View.ld (bAt12 V c 0) rS12) k12_pay2
  | n + 1 => k12_pay5 (View.ld (xAt12 V c (n + 1)) rX12) (View.ld (bAt12 V c (n + 1)) rS12) (sq12 c n)

theorem xAt12_val (c : Dev nD) (t : Fin cfg12.N) : xAt12 V c t.val = iblk12 V c 0 t := by unfold xAt12; rw [pt12_val]
theorem bAt12_val (c : Dev nD) (t : Fin cfg12.N) : bAt12 V c t.val = iblk12 V c 1 t := by unfold bAt12; rw [pt12_val]

theorem sum12_zero (c : Dev nD) (n : ℕ) (h : n = 0) :
    sum12 V c n = k12_pay4 (View.ld (xAt12 V c n) rX12) (View.ld (bAt12 V c n) rS12) k12_pay1 := by subst h; rfl
theorem sum12_pos (c : Dev nD) (n : ℕ) (h : n ≠ 0) :
    sum12 V c n = k12_pay4 (View.ld (xAt12 V c n) rX12) (View.ld (bAt12 V c n) rS12) (sum12 V c (n - 1)) := by
  obtain ⟨n, rfl⟩ := Nat.exists_eq_succ_of_ne_zero h; rfl
theorem sq12_zero (c : Dev nD) (n : ℕ) (h : n = 0) :
    sq12 V c n = k12_pay5 (View.ld (xAt12 V c n) rX12) (View.ld (bAt12 V c n) rS12) k12_pay2 := by subst h; rfl
theorem sq12_pos (c : Dev nD) (n : ℕ) (h : n ≠ 0) :
    sq12 V c n = k12_pay5 (View.ld (xAt12 V c n) rX12) (View.ld (bAt12 V c n) rS12) (sq12 V c (n - 1)) := by
  obtain ⟨n, rfl⟩ := Nat.exists_eq_succ_of_ne_zero h; rfl

abbrev scr12_0 : Memref sig .tc .vmem S1x128 .f32 := Memref.whole cc12_scratch0
abbrev scr12_1 : Memref sig .tc .vmem S1x128 .f32 := Memref.whole cc12_scratch1

-- What the region keeps between points once the two scratch rows hold `a` and `b`.
abbrev Inv12 (c : Dev nD) (a b : Vec F S1x128 .f32) : sProp 𝕄 :=
  iprop(((owns (c : Thread nD τ) scr12_0 fullShare a ∗ owns (c : Thread nD τ) scr12_1 fullShare b)
      ∗ Pipeline.scopedRestBut (Ix := Unit) (Name := ℕ) (U := UR sig nD τ) (Lvl := ℕ) (Val := Elt F) spec12 c [cc12_scratch0, cc12_scratch1])
      ∗ (∃ r, prngReg c r))

def Phi12 (c : Dev nD) : ℕ → sProp 𝕄
  | 0 => Pipeline.ΦA spec12 c
  | n + 1 => Inv12 c (View.canon [⟨rS12, sum12 V c n⟩]) (View.canon [⟨rS12, sq12 V c n⟩])

theorem Phi12_pos (c : Dev nD) (n : ℕ) (h : n ≠ 0) :
    Phi12 V c n = Inv12 c (View.canon [⟨rS12, sum12 V c (n - 1)⟩]) (View.canon [⟨rS12, sq12 V c (n - 1)⟩]) := by
  obtain ⟨n, rfl⟩ := Nat.exists_eq_succ_of_ne_zero h; rfl

theorem PhiA12_eq (c : Dev nD) :
    (Pipeline.ΦA spec12 c : sProp 𝕄)
      = iprop((((∃ d, owns (c : Thread nD τ) scr12_0 fullShare d) ∗ (∃ d, owns (c : Thread nD τ) scr12_1 fullShare d))
          ∗ Pipeline.scopedRestBut (Ix := Unit) (Name := ℕ) (U := UR sig nD τ) (Lvl := ℕ) (Val := Elt F) spec12 c [cc12_scratch0, cc12_scratch1])
          ∗ (∃ r, prngReg c r)) := by
  unfold Pipeline.ΦA; rw [scopedRest12_split]; simp only [scr12_0, scr12_1, owns_whole]; try rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => View.canon [⟨rS12, k12_pay6 (sum12 V c t.val)⟩]
    | ⟨3, _⟩ => View.canon [⟨rS12, k12_pay7 (sum12 V c t.val) (sq12 V c t.val)⟩]
  Φ t := Phi12 V c t.val
  q _ := fullShare
  owed _ := 0

theorem A_eq12 (c : Dev nD) (w : Fin cfg12.W) : (dat12 V c).A w = V c (Pipeline.arrRef spec12 w) := by
  dsimp only [dat12]

theorem after12_2 (c : Dev nD) (t : Fin cfg12.N) :
    (dat12 V c).after 2 t = View.canon [⟨rS12, k12_pay6 (sum12 V c t.val)⟩] := by dsimp only [dat12]
theorem after12_3 (c : Dev nD) (t : Fin cfg12.N) :
    (dat12 V c).after 3 t = View.canon [⟨rS12, k12_pay7 (sum12 V c t.val) (sq12 V c t.val)⟩] := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun _ => rfl) t d).trans rfl
theorem before12_1 (c : Dev nD) (t : Fin cfg12.N) (d) : (dat12 V c).before 1 t d = iblk12 V c 1 t :=
  ((dat12 V c).before_in_eq_fetched 1 rfl (fun _ => rfl) (fun _ _ _ => rfl) (fun _ => rfl) t d).trans rfl

theorem Phi_in12 (c : Dev nD) : Pipeline.ΦA spec12 c ⊢ ((dat12 V c).Φ 0 : sProp 𝕄) := Idealize.SL.BI.Entails.refl _

theorem Phi_out12 (c : Dev nD) : (dat12 V c).Φ (Fin.last cfg12.N) ⊢ (Pipeline.ΦA spec12 c : sProp 𝕄) := by
  rw [show (dat12 V c).Φ (Fin.last cfg12.N) = Phi12 V c cfg12.N from rfl,
    Phi12_pos V c _ (by rw [show cfg12.N = 10 from N_12]; decide), PhiA12_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body12 (c : Dev nD) (t : Fin cfg12.N) :
    iprop(Phi12 V c t.val ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d))
      ∗ (∃ d, owns (c : Thread nD τ) (st12_3 t) fullShare ((dat12 V c).before 3 t d)))
    ⊢ wp frame (wpE (defs₀ (F := F)) Variants.none c none) Set.univ (bodyAt12 t) (fun _ =>
      iprop(Phi12 V c (t.val + 1) ∗ (dat12 V c).owesAt () t.castSucc
        ∗ owns (c : Thread nD τ) (st12_0 t) fullShare (iblk12 V c 0 t) ∗ owns (c : Thread nD τ) (st12_1 t) fullShare (iblk12 V c 1 t)
        ∗ (dat12 V c).leavesExact 2 t ∗ (dat12 V c).leavesExact 3 t)) := by
  unfold bodyAt12
  simp only [before12_0, before12_1]
  rw [Phi12_pos V c (t.val + 1) (Nat.succ_ne_zero _), Nat.add_sub_cancel]
  unfold Inv12
  have hN : t.val < 10 := lt_of_lt_of_eq t.isLt (show cfg12.N = 10 from N_12)
  by_cases h9 : t.val = 9
  · have hl := (hlast12 t).mpr h9
    have h0 : t.val ≠ 0 := by omega
    rw [leavesExact_live _ 2 t (on12 t hl).1, leavesExact_live _ 3 t (on12 t hl).2, after12_2, after12_3,
      Phi12_pos V c _ h0, sum12_pos V c _ h0, sq12_pos V c _ h0, xAt12_val, bAt12_val]
    iintro ⟨⟨⟨⟨HS0, HS1⟩, HR⟩, Hg⟩, Ho, ⟨%d0, H0⟩, ⟨%d1, H1⟩, ⟨%d2, H2⟩, ⟨%d3, H3⟩⟩
    iapply (run12_last c Set.univ (grid12.coords t) _ _ _ _ _ _ _ _ _ _ _ _ (iblk12 V c 0 t) (iblk12 V c 1 t) _ _ _ _ _
      (fun h => h0 ((hfirst12 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last12 (grid12.coords t) := fun h => h9 ((hlast12 t).mp h)
    rw [Dat.leavesExact_idle _ 2 t (off12 t hl).1.1 (off12 t hl).1.2, Dat.leavesExact_idle _ 3 t (off12 t hl).2.1 (off12 t hl).2.2]
    by_cases h0 : t.val = 0
    · rw [show Phi12 V c t.val = Pipeline.ΦA spec12 c from by rw [h0]; rfl, PhiA12_eq, sum12_zero V c _ h0, sq12_zero V c _ h0, xAt12_val, bAt12_val]
      iintro ⟨⟨⟨⟨HS0, HS1⟩, HR⟩, Hg⟩, Ho, ⟨%d0, H0⟩, ⟨%d1, H1⟩, H2, H3⟩
      iapply (run12_first c Set.univ (grid12.coords t) _ _ _ _ _ _ _ _ _ _ _ _ (iblk12 V c 0 t) (iblk12 V c 1 t) _ ((hfirst12 t).mpr h0) hl)
      iframe H0 H1 HS0 HS1
      iintro ⟨H0, H1, HS0, HS1⟩
      iframe
    · rw [Phi12_pos V c _ h0, sum12_pos V c _ h0, sq12_pos V c _ h0, xAt12_val, bAt12_val]
      iintro ⟨⟨⟨⟨HS0, HS1⟩, HR⟩, Hg⟩, Ho, ⟨%d0, H0⟩, ⟨%d1, H1⟩, H2, H3⟩
      iapply (run12_mid c Set.univ (grid12.coords t) _ _ _ _ _ _ _ _ _ _ _ _ (iblk12 V c 0 t) (iblk12 V c 1 t) _ _ _ _ _
        (fun h => h0 ((hfirst12 t).mp h)) hl (ld_canon_top off00 _ _) (ld_canon_top off00 _ _))
      iframe H0 H1 HS0 HS1
      iintro ⟨H0, H1, HS0, HS1⟩
      iframe

theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.R13.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def shown13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def normed13 (x : Vec F S5000x128 .f32) (b mean var : Vec F S1x128 .f32) : Vec F S5000x128 .f32 :=
  View.canon [⟨all5000x128, k13_pay1 (View.ld x all5000x128) (View.ld b all1x128) (View.ld var all1x128) (View.ld mean all1x128)⟩]

set_option maxHeartbeats 1000000 in
theorem kernel13_runs (c : Dev nD) (E : Set ℕ) (i : grid13.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x : Vec F S5000x128 .f32) (b mean var : Vec F S1x128 .f32) (p : Vec F S5000x128 .f32) (hp : p = normed13 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc13_kernel i arg1 harg1 arg2 harg2 arg3 harg3 arg4 harg4 arg5 harg5) K := by
  subst hp
  simp only [cc13_kernel_eq_skeleton]; unfold cc13_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x128 _)

def dat13 (c : Dev nD) : Dat τ (Elt F) Unit ℕ (UR sig nD τ) ℕ cfg13 c where
  A w := V c (Pipeline.arrRef spec13 w)
  after w t := match w with
    | ⟨0, _⟩ => shown13 V c 0 t
    | ⟨1, _⟩ => shown13 V c 1 t
    | ⟨2, _⟩ => shown13 V c 2 t
    | ⟨3, _⟩ => shown13 V c 3 t
    | ⟨4, _⟩ => normed13 (shown13 V c 0 t) (shown13 V c 1 t) (shown13 V c 2 t) (shown13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem Phi_in13 (c : Dev nD) : Pipeline.ΦA spec13 c ⊢ ((dat13 V c).Φ 0 : sProp 𝕄) := .rfl

theorem Phi_out13 (c : Dev nD) : (dat13 V c).Φ (Fin.last cfg13.N) ⊢ (Pipeline.ΦA spec13 c : sProp 𝕄) := .rfl

theorem after13_out (c : Dev nD) (t : Fin cfg13.N) :
    (dat13 V c).after 4 t = normed13 (shown13 V c 0 t) (shown13 V c 1 t) (shown13 V c 2 t) (shown13 V c 3 t) := by dsimp only [dat13]

theorem before13_x (c : Dev nD) (t : Fin cfg13.N) (d) : (dat13 V c).before 0 t d = shown13 V c 0 t :=
  (dat13 V c).before_in_eq_fetched 0 rfl (fun _ => rfl) (fun _ _ _ => rfl) (fun _ => rfl) t d

theorem before13_b (c : Dev nD) (t : Fin cfg13.N) (d) : (dat13 V c).before 1 t d = shown13 V c 1 t :=
  (dat13 V c).before_in_eq_fetched 1 rfl (fun _ => rfl) (fun _ _ _ => rfl) (fun _ => rfl) t d

theorem before13_mean (c : Dev nD) (t : Fin cfg13.N) (d) : (dat13 V c).before 2 t d = shown13 V c 2 t :=
  (dat13 V c).before_in_eq_fetched 2 rfl (fun _ => rfl) (fun _ _ _ => rfl) (fun _ => rfl) t d

theorem before13_var (c : Dev nD) (t : Fin cfg13.N) (d) : (dat13 V c).before 3 t d = shown13 V c 3 t :=
  (dat13 V c).before_in_eq_fetched 3 rfl (fun _ => rfl) (fun _ _ _ => rfl) (fun _ => rfl) t d

theorem body_obligation13 (c : Dev nD) : BodyObligation (dat13 (F := F) V c) (defs₀ (F := F)) Variants.none () Set.univ := fun t => by
  rw [bigSep_W13, bigSep_W13]
  exact sound_of_triple (e := bodyAt13 t)
    (BI.sep_mono (held_elim _ (before13_x V c t)) (BI.sep_mono (held_elim _ (before13_b V c t)) (BI.sep_mono (held_elim _ (before13_mean V c t)) (BI.sep_mono (held_elim _ (before13_var V c t)) (any_intro _)))))
    (kernel13_runs c _ _ _ _ _ _ _ _ _ _ _ _ _ _ _ _ _ (after13_out V c t))

end Cert.Kernel.Hand

end
-- ==== Proof.K.R14.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt14 (c : Dev nD) (w : Fin cfg14.W) (t : Fin cfg14.N) :
    ((cfg14.win w).xblock (cfg14.grid.coords t)).Idx → Elt F (cfg14.win w).elt :=
  ((cfg14.win w).blk t).view.read (Elt F) (V c (Pipeline.arrRef spec14 w))

def gated14 (x inp : Vec F S5000x128 .f32) (a : Vec F S5000x1 .f32) : Vec F S5000x128 .f32 :=
  View.canon [⟨all5000x128, k14_pay1 (View.ld a all5000x1) (View.ld x all5000x128) (View.ld inp all5000x128)⟩]

set_option maxHeartbeats 1000000 in
theorem sound_kernel14 (c : Dev nD) (E : Set ℕ) (i : grid14.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S5000x128 .f32) (harg4 : arg4.IsWhole)
    (x inp : Vec F S5000x128 .f32) (a : Vec F S5000x1 .f32) (p : Vec F S5000x128 .f32) (hp : p = gated14 x inp a) (K : PUnit → sProp 𝕄) :
    iprop((owns (c : Thread nD τ) arg1 fullShare x ∗ owns (c : Thread nD τ) arg2 fullShare inp
        ∗ owns (c : Thread nD τ) arg3 fullShare a ∗ (∃ d, owns (c : Thread nD τ) arg4 fullShare d))
        ∗ (iprop(owns (c : Thread nD τ) arg1 fullShare x ∗ owns (c : Thread nD τ) arg2 fullShare inp
            ∗ owns (c : Thread nD τ) arg3 fullShare a
            ∗ owns (c : Thread nD τ) arg4 fullShare p) -∗ K ⟨⟩))
      ⊢ wp frame (wpE (defs₀ (F := F)) Variants.none c none) E
          (cc14_kernel i arg1 harg1 arg2 harg2 arg3 harg3 arg4 harg4) K := by
  subst hp
  simp only [cc14_kernel_eq_skeleton]; unfold cc14_kernel_skel
  unfold owns
  iintro ⟨⟨⟨%f1, %hf1, H1⟩, ⟨%f2, %hf2, H2⟩, ⟨%f3, %hf3, H3⟩, ⟨%d4, %f4, -, H4⟩⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5000x128 _)

def dat14 (c : Dev nD) : Dat τ (Elt F) Unit ℕ (UR sig nD τ) ℕ cfg14 c where
  A w := V c (Pipeline.arrRef spec14 w)
  after w t := match w with
    | ⟨0, _⟩ => blockAt14 V c 0 t
    | ⟨1, _⟩ => blockAt14 V c 1 t
    | ⟨2, _⟩ => blockAt14 V c 2 t
    | ⟨3, _⟩ => gated14 (blockAt14 V c 0 t) (blockAt14 V c 1 t) (blockAt14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem Phi_in14 (c : Dev nD) : Pipeline.ΦA spec14 c ⊢ ((dat14 V c).Φ 0 : sProp 𝕄) := .rfl

theorem Phi_out14 (c : Dev nD) : (dat14 V c).Φ (Fin.last cfg14.N) ⊢ (Pipeline.ΦA spec14 c : sProp 𝕄) := .rfl

theorem after14_out (c : Dev nD) (t : Fin cfg14.N) :
    (dat14 V c).after 3 t = gated14 (blockAt14 V c 0 t) (blockAt14 V c 1 t) (blockAt14 V c 2 t) := by dsimp only [dat14]

theorem before14_x (c : Dev nD) (t : Fin cfg14.N) (d) : (dat14 V c).before 0 t d = blockAt14 V c 0 t :=
  (dat14 V c).before_in_eq_fetched 0 rfl (fun _ => rfl) (fun _ _ _ => rfl) (fun _ => rfl) t d

theorem before14_inp (c : Dev nD) (t : Fin cfg14.N) (d) : (dat14 V c).before 1 t d = blockAt14 V c 1 t :=
  (dat14 V c).before_in_eq_fetched 1 rfl (fun _ => rfl) (fun _ _ _ => rfl) (fun _ => rfl) t d

theorem before14_gate (c : Dev nD) (t : Fin cfg14.N) (d) : (dat14 V c).before 2 t d = blockAt14 V c 2 t :=
  (dat14 V c).before_in_eq_fetched 2 rfl (fun _ => rfl) (fun _ _ _ => rfl) (fun _ => rfl) t d

theorem body_obligation14 (c : Dev nD) : BodyObligation (dat14 (F := F) V c) (defs₀ (F := F)) Variants.none () Set.univ := fun t => by
  rw [bigSep_W14, bigSep_W14]
  exact sound_of_triple (e := bodyAt14 t)
    (BI.sep_mono (held_elim _ (before14_x V c t)) (BI.sep_mono (held_elim _ (before14_inp V c t)) (BI.sep_mono (held_elim _ (before14_gate V c t)) (any_intro _))))
    (sound_kernel14 c _ _ _ _ _ _ _ _ _ _ _ _ _ _ (after14_out V c t))

end Cert.Kernel.Hand

end
-- ==== Proof.K.R15.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt15 (c : Dev nD) (w : Fin cfg15.W) (t : Fin cfg15.N) :
    ((cfg15.win w).xblock (cfg15.grid.coords t)).Idx → Elt F (cfg15.win w).elt :=
  ((cfg15.win w).blk t).view.read (Elt F) (V c (Pipeline.arrRef spec15 w))

def product15 (x : Vec F S5000x128 .f32) (w : Vec F S128x64 .f32) : Vec F S5000x64 .f32 :=
  View.canon [⟨all5000x64, k15_pay1 (View.ld x all5000x128) (View.ld w all128x64)⟩]

set_option maxHeartbeats 1000000 in
theorem kernel_triple15 (c : Dev nD) (E : Set ℕ) (i : grid15.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product15 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc15_kernel i arg1 harg1 arg2 harg2 arg3 harg3) K := by
  subst hp
  simp only [cc15_kernel_eq_skeleton]; unfold cc15_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat15 (c : Dev nD) : Dat τ (Elt F) Unit ℕ (UR sig nD τ) ℕ cfg15 c where
  A w := V c (Pipeline.arrRef spec15 w)
  after w t := match w with
    | ⟨0, _⟩ => blockAt15 V c 0 t
    | ⟨1, _⟩ => blockAt15 V c 1 t
    | ⟨2, _⟩ => product15 (blockAt15 V c 0 t) (blockAt15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem Phi_in15 (c : Dev nD) : Pipeline.ΦA spec15 c ⊢ ((dat15 V c).Φ 0 : sProp 𝕄) := .rfl

theorem Phi_out15 (c : Dev nD) : (dat15 V c).Φ (Fin.last cfg15.N) ⊢ (Pipeline.ΦA spec15 c : sProp 𝕄) := .rfl

theorem after_prod15 (c : Dev nD) (t : Fin cfg15.N) :
    (dat15 V c).after 2 t = product15 (blockAt15 V c 0 t) (blockAt15 V c 1 t) := by dsimp only [dat15]

theorem lhs_held15 (c : Dev nD) (t : Fin cfg15.N) (d) : (dat15 V c).before 0 t d = blockAt15 V c 0 t :=
  (dat15 V c).before_in_eq_fetched 0 rfl (fun _ => rfl) (fun _ _ _ => rfl) (fun _ => rfl) t d

theorem rhs_held15 (c : Dev nD) (t : Fin cfg15.N) (d) : (dat15 V c).before 1 t d = blockAt15 V c 1 t :=
  (dat15 V c).before_in_eq_fetched 1 rfl (fun _ => rfl) (fun _ _ _ => rfl) (fun _ => rfl) t d

theorem body_obligation15 (c : Dev nD) : BodyObligation (dat15 (F := F) V c) (defs₀ (F := F)) Variants.none () Set.univ := fun t => by
  rw [bigSep_W15, bigSep_W15]
  exact sound_of_triple (e := bodyAt15 t)
    (BI.sep_mono (held_elim _ (lhs_held15 V c t)) (BI.sep_mono (held_elim _ (rhs_held15 V c t)) (any_intro _)))
    (kernel_triple15 c _ _ _ _ _ _ _ _ _ _ _ (after_prod15 V c t))

end Cert.Kernel.Hand

end
-- ==== Proof.K.R16.lean ====
import proofs.«165280_j63788854280268_1_alg».proof.Proof.K.BodyCommon

set_option maxRecDepth 16384

noncomputable section
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

def logSoftmaxOut16 (x : Vec F S5000x64 .f32) (b : Vec F S1x64 .f32) : Vec F S5000x64 .f32 :=
  View.canon [⟨all5000x64, k16_pay1 (View.ld x all5000x64) (View.ld b all1x64)⟩]

set_option maxHeartbeats 1000000 in
theorem sound_kernel16 (c : Dev nD) (E : Set ℕ) (i : grid16.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x : Vec F S5000x64 .f32) (b : Vec F S1x64 .f32) (p : Vec F S5000x64 .f32) (hp : p = logSoftmaxOut16 x b) (K : PUnit → sProp 𝕄) :
    iprop((owns (c : Thread nD τ) arg1 fullShare x ∗ owns (c : Thread nD τ) arg2 fullShare b ∗ (∃ d, owns (c : Thread nD τ) arg3 fullShare d))
        ∗ (iprop(owns (c : Thread nD τ) arg1 fullShare x ∗ owns (c : Thread nD τ) arg2 fullShare b ∗ owns (c : Thread nD τ) arg3 fullShare p) -∗ K ⟨⟩))
      ⊢ wp frame (wpE (defs₀ (F := F)) Variants.none c none) E (cc16_kernel i arg1 harg1 arg2 harg2 arg3 harg3) K := by
  subst hp
  simp only [cc16_kernel_eq_skeleton]; unfold cc16_kernel_skel
  unfold owns
  iintro ⟨⟨⟨%f0, %hf0, H0⟩, ⟨%f1, %hf1, H1⟩, ⟨%d2, %f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers5000x64 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => logSoftmaxOut16 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem Phi_in16 (c : Dev nD) : Pipeline.ΦA spec16 c ⊢ ((dat16 V c).Φ 0 : sProp 𝕄) := .rfl

theorem Phi_out16 (c : Dev nD) : (dat16 V c).Φ (Fin.last cfg16.N) ⊢ (Pipeline.ΦA spec16 c : sProp 𝕄) := .rfl

theorem after16_2 (c : Dev nD) (t : Fin cfg16.N) : (dat16 V c).after 2 t = logSoftmaxOut16 (iblk16 V c 0 t) (iblk16 V c 1 t) := by dsimp only [dat16]

theorem before16_0 (c : Dev nD) (t : Fin cfg16.N) (d) : (dat16 V c).before 0 t d = iblk16 V c 0 t :=
  (dat16 V c).before_in_eq_fetched 0 rfl (fun _ => rfl) (fun _ _ _ => rfl) (fun _ => rfl) t d

theorem before16_1 (c : Dev nD) (t : Fin cfg16.N) (d) : (dat16 V c).before 1 t d = iblk16 V c 1 t :=
  (dat16 V c).before_in_eq_fetched 1 rfl (fun _ => rfl) (fun _ _ _ => rfl) (fun _ => rfl) t d

theorem body_obligation16 (c : Dev nD) : BodyObligation (dat16 (F := F) V c) (defs₀ (F := F)) Variants.none () Set.univ := fun t => by
  rw [bigSep_W16, bigSep_W16]
  exact sound_of_triple (e := bodyAt16 t)
    (BI.sep_mono (held_elim _ (before16_0 V c t)) (BI.sep_mono (held_elim _ (before16_1 V c t)) (any_intro _)))
    (sound_kernel16 c _ _ _ _ _ _ _ _ _ _ _ (after16_2 V c t))

end Cert.Kernel.Hand

end
-- ==== Proof.K.Chain.lean ====
import proofs.«165280_j63788854280268_1_alg».proof.Proof.K.R0
import proofs.«165280_j63788854280268_1_alg».proof.Proof.K.R1
import proofs.«165280_j63788854280268_1_alg».proof.Proof.K.R2
import proofs.«165280_j63788854280268_1_alg».proof.Proof.K.R3
import proofs.«165280_j63788854280268_1_alg».proof.Proof.K.R4
import proofs.«165280_j63788854280268_1_alg».proof.Proof.K.R5
import proofs.«165280_j63788854280268_1_alg».proof.Proof.K.R6
import proofs.«165280_j63788854280268_1_alg».proof.Proof.K.R7
import proofs.«165280_j63788854280268_1_alg».proof.Proof.K.R8
import proofs.«165280_j63788854280268_1_alg».proof.Proof.K.R9
import proofs.«165280_j63788854280268_1_alg».proof.Proof.K.R10
import proofs.«165280_j63788854280268_1_alg».proof.Proof.K.R11
import proofs.«165280_j63788854280268_1_alg».proof.Proof.K.R12
import proofs.«165280_j63788854280268_1_alg».proof.Proof.K.R13
import proofs.«165280_j63788854280268_1_alg».proof.Proof.K.R14
import proofs.«165280_j63788854280268_1_alg».proof.Proof.K.R15
import proofs.«165280_j63788854280268_1_alg».proof.Proof.K.R16
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
def B2 (c : Dev nD) : Valuation τ sig (Elt F) :=
  Pipeline.withArrays spec0 c (B1 m ρ c) fun w => (dat0 (T1 m ρ) c).arrAt w cfg0.N
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (T3 m ρ) c).arrAt w cfg1.N
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
def B5 (c : Dev nD) : Valuation τ sig (Elt F) :=
  Pipeline.withArrays spec2 c (B4 m ρ c) fun w => (dat2 (T4 m ρ) c).arrAt w cfg2.N
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
abbrev T5 : (c : Dev nD) → (b : Ref sig .tc) → Buf (Elt F) ((c : Thread nD τ).loc b) := fun c b => B5 m ρ c b
theorem B5_arr (c : Dev nD) (w : Fin cfg2.W) :
    B5 m ρ c (Proc.devRef .tc (Pipeline.arrRef spec2 w)) = (dat2 (T4 m ρ) c).arrAt w cfg2.N := by
  unfold B5; exact Pipeline.withArrays_arr spec2 launch2.win.arr_inj c _ _ w
abbrev B6 : Dev nD → Valuation τ sig (Elt F) := fun c => StableHlo.after hostOps3 (B5 m ρ c)
abbrev T6 : (c : Dev nD) → (b : Ref sig .tc) → Buf (Elt F) ((c : Thread nD τ).loc b) := fun c b => B6 m ρ c b
def B7 (c : Dev nD) : Valuation τ sig (Elt F) :=
  Pipeline.withArrays spec3 c (B6 m ρ c) fun w => (dat3 (T6 m ρ) c).arrAt w cfg3.N
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb
abbrev T7 : (c : Dev nD) → (b : Ref sig .tc) → Buf (Elt F) ((c : Thread nD τ).loc b) := fun c b => B7 m ρ c b
theorem B7_arr (c : Dev nD) (w : Fin cfg3.W) :
    B7 m ρ c (Proc.devRef .tc (Pipeline.arrRef spec3 w)) = (dat3 (T6 m ρ) c).arrAt w cfg3.N := by
  unfold B7; exact Pipeline.withArrays_arr spec3 launch3.win.arr_inj c _ _ w
abbrev B8 : Dev nD → Valuation τ sig (Elt F) := fun c => StableHlo.after hostOps4 (B7 m ρ c)
abbrev T8 : (c : Dev nD) → (b : Ref sig .tc) → Buf (Elt F) ((c : Thread nD τ).loc b) := fun c b => B8 m ρ c b
def B9 (c : Dev nD) : Valuation τ sig (Elt F) :=
  Pipeline.withArrays spec4 c (B8 m ρ c) fun w => (dat4 (T8 m ρ) c).arrAt w cfg4.N
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev T9 : (c : Dev nD) → (b : Ref sig .tc) → Buf (Elt F) ((c : Thread nD τ).loc b) := fun c b => B9 m ρ c b
theorem B9_arr (c : Dev nD) (w : Fin cfg4.W) :
    B9 m ρ c (Proc.devRef .tc (Pipeline.arrRef spec4 w)) = (dat4 (T8 m ρ) c).arrAt w cfg4.N := by
  unfold B9; exact Pipeline.withArrays_arr spec4 launch4.win.arr_inj c _ _ w
def B10 (c : Dev nD) : Valuation τ sig (Elt F) :=
  Pipeline.withArrays spec5 c (B9 m ρ c) fun w => (dat5 (T9 m ρ) c).arrAt w cfg5.N
theorem B10_of_ne (c : Dev nD) (b : Ref sig .tc) (hb : ∀ w, Pipeline.arrRef spec5 w ≠ b) :
    B10 m ρ c (Proc.devRef .tc b) = B9 m ρ c (Proc.devRef .tc b) := by
  unfold B10; exact Pipeline.withArrays_of_ne spec5 c _ _ b hb
abbrev T10 : (c : Dev nD) → (b : Ref sig .tc) → Buf (Elt F) ((c : Thread nD τ).loc b) := fun c b => B10 m ρ c b
theorem B10_arr (c : Dev nD) (w : Fin cfg5.W) :
    B10 m ρ c (Proc.devRef .tc (Pipeline.arrRef spec5 w)) = (dat5 (T9 m ρ) c).arrAt w cfg5.N := by
  unfold B10; exact Pipeline.withArrays_arr spec5 launch5.win.arr_inj c _ _ w
abbrev B11 : Dev nD → Valuation τ sig (Elt F) := fun c => StableHlo.after hostOps6 (B10 m ρ c)
abbrev T11 : (c : Dev nD) → (b : Ref sig .tc) → Buf (Elt F) ((c : Thread nD τ).loc b) := fun c b => B11 m ρ c b
def B12 (c : Dev nD) : Valuation τ sig (Elt F) :=
  Pipeline.withArrays spec6 c (B11 m ρ c) fun w => (dat6 (T11 m ρ) c).arrAt w cfg6.N
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev T12 : (c : Dev nD) → (b : Ref sig .tc) → Buf (Elt F) ((c : Thread nD τ).loc b) := fun c b => B12 m ρ c b
theorem hrest6 (c : Dev nD) : ∀ b, b ∉ Finset.univ.image (Pipeline.arrRef spec6) → T12 m ρ c b = T11 m ρ c b :=
  fun b hb => B12_of_ne m ρ c b fun w e => hb (Finset.mem_image.mpr ⟨w, Finset.mem_univ _, e⟩)
abbrev B13 : Dev nD → Valuation τ sig (Elt F) := fun c => StableHlo.after hostOps7 (B12 m ρ c)
abbrev T13 : (c : Dev nD) → (b : Ref sig .tc) → Buf (Elt F) ((c : Thread nD τ).loc b) := fun c b => B13 m ρ c b
def B14 (c : Dev nD) : Valuation τ sig (Elt F) :=
  Pipeline.withArrays spec7 c (B13 m ρ c) fun w => (dat7 (T13 m ρ) c).arrAt w cfg7.N
theorem B14_of_ne (c : Dev nD) (b : Ref sig .tc) (hb : ∀ w, Pipeline.arrRef spec7 w ≠ b) :
    B14 m ρ c (Proc.devRef .tc b) = B13 m ρ c (Proc.devRef .tc b) := by
  unfold B14; exact Pipeline.withArrays_of_ne spec7 c _ _ b hb
abbrev T14 : (c : Dev nD) → (b : Ref sig .tc) → Buf (Elt F) ((c : Thread nD τ).loc b) := fun c b => B14 m ρ c b
theorem B14_arr (c : Dev nD) (w : Fin cfg7.W) :
    B14 m ρ c (Proc.devRef .tc (Pipeline.arrRef spec7 w)) = (dat7 (T13 m ρ) c).arrAt w cfg7.N := by
  unfold B14; exact Pipeline.withArrays_arr spec7 launch7.win.arr_inj c _ _ w
abbrev B15 : Dev nD → Valuation τ sig (Elt F) := fun c => StableHlo.after hostOps8 (B14 m ρ c)
abbrev T15 : (c : Dev nD) → (b : Ref sig .tc) → Buf (Elt F) ((c : Thread nD τ).loc b) := fun c b => B15 m ρ c b
def B16 (c : Dev nD) : Valuation τ sig (Elt F) :=
  Pipeline.withArrays spec8 c (B15 m ρ c) fun w => (dat8 (T15 m ρ) c).arrAt w cfg8.N
theorem B16_of_ne (c : Dev nD) (b : Ref sig .tc) (hb : ∀ w, Pipeline.arrRef spec8 w ≠ b) :
    B16 m ρ c (Proc.devRef .tc b) = B15 m ρ c (Proc.devRef .tc b) := by
  unfold B16; exact Pipeline.withArrays_of_ne spec8 c _ _ b hb
abbrev T16 : (c : Dev nD) → (b : Ref sig .tc) → Buf (Elt F) ((c : Thread nD τ).loc b) := fun c b => B16 m ρ c b
theorem B16_arr (c : Dev nD) (w : Fin cfg8.W) :
    B16 m ρ c (Proc.devRef .tc (Pipeline.arrRef spec8 w)) = (dat8 (T15 m ρ) c).arrAt w cfg8.N := by
  unfold B16; exact Pipeline.withArrays_arr spec8 launch8.win.arr_inj c _ _ w
def B17 (c : Dev nD) : Valuation τ sig (Elt F) :=
  Pipeline.withArrays spec9 c (B16 m ρ c) fun w => (dat9 (T16 m ρ) c).arrAt w cfg9.N
theorem B17_of_ne (c : Dev nD) (b : Ref sig .tc) (hb : ∀ w, Pipeline.arrRef spec9 w ≠ b) :
    B17 m ρ c (Proc.devRef .tc b) = B16 m ρ c (Proc.devRef .tc b) := by
  unfold B17; exact Pipeline.withArrays_of_ne spec9 c _ _ b hb
abbrev T17 : (c : Dev nD) → (b : Ref sig .tc) → Buf (Elt F) ((c : Thread nD τ).loc b) := fun c b => B17 m ρ c b
theorem B17_arr (c : Dev nD) (w : Fin cfg9.W) :
    B17 m ρ c (Proc.devRef .tc (Pipeline.arrRef spec9 w)) = (dat9 (T16 m ρ) c).arrAt w cfg9.N := by
  unfold B17; exact Pipeline.withArrays_arr spec9 launch9.win.arr_inj c _ _ w
abbrev B18 : Dev nD → Valuation τ sig (Elt F) := fun c => StableHlo.after hostOps10 (B17 m ρ c)
abbrev T18 : (c : Dev nD) → (b : Ref sig .tc) → Buf (Elt F) ((c : Thread nD τ).loc b) := fun c b => B18 m ρ c b
def B19 (c : Dev nD) : Valuation τ sig (Elt F) :=
  Pipeline.withArrays spec10 c (B18 m ρ c) fun w => (dat10 (T18 m ρ) c).arrAt w cfg10.N
theorem B19_of_ne (c : Dev nD) (b : Ref sig .tc) (hb : ∀ w, Pipeline.arrRef spec10 w ≠ b) :
    B19 m ρ c (Proc.devRef .tc b) = B18 m ρ c (Proc.devRef .tc b) := by
  unfold B19; exact Pipeline.withArrays_of_ne spec10 c _ _ b hb
abbrev T19 : (c : Dev nD) → (b : Ref sig .tc) → Buf (Elt F) ((c : Thread nD τ).loc b) := fun c b => B19 m ρ c b
theorem B19_arr (c : Dev nD) (w : Fin cfg10.W) :
    B19 m ρ c (Proc.devRef .tc (Pipeline.arrRef spec10 w)) = (dat10 (T18 m ρ) c).arrAt w cfg10.N := by
  unfold B19; exact Pipeline.withArrays_arr spec10 launch10.win.arr_inj c _ _ w
abbrev B20 : Dev nD → Valuation τ sig (Elt F) := fun c => StableHlo.after hostOps11 (B19 m ρ c)
abbrev T20 : (c : Dev nD) → (b : Ref sig .tc) → Buf (Elt F) ((c : Thread nD τ).loc b) := fun c b => B20 m ρ c b
def B21 (c : Dev nD) : Valuation τ sig (Elt F) :=
  Pipeline.withArrays spec11 c (B20 m ρ c) fun w => (dat11 (T20 m ρ) c).arrAt w cfg11.N
theorem B21_of_ne (c : Dev nD) (b : Ref sig .tc) (hb : ∀ w, Pipeline.arrRef spec11 w ≠ b) :
    B21 m ρ c (Proc.devRef .tc b) = B20 m ρ c (Proc.devRef .tc b) := by
  unfold B21; exact Pipeline.withArrays_of_ne spec11 c _ _ b hb
abbrev T21 : (c : Dev nD) → (b : Ref sig .tc) → Buf (Elt F) ((c : Thread nD τ).loc b) := fun c b => B21 m ρ c b
theorem B21_arr (c : Dev nD) (w : Fin cfg11.W) :
    B21 m ρ c (Proc.devRef .tc (Pipeline.arrRef spec11 w)) = (dat11 (T20 m ρ) c).arrAt w cfg11.N := by
  unfold B21; exact Pipeline.withArrays_arr spec11 launch11.win.arr_inj c _ _ w
abbrev B22 : Dev nD → Valuation τ sig (Elt F) := fun c => StableHlo.after hostOps12 (B21 m ρ c)
abbrev T22 : (c : Dev nD) → (b : Ref sig .tc) → Buf (Elt F) ((c : Thread nD τ).loc b) := fun c b => B22 m ρ c b
def B23 (c : Dev nD) : Valuation τ sig (Elt F) :=
  Pipeline.withArrays spec12 c (B22 m ρ c) fun w => (dat12 (T22 m ρ) c).arrAt w cfg12.N
theorem B23_of_ne (c : Dev nD) (b : Ref sig .tc) (hb : ∀ w, Pipeline.arrRef spec12 w ≠ b) :
    B23 m ρ c (Proc.devRef .tc b) = B22 m ρ c (Proc.devRef .tc b) := by
  unfold B23; exact Pipeline.withArrays_of_ne spec12 c _ _ b hb
abbrev T23 : (c : Dev nD) → (b : Ref sig .tc) → Buf (Elt F) ((c : Thread nD τ).loc b) := fun c b => B23 m ρ c b
theorem B23_arr (c : Dev nD) (w : Fin cfg12.W) :
    B23 m ρ c (Proc.devRef .tc (Pipeline.arrRef spec12 w)) = (dat12 (T22 m ρ) c).arrAt w cfg12.N := by
  unfold B23; exact Pipeline.withArrays_arr spec12 launch12.win.arr_inj c _ _ w
def B24 (c : Dev nD) : Valuation τ sig (Elt F) :=
  Pipeline.withArrays spec13 c (B23 m ρ c) fun w => (dat13 (T23 m ρ) c).arrAt w cfg13.N
theorem B24_of_ne (c : Dev nD) (b : Ref sig .tc) (hb : ∀ w, Pipeline.arrRef spec13 w ≠ b) :
    B24 m ρ c (Proc.devRef .tc b) = B23 m ρ c (Proc.devRef .tc b) := by
  unfold B24; exact Pipeline.withArrays_of_ne spec13 c _ _ b hb
abbrev T24 : (c : Dev nD) → (b : Ref sig .tc) → Buf (Elt F) ((c : Thread nD τ).loc b) := fun c b => B24 m ρ c b
theorem B24_arr (c : Dev nD) (w : Fin cfg13.W) :
    B24 m ρ c (Proc.devRef .tc (Pipeline.arrRef spec13 w)) = (dat13 (T23 m ρ) c).arrAt w cfg13.N := by
  unfold B24; exact Pipeline.withArrays_arr spec13 launch13.win.arr_inj c _ _ w
def B25 (c : Dev nD) : Valuation τ sig (Elt F) :=
  Pipeline.withArrays spec14 c (B24 m ρ c) fun w => (dat14 (T24 m ρ) c).arrAt w cfg14.N
theorem B25_of_ne (c : Dev nD) (b : Ref sig .tc) (hb : ∀ w, Pipeline.arrRef spec14 w ≠ b) :
    B25 m ρ c (Proc.devRef .tc b) = B24 m ρ c (Proc.devRef .tc b) := by
  unfold B25; exact Pipeline.withArrays_of_ne spec14 c _ _ b hb
abbrev T25 : (c : Dev nD) → (b : Ref sig .tc) → Buf (Elt F) ((c : Thread nD τ).loc b) := fun c b => B25 m ρ c b
theorem B25_arr (c : Dev nD) (w : Fin cfg14.W) :
    B25 m ρ c (Proc.devRef .tc (Pipeline.arrRef spec14 w)) = (dat14 (T24 m ρ) c).arrAt w cfg14.N := by
  unfold B25; exact Pipeline.withArrays_arr spec14 launch14.win.arr_inj c _ _ w
def B26 (c : Dev nD) : Valuation τ sig (Elt F) :=
  Pipeline.withArrays spec15 c (B25 m ρ c) fun w => (dat15 (T25 m ρ) c).arrAt w cfg15.N
theorem B26_of_ne (c : Dev nD) (b : Ref sig .tc) (hb : ∀ w, Pipeline.arrRef spec15 w ≠ b) :
    B26 m ρ c (Proc.devRef .tc b) = B25 m ρ c (Proc.devRef .tc b) := by
  unfold B26; exact Pipeline.withArrays_of_ne spec15 c _ _ b hb
abbrev T26 : (c : Dev nD) → (b : Ref sig .tc) → Buf (Elt F) ((c : Thread nD τ).loc b) := fun c b => B26 m ρ c b
theorem B26_arr (c : Dev nD) (w : Fin cfg15.W) :
    B26 m ρ c (Proc.devRef .tc (Pipeline.arrRef spec15 w)) = (dat15 (T25 m ρ) c).arrAt w cfg15.N := by
  unfold B26; exact Pipeline.withArrays_arr spec15 launch15.win.arr_inj c _ _ w
abbrev B27 : Dev nD → Valuation τ sig (Elt F) := fun c => StableHlo.after hostOps16 (B26 m ρ c)
abbrev T27 : (c : Dev nD) → (b : Ref sig .tc) → Buf (Elt F) ((c : Thread nD τ).loc b) := fun c b => B27 m ρ c b
def B28 (c : Dev nD) : Valuation τ sig (Elt F) :=
  Pipeline.withArrays spec16 c (B27 m ρ c) fun w => (dat16 (T27 m ρ) c).arrAt w cfg16.N
theorem B28_of_ne (c : Dev nD) (b : Ref sig .tc) (hb : ∀ w, Pipeline.arrRef spec16 w ≠ b) :
    B28 m ρ c (Proc.devRef .tc b) = B27 m ρ c (Proc.devRef .tc b) := by
  unfold B28; exact Pipeline.withArrays_of_ne spec16 c _ _ b hb
abbrev T28 : (c : Dev nD) → (b : Ref sig .tc) → Buf (Elt F) ((c : Thread nD τ).loc b) := fun c b => B28 m ρ c b
theorem B28_arr (c : Dev nD) (w : Fin cfg16.W) :
    B28 m ρ c (Proc.devRef .tc (Pipeline.arrRef spec16 w)) = (dat16 (T27 m ρ) c).arrAt w cfg16.N := by
  unfold B28; exact Pipeline.withArrays_arr spec16 launch16.win.arr_inj c _ _ w
abbrev admH : (p : Fin 17) → (pcfgs (F := F) p).Adm := fun p => (cfgs p).toPCfg_adm
def pdats : (p : Fin 17) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T4 m ρ) c
  | ⟨3, _⟩ => fun c => dat3 (T6 m ρ) c
  | ⟨4, _⟩ => fun c => dat4 (T8 m ρ) c
  | ⟨5, _⟩ => fun c => dat5 (T9 m ρ) c
  | ⟨6, _⟩ => fun c => dat6 (T11 m ρ) c
  | ⟨7, _⟩ => fun c => dat7 (T13 m ρ) c
  | ⟨8, _⟩ => fun c => dat8 (T15 m ρ) c
  | ⟨9, _⟩ => fun c => dat9 (T16 m ρ) c
  | ⟨10, _⟩ => fun c => dat10 (T18 m ρ) c
  | ⟨11, _⟩ => fun c => dat11 (T20 m ρ) c
  | ⟨12, _⟩ => fun c => dat12 (T22 m ρ) c
  | ⟨13, _⟩ => fun c => dat13 (T23 m ρ) c
  | ⟨14, _⟩ => fun c => dat14 (T24 m ρ) c
  | ⟨15, _⟩ => fun c => dat15 (T25 m ρ) c
  | ⟨16, _⟩ => fun c => dat16 (T27 m ρ) c
  | ⟨_ + 17, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
end Cert.Kernel.Hand
end
-- ==== Proof.K.Regs.lean ====
import proofs.«165280_j63788854280268_1_alg».proof.Proof.K.Chain
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A kernel region between two boundary valuations: its arrays are split out of the unscoped buffers at entry and put back at exit. -/
def regOf (p : Fin 17) (win : Pipeline.WinFacts₀ (pcfgs (F := F) p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (Bin Bout : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ)
    (hsplit : ∀ c, (unscopedBufs (Ix := Unit) (Name := ℕ) (U := UR sig nD τ) (Lvl := ℕ) c (fun b => Bin c b) : sProp 𝕄)
      ⊢ iprop((pdats m ρ p c).arrays ((pdats m ρ p c).arrAt · 0) ∗ Pipeline.unscopedRest (cfgs p).spec c (fun b => Bin c b)))
    (hjoin : ∀ c, iprop((pdats m ρ p c).arrays ((pdats m ρ p c).arrAt · (cfgs p).N) ∗ Pipeline.unscopedRest (cfgs p).spec c (fun b => Bin c b))
      ⊢ (unscopedBufs (Ix := Unit) (Name := ℕ) (U := UR sig nD τ) (Lvl := ℕ) c (fun b => Bout c b) : sProp 𝕄))
    (hΦin : ∀ c, Pipeline.ΦA (cfgs p).spec c ⊢ ((pdats m ρ p c).Φ 0 : sProp 𝕄))
    (hΦout : ∀ c, (pdats m ρ p c).Φ (Fin.last (cfgs p).N) ⊢ (Pipeline.ΦA (cfgs p).spec c : sProp 𝕄)) :
    Pipeline.RegionSeg (pcfgs (F := F)) admH (pdats m ρ) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Bin c) ∗ R c)
  post c := iprop(StableHlo.held (c : Thread nD τ) (Pipeline.ucRefs τ sig) (Bout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Bin c b)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    have haux : ∀ (P Q S : sProp 𝕄), iprop(P ∗ Q ∗ S) ⊢ iprop(S ∗ P) := fun P Q S => by
      iintro ⟨Hp, -, Hr⟩
      isplitl [Hr]; · iexact Hr
      iexact Hp
    exact (haux _ _ _).trans (hΦin c)
  hout c := by
    rw [Pipeline.ownSems0_none]
    have haux : ∀ (S P : sProp 𝕄), iprop(S ∗ P) ⊢ iprop(P ∗ BI.emp ∗ S) := fun S P => by
      iintro ⟨Hr, Hp⟩
      isplitl [Hp]; · iexact Hp
      isplitr; · iempintro
      iexact Hr
    exact (hΦout c).trans (haux _ _)
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [howed c (Fin.last _)]
    icases HO with ⟨%W, -, HO⟩; iexists W; iexact HO

/-- When the windows' arrays are pairwise distinct, the exit valuation is the entry one with those arrays as the pipeline leaves them. -/
def regOfLaunch (p : Fin 17) (la : Pipeline.LaunchFacts (nD := nD) (τ := τ) cfgs p) (Bin : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = Bin c (Pipeline.arrRef (cfgs p).spec w))
    (hΦin : ∀ c, Pipeline.ΦA (cfgs p).spec c ⊢ ((pdats m ρ p c).Φ 0 : sProp 𝕄))
    (hΦout : ∀ c, (pdats m ρ p c).Φ (Fin.last (cfgs p).N) ⊢ (Pipeline.ΦA (cfgs p).spec c : sProp 𝕄)) :
    Pipeline.RegionSeg (pcfgs (F := F)) admH (pdats m ρ) () defs₀ 𝒱₀ L lv p :=
  regOf m ρ p la.win.to₀ la.block_pos la.stage_whole Bin
    (fun c => Pipeline.withArrays (cfgs p).spec c (Bin c) fun w => (pdats m ρ p c).arrAt w (cfgs p).N) hbody howed hrec
    (fun c => Pipeline.arrays_of_unscopedBufs (p := p) (pcfgs (F := F)) admH (pdats m ρ) la.win la.arr_whole c
      ((pdats m ρ p c).share_full (hq c)) (fun b => Bin c b) (hA c))
    (fun c => Pipeline.unscopedBufs_of_arrays (p := p) (pcfgs (F := F)) admH (Ix := Unit) (Name := ℕ) (U := UR sig nD τ) (Lvl := ℕ)
      la.win la.arr_whole c (pdats m ρ) ((pdats m ρ p c).share_full (hq c)) (fun b => Bin c b) _ ((pdats m ρ p c).arrAt · (cfgs p).N)
      (fun w => (Pipeline.withArrays_arr (cfgs p).spec la.win.arr_inj c (Bin c) (fun w => (pdats m ρ p c).arrAt w (cfgs p).N) w).symm)
      (fun b hb => Pipeline.withArrays_of_ne (cfgs p).spec c _ _ b fun w e => hb (Finset.mem_image.mpr ⟨w, Finset.mem_univ _, e⟩)))
    hΦin hΦout

def reg0 : Pipeline.RegionSeg (pcfgs (F := F)) admH (pdats m ρ) () defs₀ 𝒱₀ L lv 0 :=
  regOfLaunch m ρ 0 launch0 (B1 m ρ) (fun c => (body_obligation0 (T1 m ρ) c).loose) (fun _ _ => rfl) (fun _ => rfl)
    (fun _ _ => rfl) (fun _ _ => rfl) (Phi_in0 (T1 m ρ)) (Phi_out0 (T1 m ρ))

def reg1 : Pipeline.RegionSeg (pcfgs (F := F)) admH (pdats m ρ) () defs₀ 𝒱₀ L lv 1 :=
  regOfLaunch m ρ 1 launch1 (B3 m ρ) (fun c => (body_obligation1 (T3 m ρ) c).loose) (fun _ _ => rfl) (fun _ => rfl)
    (fun _ _ => rfl) (fun _ _ => rfl) (Phi_in1 (T3 m ρ)) (Phi_out1 (T3 m ρ))

def reg2 : Pipeline.RegionSeg (pcfgs (F := F)) admH (pdats m ρ) () defs₀ 𝒱₀ L lv 2 :=
  regOfLaunch m ρ 2 launch2 (B4 m ρ) (fun c => (body_obligation2 (T4 m ρ) c).loose) (fun _ _ => rfl) (fun _ => rfl)
    (fun _ _ => rfl) (fun _ _ => rfl) (Phi_in2 (T4 m ρ)) (Phi_out2 (T4 m ρ))

def reg3 : Pipeline.RegionSeg (pcfgs (F := F)) admH (pdats m ρ) () defs₀ 𝒱₀ L lv 3 :=
  regOfLaunch m ρ 3 launch3 (B6 m ρ) (fun c => (body_obligation3 (T6 m ρ) c).loose) (fun _ _ => rfl) (fun _ => rfl)
    (fun _ _ => rfl) (fun _ _ => rfl) (Phi_in3 (T6 m ρ)) (Phi_out3 (T6 m ρ))

def reg4 : Pipeline.RegionSeg (pcfgs (F := F)) admH (pdats m ρ) () defs₀ 𝒱₀ L lv 4 :=
  regOfLaunch m ρ 4 launch4 (B8 m ρ) (fun c => (body_obligation4 (T8 m ρ) c).loose) (fun _ _ => rfl) (fun _ => rfl)
    (fun _ _ => rfl) (fun _ _ => rfl) (Phi_in4 (T8 m ρ)) (Phi_out4 (T8 m ρ))

def reg5 : Pipeline.RegionSeg (pcfgs (F := F)) admH (pdats m ρ) () defs₀ 𝒱₀ L lv 5 :=
  regOfLaunch m ρ 5 launch5 (B9 m ρ) (fun c => (body_obligation5 (T9 m ρ) c).loose) (fun _ _ => rfl) (fun _ => rfl)
    (fun _ _ => rfl) (fun _ _ => rfl) (Phi_in5 (T9 m ρ)) (Phi_out5 (T9 m ρ))

def reg7 : Pipeline.RegionSeg (pcfgs (F := F)) admH (pdats m ρ) () defs₀ 𝒱₀ L lv 7 :=
  regOfLaunch m ρ 7 launch7 (B13 m ρ) (fun c => (body_obligation7 (T13 m ρ) c).loose) (fun _ _ => rfl) (fun _ => rfl)
    (fun _ _ => rfl) (fun _ _ => rfl) (Phi_in7 (T13 m ρ)) (Phi_out7 (T13 m ρ))

def reg8 : Pipeline.RegionSeg (pcfgs (F := F)) admH (pdats m ρ) () defs₀ 𝒱₀ L lv 8 :=
  regOfLaunch m ρ 8 launch8 (B15 m ρ) (fun c => (body_obligation8 (T15 m ρ) c).loose) (fun _ _ => rfl) (fun _ => rfl)
    (fun _ _ => rfl) (fun _ _ => rfl) (Phi_in8 (T15 m ρ)) (Phi_out8 (T15 m ρ))

def reg9 : Pipeline.RegionSeg (pcfgs (F := F)) admH (pdats m ρ) () defs₀ 𝒱₀ L lv 9 :=
  regOfLaunch m ρ 9 launch9 (B16 m ρ) (fun c => (body_obligation9 (T16 m ρ) c).loose) (fun _ _ => rfl) (fun _ => rfl)
    (fun _ _ => rfl) (fun _ _ => rfl) (Phi_in9 (T16 m ρ)) (Phi_out9 (T16 m ρ))

def reg10 : Pipeline.RegionSeg (pcfgs (F := F)) admH (pdats m ρ) () defs₀ 𝒱₀ L lv 10 :=
  regOfLaunch m ρ 10 launch10 (B18 m ρ) (fun c => (body_obligation10 (T18 m ρ) c).loose) (fun _ _ => rfl) (fun _ => rfl)
    (fun _ _ => rfl) (fun _ _ => rfl) (Phi_in10 (T18 m ρ)) (Phi_out10 (T18 m ρ))

def reg11 : Pipeline.RegionSeg (pcfgs (F := F)) admH (pdats m ρ) () defs₀ 𝒱₀ L lv 11 :=
  regOfLaunch m ρ 11 launch11 (B20 m ρ) (fun c => (body_obligation11 (T20 m ρ) c).loose) (fun _ _ => rfl) (fun _ => rfl)
    (fun _ _ => rfl) (fun _ _ => rfl) (Phi_in11 (T20 m ρ)) (Phi_out11 (T20 m ρ))

def reg12 : Pipeline.RegionSeg (pcfgs (F := F)) admH (pdats m ρ) () defs₀ 𝒱₀ L lv 12 :=
  regOfLaunch m ρ 12 launch12 (B22 m ρ) (fun c => (body_obligation12 (T22 m ρ) c).loose) (fun _ _ => rfl) (fun _ => rfl)
    (fun _ _ => rfl) (fun _ _ => rfl) (Phi_in12 (T22 m ρ)) (Phi_out12 (T22 m ρ))

def reg13 : Pipeline.RegionSeg (pcfgs (F := F)) admH (pdats m ρ) () defs₀ 𝒱₀ L lv 13 :=
  regOfLaunch m ρ 13 launch13 (B23 m ρ) (fun c => (body_obligation13 (T23 m ρ) c).loose) (fun _ _ => rfl) (fun _ => rfl)
    (fun _ _ => rfl) (fun _ _ => rfl) (Phi_in13 (T23 m ρ)) (Phi_out13 (T23 m ρ))

def reg14 : Pipeline.RegionSeg (pcfgs (F := F)) admH (pdats m ρ) () defs₀ 𝒱₀ L lv 14 :=
  regOfLaunch m ρ 14 launch14 (B24 m ρ) (fun c => (body_obligation14 (T24 m ρ) c).loose) (fun _ _ => rfl) (fun _ => rfl)
    (fun _ _ => rfl) (fun _ _ => rfl) (Phi_in14 (T24 m ρ)) (Phi_out14 (T24 m ρ))

def reg15 : Pipeline.RegionSeg (pcfgs (F := F)) admH (pdats m ρ) () defs₀ 𝒱₀ L lv 15 :=
  regOfLaunch m ρ 15 launch15 (B25 m ρ) (fun c => (body_obligation15 (T25 m ρ) c).loose) (fun _ _ => rfl) (fun _ => rfl)
    (fun _ _ => rfl) (fun _ _ => rfl) (Phi_in15 (T25 m ρ)) (Phi_out15 (T25 m ρ))

def reg16 : Pipeline.RegionSeg (pcfgs (F := F)) admH (pdats m ρ) () defs₀ 𝒱₀ L lv 16 :=
  regOfLaunch m ρ 16 launch16 (B27 m ρ) (fun c => (body_obligation16 (T27 m ρ) c).loose) (fun _ _ => rfl) (fun _ => rfl)
    (fun _ _ => rfl) (fun _ _ => rfl) (Phi_in16 (T27 m ρ)) (Phi_out16 (T27 m ρ))

theorem arr6_01 : Pipeline.arrRef spec6 (0 : Fin 7) = Pipeline.arrRef spec6 (1 : Fin 7) := rfl

theorem arr6_inj : ∀ a b : Fin 7, a ≠ 0 → b ≠ 0 → Pipeline.arrRef spec6 a = Pipeline.arrRef spec6 b → a = b := by decide

theorem arr6_eq : ∀ a b : Fin 7, Pipeline.arrRef spec6 a = Pipeline.arrRef spec6 b → a = b ∨ (a = 0 ∧ b = 1) ∨ (a = 1 ∧ b = 0) := by decide

section Shared

variable {c : Dev nD} (dat : Dat τ (Elt F) Unit ℕ (UR sig nD τ) ℕ cfg6 c)

theorem arrays6_eq (hq0 : dat.q 0 = fullShare.left) (hq1 : dat.q 1 = fullShare.right)
    (hq : ∀ w : Fin cfg6.W, 2 ≤ w.val → dat.q w = fullShare)
    (V' : (b : Ref sig .tc) → Buf (Elt F) ((c.tc : Thread nD τ).loc b))
    (G : (w : Fin cfg6.W) → Buf (Elt F) ((cfg6.win w).arr.view.loc (c.tc : Thread nD τ)))
    (hG : ∀ w, G w = V' (Pipeline.arrRef spec6 w)) :
    (dat.arrays G : sProp 𝕄) = Pipeline.arrBufs spec6 c V' := by
  classical
  have himg : Finset.univ.image (Pipeline.arrRef spec6) = (Finset.univ.erase (0 : Fin 7)).image (Pipeline.arrRef spec6) := by
    apply Finset.Subset.antisymm
    · intro b hb
      obtain ⟨w, -, rfl⟩ := Finset.mem_image.mp hb
      by_cases hw : w = 0
      · subst hw; exact Finset.mem_image.mpr ⟨1, by decide, arr6_01.symm⟩
      · exact Finset.mem_image_of_mem _ (Finset.mem_erase.mpr ⟨hw, Finset.mem_univ _⟩)
    · exact Finset.image_subset_image (Finset.erase_subset _ _)
  have hinj : Set.InjOn (Pipeline.arrRef spec6) (↑(Finset.univ.erase (0 : Fin 7)) : Set (Fin 7)) := fun a ha b hb e =>
    arr6_inj a b (Finset.ne_of_mem_erase ha) (Finset.ne_of_mem_erase hb) e
  have h1 : (1 : Fin 7) ∈ Finset.univ.erase (0 : Fin 7) := by decide
  have hT : ∀ w ∈ (Finset.univ.erase (0 : Fin 7)).erase 1, 2 ≤ w.val := fun w hw => by
    have h1 := Fin.val_ne_of_ne (Finset.ne_of_mem_erase hw)
    have h0 := Fin.val_ne_of_ne (Finset.ne_of_mem_erase (Finset.mem_of_mem_erase hw))
    simp only [Fin.val_zero, Fin.val_one] at h0 h1; omega
  unfold Pipeline.arrBufs Dat.arrays
  rw [himg, bigSep_image_of_injOn hinj, bigSep_univ_split (0 : Fin 7), bigSep_erase h1, bigSep_erase h1]
  have harr : ∀ w, ((cfg6).spec w).arr.IsWhole := arr_whole6
  have hsh : ∀ w : Fin cfg6.W, 2 ≤ w.val → dat.share w = fullShare := fun w hw => by
    unfold Dat.share; split
    · rfl
    · exact hq w hw
  have hsh0 : dat.share 0 = fullShare.left := by unfold Dat.share; rw [if_neg (by decide), hq0]
  have hsh1 : dat.share 1 = fullShare.right := by unfold Dat.share; rw [if_neg (by decide), hq1]
  rw [bigSep_congr (s := (Finset.univ.erase (0 : Fin 7)).erase 1)
      (Ψ := fun w => (((c.tc : Thread nD τ).loc (Pipeline.arrRef spec6 w)) ↦{fullShare} V' (Pipeline.arrRef spec6 w) : sProp 𝕄)) fun w hw => by
        rw [(harr w).set_eq_univ, hsh w (hT w hw), hG w]]
  rw [(harr 0).set_eq_univ, hsh0, hsh1, hG 0, hG 1]
  have hs : ((c.tc : Thread nD τ).loc (Pipeline.arrRef spec6 1) ↦{fullShare} V' (Pipeline.arrRef spec6 1) : sProp 𝕄)
      ⊣⊢ iprop(((c.tc : Thread nD τ).loc (Pipeline.arrRef spec6 1) ↦{fullShare.left} V' (Pipeline.arrRef spec6 1))
        ∗ (c.tc : Thread nD τ).loc (Pipeline.arrRef spec6 1) ↦{fullShare.right} V' (Pipeline.arrRef spec6 1)) :=
    pointsTo_share (PosShare.mem_left_op_right fullShare)
  rw [BI.equiv_iff.mp ⟨hs.1, hs.2⟩]
  exact Eq.trans rfl (Std.Associative.assoc (op := (Idealize.SL.BI.sep : sProp 𝕄 → sProp 𝕄 → sProp 𝕄)) _ _ _).symm

theorem withArrays6 (V0 : Valuation τ sig (Elt F)) (V' : (b : Ref sig .tc) → Buf (Elt F) ((c.tc : Thread nD τ).loc b))
    (hA : ∀ w, dat.A w = V' (Pipeline.arrRef spec6 w)) (w : Fin cfg6.W) :
    dat.arrAt w cfg6.N = Pipeline.withArrays spec6 c V0 (fun w => dat.arrAt w cfg6.N) (Proc.devRef .tc (Pipeline.arrRef spec6 w)) := by
  unfold Pipeline.withArrays
  have h : ∃ w', Proc.devRef .tc (Pipeline.arrRef spec6 w') = Proc.devRef (τ := τ) .tc (Pipeline.arrRef spec6 w) := ⟨w, rfl⟩
  rw [dif_pos h]
  suffices ∀ (w' : Fin 7) (e : Proc.devRef .tc (Pipeline.arrRef spec6 w') = Proc.devRef (τ := τ) .tc (Pipeline.arrRef spec6 w)),
      dat.arrAt w cfg6.N = cast (congrArg (fun b' : DevRef τ sig => b'.ty.Contents (Elt F)) e) (dat.arrAt w' cfg6.N) from this _ h.choose_spec
  intro w' e
  rcases arr6_eq w' w (Proc.devRef_injective _ e) with rfl | ⟨rfl, rfl⟩ | ⟨rfl, rfl⟩
  · rfl
  · rw [Pipeline.Dat.arrAt_in dat (1 : Fin 7) rfl, Pipeline.Dat.arrAt_in dat (0 : Fin 7) rfl, hA 1, hA 0]; rfl
  · rw [Pipeline.Dat.arrAt_in dat (1 : Fin 7) rfl, Pipeline.Dat.arrAt_in dat (0 : Fin 7) rfl, hA 1, hA 0]; rfl

theorem unscopedBufs6_eq (hq0 : dat.q 0 = fullShare.left) (hq1 : dat.q 1 = fullShare.right)
    (hq : ∀ w : Fin cfg6.W, 2 ≤ w.val → dat.q w = fullShare)
    (V' : (b : Ref sig .tc) → Buf (Elt F) ((c.tc : Thread nD τ).loc b))
    (G : (w : Fin cfg6.W) → Buf (Elt F) ((cfg6.win w).arr.view.loc (c.tc : Thread nD τ)))
    (hG : ∀ w, G w = V' (Pipeline.arrRef spec6 w)) :
    (unscopedBufs (Ix := Unit) (Name := ℕ) (U := UR sig nD τ) (Lvl := ℕ) c V' : sProp 𝕄)
      = iprop(dat.arrays G ∗ Pipeline.unscopedRest spec6 c V') := by
  rw [Pipeline.unscopedBufs_split₀ (fun _ : Unit => cfg6) () winFacts₀6.arr_unscoped c V', arrays6_eq dat hq0 hq1 hq V' G hG]

end Shared

variable (m : (ℓ : Loc nD τ sig) → Buf (Elt F) ℓ) (ρ : Dev nD → PrngReg)

theorem q6_rest (V : (c : Dev nD) → (b : Ref sig .tc) → Buf (Elt F) ((c : Thread nD τ).loc b)) (c : Dev nD) :
    ∀ w : Fin cfg6.W, 2 ≤ w.val → (dat6 V c).q w = fullShare
  | ⟨0, _⟩, h => absurd (show 2 ≤ 0 from h) (by decide)
  | ⟨1, _⟩, h => absurd (show 2 ≤ 1 from h) (by decide)
  | ⟨2, _⟩, _ => rfl
  | ⟨3, _⟩, _ => rfl
  | ⟨4, _⟩, _ => rfl
  | ⟨5, _⟩, _ => rfl
  | ⟨6, _⟩, _ => rfl

theorem hF6 (c : Dev nD) (w : Fin cfg6.W) : (dat6 (T11 m ρ) c).arrAt w cfg6.N = T12 m ρ c (Pipeline.arrRef spec6 w) :=
  withArrays6 (dat6 (T11 m ρ) c) (B11 m ρ c) (T11 m ρ c) (fun _ => rfl) w

def reg6 : Pipeline.RegionSeg (pcfgs (F := F)) admH (pdats m ρ) () defs₀ 𝒱₀ L lv 6 :=
  regOf m ρ 6 winFacts₀6 block_pos6 stage_whole6 (B11 m ρ) (B12 m ρ) (fun c => (body_obligation6 (T11 m ρ) c).loose) (fun _ _ => rfl) (fun _ => rfl)
    (fun c => Entails.of_eq (unscopedBufs6_eq (pdats m ρ 6 c) rfl rfl (q6_rest (T11 m ρ) c) (T11 m ρ c) ((pdats m ρ 6 c).arrAt · 0) fun _ => rfl))
    (fun c => by
      rw [unscopedBufs6_eq (pdats m ρ 6 c) rfl rfl (q6_rest (T11 m ρ) c) (T12 m ρ c) ((pdats m ρ 6 c).arrAt · cfg6.N) (hF6 m ρ c)]
      refine sep_mono .rfl (Entails.of_eq ?_)
      unfold Pipeline.unscopedRest
      exact bigSep_congr fun b hb => by rw [hrest6 m ρ c b (Finset.mem_sdiff.mp hb).2])
    (Phi_in6 (T11 m ρ)) (Phi_out6 (T11 m ρ))

end Cert.Kernel.Hand

end
-- ==== Proof.K.Main.lean ====
import proofs.«165280_j63788854280268_1_alg».proof.Proof.K.Regs

import proofs.«165280_j63788854280268_1_alg».proof.Proof.Gen.Kernel.Regions
import proofs.«165280_j63788854280268_1_alg».proof.Proof.Gen.Kernel.Launch
import proofs.«165280_j63788854280268_1_alg».proof.Proof.Gen.Kernel.Skeleton
import proofs.«165280_j63788854280268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .region (reg2 m ρ),
    .host (hseg hostOps3 hostOps3_sub hostOps3_fresh (B5 m ρ)),
    .region (reg3 m ρ),
    .host (hseg hostOps4 hostOps4_sub hostOps4_fresh (B7 m ρ)),
    .region (reg4 m ρ),
    .region (reg5 m ρ),
    .host (hseg hostOps6 hostOps6_sub hostOps6_fresh (B10 m ρ)),
    .region (reg6 m ρ),
    .host (hseg hostOps7 hostOps7_sub hostOps7_fresh (B12 m ρ)),
    .region (reg7 m ρ),
    .host (hseg hostOps8 hostOps8_sub hostOps8_fresh (B14 m ρ)),
    .region (reg8 m ρ),
    .region (reg9 m ρ),
    .host (hseg hostOps10 hostOps10_sub hostOps10_fresh (B17 m ρ)),
    .region (reg10 m ρ),
    .host (hseg hostOps11 hostOps11_sub hostOps11_fresh (B19 m ρ)),
    .region (reg11 m ρ),
    .host (hseg hostOps12 hostOps12_sub hostOps12_fresh (B21 m ρ)),
    .region (reg12 m ρ),
    .region (reg13 m ρ),
    .region (reg14 m ρ),
    .region (reg15 m ρ),
    .host (hseg hostOps16 hostOps16_sub hostOps16_fresh (B26 m ρ)),
    .region (reg16 m ρ) ]

theorem main_run (c : Dev nD) : main (F := F) c = Pipeline.Seg.run (segs m ρ) := by
  rw [main_chain c, Pipeline.Seg.run_eq_chain]
  rfl

abbrev Tₙ (c : Dev nD) : sProp 𝕄 := iprop(StableHlo.held (c : Thread nD τ) (Pipeline.ucRefs τ sig) (B28 m ρ c) ∗ ∃ r, prngReg c r)

theorem last_state (c : Dev nD) :
    iprop(StableHlo.held (c : Thread nD τ) (Pipeline.ucRefs τ sig) (B28 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B28 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B28 m ρ c b)
    (hfin := fun c s' => by
      iintro ⟨⟨Hh, -⟩, HSI⟩
      unfold StableHlo.held
      imodintro
      iapply (pointsTo_read_all (Pipeline.ucRefs τ sig) (fun b => (((c : Thread nD τ)).1, b)) (B28 m ρ c) s')
      isplitl [Hh] <;> iassumption)
    (hQ := fun s h c => h c)

abbrev argRefs : List (Ref sig .tc) := [main_arg0, main_arg1, main_arg2, main_arg3, main_arg4, main_arg5, main_arg6, main_arg7, main_arg8, main_arg9, main_arg10, main_arg11]

/-- Region 15 reads argument 8 through an input window, which is never written back; no other argument is among its arrays. -/
theorem B26_args (c : Dev nD) (b : Ref sig .tc) (hb : b ∈ argRefs) : B26 m ρ c (Proc.devRef .tc b) = B25 m ρ c (Proc.devRef .tc b) := by
  by_cases h8 : b = main_arg8
  · subst h8; exact (B26_arr m ρ c 1).trans (((dat15 (T25 m ρ) c).arrAt_in 1 rfl _).trans (A_eq15 (T25 m ρ) c 1))
  · exact B26_of_ne m ρ c b (by revert b; decide)

/-- No host stretch writes an argument and no region has one among its arrays, so each boundary passes it on unchanged. -/
theorem args_kept (c : Dev nD) (b : Ref sig .tc) (hb : b ∈ argRefs) : B28 m ρ c (Proc.devRef .tc b) = m ((c : Thread nD τ).loc b) :=
  (B28_of_ne m ρ c b (by revert b; decide)).trans <|
  (StableHlo.after_of_writes_sub hostOps16 _ hostOps16_writes (r := b) (by revert b; decide)).trans <|
  (B26_args m ρ c b hb).trans <|
  (B25_of_ne m ρ c b (by revert b; decide)).trans <|
  (B24_of_ne m ρ c b (by revert b; decide)).trans <|
  (B23_of_ne m ρ c b (by revert b; decide)).trans <|
  (StableHlo.after_of_writes_sub hostOps12 _ hostOps12_writes (r := b) (by revert b; decide)).trans <|
  (B21_of_ne m ρ c b (by revert b; decide)).trans <|
  (StableHlo.after_of_writes_sub hostOps11 _ hostOps11_writes (r := b) (by revert b; decide)).trans <|
  (B19_of_ne m ρ c b (by revert b; decide)).trans <|
  (StableHlo.after_of_writes_sub hostOps10 _ hostOps10_writes (r := b) (by revert b; decide)).trans <|
  (B17_of_ne m ρ c b (by revert b; decide)).trans <|
  (B16_of_ne m ρ c b (by revert b; decide)).trans <|
  (StableHlo.after_of_writes_sub hostOps8 _ hostOps8_writes (r := b) (by revert b; decide)).trans <|
  (B14_of_ne m ρ c b (by revert b; decide)).trans <|
  (StableHlo.after_of_writes_sub hostOps7 _ hostOps7_writes (r := b) (by revert b; decide)).trans <|
  (B12_of_ne m ρ c b (by revert b; decide)).trans <|
  (StableHlo.after_of_writes_sub hostOps6 _ hostOps6_writes (r := b) (by revert b; decide)).trans <|
  (B10_of_ne m ρ c b (by revert b; decide)).trans <|
  (B9_of_ne m ρ c b (by revert b; decide)).trans <|
  (StableHlo.after_of_writes_sub hostOps4 _ hostOps4_writes (r := b) (by revert b; decide)).trans <|
  (B7_of_ne m ρ c b (by revert b; decide)).trans <|
  (StableHlo.after_of_writes_sub hostOps3 _ hostOps3_writes (r := b) (by revert b; decide)).trans <|
  (B5_of_ne m ρ c b (by revert b; decide)).trans <|
  (B4_of_ne m ρ c b (by revert b; decide)).trans <|
  (StableHlo.after_of_writes_sub hostOps1 _ hostOps1_writes (r := b) (by revert b; decide)).trans <|
  (B2_of_ne m ρ c b (by revert b; decide)).trans <|
  (StableHlo.after_of_writes_sub hostOps0 _ hostOps0_writes (r := b) (by revert b; decide)).trans rfl

theorem run_val : θ_run defs (onTc (τ := τ) (main (F := F))) ⟨m, fun _ => 0, ρ⟩ (fun r => ∀ c : Dev nD,
      r.2.mem ((c.tc : Thread nD τ).loc main_v111) = B28 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ b ∈ argRefs, r.2.mem ((c.tc : Thread nD τ).loc b) = m ((c.tc : Thread nD τ).loc b) := fun b hb =>
      (h c _ (mem_uc b (by revert b; decide))).trans (args_kept m ρ c b hb)
    ⟨h c _ (mem_uc main_v111 (by decide)), k _ (by decide), k _ (by decide), k _ (by decide), k _ (by decide), k _ (by decide), k _ (by decide), k _ (by decide), k _ (by decide), k _ (by decide), k _ (by decide), k _ (by decide), k _ (by decide)⟩) (run_all m ρ)

theorem frame_H : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_val m ρ)

end Cert.Kernel.Hand

end
-- ==== Proof.KI.BodyCommon.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev all5000x128 : Rect S5000x128 := Rect.unit (s := S5000x128) ![0, 0] S5000x128.size inb_S5000x128_S5000x128_0_0
abbrev all5000x64 : Rect S5000x64 := Rect.unit (s := S5000x64) ![0, 0] S5000x64.size inb_S5000x64_S5000x64_0_0
abbrev all5000x1 : Rect S5000x1 := Rect.unit (s := S5000x1) ![0, 0] S5000x1.size inb_S5000x1_S5000x1_0_0
abbrev all128x128 : Rect S128x128 := Rect.unit (s := S128x128) ![0, 0] S128x128.size inb_S128x128_S128x128_0_0
abbrev all128x64 : Rect S128x64 := Rect.unit (s := S128x64) ![0, 0] S128x64.size inb_S128x64_S128x64_0_0
abbrev all1x128 : Rect S1x128 := Rect.unit (s := S1x128) ![0, 0] S1x128.size inb_S1x128_S1x128_0_0
abbrev all1x64 : Rect S1x64 := Rect.unit (s := S1x64) ![0, 0] S1x64.size inb_S1x64_S1x64_0_0

theorem covers5000x64 (p : Vec F S5000x64 .f32) (y : S5000x64.Idx) :
    ∃ pc ∈ ([⟨all5000x64, p⟩] : List (View.Piece (Elt F) S5000x64 .f32)), y ∈ pc.1.set :=
  View.cover_of_tiled [⟨all5000x64, p⟩] S5000x64.size (by rfl) y

theorem covers5000x128 (p : Vec F S5000x128 .f32) (y : S5000x128.Idx) :
    ∃ pc ∈ ([⟨all5000x128, p⟩] : List (View.Piece (Elt F) S5000x128 .f32)), y ∈ pc.1.set :=
  View.cover_of_tiled [⟨all5000x128, p⟩] S5000x128.size (by rfl) y

-- If every `b d` is `x`, a buffer at some `b d` is a buffer at `x`.
theorem held_elim {c : Dev nD} {sh : Shape} {e : EltTy} (m : Memref sig .tc .vmem sh e) {D : Type} {b : D → sh.Idx → Elt F e}
    {x : sh.Idx → Elt F e} (h : ∀ d, b d = x) :
    (iprop(∃ d, owns (c : Thread nD τ) m fullShare (b d)) : sProp 𝕄) ⊢ owns (c : Thread nD τ) m fullShare x := by
  iintro ⟨%d, H⟩
  rw [h d]
  iexact H

theorem any_intro {c : Dev nD} {sh : Shape} {e : EltTy} (m : Memref sig .tc .vmem sh e) {D : Type} {b : D → sh.Idx → Elt F e} :
    (iprop(∃ d, owns (c : Thread nD τ) m fullShare (b d)) : sProp 𝕄) ⊢ iprop(∃ y, owns (c : Thread nD τ) m fullShare y) := by
  iintro ⟨%d, H⟩
  iexists _
  iexact H

-- The frame rule: `Φ` and `O` pass unread through a body that turns `P` into `Q`.
theorem sound_of_triple {c : Dev nD} {e : Prog (TpuEff nD τ sig (Elt F) Λ₀ .tc) PUnit} {Φ O P' P Q : sProp 𝕄}
    (hP : P' ⊢ P)
    (h : ∀ K : PUnit → sProp 𝕄, iprop(P ∗ (Q -∗ K ⟨⟩)) ⊢ wp frame (wpE (defs₀ (F := F)) Variants.none c none) Set.univ e K) :
    iprop(Φ ∗ O ∗ P') ⊢ wp frame (wpE (defs₀ (F := F)) Variants.none c none) Set.univ e fun _ => iprop(Φ ∗ O ∗ Q) := by
  iintro ⟨HΦ, HO, HP⟩
  iapply h
  isplitl [HP]
  · iapply hP; iexact HP
  iintro HQ
  isplitl [HΦ]
  · iexact HΦ
  isplitl [HO]
  · iexact HO
  iexact HQ

end Cert.KernelIdeal.Hand

end
-- ==== Proof.KI.R0.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def product0 (x : Vec F S5000x128 .f32) (w : Vec F S128x64 .f32) : Vec F S5000x64 .f32 :=
  View.canon [⟨all5000x64, k0_pay1 (View.ld x all5000x128) (View.ld w all128x64)⟩]

set_option maxHeartbeats 1000000 in
theorem kernel_triple0 (c : Dev nD) (E : Set ℕ) (i : grid0.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product0 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc0_kernel i arg1 harg1 arg2 harg2 arg3 harg3) K := by
  subst hp
  simp only [cc0_kernel_eq_skeleton]; unfold cc0_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => product0 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_in0 (c : Dev nD) : Pipeline.ΦA spec0 c ⊢ ((dat0 V c).Φ 0 : sProp 𝕄) := .rfl

theorem Phi_out0 (c : Dev nD) : (dat0 V c).Φ (Fin.last cfg0.N) ⊢ (Pipeline.ΦA spec0 c : sProp 𝕄) := .rfl

theorem after_prod0 (c : Dev nD) (t : Fin cfg0.N) :
    (dat0 V c).after 2 t = product0 (blockAt0 V c 0 t) (blockAt0 V c 1 t) := by dsimp only [dat0]

theorem lhs_held0 (c : Dev nD) (t : Fin cfg0.N) (d) : (dat0 V c).before 0 t d = blockAt0 V c 0 t :=
  (dat0 V c).before_in_eq_fetched 0 rfl (fun _ => rfl) (fun _ _ _ => rfl) (fun _ => rfl) t d

theorem rhs_held0 (c : Dev nD) (t : Fin cfg0.N) (d) : (dat0 V c).before 1 t d = blockAt0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  exact sound_of_triple (e := bodyAt0 t)
    (BI.sep_mono (held_elim _ (lhs_held0 V c t)) (BI.sep_mono (held_elim _ (rhs_held0 V c t)) (any_intro _)))
    (kernel_triple0 c _ _ _ _ _ _ _ _ _ _ _ (after_prod0 V c t))

end Cert.KernelIdeal.Hand

end
-- ==== Proof.KI.StatsCommon.lean ====
import proofs.«165280_j63788854280268_1_alg».proof.Proof.Gen.KernelIdeal.Launch
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg)

variable {F : FTy → Type} [FloatOps F] [Named F]

theorem off00 : (![0, 0] : Fin 2 → ℕ) = fun _ => 0 := funext fun a => by fin_cases a <;> rfl

-- A store through the whole buffer's rectangle, made last, is all the buffer then reads.
theorem read_writes_top {S : Shape} {off : Fin S.rank → ℕ} (h : off = fun _ => 0) (inb : ∀ a, off a + S.size a ≤ S.size a)
    {κ : Kind} {sp : Space} (v : View sig κ sp S .f32) (f : v.ty.Contents (Elt F)) (w : Vec F S .f32) (L : List (View.Piece (Elt F) S .f32)) :
    v.read (Elt F) (v.writes (Elt F) f (⟨Rect.unit off S.size inb, w⟩ :: L)) = View.canon [⟨Rect.unit off S.size inb, w⟩] := by
  rw [View.read_writes_eq_canon v f _ fun y => ⟨_, List.mem_cons_self, View.mem_set_unit_zero h inb y⟩,
    View.canon_cons_unit_zero h, View.canon_unit_zero h]

theorem ld_canon_top {S : Shape} {off : Fin S.rank → ℕ} (h : off = fun _ => 0) (inb : ∀ a, off a + S.size a ≤ S.size a) (w : Vec F S .f32) :
    View.ld (View.canon ([⟨Rect.unit off S.size inb, w⟩] : List (View.Piece (Elt F) S .f32))) (Rect.unit off S.size inb) = w := by
  rw [View.canon_unit_zero h, View.ld_unit_zero h]

theorem leavesExact_live {Λ₀ : Sem.Labels} {cfg : Cfg sig Λ₀} {c : Dev nD} (dat : Dat τ (Elt F) Unit ℕ (UR sig nD τ) ℕ cfg c)
    (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

end Cert.KernelIdeal.Hand

end
-- ==== Proof.KI.R1.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev first1 (i : grid1.Coords) : Prop := (Scalar.cmpi .ne (Scalar.extui (Scalar.cmpi .eq (BitVec.ofNat 32 (i 0).val) 0#32)) 0#32) = 1#1
theorem hfirst1 : ∀ t : Fin cfg1.N, first1 (grid1.coords t) ↔ t.val = 0 :=
  (by decide +kernel : ∀ t : Fin grid1.N, first1 (grid1.coords t) ↔ t.val = 0)
abbrev last1 (i : grid1.Coords) : Prop := k1_cond2 i = 1#1
theorem hlast1 : ∀ t : Fin cfg1.N, last1 (grid1.coords t) ↔ t.val = 9 :=
  (by decide +kernel : ∀ t : Fin grid1.N, last1 (grid1.coords t) ↔ t.val = 9)

theorem off1 : ∀ t : Fin cfg1.N, ¬last1 (grid1.coords t) → (cfg1.idle 2 (grid1.coords t) = true ∧ (cfg1.win 2).flush t = false)
    ∧ cfg1.idle 3 (grid1.coords t) = true ∧ (cfg1.win 3).flush t = false := by decide +kernel
theorem on1 : ∀ t : Fin cfg1.N, last1 (grid1.coords t) → cfg1.idle 2 (grid1.coords t) = false ∧ cfg1.idle 3 (grid1.coords t) = false := by
  decide +kernel

abbrev rX1 : Rect S5000x64 := Rect.unit (s := S5000x64) ![0, 0] S5000x64.size inb_S5000x64_S5000x64_0_0
abbrev rS1 : Rect S1x64 := Rect.unit (s := S1x64) ![0, 0] S1x64.size inb_S1x64_S1x64_0_0

section body
variable (c : Dev nD) (E : Set ℕ) (i : grid1.Coords)
  (arg1 : Memref sig .tc .vmem S5000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S1x64 .f32) (harg6 : arg6.IsWhole)

set_option maxHeartbeats 1000000 in
theorem run1_first (x : Vec F S5000x64 .f32) (b : Vec F S1x64 .f32) (K : PUnit → sProp 𝕄) (h1 : first1 i) (h2 : ¬last1 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS1, k1_pay4 (View.ld x rX1) (View.ld b rS1) k1_pay1⟩])
            ∗ owns (c : Thread nD τ) arg6 fullShare (View.canon [⟨rS1, k1_pay5 (View.ld x rX1) (View.ld b rS1) k1_pay2⟩])) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run1_first.sl.v9 run1_first.sl.H5_1
    rw [View.readCov_cons_toLoadRect]; rfl
  iexists _; isplitr
  swap; · iexact H6
  ipureintro
  refine (read_writes_top off00 _ _ _ _ _).trans ?_
  unfold run1_first.sl.v16 run1_first.sl.H6_1
  rw [View.readCov_cons_toLoadRect]; rfl

-- The rows' loads are named (`a0`, `a1`) so that the triple applies whatever form the rows' contents have.
set_option maxHeartbeats 1000000 in
theorem run1_mid (x : Vec F S5000x64 .f32) (b s0 s1 a0 a1 : Vec F S1x64 .f32) (K : PUnit → sProp 𝕄) (h1 : ¬first1 i) (h2 : ¬last1 i)
    (e0 : View.ld s0 rS1 = a0) (e1 : View.ld s1 rS1 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS1, k1_pay4 (View.ld x rX1) (View.ld b rS1) a0⟩])
            ∗ owns (c : Thread nD τ) arg6 fullShare (View.canon [⟨rS1, k1_pay5 (View.ld x rX1) (View.ld b rS1) a1⟩])) -∗ K ⟨⟩))
      ⊢ wp frame (wpE (defs₀ (F := F)) Variants.none c none) E (cc1_kernel i arg1 harg1 arg2 harg2 arg3 harg3 arg4 harg4 arg5 harg5 arg6 harg6) K := by
  subst e0 e1
  simp only [cc1_kernel_eq_skeleton]; unfold cc1_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run1_last (x : Vec F S5000x64 .f32) (b s0 s1 a0 a1 : Vec F S1x64 .f32) (K : PUnit → sProp 𝕄) (h1 : ¬first1 i) (h2 : last1 i)
    (e0 : View.ld s0 rS1 = a0) (e1 : View.ld s1 rS1 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS1, k1_pay6 (k1_pay4 (View.ld x rX1) (View.ld b rS1) a0)⟩])
            ∗ owns (c : Thread nD τ) arg4 fullShare (View.canon [⟨rS1, k1_pay7 (k1_pay4 (View.ld x rX1) (View.ld b rS1) a0) (k1_pay5 (View.ld x rX1) (View.ld b rS1) a1)⟩])
            ∗ owns (c : Thread nD τ) arg5 fullShare (View.canon [⟨rS1, k1_pay4 (View.ld x rX1) (View.ld b rS1) a0⟩])
            ∗ owns (c : Thread nD τ) arg6 fullShare (View.canon [⟨rS1, k1_pay5 (View.ld x rX1) (View.ld b rS1) a1⟩])) -∗ K ⟨⟩))
      ⊢ wp frame (wpE (defs₀ (F := F)) Variants.none c none) E (cc1_kernel i arg1 harg1 arg2 harg2 arg3 harg3 arg4 harg4 arg5 harg5 arg6 harg6) K := by
  subst e0 e1
  simp only [cc1_kernel_eq_skeleton]; unfold cc1_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run1_last.sl.v27 run1_last.sl.H5_1
    rw [View.readCov_cons_toLoadRect]; rfl
  isplitl [H4]
  · iexists _; isplitr
    swap; · iexact H4
    ipureintro
    refine (read_writes_top off00 _ _ _ _ _).trans ?_
    unfold run1_last.sl.v27 run1_last.sl.H5_1 run1_last.sl.v30 run1_last.sl.H6_1
    rw [View.readCov_cons_toLoadRect, View.readCov_cons_toLoadRect]; rfl
  isplitl [H5]
  · iexists _; isplitr
    swap; · iexact H5
    ipureintro
    unfold run1_last.sl.H5_1
    exact read_writes_top off00 _ _ _ _ _
  iexists _; isplitr
  swap; · iexact H6
  ipureintro
  unfold run1_last.sl.H6_1
  exact read_writes_top off00 _ _ _ _ _

end body

def pt1 (n : ℕ) : Fin cfg1.N := ⟨n % 10, lt_of_lt_of_eq (Nat.mod_lt n (by decide)) (show cfg1.N = 10 from N_1).symm⟩
theorem pt1_val (t : Fin cfg1.N) : pt1 t.val = t :=
  Fin.ext (Nat.mod_eq_of_lt (lt_of_lt_of_eq t.isLt (show cfg1.N = 10 from N_1)))
def xAt1 (c : Dev nD) (n : ℕ) : Vec F S5000x64 .f32 := iblk1 V c 0 (pt1 n)
def bAt1 (c : Dev nD) (n : ℕ) : Vec F S1x64 .f32 := iblk1 V c 1 (pt1 n)

def sum1 (c : Dev nD) : ℕ → Vec F S1x64 .f32
  | 0 => k1_pay4 (View.ld (xAt1 V c 0) rX1) (View.ld (bAt1 V c 0) rS1) k1_pay1
  | n + 1 => k1_pay4 (View.ld (xAt1 V c (n + 1)) rX1) (View.ld (bAt1 V c (n + 1)) rS1) (sum1 c n)

def sq1 (c : Dev nD) : ℕ → Vec F S1x64 .f32
  | 0 => k1_pay5 (View.ld (xAt1 V c 0) rX1) (View.ld (bAt1 V c 0) rS1) k1_pay2
  | n + 1 => k1_pay5 (View.ld (xAt1 V c (n + 1)) rX1) (View.ld (bAt1 V c (n + 1)) rS1) (sq1 c n)

theorem xAt1_val (c : Dev nD) (t : Fin cfg1.N) : xAt1 V c t.val = iblk1 V c 0 t := by unfold xAt1; rw [pt1_val]
theorem bAt1_val (c : Dev nD) (t : Fin cfg1.N) : bAt1 V c t.val = iblk1 V c 1 t := by unfold bAt1; rw [pt1_val]

theorem sum1_zero (c : Dev nD) (n : ℕ) (h : n = 0) :
    sum1 V c n = k1_pay4 (View.ld (xAt1 V c n) rX1) (View.ld (bAt1 V c n) rS1) k1_pay1 := by subst h; rfl
theorem sum1_pos (c : Dev nD) (n : ℕ) (h : n ≠ 0) :
    sum1 V c n = k1_pay4 (View.ld (xAt1 V c n) rX1) (View.ld (bAt1 V c n) rS1) (sum1 V c (n - 1)) := by
  obtain ⟨n, rfl⟩ := Nat.exists_eq_succ_of_ne_zero h; rfl
theorem sq1_zero (c : Dev nD) (n : ℕ) (h : n = 0) :
    sq1 V c n = k1_pay5 (View.ld (xAt1 V c n) rX1) (View.ld (bAt1 V c n) rS1) k1_pay2 := by subst h; rfl
theorem sq1_pos (c : Dev nD) (n : ℕ) (h : n ≠ 0) :
    sq1 V c n = k1_pay5 (View.ld (xAt1 V c n) rX1) (View.ld (bAt1 V c n) rS1) (sq1 V c (n - 1)) := by
  obtain ⟨n, rfl⟩ := Nat.exists_eq_succ_of_ne_zero h; rfl

abbrev scr1_0 : Memref sig .tc .vmem S1x64 .f32 := Memref.whole cc1_scratch0
abbrev scr1_1 : Memref sig .tc .vmem S1x64 .f32 := Memref.whole cc1_scratch1

-- What the region keeps between points once the two scratch rows hold `a` and `b`.
abbrev Inv1 (c : Dev nD) (a b : Vec F S1x64 .f32) : sProp 𝕄 :=
  iprop(((owns (c : Thread nD τ) scr1_0 fullShare a ∗ owns (c : Thread nD τ) scr1_1 fullShare b)
      ∗ Pipeline.scopedRestBut (Ix := Unit) (Name := ℕ) (U := UR sig nD τ) (Lvl := ℕ) (Val := Elt F) spec1 c [cc1_scratch0, cc1_scratch1])
      ∗ (∃ r, prngReg c r))

def Phi1 (c : Dev nD) : ℕ → sProp 𝕄
  | 0 => Pipeline.ΦA spec1 c
  | n + 1 => Inv1 c (View.canon [⟨rS1, sum1 V c n⟩]) (View.canon [⟨rS1, sq1 V c n⟩])

theorem Phi1_pos (c : Dev nD) (n : ℕ) (h : n ≠ 0) :
    Phi1 V c n = Inv1 c (View.canon [⟨rS1, sum1 V c (n - 1)⟩]) (View.canon [⟨rS1, sq1 V c (n - 1)⟩]) := by
  obtain ⟨n, rfl⟩ := Nat.exists_eq_succ_of_ne_zero h; rfl

theorem PhiA1_eq (c : Dev nD) :
    (Pipeline.ΦA spec1 c : sProp 𝕄)
      = iprop((((∃ d, owns (c : Thread nD τ) scr1_0 fullShare d) ∗ (∃ d, owns (c : Thread nD τ) scr1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scr1_0, scr1_1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨rS1, k1_pay6 (sum1 V c t.val)⟩]
    | ⟨3, _⟩ => View.canon [⟨rS1, k1_pay7 (sum1 V c t.val) (sq1 V c t.val)⟩]
  Φ t := Phi1 V c t.val
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = View.canon [⟨rS1, k1_pay6 (sum1 V c t.val)⟩] := by dsimp only [dat1]
theorem after1_3 (c : Dev nD) (t : Fin cfg1.N) :
    (dat1 V c).after 3 t = View.canon [⟨rS1, k1_pay7 (sum1 V c t.val) (sq1 V c t.val)⟩] := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem Phi_in1 (c : Dev nD) : Pipeline.ΦA spec1 c ⊢ ((dat1 V c).Φ 0 : sProp 𝕄) := Idealize.SL.BI.Entails.refl _

theorem Phi_out1 (c : Dev nD) : (dat1 V c).Φ (Fin.last cfg1.N) ⊢ (Pipeline.ΦA spec1 c : sProp 𝕄) := by
  rw [show (dat1 V c).Φ (Fin.last cfg1.N) = Phi1 V c cfg1.N from rfl,
    Phi1_pos V c _ (by rw [show cfg1.N = 10 from N_1]; decide), PhiA1_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body1 (c : Dev nD) (t : Fin cfg1.N) :
    iprop(Phi1 V c t.val ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop(Phi1 V c (t.val + 1) ∗ (dat1 V c).owesAt () t.castSucc
        ∗ owns (c : Thread nD τ) (st1_0 t) fullShare (iblk1 V c 0 t) ∗ owns (c : Thread nD τ) (st1_1 t) fullShare (iblk1 V c 1 t)
        ∗ (dat1 V c).leavesExact 2 t ∗ (dat1 V c).leavesExact 3 t)) := by
  unfold bodyAt1
  simp only [before1_0, before1_1]
  rw [Phi1_pos V c (t.val + 1) (Nat.succ_ne_zero _), Nat.add_sub_cancel]
  unfold Inv1
  have hN : t.val < 10 := lt_of_lt_of_eq t.isLt (show cfg1.N = 10 from N_1)
  by_cases h9 : t.val = 9
  · have hl := (hlast1 t).mpr h9
    have h0 : t.val ≠ 0 := by omega
    rw [leavesExact_live _ 2 t (on1 t hl).1, leavesExact_live _ 3 t (on1 t hl).2, after1_2, after1_3,
      Phi1_pos V c _ h0, sum1_pos V c _ h0, sq1_pos V c _ h0, xAt1_val, bAt1_val]
    iintro ⟨⟨⟨⟨HS0, HS1⟩, HR⟩, Hg⟩, Ho, ⟨%d0, H0⟩, ⟨%d1, H1⟩, ⟨%d2, H2⟩, ⟨%d3, H3⟩⟩
    iapply (run1_last c Set.univ (grid1.coords t) _ _ _ _ _ _ _ _ _ _ _ _ (iblk1 V c 0 t) (iblk1 V c 1 t) _ _ _ _ _
      (fun h => h0 ((hfirst1 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last1 (grid1.coords t) := fun h => h9 ((hlast1 t).mp h)
    rw [Dat.leavesExact_idle _ 2 t (off1 t hl).1.1 (off1 t hl).1.2, Dat.leavesExact_idle _ 3 t (off1 t hl).2.1 (off1 t hl).2.2]
    by_cases h0 : t.val = 0
    · rw [show Phi1 V c t.val = Pipeline.ΦA spec1 c from by rw [h0]; rfl, PhiA1_eq, sum1_zero V c _ h0, sq1_zero V c _ h0, xAt1_val, bAt1_val]
      iintro ⟨⟨⟨⟨HS0, HS1⟩, HR⟩, Hg⟩, Ho, ⟨%d0, H0⟩, ⟨%d1, H1⟩, H2, H3⟩
      iapply (run1_first c Set.univ (grid1.coords t) _ _ _ _ _ _ _ _ _ _ _ _ (iblk1 V c 0 t) (iblk1 V c 1 t) _ ((hfirst1 t).mpr h0) hl)
      iframe H0 H1 HS0 HS1
      iintro ⟨H0, H1, HS0, HS1⟩
      iframe
    · rw [Phi1_pos V c _ h0, sum1_pos V c _ h0, sq1_pos V c _ h0, xAt1_val, bAt1_val]
      iintro ⟨⟨⟨⟨HS0, HS1⟩, HR⟩, Hg⟩, Ho, ⟨%d0, H0⟩, ⟨%d1, H1⟩, H2, H3⟩
      iapply (run1_mid c Set.univ (grid1.coords t) _ _ _ _ _ _ _ _ _ _ _ _ (iblk1 V c 0 t) (iblk1 V c 1 t) _ _ _ _ _
        (fun h => h0 ((hfirst1 t).mp h)) hl (ld_canon_top off00 _ _) (ld_canon_top off00 _ _))
      iframe H0 H1 HS0 HS1
      iintro ⟨H0, H1, HS0, HS1⟩
      iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def shown2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def normed2 (x : Vec F S5000x64 .f32) (b mean var : Vec F S1x64 .f32) : Vec F S5000x64 .f32 :=
  View.canon [⟨all5000x64, k2_pay1 (View.ld x all5000x64) (View.ld b all1x64) (View.ld var all1x64) (View.ld mean all1x64)⟩]

set_option maxHeartbeats 1000000 in
theorem kernel2_runs (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x : Vec F S5000x64 .f32) (b mean var : Vec F S1x64 .f32) (p : Vec F S5000x64 .f32) (hp : p = normed2 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc2_kernel i arg1 harg1 arg2 harg2 arg3 harg3 arg4 harg4 arg5 harg5) K := by
  subst hp
  simp only [cc2_kernel_eq_skeleton]; unfold cc2_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x64 _)

def dat2 (c : Dev nD) : Dat τ (Elt F) Unit ℕ (UR sig nD τ) ℕ cfg2 c where
  A w := V c (Pipeline.arrRef spec2 w)
  after w t := match w with
    | ⟨0, _⟩ => shown2 V c 0 t
    | ⟨1, _⟩ => shown2 V c 1 t
    | ⟨2, _⟩ => shown2 V c 2 t
    | ⟨3, _⟩ => shown2 V c 3 t
    | ⟨4, _⟩ => normed2 (shown2 V c 0 t) (shown2 V c 1 t) (shown2 V c 2 t) (shown2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_in2 (c : Dev nD) : Pipeline.ΦA spec2 c ⊢ ((dat2 V c).Φ 0 : sProp 𝕄) := .rfl

theorem Phi_out2 (c : Dev nD) : (dat2 V c).Φ (Fin.last cfg2.N) ⊢ (Pipeline.ΦA spec2 c : sProp 𝕄) := .rfl

theorem after2_out (c : Dev nD) (t : Fin cfg2.N) :
    (dat2 V c).after 4 t = normed2 (shown2 V c 0 t) (shown2 V c 1 t) (shown2 V c 2 t) (shown2 V c 3 t) := by dsimp only [dat2]

theorem before2_x (c : Dev nD) (t : Fin cfg2.N) (d) : (dat2 V c).before 0 t d = shown2 V c 0 t :=
  (dat2 V c).before_in_eq_fetched 0 rfl (fun _ => rfl) (fun _ _ _ => rfl) (fun _ => rfl) t d

theorem before2_b (c : Dev nD) (t : Fin cfg2.N) (d) : (dat2 V c).before 1 t d = shown2 V c 1 t :=
  (dat2 V c).before_in_eq_fetched 1 rfl (fun _ => rfl) (fun _ _ _ => rfl) (fun _ => rfl) t d

theorem before2_mean (c : Dev nD) (t : Fin cfg2.N) (d) : (dat2 V c).before 2 t d = shown2 V c 2 t :=
  (dat2 V c).before_in_eq_fetched 2 rfl (fun _ => rfl) (fun _ _ _ => rfl) (fun _ => rfl) t d

theorem before2_var (c : Dev nD) (t : Fin cfg2.N) (d) : (dat2 V c).before 3 t d = shown2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  exact sound_of_triple (e := bodyAt2 t)
    (BI.sep_mono (held_elim _ (before2_x V c t)) (BI.sep_mono (held_elim _ (before2_b V c t)) (BI.sep_mono (held_elim _ (before2_mean V c t)) (BI.sep_mono (held_elim _ (before2_var V c t)) (any_intro _)))))
    (kernel2_runs c _ _ _ _ _ _ _ _ _ _ _ _ _ _ _ _ _ (after2_out V c t))

end Cert.KernelIdeal.Hand

end
-- ==== Proof.KI.R3.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

def product3 (x : Vec F S5000x128 .f32) (w : Vec F S128x64 .f32) : Vec F S5000x64 .f32 :=
  View.canon [⟨all5000x64, k3_pay1 (View.ld x all5000x128) (View.ld w all128x64)⟩]

set_option maxHeartbeats 1000000 in
theorem kernel_triple3 (c : Dev nD) (E : Set ℕ) (i : grid3.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product3 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc3_kernel i arg1 harg1 arg2 harg2 arg3 harg3) K := by
  subst hp
  simp only [cc3_kernel_eq_skeleton]; unfold cc3_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => product3 (blockAt3 V c 0 t) (blockAt3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_in3 (c : Dev nD) : Pipeline.ΦA spec3 c ⊢ ((dat3 V c).Φ 0 : sProp 𝕄) := .rfl

theorem Phi_out3 (c : Dev nD) : (dat3 V c).Φ (Fin.last cfg3.N) ⊢ (Pipeline.ΦA spec3 c : sProp 𝕄) := .rfl

theorem after_prod3 (c : Dev nD) (t : Fin cfg3.N) :
    (dat3 V c).after 2 t = product3 (blockAt3 V c 0 t) (blockAt3 V c 1 t) := by dsimp only [dat3]

theorem lhs_held3 (c : Dev nD) (t : Fin cfg3.N) (d) : (dat3 V c).before 0 t d = blockAt3 V c 0 t :=
  (dat3 V c).before_in_eq_fetched 0 rfl (fun _ => rfl) (fun _ _ _ => rfl) (fun _ => rfl) t d

theorem rhs_held3 (c : Dev nD) (t : Fin cfg3.N) (d) : (dat3 V c).before 1 t d = blockAt3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  exact sound_of_triple (e := bodyAt3 t)
    (BI.sep_mono (held_elim _ (lhs_held3 V c t)) (BI.sep_mono (held_elim _ (rhs_held3 V c t)) (any_intro _)))
    (kernel_triple3 c _ _ _ _ _ _ _ _ _ _ _ (after_prod3 V c t))

end Cert.KernelIdeal.Hand

end
-- ==== Proof.KI.R4.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev first4 (i : grid4.Coords) : Prop := (Scalar.cmpi .ne (Scalar.extui (Scalar.cmpi .eq (BitVec.ofNat 32 (i 0).val) 0#32)) 0#32) = 1#1
theorem hfirst4 : ∀ t : Fin cfg4.N, first4 (grid4.coords t) ↔ t.val = 0 :=
  (by decide +kernel : ∀ t : Fin grid4.N, first4 (grid4.coords t) ↔ t.val = 0)
abbrev last4 (i : grid4.Coords) : Prop := k4_cond2 i = 1#1
theorem hlast4 : ∀ t : Fin cfg4.N, last4 (grid4.coords t) ↔ t.val = 9 :=
  (by decide +kernel : ∀ t : Fin grid4.N, last4 (grid4.coords t) ↔ t.val = 9)

theorem off4 : ∀ t : Fin cfg4.N, ¬last4 (grid4.coords t) → (cfg4.idle 2 (grid4.coords t) = true ∧ (cfg4.win 2).flush t = false)
    ∧ cfg4.idle 3 (grid4.coords t) = true ∧ (cfg4.win 3).flush t = false := by decide +kernel
theorem on4 : ∀ t : Fin cfg4.N, last4 (grid4.coords t) → cfg4.idle 2 (grid4.coords t) = false ∧ cfg4.idle 3 (grid4.coords t) = false := by
  decide +kernel

abbrev rX4 : Rect S5000x64 := Rect.unit (s := S5000x64) ![0, 0] S5000x64.size inb_S5000x64_S5000x64_0_0
abbrev rS4 : Rect S1x64 := Rect.unit (s := S1x64) ![0, 0] S1x64.size inb_S1x64_S1x64_0_0

section body
variable (c : Dev nD) (E : Set ℕ) (i : grid4.Coords)
  (arg1 : Memref sig .tc .vmem S5000x64 .f32) (harg1 : arg1.IsWhole) (arg2 : Memref sig .tc .vmem S1x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S1x64 .f32) (harg5 : arg5.IsWhole) (arg6 : Memref sig .tc .vmem S1x64 .f32) (harg6 : arg6.IsWhole)

set_option maxHeartbeats 1000000 in
theorem run4_first (x : Vec F S5000x64 .f32) (b : Vec F S1x64 .f32) (K : PUnit → sProp 𝕄) (h1 : first4 i) (h2 : ¬last4 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS4, k4_pay4 (View.ld x rX4) (View.ld b rS4) k4_pay1⟩])
            ∗ owns (c : Thread nD τ) arg6 fullShare (View.canon [⟨rS4, k4_pay5 (View.ld x rX4) (View.ld b rS4) k4_pay2⟩])) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run4_first.sl.v9 run4_first.sl.H5_1
    rw [View.readCov_cons_toLoadRect]; rfl
  iexists _; isplitr
  swap; · iexact H6
  ipureintro
  refine (read_writes_top off00 _ _ _ _ _).trans ?_
  unfold run4_first.sl.v16 run4_first.sl.H6_1
  rw [View.readCov_cons_toLoadRect]; rfl

-- The rows' loads are named (`a0`, `a1`) so that the triple applies whatever form the rows' contents have.
set_option maxHeartbeats 1000000 in
theorem run4_mid (x : Vec F S5000x64 .f32) (b s0 s1 a0 a1 : Vec F S1x64 .f32) (K : PUnit → sProp 𝕄) (h1 : ¬first4 i) (h2 : ¬last4 i)
    (e0 : View.ld s0 rS4 = a0) (e1 : View.ld s1 rS4 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS4, k4_pay4 (View.ld x rX4) (View.ld b rS4) a0⟩])
            ∗ owns (c : Thread nD τ) arg6 fullShare (View.canon [⟨rS4, k4_pay5 (View.ld x rX4) (View.ld b rS4) a1⟩])) -∗ K ⟨⟩))
      ⊢ wp frame (wpE (defs₀ (F := F)) Variants.none c none) E (cc4_kernel i arg1 harg1 arg2 harg2 arg3 harg3 arg4 harg4 arg5 harg5 arg6 harg6) K := by
  subst e0 e1
  simp only [cc4_kernel_eq_skeleton]; unfold cc4_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run4_last (x : Vec F S5000x64 .f32) (b s0 s1 a0 a1 : Vec F S1x64 .f32) (K : PUnit → sProp 𝕄) (h1 : ¬first4 i) (h2 : last4 i)
    (e0 : View.ld s0 rS4 = a0) (e1 : View.ld s1 rS4 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS4, k4_pay6 (k4_pay4 (View.ld x rX4) (View.ld b rS4) a0)⟩])
            ∗ owns (c : Thread nD τ) arg4 fullShare (View.canon [⟨rS4, k4_pay7 (k4_pay4 (View.ld x rX4) (View.ld b rS4) a0) (k4_pay5 (View.ld x rX4) (View.ld b rS4) a1)⟩])
            ∗ owns (c : Thread nD τ) arg5 fullShare (View.canon [⟨rS4, k4_pay4 (View.ld x rX4) (View.ld b rS4) a0⟩])
            ∗ owns (c : Thread nD τ) arg6 fullShare (View.canon [⟨rS4, k4_pay5 (View.ld x rX4) (View.ld b rS4) a1⟩])) -∗ K ⟨⟩))
      ⊢ wp frame (wpE (defs₀ (F := F)) Variants.none c none) E (cc4_kernel i arg1 harg1 arg2 harg2 arg3 harg3 arg4 harg4 arg5 harg5 arg6 harg6) K := by
  subst e0 e1
  simp only [cc4_kernel_eq_skeleton]; unfold cc4_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run4_last.sl.v27 run4_last.sl.H5_1
    rw [View.readCov_cons_toLoadRect]; rfl
  isplitl [H4]
  · iexists _; isplitr
    swap; · iexact H4
    ipureintro
    refine (read_writes_top off00 _ _ _ _ _).trans ?_
    unfold run4_last.sl.v27 run4_last.sl.H5_1 run4_last.sl.v30 run4_last.sl.H6_1
    rw [View.readCov_cons_toLoadRect, View.readCov_cons_toLoadRect]; rfl
  isplitl [H5]
  · iexists _; isplitr
    swap; · iexact H5
    ipureintro
    unfold run4_last.sl.H5_1
    exact read_writes_top off00 _ _ _ _ _
  iexists _; isplitr
  swap; · iexact H6
  ipureintro
  unfold run4_last.sl.H6_1
  exact read_writes_top off00 _ _ _ _ _

end body

def pt4 (n : ℕ) : Fin cfg4.N := ⟨n % 10, lt_of_lt_of_eq (Nat.mod_lt n (by decide)) (show cfg4.N = 10 from N_4).symm⟩
theorem pt4_val (t : Fin cfg4.N) : pt4 t.val = t :=
  Fin.ext (Nat.mod_eq_of_lt (lt_of_lt_of_eq t.isLt (show cfg4.N = 10 from N_4)))
def xAt4 (c : Dev nD) (n : ℕ) : Vec F S5000x64 .f32 := iblk4 V c 0 (pt4 n)
def bAt4 (c : Dev nD) (n : ℕ) : Vec F S1x64 .f32 := iblk4 V c 1 (pt4 n)

def sum4 (c : Dev nD) : ℕ → Vec F S1x64 .f32
  | 0 => k4_pay4 (View.ld (xAt4 V c 0) rX4) (View.ld (bAt4 V c 0) rS4) k4_pay1
  | n + 1 => k4_pay4 (View.ld (xAt4 V c (n + 1)) rX4) (View.ld (bAt4 V c (n + 1)) rS4) (sum4 c n)

def sq4 (c : Dev nD) : ℕ → Vec F S1x64 .f32
  | 0 => k4_pay5 (View.ld (xAt4 V c 0) rX4) (View.ld (bAt4 V c 0) rS4) k4_pay2
  | n + 1 => k4_pay5 (View.ld (xAt4 V c (n + 1)) rX4) (View.ld (bAt4 V c (n + 1)) rS4) (sq4 c n)

theorem xAt4_val (c : Dev nD) (t : Fin cfg4.N) : xAt4 V c t.val = iblk4 V c 0 t := by unfold xAt4; rw [pt4_val]
theorem bAt4_val (c : Dev nD) (t : Fin cfg4.N) : bAt4 V c t.val = iblk4 V c 1 t := by unfold bAt4; rw [pt4_val]

theorem sum4_zero (c : Dev nD) (n : ℕ) (h : n = 0) :
    sum4 V c n = k4_pay4 (View.ld (xAt4 V c n) rX4) (View.ld (bAt4 V c n) rS4) k4_pay1 := by subst h; rfl
theorem sum4_pos (c : Dev nD) (n : ℕ) (h : n ≠ 0) :
    sum4 V c n = k4_pay4 (View.ld (xAt4 V c n) rX4) (View.ld (bAt4 V c n) rS4) (sum4 V c (n - 1)) := by
  obtain ⟨n, rfl⟩ := Nat.exists_eq_succ_of_ne_zero h; rfl
theorem sq4_zero (c : Dev nD) (n : ℕ) (h : n = 0) :
    sq4 V c n = k4_pay5 (View.ld (xAt4 V c n) rX4) (View.ld (bAt4 V c n) rS4) k4_pay2 := by subst h; rfl
theorem sq4_pos (c : Dev nD) (n : ℕ) (h : n ≠ 0) :
    sq4 V c n = k4_pay5 (View.ld (xAt4 V c n) rX4) (View.ld (bAt4 V c n) rS4) (sq4 V c (n - 1)) := by
  obtain ⟨n, rfl⟩ := Nat.exists_eq_succ_of_ne_zero h; rfl

abbrev scr4_0 : Memref sig .tc .vmem S1x64 .f32 := Memref.whole cc4_scratch0
abbrev scr4_1 : Memref sig .tc .vmem S1x64 .f32 := Memref.whole cc4_scratch1

-- What the region keeps between points once the two scratch rows hold `a` and `b`.
abbrev Inv4 (c : Dev nD) (a b : Vec F S1x64 .f32) : sProp 𝕄 :=
  iprop(((owns (c : Thread nD τ) scr4_0 fullShare a ∗ owns (c : Thread nD τ) scr4_1 fullShare b)
      ∗ Pipeline.scopedRestBut (Ix := Unit) (Name := ℕ) (U := UR sig nD τ) (Lvl := ℕ) (Val := Elt F) spec4 c [cc4_scratch0, cc4_scratch1])
      ∗ (∃ r, prngReg c r))

def Phi4 (c : Dev nD) : ℕ → sProp 𝕄
  | 0 => Pipeline.ΦA spec4 c
  | n + 1 => Inv4 c (View.canon [⟨rS4, sum4 V c n⟩]) (View.canon [⟨rS4, sq4 V c n⟩])

theorem Phi4_pos (c : Dev nD) (n : ℕ) (h : n ≠ 0) :
    Phi4 V c n = Inv4 c (View.canon [⟨rS4, sum4 V c (n - 1)⟩]) (View.canon [⟨rS4, sq4 V c (n - 1)⟩]) := by
  obtain ⟨n, rfl⟩ := Nat.exists_eq_succ_of_ne_zero h; rfl

theorem PhiA4_eq (c : Dev nD) :
    (Pipeline.ΦA spec4 c : sProp 𝕄)
      = iprop((((∃ d, owns (c : Thread nD τ) scr4_0 fullShare d) ∗ (∃ d, owns (c : Thread nD τ) scr4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scr4_0, scr4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => View.canon [⟨rS4, k4_pay6 (sum4 V c t.val)⟩]
    | ⟨3, _⟩ => View.canon [⟨rS4, k4_pay7 (sum4 V c t.val) (sq4 V c t.val)⟩]
  Φ t := Phi4 V c t.val
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) :
    (dat4 V c).after 2 t = View.canon [⟨rS4, k4_pay6 (sum4 V c t.val)⟩] := by dsimp only [dat4]
theorem after4_3 (c : Dev nD) (t : Fin cfg4.N) :
    (dat4 V c).after 3 t = View.canon [⟨rS4, k4_pay7 (sum4 V c t.val) (sq4 V c t.val)⟩] := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem Phi_in4 (c : Dev nD) : Pipeline.ΦA spec4 c ⊢ ((dat4 V c).Φ 0 : sProp 𝕄) := Idealize.SL.BI.Entails.refl _

theorem Phi_out4 (c : Dev nD) : (dat4 V c).Φ (Fin.last cfg4.N) ⊢ (Pipeline.ΦA spec4 c : sProp 𝕄) := by
  rw [show (dat4 V c).Φ (Fin.last cfg4.N) = Phi4 V c cfg4.N from rfl,
    Phi4_pos V c _ (by rw [show cfg4.N = 10 from N_4]; decide), PhiA4_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body4 (c : Dev nD) (t : Fin cfg4.N) :
    iprop(Phi4 V c t.val ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop(Phi4 V c (t.val + 1) ∗ (dat4 V c).owesAt () t.castSucc
        ∗ owns (c : Thread nD τ) (st4_0 t) fullShare (iblk4 V c 0 t) ∗ owns (c : Thread nD τ) (st4_1 t) fullShare (iblk4 V c 1 t)
        ∗ (dat4 V c).leavesExact 2 t ∗ (dat4 V c).leavesExact 3 t)) := by
  unfold bodyAt4
  simp only [before4_0, before4_1]
  rw [Phi4_pos V c (t.val + 1) (Nat.succ_ne_zero _), Nat.add_sub_cancel]
  unfold Inv4
  have hN : t.val < 10 := lt_of_lt_of_eq t.isLt (show cfg4.N = 10 from N_4)
  by_cases h9 : t.val = 9
  · have hl := (hlast4 t).mpr h9
    have h0 : t.val ≠ 0 := by omega
    rw [leavesExact_live _ 2 t (on4 t hl).1, leavesExact_live _ 3 t (on4 t hl).2, after4_2, after4_3,
      Phi4_pos V c _ h0, sum4_pos V c _ h0, sq4_pos V c _ h0, xAt4_val, bAt4_val]
    iintro ⟨⟨⟨⟨HS0, HS1⟩, HR⟩, Hg⟩, Ho, ⟨%d0, H0⟩, ⟨%d1, H1⟩, ⟨%d2, H2⟩, ⟨%d3, H3⟩⟩
    iapply (run4_last c Set.univ (grid4.coords t) _ _ _ _ _ _ _ _ _ _ _ _ (iblk4 V c 0 t) (iblk4 V c 1 t) _ _ _ _ _
      (fun h => h0 ((hfirst4 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last4 (grid4.coords t) := fun h => h9 ((hlast4 t).mp h)
    rw [Dat.leavesExact_idle _ 2 t (off4 t hl).1.1 (off4 t hl).1.2, Dat.leavesExact_idle _ 3 t (off4 t hl).2.1 (off4 t hl).2.2]
    by_cases h0 : t.val = 0
    · rw [show Phi4 V c t.val = Pipeline.ΦA spec4 c from by rw [h0]; rfl, PhiA4_eq, sum4_zero V c _ h0, sq4_zero V c _ h0, xAt4_val, bAt4_val]
      iintro ⟨⟨⟨⟨HS0, HS1⟩, HR⟩, Hg⟩, Ho, ⟨%d0, H0⟩, ⟨%d1, H1⟩, H2, H3⟩
      iapply (run4_first c Set.univ (grid4.coords t) _ _ _ _ _ _ _ _ _ _ _ _ (iblk4 V c 0 t) (iblk4 V c 1 t) _ ((hfirst4 t).mpr h0) hl)
      iframe H0 H1 HS0 HS1
      iintro ⟨H0, H1, HS0, HS1⟩
      iframe
    · rw [Phi4_pos V c _ h0, sum4_pos V c _ h0, sq4_pos V c _ h0, xAt4_val, bAt4_val]
      iintro ⟨⟨⟨⟨HS0, HS1⟩, HR⟩, Hg⟩, Ho, ⟨%d0, H0⟩, ⟨%d1, H1⟩, H2, H3⟩
      iapply (run4_mid c Set.univ (grid4.coords t) _ _ _ _ _ _ _ _ _ _ _ _ (iblk4 V c 0 t) (iblk4 V c 1 t) _ _ _ _ _
        (fun h => h0 ((hfirst4 t).mp h)) hl (ld_canon_top off00 _ _) (ld_canon_top off00 _ _))
      iframe H0 H1 HS0 HS1
      iintro ⟨H0, H1, HS0, HS1⟩
      iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def shown5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def normed5 (x : Vec F S5000x64 .f32) (b mean var : Vec F S1x64 .f32) : Vec F S5000x64 .f32 :=
  View.canon [⟨all5000x64, k5_pay1 (View.ld x all5000x64) (View.ld b all1x64) (View.ld var all1x64) (View.ld mean all1x64)⟩]

set_option maxHeartbeats 1000000 in
theorem kernel5_runs (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x : Vec F S5000x64 .f32) (b mean var : Vec F S1x64 .f32) (p : Vec F S5000x64 .f32) (hp : p = normed5 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc5_kernel i arg1 harg1 arg2 harg2 arg3 harg3 arg4 harg4 arg5 harg5) K := by
  subst hp
  simp only [cc5_kernel_eq_skeleton]; unfold cc5_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x64 _)

def dat5 (c : Dev nD) : Dat τ (Elt F) Unit ℕ (UR sig nD τ) ℕ cfg5 c where
  A w := V c (Pipeline.arrRef spec5 w)
  after w t := match w with
    | ⟨0, _⟩ => shown5 V c 0 t
    | ⟨1, _⟩ => shown5 V c 1 t
    | ⟨2, _⟩ => shown5 V c 2 t
    | ⟨3, _⟩ => shown5 V c 3 t
    | ⟨4, _⟩ => normed5 (shown5 V c 0 t) (shown5 V c 1 t) (shown5 V c 2 t) (shown5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_in5 (c : Dev nD) : Pipeline.ΦA spec5 c ⊢ ((dat5 V c).Φ 0 : sProp 𝕄) := .rfl

theorem Phi_out5 (c : Dev nD) : (dat5 V c).Φ (Fin.last cfg5.N) ⊢ (Pipeline.ΦA spec5 c : sProp 𝕄) := .rfl

theorem after5_out (c : Dev nD) (t : Fin cfg5.N) :
    (dat5 V c).after 4 t = normed5 (shown5 V c 0 t) (shown5 V c 1 t) (shown5 V c 2 t) (shown5 V c 3 t) := by dsimp only [dat5]

theorem before5_x (c : Dev nD) (t : Fin cfg5.N) (d) : (dat5 V c).before 0 t d = shown5 V c 0 t :=
  (dat5 V c).before_in_eq_fetched 0 rfl (fun _ => rfl) (fun _ _ _ => rfl) (fun _ => rfl) t d

theorem before5_b (c : Dev nD) (t : Fin cfg5.N) (d) : (dat5 V c).before 1 t d = shown5 V c 1 t :=
  (dat5 V c).before_in_eq_fetched 1 rfl (fun _ => rfl) (fun _ _ _ => rfl) (fun _ => rfl) t d

theorem before5_mean (c : Dev nD) (t : Fin cfg5.N) (d) : (dat5 V c).before 2 t d = shown5 V c 2 t :=
  (dat5 V c).before_in_eq_fetched 2 rfl (fun _ => rfl) (fun _ _ _ => rfl) (fun _ => rfl) t d

theorem before5_var (c : Dev nD) (t : Fin cfg5.N) (d) : (dat5 V c).before 3 t d = shown5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  exact sound_of_triple (e := bodyAt5 t)
    (BI.sep_mono (held_elim _ (before5_x V c t)) (BI.sep_mono (held_elim _ (before5_b V c t)) (BI.sep_mono (held_elim _ (before5_mean V c t)) (BI.sep_mono (held_elim _ (before5_var V c t)) (any_intro _)))))
    (kernel5_runs c _ _ _ _ _ _ _ _ _ _ _ _ _ _ _ _ _ (after5_out V c t))

end Cert.KernelIdeal.Hand

end
-- ==== Proof.KI.R6.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rows6 : Rect S5000x128 := Rect.unit (s := S5000x128) ![0, 0] S5000x128.size inb_S5000x128_S5000x128_0_0

abbrev wcol6 : Rect S128x1 := Rect.unit (s := S128x1) ![0, 0] S128x1.size inb_S128x1_S128x1_0_0

abbrev bias6 : Rect S1x1 := Rect.unit (s := S1x1) ![0, 0] S1x1.size inb_S1x1_S1x1_0_0

abbrev gcol6 : Rect S5000x1 := Rect.unit (s := S5000x1) ![0, 0] S5000x1.size inb_S5000x1_S5000x1_0_0

def alpha6 (x0 x1 : Vec F S5000x128 .f32) (x2 x3 : Vec F S128x1 .f32) (x4 : Vec F S1x1 .f32) : Vec F S5000x1 .f32 :=
  View.canon [⟨gcol6, k6_pay3 (View.ld x0 rows6) (View.ld x1 rows6) (View.ld x2 wcol6) (View.ld x3 wcol6) (View.ld x4 bias6)⟩]

def mixed6 (x0 x1 : Vec F S5000x128 .f32) (x2 x3 : Vec F S128x1 .f32) (x4 : Vec F S1x1 .f32) : Vec F S5000x128 .f32 :=
  View.canon [⟨rows6, k6_pay4 (View.ld x0 rows6) (View.ld x1 rows6) (View.ld x2 wcol6) (View.ld x3 wcol6) (View.ld x4 bias6)⟩]

theorem cover_rows6 (p : Vec F S5000x128 .f32) (y : S5000x128.Idx) :
    ∃ pc ∈ ([⟨rows6, p⟩] : List (View.Piece (Elt F) S5000x128 .f32)), y ∈ pc.1.set :=
  View.cover_of_tiled [⟨rows6, p⟩] S5000x128.size (by rfl) y

theorem cover_gcol6 (p : Vec F S5000x1 .f32) (y : S5000x1.Idx) :
    ∃ pc ∈ ([⟨gcol6, p⟩] : List (View.Piece (Elt F) S5000x1 .f32)), y ∈ pc.1.set :=
  View.cover_of_tiled [⟨gcol6, p⟩] S5000x1.size (by rfl) y

set_option maxHeartbeats 4000000 in
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S5000x1 .f32) (harg7 : arg7.IsWhole)
    (x0 x1 : Vec F S5000x128 .f32) (x2 x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixed6 x0 x1 x2 x3 x4) ∗ owns (c : Thread nD τ) arg7 fullShare (alpha6 x0 x1 x2 x3 x4)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_rows6 _)
  iexists _; isplitr
  swap; · iexact H6
  ipureintro
  exact View.read_writes_eq_canon _ _ _ (cover_gcol6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => mixed6 (iblk6 V c 0 t) (iblk6 V c 1 t) (iblk6 V c 2 t) (iblk6 V c 3 t) (iblk6 V c 4 t)
    | ⟨6, _⟩ => alpha6 (iblk6 V c 0 t) (iblk6 V c 1 t) (iblk6 V c 2 t) (iblk6 V c 3 t) (iblk6 V c 4 t)
  Φ _ := Pipeline.ΦA spec6 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq6 (c : Dev nD) (w : Fin cfg6.W) : (dat6 V c).A w = V c (Pipeline.arrRef spec6 w) := by
  dsimp only [dat6]

theorem Phi_in6 (c : Dev nD) : Pipeline.ΦA spec6 c ⊢ ((dat6 V c).Φ 0 : sProp 𝕄) := .rfl

theorem Phi_out6 (c : Dev nD) : (dat6 V c).Φ (Fin.last cfg6.N) ⊢ (Pipeline.ΦA spec6 c : sProp 𝕄) := .rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = mixed6 (iblk6 V c 0 t) (iblk6 V c 1 t) (iblk6 V c 2 t) (iblk6 V c 3 t) (iblk6 V c 4 t) := by dsimp only [dat6]
theorem after6_6 (c : Dev nD) (t : Fin cfg6.N) : (dat6 V c).after 6 t = alpha6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

def product7 (x : Vec F S5000x128 .f32) (w : Vec F S128x128 .f32) : Vec F S5000x128 .f32 :=
  View.canon [⟨all5000x128, k7_pay1 (View.ld x all5000x128) (View.ld w all128x128)⟩]

set_option maxHeartbeats 1000000 in
theorem kernel_triple7 (c : Dev nD) (E : Set ℕ) (i : grid7.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (p : Vec F S5000x128 .f32) (hp : p = product7 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc7_kernel i arg1 harg1 arg2 harg2 arg3 harg3) K := by
  subst hp
  simp only [cc7_kernel_eq_skeleton]; unfold cc7_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x128 _)

def dat7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => product7 (blockAt7 V c 0 t) (blockAt7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_in7 (c : Dev nD) : Pipeline.ΦA spec7 c ⊢ ((dat7 V c).Φ 0 : sProp 𝕄) := .rfl

theorem Phi_out7 (c : Dev nD) : (dat7 V c).Φ (Fin.last cfg7.N) ⊢ (Pipeline.ΦA spec7 c : sProp 𝕄) := .rfl

theorem after_prod7 (c : Dev nD) (t : Fin cfg7.N) :
    (dat7 V c).after 2 t = product7 (blockAt7 V c 0 t) (blockAt7 V c 1 t) := by dsimp only [dat7]

theorem lhs_held7 (c : Dev nD) (t : Fin cfg7.N) (d) : (dat7 V c).before 0 t d = blockAt7 V c 0 t :=
  (dat7 V c).before_in_eq_fetched 0 rfl (fun _ => rfl) (fun _ _ _ => rfl) (fun _ => rfl) t d

theorem rhs_held7 (c : Dev nD) (t : Fin cfg7.N) (d) : (dat7 V c).before 1 t d = blockAt7 V c 1 t :=
  (dat7 V c).before_in_eq_fetched 1 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  exact sound_of_triple (e := bodyAt7 t)
    (BI.sep_mono (held_elim _ (lhs_held7 V c t)) (BI.sep_mono (held_elim _ (rhs_held7 V c t)) (any_intro _)))
    (kernel_triple7 c _ _ _ _ _ _ _ _ _ _ _ (after_prod7 V c t))

end Cert.KernelIdeal.Hand

end
-- ==== Proof.KI.R8.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev first8 (i : grid8.Coords) : Prop := (Scalar.cmpi .ne (Scalar.extui (Scalar.cmpi .eq (BitVec.ofNat 32 (i 0).val) 0#32)) 0#32) = 1#1
theorem hfirst8 : ∀ t : Fin cfg8.N, first8 (grid8.coords t) ↔ t.val = 0 :=
  (by decide +kernel : ∀ t : Fin grid8.N, first8 (grid8.coords t) ↔ t.val = 0)
abbrev last8 (i : grid8.Coords) : Prop := k8_cond2 i = 1#1
theorem hlast8 : ∀ t : Fin cfg8.N, last8 (grid8.coords t) ↔ t.val = 9 :=
  (by decide +kernel : ∀ t : Fin grid8.N, last8 (grid8.coords t) ↔ t.val = 9)

theorem off8 : ∀ t : Fin cfg8.N, ¬last8 (grid8.coords t) → (cfg8.idle 2 (grid8.coords t) = true ∧ (cfg8.win 2).flush t = false)
    ∧ cfg8.idle 3 (grid8.coords t) = true ∧ (cfg8.win 3).flush t = false := by decide +kernel
theorem on8 : ∀ t : Fin cfg8.N, last8 (grid8.coords t) → cfg8.idle 2 (grid8.coords t) = false ∧ cfg8.idle 3 (grid8.coords t) = false := by
  decide +kernel

abbrev rX8 : Rect S5000x128 := Rect.unit (s := S5000x128) ![0, 0] S5000x128.size inb_S5000x128_S5000x128_0_0
abbrev rS8 : Rect S1x128 := Rect.unit (s := S1x128) ![0, 0] S1x128.size inb_S1x128_S1x128_0_0

section body
variable (c : Dev nD) (E : Set ℕ) (i : grid8.Coords)
  (arg1 : Memref sig .tc .vmem S5000x128 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)

set_option maxHeartbeats 1000000 in
theorem run8_first (x : Vec F S5000x128 .f32) (b : Vec F S1x128 .f32) (K : PUnit → sProp 𝕄) (h1 : first8 i) (h2 : ¬last8 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS8, k8_pay4 (View.ld x rX8) (View.ld b rS8) k8_pay1⟩])
            ∗ owns (c : Thread nD τ) arg6 fullShare (View.canon [⟨rS8, k8_pay5 (View.ld x rX8) (View.ld b rS8) k8_pay2⟩])) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run8_first.sl.v9 run8_first.sl.H5_1
    rw [View.readCov_cons_toLoadRect]; rfl
  iexists _; isplitr
  swap; · iexact H6
  ipureintro
  refine (read_writes_top off00 _ _ _ _ _).trans ?_
  unfold run8_first.sl.v16 run8_first.sl.H6_1
  rw [View.readCov_cons_toLoadRect]; rfl

-- The rows' loads are named (`a0`, `a1`) so that the triple applies whatever form the rows' contents have.
set_option maxHeartbeats 1000000 in
theorem run8_mid (x : Vec F S5000x128 .f32) (b s0 s1 a0 a1 : Vec F S1x128 .f32) (K : PUnit → sProp 𝕄) (h1 : ¬first8 i) (h2 : ¬last8 i)
    (e0 : View.ld s0 rS8 = a0) (e1 : View.ld s1 rS8 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS8, k8_pay4 (View.ld x rX8) (View.ld b rS8) a0⟩])
            ∗ owns (c : Thread nD τ) arg6 fullShare (View.canon [⟨rS8, k8_pay5 (View.ld x rX8) (View.ld b rS8) a1⟩])) -∗ K ⟨⟩))
      ⊢ wp frame (wpE (defs₀ (F := F)) Variants.none c none) E (cc8_kernel i arg1 harg1 arg2 harg2 arg3 harg3 arg4 harg4 arg5 harg5 arg6 harg6) K := by
  subst e0 e1
  simp only [cc8_kernel_eq_skeleton]; unfold cc8_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run8_last (x : Vec F S5000x128 .f32) (b s0 s1 a0 a1 : Vec F S1x128 .f32) (K : PUnit → sProp 𝕄) (h1 : ¬first8 i) (h2 : last8 i)
    (e0 : View.ld s0 rS8 = a0) (e1 : View.ld s1 rS8 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS8, k8_pay6 (k8_pay4 (View.ld x rX8) (View.ld b rS8) a0)⟩])
            ∗ owns (c : Thread nD τ) arg4 fullShare (View.canon [⟨rS8, k8_pay7 (k8_pay4 (View.ld x rX8) (View.ld b rS8) a0) (k8_pay5 (View.ld x rX8) (View.ld b rS8) a1)⟩])
            ∗ owns (c : Thread nD τ) arg5 fullShare (View.canon [⟨rS8, k8_pay4 (View.ld x rX8) (View.ld b rS8) a0⟩])
            ∗ owns (c : Thread nD τ) arg6 fullShare (View.canon [⟨rS8, k8_pay5 (View.ld x rX8) (View.ld b rS8) a1⟩])) -∗ K ⟨⟩))
      ⊢ wp frame (wpE (defs₀ (F := F)) Variants.none c none) E (cc8_kernel i arg1 harg1 arg2 harg2 arg3 harg3 arg4 harg4 arg5 harg5 arg6 harg6) K := by
  subst e0 e1
  simp only [cc8_kernel_eq_skeleton]; unfold cc8_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run8_last.sl.v27 run8_last.sl.H5_1
    rw [View.readCov_cons_toLoadRect]; rfl
  isplitl [H4]
  · iexists _; isplitr
    swap; · iexact H4
    ipureintro
    refine (read_writes_top off00 _ _ _ _ _).trans ?_
    unfold run8_last.sl.v27 run8_last.sl.H5_1 run8_last.sl.v30 run8_last.sl.H6_1
    rw [View.readCov_cons_toLoadRect, View.readCov_cons_toLoadRect]; rfl
  isplitl [H5]
  · iexists _; isplitr
    swap; · iexact H5
    ipureintro
    unfold run8_last.sl.H5_1
    exact read_writes_top off00 _ _ _ _ _
  iexists _; isplitr
  swap; · iexact H6
  ipureintro
  unfold run8_last.sl.H6_1
  exact read_writes_top off00 _ _ _ _ _

end body

def pt8 (n : ℕ) : Fin cfg8.N := ⟨n % 10, lt_of_lt_of_eq (Nat.mod_lt n (by decide)) (show cfg8.N = 10 from N_8).symm⟩
theorem pt8_val (t : Fin cfg8.N) : pt8 t.val = t :=
  Fin.ext (Nat.mod_eq_of_lt (lt_of_lt_of_eq t.isLt (show cfg8.N = 10 from N_8)))
def xAt8 (c : Dev nD) (n : ℕ) : Vec F S5000x128 .f32 := iblk8 V c 0 (pt8 n)
def bAt8 (c : Dev nD) (n : ℕ) : Vec F S1x128 .f32 := iblk8 V c 1 (pt8 n)

def sum8 (c : Dev nD) : ℕ → Vec F S1x128 .f32
  | 0 => k8_pay4 (View.ld (xAt8 V c 0) rX8) (View.ld (bAt8 V c 0) rS8) k8_pay1
  | n + 1 => k8_pay4 (View.ld (xAt8 V c (n + 1)) rX8) (View.ld (bAt8 V c (n + 1)) rS8) (sum8 c n)

def sq8 (c : Dev nD) : ℕ → Vec F S1x128 .f32
  | 0 => k8_pay5 (View.ld (xAt8 V c 0) rX8) (View.ld (bAt8 V c 0) rS8) k8_pay2
  | n + 1 => k8_pay5 (View.ld (xAt8 V c (n + 1)) rX8) (View.ld (bAt8 V c (n + 1)) rS8) (sq8 c n)

theorem xAt8_val (c : Dev nD) (t : Fin cfg8.N) : xAt8 V c t.val = iblk8 V c 0 t := by unfold xAt8; rw [pt8_val]
theorem bAt8_val (c : Dev nD) (t : Fin cfg8.N) : bAt8 V c t.val = iblk8 V c 1 t := by unfold bAt8; rw [pt8_val]

theorem sum8_zero (c : Dev nD) (n : ℕ) (h : n = 0) :
    sum8 V c n = k8_pay4 (View.ld (xAt8 V c n) rX8) (View.ld (bAt8 V c n) rS8) k8_pay1 := by subst h; rfl
theorem sum8_pos (c : Dev nD) (n : ℕ) (h : n ≠ 0) :
    sum8 V c n = k8_pay4 (View.ld (xAt8 V c n) rX8) (View.ld (bAt8 V c n) rS8) (sum8 V c (n - 1)) := by
  obtain ⟨n, rfl⟩ := Nat.exists_eq_succ_of_ne_zero h; rfl
theorem sq8_zero (c : Dev nD) (n : ℕ) (h : n = 0) :
    sq8 V c n = k8_pay5 (View.ld (xAt8 V c n) rX8) (View.ld (bAt8 V c n) rS8) k8_pay2 := by subst h; rfl
theorem sq8_pos (c : Dev nD) (n : ℕ) (h : n ≠ 0) :
    sq8 V c n = k8_pay5 (View.ld (xAt8 V c n) rX8) (View.ld (bAt8 V c n) rS8) (sq8 V c (n - 1)) := by
  obtain ⟨n, rfl⟩ := Nat.exists_eq_succ_of_ne_zero h; rfl

abbrev scr8_0 : Memref sig .tc .vmem S1x128 .f32 := Memref.whole cc8_scratch0
abbrev scr8_1 : Memref sig .tc .vmem S1x128 .f32 := Memref.whole cc8_scratch1

-- What the region keeps between points once the two scratch rows hold `a` and `b`.
abbrev Inv8 (c : Dev nD) (a b : Vec F S1x128 .f32) : sProp 𝕄 :=
  iprop(((owns (c : Thread nD τ) scr8_0 fullShare a ∗ owns (c : Thread nD τ) scr8_1 fullShare b)
      ∗ Pipeline.scopedRestBut (Ix := Unit) (Name := ℕ) (U := UR sig nD τ) (Lvl := ℕ) (Val := Elt F) spec8 c [cc8_scratch0, cc8_scratch1])
      ∗ (∃ r, prngReg c r))

def Phi8 (c : Dev nD) : ℕ → sProp 𝕄
  | 0 => Pipeline.ΦA spec8 c
  | n + 1 => Inv8 c (View.canon [⟨rS8, sum8 V c n⟩]) (View.canon [⟨rS8, sq8 V c n⟩])

theorem Phi8_pos (c : Dev nD) (n : ℕ) (h : n ≠ 0) :
    Phi8 V c n = Inv8 c (View.canon [⟨rS8, sum8 V c (n - 1)⟩]) (View.canon [⟨rS8, sq8 V c (n - 1)⟩]) := by
  obtain ⟨n, rfl⟩ := Nat.exists_eq_succ_of_ne_zero h; rfl

theorem PhiA8_eq (c : Dev nD) :
    (Pipeline.ΦA spec8 c : sProp 𝕄)
      = iprop((((∃ d, owns (c : Thread nD τ) scr8_0 fullShare d) ∗ (∃ d, owns (c : Thread nD τ) scr8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scr8_0, scr8_1, owns_whole]; try rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => View.canon [⟨rS8, k8_pay6 (sum8 V c t.val)⟩]
    | ⟨3, _⟩ => View.canon [⟨rS8, k8_pay7 (sum8 V c t.val) (sq8 V c t.val)⟩]
  Φ t := Phi8 V c t.val
  q _ := fullShare
  owed _ := 0

theorem A_eq8 (c : Dev nD) (w : Fin cfg8.W) : (dat8 V c).A w = V c (Pipeline.arrRef spec8 w) := by
  dsimp only [dat8]

theorem after8_2 (c : Dev nD) (t : Fin cfg8.N) :
    (dat8 V c).after 2 t = View.canon [⟨rS8, k8_pay6 (sum8 V c t.val)⟩] := by dsimp only [dat8]
theorem after8_3 (c : Dev nD) (t : Fin cfg8.N) :
    (dat8 V c).after 3 t = View.canon [⟨rS8, k8_pay7 (sum8 V c t.val) (sq8 V c t.val)⟩] := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem Phi_in8 (c : Dev nD) : Pipeline.ΦA spec8 c ⊢ ((dat8 V c).Φ 0 : sProp 𝕄) := Idealize.SL.BI.Entails.refl _

theorem Phi_out8 (c : Dev nD) : (dat8 V c).Φ (Fin.last cfg8.N) ⊢ (Pipeline.ΦA spec8 c : sProp 𝕄) := by
  rw [show (dat8 V c).Φ (Fin.last cfg8.N) = Phi8 V c cfg8.N from rfl,
    Phi8_pos V c _ (by rw [show cfg8.N = 10 from N_8]; decide), PhiA8_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body8 (c : Dev nD) (t : Fin cfg8.N) :
    iprop(Phi8 V c t.val ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d)))
    ⊢ wp frame (wpE (defs₀ (F := F)) Variants.none c none) Set.univ (bodyAt8 t) (fun _ =>
      iprop(Phi8 V c (t.val + 1) ∗ (dat8 V c).owesAt () t.castSucc
        ∗ owns (c : Thread nD τ) (st8_0 t) fullShare (iblk8 V c 0 t) ∗ owns (c : Thread nD τ) (st8_1 t) fullShare (iblk8 V c 1 t)
        ∗ (dat8 V c).leavesExact 2 t ∗ (dat8 V c).leavesExact 3 t)) := by
  unfold bodyAt8
  simp only [before8_0, before8_1]
  rw [Phi8_pos V c (t.val + 1) (Nat.succ_ne_zero _), Nat.add_sub_cancel]
  unfold Inv8
  have hN : t.val < 10 := lt_of_lt_of_eq t.isLt (show cfg8.N = 10 from N_8)
  by_cases h9 : t.val = 9
  · have hl := (hlast8 t).mpr h9
    have h0 : t.val ≠ 0 := by omega
    rw [leavesExact_live _ 2 t (on8 t hl).1, leavesExact_live _ 3 t (on8 t hl).2, after8_2, after8_3,
      Phi8_pos V c _ h0, sum8_pos V c _ h0, sq8_pos V c _ h0, xAt8_val, bAt8_val]
    iintro ⟨⟨⟨⟨HS0, HS1⟩, HR⟩, Hg⟩, Ho, ⟨%d0, H0⟩, ⟨%d1, H1⟩, ⟨%d2, H2⟩, ⟨%d3, H3⟩⟩
    iapply (run8_last c Set.univ (grid8.coords t) _ _ _ _ _ _ _ _ _ _ _ _ (iblk8 V c 0 t) (iblk8 V c 1 t) _ _ _ _ _
      (fun h => h0 ((hfirst8 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last8 (grid8.coords t) := fun h => h9 ((hlast8 t).mp h)
    rw [Dat.leavesExact_idle _ 2 t (off8 t hl).1.1 (off8 t hl).1.2, Dat.leavesExact_idle _ 3 t (off8 t hl).2.1 (off8 t hl).2.2]
    by_cases h0 : t.val = 0
    · rw [show Phi8 V c t.val = Pipeline.ΦA spec8 c from by rw [h0]; rfl, PhiA8_eq, sum8_zero V c _ h0, sq8_zero V c _ h0, xAt8_val, bAt8_val]
      iintro ⟨⟨⟨⟨HS0, HS1⟩, HR⟩, Hg⟩, Ho, ⟨%d0, H0⟩, ⟨%d1, H1⟩, H2, H3⟩
      iapply (run8_first c Set.univ (grid8.coords t) _ _ _ _ _ _ _ _ _ _ _ _ (iblk8 V c 0 t) (iblk8 V c 1 t) _ ((hfirst8 t).mpr h0) hl)
      iframe H0 H1 HS0 HS1
      iintro ⟨H0, H1, HS0, HS1⟩
      iframe
    · rw [Phi8_pos V c _ h0, sum8_pos V c _ h0, sq8_pos V c _ h0, xAt8_val, bAt8_val]
      iintro ⟨⟨⟨⟨HS0, HS1⟩, HR⟩, Hg⟩, Ho, ⟨%d0, H0⟩, ⟨%d1, H1⟩, H2, H3⟩
      iapply (run8_mid c Set.univ (grid8.coords t) _ _ _ _ _ _ _ _ _ _ _ _ (iblk8 V c 0 t) (iblk8 V c 1 t) _ _ _ _ _
        (fun h => h0 ((hfirst8 t).mp h)) hl (ld_canon_top off00 _ _) (ld_canon_top off00 _ _))
      iframe H0 H1 HS0 HS1
      iintro ⟨H0, H1, HS0, HS1⟩
      iframe

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def shown9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def normed9 (x : Vec F S5000x128 .f32) (b mean var : Vec F S1x128 .f32) : Vec F S5000x128 .f32 :=
  View.canon [⟨all5000x128, k9_pay1 (View.ld x all5000x128) (View.ld b all1x128) (View.ld var all1x128) (View.ld mean all1x128)⟩]

set_option maxHeartbeats 1000000 in
theorem kernel9_runs (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x : Vec F S5000x128 .f32) (b mean var : Vec F S1x128 .f32) (p : Vec F S5000x128 .f32) (hp : p = normed9 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc9_kernel i arg1 harg1 arg2 harg2 arg3 harg3 arg4 harg4 arg5 harg5) K := by
  subst hp
  simp only [cc9_kernel_eq_skeleton]; unfold cc9_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x128 _)

def dat9 (c : Dev nD) : Dat τ (Elt F) Unit ℕ (UR sig nD τ) ℕ cfg9 c where
  A w := V c (Pipeline.arrRef spec9 w)
  after w t := match w with
    | ⟨0, _⟩ => shown9 V c 0 t
    | ⟨1, _⟩ => shown9 V c 1 t
    | ⟨2, _⟩ => shown9 V c 2 t
    | ⟨3, _⟩ => shown9 V c 3 t
    | ⟨4, _⟩ => normed9 (shown9 V c 0 t) (shown9 V c 1 t) (shown9 V c 2 t) (shown9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi_in9 (c : Dev nD) : Pipeline.ΦA spec9 c ⊢ ((dat9 V c).Φ 0 : sProp 𝕄) := .rfl

theorem Phi_out9 (c : Dev nD) : (dat9 V c).Φ (Fin.last cfg9.N) ⊢ (Pipeline.ΦA spec9 c : sProp 𝕄) := .rfl

theorem after9_out (c : Dev nD) (t : Fin cfg9.N) :
    (dat9 V c).after 4 t = normed9 (shown9 V c 0 t) (shown9 V c 1 t) (shown9 V c 2 t) (shown9 V c 3 t) := by dsimp only [dat9]

theorem before9_x (c : Dev nD) (t : Fin cfg9.N) (d) : (dat9 V c).before 0 t d = shown9 V c 0 t :=
  (dat9 V c).before_in_eq_fetched 0 rfl (fun _ => rfl) (fun _ _ _ => rfl) (fun _ => rfl) t d

theorem before9_b (c : Dev nD) (t : Fin cfg9.N) (d) : (dat9 V c).before 1 t d = shown9 V c 1 t :=
  (dat9 V c).before_in_eq_fetched 1 rfl (fun _ => rfl) (fun _ _ _ => rfl) (fun _ => rfl) t d

theorem before9_mean (c : Dev nD) (t : Fin cfg9.N) (d) : (dat9 V c).before 2 t d = shown9 V c 2 t :=
  (dat9 V c).before_in_eq_fetched 2 rfl (fun _ => rfl) (fun _ _ _ => rfl) (fun _ => rfl) t d

theorem before9_var (c : Dev nD) (t : Fin cfg9.N) (d) : (dat9 V c).before 3 t d = shown9 V c 3 t :=
  (dat9 V c).before_in_eq_fetched 3 rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  exact sound_of_triple (e := bodyAt9 t)
    (BI.sep_mono (held_elim _ (before9_x V c t)) (BI.sep_mono (held_elim _ (before9_b V c t)) (BI.sep_mono (held_elim _ (before9_mean V c t)) (BI.sep_mono (held_elim _ (before9_var V c t)) (any_intro _)))))
    (kernel9_runs c _ _ _ _ _ _ _ _ _ _ _ _ _ _ _ _ _ (after9_out V c t))

end Cert.KernelIdeal.Hand

end
-- ==== Proof.KI.R10.lean ====
import proofs.«165280_j63788854280268_1_alg».proof.Proof.KI.R6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rows10 : Rect S5000x128 := Rect.unit (s := S5000x128) ![0, 0] S5000x128.size inb_S5000x128_S5000x128_0_0

abbrev wcol10 : Rect S128x1 := Rect.unit (s := S128x1) ![0, 0] S128x1.size inb_S128x1_S128x1_0_0

abbrev bias10 : Rect S1x1 := Rect.unit (s := S1x1) ![0, 0] S1x1.size inb_S1x1_S1x1_0_0

abbrev gcol10 : Rect S5000x1 := Rect.unit (s := S5000x1) ![0, 0] S5000x1.size inb_S5000x1_S5000x1_0_0

def alpha10 (x0 x1 : Vec F S5000x128 .f32) (x2 x3 : Vec F S128x1 .f32) (x4 : Vec F S1x1 .f32) : Vec F S5000x1 .f32 :=
  View.canon [⟨gcol10, k10_pay3 (View.ld x0 rows10) (View.ld x1 rows10) (View.ld x2 wcol10) (View.ld x3 wcol10) (View.ld x4 bias10)⟩]

def mixed10 (x0 x1 : Vec F S5000x128 .f32) (x2 x3 : Vec F S128x1 .f32) (x4 : Vec F S1x1 .f32) : Vec F S5000x128 .f32 :=
  View.canon [⟨rows10, k10_pay4 (View.ld x0 rows10) (View.ld x1 rows10) (View.ld x2 wcol10) (View.ld x3 wcol10) (View.ld x4 bias10)⟩]

theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S5000x128 .f32) (harg6 : arg6.IsWhole) (arg7 : Memref sig .tc .vmem S5000x1 .f32) (harg7 : arg7.IsWhole)
    (x0 x1 : Vec F S5000x128 .f32) (x2 x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixed10 x0 x1 x2 x3 x4) ∗ owns (c : Thread nD τ) arg7 fullShare (alpha10 x0 x1 x2 x3 x4)) -∗ K ⟨⟩))
      ⊢ wp frame (wpE (defs₀ (F := F)) Variants.none c none) E (cc10_kernel i arg1 harg1 arg2 harg2 arg3 harg3 arg4 harg4 arg5 harg5 arg6 harg6 arg7 harg7) K :=
  sound_kernel6 c E i arg1 harg1 arg2 harg2 arg3 harg3 arg4 harg4 arg5 harg5 arg6 harg6 arg7 harg7 x0 x1 x2 x3 x4 K

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => mixed10 (iblk10 V c 0 t) (iblk10 V c 1 t) (iblk10 V c 2 t) (iblk10 V c 3 t) (iblk10 V c 4 t)
    | ⟨6, _⟩ => alpha10 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem Phi_in10 (c : Dev nD) : Pipeline.ΦA spec10 c ⊢ ((dat10 V c).Φ 0 : sProp 𝕄) := .rfl

theorem Phi_out10 (c : Dev nD) : (dat10 V c).Φ (Fin.last cfg10.N) ⊢ (Pipeline.ΦA spec10 c : sProp 𝕄) := .rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = mixed10 (iblk10 V c 0 t) (iblk10 V c 1 t) (iblk10 V c 2 t) (iblk10 V c 3 t) (iblk10 V c 4 t) := by dsimp only [dat10]
theorem after10_6 (c : Dev nD) (t : Fin cfg10.N) : (dat10 V c).after 6 t = alpha10 (iblk10 V c 0 t) (iblk10 V c 1 t) (iblk10 V c 2 t) (iblk10 V c 3 t) (iblk10 V c 4 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d
theorem before10_3 (c : Dev nD) (t : Fin cfg10.N) (d) : (dat10 V c).before 3 t d = iblk10 V c 3 t :=
  (dat10 V c).before_in_eq_fetched 3 rfl (fun _ => rfl) (fun _ _ _ => rfl) (fun _ => rfl) t d
theorem before10_4 (c : Dev nD) (t : Fin cfg10.N) (d) : (dat10 V c).before 4 t d = iblk10 V c 4 t :=
  (dat10 V c).before_in_eq_fetched 4 rfl (fun _ => rfl) (fun _ _ _ => rfl) (fun _ => rfl) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

def product11 (x : Vec F S5000x128 .f32) (w : Vec F S128x128 .f32) : Vec F S5000x128 .f32 :=
  View.canon [⟨all5000x128, k11_pay1 (View.ld x all5000x128) (View.ld w all128x128)⟩]

set_option maxHeartbeats 1000000 in
theorem kernel_triple11 (c : Dev nD) (E : Set ℕ) (i : grid11.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (p : Vec F S5000x128 .f32) (hp : p = product11 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc11_kernel i arg1 harg1 arg2 harg2 arg3 harg3) K := by
  subst hp
  simp only [cc11_kernel_eq_skeleton]; unfold cc11_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x128 _)

def dat11 (c : Dev nD) : Dat τ (Elt F) Unit ℕ (UR sig nD τ) ℕ cfg11 c where
  A w := V c (Pipeline.arrRef spec11 w)
  after w t := match w with
    | ⟨0, _⟩ => blockAt11 V c 0 t
    | ⟨1, _⟩ => blockAt11 V c 1 t
    | ⟨2, _⟩ => product11 (blockAt11 V c 0 t) (blockAt11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem Phi_in11 (c : Dev nD) : Pipeline.ΦA spec11 c ⊢ ((dat11 V c).Φ 0 : sProp 𝕄) := .rfl

theorem Phi_out11 (c : Dev nD) : (dat11 V c).Φ (Fin.last cfg11.N) ⊢ (Pipeline.ΦA spec11 c : sProp 𝕄) := .rfl

theorem after_prod11 (c : Dev nD) (t : Fin cfg11.N) :
    (dat11 V c).after 2 t = product11 (blockAt11 V c 0 t) (blockAt11 V c 1 t) := by dsimp only [dat11]

theorem lhs_held11 (c : Dev nD) (t : Fin cfg11.N) (d) : (dat11 V c).before 0 t d = blockAt11 V c 0 t :=
  (dat11 V c).before_in_eq_fetched 0 rfl (fun _ => rfl) (fun _ _ _ => rfl) (fun _ => rfl) t d

theorem rhs_held11 (c : Dev nD) (t : Fin cfg11.N) (d) : (dat11 V c).before 1 t d = blockAt11 V c 1 t :=
  (dat11 V c).before_in_eq_fetched 1 rfl (fun _ => rfl) (fun _ _ _ => rfl) (fun _ => rfl) t d

theorem body_obligation11 (c : Dev nD) : BodyObligation (dat11 (F := F) V c) (defs₀ (F := F)) Variants.none () Set.univ := fun t => by
  rw [bigSep_W11, bigSep_W11]
  exact sound_of_triple (e := bodyAt11 t)
    (BI.sep_mono (held_elim _ (lhs_held11 V c t)) (BI.sep_mono (held_elim _ (rhs_held11 V c t)) (any_intro _)))
    (kernel_triple11 c _ _ _ _ _ _ _ _ _ _ _ (after_prod11 V c t))

end Cert.KernelIdeal.Hand

end
-- ==== Proof.KI.R12.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev first12 (i : grid12.Coords) : Prop := (Scalar.cmpi .ne (Scalar.extui (Scalar.cmpi .eq (BitVec.ofNat 32 (i 0).val) 0#32)) 0#32) = 1#1
theorem hfirst12 : ∀ t : Fin cfg12.N, first12 (grid12.coords t) ↔ t.val = 0 :=
  (by decide +kernel : ∀ t : Fin grid12.N, first12 (grid12.coords t) ↔ t.val = 0)
abbrev last12 (i : grid12.Coords) : Prop := k12_cond2 i = 1#1
theorem hlast12 : ∀ t : Fin cfg12.N, last12 (grid12.coords t) ↔ t.val = 9 :=
  (by decide +kernel : ∀ t : Fin grid12.N, last12 (grid12.coords t) ↔ t.val = 9)

theorem off12 : ∀ t : Fin cfg12.N, ¬last12 (grid12.coords t) → (cfg12.idle 2 (grid12.coords t) = true ∧ (cfg12.win 2).flush t = false)
    ∧ cfg12.idle 3 (grid12.coords t) = true ∧ (cfg12.win 3).flush t = false := by decide +kernel
theorem on12 : ∀ t : Fin cfg12.N, last12 (grid12.coords t) → cfg12.idle 2 (grid12.coords t) = false ∧ cfg12.idle 3 (grid12.coords t) = false := by
  decide +kernel

abbrev rX12 : Rect S5000x128 := Rect.unit (s := S5000x128) ![0, 0] S5000x128.size inb_S5000x128_S5000x128_0_0
abbrev rS12 : Rect S1x128 := Rect.unit (s := S1x128) ![0, 0] S1x128.size inb_S1x128_S1x128_0_0

section body
variable (c : Dev nD) (E : Set ℕ) (i : grid12.Coords)
  (arg1 : Memref sig .tc .vmem S5000x128 .f32) (harg1 : arg1.IsWhole) (arg2 : Memref sig .tc .vmem S1x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32) (harg6 : arg6.IsWhole)

set_option maxHeartbeats 1000000 in
theorem run12_first (x : Vec F S5000x128 .f32) (b : Vec F S1x128 .f32) (K : PUnit → sProp 𝕄) (h1 : first12 i) (h2 : ¬last12 i) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (View.canon [⟨rS12, k12_pay4 (View.ld x rX12) (View.ld b rS12) k12_pay1⟩])
            ∗ owns (c : Thread nD τ) arg6 fullShare (View.canon [⟨rS12, k12_pay5 (View.ld x rX12) (View.ld b rS12) k12_pay2⟩])) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f1, %hf1, H1⟩, ⟨%f2, %hf2, H2⟩, ⟨%d5, %f5, -, H5⟩, ⟨%d6, %f6, -, H6⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (read_writes_top off00 _ _ _ _ _).trans ?_
    unfold run12_first.sl.v9 run12_first.sl.H5_1
    rw [View.readCov_cons_toLoadRect]; rfl
  iexists _; isplitr
  swap; · iexact H6
  ipureintro
  refine (read_writes_top off00 _ _ _ _ _).trans ?_
  unfold run12_first.sl.v16 run12_first.sl.H6_1
  rw [View.readCov_cons_toLoadRect]; rfl

-- The rows' loads are named (`a0`, `a1`) so that the triple applies whatever form the rows' contents have.
set_option maxHeartbeats 1000000 in
theorem run12_mid (x : Vec F S5000x128 .f32) (b s0 s1 a0 a1 : Vec F S1x128 .f32) (K : PUnit → sProp 𝕄) (h1 : ¬first12 i) (h2 : ¬last12 i)
    (e0 : View.ld s0 rS12 = a0) (e1 : View.ld s1 rS12 = a1) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (View.canon [⟨rS12, k12_pay4 (View.ld x rX12) (View.ld b rS12) a0⟩])
            ∗ owns (c : Thread nD τ) arg6 fullShare (View.canon [⟨rS12, k12_pay5 (View.ld x rX12) (View.ld b rS12) a1⟩])) -∗ K ⟨⟩))
      ⊢ wp frame (wpE (defs₀ (F := F)) Variants.none c none) E (cc12_kernel i arg1 harg1 arg2 harg2 arg3 harg3 arg4 harg4 arg5 harg5 arg6 harg6) K := by
  subst e0 e1
  simp only [cc12_kernel_eq_skeleton]; unfold cc12_kernel_skel
  unfold owns
  iintro ⟨⟨%f1, %hf1, H1⟩, ⟨%f2, %hf2, H2⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact read_writes_top off00 _ _ _ _ _
  iexists _; isplitr
  swap; · iexact H6
  ipureintro
  exact read_writes_top off00 _ _ _ _ _

set_option maxHeartbeats 1000000 in
theorem run12_last (x : Vec F S5000x128 .f32) (b s0 s1 a0 a1 : Vec F S1x128 .f32) (K : PUnit → sProp 𝕄) (h1 : ¬first12 i) (h2 : last12 i)
    (e0 : View.ld s0 rS12 = a0) (e1 : View.ld s1 rS12 = a1) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (View.canon [⟨rS12, k12_pay6 (k12_pay4 (View.ld x rX12) (View.ld b rS12) a0)⟩])
            ∗ owns (c : Thread nD τ) arg4 fullShare (View.canon [⟨rS12, k12_pay7 (k12_pay4 (View.ld x rX12) (View.ld b rS12) a0) (k12_pay5 (View.ld x rX12) (View.ld b rS12) a1)⟩])
            ∗ owns (c : Thread nD τ) arg5 fullShare (View.canon [⟨rS12, k12_pay4 (View.ld x rX12) (View.ld b rS12) a0⟩])
            ∗ owns (c : Thread nD τ) arg6 fullShare (View.canon [⟨rS12, k12_pay5 (View.ld x rX12) (View.ld b rS12) a1⟩])) -∗ K ⟨⟩))
      ⊢ wp frame (wpE (defs₀ (F := F)) Variants.none c none) E (cc12_kernel i arg1 harg1 arg2 harg2 arg3 harg3 arg4 harg4 arg5 harg5 arg6 harg6) K := by
  subst e0 e1
  simp only [cc12_kernel_eq_skeleton]; unfold cc12_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf1; subst hf2; subst hf5; subst hf6
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_top off00 _ _ _ _ _).trans ?_
    unfold run12_last.sl.v27 run12_last.sl.H5_1
    rw [View.readCov_cons_toLoadRect]; rfl
  isplitl [H4]
  · iexists _; isplitr
    swap; · iexact H4
    ipureintro
    refine (read_writes_top off00 _ _ _ _ _).trans ?_
    unfold run12_last.sl.v27 run12_last.sl.H5_1 run12_last.sl.v30 run12_last.sl.H6_1
    rw [View.readCov_cons_toLoadRect, View.readCov_cons_toLoadRect]; rfl
  isplitl [H5]
  · iexists _; isplitr
    swap; · iexact H5
    ipureintro
    unfold run12_last.sl.H5_1
    exact read_writes_top off00 _ _ _ _ _
  iexists _; isplitr
  swap; · iexact H6
  ipureintro
  unfold run12_last.sl.H6_1
  exact read_writes_top off00 _ _ _ _ _

end body

def pt12 (n : ℕ) : Fin cfg12.N := ⟨n % 10, lt_of_lt_of_eq (Nat.mod_lt n (by decide)) (show cfg12.N = 10 from N_12).symm⟩
theorem pt12_val (t : Fin cfg12.N) : pt12 t.val = t :=
  Fin.ext (Nat.mod_eq_of_lt (lt_of_lt_of_eq t.isLt (show cfg12.N = 10 from N_12)))
def xAt12 (c : Dev nD) (n : ℕ) : Vec F S5000x128 .f32 := iblk12 V c 0 (pt12 n)
def bAt12 (c : Dev nD) (n : ℕ) : Vec F S1x128 .f32 := iblk12 V c 1 (pt12 n)

def sum12 (c : Dev nD) : ℕ → Vec F S1x128 .f32
  | 0 => k12_pay4 (View.ld (xAt12 V c 0) rX12) (View.ld (bAt12 V c 0) rS12) k12_pay1
  | n + 1 => k12_pay4 (View.ld (xAt12 V c (n + 1)) rX12) (View.ld (bAt12 V c (n + 1)) rS12) (sum12 c n)

def sq12 (c : Dev nD) : ℕ → Vec F S1x128 .f32
  | 0 => k12_pay5 (View.ld (xAt12 V c 0) rX12) (View.ld (bAt12 V c 0) rS12) k12_pay2
  | n + 1 => k12_pay5 (View.ld (xAt12 V c (n + 1)) rX12) (View.ld (bAt12 V c (n + 1)) rS12) (sq12 c n)

theorem xAt12_val (c : Dev nD) (t : Fin cfg12.N) : xAt12 V c t.val = iblk12 V c 0 t := by unfold xAt12; rw [pt12_val]
theorem bAt12_val (c : Dev nD) (t : Fin cfg12.N) : bAt12 V c t.val = iblk12 V c 1 t := by unfold bAt12; rw [pt12_val]

theorem sum12_zero (c : Dev nD) (n : ℕ) (h : n = 0) :
    sum12 V c n = k12_pay4 (View.ld (xAt12 V c n) rX12) (View.ld (bAt12 V c n) rS12) k12_pay1 := by subst h; rfl
theorem sum12_pos (c : Dev nD) (n : ℕ) (h : n ≠ 0) :
    sum12 V c n = k12_pay4 (View.ld (xAt12 V c n) rX12) (View.ld (bAt12 V c n) rS12) (sum12 V c (n - 1)) := by
  obtain ⟨n, rfl⟩ := Nat.exists_eq_succ_of_ne_zero h; rfl
theorem sq12_zero (c : Dev nD) (n : ℕ) (h : n = 0) :
    sq12 V c n = k12_pay5 (View.ld (xAt12 V c n) rX12) (View.ld (bAt12 V c n) rS12) k12_pay2 := by subst h; rfl
theorem sq12_pos (c : Dev nD) (n : ℕ) (h : n ≠ 0) :
    sq12 V c n = k12_pay5 (View.ld (xAt12 V c n) rX12) (View.ld (bAt12 V c n) rS12) (sq12 V c (n - 1)) := by
  obtain ⟨n, rfl⟩ := Nat.exists_eq_succ_of_ne_zero h; rfl

abbrev scr12_0 : Memref sig .tc .vmem S1x128 .f32 := Memref.whole cc12_scratch0
abbrev scr12_1 : Memref sig .tc .vmem S1x128 .f32 := Memref.whole cc12_scratch1

-- What the region keeps between points once the two scratch rows hold `a` and `b`.
abbrev Inv12 (c : Dev nD) (a b : Vec F S1x128 .f32) : sProp 𝕄 :=
  iprop(((owns (c : Thread nD τ) scr12_0 fullShare a ∗ owns (c : Thread nD τ) scr12_1 fullShare b)
      ∗ Pipeline.scopedRestBut (Ix := Unit) (Name := ℕ) (U := UR sig nD τ) (Lvl := ℕ) (Val := Elt F) spec12 c [cc12_scratch0, cc12_scratch1])
      ∗ (∃ r, prngReg c r))

def Phi12 (c : Dev nD) : ℕ → sProp 𝕄
  | 0 => Pipeline.ΦA spec12 c
  | n + 1 => Inv12 c (View.canon [⟨rS12, sum12 V c n⟩]) (View.canon [⟨rS12, sq12 V c n⟩])

theorem Phi12_pos (c : Dev nD) (n : ℕ) (h : n ≠ 0) :
    Phi12 V c n = Inv12 c (View.canon [⟨rS12, sum12 V c (n - 1)⟩]) (View.canon [⟨rS12, sq12 V c (n - 1)⟩]) := by
  obtain ⟨n, rfl⟩ := Nat.exists_eq_succ_of_ne_zero h; rfl

theorem PhiA12_eq (c : Dev nD) :
    (Pipeline.ΦA spec12 c : sProp 𝕄)
      = iprop((((∃ d, owns (c : Thread nD τ) scr12_0 fullShare d) ∗ (∃ d, owns (c : Thread nD τ) scr12_1 fullShare d))
          ∗ Pipeline.scopedRestBut (Ix := Unit) (Name := ℕ) (U := UR sig nD τ) (Lvl := ℕ) (Val := Elt F) spec12 c [cc12_scratch0, cc12_scratch1])
          ∗ (∃ r, prngReg c r)) := by
  unfold Pipeline.ΦA; rw [scopedRest12_split]; simp only [scr12_0, scr12_1, owns_whole]; try rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => View.canon [⟨rS12, k12_pay6 (sum12 V c t.val)⟩]
    | ⟨3, _⟩ => View.canon [⟨rS12, k12_pay7 (sum12 V c t.val) (sq12 V c t.val)⟩]
  Φ t := Phi12 V c t.val
  q _ := fullShare
  owed _ := 0

theorem A_eq12 (c : Dev nD) (w : Fin cfg12.W) : (dat12 V c).A w = V c (Pipeline.arrRef spec12 w) := by
  dsimp only [dat12]

theorem after12_2 (c : Dev nD) (t : Fin cfg12.N) :
    (dat12 V c).after 2 t = View.canon [⟨rS12, k12_pay6 (sum12 V c t.val)⟩] := by dsimp only [dat12]
theorem after12_3 (c : Dev nD) (t : Fin cfg12.N) :
    (dat12 V c).after 3 t = View.canon [⟨rS12, k12_pay7 (sum12 V c t.val) (sq12 V c t.val)⟩] := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun _ => rfl) t d).trans rfl
theorem before12_1 (c : Dev nD) (t : Fin cfg12.N) (d) : (dat12 V c).before 1 t d = iblk12 V c 1 t :=
  ((dat12 V c).before_in_eq_fetched 1 rfl (fun _ => rfl) (fun _ _ _ => rfl) (fun _ => rfl) t d).trans rfl

theorem Phi_in12 (c : Dev nD) : Pipeline.ΦA spec12 c ⊢ ((dat12 V c).Φ 0 : sProp 𝕄) := Idealize.SL.BI.Entails.refl _

theorem Phi_out12 (c : Dev nD) : (dat12 V c).Φ (Fin.last cfg12.N) ⊢ (Pipeline.ΦA spec12 c : sProp 𝕄) := by
  rw [show (dat12 V c).Φ (Fin.last cfg12.N) = Phi12 V c cfg12.N from rfl,
    Phi12_pos V c _ (by rw [show cfg12.N = 10 from N_12]; decide), PhiA12_eq]
  iintro ⟨⟨⟨H0, H1⟩, HR⟩, Hg⟩
  iframe HR Hg
  isplitl [H0] <;> iexists _ <;> iassumption

set_option maxHeartbeats 4000000 in
-- The point is the first, a middle one or the last; the invariant lends the body the scratch rows at the sums so far.
theorem sound_body12 (c : Dev nD) (t : Fin cfg12.N) :
    iprop(Phi12 V c t.val ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d))
      ∗ (∃ d, owns (c : Thread nD τ) (st12_3 t) fullShare ((dat12 V c).before 3 t d)))
    ⊢ wp frame (wpE (defs₀ (F := F)) Variants.none c none) Set.univ (bodyAt12 t) (fun _ =>
      iprop(Phi12 V c (t.val + 1) ∗ (dat12 V c).owesAt () t.castSucc
        ∗ owns (c : Thread nD τ) (st12_0 t) fullShare (iblk12 V c 0 t) ∗ owns (c : Thread nD τ) (st12_1 t) fullShare (iblk12 V c 1 t)
        ∗ (dat12 V c).leavesExact 2 t ∗ (dat12 V c).leavesExact 3 t)) := by
  unfold bodyAt12
  simp only [before12_0, before12_1]
  rw [Phi12_pos V c (t.val + 1) (Nat.succ_ne_zero _), Nat.add_sub_cancel]
  unfold Inv12
  have hN : t.val < 10 := lt_of_lt_of_eq t.isLt (show cfg12.N = 10 from N_12)
  by_cases h9 : t.val = 9
  · have hl := (hlast12 t).mpr h9
    have h0 : t.val ≠ 0 := by omega
    rw [leavesExact_live _ 2 t (on12 t hl).1, leavesExact_live _ 3 t (on12 t hl).2, after12_2, after12_3,
      Phi12_pos V c _ h0, sum12_pos V c _ h0, sq12_pos V c _ h0, xAt12_val, bAt12_val]
    iintro ⟨⟨⟨⟨HS0, HS1⟩, HR⟩, Hg⟩, Ho, ⟨%d0, H0⟩, ⟨%d1, H1⟩, ⟨%d2, H2⟩, ⟨%d3, H3⟩⟩
    iapply (run12_last c Set.univ (grid12.coords t) _ _ _ _ _ _ _ _ _ _ _ _ (iblk12 V c 0 t) (iblk12 V c 1 t) _ _ _ _ _
      (fun h => h0 ((hfirst12 t).mp h)) hl (ld_canon_top off00 _ _) (ld_canon_top off00 _ _))
    iframe H0 H1 HS0 HS1
    isplitl [H2]; · iexists _; iexact H2
    isplitl [H3]; · iexists _; iexact H3
    iintro ⟨H0, H1, H2, H3, HS0, HS1⟩
    iframe
  · have hl : ¬last12 (grid12.coords t) := fun h => h9 ((hlast12 t).mp h)
    rw [Dat.leavesExact_idle _ 2 t (off12 t hl).1.1 (off12 t hl).1.2, Dat.leavesExact_idle _ 3 t (off12 t hl).2.1 (off12 t hl).2.2]
    by_cases h0 : t.val = 0
    · rw [show Phi12 V c t.val = Pipeline.ΦA spec12 c from by rw [h0]; rfl, PhiA12_eq, sum12_zero V c _ h0, sq12_zero V c _ h0, xAt12_val, bAt12_val]
      iintro ⟨⟨⟨⟨HS0, HS1⟩, HR⟩, Hg⟩, Ho, ⟨%d0, H0⟩, ⟨%d1, H1⟩, H2, H3⟩
      iapply (run12_first c Set.univ (grid12.coords t) _ _ _ _ _ _ _ _ _ _ _ _ (iblk12 V c 0 t) (iblk12 V c 1 t) _ ((hfirst12 t).mpr h0) hl)
      iframe H0 H1 HS0 HS1
      iintro ⟨H0, H1, HS0, HS1⟩
      iframe
    · rw [Phi12_pos V c _ h0, sum12_pos V c _ h0, sq12_pos V c _ h0, xAt12_val, bAt12_val]
      iintro ⟨⟨⟨⟨HS0, HS1⟩, HR⟩, Hg⟩, Ho, ⟨%d0, H0⟩, ⟨%d1, H1⟩, H2, H3⟩
      iapply (run12_mid c Set.univ (grid12.coords t) _ _ _ _ _ _ _ _ _ _ _ _ (iblk12 V c 0 t) (iblk12 V c 1 t) _ _ _ _ _
        (fun h => h0 ((hfirst12 t).mp h)) hl (ld_canon_top off00 _ _) (ld_canon_top off00 _ _))
      iframe H0 H1 HS0 HS1
      iintro ⟨H0, H1, HS0, HS1⟩
      iframe

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.R13.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def shown13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def normed13 (x : Vec F S5000x128 .f32) (b mean var : Vec F S1x128 .f32) : Vec F S5000x128 .f32 :=
  View.canon [⟨all5000x128, k13_pay1 (View.ld x all5000x128) (View.ld b all1x128) (View.ld var all1x128) (View.ld mean all1x128)⟩]

set_option maxHeartbeats 1000000 in
theorem kernel13_runs (c : Dev nD) (E : Set ℕ) (i : grid13.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x : Vec F S5000x128 .f32) (b mean var : Vec F S1x128 .f32) (p : Vec F S5000x128 .f32) (hp : p = normed13 x b mean var) (K : PUnit → sProp 𝕄) :
    iprop((owns (c : Thread nD τ) arg1 fullShare x ∗ owns (c : Thread nD τ) arg2 fullShare b ∗ owns (c : Thread nD τ) arg3 fullShare mean
        ∗ owns (c : Thread nD τ) arg4 fullShare var ∗ (∃ d, owns (c : Thread nD τ) arg5 fullShare d))
        ∗ (iprop(owns (c : Thread nD τ) arg1 fullShare x ∗ owns (c : Thread nD τ) arg2 fullShare b ∗ owns (c : Thread nD τ) arg3 fullShare mean
            ∗ owns (c : Thread nD τ) arg4 fullShare var ∗ owns (c : Thread nD τ) arg5 fullShare p) -∗ K ⟨⟩))
      ⊢ wp frame (wpE (defs₀ (F := F)) Variants.none c none) E (cc13_kernel i arg1 harg1 arg2 harg2 arg3 harg3 arg4 harg4 arg5 harg5) K := by
  subst hp
  simp only [cc13_kernel_eq_skeleton]; unfold cc13_kernel_skel
  unfold owns
  iintro ⟨⟨⟨%fx, %hfx, Hx⟩, ⟨%fb, %hfb, Hb⟩, ⟨%fm, %hfm, Hm⟩, ⟨%fv, %hfv, Hv⟩, ⟨%d, %fo, -, Ho⟩⟩, Hk⟩
  subst hfx hfb hfm hfv
  sl_exec
  sl_step
  iapply Hk
  isplitl [Hx]
  · iexists fx; isplitr; · ipureintro; rfl
    iexact Hx
  isplitl [Hb]
  · iexists fb; isplitr; · ipureintro; rfl
    iexact Hb
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers5000x128 _)

def dat13 (c : Dev nD) : Dat τ (Elt F) Unit ℕ (UR sig nD τ) ℕ cfg13 c where
  A w := V c (Pipeline.arrRef spec13 w)
  after w t := match w with
    | ⟨0, _⟩ => shown13 V c 0 t
    | ⟨1, _⟩ => shown13 V c 1 t
    | ⟨2, _⟩ => shown13 V c 2 t
    | ⟨3, _⟩ => shown13 V c 3 t
    | ⟨4, _⟩ => normed13 (shown13 V c 0 t) (shown13 V c 1 t) (shown13 V c 2 t) (shown13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem Phi_in13 (c : Dev nD) : Pipeline.ΦA spec13 c ⊢ ((dat13 V c).Φ 0 : sProp 𝕄) := .rfl

theorem Phi_out13 (c : Dev nD) : (dat13 V c).Φ (Fin.last cfg13.N) ⊢ (Pipeline.ΦA spec13 c : sProp 𝕄) := .rfl

theorem after13_out (c : Dev nD) (t : Fin cfg13.N) :
    (dat13 V c).after 4 t = normed13 (shown13 V c 0 t) (shown13 V c 1 t) (shown13 V c 2 t) (shown13 V c 3 t) := by dsimp only [dat13]

theorem before13_x (c : Dev nD) (t : Fin cfg13.N) (d) : (dat13 V c).before 0 t d = shown13 V c 0 t :=
  (dat13 V c).before_in_eq_fetched 0 rfl (fun _ => rfl) (fun _ _ _ => rfl) (fun _ => rfl) t d

theorem before13_b (c : Dev nD) (t : Fin cfg13.N) (d) : (dat13 V c).before 1 t d = shown13 V c 1 t :=
  (dat13 V c).before_in_eq_fetched 1 rfl (fun _ => rfl) (fun _ _ _ => rfl) (fun _ => rfl) t d

theorem before13_mean (c : Dev nD) (t : Fin cfg13.N) (d) : (dat13 V c).before 2 t d = shown13 V c 2 t :=
  (dat13 V c).before_in_eq_fetched 2 rfl (fun _ => rfl) (fun _ _ _ => rfl) (fun _ => rfl) t d

theorem before13_var (c : Dev nD) (t : Fin cfg13.N) (d) : (dat13 V c).before 3 t d = shown13 V c 3 t :=
  (dat13 V c).before_in_eq_fetched 3 rfl (fun _ => rfl) (fun _ _ _ => rfl) (fun _ => rfl) t d

theorem body_obligation13 (c : Dev nD) : BodyObligation (dat13 (F := F) V c) (defs₀ (F := F)) Variants.none () Set.univ := fun t => by
  rw [bigSep_W13, bigSep_W13]
  exact sound_of_triple (e := bodyAt13 t)
    (BI.sep_mono (held_elim _ (before13_x V c t)) (BI.sep_mono (held_elim _ (before13_b V c t)) (BI.sep_mono (held_elim _ (before13_mean V c t)) (BI.sep_mono (held_elim _ (before13_var V c t)) (any_intro _)))))
    (kernel13_runs c _ _ _ _ _ _ _ _ _ _ _ _ _ _ _ _ _ (after13_out V c t))

end Cert.KernelIdeal.Hand

end
-- ==== Proof.KI.R14.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt14 (c : Dev nD) (w : Fin cfg14.W) (t : Fin cfg14.N) :
    ((cfg14.win w).xblock (cfg14.grid.coords t)).Idx → Elt F (cfg14.win w).elt :=
  ((cfg14.win w).blk t).view.read (Elt F) (V c (Pipeline.arrRef spec14 w))

def gated14 (x inp : Vec F S5000x128 .f32) (a : Vec F S5000x1 .f32) : Vec F S5000x128 .f32 :=
  View.canon [⟨all5000x128, k14_pay1 (View.ld a all5000x1) (View.ld x all5000x128) (View.ld inp all5000x128)⟩]

set_option maxHeartbeats 1000000 in
theorem sound_kernel14 (c : Dev nD) (E : Set ℕ) (i : grid14.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S5000x128 .f32) (harg4 : arg4.IsWhole)
    (x inp : Vec F S5000x128 .f32) (a : Vec F S5000x1 .f32) (p : Vec F S5000x128 .f32) (hp : p = gated14 x inp a) (K : PUnit → sProp 𝕄) :
    iprop((owns (c : Thread nD τ) arg1 fullShare x ∗ owns (c : Thread nD τ) arg2 fullShare inp
        ∗ owns (c : Thread nD τ) arg3 fullShare a ∗ (∃ d, owns (c : Thread nD τ) arg4 fullShare d))
        ∗ (iprop(owns (c : Thread nD τ) arg1 fullShare x ∗ owns (c : Thread nD τ) arg2 fullShare inp
            ∗ owns (c : Thread nD τ) arg3 fullShare a
            ∗ owns (c : Thread nD τ) arg4 fullShare p) -∗ K ⟨⟩))
      ⊢ wp frame (wpE (defs₀ (F := F)) Variants.none c none) E
          (cc14_kernel i arg1 harg1 arg2 harg2 arg3 harg3 arg4 harg4) K := by
  subst hp
  simp only [cc14_kernel_eq_skeleton]; unfold cc14_kernel_skel
  unfold owns
  iintro ⟨⟨⟨%f1, %hf1, H1⟩, ⟨%f2, %hf2, H2⟩, ⟨%f3, %hf3, H3⟩, ⟨%d4, %f4, -, H4⟩⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5000x128 _)

def dat14 (c : Dev nD) : Dat τ (Elt F) Unit ℕ (UR sig nD τ) ℕ cfg14 c where
  A w := V c (Pipeline.arrRef spec14 w)
  after w t := match w with
    | ⟨0, _⟩ => blockAt14 V c 0 t
    | ⟨1, _⟩ => blockAt14 V c 1 t
    | ⟨2, _⟩ => blockAt14 V c 2 t
    | ⟨3, _⟩ => gated14 (blockAt14 V c 0 t) (blockAt14 V c 1 t) (blockAt14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem Phi_in14 (c : Dev nD) : Pipeline.ΦA spec14 c ⊢ ((dat14 V c).Φ 0 : sProp 𝕄) := .rfl

theorem Phi_out14 (c : Dev nD) : (dat14 V c).Φ (Fin.last cfg14.N) ⊢ (Pipeline.ΦA spec14 c : sProp 𝕄) := .rfl

theorem after14_out (c : Dev nD) (t : Fin cfg14.N) :
    (dat14 V c).after 3 t = gated14 (blockAt14 V c 0 t) (blockAt14 V c 1 t) (blockAt14 V c 2 t) := by dsimp only [dat14]

theorem before14_x (c : Dev nD) (t : Fin cfg14.N) (d) : (dat14 V c).before 0 t d = blockAt14 V c 0 t :=
  (dat14 V c).before_in_eq_fetched 0 rfl (fun _ => rfl) (fun _ _ _ => rfl) (fun _ => rfl) t d

theorem before14_inp (c : Dev nD) (t : Fin cfg14.N) (d) : (dat14 V c).before 1 t d = blockAt14 V c 1 t :=
  (dat14 V c).before_in_eq_fetched 1 rfl (fun _ => rfl) (fun _ _ _ => rfl) (fun _ => rfl) t d

theorem before14_gate (c : Dev nD) (t : Fin cfg14.N) (d) : (dat14 V c).before 2 t d = blockAt14 V c 2 t :=
  (dat14 V c).before_in_eq_fetched 2 rfl (fun _ => rfl) (fun _ _ _ => rfl) (fun _ => rfl) t d

theorem body_obligation14 (c : Dev nD) : BodyObligation (dat14 (F := F) V c) (defs₀ (F := F)) Variants.none () Set.univ := fun t => by
  rw [bigSep_W14, bigSep_W14]
  exact sound_of_triple (e := bodyAt14 t)
    (BI.sep_mono (held_elim _ (before14_x V c t)) (BI.sep_mono (held_elim _ (before14_inp V c t)) (BI.sep_mono (held_elim _ (before14_gate V c t)) (any_intro _))))
    (sound_kernel14 c _ _ _ _ _ _ _ _ _ _ _ _ _ _ (after14_out V c t))

end Cert.KernelIdeal.Hand

end
-- ==== Proof.KI.R15.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blockAt15 (c : Dev nD) (w : Fin cfg15.W) (t : Fin cfg15.N) :
    ((cfg15.win w).xblock (cfg15.grid.coords t)).Idx → Elt F (cfg15.win w).elt :=
  ((cfg15.win w).blk t).view.read (Elt F) (V c (Pipeline.arrRef spec15 w))

def product15 (x : Vec F S5000x128 .f32) (w : Vec F S128x64 .f32) : Vec F S5000x64 .f32 :=
  View.canon [⟨all5000x64, k15_pay1 (View.ld x all5000x128) (View.ld w all128x64)⟩]

set_option maxHeartbeats 1000000 in
theorem kernel_triple15 (c : Dev nD) (E : Set ℕ) (i : grid15.Coords)
    (arg1 : Memref sig .tc .vmem S5000x128 .f32) (harg1 : arg1.IsWhole)
    (arg2 : Memref sig .tc .vmem S128x64 .f32) (harg2 : arg2.IsWhole)
    (arg3 : Memref sig .tc .vmem S5000x64 .f32) (harg3 : arg3.IsWhole)
    (x : Vec F S5000x128 .f32) (w : Vec F S128x64 .f32) (p : Vec F S5000x64 .f32) (hp : p = product15 x w) (K : PUnit → sProp 𝕄) :
    iprop((owns (c : Thread nD τ) arg1 fullShare x ∗ owns (c : Thread nD τ) arg2 fullShare w
        ∗ (∃ d, owns (c : Thread nD τ) arg3 fullShare d))
        ∗ (iprop(owns (c : Thread nD τ) arg1 fullShare x ∗ owns (c : Thread nD τ) arg2 fullShare w
            ∗ owns (c : Thread nD τ) arg3 fullShare p) -∗ K ⟨⟩))
      ⊢ wp frame (wpE (defs₀ (F := F)) Variants.none c none) E (cc15_kernel i arg1 harg1 arg2 harg2 arg3 harg3) K := by
  subst hp
  simp only [cc15_kernel_eq_skeleton]; unfold cc15_kernel_skel
  unfold owns
  iintro ⟨⟨⟨%f1, %hf1, H1⟩, ⟨%f2, %hf2, H2⟩, ⟨%d3, %f3, -, H3⟩⟩, Hk⟩
  subst hf1 hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (covers5000x64 _)

def dat15 (c : Dev nD) : Dat τ (Elt F) Unit ℕ (UR sig nD τ) ℕ cfg15 c where
  A w := V c (Pipeline.arrRef spec15 w)
  after w t := match w with
    | ⟨0, _⟩ => blockAt15 V c 0 t
    | ⟨1, _⟩ => blockAt15 V c 1 t
    | ⟨2, _⟩ => product15 (blockAt15 V c 0 t) (blockAt15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem Phi_in15 (c : Dev nD) : Pipeline.ΦA spec15 c ⊢ ((dat15 V c).Φ 0 : sProp 𝕄) := .rfl

theorem Phi_out15 (c : Dev nD) : (dat15 V c).Φ (Fin.last cfg15.N) ⊢ (Pipeline.ΦA spec15 c : sProp 𝕄) := .rfl

theorem after_prod15 (c : Dev nD) (t : Fin cfg15.N) :
    (dat15 V c).after 2 t = product15 (blockAt15 V c 0 t) (blockAt15 V c 1 t) := by dsimp only [dat15]

theorem lhs_held15 (c : Dev nD) (t : Fin cfg15.N) (d) : (dat15 V c).before 0 t d = blockAt15 V c 0 t :=
  (dat15 V c).before_in_eq_fetched 0 rfl (fun _ => rfl) (fun _ _ _ => rfl) (fun _ => rfl) t d

theorem rhs_held15 (c : Dev nD) (t : Fin cfg15.N) (d) : (dat15 V c).before 1 t d = blockAt15 V c 1 t :=
  (dat15 V c).before_in_eq_fetched 1 rfl (fun _ => rfl) (fun _ _ _ => rfl) (fun _ => rfl) t d

theorem body_obligation15 (c : Dev nD) : BodyObligation (dat15 (F := F) V c) (defs₀ (F := F)) Variants.none () Set.univ := fun t => by
  rw [bigSep_W15, bigSep_W15]
  exact sound_of_triple (e := bodyAt15 t)
    (BI.sep_mono (held_elim _ (lhs_held15 V c t)) (BI.sep_mono (held_elim _ (rhs_held15 V c t)) (any_intro _)))
    (kernel_triple15 c _ _ _ _ _ _ _ _ _ _ _ (after_prod15 V c t))

end Cert.KernelIdeal.Hand

end
-- ==== Proof.KI.R16.lean ====
import proofs.«165280_j63788854280268_1_alg».proof.Proof.KI.BodyCommon

set_option maxRecDepth 16384

noncomputable section
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

def logSoftmaxOut16 (x : Vec F S5000x64 .f32) (b : Vec F S1x64 .f32) : Vec F S5000x64 .f32 :=
  View.canon [⟨all5000x64, k16_pay1 (View.ld x all5000x64) (View.ld b all1x64)⟩]

set_option maxHeartbeats 1000000 in
theorem sound_kernel16 (c : Dev nD) (E : Set ℕ) (i : grid16.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x : Vec F S5000x64 .f32) (b : Vec F S1x64 .f32) (p : Vec F S5000x64 .f32) (hp : p = logSoftmaxOut16 x b) (K : PUnit → sProp 𝕄) :
    iprop((owns (c : Thread nD τ) arg1 fullShare x ∗ owns (c : Thread nD τ) arg2 fullShare b ∗ (∃ d, owns (c : Thread nD τ) arg3 fullShare d))
        ∗ (iprop(owns (c : Thread nD τ) arg1 fullShare x ∗ owns (c : Thread nD τ) arg2 fullShare b ∗ owns (c : Thread nD τ) arg3 fullShare p) -∗ K ⟨⟩))
      ⊢ wp frame (wpE (defs₀ (F := F)) Variants.none c none) E (cc16_kernel i arg1 harg1 arg2 harg2 arg3 harg3) K := by
  subst hp
  simp only [cc16_kernel_eq_skeleton]; unfold cc16_kernel_skel
  unfold owns
  iintro ⟨⟨⟨%f0, %hf0, H0⟩, ⟨%f1, %hf1, H1⟩, ⟨%d2, %f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers5000x64 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => logSoftmaxOut16 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem Phi_in16 (c : Dev nD) : Pipeline.ΦA spec16 c ⊢ ((dat16 V c).Φ 0 : sProp 𝕄) := .rfl

theorem Phi_out16 (c : Dev nD) : (dat16 V c).Φ (Fin.last cfg16.N) ⊢ (Pipeline.ΦA spec16 c : sProp 𝕄) := .rfl

theorem after16_2 (c : Dev nD) (t : Fin cfg16.N) : (dat16 V c).after 2 t = logSoftmaxOut16 (iblk16 V c 0 t) (iblk16 V c 1 t) := by dsimp only [dat16]

theorem before16_0 (c : Dev nD) (t : Fin cfg16.N) (d) : (dat16 V c).before 0 t d = iblk16 V c 0 t :=
  (dat16 V c).before_in_eq_fetched 0 rfl (fun _ => rfl) (fun _ _ _ => rfl) (fun _ => rfl) t d

theorem before16_1 (c : Dev nD) (t : Fin cfg16.N) (d) : (dat16 V c).before 1 t d = iblk16 V c 1 t :=
  (dat16 V c).before_in_eq_fetched 1 rfl (fun _ => rfl) (fun _ _ _ => rfl) (fun _ => rfl) t d

theorem body_obligation16 (c : Dev nD) : BodyObligation (dat16 (F := F) V c) (defs₀ (F := F)) Variants.none () Set.univ := fun t => by
  rw [bigSep_W16, bigSep_W16]
  exact sound_of_triple (e := bodyAt16 t)
    (BI.sep_mono (held_elim _ (before16_0 V c t)) (BI.sep_mono (held_elim _ (before16_1 V c t)) (any_intro _)))
    (sound_kernel16 c _ _ _ _ _ _ _ _ _ _ _ (after16_2 V c t))

end Cert.KernelIdeal.Hand

end
-- ==== Proof.KI.Chain.lean ====
import proofs.«165280_j63788854280268_1_alg».proof.Proof.KI.R0
import proofs.«165280_j63788854280268_1_alg».proof.Proof.KI.R1
import proofs.«165280_j63788854280268_1_alg».proof.Proof.KI.R2
import proofs.«165280_j63788854280268_1_alg».proof.Proof.KI.R3
import proofs.«165280_j63788854280268_1_alg».proof.Proof.KI.R4
import proofs.«165280_j63788854280268_1_alg».proof.Proof.KI.R5
import proofs.«165280_j63788854280268_1_alg».proof.Proof.KI.R6
import proofs.«165280_j63788854280268_1_alg».proof.Proof.KI.R7
import proofs.«165280_j63788854280268_1_alg».proof.Proof.KI.R8
import proofs.«165280_j63788854280268_1_alg».proof.Proof.KI.R9
import proofs.«165280_j63788854280268_1_alg».proof.Proof.KI.R10
import proofs.«165280_j63788854280268_1_alg».proof.Proof.KI.R11
import proofs.«165280_j63788854280268_1_alg».proof.Proof.KI.R12
import proofs.«165280_j63788854280268_1_alg».proof.Proof.KI.R13
import proofs.«165280_j63788854280268_1_alg».proof.Proof.KI.R14
import proofs.«165280_j63788854280268_1_alg».proof.Proof.KI.R15
import proofs.«165280_j63788854280268_1_alg».proof.Proof.KI.R16
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
def B2 (c : Dev nD) : Valuation τ sig (Elt F) :=
  Pipeline.withArrays spec0 c (B1 m ρ c) fun w => (dat0 (T1 m ρ) c).arrAt w cfg0.N
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (T3 m ρ) c).arrAt w cfg1.N
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
def B5 (c : Dev nD) : Valuation τ sig (Elt F) :=
  Pipeline.withArrays spec2 c (B4 m ρ c) fun w => (dat2 (T4 m ρ) c).arrAt w cfg2.N
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
abbrev T5 : (c : Dev nD) → (b : Ref sig .tc) → Buf (Elt F) ((c : Thread nD τ).loc b) := fun c b => B5 m ρ c b
theorem B5_arr (c : Dev nD) (w : Fin cfg2.W) :
    B5 m ρ c (Proc.devRef .tc (Pipeline.arrRef spec2 w)) = (dat2 (T4 m ρ) c).arrAt w cfg2.N := by
  unfold B5; exact Pipeline.withArrays_arr spec2 launch2.win.arr_inj c _ _ w
abbrev B6 : Dev nD → Valuation τ sig (Elt F) := fun c => StableHlo.after hostOps3 (B5 m ρ c)
abbrev T6 : (c : Dev nD) → (b : Ref sig .tc) → Buf (Elt F) ((c : Thread nD τ).loc b) := fun c b => B6 m ρ c b
def B7 (c : Dev nD) : Valuation τ sig (Elt F) :=
  Pipeline.withArrays spec3 c (B6 m ρ c) fun w => (dat3 (T6 m ρ) c).arrAt w cfg3.N
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb
abbrev T7 : (c : Dev nD) → (b : Ref sig .tc) → Buf (Elt F) ((c : Thread nD τ).loc b) := fun c b => B7 m ρ c b
theorem B7_arr (c : Dev nD) (w : Fin cfg3.W) :
    B7 m ρ c (Proc.devRef .tc (Pipeline.arrRef spec3 w)) = (dat3 (T6 m ρ) c).arrAt w cfg3.N := by
  unfold B7; exact Pipeline.withArrays_arr spec3 launch3.win.arr_inj c _ _ w
abbrev B8 : Dev nD → Valuation τ sig (Elt F) := fun c => StableHlo.after hostOps4 (B7 m ρ c)
abbrev T8 : (c : Dev nD) → (b : Ref sig .tc) → Buf (Elt F) ((c : Thread nD τ).loc b) := fun c b => B8 m ρ c b
def B9 (c : Dev nD) : Valuation τ sig (Elt F) :=
  Pipeline.withArrays spec4 c (B8 m ρ c) fun w => (dat4 (T8 m ρ) c).arrAt w cfg4.N
theorem B9_of_ne (c : Dev nD) (b : Ref sig .tc) (hb : ∀ w, Pipeline.arrRef spec4 w ≠ b) :
    B9 m ρ c (Proc.devRef .tc b) = B8 m ρ c (Proc.devRef .tc b) := by
  unfold B9; exact Pipeline.withArrays_of_ne spec4 c _ _ b hb
abbrev T9 : (c : Dev nD) → (b : Ref sig .tc) → Buf (Elt F) ((c : Thread nD τ).loc b) := fun c b => B9 m ρ c b
theorem B9_arr (c : Dev nD) (w : Fin cfg4.W) :
    B9 m ρ c (Proc.devRef .tc (Pipeline.arrRef spec4 w)) = (dat4 (T8 m ρ) c).arrAt w cfg4.N := by
  unfold B9; exact Pipeline.withArrays_arr spec4 launch4.win.arr_inj c _ _ w
def B10 (c : Dev nD) : Valuation τ sig (Elt F) :=
  Pipeline.withArrays spec5 c (B9 m ρ c) fun w => (dat5 (T9 m ρ) c).arrAt w cfg5.N
theorem B10_of_ne (c : Dev nD) (b : Ref sig .tc) (hb : ∀ w, Pipeline.arrRef spec5 w ≠ b) :
    B10 m ρ c (Proc.devRef .tc b) = B9 m ρ c (Proc.devRef .tc b) := by
  unfold B10; exact Pipeline.withArrays_of_ne spec5 c _ _ b hb
abbrev T10 : (c : Dev nD) → (b : Ref sig .tc) → Buf (Elt F) ((c : Thread nD τ).loc b) := fun c b => B10 m ρ c b
theorem B10_arr (c : Dev nD) (w : Fin cfg5.W) :
    B10 m ρ c (Proc.devRef .tc (Pipeline.arrRef spec5 w)) = (dat5 (T9 m ρ) c).arrAt w cfg5.N := by
  unfold B10; exact Pipeline.withArrays_arr spec5 launch5.win.arr_inj c _ _ w
abbrev B11 : Dev nD → Valuation τ sig (Elt F) := fun c => StableHlo.after hostOps6 (B10 m ρ c)
abbrev T11 : (c : Dev nD) → (b : Ref sig .tc) → Buf (Elt F) ((c : Thread nD τ).loc b) := fun c b => B11 m ρ c b
def B12 (c : Dev nD) : Valuation τ sig (Elt F) :=
  Pipeline.withArrays spec6 c (B11 m ρ c) fun w => (dat6 (T11 m ρ) c).arrAt w cfg6.N
theorem B12_of_ne (c : Dev nD) (b : Ref sig .tc) (hb : ∀ w, Pipeline.arrRef spec6 w ≠ b) :
    B12 m ρ c (Proc.devRef .tc b) = B11 m ρ c (Proc.devRef .tc b) := by
  unfold B12; exact Pipeline.withArrays_of_ne spec6 c _ _ b hb
abbrev T12 : (c : Dev nD) → (b : Ref sig .tc) → Buf (Elt F) ((c : Thread nD τ).loc b) := fun c b => B12 m ρ c b
theorem hrest6 (c : Dev nD) : ∀ b, b ∉ Finset.univ.image (Pipeline.arrRef spec6) → T12 m ρ c b = T11 m ρ c b :=
  fun b hb => B12_of_ne m ρ c b fun w e => hb (Finset.mem_image.mpr ⟨w, Finset.mem_univ _, e⟩)
abbrev B13 : Dev nD → Valuation τ sig (Elt F) := fun c => StableHlo.after hostOps7 (B12 m ρ c)
abbrev T13 : (c : Dev nD) → (b : Ref sig .tc) → Buf (Elt F) ((c : Thread nD τ).loc b) := fun c b => B13 m ρ c b
def B14 (c : Dev nD) : Valuation τ sig (Elt F) :=
  Pipeline.withArrays spec7 c (B13 m ρ c) fun w => (dat7 (T13 m ρ) c).arrAt w cfg7.N
theorem B14_of_ne (c : Dev nD) (b : Ref sig .tc) (hb : ∀ w, Pipeline.arrRef spec7 w ≠ b) :
    B14 m ρ c (Proc.devRef .tc b) = B13 m ρ c (Proc.devRef .tc b) := by
  unfold B14; exact Pipeline.withArrays_of_ne spec7 c _ _ b hb
abbrev T14 : (c : Dev nD) → (b : Ref sig .tc) → Buf (Elt F) ((c : Thread nD τ).loc b) := fun c b => B14 m ρ c b
theorem B14_arr (c : Dev nD) (w : Fin cfg7.W) :
    B14 m ρ c (Proc.devRef .tc (Pipeline.arrRef spec7 w)) = (dat7 (T13 m ρ) c).arrAt w cfg7.N := by
  unfold B14; exact Pipeline.withArrays_arr spec7 launch7.win.arr_inj c _ _ w
abbrev B15 : Dev nD → Valuation τ sig (Elt F) := fun c => StableHlo.after hostOps8 (B14 m ρ c)
abbrev T15 : (c : Dev nD) → (b : Ref sig .tc) → Buf (Elt F) ((c : Thread nD τ).loc b) := fun c b => B15 m ρ c b
def B16 (c : Dev nD) : Valuation τ sig (Elt F) :=
  Pipeline.withArrays spec8 c (B15 m ρ c) fun w => (dat8 (T15 m ρ) c).arrAt w cfg8.N
theorem B16_of_ne (c : Dev nD) (b : Ref sig .tc) (hb : ∀ w, Pipeline.arrRef spec8 w ≠ b) :
    B16 m ρ c (Proc.devRef .tc b) = B15 m ρ c (Proc.devRef .tc b) := by
  unfold B16; exact Pipeline.withArrays_of_ne spec8 c _ _ b hb
abbrev T16 : (c : Dev nD) → (b : Ref sig .tc) → Buf (Elt F) ((c : Thread nD τ).loc b) := fun c b => B16 m ρ c b
theorem B16_arr (c : Dev nD) (w : Fin cfg8.W) :
    B16 m ρ c (Proc.devRef .tc (Pipeline.arrRef spec8 w)) = (dat8 (T15 m ρ) c).arrAt w cfg8.N := by
  unfold B16; exact Pipeline.withArrays_arr spec8 launch8.win.arr_inj c _ _ w
def B17 (c : Dev nD) : Valuation τ sig (Elt F) :=
  Pipeline.withArrays spec9 c (B16 m ρ c) fun w => (dat9 (T16 m ρ) c).arrAt w cfg9.N
theorem B17_of_ne (c : Dev nD) (b : Ref sig .tc) (hb : ∀ w, Pipeline.arrRef spec9 w ≠ b) :
    B17 m ρ c (Proc.devRef .tc b) = B16 m ρ c (Proc.devRef .tc b) := by
  unfold B17; exact Pipeline.withArrays_of_ne spec9 c _ _ b hb
abbrev T17 : (c : Dev nD) → (b : Ref sig .tc) → Buf (Elt F) ((c : Thread nD τ).loc b) := fun c b => B17 m ρ c b
theorem B17_arr (c : Dev nD) (w : Fin cfg9.W) :
    B17 m ρ c (Proc.devRef .tc (Pipeline.arrRef spec9 w)) = (dat9 (T16 m ρ) c).arrAt w cfg9.N := by
  unfold B17; exact Pipeline.withArrays_arr spec9 launch9.win.arr_inj c _ _ w
abbrev B18 : Dev nD → Valuation τ sig (Elt F) := fun c => StableHlo.after hostOps10 (B17 m ρ c)
abbrev T18 : (c : Dev nD) → (b : Ref sig .tc) → Buf (Elt F) ((c : Thread nD τ).loc b) := fun c b => B18 m ρ c b
def B19 (c : Dev nD) : Valuation τ sig (Elt F) :=
  Pipeline.withArrays spec10 c (B18 m ρ c) fun w => (dat10 (T18 m ρ) c).arrAt w cfg10.N
theorem B19_of_ne (c : Dev nD) (b : Ref sig .tc) (hb : ∀ w, Pipeline.arrRef spec10 w ≠ b) :
    B19 m ρ c (Proc.devRef .tc b) = B18 m ρ c (Proc.devRef .tc b) := by
  unfold B19; exact Pipeline.withArrays_of_ne spec10 c _ _ b hb
abbrev T19 : (c : Dev nD) → (b : Ref sig .tc) → Buf (Elt F) ((c : Thread nD τ).loc b) := fun c b => B19 m ρ c b
theorem B19_arr (c : Dev nD) (w : Fin cfg10.W) :
    B19 m ρ c (Proc.devRef .tc (Pipeline.arrRef spec10 w)) = (dat10 (T18 m ρ) c).arrAt w cfg10.N := by
  unfold B19; exact Pipeline.withArrays_arr spec10 launch10.win.arr_inj c _ _ w
abbrev B20 : Dev nD → Valuation τ sig (Elt F) := fun c => StableHlo.after hostOps11 (B19 m ρ c)
abbrev T20 : (c : Dev nD) → (b : Ref sig .tc) → Buf (Elt F) ((c : Thread nD τ).loc b) := fun c b => B20 m ρ c b
def B21 (c : Dev nD) : Valuation τ sig (Elt F) :=
  Pipeline.withArrays spec11 c (B20 m ρ c) fun w => (dat11 (T20 m ρ) c).arrAt w cfg11.N
theorem B21_of_ne (c : Dev nD) (b : Ref sig .tc) (hb : ∀ w, Pipeline.arrRef spec11 w ≠ b) :
    B21 m ρ c (Proc.devRef .tc b) = B20 m ρ c (Proc.devRef .tc b) := by
  unfold B21; exact Pipeline.withArrays_of_ne spec11 c _ _ b hb
abbrev T21 : (c : Dev nD) → (b : Ref sig .tc) → Buf (Elt F) ((c : Thread nD τ).loc b) := fun c b => B21 m ρ c b
theorem B21_arr (c : Dev nD) (w : Fin cfg11.W) :
    B21 m ρ c (Proc.devRef .tc (Pipeline.arrRef spec11 w)) = (dat11 (T20 m ρ) c).arrAt w cfg11.N := by
  unfold B21; exact Pipeline.withArrays_arr spec11 launch11.win.arr_inj c _ _ w
abbrev B22 : Dev nD → Valuation τ sig (Elt F) := fun c => StableHlo.after hostOps12 (B21 m ρ c)
abbrev T22 : (c : Dev nD) → (b : Ref sig .tc) → Buf (Elt F) ((c : Thread nD τ).loc b) := fun c b => B22 m ρ c b
def B23 (c : Dev nD) : Valuation τ sig (Elt F) :=
  Pipeline.withArrays spec12 c (B22 m ρ c) fun w => (dat12 (T22 m ρ) c).arrAt w cfg12.N
theorem B23_of_ne (c : Dev nD) (b : Ref sig .tc) (hb : ∀ w, Pipeline.arrRef spec12 w ≠ b) :
    B23 m ρ c (Proc.devRef .tc b) = B22 m ρ c (Proc.devRef .tc b) := by
  unfold B23; exact Pipeline.withArrays_of_ne spec12 c _ _ b hb
abbrev T23 : (c : Dev nD) → (b : Ref sig .tc) → Buf (Elt F) ((c : Thread nD τ).loc b) := fun c b => B23 m ρ c b
theorem B23_arr (c : Dev nD) (w : Fin cfg12.W) :
    B23 m ρ c (Proc.devRef .tc (Pipeline.arrRef spec12 w)) = (dat12 (T22 m ρ) c).arrAt w cfg12.N := by
  unfold B23; exact Pipeline.withArrays_arr spec12 launch12.win.arr_inj c _ _ w
def B24 (c : Dev nD) : Valuation τ sig (Elt F) :=
  Pipeline.withArrays spec13 c (B23 m ρ c) fun w => (dat13 (T23 m ρ) c).arrAt w cfg13.N
theorem B24_of_ne (c : Dev nD) (b : Ref sig .tc) (hb : ∀ w, Pipeline.arrRef spec13 w ≠ b) :
    B24 m ρ c (Proc.devRef .tc b) = B23 m ρ c (Proc.devRef .tc b) := by
  unfold B24; exact Pipeline.withArrays_of_ne spec13 c _ _ b hb
abbrev T24 : (c : Dev nD) → (b : Ref sig .tc) → Buf (Elt F) ((c : Thread nD τ).loc b) := fun c b => B24 m ρ c b
theorem B24_arr (c : Dev nD) (w : Fin cfg13.W) :
    B24 m ρ c (Proc.devRef .tc (Pipeline.arrRef spec13 w)) = (dat13 (T23 m ρ) c).arrAt w cfg13.N := by
  unfold B24; exact Pipeline.withArrays_arr spec13 launch13.win.arr_inj c _ _ w
def B25 (c : Dev nD) : Valuation τ sig (Elt F) :=
  Pipeline.withArrays spec14 c (B24 m ρ c) fun w => (dat14 (T24 m ρ) c).arrAt w cfg14.N
theorem B25_of_ne (c : Dev nD) (b : Ref sig .tc) (hb : ∀ w, Pipeline.arrRef spec14 w ≠ b) :
    B25 m ρ c (Proc.devRef .tc b) = B24 m ρ c (Proc.devRef .tc b) := by
  unfold B25; exact Pipeline.withArrays_of_ne spec14 c _ _ b hb
abbrev T25 : (c : Dev nD) → (b : Ref sig .tc) → Buf (Elt F) ((c : Thread nD τ).loc b) := fun c b => B25 m ρ c b
theorem B25_arr (c : Dev nD) (w : Fin cfg14.W) :
    B25 m ρ c (Proc.devRef .tc (Pipeline.arrRef spec14 w)) = (dat14 (T24 m ρ) c).arrAt w cfg14.N := by
  unfold B25; exact Pipeline.withArrays_arr spec14 launch14.win.arr_inj c _ _ w
def B26 (c : Dev nD) : Valuation τ sig (Elt F) :=
  Pipeline.withArrays spec15 c (B25 m ρ c) fun w => (dat15 (T25 m ρ) c).arrAt w cfg15.N
theorem B26_of_ne (c : Dev nD) (b : Ref sig .tc) (hb : ∀ w, Pipeline.arrRef spec15 w ≠ b) :
    B26 m ρ c (Proc.devRef .tc b) = B25 m ρ c (Proc.devRef .tc b) := by
  unfold B26; exact Pipeline.withArrays_of_ne spec15 c _ _ b hb
abbrev T26 : (c : Dev nD) → (b : Ref sig .tc) → Buf (Elt F) ((c : Thread nD τ).loc b) := fun c b => B26 m ρ c b
theorem B26_arr (c : Dev nD) (w : Fin cfg15.W) :
    B26 m ρ c (Proc.devRef .tc (Pipeline.arrRef spec15 w)) = (dat15 (T25 m ρ) c).arrAt w cfg15.N := by
  unfold B26; exact Pipeline.withArrays_arr spec15 launch15.win.arr_inj c _ _ w
abbrev B27 : Dev nD → Valuation τ sig (Elt F) := fun c => StableHlo.after hostOps16 (B26 m ρ c)
abbrev T27 : (c : Dev nD) → (b : Ref sig .tc) → Buf (Elt F) ((c : Thread nD τ).loc b) := fun c b => B27 m ρ c b
def B28 (c : Dev nD) : Valuation τ sig (Elt F) :=
  Pipeline.withArrays spec16 c (B27 m ρ c) fun w => (dat16 (T27 m ρ) c).arrAt w cfg16.N
theorem B28_of_ne (c : Dev nD) (b : Ref sig .tc) (hb : ∀ w, Pipeline.arrRef spec16 w ≠ b) :
    B28 m ρ c (Proc.devRef .tc b) = B27 m ρ c (Proc.devRef .tc b) := by
  unfold B28; exact Pipeline.withArrays_of_ne spec16 c _ _ b hb
abbrev T28 : (c : Dev nD) → (b : Ref sig .tc) → Buf (Elt F) ((c : Thread nD τ).loc b) := fun c b => B28 m ρ c b
theorem B28_arr (c : Dev nD) (w : Fin cfg16.W) :
    B28 m ρ c (Proc.devRef .tc (Pipeline.arrRef spec16 w)) = (dat16 (T27 m ρ) c).arrAt w cfg16.N := by
  unfold B28; exact Pipeline.withArrays_arr spec16 launch16.win.arr_inj c _ _ w
abbrev admH : (p : Fin 17) → (pcfgs (F := F) p).Adm := fun p => (cfgs p).toPCfg_adm
def pdats : (p : Fin 17) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T4 m ρ) c
  | ⟨3, _⟩ => fun c => dat3 (T6 m ρ) c
  | ⟨4, _⟩ => fun c => dat4 (T8 m ρ) c
  | ⟨5, _⟩ => fun c => dat5 (T9 m ρ) c
  | ⟨6, _⟩ => fun c => dat6 (T11 m ρ) c
  | ⟨7, _⟩ => fun c => dat7 (T13 m ρ) c
  | ⟨8, _⟩ => fun c => dat8 (T15 m ρ) c
  | ⟨9, _⟩ => fun c => dat9 (T16 m ρ) c
  | ⟨10, _⟩ => fun c => dat10 (T18 m ρ) c
  | ⟨11, _⟩ => fun c => dat11 (T20 m ρ) c
  | ⟨12, _⟩ => fun c => dat12 (T22 m ρ) c
  | ⟨13, _⟩ => fun c => dat13 (T23 m ρ) c
  | ⟨14, _⟩ => fun c => dat14 (T24 m ρ) c
  | ⟨15, _⟩ => fun c => dat15 (T25 m ρ) c
  | ⟨16, _⟩ => fun c => dat16 (T27 m ρ) c
  | ⟨_ + 17, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
end Cert.KernelIdeal.Hand
end
-- ==== Proof.KI.Regs.lean ====
import proofs.«165280_j63788854280268_1_alg».proof.Proof.KI.Chain
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A kernel region between two boundary valuations: its arrays are split out of the unscoped buffers at entry and put back at exit. -/
def regOf (p : Fin 17) (win : Pipeline.WinFacts₀ (pcfgs (F := F) p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (Bin Bout : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ)
    (hsplit : ∀ c, (unscopedBufs (Ix := Unit) (Name := ℕ) (U := UR sig nD τ) (Lvl := ℕ) c (fun b => Bin c b) : sProp 𝕄)
      ⊢ iprop((pdats m ρ p c).arrays ((pdats m ρ p c).arrAt · 0) ∗ Pipeline.unscopedRest (cfgs p).spec c (fun b => Bin c b)))
    (hjoin : ∀ c, iprop((pdats m ρ p c).arrays ((pdats m ρ p c).arrAt · (cfgs p).N) ∗ Pipeline.unscopedRest (cfgs p).spec c (fun b => Bin c b))
      ⊢ (unscopedBufs (Ix := Unit) (Name := ℕ) (U := UR sig nD τ) (Lvl := ℕ) c (fun b => Bout c b) : sProp 𝕄))
    (hΦin : ∀ c, Pipeline.ΦA (cfgs p).spec c ⊢ ((pdats m ρ p c).Φ 0 : sProp 𝕄))
    (hΦout : ∀ c, (pdats m ρ p c).Φ (Fin.last (cfgs p).N) ⊢ (Pipeline.ΦA (cfgs p).spec c : sProp 𝕄)) :
    Pipeline.RegionSeg (pcfgs (F := F)) admH (pdats m ρ) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Bin c) ∗ R c)
  post c := iprop(StableHlo.held (c : Thread nD τ) (Pipeline.ucRefs τ sig) (Bout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Bin c b)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    have haux : ∀ (P Q S : sProp 𝕄), iprop(P ∗ Q ∗ S) ⊢ iprop(S ∗ P) := fun P Q S => by
      iintro ⟨Hp, -, Hr⟩
      isplitl [Hr]; · iexact Hr
      iexact Hp
    exact (haux _ _ _).trans (hΦin c)
  hout c := by
    rw [Pipeline.ownSems0_none]
    have haux : ∀ (S P : sProp 𝕄), iprop(S ∗ P) ⊢ iprop(P ∗ BI.emp ∗ S) := fun S P => by
      iintro ⟨Hr, Hp⟩
      isplitl [Hp]; · iexact Hp
      isplitr; · iempintro
      iexact Hr
    exact (hΦout c).trans (haux _ _)
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [howed c (Fin.last _)]
    icases HO with ⟨%W, -, HO⟩; iexists W; iexact HO

/-- When the windows' arrays are pairwise distinct, the exit valuation is the entry one with those arrays as the pipeline leaves them. -/
def regOfLaunch (p : Fin 17) (la : Pipeline.LaunchFacts (nD := nD) (τ := τ) cfgs p) (Bin : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = Bin c (Pipeline.arrRef (cfgs p).spec w))
    (hΦin : ∀ c, Pipeline.ΦA (cfgs p).spec c ⊢ ((pdats m ρ p c).Φ 0 : sProp 𝕄))
    (hΦout : ∀ c, (pdats m ρ p c).Φ (Fin.last (cfgs p).N) ⊢ (Pipeline.ΦA (cfgs p).spec c : sProp 𝕄)) :
    Pipeline.RegionSeg (pcfgs (F := F)) admH (pdats m ρ) () defs₀ 𝒱₀ L lv p :=
  regOf m ρ p la.win.to₀ la.block_pos la.stage_whole Bin
    (fun c => Pipeline.withArrays (cfgs p).spec c (Bin c) fun w => (pdats m ρ p c).arrAt w (cfgs p).N) hbody howed hrec
    (fun c => Pipeline.arrays_of_unscopedBufs (p := p) (pcfgs (F := F)) admH (pdats m ρ) la.win la.arr_whole c
      ((pdats m ρ p c).share_full (hq c)) (fun b => Bin c b) (hA c))
    (fun c => Pipeline.unscopedBufs_of_arrays (p := p) (pcfgs (F := F)) admH (Ix := Unit) (Name := ℕ) (U := UR sig nD τ) (Lvl := ℕ)
      la.win la.arr_whole c (pdats m ρ) ((pdats m ρ p c).share_full (hq c)) (fun b => Bin c b) _ ((pdats m ρ p c).arrAt · (cfgs p).N)
      (fun w => (Pipeline.withArrays_arr (cfgs p).spec la.win.arr_inj c (Bin c) (fun w => (pdats m ρ p c).arrAt w (cfgs p).N) w).symm)
      (fun b hb => Pipeline.withArrays_of_ne (cfgs p).spec c _ _ b fun w e => hb (Finset.mem_image.mpr ⟨w, Finset.mem_univ _, e⟩)))
    hΦin hΦout

def reg0 : Pipeline.RegionSeg (pcfgs (F := F)) admH (pdats m ρ) () defs₀ 𝒱₀ L lv 0 :=
  regOfLaunch m ρ 0 launch0 (B1 m ρ) (fun c => (body_obligation0 (T1 m ρ) c).loose) (fun _ _ => rfl) (fun _ => rfl)
    (fun _ _ => rfl) (fun _ _ => rfl) (Phi_in0 (T1 m ρ)) (Phi_out0 (T1 m ρ))

def reg1 : Pipeline.RegionSeg (pcfgs (F := F)) admH (pdats m ρ) () defs₀ 𝒱₀ L lv 1 :=
  regOfLaunch m ρ 1 launch1 (B3 m ρ) (fun c => (body_obligation1 (T3 m ρ) c).loose) (fun _ _ => rfl) (fun _ => rfl)
    (fun _ _ => rfl) (fun _ _ => rfl) (Phi_in1 (T3 m ρ)) (Phi_out1 (T3 m ρ))

def reg2 : Pipeline.RegionSeg (pcfgs (F := F)) admH (pdats m ρ) () defs₀ 𝒱₀ L lv 2 :=
  regOfLaunch m ρ 2 launch2 (B4 m ρ) (fun c => (body_obligation2 (T4 m ρ) c).loose) (fun _ _ => rfl) (fun _ => rfl)
    (fun _ _ => rfl) (fun _ _ => rfl) (Phi_in2 (T4 m ρ)) (Phi_out2 (T4 m ρ))

def reg3 : Pipeline.RegionSeg (pcfgs (F := F)) admH (pdats m ρ) () defs₀ 𝒱₀ L lv 3 :=
  regOfLaunch m ρ 3 launch3 (B6 m ρ) (fun c => (body_obligation3 (T6 m ρ) c).loose) (fun _ _ => rfl) (fun _ => rfl)
    (fun _ _ => rfl) (fun _ _ => rfl) (Phi_in3 (T6 m ρ)) (Phi_out3 (T6 m ρ))

def reg4 : Pipeline.RegionSeg (pcfgs (F := F)) admH (pdats m ρ) () defs₀ 𝒱₀ L lv 4 :=
  regOfLaunch m ρ 4 launch4 (B8 m ρ) (fun c => (body_obligation4 (T8 m ρ) c).loose) (fun _ _ => rfl) (fun _ => rfl)
    (fun _ _ => rfl) (fun _ _ => rfl) (Phi_in4 (T8 m ρ)) (Phi_out4 (T8 m ρ))

def reg5 : Pipeline.RegionSeg (pcfgs (F := F)) admH (pdats m ρ) () defs₀ 𝒱₀ L lv 5 :=
  regOfLaunch m ρ 5 launch5 (B9 m ρ) (fun c => (body_obligation5 (T9 m ρ) c).loose) (fun _ _ => rfl) (fun _ => rfl)
    (fun _ _ => rfl) (fun _ _ => rfl) (Phi_in5 (T9 m ρ)) (Phi_out5 (T9 m ρ))

def reg7 : Pipeline.RegionSeg (pcfgs (F := F)) admH (pdats m ρ) () defs₀ 𝒱₀ L lv 7 :=
  regOfLaunch m ρ 7 launch7 (B13 m ρ) (fun c => (body_obligation7 (T13 m ρ) c).loose) (fun _ _ => rfl) (fun _ => rfl)
    (fun _ _ => rfl) (fun _ _ => rfl) (Phi_in7 (T13 m ρ)) (Phi_out7 (T13 m ρ))

def reg8 : Pipeline.RegionSeg (pcfgs (F := F)) admH (pdats m ρ) () defs₀ 𝒱₀ L lv 8 :=
  regOfLaunch m ρ 8 launch8 (B15 m ρ) (fun c => (body_obligation8 (T15 m ρ) c).loose) (fun _ _ => rfl) (fun _ => rfl)
    (fun _ _ => rfl) (fun _ _ => rfl) (Phi_in8 (T15 m ρ)) (Phi_out8 (T15 m ρ))

def reg9 : Pipeline.RegionSeg (pcfgs (F := F)) admH (pdats m ρ) () defs₀ 𝒱₀ L lv 9 :=
  regOfLaunch m ρ 9 launch9 (B16 m ρ) (fun c => (body_obligation9 (T16 m ρ) c).loose) (fun _ _ => rfl) (fun _ => rfl)
    (fun _ _ => rfl) (fun _ _ => rfl) (Phi_in9 (T16 m ρ)) (Phi_out9 (T16 m ρ))

def reg10 : Pipeline.RegionSeg (pcfgs (F := F)) admH (pdats m ρ) () defs₀ 𝒱₀ L lv 10 :=
  regOfLaunch m ρ 10 launch10 (B18 m ρ) (fun c => (body_obligation10 (T18 m ρ) c).loose) (fun _ _ => rfl) (fun _ => rfl)
    (fun _ _ => rfl) (fun _ _ => rfl) (Phi_in10 (T18 m ρ)) (Phi_out10 (T18 m ρ))

def reg11 : Pipeline.RegionSeg (pcfgs (F := F)) admH (pdats m ρ) () defs₀ 𝒱₀ L lv 11 :=
  regOfLaunch m ρ 11 launch11 (B20 m ρ) (fun c => (body_obligation11 (T20 m ρ) c).loose) (fun _ _ => rfl) (fun _ => rfl)
    (fun _ _ => rfl) (fun _ _ => rfl) (Phi_in11 (T20 m ρ)) (Phi_out11 (T20 m ρ))

def reg12 : Pipeline.RegionSeg (pcfgs (F := F)) admH (pdats m ρ) () defs₀ 𝒱₀ L lv 12 :=
  regOfLaunch m ρ 12 launch12 (B22 m ρ) (fun c => (body_obligation12 (T22 m ρ) c).loose) (fun _ _ => rfl) (fun _ => rfl)
    (fun _ _ => rfl) (fun _ _ => rfl) (Phi_in12 (T22 m ρ)) (Phi_out12 (T22 m ρ))

def reg13 : Pipeline.RegionSeg (pcfgs (F := F)) admH (pdats m ρ) () defs₀ 𝒱₀ L lv 13 :=
  regOfLaunch m ρ 13 launch13 (B23 m ρ) (fun c => (body_obligation13 (T23 m ρ) c).loose) (fun _ _ => rfl) (fun _ => rfl)
    (fun _ _ => rfl) (fun _ _ => rfl) (Phi_in13 (T23 m ρ)) (Phi_out13 (T23 m ρ))

def reg14 : Pipeline.RegionSeg (pcfgs (F := F)) admH (pdats m ρ) () defs₀ 𝒱₀ L lv 14 :=
  regOfLaunch m ρ 14 launch14 (B24 m ρ) (fun c => (body_obligation14 (T24 m ρ) c).loose) (fun _ _ => rfl) (fun _ => rfl)
    (fun _ _ => rfl) (fun _ _ => rfl) (Phi_in14 (T24 m ρ)) (Phi_out14 (T24 m ρ))

def reg15 : Pipeline.RegionSeg (pcfgs (F := F)) admH (pdats m ρ) () defs₀ 𝒱₀ L lv 15 :=
  regOfLaunch m ρ 15 launch15 (B25 m ρ) (fun c => (body_obligation15 (T25 m ρ) c).loose) (fun _ _ => rfl) (fun _ => rfl)
    (fun _ _ => rfl) (fun _ _ => rfl) (Phi_in15 (T25 m ρ)) (Phi_out15 (T25 m ρ))

def reg16 : Pipeline.RegionSeg (pcfgs (F := F)) admH (pdats m ρ) () defs₀ 𝒱₀ L lv 16 :=
  regOfLaunch m ρ 16 launch16 (B27 m ρ) (fun c => (body_obligation16 (T27 m ρ) c).loose) (fun _ _ => rfl) (fun _ => rfl)
    (fun _ _ => rfl) (fun _ _ => rfl) (Phi_in16 (T27 m ρ)) (Phi_out16 (T27 m ρ))

theorem arr6_01 : Pipeline.arrRef spec6 (0 : Fin 7) = Pipeline.arrRef spec6 (1 : Fin 7) := rfl

theorem arr6_inj : ∀ a b : Fin 7, a ≠ 0 → b ≠ 0 → Pipeline.arrRef spec6 a = Pipeline.arrRef spec6 b → a = b := by decide

theorem arr6_eq : ∀ a b : Fin 7, Pipeline.arrRef spec6 a = Pipeline.arrRef spec6 b → a = b ∨ (a = 0 ∧ b = 1) ∨ (a = 1 ∧ b = 0) := by decide

section Shared

variable {c : Dev nD} (dat : Dat τ (Elt F) Unit ℕ (UR sig nD τ) ℕ cfg6 c)

theorem arrays6_eq (hq0 : dat.q 0 = fullShare.left) (hq1 : dat.q 1 = fullShare.right)
    (hq : ∀ w : Fin cfg6.W, 2 ≤ w.val → dat.q w = fullShare)
    (V' : (b : Ref sig .tc) → Buf (Elt F) ((c.tc : Thread nD τ).loc b))
    (G : (w : Fin cfg6.W) → Buf (Elt F) ((cfg6.win w).arr.view.loc (c.tc : Thread nD τ)))
    (hG : ∀ w, G w = V' (Pipeline.arrRef spec6 w)) :
    (dat.arrays G : sProp 𝕄) = Pipeline.arrBufs spec6 c V' := by
  classical
  have himg : Finset.univ.image (Pipeline.arrRef spec6) = (Finset.univ.erase (0 : Fin 7)).image (Pipeline.arrRef spec6) := by
    apply Finset.Subset.antisymm
    · intro b hb
      obtain ⟨w, -, rfl⟩ := Finset.mem_image.mp hb
      by_cases hw : w = 0
      · subst hw; exact Finset.mem_image.mpr ⟨1, by decide, arr6_01.symm⟩
      · exact Finset.mem_image_of_mem _ (Finset.mem_erase.mpr ⟨hw, Finset.mem_univ _⟩)
    · exact Finset.image_subset_image (Finset.erase_subset _ _)
  have hinj : Set.InjOn (Pipeline.arrRef spec6) (↑(Finset.univ.erase (0 : Fin 7)) : Set (Fin 7)) := fun a ha b hb e =>
    arr6_inj a b (Finset.ne_of_mem_erase ha) (Finset.ne_of_mem_erase hb) e
  have h1 : (1 : Fin 7) ∈ Finset.univ.erase (0 : Fin 7) := by decide
  have hT : ∀ w ∈ (Finset.univ.erase (0 : Fin 7)).erase 1, 2 ≤ w.val := fun w hw => by
    have h1 := Fin.val_ne_of_ne (Finset.ne_of_mem_erase hw)
    have h0 := Fin.val_ne_of_ne (Finset.ne_of_mem_erase (Finset.mem_of_mem_erase hw))
    simp only [Fin.val_zero, Fin.val_one] at h0 h1; omega
  unfold Pipeline.arrBufs Dat.arrays
  rw [himg, bigSep_image_of_injOn hinj, bigSep_univ_split (0 : Fin 7), bigSep_erase h1, bigSep_erase h1]
  have harr : ∀ w, ((cfg6).spec w).arr.IsWhole := arr_whole6
  have hsh : ∀ w : Fin cfg6.W, 2 ≤ w.val → dat.share w = fullShare := fun w hw => by
    unfold Dat.share; split
    · rfl
    · exact hq w hw
  have hsh0 : dat.share 0 = fullShare.left := by unfold Dat.share; rw [if_neg (by decide), hq0]
  have hsh1 : dat.share 1 = fullShare.right := by unfold Dat.share; rw [if_neg (by decide), hq1]
  rw [bigSep_congr (s := (Finset.univ.erase (0 : Fin 7)).erase 1)
      (Ψ := fun w => (((c.tc : Thread nD τ).loc (Pipeline.arrRef spec6 w)) ↦{fullShare} V' (Pipeline.arrRef spec6 w) : sProp 𝕄)) fun w hw => by
        rw [(harr w).set_eq_univ, hsh w (hT w hw), hG w]]
  rw [(harr 0).set_eq_univ, hsh0, hsh1, hG 0, hG 1]
  have hs : ((c.tc : Thread nD τ).loc (Pipeline.arrRef spec6 1) ↦{fullShare} V' (Pipeline.arrRef spec6 1) : sProp 𝕄)
      ⊣⊢ iprop(((c.tc : Thread nD τ).loc (Pipeline.arrRef spec6 1) ↦{fullShare.left} V' (Pipeline.arrRef spec6 1))
        ∗ (c.tc : Thread nD τ).loc (Pipeline.arrRef spec6 1) ↦{fullShare.right} V' (Pipeline.arrRef spec6 1)) :=
    pointsTo_share (PosShare.mem_left_op_right fullShare)
  rw [BI.equiv_iff.mp ⟨hs.1, hs.2⟩]
  exact Eq.trans rfl (Std.Associative.assoc (op := (Idealize.SL.BI.sep : sProp 𝕄 → sProp 𝕄 → sProp 𝕄)) _ _ _).symm

theorem withArrays6 (V0 : Valuation τ sig (Elt F)) (V' : (b : Ref sig .tc) → Buf (Elt F) ((c.tc : Thread nD τ).loc b))
    (hA : ∀ w, dat.A w = V' (Pipeline.arrRef spec6 w)) (w : Fin cfg6.W) :
    dat.arrAt w cfg6.N = Pipeline.withArrays spec6 c V0 (fun w => dat.arrAt w cfg6.N) (Proc.devRef .tc (Pipeline.arrRef spec6 w)) := by
  unfold Pipeline.withArrays
  have h : ∃ w', Proc.devRef .tc (Pipeline.arrRef spec6 w') = Proc.devRef (τ := τ) .tc (Pipeline.arrRef spec6 w) := ⟨w, rfl⟩
  rw [dif_pos h]
  suffices ∀ (w' : Fin 7) (e : Proc.devRef .tc (Pipeline.arrRef spec6 w') = Proc.devRef (τ := τ) .tc (Pipeline.arrRef spec6 w)),
      dat.arrAt w cfg6.N = cast (congrArg (fun b' : DevRef τ sig => b'.ty.Contents (Elt F)) e) (dat.arrAt w' cfg6.N) from this _ h.choose_spec
  intro w' e
  rcases arr6_eq w' w (Proc.devRef_injective _ e) with rfl | ⟨rfl, rfl⟩ | ⟨rfl, rfl⟩
  · rfl
  · rw [Pipeline.Dat.arrAt_in dat (1 : Fin 7) rfl, Pipeline.Dat.arrAt_in dat (0 : Fin 7) rfl, hA 1, hA 0]; rfl
  · rw [Pipeline.Dat.arrAt_in dat (1 : Fin 7) rfl, Pipeline.Dat.arrAt_in dat (0 : Fin 7) rfl, hA 1, hA 0]; rfl

theorem unscopedBufs6_eq (hq0 : dat.q 0 = fullShare.left) (hq1 : dat.q 1 = fullShare.right)
    (hq : ∀ w : Fin cfg6.W, 2 ≤ w.val → dat.q w = fullShare)
    (V' : (b : Ref sig .tc) → Buf (Elt F) ((c.tc : Thread nD τ).loc b))
    (G : (w : Fin cfg6.W) → Buf (Elt F) ((cfg6.win w).arr.view.loc (c.tc : Thread nD τ)))
    (hG : ∀ w, G w = V' (Pipeline.arrRef spec6 w)) :
    (unscopedBufs (Ix := Unit) (Name := ℕ) (U := UR sig nD τ) (Lvl := ℕ) c V' : sProp 𝕄)
      = iprop(dat.arrays G ∗ Pipeline.unscopedRest spec6 c V') := by
  rw [Pipeline.unscopedBufs_split₀ (fun _ : Unit => cfg6) () winFacts₀6.arr_unscoped c V', arrays6_eq dat hq0 hq1 hq V' G hG]

end Shared

variable (m : (ℓ : Loc nD τ sig) → Buf (Elt F) ℓ) (ρ : Dev nD → PrngReg)

theorem q6_rest (V : (c : Dev nD) → (b : Ref sig .tc) → Buf (Elt F) ((c : Thread nD τ).loc b)) (c : Dev nD) :
    ∀ w : Fin cfg6.W, 2 ≤ w.val → (dat6 V c).q w = fullShare
  | ⟨0, _⟩, h => absurd (show 2 ≤ 0 from h) (by decide)
  | ⟨1, _⟩, h => absurd (show 2 ≤ 1 from h) (by decide)
  | ⟨2, _⟩, _ => rfl
  | ⟨3, _⟩, _ => rfl
  | ⟨4, _⟩, _ => rfl
  | ⟨5, _⟩, _ => rfl
  | ⟨6, _⟩, _ => rfl

theorem hF6 (c : Dev nD) (w : Fin cfg6.W) : (dat6 (T11 m ρ) c).arrAt w cfg6.N = T12 m ρ c (Pipeline.arrRef spec6 w) :=
  withArrays6 (dat6 (T11 m ρ) c) (B11 m ρ c) (T11 m ρ c) (fun _ => rfl) w

def reg6 : Pipeline.RegionSeg (pcfgs (F := F)) admH (pdats m ρ) () defs₀ 𝒱₀ L lv 6 :=
  regOf m ρ 6 winFacts₀6 block_pos6 stage_whole6 (B11 m ρ) (B12 m ρ) (fun c => (body_obligation6 (T11 m ρ) c).loose) (fun _ _ => rfl) (fun _ => rfl)
    (fun c => Entails.of_eq (unscopedBufs6_eq (pdats m ρ 6 c) rfl rfl (q6_rest (T11 m ρ) c) (T11 m ρ c) ((pdats m ρ 6 c).arrAt · 0) fun _ => rfl))
    (fun c => by
      rw [unscopedBufs6_eq (pdats m ρ 6 c) rfl rfl (q6_rest (T11 m ρ) c) (T12 m ρ c) ((pdats m ρ 6 c).arrAt · cfg6.N) (hF6 m ρ c)]
      refine sep_mono .rfl (Entails.of_eq ?_)
      unfold Pipeline.unscopedRest
      exact bigSep_congr fun b hb => by rw [hrest6 m ρ c b (Finset.mem_sdiff.mp hb).2])
    (Phi_in6 (T11 m ρ)) (Phi_out6 (T11 m ρ))

end Cert.KernelIdeal.Hand

end
-- ==== Proof.KI.Main.lean ====
import proofs.«165280_j63788854280268_1_alg».proof.Proof.KI.Regs

import proofs.«165280_j63788854280268_1_alg».proof.Proof.Gen.KernelIdeal.Regions
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .region (reg2 m ρ),
    .host (hseg hostOps3 hostOps3_sub hostOps3_fresh (B5 m ρ)),
    .region (reg3 m ρ),
    .host (hseg hostOps4 hostOps4_sub hostOps4_fresh (B7 m ρ)),
    .region (reg4 m ρ),
    .region (reg5 m ρ),
    .host (hseg hostOps6 hostOps6_sub hostOps6_fresh (B10 m ρ)),
    .region (reg6 m ρ),
    .host (hseg hostOps7 hostOps7_sub hostOps7_fresh (B12 m ρ)),
    .region (reg7 m ρ),
    .host (hseg hostOps8 hostOps8_sub hostOps8_fresh (B14 m ρ)),
    .region (reg8 m ρ),
    .region (reg9 m ρ),
    .host (hseg hostOps10 hostOps10_sub hostOps10_fresh (B17 m ρ)),
    .region (reg10 m ρ),
    .host (hseg hostOps11 hostOps11_sub hostOps11_fresh (B19 m ρ)),
    .region (reg11 m ρ),
    .host (hseg hostOps12 hostOps12_sub hostOps12_fresh (B21 m ρ)),
    .region (reg12 m ρ),
    .region (reg13 m ρ),
    .region (reg14 m ρ),
    .region (reg15 m ρ),
    .host (hseg hostOps16 hostOps16_sub hostOps16_fresh (B26 m ρ)),
    .region (reg16 m ρ) ]

theorem main_run (c : Dev nD) : main (F := F) c = Pipeline.Seg.run (segs m ρ) := by
  rw [main_chain c, Pipeline.Seg.run_eq_chain]
  rfl

abbrev Tₙ (c : Dev nD) : sProp 𝕄 := iprop(StableHlo.held (c : Thread nD τ) (Pipeline.ucRefs τ sig) (B28 m ρ c) ∗ ∃ r, prngReg c r)

theorem last_state (c : Dev nD) :
    iprop(StableHlo.held (c : Thread nD τ) (Pipeline.ucRefs τ sig) (B28 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B28 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B28 m ρ c b)
    (hfin := fun c s' => by
      iintro ⟨⟨Hh, -⟩, HSI⟩
      unfold StableHlo.held
      imodintro
      iapply (pointsTo_read_all (Pipeline.ucRefs τ sig) (fun b => (((c : Thread nD τ)).1, b)) (B28 m ρ c) s')
      isplitl [Hh] <;> iassumption)
    (hQ := fun s h c => h c)

abbrev argRefs : List (Ref sig .tc) := [main_arg0, main_arg1, main_arg2, main_arg3, main_arg4, main_arg5, main_arg6, main_arg7, main_arg8, main_arg9, main_arg10, main_arg11]

/-- Region 15 reads argument 8 through an input window, which is never written back; no other argument is among its arrays. -/
theorem B26_args (c : Dev nD) (b : Ref sig .tc) (hb : b ∈ argRefs) : B26 m ρ c (Proc.devRef .tc b) = B25 m ρ c (Proc.devRef .tc b) := by
  by_cases h8 : b = main_arg8
  · subst h8; exact (B26_arr m ρ c 1).trans (((dat15 (T25 m ρ) c).arrAt_in 1 rfl _).trans (A_eq15 (T25 m ρ) c 1))
  · exact B26_of_ne m ρ c b (by revert b; decide)

/-- No host stretch writes an argument and no region has one among its arrays, so each boundary passes it on unchanged. -/
theorem args_kept (c : Dev nD) (b : Ref sig .tc) (hb : b ∈ argRefs) : B28 m ρ c (Proc.devRef .tc b) = m ((c : Thread nD τ).loc b) :=
  (B28_of_ne m ρ c b (by revert b; decide)).trans <|
  (StableHlo.after_of_writes_sub hostOps16 _ hostOps16_writes (r := b) (by revert b; decide)).trans <|
  (B26_args m ρ c b hb).trans <|
  (B25_of_ne m ρ c b (by revert b; decide)).trans <|
  (B24_of_ne m ρ c b (by revert b; decide)).trans <|
  (B23_of_ne m ρ c b (by revert b; decide)).trans <|
  (StableHlo.after_of_writes_sub hostOps12 _ hostOps12_writes (r := b) (by revert b; decide)).trans <|
  (B21_of_ne m ρ c b (by revert b; decide)).trans <|
  (StableHlo.after_of_writes_sub hostOps11 _ hostOps11_writes (r := b) (by revert b; decide)).trans <|
  (B19_of_ne m ρ c b (by revert b; decide)).trans <|
  (StableHlo.after_of_writes_sub hostOps10 _ hostOps10_writes (r := b) (by revert b; decide)).trans <|
  (B17_of_ne m ρ c b (by revert b; decide)).trans <|
  (B16_of_ne m ρ c b (by revert b; decide)).trans <|
  (StableHlo.after_of_writes_sub hostOps8 _ hostOps8_writes (r := b) (by revert b; decide)).trans <|
  (B14_of_ne m ρ c b (by revert b; decide)).trans <|
  (StableHlo.after_of_writes_sub hostOps7 _ hostOps7_writes (r := b) (by revert b; decide)).trans <|
  (B12_of_ne m ρ c b (by revert b; decide)).trans <|
  (StableHlo.after_of_writes_sub hostOps6 _ hostOps6_writes (r := b) (by revert b; decide)).trans <|
  (B10_of_ne m ρ c b (by revert b; decide)).trans <|
  (B9_of_ne m ρ c b (by revert b; decide)).trans <|
  (StableHlo.after_of_writes_sub hostOps4 _ hostOps4_writes (r := b) (by revert b; decide)).trans <|
  (B7_of_ne m ρ c b (by revert b; decide)).trans <|
  (StableHlo.after_of_writes_sub hostOps3 _ hostOps3_writes (r := b) (by revert b; decide)).trans <|
  (B5_of_ne m ρ c b (by revert b; decide)).trans <|
  (B4_of_ne m ρ c b (by revert b; decide)).trans <|
  (StableHlo.after_of_writes_sub hostOps1 _ hostOps1_writes (r := b) (by revert b; decide)).trans <|
  (B2_of_ne m ρ c b (by revert b; decide)).trans <|
  (StableHlo.after_of_writes_sub hostOps0 _ hostOps0_writes (r := b) (by revert b; decide)).trans rfl

theorem run_val : θ_run defs (onTc (τ := τ) (main (F := F))) ⟨m, fun _ => 0, ρ⟩ (fun r => ∀ c : Dev nD,
      r.2.mem ((c.tc : Thread nD τ).loc main_v111) = B28 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ b ∈ argRefs, r.2.mem ((c.tc : Thread nD τ).loc b) = m ((c.tc : Thread nD τ).loc b) := fun b hb =>
      (h c _ (mem_uc b (by revert b; decide))).trans (args_kept m ρ c b hb)
    ⟨h c _ (mem_uc main_v111 (by decide)), k _ (by decide), k _ (by decide), k _ (by decide), k _ (by decide), k _ (by decide), k _ (by decide), k _ (by decide), k _ (by decide), k _ (by decide), k _ (by decide), k _ (by decide), k _ (by decide)⟩) (run_all m ρ)

theorem frame_H : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_val m ρ)

end Cert.KernelIdeal.Hand

end
-- ==== Proof.Ref.Stages.lean ====
import proofs.«165280_j63788854280268_1_alg».proof.ReferenceIdeal
import Idealize.ShloMosaic.PureOps.Ideal

noncomputable section

namespace Cert.ReferenceIdeal.RefRun

open Idealize.ShloMosaic Idealize.SL.Sem
open Cert.ReferenceIdeal.Facts₀

variable [Facts₀]

def x0 (a0 : FVec Ideal S2x50000x128 .f32) : FVec Ideal S50000x128 .f32 :=
  shapeCast S50000x128 (extractStridedSlice S1x50000x128 ![0, 0, 0] a0 slices_S2x50000x128_S1x50000x128_0_0_0)
    shapeCasts_S1x50000x128_S50000x128

def x1 (a0 : FVec Ideal S2x50000x128 .f32) : FVec Ideal S50000x128 .f32 :=
  shapeCast S50000x128 (extractStridedSlice S1x50000x128 ![1, 0, 0] a0 slices_S2x50000x128_S1x50000x128_1_0_0)
    shapeCasts_S1x50000x128_S50000x128

def wInit0 (a4 : FVec Ideal S2x128x64 .f32) : FVec Ideal S128x64 .f32 :=
  shapeCast S128x64 (extractStridedSlice S1x128x64 ![0, 0, 0] a4 slices_S2x128x64_S1x128x64_0_0_0) shapeCasts_S1x128x64_S128x64

def wInit1 (a4 : FVec Ideal S2x128x64 .f32) : FVec Ideal S128x64 .f32 :=
  shapeCast S128x64 (extractStridedSlice S1x128x64 ![1, 0, 0] a4 slices_S2x128x64_S1x128x64_1_0_0) shapeCasts_S1x128x64_S128x64

def bInit0 (a5 : FVec Ideal S2x64 .f32) : FVec Ideal S64 .f32 :=
  shapeCast S64 (extractStridedSlice S1x64 ![0, 0] a5 slices_S2x64_S1x64_0_0) shapeCasts_S1x64_S64

def bInit1 (a5 : FVec Ideal S2x64 .f32) : FVec Ideal S64 .f32 :=
  shapeCast S64 (extractStridedSlice S1x64 ![1, 0] a5 slices_S2x64_S1x64_1_0) shapeCasts_S1x64_S64

def wMid0 (a6 : FVec Ideal S2x128x128 .f32) : FVec Ideal S128x128 .f32 :=
  shapeCast S128x128 (extractStridedSlice S1x128x128 ![0, 0, 0] a6 slices_S2x128x128_S1x128x128_0_0_0) shapeCasts_S1x128x128_S128x128

def wMid1 (a6 : FVec Ideal S2x128x128 .f32) : FVec Ideal S128x128 .f32 :=
  shapeCast S128x128 (extractStridedSlice S1x128x128 ![1, 0, 0] a6 slices_S2x128x128_S1x128x128_1_0_0) shapeCasts_S1x128x128_S128x128

def bMid0 (a7 : FVec Ideal S2x128 .f32) : FVec Ideal S128 .f32 :=
  shapeCast S128 (extractStridedSlice S1x128 ![0, 0] a7 slices_S2x128_S1x128_0_0) shapeCasts_S1x128_S128

def bMid1 (a7 : FVec Ideal S2x128 .f32) : FVec Ideal S128 .f32 :=
  shapeCast S128 (extractStridedSlice S1x128 ![1, 0] a7 slices_S2x128_S1x128_1_0) shapeCasts_S1x128_S128

def srcFix (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 50000#32))) src)

def wCol (w : FVec Ideal S400000 .f32) : FVec Ideal S400000x1 .f32 :=
  broadcastInDim S400000x1 ![0] bcast_S400000_S400000x1_0 w

def dstCol (dst : IVec S400000 32) : IVec S400000x1 32 :=
  broadcastInDim S400000x1 ![0] bcast_S400000_S400000x1_0 dst

def mm64 (x : FVec Ideal S50000x128 .f32) (w : FVec Ideal S128x64 .f32) : FVec Ideal S50000x64 .f32 :=
  Host.dotGeneral (F := Ideal) dot_S50000x128_S128x64_S50000x64_1_0_0_1_n_n none x w

def mm128 (x : FVec Ideal S50000x128 .f32) (w : FVec Ideal S128x128 .f32) : FVec Ideal S50000x128 .f32 :=
  Host.dotGeneral (F := Ideal) dot_S50000x128_S128x128_S50000x128_1_0_0_1_n_n none x w

def msg64 (s : FVec Ideal S50000x64 .f32) (src : IVec S400000 32) (w : FVec Ideal S400000 .f32) : FVec Ideal S400000x64 .f32 :=
  mulf (broadcastInDim S400000x64 ![0, 1] bcast_S400000x1_S400000x64_0_1 (wCol w))
    (Host.gather gather_S50000x64_S400000x1_S400000x64_1_0_n_n_0_1_164 s (srcFix src))

def agg64 (s : FVec Ideal S50000x64 .f32) (src dst : IVec S400000 32) (w : FVec Ideal S400000 .f32) : FVec Ideal S50000x64 .f32 :=
  Host.scatterAdd (F := Ideal) scatter_S50000x64_S400000x1_S400000x64_1_0_0_1
    (broadcastInDim S50000x64 ![] bcast_S_S50000x64 (constant (F := Ideal) S_ .f32 0x00000000#32)) (dstCol dst) (msg64 s src w)

def msg128 (s : FVec Ideal S50000x128 .f32) (src : IVec S400000 32) (w : FVec Ideal S400000 .f32) : FVec Ideal S400000x128 .f32 :=
  mulf (broadcastInDim S400000x128 ![0, 1] bcast_S400000x1_S400000x128_0_1 (wCol w))
    (Host.gather gather_S50000x128_S400000x1_S400000x128_1_0_n_n_0_1_1128 s (srcFix src))

def agg128 (s : FVec Ideal S50000x128 .f32) (src dst : IVec S400000 32) (w : FVec Ideal S400000 .f32) : FVec Ideal S50000x128 .f32 :=
  Host.scatterAdd (F := Ideal) scatter_S50000x128_S400000x1_S400000x128_1_0_0_1
    (broadcastInDim S50000x128 ![] bcast_S_S50000x128 (constant (F := Ideal) S_ .f32 0x00000000#32)) (dstCol dst) (msg128 s src w)

def addBias64 (x : FVec Ideal S50000x64 .f32) (b : FVec Ideal S64 .f32) : FVec Ideal S50000x64 .f32 :=
  addf x (broadcastInDim S50000x64 ![0, 1] bcast_S1x64_S50000x64_0_1 (broadcastInDim S1x64 ![1] bcast_S64_S1x64_1 b))

def addBias128 (x : FVec Ideal S50000x128 .f32) (b : FVec Ideal S128 .f32) : FVec Ideal S50000x128 .f32 :=
  addf x (broadcastInDim S50000x128 ![0, 1] bcast_S1x128_S50000x128_0_1 (broadcastInDim S1x128 ![1] bcast_S128_S1x128_1 b))

def varN : FVec Ideal S_ .f32 :=
  subf (constant (F := Ideal) S_ .f32 0x47435000#32) (sitofp .f32 (constantI S_ 32 0#32))

def mean64 (x : FVec Ideal S50000x64 .f32) : FVec Ideal S64 .f32 :=
  Host.divf (Host.reduceAdd x (constant (F := Ideal) S_ .f32 0x00000000#32) reducesTo_S50000x64_S64_d0 h_S_)
    (broadcastInDim S64 ![] bcast_S_S64 (constant (F := Ideal) S_ .f32 0x47435000#32))

def dev64 (x : FVec Ideal S50000x64 .f32) : FVec Ideal S50000x64 .f32 :=
  subf x (broadcastInDim S50000x64 ![0, 1] bcast_S1x64_S50000x64_0_1
    (Host.divf (broadcastInDim S1x64 ![1] bcast_S64_S1x64_1
        (Host.reduceAdd x (constant (F := Ideal) S_ .f32 0x00000000#32) reducesTo_S50000x64_S64_d0 h_S_))
      (broadcastInDim S1x64 ![] bcast_S_S1x64 (constant (F := Ideal) S_ .f32 0x47435000#32))))

def varRaw64 (x : FVec Ideal S50000x64 .f32) : FVec Ideal S64 .f32 :=
  Host.divf (Host.reduceAdd (mulf (dev64 x) (dev64 x)) (constant (F := Ideal) S_ .f32 0x00000000#32) reducesTo_S50000x64_S64_d0 h_S_)
    (broadcastInDim S64 ![] bcast_S_S64 varN)

def var64 (x : FVec Ideal S50000x64 .f32) : FVec Ideal S64 .f32 :=
  select (broadcastInDim S64 ![] bcast_S_S64 (cmpf .ogt varN (constant (F := Ideal) S_ .f32 0x00000000#32)))
    (varRaw64 x) (broadcastInDim S64 ![] bcast_S_S64 (constant (F := Ideal) S_ .f32 0x7FC00000#32))

def bnNorm64 (x : FVec Ideal S50000x64 .f32) : FVec Ideal S50000x64 .f32 :=
  mulf (subf x (broadcastInDim S50000x64 ![0, 1] bcast_S1x64_S50000x64_0_1 (broadcastInDim S1x64 ![1] bcast_S64_S1x64_1 (mean64 x))))
    (broadcastInDim S50000x64 ![0, 1] bcast_S1x64_S50000x64_0_1 (broadcastInDim S1x64 ![1] bcast_S64_S1x64_1
      (Host.rsqrt (addf (var64 x) (broadcastInDim S64 ![] bcast_S_S64 (constant (F := Ideal) S_ .f32 0x3727C5AC#32))))))

def bnRelu64 (x : FVec Ideal S50000x64 .f32) : FVec Ideal S50000x64 .f32 :=
  maximumf (bnNorm64 x) (broadcastInDim S50000x64 ![] bcast_S_S50000x64 (constant (F := Ideal) S_ .f32 0x00000000#32))

def mean128 (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

def dev128 (x : FVec Ideal S50000x128 .f32) : FVec Ideal S50000x128 .f32 :=
  subf x (broadcastInDim S50000x128 ![0, 1] bcast_S1x128_S50000x128_0_1
    (Host.divf (broadcastInDim S1x128 ![1] bcast_S128_S1x128_1
        (Host.reduceAdd x (constant (F := Ideal) S_ .f32 0x00000000#32) reducesTo_S50000x128_S128_d0 h_S_))
      (broadcastInDim S1x128 ![] bcast_S_S1x128 (constant (F := Ideal) S_ .f32 0x47435000#32))))

def varRaw128 (x : FVec Ideal S50000x128 .f32) : FVec Ideal S128 .f32 :=
  Host.divf (Host.reduceAdd (mulf (dev128 x) (dev128 x)) (constant (F := Ideal) S_ .f32 0x00000000#32) reducesTo_S50000x128_S128_d0 h_S_)
    (broadcastInDim S128 ![] bcast_S_S128 varN)

def var128 (x : FVec Ideal S50000x128 .f32) : FVec Ideal S128 .f32 :=
  select (broadcastInDim S128 ![] bcast_S_S128 (cmpf .ogt varN (constant (F := Ideal) S_ .f32 0x00000000#32)))
    (varRaw128 x) (broadcastInDim S128 ![] bcast_S_S128 (constant (F := Ideal) S_ .f32 0x7FC00000#32))

def bnNorm128 (x : FVec Ideal S50000x128 .f32) : FVec Ideal S50000x128 .f32 :=
  mulf (subf x (broadcastInDim S50000x128 ![0, 1] bcast_S1x128_S50000x128_0_1 (broadcastInDim S1x128 ![1] bcast_S128_S1x128_1 (mean128 x))))
    (broadcastInDim S50000x128 ![0, 1] bcast_S1x128_S50000x128_0_1 (broadcastInDim S1x128 ![1] bcast_S128_S1x128_1
      (Host.rsqrt (addf (var128 x) (broadcastInDim S128 ![] bcast_S_S128 (constant (F := Ideal) S_ .f32 0x3727C5AC#32))))))

def bnRelu128 (x : FVec Ideal S50000x128 .f32) : FVec Ideal S50000x128 .f32 :=
  maximumf (bnNorm128 x) (broadcastInDim S50000x128 ![] bcast_S_S50000x128 (constant (F := Ideal) S_ .f32 0x00000000#32))

def cat64 (a b : FVec Ideal S50000x64 .f32) : FVec Ideal S50000x128 .f32 :=
  concatenate S50000x128 1 [⟨S50000x64, a⟩, ⟨S50000x64, b⟩] concatenates_S50000x64_S50000x64_S50000x128_d1

def cat128 (a b : FVec Ideal S50000x128 .f32) : FVec Ideal S50000x256 .f32 :=
  concatenate S50000x256 1 [⟨S50000x128, a⟩, ⟨S50000x128, b⟩] concatenates_S50000x128_S50000x128_S50000x256_d1

def gateLin (inp x : FVec Ideal S50000x128 .f32) (lw : FVec Ideal S256x1 .f32) (lb : FVec Ideal S1 .f32) : FVec Ideal S50000x1 .f32 :=
  addf (Host.dotGeneral (F := Ideal) dot_S50000x256_S256x1_S50000x1_1_0_0_1_n_n none (cat128 inp x) lw)
    (broadcastInDim S50000x1 ![0, 1] bcast_S1x1_S50000x1_0_1 (broadcastInDim S1x1 ![1] bcast_S1_S1x1_1 lb))

def logistic1 (z : FVec Ideal S50000x1 .f32) : FVec Ideal S50000x1 .f32 :=
  Host.divf (broadcastInDim S50000x1 ![] bcast_S_S50000x1 (constant (F := Ideal) S_ .f32 0x3F800000#32))
    (addf (broadcastInDim S50000x1 ![] bcast_S_S50000x1 (constant (F := Ideal) S_ .f32 0x3F800000#32)) (Host.exp (Host.negf z)))

def alpha (inp x : FVec Ideal S50000x128 .f32) (lw : FVec Ideal S256x1 .f32) (lb : FVec Ideal S1 .f32) : FVec Ideal S50000x1 .f32 :=
  logistic1 (gateLin inp x lw lb)

def mix (al : FVec Ideal S50000x1 .f32) (x inp : FVec Ideal S50000x128 .f32) : FVec Ideal S50000x128 .f32 :=
  addf (mulf (broadcastInDim S50000x128 ![0, 1] bcast_S50000x1_S50000x128_0_1 al) x)
    (mulf (broadcastInDim S50000x128 ![0, 1] bcast_S50000x1_S50000x128_0_1
      (subf (broadcastInDim S50000x1 ![] bcast_S_S50000x1 (constant (F := Ideal) S_ .f32 0x3F800000#32)) al)) inp)

def lsmShift (x : FVec Ideal S50000x64 .f32) : FVec Ideal S50000x64 .f32 :=
  subf x (broadcastInDim S50000x64 ![0, 1] bcast_S50000x1_S50000x64_0_1 (broadcastInDim S50000x1 ![0] bcast_S50000_S50000x1_0
    (maximumf (broadcastInDim S50000 ![] bcast_S_S50000 (constant (F := Ideal) S_ .f32 0xFF800000#32))
      (Host.reduce FloatOps.maximumf x (constant (F := Ideal) S_ .f32 0xFF800000#32) reducesTo_S50000x64_S50000_d1 h_S_))))

def logSoftmax (x : FVec Ideal S50000x64 .f32) : FVec Ideal S50000x64 .f32 :=
  subf (lsmShift x) (broadcastInDim S50000x64 ![0, 1] bcast_S50000x1_S50000x64_0_1
    (Host.log (broadcastInDim S50000x1 ![0] bcast_S50000_S50000x1_0
      (Host.reduceAdd (Host.exp (lsmShift x)) (constant (F := Ideal) S_ .f32 0x00000000#32) reducesTo_S50000x64_S50000_d1 h_S_))))

section Network

variable (a0 : FVec Ideal S2x50000x128 .f32) (a1 a2 : IVec S400000 32) (a3 : FVec Ideal S400000 .f32)
  (a4 : FVec Ideal S2x128x64 .f32) (a5 : FVec Ideal S2x64 .f32) (a6 : FVec Ideal S2x128x128 .f32) (a7 : FVec Ideal S2x128 .f32)
  (a8 : FVec Ideal S128x64 .f32) (a9 : FVec Ideal S64 .f32) (a10 : FVec Ideal S256x1 .f32) (a11 : FVec Ideal S1 .f32)

def mmI0 : FVec Ideal S50000x64 .f32 := mm64 (x0 a0) (wInit0 a4)
def aggI0 : FVec Ideal S50000x64 .f32 := agg64 (mmI0 a0 a4) a1 a2 a3
def gcnI0 : FVec Ideal S50000x64 .f32 := addBias64 (aggI0 a0 a1 a2 a3 a4) (bInit0 a5)
def hI0 : FVec Ideal S50000x64 .f32 := bnRelu64 (gcnI0 a0 a1 a2 a3 a4 a5)

def mmI1 : FVec Ideal S50000x64 .f32 := mm64 (x1 a0) (wInit1 a4)
def aggI1 : FVec Ideal S50000x64 .f32 := agg64 (mmI1 a0 a4) a1 a2 a3
def gcnI1 : FVec Ideal S50000x64 .f32 := addBias64 (aggI1 a0 a1 a2 a3 a4) (bInit1 a5)
def hI1 : FVec Ideal S50000x64 .f32 := bnRelu64 (gcnI1 a0 a1 a2 a3 a4 a5)

def xcat : FVec Ideal S50000x128 .f32 := cat64 (hI0 a0 a1 a2 a3 a4 a5) (hI1 a0 a1 a2 a3 a4 a5)

def alpha0 : FVec Ideal S50000x1 .f32 := alpha (xcat a0 a1 a2 a3 a4 a5) (xcat a0 a1 a2 a3 a4 a5) a10 a11
def mix0 : FVec Ideal S50000x128 .f32 :=
  mix (alpha0 a0 a1 a2 a3 a4 a5 a10 a11) (xcat a0 a1 a2 a3 a4 a5) (xcat a0 a1 a2 a3 a4 a5)

def mmM0 : FVec Ideal S50000x128 .f32 := mm128 (mix0 a0 a1 a2 a3 a4 a5 a10 a11) (wMid0 a6)
def aggM0 : FVec Ideal S50000x128 .f32 := agg128 (mmM0 a0 a1 a2 a3 a4 a5 a6 a10 a11) a1 a2 a3
def gcnM0 : FVec Ideal S50000x128 .f32 := addBias128 (aggM0 a0 a1 a2 a3 a4 a5 a6 a10 a11) (bMid0 a7)
def hM0 : FVec Ideal S50000x128 .f32 := bnRelu128 (gcnM0 a0 a1 a2 a3 a4 a5 a6 a7 a10 a11)

def alpha1 : FVec Ideal S50000x1 .f32 := alpha (xcat a0 a1 a2 a3 a4 a5) (hM0 a0 a1 a2 a3 a4 a5 a6 a7 a10 a11) a10 a11
def mix1 : FVec Ideal S50000x128 .f32 :=
  mix (alpha1 a0 a1 a2 a3 a4 a5 a6 a7 a10 a11) (hM0 a0 a1 a2 a3 a4 a5 a6 a7 a10 a11) (xcat a0 a1 a2 a3 a4 a5)

def mmM1 : FVec Ideal S50000x128 .f32 := mm128 (mix1 a0 a1 a2 a3 a4 a5 a6 a7 a10 a11) (wMid1 a6)
def aggM1 : FVec Ideal S50000x128 .f32 := agg128 (mmM1 a0 a1 a2 a3 a4 a5 a6 a7 a10 a11) a1 a2 a3
def gcnM1 : FVec Ideal S50000x128 .f32 := addBias128 (aggM1 a0 a1 a2 a3 a4 a5 a6 a7 a10 a11) (bMid1 a7)
def hM1 : FVec Ideal S50000x128 .f32 := bnRelu128 (gcnM1 a0 a1 a2 a3 a4 a5 a6 a7 a10 a11)

def mix2 : FVec Ideal S50000x128 .f32 :=
  mix (alpha1 a0 a1 a2 a3 a4 a5 a6 a7 a10 a11) (hM1 a0 a1 a2 a3 a4 a5 a6 a7 a10 a11) (xcat a0 a1 a2 a3 a4 a5)

def mmL : FVec Ideal S50000x64 .f32 := mm64 (mix2 a0 a1 a2 a3 a4 a5 a6 a7 a10 a11) a8
def aggL : FVec Ideal S50000x64 .f32 := agg64 (mmL a0 a1 a2 a3 a4 a5 a6 a7 a8 a10 a11) a1 a2 a3
def gcnL : FVec Ideal S50000x64 .f32 := addBias64 (aggL a0 a1 a2 a3 a4 a5 a6 a7 a8 a10 a11) a9

def out : FVec Ideal S50000x64 .f32 := logSoftmax (gcnL a0 a1 a2 a3 a4 a5 a6 a7 a8 a9 a10 a11)

end Network

end Cert.ReferenceIdeal.RefRun

end
-- ==== Proof.Ref.OpLists.lean ====
import proofs.«165280_j63788854280268_1_alg».proof.ReferenceIdeal
import Idealize.ShloMosaic.Lib.StableHlo.Run

noncomputable section

namespace Cert.ReferenceIdeal.RefRun

open Idealize.ShloMosaic Idealize.SL.Sem Idealize.ShloMosaic.TcCoe Idealize.ShloMosaic.StableHlo
open Cert.ReferenceIdeal.Facts₀

variable [Facts]
variable {F : FTy → Type} [FloatOps F]

def catF64 (a b : FVec F S50000x64 .f32) : FVec F S50000x128 .f32 :=
  concatenate S50000x128 1 [⟨S50000x64, a⟩, ⟨S50000x64, b⟩] concatenates_S50000x64_S50000x64_S50000x128_d1

def catF128 (a b : FVec F S50000x128 .f32) : FVec F S50000x256 .f32 :=
  concatenate S50000x256 1 [⟨S50000x128, a⟩, ⟨S50000x128, b⟩] concatenates_S50000x128_S50000x128_S50000x256_d1

-- The device reference is injective, so a single buffer lies in the image of a list exactly when its reference is in the list.
theorem single_sub_map {W : List (Ref sig .tc)} {y : Ref sig .tc} :
    ({Proc.devRef (τ := τ) .tc y} : Finset (DevRef τ sig)) ⊆ (W.map (Proc.devRef .tc)).toFinset ↔ y ∈ W := by
  rw [Finset.singleton_subset_iff, List.mem_toFinset, List.mem_map_of_injective (Proc.devRef_injective _)]

abbrev wA0 : List (HloOp τ sig (Elt F)) :=
  [ unary main_arg0 main_v0 (extractStridedSlice S1x50000x128 ![0, 0, 0] · slices_S2x50000x128_S1x50000x128_0_0_0),
    reshape main_v0 main_v1 rfl shapeCasts_S1x50000x128_S50000x128,
    unary main_arg4 main_v2 (extractStridedSlice S1x128x64 ![0, 0, 0] · slices_S2x128x64_S1x128x64_0_0_0),
    reshape main_v2 main_v3 rfl shapeCasts_S1x128x64_S128x64,
    unary main_arg5 main_v4 (extractStridedSlice S1x64 ![0, 0] · slices_S2x64_S1x64_0_0),
    reshape main_v4 main_v5 rfl shapeCasts_S1x64_S64,
    binary main_v1 main_v3 main_v6 (fun l r => Host.dotGeneral dot_S50000x128_S128x64_S50000x64_1_0_0_1_n_n none l r),
    unary main_arg3 main_v7 (broadcastInDim S400000x1 ![0] bcast_S400000_S400000x1_0),
    nullary main_c (constantI S_ 32 0#32),
    unary main_c main_v8 (broadcastInDim S400000 ![] bcast_S_S400000),
    binary main_arg1 main_v8 main_v9 (cmpi .slt),
    nullary main_c_0 (constantI S_ 32 50000#32),
    unary main_c_0 main_v10 (broadcastInDim S400000 ![] bcast_S_S400000),
    binary main_arg1 main_v10 main_v11 addi,
    ternary main_v9 main_v11 main_arg1 main_v12 select,
    unary main_v12 main_v13 (broadcastInDim S400000x1 ![0] bcast_S400000_S400000x1_0),
    binary main_v6 main_v13 main_v14 (fun x i => Host.gather gather_S50000x64_S400000x1_S400000x64_1_0_n_n_0_1_164 x i),
    unary main_v7 main_v15 (broadcastInDim S400000x64 ![0, 1] bcast_S400000x1_S400000x64_0_1),
    binary main_v15 main_v14 main_v16 mulf,
    nullary main_cst (constant S_ .f32 0x00000000#32),
    unary main_cst main_v17 (broadcastInDim S50000x64 ![] bcast_S_S50000x64),
    unary main_arg2 main_v18 (broadcastInDim S400000x1 ![0] bcast_S400000_S400000x1_0),
    ternary main_v17 main_v18 main_v16 main_v19 (fun x i u => Host.scatterAdd scatter_S50000x64_S400000x1_S400000x64_1_0_0_1 x i u),
    unary main_v5 main_v20 (broadcastInDim S1x64 ![1] bcast_S64_S1x64_1),
    unary main_v20 main_v21 (broadcastInDim S50000x64 ![0, 1] bcast_S1x64_S50000x64_0_1),
    binary main_v19 main_v21 main_v22 addf ]

abbrev wA0_W : List (Ref sig .tc) := [main_v0, main_v1, main_v2, main_v3, main_v4, main_v5, main_v6, main_v7, main_c, main_v8, main_v9, main_c_0, main_v10, main_v11, main_v12, main_v13, main_v14, main_v15, main_v16, main_cst, main_v17, main_v18, main_v19, main_v20, main_v21, main_v22]

theorem wA0_writes : (wA0 : List (HloOp τ sig (Elt F))).Forall fun op => op.writes ⊆ (wA0_W.map (Proc.devRef (τ := τ) .tc)).toFinset := by
  simp only [List.Forall, nullary_writes, unary_writes, binary_writes, ternary_writes, reshape_writes, single_sub_map]; decide

theorem wA0_sub : (wA0 : List (HloOp τ sig (Elt F))).Forall fun op => op.bufs ⊆ tcRefs τ sig := by
  simp only [List.Forall, nullary_bufs_sub, unary_bufs_sub, binary_bufs_sub, ternary_bufs_sub, reshape_bufs_sub, and_self]

abbrev wA1 : List (HloOp τ sig (Elt F)) :=
  [ nullary main_cst_1 (constant S_ .f32 0x00000000#32),
    binary main_v22 main_cst_1 main_v23 (fun x v => Host.reduceAdd x v reducesTo_S50000x64_S64_d0 h_S_),
    nullary main_cst_2 (constant S_ .f32 0x47435000#32),
    unary main_cst_2 main_v24 (broadcastInDim S64 ![] bcast_S_S64),
    binary main_v23 main_v24 main_v25 Host.divf,
    nullary main_c_3 (constantI S_ 32 0#32),
    TRef.nullary main_call0.cst (constant S_ .f32 0x00000000#32),
    TRef.binary (.of main_v22 : TRef sig ⟨S50000x64, .f32⟩) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v22 : TRef sig ⟨S50000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v25 main_v27 (broadcastInDim S1x64 ![1] bcast_S64_S1x64_1),
    unary main_v27 main_v28 (broadcastInDim S50000x64 ![0, 1] bcast_S1x64_S50000x64_0_1),
    binary main_v22 main_v28 main_v29 subf,
    nullary main_cst_4 (constant S_ .f32 0x3727C5AC#32),
    unary main_cst_4 main_v30 (broadcastInDim S64 ![] bcast_S_S64),
    binary main_v26 main_v30 main_v31 addf,
    unary main_v31 main_v32 Host.rsqrt,
    unary main_v32 main_v33 (broadcastInDim S1x64 ![1] bcast_S64_S1x64_1),
    unary main_v33 main_v34 (broadcastInDim S50000x64 ![0, 1] bcast_S1x64_S50000x64_0_1),
    binary main_v29 main_v34 main_v35 mulf,
    TRef.nullary main_call1.cst (constant S_ .f32 0x00000000#32),
    TRef.unary main_call1.cst main_call1.v0 (broadcastInDim S50000x64 ![] bcast_S_S50000x64),
    TRef.binary (.of main_v35 : TRef sig ⟨S50000x64, .f32⟩) main_call1.v0 main_call1.v1 maximumf ]

abbrev wA1_W : List (Ref sig .tc) := [main_cst_1, main_v23, main_cst_2, main_v24, main_v25, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v26, main_v27, main_v28, main_v29, main_cst_4, main_v30, main_v31, main_v32, main_v33, main_v34, main_v35, main_call1_cst, main_call1_v0, main_v36]

theorem wA1_writes : (wA1 : List (HloOp τ sig (Elt F))).Forall fun op => op.writes ⊆ (wA1_W.map (Proc.devRef (τ := τ) .tc)).toFinset := by
  simp only [List.Forall, nullary_writes, unary_writes, binary_writes, ternary_writes, reshape_writes, single_sub_map]; decide

theorem wA1_sub : (wA1 : List (HloOp τ sig (Elt F))).Forall fun op => op.bufs ⊆ tcRefs τ sig := by
  simp only [List.Forall, nullary_bufs_sub, unary_bufs_sub, binary_bufs_sub, ternary_bufs_sub, reshape_bufs_sub, and_self]

abbrev wA2 : List (HloOp τ sig (Elt F)) :=
  [ unary main_arg0 main_v37 (extractStridedSlice S1x50000x128 ![1, 0, 0] · slices_S2x50000x128_S1x50000x128_1_0_0),
    reshape main_v37 main_v38 rfl shapeCasts_S1x50000x128_S50000x128,
    unary main_arg4 main_v39 (extractStridedSlice S1x128x64 ![1, 0, 0] · slices_S2x128x64_S1x128x64_1_0_0),
    reshape main_v39 main_v40 rfl shapeCasts_S1x128x64_S128x64,
    unary main_arg5 main_v41 (extractStridedSlice S1x64 ![1, 0] · slices_S2x64_S1x64_1_0),
    reshape main_v41 main_v42 rfl shapeCasts_S1x64_S64,
    binary main_v38 main_v40 main_v43 (fun l r => Host.dotGeneral dot_S50000x128_S128x64_S50000x64_1_0_0_1_n_n none l r),
    unary main_arg3 main_v44 (broadcastInDim S400000x1 ![0] bcast_S400000_S400000x1_0),
    nullary main_c_5 (constantI S_ 32 0#32),
    unary main_c_5 main_v45 (broadcastInDim S400000 ![] bcast_S_S400000),
    binary main_arg1 main_v45 main_v46 (cmpi .slt),
    nullary main_c_6 (constantI S_ 32 50000#32),
    unary main_c_6 main_v47 (broadcastInDim S400000 ![] bcast_S_S400000),
    binary main_arg1 main_v47 main_v48 addi,
    ternary main_v46 main_v48 main_arg1 main_v49 select,
    unary main_v49 main_v50 (broadcastInDim S400000x1 ![0] bcast_S400000_S400000x1_0) ]

abbrev wA2_W : List (Ref sig .tc) := [main_v37, main_v38, main_v39, main_v40, main_v41, main_v42, main_v43, main_v44, main_c_5, main_v45, main_v46, main_c_6, main_v47, main_v48, main_v49, main_v50]

theorem wA2_writes : (wA2 : List (HloOp τ sig (Elt F))).Forall fun op => op.writes ⊆ (wA2_W.map (Proc.devRef (τ := τ) .tc)).toFinset := by
  simp only [List.Forall, nullary_writes, unary_writes, binary_writes, ternary_writes, reshape_writes, single_sub_map]; decide

theorem wA2_sub : (wA2 : List (HloOp τ sig (Elt F))).Forall fun op => op.bufs ⊆ tcRefs τ sig := by
  simp only [List.Forall, nullary_bufs_sub, unary_bufs_sub, binary_bufs_sub, ternary_bufs_sub, reshape_bufs_sub, and_self]

abbrev wB0 : List (HloOp τ sig (Elt F)) :=
  [ binary main_v43 main_v50 main_v51 (fun x i => Host.gather gather_S50000x64_S400000x1_S400000x64_1_0_n_n_0_1_164 x i),
    unary main_v44 main_v52 (broadcastInDim S400000x64 ![0, 1] bcast_S400000x1_S400000x64_0_1),
    binary main_v52 main_v51 main_v53 mulf,
    nullary main_cst_7 (constant S_ .f32 0x00000000#32),
    unary main_cst_7 main_v54 (broadcastInDim S50000x64 ![] bcast_S_S50000x64),
    unary main_arg2 main_v55 (broadcastInDim S400000x1 ![0] bcast_S400000_S400000x1_0),
    ternary main_v54 main_v55 main_v53 main_v56 (fun x i u => Host.scatterAdd scatter_S50000x64_S400000x1_S400000x64_1_0_0_1 x i u),
    unary main_v42 main_v57 (broadcastInDim S1x64 ![1] bcast_S64_S1x64_1),
    unary main_v57 main_v58 (broadcastInDim S50000x64 ![0, 1] bcast_S1x64_S50000x64_0_1),
    binary main_v56 main_v58 main_v59 addf ]

abbrev wB0_W : List (Ref sig .tc) := [main_v51, main_v52, main_v53, main_cst_7, main_v54, main_v55, main_v56, main_v57, main_v58, main_v59]

theorem wB0_writes : (wB0 : List (HloOp τ sig (Elt F))).Forall fun op => op.writes ⊆ (wB0_W.map (Proc.devRef (τ := τ) .tc)).toFinset := by
  simp only [List.Forall, nullary_writes, unary_writes, binary_writes, ternary_writes, reshape_writes, single_sub_map]; decide

theorem wB0_sub : (wB0 : List (HloOp τ sig (Elt F))).Forall fun op => op.bufs ⊆ tcRefs τ sig := by
  simp only [List.Forall, nullary_bufs_sub, unary_bufs_sub, binary_bufs_sub, ternary_bufs_sub, reshape_bufs_sub, and_self]

abbrev wB1 : List (HloOp τ sig (Elt F)) :=
  [ nullary main_cst_8 (constant S_ .f32 0x00000000#32),
    binary main_v59 main_cst_8 main_v60 (fun x v => Host.reduceAdd x v reducesTo_S50000x64_S64_d0 h_S_),
    nullary main_cst_9 (constant S_ .f32 0x47435000#32),
    unary main_cst_9 main_v61 (broadcastInDim S64 ![] bcast_S_S64),
    binary main_v60 main_v61 main_v62 Host.divf,
    nullary main_c_10 (constantI S_ 32 0#32),
    TRef.nullary main_call2.cst (constant S_ .f32 0x00000000#32),
    TRef.binary (.of main_v59 : TRef sig ⟨S50000x64, .f32⟩) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (.of main_v59 : TRef sig ⟨S50000x64, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v62 main_v64 (broadcastInDim S1x64 ![1] bcast_S64_S1x64_1),
    unary main_v64 main_v65 (broadcastInDim S50000x64 ![0, 1] bcast_S1x64_S50000x64_0_1),
    binary main_v59 main_v65 main_v66 subf,
    nullary main_cst_11 (constant S_ .f32 0x3727C5AC#32),
    unary main_cst_11 main_v67 (broadcastInDim S64 ![] bcast_S_S64),
    binary main_v63 main_v67 main_v68 addf,
    unary main_v68 main_v69 Host.rsqrt,
    unary main_v69 main_v70 (broadcastInDim S1x64 ![1] bcast_S64_S1x64_1),
    unary main_v70 main_v71 (broadcastInDim S50000x64 ![0, 1] bcast_S1x64_S50000x64_0_1),
    binary main_v66 main_v71 main_v72 mulf,
    TRef.nullary main_call3.cst (constant S_ .f32 0x00000000#32),
    TRef.unary main_call3.cst main_call3.v0 (broadcastInDim S50000x64 ![] bcast_S_S50000x64),
    TRef.binary (.of main_v72 : TRef sig ⟨S50000x64, .f32⟩) main_call3.v0 main_call3.v1 maximumf ]

abbrev wB1_W : List (Ref sig .tc) := [main_cst_8, main_v60, main_cst_9, main_v61, main_v62, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v63, main_v64, main_v65, main_v66, main_cst_11, main_v67, main_v68, main_v69, main_v70, main_v71, main_v72, main_call3_cst, main_call3_v0, main_v73]

theorem wB1_writes : (wB1 : List (HloOp τ sig (Elt F))).Forall fun op => op.writes ⊆ (wB1_W.map (Proc.devRef (τ := τ) .tc)).toFinset := by
  simp only [List.Forall, nullary_writes, unary_writes, binary_writes, ternary_writes, reshape_writes, single_sub_map]; decide

theorem wB1_sub : (wB1 : List (HloOp τ sig (Elt F))).Forall fun op => op.bufs ⊆ tcRefs τ sig := by
  simp only [List.Forall, nullary_bufs_sub, unary_bufs_sub, binary_bufs_sub, ternary_bufs_sub, reshape_bufs_sub, and_self]

abbrev wB2 : List (HloOp τ sig (Elt F)) :=
  [ binary main_v36 main_v73 main_v74 catF64,
    binary main_v74 main_v74 main_v75 catF128,
    binary main_v75 main_arg10 main_v76 (fun l r => Host.dotGeneral dot_S50000x256_S256x1_S50000x1_1_0_0_1_n_n none l r),
    unary main_arg11 main_v77 (broadcastInDim S1x1 ![1] bcast_S1_S1x1_1),
    unary main_v77 main_v78 (broadcastInDim S50000x1 ![0, 1] bcast_S1x1_S50000x1_0_1),
    binary main_v76 main_v78 main_v79 addf,
    unary main_v79 main_v80 Host.negf,
    unary main_v80 main_v81 Host.exp,
    nullary main_cst_12 (constant S_ .f32 0x3F800000#32),
    unary main_cst_12 main_v82 (broadcastInDim S50000x1 ![] bcast_S_S50000x1),
    binary main_v82 main_v81 main_v83 addf,
    nullary main_cst_13 (constant S_ .f32 0x3F800000#32),
    unary main_cst_13 main_v84 (broadcastInDim S50000x1 ![] bcast_S_S50000x1),
    binary main_v84 main_v83 main_v85 Host.divf,
    unary main_v85 main_v86 (broadcastInDim S50000x128 ![0, 1] bcast_S50000x1_S50000x128_0_1),
    binary main_v86 main_v74 main_v87 mulf,
    nullary main_cst_14 (constant S_ .f32 0x3F800000#32),
    unary main_cst_14 main_v88 (broadcastInDim S50000x1 ![] bcast_S_S50000x1),
    binary main_v88 main_v85 main_v89 subf,
    unary main_v89 main_v90 (broadcastInDim S50000x128 ![0, 1] bcast_S50000x1_S50000x128_0_1),
    binary main_v90 main_v74 main_v91 mulf,
    binary main_v87 main_v91 main_v92 addf ]

abbrev wB2_W : List (Ref sig .tc) := [main_v74, main_v75, main_v76, main_v77, main_v78, main_v79, main_v80, main_v81, main_cst_12, main_v82, main_v83, main_cst_13, main_v84, main_v85, main_v86, main_v87, main_cst_14, main_v88, main_v89, main_v90, main_v91, main_v92]

theorem wB2_writes : (wB2 : List (HloOp τ sig (Elt F))).Forall fun op => op.writes ⊆ (wB2_W.map (Proc.devRef (τ := τ) .tc)).toFinset := by
  simp only [List.Forall, nullary_writes, unary_writes, binary_writes, ternary_writes, reshape_writes, single_sub_map]; decide

theorem wB2_sub : (wB2 : List (HloOp τ sig (Elt F))).Forall fun op => op.bufs ⊆ tcRefs τ sig := by
  simp only [List.Forall, nullary_bufs_sub, unary_bufs_sub, binary_bufs_sub, ternary_bufs_sub, reshape_bufs_sub, and_self]

abbrev wB3 : List (HloOp τ sig (Elt F)) :=
  [ unary main_arg6 main_v93 (extractStridedSlice S1x128x128 ![0, 0, 0] · slices_S2x128x128_S1x128x128_0_0_0),
    reshape main_v93 main_v94 rfl shapeCasts_S1x128x128_S128x128,
    unary main_arg7 main_v95 (extractStridedSlice S1x128 ![0, 0] · slices_S2x128_S1x128_0_0),
    reshape main_v95 main_v96 rfl shapeCasts_S1x128_S128,
    binary main_v92 main_v94 main_v97 (fun l r => Host.dotGeneral dot_S50000x128_S128x128_S50000x128_1_0_0_1_n_n none l r),
    unary main_arg3 main_v98 (broadcastInDim S400000x1 ![0] bcast_S400000_S400000x1_0),
    nullary main_c_15 (constantI S_ 32 0#32),
    unary main_c_15 main_v99 (broadcastInDim S400000 ![] bcast_S_S400000),
    binary main_arg1 main_v99 main_v100 (cmpi .slt),
    nullary main_c_16 (constantI S_ 32 50000#32) ]

abbrev wB3_W : List (Ref sig .tc) := [main_v93, main_v94, main_v95, main_v96, main_v97, main_v98, main_c_15, main_v99, main_v100, main_c_16]

theorem wB3_writes : (wB3 : List (HloOp τ sig (Elt F))).Forall fun op => op.writes ⊆ (wB3_W.map (Proc.devRef (τ := τ) .tc)).toFinset := by
  simp only [List.Forall, nullary_writes, unary_writes, binary_writes, ternary_writes, reshape_writes, single_sub_map]; decide

theorem wB3_sub : (wB3 : List (HloOp τ sig (Elt F))).Forall fun op => op.bufs ⊆ tcRefs τ sig := by
  simp only [List.Forall, nullary_bufs_sub, unary_bufs_sub, binary_bufs_sub, ternary_bufs_sub, reshape_bufs_sub, and_self]

abbrev wC0 : List (HloOp τ sig (Elt F)) :=
  [ unary main_c_16 main_v101 (broadcastInDim S400000 ![] bcast_S_S400000),
    binary main_arg1 main_v101 main_v102 addi,
    ternary main_v100 main_v102 main_arg1 main_v103 select,
    unary main_v103 main_v104 (broadcastInDim S400000x1 ![0] bcast_S400000_S400000x1_0),
    binary main_v97 main_v104 main_v105 (fun x i => Host.gather gather_S50000x128_S400000x1_S400000x128_1_0_n_n_0_1_1128 x i),
    unary main_v98 main_v106 (broadcastInDim S400000x128 ![0, 1] bcast_S400000x1_S400000x128_0_1),
    binary main_v106 main_v105 main_v107 mulf,
    nullary main_cst_17 (constant S_ .f32 0x00000000#32),
    unary main_cst_17 main_v108 (broadcastInDim S50000x128 ![] bcast_S_S50000x128),
    unary main_arg2 main_v109 (broadcastInDim S400000x1 ![0] bcast_S400000_S400000x1_0),
    ternary main_v108 main_v109 main_v107 main_v110 (fun x i u => Host.scatterAdd scatter_S50000x128_S400000x1_S400000x128_1_0_0_1 x i u),
    unary main_v96 main_v111 (broadcastInDim S1x128 ![1] bcast_S128_S1x128_1),
    unary main_v111 main_v112 (broadcastInDim S50000x128 ![0, 1] bcast_S1x128_S50000x128_0_1),
    binary main_v110 main_v112 main_v113 addf ]

abbrev wC0_W : List (Ref sig .tc) := [main_v101, main_v102, main_v103, main_v104, main_v105, main_v106, main_v107, main_cst_17, main_v108, main_v109, main_v110, main_v111, main_v112, main_v113]

theorem wC0_writes : (wC0 : List (HloOp τ sig (Elt F))).Forall fun op => op.writes ⊆ (wC0_W.map (Proc.devRef (τ := τ) .tc)).toFinset := by
  simp only [List.Forall, nullary_writes, unary_writes, binary_writes, ternary_writes, reshape_writes, single_sub_map]; decide

theorem wC0_sub : (wC0 : List (HloOp τ sig (Elt F))).Forall fun op => op.bufs ⊆ tcRefs τ sig := by
  simp only [List.Forall, nullary_bufs_sub, unary_bufs_sub, binary_bufs_sub, ternary_bufs_sub, reshape_bufs_sub, and_self]

abbrev wC1 : List (HloOp τ sig (Elt F)) :=
  [ nullary main_cst_18 (constant S_ .f32 0x00000000#32),
    binary main_v113 main_cst_18 main_v114 (fun x v => Host.reduceAdd x v reducesTo_S50000x128_S128_d0 h_S_),
    nullary main_cst_19 (constant S_ .f32 0x47435000#32),
    unary main_cst_19 main_v115 (broadcastInDim S128 ![] bcast_S_S128),
    binary main_v114 main_v115 main_v116 Host.divf,
    nullary main_c_20 (constantI S_ 32 0#32),
    TRef.nullary main_call4.cst (constant S_ .f32 0x00000000#32),
    TRef.binary (.of main_v113 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v113 : TRef sig ⟨S50000x128, .f32⟩) main_call4.v4 main_call4.v5 subf,
    TRef.binary main_call4.v5 main_call4.v5 main_call4.v6 mulf,
    TRef.unary (.of main_c_20 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v116 main_v118 (broadcastInDim S1x128 ![1] bcast_S128_S1x128_1),
    unary main_v118 main_v119 (broadcastInDim S50000x128 ![0, 1] bcast_S1x128_S50000x128_0_1),
    binary main_v113 main_v119 main_v120 subf,
    nullary main_cst_21 (constant S_ .f32 0x3727C5AC#32),
    unary main_cst_21 main_v121 (broadcastInDim S128 ![] bcast_S_S128),
    binary main_v117 main_v121 main_v122 addf,
    unary main_v122 main_v123 Host.rsqrt,
    unary main_v123 main_v124 (broadcastInDim S1x128 ![1] bcast_S128_S1x128_1),
    unary main_v124 main_v125 (broadcastInDim S50000x128 ![0, 1] bcast_S1x128_S50000x128_0_1),
    binary main_v120 main_v125 main_v126 mulf,
    TRef.nullary main_call5.cst (constant S_ .f32 0x00000000#32),
    TRef.unary main_call5.cst main_call5.v0 (broadcastInDim S50000x128 ![] bcast_S_S50000x128),
    TRef.binary (.of main_v126 : TRef sig ⟨S50000x128, .f32⟩) main_call5.v0 main_call5.v1 maximumf ]

abbrev wC1_W : List (Ref sig .tc) := [main_cst_18, main_v114, main_cst_19, main_v115, main_v116, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v117, main_v118, main_v119, main_v120, main_cst_21, main_v121, main_v122, main_v123, main_v124, main_v125, main_v126, main_call5_cst, main_call5_v0, main_v127]

theorem wC1_writes : (wC1 : List (HloOp τ sig (Elt F))).Forall fun op => op.writes ⊆ (wC1_W.map (Proc.devRef (τ := τ) .tc)).toFinset := by
  simp only [List.Forall, nullary_writes, unary_writes, binary_writes, ternary_writes, reshape_writes, single_sub_map]; decide

theorem wC1_sub : (wC1 : List (HloOp τ sig (Elt F))).Forall fun op => op.bufs ⊆ tcRefs τ sig := by
  simp only [List.Forall, nullary_bufs_sub, unary_bufs_sub, binary_bufs_sub, ternary_bufs_sub, reshape_bufs_sub, and_self]

abbrev wC2 : List (HloOp τ sig (Elt F)) :=
  [ binary main_v74 main_v127 main_v128 catF128,
    binary main_v128 main_arg10 main_v129 (fun l r => Host.dotGeneral dot_S50000x256_S256x1_S50000x1_1_0_0_1_n_n none l r),
    unary main_arg11 main_v130 (broadcastInDim S1x1 ![1] bcast_S1_S1x1_1),
    unary main_v130 main_v131 (broadcastInDim S50000x1 ![0, 1] bcast_S1x1_S50000x1_0_1),
    binary main_v129 main_v131 main_v132 addf,
    unary main_v132 main_v133 Host.negf,
    unary main_v133 main_v134 Host.exp,
    nullary main_cst_22 (constant S_ .f32 0x3F800000#32),
    unary main_cst_22 main_v135 (broadcastInDim S50000x1 ![] bcast_S_S50000x1),
    binary main_v135 main_v134 main_v136 addf,
    nullary main_cst_23 (constant S_ .f32 0x3F800000#32),
    unary main_cst_23 main_v137 (broadcastInDim S50000x1 ![] bcast_S_S50000x1),
    binary main_v137 main_v136 main_v138 Host.divf,
    unary main_v138 main_v139 (broadcastInDim S50000x128 ![0, 1] bcast_S50000x1_S50000x128_0_1),
    binary main_v139 main_v127 main_v140 mulf,
    nullary main_cst_24 (constant S_ .f32 0x3F800000#32),
    unary main_cst_24 main_v141 (broadcastInDim S50000x1 ![] bcast_S_S50000x1),
    binary main_v141 main_v138 main_v142 subf,
    unary main_v142 main_v143 (broadcastInDim S50000x128 ![0, 1] bcast_S50000x1_S50000x128_0_1),
    binary main_v143 main_v74 main_v144 mulf,
    binary main_v140 main_v144 main_v145 addf ]

abbrev wC2_W : List (Ref sig .tc) := [main_v128, main_v129, main_v130, main_v131, main_v132, main_v133, main_v134, main_cst_22, main_v135, main_v136, main_cst_23, main_v137, main_v138, main_v139, main_v140, main_cst_24, main_v141, main_v142, main_v143, main_v144, main_v145]

theorem wC2_writes : (wC2 : List (HloOp τ sig (Elt F))).Forall fun op => op.writes ⊆ (wC2_W.map (Proc.devRef (τ := τ) .tc)).toFinset := by
  simp only [List.Forall, nullary_writes, unary_writes, binary_writes, ternary_writes, reshape_writes, single_sub_map]; decide

theorem wC2_sub : (wC2 : List (HloOp τ sig (Elt F))).Forall fun op => op.bufs ⊆ tcRefs τ sig := by
  simp only [List.Forall, nullary_bufs_sub, unary_bufs_sub, binary_bufs_sub, ternary_bufs_sub, reshape_bufs_sub, and_self]

abbrev wC3 : List (HloOp τ sig (Elt F)) :=
  [ unary main_arg6 main_v146 (extractStridedSlice S1x128x128 ![1, 0, 0] · slices_S2x128x128_S1x128x128_1_0_0),
    reshape main_v146 main_v147 rfl shapeCasts_S1x128x128_S128x128,
    unary main_arg7 main_v148 (extractStridedSlice S1x128 ![1, 0] · slices_S2x128_S1x128_1_0),
    reshape main_v148 main_v149 rfl shapeCasts_S1x128_S128,
    binary main_v145 main_v147 main_v150 (fun l r => Host.dotGeneral dot_S50000x128_S128x128_S50000x128_1_0_0_1_n_n none l r),
    unary main_arg3 main_v151 (broadcastInDim S400000x1 ![0] bcast_S400000_S400000x1_0),
    nullary main_c_25 (constantI S_ 32 0#32) ]

abbrev wC3_W : List (Ref sig .tc) := [main_v146, main_v147, main_v148, main_v149, main_v150, main_v151, main_c_25]

theorem wC3_writes : (wC3 : List (HloOp τ sig (Elt F))).Forall fun op => op.writes ⊆ (wC3_W.map (Proc.devRef (τ := τ) .tc)).toFinset := by
  simp only [List.Forall, nullary_writes, unary_writes, binary_writes, ternary_writes, reshape_writes, single_sub_map]; decide

theorem wC3_sub : (wC3 : List (HloOp τ sig (Elt F))).Forall fun op => op.bufs ⊆ tcRefs τ sig := by
  simp only [List.Forall, nullary_bufs_sub, unary_bufs_sub, binary_bufs_sub, ternary_bufs_sub, reshape_bufs_sub, and_self]

abbrev wD0 : List (HloOp τ sig (Elt F)) :=
  [ unary main_c_25 main_v152 (broadcastInDim S400000 ![] bcast_S_S400000),
    binary main_arg1 main_v152 main_v153 (cmpi .slt),
    nullary main_c_26 (constantI S_ 32 50000#32),
    unary main_c_26 main_v154 (broadcastInDim S400000 ![] bcast_S_S400000),
    binary main_arg1 main_v154 main_v155 addi,
    ternary main_v153 main_v155 main_arg1 main_v156 select,
    unary main_v156 main_v157 (broadcastInDim S400000x1 ![0] bcast_S400000_S400000x1_0),
    binary main_v150 main_v157 main_v158 (fun x i => Host.gather gather_S50000x128_S400000x1_S400000x128_1_0_n_n_0_1_1128 x i),
    unary main_v151 main_v159 (broadcastInDim S400000x128 ![0, 1] bcast_S400000x1_S400000x128_0_1),
    binary main_v159 main_v158 main_v160 mulf,
    nullary main_cst_27 (constant S_ .f32 0x00000000#32),
    unary main_cst_27 main_v161 (broadcastInDim S50000x128 ![] bcast_S_S50000x128),
    unary main_arg2 main_v162 (broadcastInDim S400000x1 ![0] bcast_S400000_S400000x1_0),
    ternary main_v161 main_v162 main_v160 main_v163 (fun x i u => Host.scatterAdd scatter_S50000x128_S400000x1_S400000x128_1_0_0_1 x i u),
    unary main_v149 main_v164 (broadcastInDim S1x128 ![1] bcast_S128_S1x128_1),
    unary main_v164 main_v165 (broadcastInDim S50000x128 ![0, 1] bcast_S1x128_S50000x128_0_1),
    binary main_v163 main_v165 main_v166 addf ]

abbrev wD0_W : List (Ref sig .tc) := [main_v152, main_v153, main_c_26, main_v154, main_v155, main_v156, main_v157, main_v158, main_v159, main_v160, main_cst_27, main_v161, main_v162, main_v163, main_v164, main_v165, main_v166]

theorem wD0_writes : (wD0 : List (HloOp τ sig (Elt F))).Forall fun op => op.writes ⊆ (wD0_W.map (Proc.devRef (τ := τ) .tc)).toFinset := by
  simp only [List.Forall, nullary_writes, unary_writes, binary_writes, ternary_writes, reshape_writes, single_sub_map]; decide

theorem wD0_sub : (wD0 : List (HloOp τ sig (Elt F))).Forall fun op => op.bufs ⊆ tcRefs τ sig := by
  simp only [List.Forall, nullary_bufs_sub, unary_bufs_sub, binary_bufs_sub, ternary_bufs_sub, reshape_bufs_sub, and_self]

abbrev wD1 : List (HloOp τ sig (Elt F)) :=
  [ nullary main_cst_28 (constant S_ .f32 0x00000000#32),
    binary main_v166 main_cst_28 main_v167 (fun x v => Host.reduceAdd x v reducesTo_S50000x128_S128_d0 h_S_),
    nullary main_cst_29 (constant S_ .f32 0x47435000#32),
    unary main_cst_29 main_v168 (broadcastInDim S128 ![] bcast_S_S128),
    binary main_v167 main_v168 main_v169 Host.divf,
    nullary main_c_30 (constantI S_ 32 0#32),
    TRef.nullary main_call6.cst (constant S_ .f32 0x00000000#32),
    TRef.binary (.of main_v166 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v166 : TRef sig ⟨S50000x128, .f32⟩) main_call6.v4 main_call6.v5 subf,
    TRef.binary main_call6.v5 main_call6.v5 main_call6.v6 mulf,
    TRef.unary (.of main_c_30 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v169 main_v171 (broadcastInDim S1x128 ![1] bcast_S128_S1x128_1),
    unary main_v171 main_v172 (broadcastInDim S50000x128 ![0, 1] bcast_S1x128_S50000x128_0_1),
    binary main_v166 main_v172 main_v173 subf,
    nullary main_cst_31 (constant S_ .f32 0x3727C5AC#32),
    unary main_cst_31 main_v174 (broadcastInDim S128 ![] bcast_S_S128),
    binary main_v170 main_v174 main_v175 addf,
    unary main_v175 main_v176 Host.rsqrt,
    unary main_v176 main_v177 (broadcastInDim S1x128 ![1] bcast_S128_S1x128_1),
    unary main_v177 main_v178 (broadcastInDim S50000x128 ![0, 1] bcast_S1x128_S50000x128_0_1),
    binary main_v173 main_v178 main_v179 mulf,
    TRef.nullary main_call7.cst (constant S_ .f32 0x00000000#32),
    TRef.unary main_call7.cst main_call7.v0 (broadcastInDim S50000x128 ![] bcast_S_S50000x128),
    TRef.binary (.of main_v179 : TRef sig ⟨S50000x128, .f32⟩) main_call7.v0 main_call7.v1 maximumf ]

abbrev wD1_W : List (Ref sig .tc) := [main_cst_28, main_v167, main_cst_29, main_v168, main_v169, main_c_30, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v170, main_v171, main_v172, main_v173, main_cst_31, main_v174, main_v175, main_v176, main_v177, main_v178, main_v179, main_call7_cst, main_call7_v0, main_v180]

theorem wD1_writes : (wD1 : List (HloOp τ sig (Elt F))).Forall fun op => op.writes ⊆ (wD1_W.map (Proc.devRef (τ := τ) .tc)).toFinset := by
  simp only [List.Forall, nullary_writes, unary_writes, binary_writes, ternary_writes, reshape_writes, single_sub_map]; decide

theorem wD1_sub : (wD1 : List (HloOp τ sig (Elt F))).Forall fun op => op.bufs ⊆ tcRefs τ sig := by
  simp only [List.Forall, nullary_bufs_sub, unary_bufs_sub, binary_bufs_sub, ternary_bufs_sub, reshape_bufs_sub, and_self]

abbrev wD2 : List (HloOp τ sig (Elt F)) :=
  [ unary main_v138 main_v181 (broadcastInDim S50000x128 ![0, 1] bcast_S50000x1_S50000x128_0_1),
    binary main_v181 main_v180 main_v182 mulf,
    nullary main_cst_32 (constant S_ .f32 0x3F800000#32),
    unary main_cst_32 main_v183 (broadcastInDim S50000x1 ![] bcast_S_S50000x1),
    binary main_v183 main_v138 main_v184 subf,
    unary main_v184 main_v185 (broadcastInDim S50000x128 ![0, 1] bcast_S50000x1_S50000x128_0_1),
    binary main_v185 main_v74 main_v186 mulf,
    binary main_v182 main_v186 main_v187 addf,
    binary main_v187 main_arg8 main_v188 (fun l r => Host.dotGeneral dot_S50000x128_S128x64_S50000x64_1_0_0_1_n_n none l r) ]

abbrev wD2_W : List (Ref sig .tc) := [main_v181, main_v182, main_cst_32, main_v183, main_v184, main_v185, main_v186, main_v187, main_v188]

theorem wD2_writes : (wD2 : List (HloOp τ sig (Elt F))).Forall fun op => op.writes ⊆ (wD2_W.map (Proc.devRef (τ := τ) .tc)).toFinset := by
  simp only [List.Forall, nullary_writes, unary_writes, binary_writes, ternary_writes, reshape_writes, single_sub_map]; decide

theorem wD2_sub : (wD2 : List (HloOp τ sig (Elt F))).Forall fun op => op.bufs ⊆ tcRefs τ sig := by
  simp only [List.Forall, nullary_bufs_sub, unary_bufs_sub, binary_bufs_sub, ternary_bufs_sub, reshape_bufs_sub, and_self]

abbrev wD3 : List (HloOp τ sig (Elt F)) :=
  [ unary main_arg3 main_v189 (broadcastInDim S400000x1 ![0] bcast_S400000_S400000x1_0),
    nullary main_c_33 (constantI S_ 32 0#32),
    unary main_c_33 main_v190 (broadcastInDim S400000 ![] bcast_S_S400000),
    binary main_arg1 main_v190 main_v191 (cmpi .slt),
    nullary main_c_34 (constantI S_ 32 50000#32),
    unary main_c_34 main_v192 (broadcastInDim S400000 ![] bcast_S_S400000),
    binary main_arg1 main_v192 main_v193 addi,
    ternary main_v191 main_v193 main_arg1 main_v194 select,
    unary main_v194 main_v195 (broadcastInDim S400000x1 ![0] bcast_S400000_S400000x1_0),
    binary main_v188 main_v195 main_v196 (fun x i => Host.gather gather_S50000x64_S400000x1_S400000x64_1_0_n_n_0_1_164 x i),
    unary main_v189 main_v197 (broadcastInDim S400000x64 ![0, 1] bcast_S400000x1_S400000x64_0_1),
    binary main_v197 main_v196 main_v198 mulf,
    nullary main_cst_35 (constant S_ .f32 0x00000000#32),
    unary main_cst_35 main_v199 (broadcastInDim S50000x64 ![] bcast_S_S50000x64),
    unary main_arg2 main_v200 (broadcastInDim S400000x1 ![0] bcast_S400000_S400000x1_0),
    ternary main_v199 main_v200 main_v198 main_v201 (fun x i u => Host.scatterAdd scatter_S50000x64_S400000x1_S400000x64_1_0_0_1 x i u) ]

abbrev wD3_W : List (Ref sig .tc) := [main_v189, main_c_33, main_v190, main_v191, main_c_34, main_v192, main_v193, main_v194, main_v195, main_v196, main_v197, main_v198, main_cst_35, main_v199, main_v200, main_v201]

theorem wD3_writes : (wD3 : List (HloOp τ sig (Elt F))).Forall fun op => op.writes ⊆ (wD3_W.map (Proc.devRef (τ := τ) .tc)).toFinset := by
  simp only [List.Forall, nullary_writes, unary_writes, binary_writes, ternary_writes, reshape_writes, single_sub_map]; decide

theorem wD3_sub : (wD3 : List (HloOp τ sig (Elt F))).Forall fun op => op.bufs ⊆ tcRefs τ sig := by
  simp only [List.Forall, nullary_bufs_sub, unary_bufs_sub, binary_bufs_sub, ternary_bufs_sub, reshape_bufs_sub, and_self]

abbrev wE0 : List (HloOp τ sig (Elt F)) :=
  [ unary main_arg9 main_v202 (broadcastInDim S1x64 ![1] bcast_S64_S1x64_1),
    unary main_v202 main_v203 (broadcastInDim S50000x64 ![0, 1] bcast_S1x64_S50000x64_0_1),
    binary main_v201 main_v203 main_v204 addf,
    TRef.nullary main_call8.cst (constant S_ .f32 0xFF800000#32),
    TRef.binary (.of main_v204 : TRef sig ⟨S50000x64, .f32⟩) main_call8.cst main_call8.v0 (fun x v => Host.reduce FloatOps.maximumf x v reducesTo_S50000x64_S50000_d1 h_S_),
    TRef.nullary main_call8.cst_0 (constant S_ .f32 0xFF800000#32),
    TRef.unary main_call8.cst_0 main_call8.v1 (broadcastInDim S50000 ![] bcast_S_S50000),
    TRef.binary main_call8.v1 main_call8.v0 main_call8.v2 maximumf,
    TRef.unary main_call8.v2 main_call8.v3 (broadcastInDim S50000x1 ![0] bcast_S50000_S50000x1_0),
    TRef.unary main_call8.v3 main_call8.v4 (broadcastInDim S50000x64 ![0, 1] bcast_S50000x1_S50000x64_0_1),
    TRef.binary (.of main_v204 : TRef sig ⟨S50000x64, .f32⟩) main_call8.v4 main_call8.v5 subf,
    TRef.unary main_call8.v5 main_call8.v6 Host.exp,
    TRef.nullary main_call8.cst_1 (constant S_ .f32 0x00000000#32),
    TRef.binary main_call8.v6 main_call8.cst_1 main_call8.v7 (fun x v => Host.reduceAdd x v reducesTo_S50000x64_S50000_d1 h_S_),
    TRef.unary main_call8.v7 main_call8.v8 (broadcastInDim S50000x1 ![0] bcast_S50000_S50000x1_0),
    TRef.unary main_call8.v8 main_call8.v9 Host.log,
    TRef.unary main_call8.v9 main_call8.v10 (broadcastInDim S50000x64 ![0, 1] bcast_S50000x1_S50000x64_0_1),
    TRef.binary main_call8.v5 main_call8.v10 main_call8.v11 subf ]

abbrev wE0_W : List (Ref sig .tc) := [main_v202, main_v203, main_v204, main_call8_cst, main_call8_v0, main_call8_cst_0, main_call8_v1, main_call8_v2, main_call8_v3, main_call8_v4, main_call8_v5, main_call8_v6, main_call8_cst_1, main_call8_v7, main_call8_v8, main_call8_v9, main_call8_v10, main_v205]

theorem wE0_writes : (wE0 : List (HloOp τ sig (Elt F))).Forall fun op => op.writes ⊆ (wE0_W.map (Proc.devRef (τ := τ) .tc)).toFinset := by
  simp only [List.Forall, nullary_writes, unary_writes, binary_writes, ternary_writes, reshape_writes, single_sub_map]; decide

theorem wE0_sub : (wE0 : List (HloOp τ sig (Elt F))).Forall fun op => op.bufs ⊆ tcRefs τ sig := by
  simp only [List.Forall, nullary_bufs_sub, unary_bufs_sub, binary_bufs_sub, ternary_bufs_sub, reshape_bufs_sub, and_self]

end Cert.ReferenceIdeal.RefRun

end
-- ==== Proof.Ref.Ops.lean ====
import proofs.«165280_j63788854280268_1_alg».proof.Proof.Ref.OpLists

noncomputable section

namespace Cert.ReferenceIdeal.RefRun

open Idealize.ShloMosaic Idealize.SL.Sem Idealize.ShloMosaic.TcCoe Idealize.ShloMosaic.StableHlo
open Cert.ReferenceIdeal.Facts₀

variable [Facts]
variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

abbrev opsP0 : List (HloOp τ sig (Elt F)) := wA0 ++ (wA1 ++ (wA2))

set_option maxRecDepth 16384 in
set_option maxHeartbeats 4000000 in
theorem main_part0_eq (c : Dev nD) : main_part0 (F := F) c = seq opsP0 := rfl

abbrev opsP1 : List (HloOp τ sig (Elt F)) := wB0 ++ (wB1 ++ (wB2 ++ (wB3)))

set_option maxRecDepth 16384 in
set_option maxHeartbeats 4000000 in
theorem main_part1_eq (c : Dev nD) : main_part1 (F := F) c = seq opsP1 := rfl

abbrev opsP2 : List (HloOp τ sig (Elt F)) := wC0 ++ (wC1 ++ (wC2 ++ (wC3)))

set_option maxRecDepth 16384 in
set_option maxHeartbeats 4000000 in
theorem main_part2_eq (c : Dev nD) : main_part2 (F := F) c = seq opsP2 := rfl

abbrev opsP3 : List (HloOp τ sig (Elt F)) := wD0 ++ (wD1 ++ (wD2 ++ (wD3)))

set_option maxRecDepth 16384 in
set_option maxHeartbeats 4000000 in
theorem main_part3_eq (c : Dev nD) : main_part3 (F := F) c = seq opsP3 := rfl

abbrev opsP4 : List (HloOp τ sig (Elt F)) := wE0

set_option maxRecDepth 16384 in
set_option maxHeartbeats 4000000 in
theorem main_part4_eq (c : Dev nD) : main_part4 (F := F) c = seq opsP4 := rfl

abbrev ops : List (HloOp τ sig (Elt F)) := opsP0 ++ (opsP1 ++ (opsP2 ++ (opsP3 ++ opsP4)))

theorem main_eq (c : Dev nD) : main (F := F) c = seq ops := by
  have e : main (F := F) c
      = (main_part0 c >>= fun _ => main_part1 c >>= fun _ => main_part2 c >>= fun _ => main_part3 c >>= fun _ => main_part4 c) := rfl
  rw [e, main_part0_eq c, main_part1_eq c, main_part2_eq c, main_part3_eq c, main_part4_eq c]
  show _ = seq (opsP0 ++ (opsP1 ++ (opsP2 ++ (opsP3 ++ opsP4))))
  rw [seq_append opsP0 (opsP1 ++ (opsP2 ++ (opsP3 ++ opsP4))), seq_append opsP1 (opsP2 ++ (opsP3 ++ opsP4)),
    seq_append opsP2 (opsP3 ++ opsP4), seq_append opsP3 opsP4]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsP0, opsP1, opsP2, opsP3, opsP4, List.forall_append]
  exact ⟨⟨wA0_sub, wA1_sub, wA2_sub⟩, ⟨wB0_sub, wB1_sub, wB2_sub, wB3_sub⟩, ⟨wC0_sub, wC1_sub, wC2_sub, wC3_sub⟩, ⟨wD0_sub, wD1_sub, wD2_sub, wD3_sub⟩, wE0_sub⟩

end Cert.ReferenceIdeal.RefRun

end
-- ==== Proof.Ref.WinA.lean ====
import proofs.«165280_j63788854280268_1_alg».proof.Proof.Ref.Stages
import proofs.«165280_j63788854280268_1_alg».proof.Proof.Ref.Ops

noncomputable section

namespace Cert.ReferenceIdeal.RefRun

open Idealize.ShloMosaic Idealize.SL.Sem Idealize.ShloMosaic.TcCoe Idealize.ShloMosaic.StableHlo
open Cert.ReferenceIdeal.Facts₀

variable [Facts]

set_option maxRecDepth 8192 in
set_option maxHeartbeats 4000000 in
theorem winA0 (V : Valuation τ sig (Elt Ideal)) (a0 : FVec Ideal S2x50000x128 .f32) (a1 a2 : IVec S400000 32) (a3 : FVec Ideal S400000 .f32) (a4 : FVec Ideal S2x128x64 .f32) (a5 : FVec Ideal S2x64 .f32)
    (h0 : V (no_index (Proc.devRef .tc main_arg0)) = a0) (h1 : V (no_index (Proc.devRef .tc main_arg1)) = a1) (h2 : V (no_index (Proc.devRef .tc main_arg2)) = a2)
    (h3 : V (no_index (Proc.devRef .tc main_arg3)) = a3) (h4 : V (no_index (Proc.devRef .tc main_arg4)) = a4) (h5 : V (no_index (Proc.devRef .tc main_arg5)) = a5) :
    after (wA0 (F := Ideal)) V (Proc.devRef .tc main_v22) = gcnI0 a0 a1 a2 a3 a4 a5 := by
  simp only [wA0]
  after_results_simp
  simp only [h0, h1, h2, h3, h4, h5]
  rfl

set_option maxRecDepth 8192 in
set_option maxHeartbeats 8000000 in
theorem winA1 (V : Valuation τ sig (Elt Ideal)) (g : FVec Ideal S50000x64 .f32) (hg : V (no_index (Proc.devRef .tc main_v22)) = g) :
    after (wA1 (F := Ideal)) V (Proc.devRef .tc main_v36) = bnRelu64 g := by
  simp only [wA1]
  after_results_simp
  simp only [hg]
  rfl

set_option maxRecDepth 8192 in
set_option maxHeartbeats 2000000 in
theorem winA2_v42 (V : Valuation τ sig (Elt Ideal)) (a5 : FVec Ideal S2x64 .f32) (h5 : V (no_index (Proc.devRef .tc main_arg5)) = a5) :
    after (wA2 (F := Ideal)) V (Proc.devRef .tc main_v42) = bInit1 a5 := by
  simp only [wA2]
  after_results_simp
  simp only [h5]
  rfl

set_option maxRecDepth 8192 in
set_option maxHeartbeats 2000000 in
theorem winA2_v43 (V : Valuation τ sig (Elt Ideal)) (a0 : FVec Ideal S2x50000x128 .f32) (a4 : FVec Ideal S2x128x64 .f32)
    (h0 : V (no_index (Proc.devRef .tc main_arg0)) = a0) (h4 : V (no_index (Proc.devRef .tc main_arg4)) = a4) :
    after (wA2 (F := Ideal)) V (Proc.devRef .tc main_v43) = mmI1 a0 a4 := by
  simp only [wA2]
  after_results_simp
  simp only [h0, h4]
  rfl

set_option maxRecDepth 8192 in
set_option maxHeartbeats 2000000 in
theorem winA2_v44 (V : Valuation τ sig (Elt Ideal)) (a3 : FVec Ideal S400000 .f32) (h3 : V (no_index (Proc.devRef .tc main_arg3)) = a3) :
    after (wA2 (F := Ideal)) V (Proc.devRef .tc main_v44) = wCol a3 := by
  simp only [wA2]
  after_results_simp
  simp only [h3]
  rfl

set_option maxRecDepth 8192 in
set_option maxHeartbeats 2000000 in
theorem winA2_v50 (V : Valuation τ sig (Elt Ideal)) (a1 : IVec S400000 32) (h1 : V (no_index (Proc.devRef .tc main_arg1)) = a1) :
    after (wA2 (F := Ideal)) V (Proc.devRef .tc main_v50) = srcFix a1 := by
  simp only [wA2]
  after_results_simp
  simp only [h1]
  rfl

end Cert.ReferenceIdeal.RefRun

end
-- ==== Proof.Ref.WinB.lean ====
import proofs.«165280_j63788854280268_1_alg».proof.Proof.Ref.Stages
import proofs.«165280_j63788854280268_1_alg».proof.Proof.Ref.Ops

noncomputable section

namespace Cert.ReferenceIdeal.RefRun

open Idealize.ShloMosaic Idealize.SL.Sem Idealize.ShloMosaic.TcCoe Idealize.ShloMosaic.StableHlo
open Cert.ReferenceIdeal.Facts₀

variable [Facts]

set_option maxRecDepth 8192 in
set_option maxHeartbeats 4000000 in
theorem winB0 (V : Valuation τ sig (Elt Ideal)) (s : FVec Ideal S50000x64 .f32) (a1 a2 : IVec S400000 32) (a3 : FVec Ideal S400000 .f32) (b : FVec Ideal S64 .f32)
    (hs : V (no_index (Proc.devRef .tc main_v43)) = s) (h44 : V (no_index (Proc.devRef .tc main_v44)) = wCol a3) (h50 : V (no_index (Proc.devRef .tc main_v50)) = srcFix a1)
    (h2 : V (no_index (Proc.devRef .tc main_arg2)) = a2) (hb : V (no_index (Proc.devRef .tc main_v42)) = b) :
    after (wB0 (F := Ideal)) V (Proc.devRef .tc main_v59) = addBias64 (agg64 s a1 a2 a3) b := by
  simp only [wB0]
  after_results_simp
  simp only [hs, h44, h50, h2, hb]
  rfl

set_option maxRecDepth 8192 in
set_option maxHeartbeats 8000000 in
theorem winB1 (V : Valuation τ sig (Elt Ideal)) (g : FVec Ideal S50000x64 .f32) (hg : V (no_index (Proc.devRef .tc main_v59)) = g) :
    after (wB1 (F := Ideal)) V (Proc.devRef .tc main_v73) = bnRelu64 g := by
  simp only [wB1]
  after_results_simp
  simp only [hg]
  rfl

set_option maxRecDepth 8192 in
set_option maxHeartbeats 2000000 in
theorem winB2_v74 (V : Valuation τ sig (Elt Ideal)) (h0 h1 : FVec Ideal S50000x64 .f32)
    (hh0 : V (no_index (Proc.devRef .tc main_v36)) = h0) (hh1 : V (no_index (Proc.devRef .tc main_v73)) = h1) :
    after (wB2 (F := Ideal)) V (Proc.devRef .tc main_v74) = cat64 h0 h1 := by
  simp only [wB2]
  after_results_simp
  simp only [hh0, hh1]
  rfl

set_option maxRecDepth 8192 in
set_option maxHeartbeats 4000000 in
theorem winB2_v92 (V : Valuation τ sig (Elt Ideal)) (h0 h1 : FVec Ideal S50000x64 .f32) (a10 : FVec Ideal S256x1 .f32) (a11 : FVec Ideal S1 .f32)
    (hh0 : V (no_index (Proc.devRef .tc main_v36)) = h0) (hh1 : V (no_index (Proc.devRef .tc main_v73)) = h1)
    (h10 : V (no_index (Proc.devRef .tc main_arg10)) = a10) (h11 : V (no_index (Proc.devRef .tc main_arg11)) = a11) :
    after (wB2 (F := Ideal)) V (Proc.devRef .tc main_v92)
      = mix (alpha (cat64 h0 h1) (cat64 h0 h1) a10 a11) (cat64 h0 h1) (cat64 h0 h1) := by
  simp only [wB2]
  after_results_simp
  simp only [hh0, hh1, h10, h11]
  rfl

set_option maxRecDepth 8192 in
set_option maxHeartbeats 2000000 in
theorem winB3_v96 (V : Valuation τ sig (Elt Ideal)) (a7 : FVec Ideal S2x128 .f32) (h7 : V (no_index (Proc.devRef .tc main_arg7)) = a7) :
    after (wB3 (F := Ideal)) V (Proc.devRef .tc main_v96) = bMid0 a7 := by
  simp only [wB3]
  after_results_simp
  simp only [h7]
  rfl

set_option maxRecDepth 8192 in
set_option maxHeartbeats 2000000 in
theorem winB3_v97 (V : Valuation τ sig (Elt Ideal)) (m : FVec Ideal S50000x128 .f32) (a6 : FVec Ideal S2x128x128 .f32)
    (hm : V (no_index (Proc.devRef .tc main_v92)) = m) (h6 : V (no_index (Proc.devRef .tc main_arg6)) = a6) :
    after (wB3 (F := Ideal)) V (Proc.devRef .tc main_v97) = mm128 m (wMid0 a6) := by
  simp only [wB3]
  after_results_simp
  simp only [hm, h6]
  rfl

set_option maxRecDepth 8192 in
set_option maxHeartbeats 2000000 in
theorem winB3_v98 (V : Valuation τ sig (Elt Ideal)) (a3 : FVec Ideal S400000 .f32) (h3 : V (no_index (Proc.devRef .tc main_arg3)) = a3) :
    after (wB3 (F := Ideal)) V (Proc.devRef .tc main_v98) = wCol a3 := by
  simp only [wB3]
  after_results_simp
  simp only [h3]
  rfl

set_option maxRecDepth 8192 in
set_option maxHeartbeats 2000000 in
theorem winB3_v100 (V : Valuation τ sig (Elt Ideal)) (a1 : IVec S400000 32) (h1 : V (no_index (Proc.devRef .tc main_arg1)) = a1) :
    after (wB3 (F := Ideal)) V (Proc.devRef .tc main_v100)
      = cmpi .slt a1 (broadcastInDim S400000 ![] bcast_S_S400000 (constantI S_ 32 0#32)) := by
  simp only [wB3]
  after_results_simp
  simp only [h1]

set_option maxRecDepth 8192 in
set_option maxHeartbeats 2000000 in
theorem winB3_c16 (V : Valuation τ sig (Elt Ideal)) :
    after (wB3 (F := Ideal)) V (Proc.devRef .tc main_c_16) = constantI S_ 32 50000#32 := by
  simp only [wB3]
  after_results_simp

end Cert.ReferenceIdeal.RefRun

end
-- ==== Proof.Ref.WinC.lean ====
import proofs.«165280_j63788854280268_1_alg».proof.Proof.Ref.Stages
import proofs.«165280_j63788854280268_1_alg».proof.Proof.Ref.Ops

noncomputable section

namespace Cert.ReferenceIdeal.RefRun

open Idealize.ShloMosaic Idealize.SL.Sem Idealize.ShloMosaic.TcCoe Idealize.ShloMosaic.StableHlo
open Cert.ReferenceIdeal.Facts₀

variable [Facts]

set_option maxRecDepth 8192 in
set_option maxHeartbeats 4000000 in
theorem winC0 (V : Valuation τ sig (Elt Ideal)) (s : FVec Ideal S50000x128 .f32) (a1 a2 : IVec S400000 32) (a3 : FVec Ideal S400000 .f32) (b : FVec Ideal S128 .f32)
    (hs : V (no_index (Proc.devRef .tc main_v97)) = s) (h98 : V (no_index (Proc.devRef .tc main_v98)) = wCol a3)
    (h100 : V (no_index (Proc.devRef .tc main_v100)) = cmpi .slt a1 (broadcastInDim S400000 ![] bcast_S_S400000 (constantI S_ 32 0#32)))
    (hc : V (no_index (Proc.devRef .tc main_c_16)) = constantI S_ 32 50000#32)
    (h1 : V (no_index (Proc.devRef .tc main_arg1)) = a1) (h2 : V (no_index (Proc.devRef .tc main_arg2)) = a2) (hb : V (no_index (Proc.devRef .tc main_v96)) = b) :
    after (wC0 (F := Ideal)) V (Proc.devRef .tc main_v113) = addBias128 (agg128 s a1 a2 a3) b := by
  simp only [wC0]
  after_results_simp
  simp only [hs, h98, h100, hc, h1, h2, hb]
  rfl

set_option maxRecDepth 8192 in
set_option maxHeartbeats 8000000 in
theorem winC1 (V : Valuation τ sig (Elt Ideal)) (g : FVec Ideal S50000x128 .f32) (hg : V (no_index (Proc.devRef .tc main_v113)) = g) :
    after (wC1 (F := Ideal)) V (Proc.devRef .tc main_v127) = bnRelu128 g := by
  simp only [wC1]
  after_results_simp
  simp only [hg]
  rfl

set_option maxRecDepth 8192 in
set_option maxHeartbeats 4000000 in
theorem winC2_v138 (V : Valuation τ sig (Elt Ideal)) (xc h : FVec Ideal S50000x128 .f32) (a10 : FVec Ideal S256x1 .f32) (a11 : FVec Ideal S1 .f32)
    (hx : V (no_index (Proc.devRef .tc main_v74)) = xc) (hh : V (no_index (Proc.devRef .tc main_v127)) = h)
    (h10 : V (no_index (Proc.devRef .tc main_arg10)) = a10) (h11 : V (no_index (Proc.devRef .tc main_arg11)) = a11) :
    after (wC2 (F := Ideal)) V (Proc.devRef .tc main_v138) = alpha xc h a10 a11 := by
  simp only [wC2]
  after_results_simp
  simp only [hx, hh, h10, h11]
  rfl

set_option maxRecDepth 8192 in
set_option maxHeartbeats 4000000 in
theorem winC2_v145 (V : Valuation τ sig (Elt Ideal)) (xc h : FVec Ideal S50000x128 .f32) (a10 : FVec Ideal S256x1 .f32) (a11 : FVec Ideal S1 .f32)
    (hx : V (no_index (Proc.devRef .tc main_v74)) = xc) (hh : V (no_index (Proc.devRef .tc main_v127)) = h)
    (h10 : V (no_index (Proc.devRef .tc main_arg10)) = a10) (h11 : V (no_index (Proc.devRef .tc main_arg11)) = a11) :
    after (wC2 (F := Ideal)) V (Proc.devRef .tc main_v145) = mix (alpha xc h a10 a11) h xc := by
  simp only [wC2]
  after_results_simp
  simp only [hx, hh, h10, h11]
  rfl

set_option maxRecDepth 8192 in
set_option maxHeartbeats 2000000 in
theorem winC3_v149 (V : Valuation τ sig (Elt Ideal)) (a7 : FVec Ideal S2x128 .f32) (h7 : V (no_index (Proc.devRef .tc main_arg7)) = a7) :
    after (wC3 (F := Ideal)) V (Proc.devRef .tc main_v149) = bMid1 a7 := by
  simp only [wC3]
  after_results_simp
  simp only [h7]
  rfl

set_option maxRecDepth 8192 in
set_option maxHeartbeats 2000000 in
theorem winC3_v150 (V : Valuation τ sig (Elt Ideal)) (m : FVec Ideal S50000x128 .f32) (a6 : FVec Ideal S2x128x128 .f32)
    (hm : V (no_index (Proc.devRef .tc main_v145)) = m) (h6 : V (no_index (Proc.devRef .tc main_arg6)) = a6) :
    after (wC3 (F := Ideal)) V (Proc.devRef .tc main_v150) = mm128 m (wMid1 a6) := by
  simp only [wC3]
  after_results_simp
  simp only [hm, h6]
  rfl

set_option maxRecDepth 8192 in
set_option maxHeartbeats 2000000 in
theorem winC3_v151 (V : Valuation τ sig (Elt Ideal)) (a3 : FVec Ideal S400000 .f32) (h3 : V (no_index (Proc.devRef .tc main_arg3)) = a3) :
    after (wC3 (F := Ideal)) V (Proc.devRef .tc main_v151) = wCol a3 := by
  simp only [wC3]
  after_results_simp
  simp only [h3]
  rfl

set_option maxRecDepth 8192 in
set_option maxHeartbeats 2000000 in
theorem winC3_c25 (V : Valuation τ sig (Elt Ideal)) :
    after (wC3 (F := Ideal)) V (Proc.devRef .tc main_c_25) = constantI S_ 32 0#32 := by
  simp only [wC3]
  after_results_simp

end Cert.ReferenceIdeal.RefRun

end
-- ==== Proof.Ref.WinD.lean ====
import proofs.«165280_j63788854280268_1_alg».proof.Proof.Ref.Stages
import proofs.«165280_j63788854280268_1_alg».proof.Proof.Ref.Ops

noncomputable section

namespace Cert.ReferenceIdeal.RefRun

open Idealize.ShloMosaic Idealize.SL.Sem Idealize.ShloMosaic.TcCoe Idealize.ShloMosaic.StableHlo
open Cert.ReferenceIdeal.Facts₀

variable [Facts]

set_option maxRecDepth 8192 in
set_option maxHeartbeats 4000000 in
theorem winD0 (V : Valuation τ sig (Elt Ideal)) (s : FVec Ideal S50000x128 .f32) (a1 a2 : IVec S400000 32) (a3 : FVec Ideal S400000 .f32) (b : FVec Ideal S128 .f32)
    (hs : V (no_index (Proc.devRef .tc main_v150)) = s) (h151 : V (no_index (Proc.devRef .tc main_v151)) = wCol a3)
    (hc : V (no_index (Proc.devRef .tc main_c_25)) = constantI S_ 32 0#32)
    (h1 : V (no_index (Proc.devRef .tc main_arg1)) = a1) (h2 : V (no_index (Proc.devRef .tc main_arg2)) = a2) (hb : V (no_index (Proc.devRef .tc main_v149)) = b) :
    after (wD0 (F := Ideal)) V (Proc.devRef .tc main_v166) = addBias128 (agg128 s a1 a2 a3) b := by
  simp only [wD0]
  after_results_simp
  simp only [hs, h151, hc, h1, h2, hb]
  rfl

set_option maxRecDepth 8192 in
set_option maxHeartbeats 8000000 in
theorem winD1 (V : Valuation τ sig (Elt Ideal)) (g : FVec Ideal S50000x128 .f32) (hg : V (no_index (Proc.devRef .tc main_v166)) = g) :
    after (wD1 (F := Ideal)) V (Proc.devRef .tc main_v180) = bnRelu128 g := by
  simp only [wD1]
  after_results_simp
  simp only [hg]
  rfl

set_option maxRecDepth 8192 in
set_option maxHeartbeats 4000000 in
theorem winD2 (V : Valuation τ sig (Elt Ideal)) (al : FVec Ideal S50000x1 .f32) (h xc : FVec Ideal S50000x128 .f32) (a8 : FVec Ideal S128x64 .f32)
    (hal : V (no_index (Proc.devRef .tc main_v138)) = al) (hh : V (no_index (Proc.devRef .tc main_v180)) = h) (hx : V (no_index (Proc.devRef .tc main_v74)) = xc) (h8 : V (no_index (Proc.devRef .tc main_arg8)) = a8) :
    after (wD2 (F := Ideal)) V (Proc.devRef .tc main_v188) = mm64 (mix al h xc) a8 := by
  simp only [wD2]
  after_results_simp
  simp only [hal, hh, hx, h8]
  rfl

set_option maxRecDepth 8192 in
set_option maxHeartbeats 4000000 in
theorem winD3 (V : Valuation τ sig (Elt Ideal)) (s : FVec Ideal S50000x64 .f32) (a1 a2 : IVec S400000 32) (a3 : FVec Ideal S400000 .f32)
    (hs : V (no_index (Proc.devRef .tc main_v188)) = s) (h1 : V (no_index (Proc.devRef .tc main_arg1)) = a1) (h2 : V (no_index (Proc.devRef .tc main_arg2)) = a2) (h3 : V (no_index (Proc.devRef .tc main_arg3)) = a3) :
    after (wD3 (F := Ideal)) V (Proc.devRef .tc main_v201) = agg64 s a1 a2 a3 := by
  simp only [wD3]
  after_results_simp
  simp only [hs, h1, h2, h3]
  rfl

end Cert.ReferenceIdeal.RefRun

end
-- ==== Proof.Ref.WinE.lean ====
import proofs.«165280_j63788854280268_1_alg».proof.Proof.Ref.Stages
import proofs.«165280_j63788854280268_1_alg».proof.Proof.Ref.Ops

noncomputable section

namespace Cert.ReferenceIdeal.RefRun

open Idealize.ShloMosaic Idealize.SL.Sem Idealize.ShloMosaic.TcCoe Idealize.ShloMosaic.StableHlo
open Cert.ReferenceIdeal.Facts₀

variable [Facts]

-- Transport along a type equation that holds by computation is the identity.
theorem ofBuf_toBuf {T : BufTy} (x : TRef sig T) (v : T.Contents (Elt Ideal)) :
    x.ofBuf (Val := Elt Ideal) (x.toBuf (Val := Elt Ideal) v) = v := by
  obtain ⟨r, rfl, d, s⟩ := x
  rfl

theorem ofBuf_main_v204 (h1 h2 h3) (X : (main_v204 : Ref sig .tc).ty.Contents (Elt Ideal)) :
    (TRef.of (sig := sig) (T := ⟨S50000x64, .f32⟩) main_v204 h1 h2 h3).ofBuf (Val := Elt Ideal) X = X := rfl

theorem toBuf_main_v205 (h1 h2 h3) (X : (⟨S50000x64, .f32⟩ : BufTy).Contents (Elt Ideal)) :
    (TRef.of (sig := sig) (T := ⟨S50000x64, .f32⟩) main_v205 h1 h2 h3).toBuf (Val := Elt Ideal) X = X := rfl

set_option maxRecDepth 8192 in
set_option maxHeartbeats 4000000 in
theorem winE0 (V : Valuation τ sig (Elt Ideal)) (ag : FVec Ideal S50000x64 .f32) (a9 : FVec Ideal S64 .f32)
    (hag : V (no_index (Proc.devRef .tc main_v201)) = ag) (h9 : V (no_index (Proc.devRef .tc main_arg9)) = a9) :
    after (wE0 (F := Ideal)) V (Proc.devRef .tc main_v205) = logSoftmax (addBias64 ag a9) := by
  simp only [wE0]
  after_results_simp
  simp only [ofBuf_toBuf, ofBuf_main_v204, toBuf_main_v205]
  simp only [hag, h9]
  rfl

end Cert.ReferenceIdeal.RefRun

end
-- ==== Proof.Ref.Run.lean ====
import proofs.«165280_j63788854280268_1_alg».proof.Proof.Ref.Stages
import proofs.«165280_j63788854280268_1_alg».proof.Proof.Ref.Ops
import proofs.«165280_j63788854280268_1_alg».proof.Proof.Ref.WinA
import proofs.«165280_j63788854280268_1_alg».proof.Proof.Ref.WinB
import proofs.«165280_j63788854280268_1_alg».proof.Proof.Ref.WinC
import proofs.«165280_j63788854280268_1_alg».proof.Proof.Ref.WinD
import proofs.«165280_j63788854280268_1_alg».proof.Proof.Ref.WinE

noncomputable section

namespace Cert.ReferenceIdeal.RefRun

open Idealize.ShloMosaic Idealize.SL.Sem Idealize.ShloMosaic.TcCoe Idealize.ShloMosaic.StableHlo
open Cert.ReferenceIdeal.Facts₀

variable [Facts]

abbrev argRefs : List (Ref sig .tc) :=
  [main_arg0, main_arg1, main_arg2, main_arg3, main_arg4, main_arg5, main_arg6, main_arg7, main_arg8, main_arg9, main_arg10, main_arg11]

abbrev ar0 (V0 : Valuation τ sig (Elt Ideal)) : FVec Ideal S2x50000x128 .f32 := V0 (Proc.devRef .tc main_arg0)
abbrev ar1 (V0 : Valuation τ sig (Elt Ideal)) : IVec S400000 32 := V0 (Proc.devRef .tc main_arg1)
abbrev ar2 (V0 : Valuation τ sig (Elt Ideal)) : IVec S400000 32 := V0 (Proc.devRef .tc main_arg2)
abbrev ar3 (V0 : Valuation τ sig (Elt Ideal)) : FVec Ideal S400000 .f32 := V0 (Proc.devRef .tc main_arg3)
abbrev ar4 (V0 : Valuation τ sig (Elt Ideal)) : FVec Ideal S2x128x64 .f32 := V0 (Proc.devRef .tc main_arg4)
abbrev ar5 (V0 : Valuation τ sig (Elt Ideal)) : FVec Ideal S2x64 .f32 := V0 (Proc.devRef .tc main_arg5)
abbrev ar6 (V0 : Valuation τ sig (Elt Ideal)) : FVec Ideal S2x128x128 .f32 := V0 (Proc.devRef .tc main_arg6)
abbrev ar7 (V0 : Valuation τ sig (Elt Ideal)) : FVec Ideal S2x128 .f32 := V0 (Proc.devRef .tc main_arg7)
abbrev ar8 (V0 : Valuation τ sig (Elt Ideal)) : FVec Ideal S128x64 .f32 := V0 (Proc.devRef .tc main_arg8)
abbrev ar9 (V0 : Valuation τ sig (Elt Ideal)) : FVec Ideal S64 .f32 := V0 (Proc.devRef .tc main_arg9)
abbrev ar10 (V0 : Valuation τ sig (Elt Ideal)) : FVec Ideal S256x1 .f32 := V0 (Proc.devRef .tc main_arg10)
abbrev ar11 (V0 : Valuation τ sig (Elt Ideal)) : FVec Ideal S1 .f32 := V0 (Proc.devRef .tc main_arg11)

-- A reference outside the list a stretch writes keeps its contents through the stretch.
theorem keep {ops : List (HloOp τ sig (Elt Ideal))} {W : List (Ref sig .tc)}
    (hW : ops.Forall fun op => op.writes ⊆ (W.map (Proc.devRef (τ := τ) .tc)).toFinset) {V : Valuation τ sig (Elt Ideal)} {r : Ref sig .tc} {x}
    (hr : r ∉ W) (h : V (Proc.devRef .tc r) = x) : after ops V (Proc.devRef .tc r) = x :=
  (after_of_writes_sub ops V hW hr).trans h

abbrev stretches : List (List (HloOp τ sig (Elt Ideal)) × List (Ref sig .tc)) :=
  [(wA0, wA0_W), (wA1, wA1_W), (wA2, wA2_W), (wB0, wB0_W), (wB1, wB1_W), (wB2, wB2_W), (wB3, wB3_W), (wC0, wC0_W), (wC1, wC1_W), (wC2, wC2_W), (wC3, wC3_W), (wD0, wD0_W), (wD1, wD1_W), (wD2, wD2_W), (wD3, wD3_W), (wE0, wE0_W)]

def val (n : Nat) (V0 : Valuation τ sig (Elt Ideal)) : Valuation τ sig (Elt Ideal) :=
  (stretches.take n).foldl (fun V s => after s.1 V) V0

theorem stretches_ok : stretches.Forall fun s => (s.1.Forall fun op => op.writes ⊆ (s.2.map (Proc.devRef (τ := τ) .tc)).toFinset) ∧ ∀ r ∈ argRefs, r ∉ s.2 :=
  ⟨⟨wA0_writes, (by decide : ∀ r ∈ argRefs, r ∉ wA0_W)⟩, ⟨wA1_writes, (by decide : ∀ r ∈ argRefs, r ∉ wA1_W)⟩, ⟨wA2_writes, (by decide : ∀ r ∈ argRefs, r ∉ wA2_W)⟩, ⟨wB0_writes, (by decide : ∀ r ∈ argRefs, r ∉ wB0_W)⟩, ⟨wB1_writes, (by decide : ∀ r ∈ argRefs, r ∉ wB1_W)⟩, ⟨wB2_writes, (by decide : ∀ r ∈ argRefs, r ∉ wB2_W)⟩, ⟨wB3_writes, (by decide : ∀ r ∈ argRefs, r ∉ wB3_W)⟩, ⟨wC0_writes, (by decide : ∀ r ∈ argRefs, r ∉ wC0_W)⟩, ⟨wC1_writes, (by decide : ∀ r ∈ argRefs, r ∉ wC1_W)⟩, ⟨wC2_writes, (by decide : ∀ r ∈ argRefs, r ∉ wC2_W)⟩, ⟨wC3_writes, (by decide : ∀ r ∈ argRefs, r ∉ wC3_W)⟩, ⟨wD0_writes, (by decide : ∀ r ∈ argRefs, r ∉ wD0_W)⟩, ⟨wD1_writes, (by decide : ∀ r ∈ argRefs, r ∉ wD1_W)⟩, ⟨wD2_writes, (by decide : ∀ r ∈ argRefs, r ∉ wD2_W)⟩, ⟨wD3_writes, (by decide : ∀ r ∈ argRefs, r ∉ wD3_W)⟩, ⟨wE0_writes, (by decide : ∀ r ∈ argRefs, r ∉ wE0_W)⟩⟩

-- No stretch writes an argument, so the arguments pass unchanged through any run of stretches.
theorem foldl_arg : ∀ (L : List (List (HloOp τ sig (Elt Ideal)) × List (Ref sig .tc))), (∀ s ∈ L, (fun s => (s.1.Forall fun op => op.writes ⊆ (s.2.map (Proc.devRef (τ := τ) .tc)).toFinset) ∧ ∀ r ∈ argRefs, r ∉ s.2) s) →
    ∀ (V0 : Valuation τ sig (Elt Ideal)), ∀ r ∈ argRefs, L.foldl (fun V s => after s.1 V) V0 (Proc.devRef .tc r) = V0 (Proc.devRef .tc r)
  | [], _, _, _, _ => rfl
  | s :: L, hL, V0, r, hr => by
    rw [List.foldl_cons, foldl_arg L (fun t ht => hL t (List.mem_cons_of_mem _ ht)) _ r hr]
    exact after_of_writes_sub s.1 V0 (hL s List.mem_cons_self).1 ((hL s List.mem_cons_self).2 r hr)

theorem val_arg (n : Nat) (V0 : Valuation τ sig (Elt Ideal)) : ∀ r ∈ argRefs, val n V0 (Proc.devRef .tc r) = V0 (Proc.devRef .tc r) :=
  foldl_arg _ (fun s hs => List.forall_iff_forall_mem.1 stretches_ok s (List.mem_of_mem_take hs)) V0

section Vals
variable (V0 : Valuation τ sig (Elt Ideal))

abbrev h0 := hI0 (ar0 V0) (ar1 V0) (ar2 V0) (ar3 V0) (ar4 V0) (ar5 V0)
abbrev xc := xcat (ar0 V0) (ar1 V0) (ar2 V0) (ar3 V0) (ar4 V0) (ar5 V0)
abbrev al := alpha1 (ar0 V0) (ar1 V0) (ar2 V0) (ar3 V0) (ar4 V0) (ar5 V0) (ar6 V0) (ar7 V0) (ar10 V0) (ar11 V0)

theorem v1_22 : val 1 V0 (Proc.devRef .tc main_v22) = gcnI0 (ar0 V0) (ar1 V0) (ar2 V0) (ar3 V0) (ar4 V0) (ar5 V0) :=
  winA0 V0 _ _ _ _ _ _ rfl rfl rfl rfl rfl rfl
theorem v2_36 : val 2 V0 (Proc.devRef .tc main_v36) = h0 V0 := winA1 (val 1 V0) _ (v1_22 V0)
theorem v3_36 : val 3 V0 (Proc.devRef .tc main_v36) = h0 V0 := keep wA2_writes (by decide) (v2_36 V0)
theorem v3_42 : val 3 V0 (Proc.devRef .tc main_v42) = bInit1 (ar5 V0) := winA2_v42 (val 2 V0) _ (val_arg 2 V0 main_arg5 (by decide))
theorem v3_43 : val 3 V0 (Proc.devRef .tc main_v43) = mmI1 (ar0 V0) (ar4 V0) := winA2_v43 (val 2 V0) _ _ (val_arg 2 V0 main_arg0 (by decide)) (val_arg 2 V0 main_arg4 (by decide))
theorem v3_44 : val 3 V0 (Proc.devRef .tc main_v44) = wCol (ar3 V0) := winA2_v44 (val 2 V0) _ (val_arg 2 V0 main_arg3 (by decide))
theorem v3_50 : val 3 V0 (Proc.devRef .tc main_v50) = srcFix (ar1 V0) := winA2_v50 (val 2 V0) _ (val_arg 2 V0 main_arg1 (by decide))
theorem v4_36 : val 4 V0 (Proc.devRef .tc main_v36) = h0 V0 := keep wB0_writes (by decide) (v3_36 V0)
theorem v4_59 : val 4 V0 (Proc.devRef .tc main_v59) = gcnI1 (ar0 V0) (ar1 V0) (ar2 V0) (ar3 V0) (ar4 V0) (ar5 V0) :=
  winB0 (val 3 V0) _ _ _ _ _ (v3_43 V0) (v3_44 V0) (v3_50 V0) (val_arg 3 V0 main_arg2 (by decide)) (v3_42 V0)
theorem v5_36 : val 5 V0 (Proc.devRef .tc main_v36) = h0 V0 := keep wB1_writes (by decide) (v4_36 V0)
theorem v5_73 : val 5 V0 (Proc.devRef .tc main_v73) = hI1 (ar0 V0) (ar1 V0) (ar2 V0) (ar3 V0) (ar4 V0) (ar5 V0) := winB1 (val 4 V0) _ (v4_59 V0)
theorem v6_74 : val 6 V0 (Proc.devRef .tc main_v74) = xc V0 := winB2_v74 (val 5 V0) _ _ (v5_36 V0) (v5_73 V0)
theorem v6_92 : val 6 V0 (Proc.devRef .tc main_v92) = mix0 (ar0 V0) (ar1 V0) (ar2 V0) (ar3 V0) (ar4 V0) (ar5 V0) (ar10 V0) (ar11 V0) :=
  winB2_v92 (val 5 V0) _ _ _ _ (v5_36 V0) (v5_73 V0) (val_arg 5 V0 main_arg10 (by decide)) (val_arg 5 V0 main_arg11 (by decide))
theorem v7_74 : val 7 V0 (Proc.devRef .tc main_v74) = xc V0 := keep wB3_writes (by decide) (v6_74 V0)
theorem v7_96 : val 7 V0 (Proc.devRef .tc main_v96) = bMid0 (ar7 V0) := winB3_v96 (val 6 V0) _ (val_arg 6 V0 main_arg7 (by decide))
theorem v7_97 : val 7 V0 (Proc.devRef .tc main_v97) = mmM0 (ar0 V0) (ar1 V0) (ar2 V0) (ar3 V0) (ar4 V0) (ar5 V0) (ar6 V0) (ar10 V0) (ar11 V0) := winB3_v97 (val 6 V0) _ _ (v6_92 V0) (val_arg 6 V0 main_arg6 (by decide))
theorem v7_98 : val 7 V0 (Proc.devRef .tc main_v98) = wCol (ar3 V0) := winB3_v98 (val 6 V0) _ (val_arg 6 V0 main_arg3 (by decide))
theorem v7_100 : val 7 V0 (Proc.devRef .tc main_v100)
    = cmpi .slt (ar1 V0) (broadcastInDim S400000 ![] bcast_S_S400000 (constantI S_ 32 0#32)) := winB3_v100 (val 6 V0) _ (val_arg 6 V0 main_arg1 (by decide))
theorem v7_c16 : val 7 V0 (Proc.devRef .tc main_c_16) = constantI S_ 32 50000#32 := winB3_c16 (val 6 V0)
theorem v8_74 : val 8 V0 (Proc.devRef .tc main_v74) = xc V0 := keep wC0_writes (by decide) (v7_74 V0)
theorem v8_113 : val 8 V0 (Proc.devRef .tc main_v113) = gcnM0 (ar0 V0) (ar1 V0) (ar2 V0) (ar3 V0) (ar4 V0) (ar5 V0) (ar6 V0) (ar7 V0) (ar10 V0) (ar11 V0) :=
  winC0 (val 7 V0) _ _ _ _ _ (v7_97 V0) (v7_98 V0) (v7_100 V0) (v7_c16 V0) (val_arg 7 V0 main_arg1 (by decide)) (val_arg 7 V0 main_arg2 (by decide)) (v7_96 V0)
theorem v9_74 : val 9 V0 (Proc.devRef .tc main_v74) = xc V0 := keep wC1_writes (by decide) (v8_74 V0)
theorem v9_127 : val 9 V0 (Proc.devRef .tc main_v127) = hM0 (ar0 V0) (ar1 V0) (ar2 V0) (ar3 V0) (ar4 V0) (ar5 V0) (ar6 V0) (ar7 V0) (ar10 V0) (ar11 V0) := winC1 (val 8 V0) _ (v8_113 V0)
theorem v10_74 : val 10 V0 (Proc.devRef .tc main_v74) = xc V0 := keep wC2_writes (by decide) (v9_74 V0)
theorem v10_138 : val 10 V0 (Proc.devRef .tc main_v138) = al V0 :=
  winC2_v138 (val 9 V0) _ _ _ _ (v9_74 V0) (v9_127 V0) (val_arg 9 V0 main_arg10 (by decide)) (val_arg 9 V0 main_arg11 (by decide))
theorem v10_145 : val 10 V0 (Proc.devRef .tc main_v145) = mix1 (ar0 V0) (ar1 V0) (ar2 V0) (ar3 V0) (ar4 V0) (ar5 V0) (ar6 V0) (ar7 V0) (ar10 V0) (ar11 V0) :=
  winC2_v145 (val 9 V0) _ _ _ _ (v9_74 V0) (v9_127 V0) (val_arg 9 V0 main_arg10 (by decide)) (val_arg 9 V0 main_arg11 (by decide))
theorem v11_74 : val 11 V0 (Proc.devRef .tc main_v74) = xc V0 := keep wC3_writes (by decide) (v10_74 V0)
theorem v11_138 : val 11 V0 (Proc.devRef .tc main_v138) = al V0 := keep wC3_writes (by decide) (v10_138 V0)
theorem v11_149 : val 11 V0 (Proc.devRef .tc main_v149) = bMid1 (ar7 V0) := winC3_v149 (val 10 V0) _ (val_arg 10 V0 main_arg7 (by decide))
theorem v11_150 : val 11 V0 (Proc.devRef .tc main_v150) = mmM1 (ar0 V0) (ar1 V0) (ar2 V0) (ar3 V0) (ar4 V0) (ar5 V0) (ar6 V0) (ar7 V0) (ar10 V0) (ar11 V0) := winC3_v150 (val 10 V0) _ _ (v10_145 V0) (val_arg 10 V0 main_arg6 (by decide))
theorem v11_151 : val 11 V0 (Proc.devRef .tc main_v151) = wCol (ar3 V0) := winC3_v151 (val 10 V0) _ (val_arg 10 V0 main_arg3 (by decide))
theorem v11_c25 : val 11 V0 (Proc.devRef .tc main_c_25) = constantI S_ 32 0#32 := winC3_c25 (val 10 V0)
theorem v12_74 : val 12 V0 (Proc.devRef .tc main_v74) = xc V0 := keep wD0_writes (by decide) (v11_74 V0)
theorem v12_138 : val 12 V0 (Proc.devRef .tc main_v138) = al V0 := keep wD0_writes (by decide) (v11_138 V0)
theorem v12_166 : val 12 V0 (Proc.devRef .tc main_v166) = gcnM1 (ar0 V0) (ar1 V0) (ar2 V0) (ar3 V0) (ar4 V0) (ar5 V0) (ar6 V0) (ar7 V0) (ar10 V0) (ar11 V0) :=
  winD0 (val 11 V0) _ _ _ _ _ (v11_150 V0) (v11_151 V0) (v11_c25 V0) (val_arg 11 V0 main_arg1 (by decide)) (val_arg 11 V0 main_arg2 (by decide)) (v11_149 V0)
theorem v13_74 : val 13 V0 (Proc.devRef .tc main_v74) = xc V0 := keep wD1_writes (by decide) (v12_74 V0)
theorem v13_138 : val 13 V0 (Proc.devRef .tc main_v138) = al V0 := keep wD1_writes (by decide) (v12_138 V0)
theorem v13_180 : val 13 V0 (Proc.devRef .tc main_v180) = hM1 (ar0 V0) (ar1 V0) (ar2 V0) (ar3 V0) (ar4 V0) (ar5 V0) (ar6 V0) (ar7 V0) (ar10 V0) (ar11 V0) := winD1 (val 12 V0) _ (v12_166 V0)
theorem v14_188 : val 14 V0 (Proc.devRef .tc main_v188) = mmL (ar0 V0) (ar1 V0) (ar2 V0) (ar3 V0) (ar4 V0) (ar5 V0) (ar6 V0) (ar7 V0) (ar8 V0) (ar10 V0) (ar11 V0) :=
  winD2 (val 13 V0) _ _ _ _ (v13_138 V0) (v13_180 V0) (v13_74 V0) (val_arg 13 V0 main_arg8 (by decide))
theorem v15_201 : val 15 V0 (Proc.devRef .tc main_v201) = aggL (ar0 V0) (ar1 V0) (ar2 V0) (ar3 V0) (ar4 V0) (ar5 V0) (ar6 V0) (ar7 V0) (ar8 V0) (ar10 V0) (ar11 V0) :=
  winD3 (val 14 V0) _ _ _ _ (v14_188 V0) (val_arg 14 V0 main_arg1 (by decide)) (val_arg 14 V0 main_arg2 (by decide)) (val_arg 14 V0 main_arg3 (by decide))
theorem v16_205 : val 16 V0 (Proc.devRef .tc main_v205) = out (ar0 V0) (ar1 V0) (ar2 V0) (ar3 V0) (ar4 V0) (ar5 V0) (ar6 V0) (ar7 V0) (ar8 V0) (ar9 V0) (ar10 V0) (ar11 V0) :=
  winE0 (val 15 V0) _ _ (v15_201 V0) (val_arg 15 V0 main_arg9 (by decide))

theorem after_ops : after (ops (F := Ideal)) V0 = val 16 V0 := by
  simp only [ops, opsP0, opsP1, opsP2, opsP3, opsP4, after_app]
  rfl

end Vals

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v205)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun s h c =>
      have A : ∀ r ∈ argRefs, s.2.mem ((c.tc : Thread nD τ).loc r) = launchContents m c (Proc.devRef .tc r) := fun r hr =>
        (h c r).trans ((congrFun (after_ops _) _).trans (val_arg 16 _ r hr))
      ⟨(h c main_v205).trans ((congrFun (after_ops _) _).trans (v16_205 _)), A main_arg0 (by decide), A main_arg1 (by decide), A main_arg2 (by decide), A main_arg3 (by decide), A main_arg4 (by decide), A main_arg5 (by decide), A main_arg6 (by decide), A main_arg7 (by decide), A main_arg8 (by decide), A main_arg9 (by decide), A main_arg10 (by decide), A main_arg11 (by decide)⟩)
    (run_seq scopedRefs_eq scopedSems_eq (defs (F := Ideal)) (main (F := Ideal)) (fun _ => ops (F := Ideal)) main_eq (fun _ => ops_sub) m ρ)

end Cert.ReferenceIdeal.RefRun

end
-- ==== Proof.Spec.BnStats.lean ====
import Idealize.ShloMosaic.PureOps.Ideal
import Idealize.ShloMosaic.PureOps.Ideal.Laws
import Idealize.ShloMosaic.Lib.ValueIdx

noncomputable section

namespace Cert.Spec

open scoped BigOperators
open Idealize.ShloMosaic Idealize.ShloMosaic.ValueIdx

def bnMean64 (x : (⟨2, ![50000, 64]⟩ : Shape).Idx → EReal) (b : (⟨2, ![1, 64]⟩ : Shape).Idx → EReal) :
    (⟨2, ![1, 64]⟩ : Shape).Idx → EReal :=
  fun i => (∑ r : Fin 50000, (x (ix2 (n0 := 50000) (n1 := 64) r (i 1)) + b (ix2 (n0 := 1) (n1 := 64) 0 (i 1))))
    * ((1 / 50000 : ℝ) : EReal)

def bnVar64 (x : (⟨2, ![50000, 64]⟩ : Shape).Idx → EReal) (b : (⟨2, ![1, 64]⟩ : Shape).Idx → EReal) :
    (⟨2, ![1, 64]⟩ : Shape).Idx → EReal :=
  fun i => (∑ r : Fin 50000, (x (ix2 (n0 := 50000) (n1 := 64) r (i 1)) + b (ix2 (n0 := 1) (n1 := 64) 0 (i 1)))
        * (x (ix2 (n0 := 50000) (n1 := 64) r (i 1)) + b (ix2 (n0 := 1) (n1 := 64) 0 (i 1))))
      * ((1 / 50000 : ℝ) : EReal)
    - bnMean64 x b i * bnMean64 x b i

def bnMean128 (x : (⟨2, ![50000, 128]⟩ : Shape).Idx → EReal) (b : (⟨2, ![1, 128]⟩ : Shape).Idx → EReal) :
    (⟨2, ![1, 128]⟩ : Shape).Idx → EReal :=
  fun i => (∑ r : Fin 50000, (x (ix2 (n0 := 50000) (n1 := 128) r (i 1)) + b (ix2 (n0 := 1) (n1 := 128) 0 (i 1))))
    * ((1 / 50000 : ℝ) : EReal)

def bnVar128 (x : (⟨2, ![50000, 128]⟩ : Shape).Idx → EReal) (b : (⟨2, ![1, 128]⟩ : Shape).Idx → EReal) :
    (⟨2, ![1, 128]⟩ : Shape).Idx → EReal :=
  fun i => (∑ r : Fin 50000, (x (ix2 (n0 := 50000) (n1 := 128) r (i 1)) + b (ix2 (n0 := 1) (n1 := 128) 0 (i 1)))
        * (x (ix2 (n0 := 50000) (n1 := 128) r (i 1)) + b (ix2 (n0 := 1) (n1 := 128) 0 (i 1))))
      * ((1 / 50000 : ℝ) : EReal)
    - bnMean128 x b i * bnMean128 x b i

theorem bnMean64_ix2 (x : (⟨2, ![50000, 64]⟩ : Shape).Idx → EReal) (b : (⟨2, ![1, 64]⟩ : Shape).Idx → EReal) (k : Fin 64) :
    bnMean64 x b (ix2 0 k) = (∑ r : Fin 50000, (x (ix2 r k) + b (ix2 0 k))) * ((1 / 50000 : ℝ) : EReal) := rfl

theorem bnVar64_ix2 (x : (⟨2, ![50000, 64]⟩ : Shape).Idx → EReal) (b : (⟨2, ![1, 64]⟩ : Shape).Idx → EReal) (k : Fin 64) :
    bnVar64 x b (ix2 0 k) = (∑ r : Fin 50000, (x (ix2 r k) + b (ix2 0 k)) * (x (ix2 r k) + b (ix2 0 k))) * ((1 / 50000 : ℝ) : EReal)
      - ((∑ r : Fin 50000, (x (ix2 r k) + b (ix2 0 k))) * ((1 / 50000 : ℝ) : EReal))
        * ((∑ r : Fin 50000, (x (ix2 r k) + b (ix2 0 k))) * ((1 / 50000 : ℝ) : EReal)) := rfl

theorem bnMean128_ix2 (x : (⟨2, ![50000, 128]⟩ : Shape).Idx → EReal) (b : (⟨2, ![1, 128]⟩ : Shape).Idx → EReal) (k : Fin 128) :
    bnMean128 x b (ix2 0 k) = (∑ r : Fin 50000, (x (ix2 r k) + b (ix2 0 k))) * ((1 / 50000 : ℝ) : EReal) := rfl

theorem bnVar128_ix2 (x : (⟨2, ![50000, 128]⟩ : Shape).Idx → EReal) (b : (⟨2, ![1, 128]⟩ : Shape).Idx → EReal) (k : Fin 128) :
    bnVar128 x b (ix2 0 k) = (∑ r : Fin 50000, (x (ix2 r k) + b (ix2 0 k)) * (x (ix2 r k) + b (ix2 0 k))) * ((1 / 50000 : ℝ) : EReal)
      - ((∑ r : Fin 50000, (x (ix2 r k) + b (ix2 0 k))) * ((1 / 50000 : ℝ) : EReal))
        * ((∑ r : Fin 50000, (x (ix2 r k) + b (ix2 0 k))) * ((1 / 50000 : ℝ) : EReal)) := rfl

def rowAt {M : Type*} [Zero M] {N : ℕ} (y : Fin N → M) (R : ℕ) : M := if h : R < N then y ⟨R, h⟩ else 0

theorem rowAt_lt {M : Type*} [Zero M] {N : ℕ} (y : Fin N → M) (R : ℕ) (h : R < N) : rowAt y R = y ⟨R, h⟩ := dif_pos h

theorem sum_eq_sum_range_rowAt {M : Type*} [AddCommMonoid M] {N : ℕ} (y : Fin N → M) :
    ∑ R : Fin N, y R = ∑ R ∈ Finset.range N, rowAt y R := by
  rw [Finset.sum_range]
  exact Finset.sum_congr rfl fun R _ => (rowAt_lt y R.val R.isLt).symm

theorem sum_blocks {M : Type*} [AddCommMonoid M] (W : ℕ) (f : ℕ → M) :
    ∀ n : ℕ, ∑ s ∈ Finset.range n, ∑ r : Fin W, f (W * s + r.val) = ∑ R ∈ Finset.range (W * n), f R
  | 0 => by simp
  | n + 1 => by
    rw [Finset.sum_range_succ, sum_blocks W f n, Nat.mul_succ, Finset.sum_range_add, Finset.sum_range (fun r => f (W * n + r))]

theorem sum_ten_blocks {M : Type*} [AddCommMonoid M] (y : Fin 50000 → M) :
    ∑ s ∈ Finset.range 10, ∑ r : Fin 5000, rowAt y (5000 * s + r.val) = ∑ R : Fin 50000, y R := by
  rw [sum_blocks 5000 (rowAt y) 10, sum_eq_sum_range_rowAt]

end Cert.Spec

end
-- ==== Proof.KI.VCommon.lean ====
import proofs.«165280_j63788854280268_1_alg».proof.Proof.Gen.KernelIdeal.Skeleton
import proofs.«165280_j63788854280268_1_alg».proof.Proof.Spec.BnStats
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

theorem origin2 : (![0, 0] : Fin 2 → Nat) = fun _ => 0 := funext fun a => by fin_cases a <;> rfl

-- in an M×K by K×N product the operands are read at (p, k) and (k, q), so entry (p, q) sums over the shared axis
theorem plain_matmul_at {M K N : Nat} {φ₁ φ₂ : FTy} {d : DotDims ⟨2, ![M, K]⟩ ⟨2, ![K, N]⟩ ⟨2, ![M, N]⟩}
    (hd : d = DotDims.plain M K N) (prec : Option ContractPrecision)
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q)
      = ∑ k : Fin K, x (ix2 p k) * w (ix2 k q) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have hl : (DotDims.plain M K N).lhsIdx (ix2 p q) ((contrEquiv1 (DotDims.plain M K N) K rfl rfl).symm k) = ix2 p k :=
    Shape.idx_ext₂ rfl hk
  have hr : (DotDims.plain M K N).rhsIdx (ix2 p q) ((contrEquiv1 (DotDims.plain M K N) K rfl rfl).symm k) = ix2 k q :=
    Shape.idx_ext₂ hk rfl
  rw [hl, hr]

theorem inv_rows : Named.named (F := Ideal) κ "inv_50000" (φ := .f32) 0x37A7C5AC#32 = ((1 / 50000 : ℝ) : EReal) :=
  IdealRules.named_const.ideal_named_scalar _ _ _ _ rfl

theorem zero_row_at {n : Nat} (h : (⟨2, ![1, n]⟩ : Shape).ShapeCasts ⟨2, ![1, n]⟩) (j : Fin n) :
    shapeCast ⟨2, ![1, n]⟩ (broadcast ⟨2, ![1, n]⟩ (Ideal.ofBits .f32 0x00000000#32)) h (ix2 0 j) = 0 := by
  rw [shapeCast_self]; exact Ideal.ofBits_zero_f32

theorem shift_at {m n : Nat} (x : Vec Ideal ⟨2, ![m, n]⟩ .f32) (b : Vec Ideal ⟨2, ![1, n]⟩ .f32) (h₁ h₂ h₃) (r : Fin m) (j : Fin n) :
    addf (F := Ideal) (φ := .f32) (shapeCast ⟨2, ![m, n]⟩ x h₁) (broadcastTo ⟨2, ![m, n]⟩ (shapeCast ⟨2, ![1, n]⟩ b h₂) h₃) (ix2 r j)
      = x (ix2 r j) + b (ix2 0 j) := by
  rw [shapeCast_self, shapeCast_self]
  exact congrArg (x (ix2 r j) + ·) (broadcastTo_1b_ab_apply b h₃ r j)

-- a running row plus the column sums of a block
theorem add_colsum_at {m n : Nat} (acc : Vec Ideal ⟨2, ![1, n]⟩ .f32) (y : FVec Ideal ⟨2, ![m, n]⟩ .f32)
    (hr : (⟨2, ![m, n]⟩ : Shape).Reduces [0] ⟨1, ![n]⟩) (h₁ h₂) (j : Fin n) :
    shapeCast ⟨2, ![1, n]⟩ (addf acc (shapeCast ⟨2, ![1, n]⟩
        (multiReduction (F := Ideal) .add [0] ⟨1, ![n]⟩ y 0x00000000#32 hr (.inl rfl) rfl) h₁)) h₂ (ix2 0 j)
      = acc (ix2 0 j) + ∑ r : Fin m, y (ix2 r j) := by
  rw [shapeCast_self]
  refine congrArg (acc (ix2 0 j) + ·) ?_
  refine (shapeCast_addUnit_apply ![n] _ h₁ (ix2 0 j)).trans ?_
  refine (Ideal.multiReduction_add_single y _ hr (.inl rfl) rfl _).trans ?_
  refine Finset.sum_congr rfl fun r _ => congrArg y ?_
  funext a; match a with | ⟨0, _⟩ => rfl | ⟨1, _⟩ => rfl

-- an array whose rows are cut into blocks of B rows: row r lies in block r / B
theorem mem_rowblock {n0 n1 B : Nat} (hB : 0 < B) (i : (⟨2, ![n0, n1]⟩ : Shape).Idx) {off size : Fin 2 → Nat}
    {inb : ∀ a, off a + size a ≤ (⟨2, ![n0, n1]⟩ : Shape).size a}
    (ho0 : off 0 = (i 0).val / B * B) (hs0 : size 0 = B) (ho1 : off 1 = 0) (hs1 : size 1 = n1) :
    i ∈ (Rect.unit off size inb).set := by
  rw [Rect.mem_set_unit]
  intro a
  match a with
  | ⟨0, _⟩ =>
    show off 0 ≤ (i 0).val ∧ (i 0).val < off 0 + size 0
    rw [ho0, hs0]; exact ⟨Nat.div_mul_le_self _ _, Nat.lt_div_mul_add hB⟩
  | ⟨1, _⟩ =>
    show off 1 ≤ (i 1).val ∧ (i 1).val < off 1 + size 1
    rw [ho1, hs1]; exact ⟨Nat.zero_le _, by rw [Nat.zero_add]; exact (i 1).isLt⟩

-- a block at offset zero as large as the array holds every index
theorem mem_whole_block {s : Shape} (i : s.Idx) {off size : Fin s.rank → Nat} {inb : ∀ a, off a + size a ≤ s.size a}
    (ho : ∀ a, off a = 0) (hs : ∀ a, size a = s.size a) : i ∈ (Rect.unit off size inb).set :=
  Rect.mem_set_unit.2 fun a => by rw [ho a, hs a, Nat.zero_add]; exact ⟨Nat.zero_le _, (i a).isLt⟩

-- ten blocks of 5000 rows: a total that starts at the first block's sum and adds each later block's is the sum over all rows
theorem ten_blocks_sum (f : Fin 50000 → EReal) (S : ℕ → EReal) (g : ℕ → Fin 5000 → EReal)
    (h0 : S 0 = 0 + ∑ r, g 0 r) (hs : ∀ n, S (n + 1) = S n + ∑ r, g (n + 1) r)
    (hg : ∀ n (hn : n < 10) (r : Fin 5000), g n r = f ⟨5000 * n + r.val, by omega⟩) :
    S 9 = ∑ R, f R := by
  have key : ∀ n, n < 10 →
      S n = ∑ s ∈ Finset.range (n + 1), ∑ r : Fin 5000, Cert.Spec.rowAt f (5000 * s + r.val) := by
    intro n
    induction n with
    | zero =>
      intro hn
      rw [h0, zero_add, Finset.sum_range_one]
      exact Finset.sum_congr rfl fun r _ => by rw [hg 0 hn r, Cert.Spec.rowAt_lt]
    | succ n ih =>
      intro hn
      rw [hs, ih (by omega), Finset.sum_range_succ _ (n + 1)]
      exact congrArg _ (Finset.sum_congr rfl fun r _ => by rw [hg _ hn r, Cert.Spec.rowAt_lt])
  rw [key 9 (by decide)]
  exact Cert.Spec.sum_ten_blocks _

end Cert.KernelIdeal.Hand

end
-- ==== Proof.Spec.Matmul.lean ====
import Idealize.ShloMosaic.PureOps.Ideal
import Idealize.ShloMosaic.PureOps.Ideal.Laws
import Idealize.ShloMosaic.Lib.ValueIdx

noncomputable section

namespace Cert.Spec

open scoped BigOperators
open Idealize.ShloMosaic Idealize.ShloMosaic.ValueIdx

def matProd64 (x : (⟨2, ![50000, 128]⟩ : Shape).Idx → EReal) (w : (⟨2, ![128, 64]⟩ : Shape).Idx → EReal) :
    (⟨2, ![50000, 64]⟩ : Shape).Idx → EReal :=
  fun i => ∑ k : Fin 128, x (ix2 (n0 := 50000) (n1 := 128) (i 0) k) * w (ix2 (n0 := 128) (n1 := 64) k (i 1))

def matProd128 (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (n0 := 50000) (n1 := 128) (i 0) k) * w (ix2 (n0 := 128) (n1 := 128) k (i 1))

theorem matProd64_ix2 (x : (⟨2, ![50000, 128]⟩ : Shape).Idx → EReal) (w : (⟨2, ![128, 64]⟩ : Shape).Idx → EReal)
    (r : Fin 50000) (j : Fin 64) :
    matProd64 x w (ix2 r j) = ∑ k : Fin 128, x (ix2 r k) * w (ix2 k j) := rfl

theorem matProd128_ix2 (x : (⟨2, ![50000, 128]⟩ : Shape).Idx → EReal) (w : (⟨2, ![128, 128]⟩ : Shape).Idx → EReal)
    (r : Fin 50000) (j : Fin 128) :
    matProd128 x w (ix2 r j) = ∑ k : Fin 128, x (ix2 r k) * w (ix2 k j) := rfl

end Cert.Spec

end
-- ==== Proof.KI.V0.lean ====
import proofs.«165280_j63788854280268_1_alg».proof.Proof.KI.R0
import proofs.«165280_j63788854280268_1_alg».proof.Proof.KI.VCommon
import proofs.«165280_j63788854280268_1_alg».proof.Proof.Spec.Matmul

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pay_at0 (x : Vec Ideal S5000x128 .f32) (w : Vec Ideal S128x64 .f32) (p : Fin 5000) (q : Fin 64) :
    k0_pay1 (F := Ideal) x w (ix2 p q) = ∑ k : Fin 128, x (ix2 p k) * w (ix2 k q) :=
  (plain_matmul_at rfl none _ _ p q).trans (by simp only [truncf_apply, shapeCast_self])

theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq0 (c : Dev nD) (t : Fin cfg0.N) :
    (dat0 V c).flushed 2 t = ((cfg0.win 2).blk t).view.read (Elt Ideal)
      (Cert.Spec.matProd64 (V c (Pipeline.arrRef spec0 0)) (V c (Pipeline.arrRef spec0 1))) := by
  show (cfg0.win 2).cut (grid0.coords t) ((dat0 V c).after 2 t) = _
  rw [after_prod0]
  unfold product0
  rw [View.canon_unit_zero origin2]
  simp only [View.ld_unit_zero (S := S5000x128) origin2, View.ld_unit_zero (S := S128x64) origin2]
  obtain ⟨e00, e01, e10, e11, e20, e21⟩ := index_facts0 t
  funext j
  obtain ⟨p, q, rfl⟩ : ∃ (p : Fin 5000) (q : Fin 64), j = ix2 p q := ⟨j 0, j 1, eq_ix2 j⟩
  show k0_pay1 (F := Ideal) (blockAt0 V c 0 t) (blockAt0 V c 1 t) (ix2 p q)
    = Cert.Spec.matProd64 (V c (Pipeline.arrRef spec0 0)) (V c (Pipeline.arrRef spec0 1)) (((cfg0.win 2).blk t).view.emb (ix2 p q))
  rw [pay_at0]
  have ht : t.val < 10 := Nat.lt_of_lt_of_eq t.isLt N_0
  have hE : ((cfg0.win 2).blk t).view.emb (ix2 p q)
      = ix2 (n0 := 50000) (n1 := 64) ⟨t.val * 5000 + p.val, by omega⟩ q := by
    funext a; apply Fin.ext
    match a with
    | ⟨0, _⟩ =>
      show win0_2.index t (0 : Fin 2) * 5000 + 1 * p.val = t.val * 5000 + p.val
      omega
    | ⟨1, _⟩ =>
      show win0_2.index t (1 : Fin 2) * 64 + 1 * q.val = q.val
      omega
  rw [hE, Cert.Spec.matProd64_ix2]
  refine Finset.sum_congr rfl fun k _ => ?_
  have hx : blockAt0 V c 0 t (ix2 p k) = V c (Pipeline.arrRef spec0 0)
      (ix2 (n0 := 50000) (n1 := 128) ⟨t.val * 5000 + p.val, by omega⟩ k) := by
    show V c (Pipeline.arrRef spec0 0) (((cfg0.win 0).blk t).view.emb (ix2 p k)) = _
    refine congrArg _ (funext fun a => Fin.ext ?_)
    match a with
    | ⟨0, _⟩ =>
      show win0_0.index t (0 : Fin 2) * 5000 + 1 * p.val = t.val * 5000 + p.val
      omega
    | ⟨1, _⟩ =>
      show win0_0.index t (1 : Fin 2) * 128 + 1 * k.val = k.val
      omega
  have hw : blockAt0 V c 1 t (ix2 k q) = V c (Pipeline.arrRef spec0 1) (ix2 (n0 := 128) (n1 := 64) k q) := by
    show V c (Pipeline.arrRef spec0 1) (((cfg0.win 1).blk t).view.emb (ix2 k q)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = q.val
      omega
  rw [hx, hw]

theorem covered0 (i : S50000x64.Idx) :
    ∃ t : Fin cfg0.N, (cfg0.win 2).flush t = true ∧ i ∈ ((cfg0.win 2).blk t).view.set := by
  have hi : (i 0).val < 50000 := (i 0).isLt
  obtain ⟨t, ht⟩ : ∃ t : Fin cfg0.N, t.val = (i 0).val / 5000 :=
    ⟨⟨_, by rw [show cfg0.N = 10 from N_0]; omega⟩, rfl⟩
  obtain ⟨-, -, -, -, e20, e21⟩ := index_facts0 t
  refine ⟨t, flush0_2 t, ?_⟩
  show i ∈ ((View.whole main_v4).slice (win0_2.rect t)).set
  rw [View.set_slice_whole]
  exact mem_rowblock (B := 5000) (by decide) i (by show win0_2.index t 0 * 5000 = _; rw [e20, ht])
    (by rfl) (by show win0_2.index t 1 * 64 = 0; rw [e21, Nat.zero_mul]) (by rfl)

theorem val0_2 (c : Dev nD) :
    (dat0 V c).arrAt 2 cfg0.N
      = Cert.Spec.matProd64 (V c (Pipeline.arrRef spec0 0)) (V c (Pipeline.arrRef spec0 1)) :=
  (dat0 V c).arrAt_eq_of_cover 2 _ (fun t _ => flushed_eq0 V c t) covered0

end Cert.KernelIdeal.Hand

end
-- ==== Proof.KI.V1.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.Spec.BnStats
import proofs.«165280_j63788854280268_1_alg».proof.Proof.KI.R1
import Idealize.ShloMosaic.Lib.Pipeline.FrameBody
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem pay1_1_at (j : Fin 64) : k1_pay1 (F := Ideal) (ix2 0 j) = 0 := zero_row_at _ j

theorem pay1_2_at (j : Fin 64) : k1_pay2 (F := Ideal) (ix2 0 j) = 0 := zero_row_at _ j

theorem pay1_3_at (v3 : Vec Ideal S5000x64 .f32) (v5 : Vec Ideal S1x64 .f32) (r : Fin 5000) (j : Fin 64) :
    k1_pay3 v3 v5 (ix2 r j) = v3 (ix2 r j) + v5 (ix2 0 j) := shift_at v3 v5 _ _ _ r j

theorem pay1_4_at (v3 : Vec Ideal S5000x64 .f32) (v5 : Vec Ideal S1x64 .f32) (v9 : Vec Ideal S1x64 .f32) (j : Fin 64) :
    k1_pay4 v3 v5 v9 (ix2 0 j) = v9 (ix2 0 j) + ∑ r : Fin 5000, (v3 (ix2 r j) + v5 (ix2 0 j)) :=
  (add_colsum_at v9 (k1_pay3 v3 v5) _ _ _ j).trans
    (congrArg _ (Finset.sum_congr rfl fun r _ => pay1_3_at v3 v5 r j))

theorem pay1_5_at (v3 : Vec Ideal S5000x64 .f32) (v5 : Vec Ideal S1x64 .f32) (v16 : Vec Ideal S1x64 .f32) (j : Fin 64) :
    k1_pay5 v3 v5 v16 (ix2 0 j) = v16 (ix2 0 j) + ∑ r : Fin 5000, (v3 (ix2 r j) + v5 (ix2 0 j)) * (v3 (ix2 r j) + v5 (ix2 0 j)) :=
  (add_colsum_at v16 (mulf (k1_pay3 v3 v5) (k1_pay3 v3 v5)) _ _ _ j).trans
    (congrArg _ (Finset.sum_congr rfl fun r _ => by
      show k1_pay3 v3 v5 (ix2 r j) * k1_pay3 v3 v5 (ix2 r j) = _
      rw [pay1_3_at]))

theorem pay1_6_at (v27 : Vec Ideal S1x64 .f32) (j : Fin 64) :
    k1_pay6 v27 (ix2 0 j) = v27 (ix2 0 j) * ((1 / 50000 : ℝ) : EReal) := congrArg (v27 (ix2 0 j) * ·) inv_rows

theorem pay1_7_at (v27 v30 : Vec Ideal S1x64 .f32) (j : Fin 64) :
    k1_pay7 v27 v30 (ix2 0 j) = v30 (ix2 0 j) * ((1 / 50000 : ℝ) : EReal)
      - (v27 (ix2 0 j) * ((1 / 50000 : ℝ) : EReal)) * (v27 (ix2 0 j) * ((1 / 50000 : ℝ) : EReal)) := by
  unfold k1_pay7
  show v30 (ix2 0 j) * Named.named (F := Ideal) κ "inv_50000" (φ := .f32) 0x37A7C5AC#32
      - k1_pay6 v27 (ix2 0 j) * k1_pay6 v27 (ix2 0 j) = _
  rw [inv_rows, pay1_6_at]

variable (V : (c : Dev nD) → (b : Ref sig .tc) → Buf (Elt Ideal) ((c : Thread nD τ).loc b))

abbrev xarr1 (c : Dev nD) : Vec Ideal S50000x64 .f32 := V c (Pipeline.arrRef spec1 0)
abbrev barr1 (c : Dev nD) : Vec Ideal S1x64 .f32 := V c (Pipeline.arrRef spec1 1)

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

theorem xblk1_at (c : Dev nD) (t : Fin cfg1.N) (r : Fin 5000) (j : Fin 64) (h : 5000 * t.val + r.val < 50000) :
    (iblk1 V c 0 t : Vec Ideal S5000x64 .f32) (ix2 r j) = xarr1 V c (ix2 ⟨5000 * t.val + r.val, h⟩ j) := by
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = 5000 * t.val + r.val; rw [(idx1_0 t).1]; omega
  | ⟨1, _⟩ => show win1_0.index t 1 * 64 + 1 * j.val = j.val; rw [(idx1_0 t).2]; omega

theorem bblk1_at (c : Dev nD) (t : Fin cfg1.N) (j : Fin 64) :
    (iblk1 V c 1 t : Vec Ideal S1x64 .f32) (ix2 0 j) = barr1 V c (ix2 0 j) := by
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [(idx1_1 t).1]
  | ⟨1, _⟩ => show win1_1.index t 1 * 64 + 1 * j.val = j.val; rw [(idx1_1 t).2]; omega

def ycol1 (c : Dev nD) (j : Fin 64) : Fin 50000 → EReal := fun R => xarr1 V c (ix2 R j) + barr1 V c (ix2 0 j)

theorem pt1_lt (n : ℕ) (hn : n < 10) : (pt1 n).val = n := Nat.mod_eq_of_lt hn

theorem block1_at (c : Dev nD) (n : ℕ) (hn : n < 10) (j : Fin 64) (r : Fin 5000) :
    (xAt1 V c n) (ix2 r j) + (bAt1 V c n) (ix2 0 j)
      = ycol1 V c j ⟨5000 * n + r.val, by have := r.isLt; omega⟩ := by
  have hr : r.val < 5000 := r.isLt
  have hlt : 5000 * (pt1 n).val + r.val < 50000 := by rw [pt1_lt n hn]; omega
  unfold xAt1 bAt1
  rw [xblk1_at V c (pt1 n) r j hlt, bblk1_at V c (pt1 n) j]
  unfold ycol1
  refine congrArg (· + barr1 V c (ix2 0 j)) (congrArg (xarr1 V c) ?_)
  funext a; apply Fin.ext
  match a with
  | ⟨0, _⟩ => show 5000 * (pt1 n).val + r.val = 5000 * n + r.val; rw [pt1_lt n hn]
  | ⟨1, _⟩ => rfl

theorem sum1_last (c : Dev nD) (j : Fin 64) : sum1 V c 9 (ix2 0 j) = ∑ R : Fin 50000, ycol1 V c j R :=
  ten_blocks_sum _ (fun n => sum1 V c n (ix2 0 j)) (fun n r => xAt1 V c n (ix2 r j) + bAt1 V c n (ix2 0 j))
    (by
      rw [sum1_zero V c 0 rfl, View.ld_unit_zero (S := S5000x64) origin2, View.ld_unit_zero (S := S1x64) origin2]
      exact (pay1_4_at _ _ _ j).trans (by rw [pay1_1_at]))
    (fun n => by
      rw [sum1_pos V c (n + 1) n.succ_ne_zero, View.ld_unit_zero (S := S5000x64) origin2, View.ld_unit_zero (S := S1x64) origin2]
      exact (pay1_4_at _ _ _ j).trans (by rw [Nat.add_sub_cancel]))
    fun n hn r => block1_at V c n hn j r

theorem sq1_last (c : Dev nD) (j : Fin 64) :
    sq1 V c 9 (ix2 0 j) = ∑ R : Fin 50000, ycol1 V c j R * ycol1 V c j R :=
  ten_blocks_sum (fun R => ycol1 V c j R * ycol1 V c j R) (fun n => sq1 V c n (ix2 0 j))
    (fun n r => (xAt1 V c n (ix2 r j) + bAt1 V c n (ix2 0 j)) * (xAt1 V c n (ix2 r j) + bAt1 V c n (ix2 0 j)))
    (by
      rw [sq1_zero V c 0 rfl, View.ld_unit_zero (S := S5000x64) origin2, View.ld_unit_zero (S := S1x64) origin2]
      exact (pay1_5_at _ _ _ j).trans (by rw [pay1_2_at]))
    (fun n => by
      rw [sq1_pos V c (n + 1) n.succ_ne_zero, View.ld_unit_zero (S := S5000x64) origin2, View.ld_unit_zero (S := S1x64) origin2]
      exact (pay1_5_at _ _ _ j).trans (by rw [Nat.add_sub_cancel]))
    fun n hn r => by rw [block1_at V c n hn j r]

theorem mean1_canon (c : Dev nD) :
    (View.canon [⟨rS1, k1_pay6 (sum1 V c 9)⟩] : Vec Ideal S1x64 .f32) = Cert.Spec.bnMean64 (xarr1 V c) (barr1 V c) := by
  rw [View.canon_unit_zero origin2]
  funext i
  obtain ⟨p, j, rfl⟩ : ∃ (p : Fin 1) (j : Fin 64), i = ix2 p j := ⟨i 0, i 1, eq_ix2 i⟩
  obtain rfl : p = 0 := Subsingleton.elim _ _
  rw [pay1_6_at, sum1_last]
  rfl

theorem var1_canon (c : Dev nD) :
    (View.canon [⟨rS1, k1_pay7 (sum1 V c 9) (sq1 V c 9)⟩] : Vec Ideal S1x64 .f32) = Cert.Spec.bnVar64 (xarr1 V c) (barr1 V c) := by
  rw [View.canon_unit_zero origin2]
  funext i
  obtain ⟨p, j, rfl⟩ : ∃ (p : Fin 1) (j : Fin 64), i = ix2 p j := ⟨i 0, i 1, eq_ix2 i⟩
  obtain rfl : p = 0 := Subsingleton.elim _ _
  rw [pay1_7_at, sum1_last, sq1_last]
  rfl

theorem flush1_2_last (t : Fin cfg1.N) (hf : (cfg1.win 2).flush t = true) : t = t1_9 :=
  Fin.ext (by have := (flush1_2 t).mp hf; have := lt_of_lt_of_eq t.isLt (show cfg1.N = 10 from N_1); show t.val = 9; omega)
theorem flush1_3_last (t : Fin cfg1.N) (hf : (cfg1.win 3).flush t = true) : t = t1_9 :=
  Fin.ext (by have := (flush1_3 t).mp hf; have := lt_of_lt_of_eq t.isLt (show cfg1.N = 10 from N_1); show t.val = 9; omega)

theorem flushed1_2_eq (c : Dev nD) (t : Fin cfg1.N) (hf : (cfg1.win 2).flush t = true) :
    (dat1 V c).flushed 2 t = ((cfg1.win 2).blk t).view.read (Elt Ideal) (Cert.Spec.bnMean64 (xarr1 V c) (barr1 V c)) := by
  obtain rfl := flush1_2_last t hf
  show (cfg1.win 2).cut (grid1.coords t1_9) ((dat1 V c).after 2 t1_9) = _
  rw [after1_2, show (t1_9 : Fin cfg1.N).val = 9 from rfl, mean1_canon]
  have hz' : (fun a => win1_2.index t1_9 a * main_v21_0.ty.shape.size a) = fun _ => 0 := funext fun a => by fin_cases a <;> decide
  exact (Memref.read_access_unit_zero (Elt Ideal) main_v21_0 hz' (fun a => by rw [congrFun hz' a]; simp) _).symm

theorem flushed1_3_eq (c : Dev nD) (t : Fin cfg1.N) (hf : (cfg1.win 3).flush t = true) :
    (dat1 V c).flushed 3 t = ((cfg1.win 3).blk t).view.read (Elt Ideal) (Cert.Spec.bnVar64 (xarr1 V c) (barr1 V c)) := by
  obtain rfl := flush1_3_last t hf
  show (cfg1.win 3).cut (grid1.coords t1_9) ((dat1 V c).after 3 t1_9) = _
  rw [after1_3, show (t1_9 : Fin cfg1.N).val = 9 from rfl, var1_canon]
  have hz' : (fun a => win1_3.index t1_9 a * main_v21_1.ty.shape.size a) = fun _ => 0 := funext fun a => by fin_cases a <;> decide
  exact (Memref.read_access_unit_zero (Elt Ideal) main_v21_1 hz' (fun a => by rw [congrFun hz' a]; simp) _).symm

theorem val1_2 (c : Dev nD) :
    (dat1 V c).arrAt 2 cfg1.N = Cert.Spec.bnMean64 (V c (Pipeline.arrRef spec1 0)) (V c (Pipeline.arrRef spec1 1)) :=
  (dat1 V c).arrAt_eq_of_cover 2 (Cert.Spec.bnMean64 (xarr1 V c) (barr1 V c)) (flushed1_2_eq V c) fun i =>
    ⟨t1_9, (flush1_2 t1_9).mpr rfl, by
      show i ∈ ((View.whole main_v21_0).slice (win1_2.rect t1_9)).set
      rw [View.set_slice_whole]
      exact mem_whole_block (s := S1x64) i (by decide +kernel) (by decide +kernel)⟩

theorem val1_3 (c : Dev nD) :
    (dat1 V c).arrAt 3 cfg1.N = Cert.Spec.bnVar64 (V c (Pipeline.arrRef spec1 0)) (V c (Pipeline.arrRef spec1 1)) :=
  (dat1 V c).arrAt_eq_of_cover 3 (Cert.Spec.bnVar64 (xarr1 V c) (barr1 V c)) (flushed1_3_eq V c) fun i =>
    ⟨t1_9, (flush1_3 t1_9).mpr rfl, by
      show i ∈ ((View.whole main_v21_1).slice (win1_3.rect t1_9)).set
      rw [View.set_slice_whole]
      exact mem_whole_block (s := S1x64) i (by decide +kernel) (by decide +kernel)⟩

end Cert.KernelIdeal.Hand

end
-- ==== Proof.Spec.BnApply.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

def bnApplyAt (x b mean var : EReal) : EReal :=
  max ((x + b - mean) * Ideal.rsqrt (var + Ideal.ofBits .f32 0x3727C5AC#32)) (Ideal.ofBits .f32 0x00000000#32)

def bnApply64 (x : (⟨2, ![50000, 64]⟩ : Shape).Idx → EReal) (b mean var : (⟨2, ![1, 64]⟩ : Shape).Idx → EReal) :
    (⟨2, ![50000, 64]⟩ : Shape).Idx → EReal :=
  fun i => bnApplyAt (x (ix2 (n0 := 50000) (n1 := 64) (i 0) (i 1))) (b (ix2 (n0 := 1) (n1 := 64) 0 (i 1)))
    (mean (ix2 (n0 := 1) (n1 := 64) 0 (i 1))) (var (ix2 (n0 := 1) (n1 := 64) 0 (i 1)))

def bnApply128 (x : (⟨2, ![50000, 128]⟩ : Shape).Idx → EReal) (b mean var : (⟨2, ![1, 128]⟩ : Shape).Idx → EReal) :
    (⟨2, ![50000, 128]⟩ : Shape).Idx → EReal :=
  fun i => bnApplyAt (x (ix2 (n0 := 50000) (n1 := 128) (i 0) (i 1))) (b (ix2 (n0 := 1) (n1 := 128) 0 (i 1)))
    (mean (ix2 (n0 := 1) (n1 := 128) 0 (i 1))) (var (ix2 (n0 := 1) (n1 := 128) 0 (i 1)))

theorem bnApply64_ix2 (x : (⟨2, ![50000, 64]⟩ : Shape).Idx → EReal) (b mean var : (⟨2, ![1, 64]⟩ : Shape).Idx → EReal)
    (r : Fin 50000) (k : Fin 64) :
    bnApply64 x b mean var (ix2 r k) = bnApplyAt (x (ix2 r k)) (b (ix2 0 k)) (mean (ix2 0 k)) (var (ix2 0 k)) := rfl

theorem bnApply128_ix2 (x : (⟨2, ![50000, 128]⟩ : Shape).Idx → EReal) (b mean var : (⟨2, ![1, 128]⟩ : Shape).Idx → EReal)
    (r : Fin 50000) (k : Fin 128) :
    bnApply128 x b mean var (ix2 r k) = bnApplyAt (x (ix2 r k)) (b (ix2 0 k)) (mean (ix2 0 k)) (var (ix2 0 k)) := rfl

end Cert.Spec

end
-- ==== Proof.KI.V2.lean ====
import proofs.«165280_j63788854280268_1_alg».proof.Proof.KI.R2
import proofs.«165280_j63788854280268_1_alg».proof.Proof.Spec.BnApply
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem normed2_at (x : Vec Ideal S5000x64 .f32) (b var mean : Vec Ideal S1x64 .f32) (p : Fin 5000) (q : Fin 64) :
    k2_pay1 (F := Ideal) x b var mean (ix2 p q)
      = Cert.Spec.bnApplyAt (x (ix2 p q)) (b (ix2 0 q)) (mean (ix2 0 q)) (var (ix2 0 q)) := by
  unfold k2_pay1 Cert.Spec.bnApplyAt
  simp only [shapeCast_self, maximumf_apply, mulf_apply, subf_apply, addf_apply, broadcast_apply, broadcastTo_1b_ab_apply]
  rfl

theorem sits2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_ten2 (t : Fin cfg2.N) : t.val < 10 := t.isLt.trans_eq N_2

theorem row_lt2 (t : Fin cfg2.N) (p : Fin 5000) : t.val * 5000 + p.val < 50000 := by
  have := lt_ten2 t; have := p.isLt; omega

theorem shown2_x_at (c : Dev nD) (t : Fin cfg2.N) (p : Fin 5000) (q : Fin 64) :
    shown2 V c 0 t (ix2 p q)
      = V c (Pipeline.arrRef spec2 0) (ix2 (n0 := 50000) (n1 := 64) ⟨t.val * 5000 + p.val, row_lt2 t p⟩ q) := by
  obtain ⟨x0, x1, -⟩ := sits2 t
  show V c (Pipeline.arrRef spec2 0) (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * q.val = q.val; omega

theorem shown2_b_at (c : Dev nD) (t : Fin cfg2.N) (q : Fin 64) :
    shown2 V c 1 t (ix2 (0 : Fin 1) q) = V c (Pipeline.arrRef spec2 1) (ix2 (n0 := 1) (n1 := 64) 0 q) := by
  obtain ⟨-, -, b0, b1, -⟩ := sits2 t
  show V c (Pipeline.arrRef spec2 1) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

theorem shown2_mean_at (c : Dev nD) (t : Fin cfg2.N) (q : Fin 64) :
    shown2 V c 2 t (ix2 (0 : Fin 1) q) = V c (Pipeline.arrRef spec2 2) (ix2 (n0 := 1) (n1 := 64) 0 q) := by
  obtain ⟨-, -, -, -, m0, m1, -⟩ := sits2 t
  show V c (Pipeline.arrRef spec2 2) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

theorem shown2_var_at (c : Dev nD) (t : Fin cfg2.N) (q : Fin 64) :
    shown2 V c 3 t (ix2 (0 : Fin 1) q) = V c (Pipeline.arrRef spec2 3) (ix2 (n0 := 1) (n1 := 64) 0 q) := by
  obtain ⟨-, -, -, -, -, -, v0, v1, -⟩ := sits2 t
  show V c (Pipeline.arrRef spec2 3) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

theorem out2_block_at (G : S50000x64.Idx → EReal) (t : Fin cfg2.N) (p : Fin 5000) (q : Fin 64) :
    ((cfg2.win 4).blk t).view.read (Elt Ideal) G (ix2 p q)
      = G (ix2 (n0 := 50000) (n1 := 64) ⟨t.val * 5000 + p.val, row_lt2 t p⟩ q) := by
  obtain ⟨-, -, -, -, -, -, -, -, o0, o1⟩ := sits2 t
  show G (((cfg2.win 4).blk t).view.emb (ix2 p q)) = _
  refine congrArg _ (funext fun a => Fin.ext ?_)
  match a with
  | ⟨0, _⟩ => show win2_4.index t (0 : Fin 2) * 5000 + 1 * p.val = t.val * 5000 + p.val; omega
  | ⟨1, _⟩ => show win2_4.index t (1 : Fin 2) * 64 + 1 * q.val = q.val; omega

set_option maxHeartbeats 1000000 in
theorem flushed2_out (c : Dev nD) (t : Fin cfg2.N) :
    (dat2 V c).flushed 4 t = ((cfg2.win 4).blk t).view.read (Elt Ideal)
      (Cert.Spec.bnApply64 (V c (Pipeline.arrRef spec2 0)) (V c (Pipeline.arrRef spec2 1))
        (V c (Pipeline.arrRef spec2 2)) (V c (Pipeline.arrRef spec2 3))) := by
  show (cfg2.win 4).cut (grid2.coords t) ((dat2 V c).after 4 t) = _
  rw [after2_out]
  unfold normed2
  rw [View.canon_unit_zero origin2]
  simp only [View.ld_unit_zero (S := S5000x64) origin2, View.ld_unit_zero (S := S1x64) origin2]
  funext j
  obtain ⟨p, q, rfl⟩ : ∃ (p : Fin 5000) (q : Fin 64), j = ix2 p q := ⟨j 0, j 1, eq_ix2 j⟩
  refine (normed2_at (shown2 V c 0 t) (shown2 V c 1 t) (shown2 V c 3 t) (shown2 V c 2 t) p q).trans ?_
  rw [shown2_x_at, shown2_b_at, shown2_mean_at, shown2_var_at, out2_block_at]
  exact (Cert.Spec.bnApply64_ix2 _ _ _ _ _ _).symm

theorem covered2 (i : S50000x64.Idx) :
    ∃ t : Fin cfg2.N, (cfg2.win 4).flush t = true ∧ i ∈ ((cfg2.win 4).blk t).view.set := by
  have hi : (i 0).val < 50000 := (i 0).isLt
  obtain ⟨t, ht⟩ : ∃ t : Fin cfg2.N, t.val = (i 0).val / 5000 :=
    ⟨⟨_, by rw [show cfg2.N = 10 from N_2]; omega⟩, rfl⟩
  obtain ⟨-, -, -, -, -, -, -, -, o0, o1⟩ := sits2 t
  refine ⟨t, flush2_4 t, ?_⟩
  show i ∈ ((View.whole main_v22).slice (win2_4.rect t)).set
  rw [View.set_slice_whole]
  exact mem_rowblock (B := 5000) (by decide) i (by show win2_4.index t 0 * 5000 = _; rw [o0, ht])
    (by rfl) (by show win2_4.index t 1 * 64 = 0; rw [o1, Nat.zero_mul]) (by rfl)

theorem val2_4 (c : Dev nD) :
    (dat2 V c).arrAt 4 cfg2.N
      = Cert.Spec.bnApply64 (V c (Pipeline.arrRef spec2 0)) (V c (Pipeline.arrRef spec2 1))
          (V c (Pipeline.arrRef spec2 2)) (V c (Pipeline.arrRef spec2 3)) :=
  (dat2 V c).arrAt_eq_of_cover 4 _ (fun t _ => flushed2_out V c t) covered2

end Cert.KernelIdeal.Hand

end
-- ==== Proof.KI.V3.lean ====
import proofs.«165280_j63788854280268_1_alg».proof.Proof.KI.R3
import proofs.«165280_j63788854280268_1_alg».proof.Proof.KI.VCommon
import proofs.«165280_j63788854280268_1_alg».proof.Proof.Spec.Matmul

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pay_at3 (x : Vec Ideal S5000x128 .f32) (w : Vec Ideal S128x64 .f32) (p : Fin 5000) (q : Fin 64) :
    k3_pay1 (F := Ideal) x w (ix2 p q) = ∑ k : Fin 128, x (ix2 p k) * w (ix2 k q) :=
  (plain_matmul_at rfl none _ _ p q).trans (by simp only [truncf_apply, shapeCast_self])

theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
theorem flushed_eq3 (c : Dev nD) (t : Fin cfg3.N) :
    (dat3 V c).flushed 2 t = ((cfg3.win 2).blk t).view.read (Elt Ideal)
      (Cert.Spec.matProd64 (V c (Pipeline.arrRef spec3 0)) (V c (Pipeline.arrRef spec3 1))) := by
  show (cfg3.win 2).cut (grid3.coords t) ((dat3 V c).after 2 t) = _
  rw [after_prod3]
  unfold product3
  rw [View.canon_unit_zero origin2]
  simp only [View.ld_unit_zero (S := S5000x128) origin2, View.ld_unit_zero (S := S128x64) origin2]
  obtain ⟨e00, e01, e10, e11, e20, e21⟩ := index_facts3 t
  funext j
  obtain ⟨p, q, rfl⟩ : ∃ (p : Fin 5000) (q : Fin 64), j = ix2 p q := ⟨j 0, j 1, eq_ix2 j⟩
  show k3_pay1 (F := Ideal) (blockAt3 V c 0 t) (blockAt3 V c 1 t) (ix2 p q)
    = Cert.Spec.matProd64 (V c (Pipeline.arrRef spec3 0)) (V c (Pipeline.arrRef spec3 1)) (((cfg3.win 2).blk t).view.emb (ix2 p q))
  rw [pay_at3]
  have ht : t.val < 10 := Nat.lt_of_lt_of_eq t.isLt N_3
  have hE : ((cfg3.win 2).blk t).view.emb (ix2 p q)
      = ix2 (n0 := 50000) (n1 := 64) ⟨t.val * 5000 + p.val, by omega⟩ q := by
    funext a; apply Fin.ext
    match a with
    | ⟨0, _⟩ =>
      show win3_2.index t (0 : Fin 2) * 5000 + 1 * p.val = t.val * 5000 + p.val
      omega
    | ⟨1, _⟩ =>
      show win3_2.index t (1 : Fin 2) * 64 + 1 * q.val = q.val
      omega
  rw [hE, Cert.Spec.matProd64_ix2]
  refine Finset.sum_congr rfl fun k _ => ?_
  have hx : blockAt3 V c 0 t (ix2 p k) = V c (Pipeline.arrRef spec3 0)
      (ix2 (n0 := 50000) (n1 := 128) ⟨t.val * 5000 + p.val, by omega⟩ k) := by
    show V c (Pipeline.arrRef spec3 0) (((cfg3.win 0).blk t).view.emb (ix2 p k)) = _
    refine congrArg _ (funext fun a => Fin.ext ?_)
    match a with
    | ⟨0, _⟩ =>
      show win3_0.index t (0 : Fin 2) * 5000 + 1 * p.val = t.val * 5000 + p.val
      omega
    | ⟨1, _⟩ =>
      show win3_0.index t (1 : Fin 2) * 128 + 1 * k.val = k.val
      omega
  have hw : blockAt3 V c 1 t (ix2 k q) = V c (Pipeline.arrRef spec3 1) (ix2 (n0 := 128) (n1 := 64) k q) := by
    show V c (Pipeline.arrRef spec3 1) (((cfg3.win 1).blk t).view.emb (ix2 k q)) = _
    refine congrArg _ (funext fun a => Fin.ext ?_)
    match a with
    | ⟨0, _⟩ =>
      show win3_1.index t (0 : Fin 2) * 128 + 1 * k.val = k.val
      omega
    | ⟨1, _⟩ =>
      show win3_1.index t (1 : Fin 2) * 64 + 1 * q.val = q.val
      omega
  rw [hx, hw]

theorem covered3 (i : S50000x64.Idx) :
    ∃ t : Fin cfg3.N, (cfg3.win 2).flush t = true ∧ i ∈ ((cfg3.win 2).blk t).view.set := by
  have hi : (i 0).val < 50000 := (i 0).isLt
  obtain ⟨t, ht⟩ : ∃ t : Fin cfg3.N, t.val = (i 0).val / 5000 :=
    ⟨⟨_, by rw [show cfg3.N = 10 from N_3]; omega⟩, rfl⟩
  obtain ⟨-, -, -, -, e20, e21⟩ := index_facts3 t
  refine ⟨t, flush3_2 t, ?_⟩
  show i ∈ ((View.whole main_v27).slice (win3_2.rect t)).set
  rw [View.set_slice_whole]
  exact mem_rowblock (B := 5000) (by decide) i (by show win3_2.index t 0 * 5000 = _; rw [e20, ht])
    (by rfl) (by show win3_2.index t 1 * 64 = 0; rw [e21, Nat.zero_mul]) (by rfl)

theorem val3_2 (c : Dev nD) :
    (dat3 V c).arrAt 2 cfg3.N
      = Cert.Spec.matProd64 (V c (Pipeline.arrRef spec3 0)) (V c (Pipeline.arrRef spec3 1)) :=
  (dat3 V c).arrAt_eq_of_cover 2 _ (fun t _ => flushed_eq3 V c t) covered3

end Cert.KernelIdeal.Hand

end
-- ==== Proof.KI.V4.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.Spec.BnStats
import proofs.«165280_j63788854280268_1_alg».proof.Proof.KI.R4
import Idealize.ShloMosaic.Lib.Pipeline.FrameBody
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem pay4_1_at (j : Fin 64) : k4_pay1 (F := Ideal) (ix2 0 j) = 0 := zero_row_at _ j

theorem pay4_2_at (j : Fin 64) : k4_pay2 (F := Ideal) (ix2 0 j) = 0 := zero_row_at _ j

theorem pay4_3_at (v3 : Vec Ideal S5000x64 .f32) (v5 : Vec Ideal S1x64 .f32) (r : Fin 5000) (j : Fin 64) :
    k4_pay3 v3 v5 (ix2 r j) = v3 (ix2 r j) + v5 (ix2 0 j) := shift_at v3 v5 _ _ _ r j

theorem pay4_4_at (v3 : Vec Ideal S5000x64 .f32) (v5 : Vec Ideal S1x64 .f32) (v9 : Vec Ideal S1x64 .f32) (j : Fin 64) :
    k4_pay4 v3 v5 v9 (ix2 0 j) = v9 (ix2 0 j) + ∑ r : Fin 5000, (v3 (ix2 r j) + v5 (ix2 0 j)) :=
  (add_colsum_at v9 (k4_pay3 v3 v5) _ _ _ j).trans
    (congrArg _ (Finset.sum_congr rfl fun r _ => pay4_3_at v3 v5 r j))

theorem pay4_5_at (v3 : Vec Ideal S5000x64 .f32) (v5 : Vec Ideal S1x64 .f32) (v16 : Vec Ideal S1x64 .f32) (j : Fin 64) :
    k4_pay5 v3 v5 v16 (ix2 0 j) = v16 (ix2 0 j) + ∑ r : Fin 5000, (v3 (ix2 r j) + v5 (ix2 0 j)) * (v3 (ix2 r j) + v5 (ix2 0 j)) :=
  (add_colsum_at v16 (mulf (k4_pay3 v3 v5) (k4_pay3 v3 v5)) _ _ _ j).trans
    (congrArg _ (Finset.sum_congr rfl fun r _ => by
      show k4_pay3 v3 v5 (ix2 r j) * k4_pay3 v3 v5 (ix2 r j) = _
      rw [pay4_3_at]))

theorem pay4_6_at (v27 : Vec Ideal S1x64 .f32) (j : Fin 64) :
    k4_pay6 v27 (ix2 0 j) = v27 (ix2 0 j) * ((1 / 50000 : ℝ) : EReal) := congrArg (v27 (ix2 0 j) * ·) inv_rows

theorem pay4_7_at (v27 v30 : Vec Ideal S1x64 .f32) (j : Fin 64) :
    k4_pay7 v27 v30 (ix2 0 j) = v30 (ix2 0 j) * ((1 / 50000 : ℝ) : EReal)
      - (v27 (ix2 0 j) * ((1 / 50000 : ℝ) : EReal)) * (v27 (ix2 0 j) * ((1 / 50000 : ℝ) : EReal)) := by
  unfold k4_pay7
  show v30 (ix2 0 j) * Named.named (F := Ideal) κ "inv_50000" (φ := .f32) 0x37A7C5AC#32
      - k4_pay6 v27 (ix2 0 j) * k4_pay6 v27 (ix2 0 j) = _
  rw [inv_rows, pay4_6_at]

variable (V : (c : Dev nD) → (b : Ref sig .tc) → Buf (Elt Ideal) ((c : Thread nD τ).loc b))

abbrev xarr4 (c : Dev nD) : Vec Ideal S50000x64 .f32 := V c (Pipeline.arrRef spec4 0)
abbrev barr4 (c : Dev nD) : Vec Ideal S1x64 .f32 := V c (Pipeline.arrRef spec4 1)

theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

theorem xblk4_at (c : Dev nD) (t : Fin cfg4.N) (r : Fin 5000) (j : Fin 64) (h : 5000 * t.val + r.val < 50000) :
    (iblk4 V c 0 t : Vec Ideal S5000x64 .f32) (ix2 r j) = xarr4 V c (ix2 ⟨5000 * t.val + r.val, h⟩ j) := by
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * r.val = 5000 * t.val + r.val; rw [(idx4_0 t).1]; omega
  | ⟨1, _⟩ => show win4_0.index t 1 * 64 + 1 * j.val = j.val; rw [(idx4_0 t).2]; omega

theorem bblk4_at (c : Dev nD) (t : Fin cfg4.N) (j : Fin 64) :
    (iblk4 V c 1 t : Vec Ideal S1x64 .f32) (ix2 0 j) = barr4 V c (ix2 0 j) := by
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [(idx4_1 t).1]
  | ⟨1, _⟩ => show win4_1.index t 1 * 64 + 1 * j.val = j.val; rw [(idx4_1 t).2]; omega

def ycol4 (c : Dev nD) (j : Fin 64) : Fin 50000 → EReal := fun R => xarr4 V c (ix2 R j) + barr4 V c (ix2 0 j)

theorem pt4_lt (n : ℕ) (hn : n < 10) : (pt4 n).val = n := Nat.mod_eq_of_lt hn

theorem block4_at (c : Dev nD) (n : ℕ) (hn : n < 10) (j : Fin 64) (r : Fin 5000) :
    (xAt4 V c n) (ix2 r j) + (bAt4 V c n) (ix2 0 j)
      = ycol4 V c j ⟨5000 * n + r.val, by have := r.isLt; omega⟩ := by
  have hr : r.val < 5000 := r.isLt
  have hlt : 5000 * (pt4 n).val + r.val < 50000 := by rw [pt4_lt n hn]; omega
  unfold xAt4 bAt4
  rw [xblk4_at V c (pt4 n) r j hlt, bblk4_at V c (pt4 n) j]
  unfold ycol4
  refine congrArg (· + barr4 V c (ix2 0 j)) (congrArg (xarr4 V c) ?_)
  funext a; apply Fin.ext
  match a with
  | ⟨0, _⟩ => show 5000 * (pt4 n).val + r.val = 5000 * n + r.val; rw [pt4_lt n hn]
  | ⟨1, _⟩ => rfl

theorem sum4_last (c : Dev nD) (j : Fin 64) : sum4 V c 9 (ix2 0 j) = ∑ R : Fin 50000, ycol4 V c j R :=
  ten_blocks_sum _ (fun n => sum4 V c n (ix2 0 j)) (fun n r => xAt4 V c n (ix2 r j) + bAt4 V c n (ix2 0 j))
    (by
      rw [sum4_zero V c 0 rfl, View.ld_unit_zero (S := S5000x64) origin2, View.ld_unit_zero (S := S1x64) origin2]
      exact (pay4_4_at _ _ _ j).trans (by rw [pay4_1_at]))
    (fun n => by
      rw [sum4_pos V c (n + 1) n.succ_ne_zero, View.ld_unit_zero (S := S5000x64) origin2, View.ld_unit_zero (S := S1x64) origin2]
      exact (pay4_4_at _ _ _ j).trans (by rw [Nat.add_sub_cancel]))
    fun n hn r => block4_at V c n hn j r

theorem sq4_last (c : Dev nD) (j : Fin 64) :
    sq4 V c 9 (ix2 0 j) = ∑ R : Fin 50000, ycol4 V c j R * ycol4 V c j R :=
  ten_blocks_sum (fun R => ycol4 V c j R * ycol4 V c j R) (fun n => sq4 V c n (ix2 0 j))
    (fun n r => (xAt4 V c n (ix2 r j) + bAt4 V c n (ix2 0 j)) * (xAt4 V c n (ix2 r j) + bAt4 V c n (ix2 0 j)))
    (by
      rw [sq4_zero V c 0 rfl, View.ld_unit_zero (S := S5000x64) origin2, View.ld_unit_zero (S := S1x64) origin2]
      exact (pay4_5_at _ _ _ j).trans (by rw [pay4_2_at]))
    (fun n => by
      rw [sq4_pos V c (n + 1) n.succ_ne_zero, View.ld_unit_zero (S := S5000x64) origin2, View.ld_unit_zero (S := S1x64) origin2]
      exact (pay4_5_at _ _ _ j).trans (by rw [Nat.add_sub_cancel]))
    fun n hn r => by rw [block4_at V c n hn j r]

theorem mean4_canon (c : Dev nD) :
    (View.canon [⟨rS4, k4_pay6 (sum4 V c 9)⟩] : Vec Ideal S1x64 .f32) = Cert.Spec.bnMean64 (xarr4 V c) (barr4 V c) := by
  rw [View.canon_unit_zero origin2]
  funext i
  obtain ⟨p, j, rfl⟩ : ∃ (p : Fin 1) (j : Fin 64), i = ix2 p j := ⟨i 0, i 1, eq_ix2 i⟩
  obtain rfl : p = 0 := Subsingleton.elim _ _
  rw [pay4_6_at, sum4_last]
  rfl

theorem var4_canon (c : Dev nD) :
    (View.canon [⟨rS4, k4_pay7 (sum4 V c 9) (sq4 V c 9)⟩] : Vec Ideal S1x64 .f32) = Cert.Spec.bnVar64 (xarr4 V c) (barr4 V c) := by
  rw [View.canon_unit_zero origin2]
  funext i
  obtain ⟨p, j, rfl⟩ : ∃ (p : Fin 1) (j : Fin 64), i = ix2 p j := ⟨i 0, i 1, eq_ix2 i⟩
  obtain rfl : p = 0 := Subsingleton.elim _ _
  rw [pay4_7_at, sum4_last, sq4_last]
  rfl

theorem flush4_2_last (t : Fin cfg4.N) (hf : (cfg4.win 2).flush t = true) : t = t4_9 :=
  Fin.ext (by have := (flush4_2 t).mp hf; have := lt_of_lt_of_eq t.isLt (show cfg4.N = 10 from N_4); show t.val = 9; omega)
theorem flush4_3_last (t : Fin cfg4.N) (hf : (cfg4.win 3).flush t = true) : t = t4_9 :=
  Fin.ext (by have := (flush4_3 t).mp hf; have := lt_of_lt_of_eq t.isLt (show cfg4.N = 10 from N_4); show t.val = 9; omega)

theorem flushed4_2_eq (c : Dev nD) (t : Fin cfg4.N) (hf : (cfg4.win 2).flush t = true) :
    (dat4 V c).flushed 2 t = ((cfg4.win 2).blk t).view.read (Elt Ideal) (Cert.Spec.bnMean64 (xarr4 V c) (barr4 V c)) := by
  obtain rfl := flush4_2_last t hf
  show (cfg4.win 2).cut (grid4.coords t4_9) ((dat4 V c).after 2 t4_9) = _
  rw [after4_2, show (t4_9 : Fin cfg4.N).val = 9 from rfl, mean4_canon]
  have hz' : (fun a => win4_2.index t4_9 a * main_v44_0.ty.shape.size a) = fun _ => 0 := funext fun a => by fin_cases a <;> decide
  exact (Memref.read_access_unit_zero (Elt Ideal) main_v44_0 hz' (fun a => by rw [congrFun hz' a]; simp) _).symm

theorem flushed4_3_eq (c : Dev nD) (t : Fin cfg4.N) (hf : (cfg4.win 3).flush t = true) :
    (dat4 V c).flushed 3 t = ((cfg4.win 3).blk t).view.read (Elt Ideal) (Cert.Spec.bnVar64 (xarr4 V c) (barr4 V c)) := by
  obtain rfl := flush4_3_last t hf
  show (cfg4.win 3).cut (grid4.coords t4_9) ((dat4 V c).after 3 t4_9) = _
  rw [after4_3, show (t4_9 : Fin cfg4.N).val = 9 from rfl, var4_canon]
  have hz' : (fun a => win4_3.index t4_9 a * main_v44_1.ty.shape.size a) = fun _ => 0 := funext fun a => by fin_cases a <;> decide
  exact (Memref.read_access_unit_zero (Elt Ideal) main_v44_1 hz' (fun a => by rw [congrFun hz' a]; simp) _).symm

theorem val4_2 (c : Dev nD) :
    (dat4 V c).arrAt 2 cfg4.N = Cert.Spec.bnMean64 (V c (Pipeline.arrRef spec4 0)) (V c (Pipeline.arrRef spec4 1)) :=
  (dat4 V c).arrAt_eq_of_cover 2 (Cert.Spec.bnMean64 (xarr4 V c) (barr4 V c)) (flushed4_2_eq V c) fun i =>
    ⟨t4_9, (flush4_2 t4_9).mpr rfl, by
      show i ∈ ((View.whole main_v44_0).slice (win4_2.rect t4_9)).set
      rw [View.set_slice_whole]
      exact mem_whole_block (s := S1x64) i (by decide +kernel) (by decide +kernel)⟩

theorem val4_3 (c : Dev nD) :
    (dat4 V c).arrAt 3 cfg4.N = Cert.Spec.bnVar64 (V c (Pipeline.arrRef spec4 0)) (V c (Pipeline.arrRef spec4 1)) :=
  (dat4 V c).arrAt_eq_of_cover 3 (Cert.Spec.bnVar64 (xarr4 V c) (barr4 V c)) (flushed4_3_eq V c) fun i =>
    ⟨t4_9, (flush4_3 t4_9).mpr rfl, by
      show i ∈ ((View.whole main_v44_1).slice (win4_3.rect t4_9)).set
      rw [View.set_slice_whole]
      exact mem_whole_block (s := S1x64) i (by decide +kernel) (by decide +kernel)⟩

end Cert.KernelIdeal.Hand

end
-- ==== Proof.KI.V5.lean ====
import proofs.«165280_j63788854280268_1_alg».proof.Proof.KI.R5
import proofs.«165280_j63788854280268_1_alg».proof.Proof.Spec.BnApply
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem normed5_at (x : Vec Ideal S5000x64 .f32) (b var mean : Vec Ideal S1x64 .f32) (p : Fin 5000) (q : Fin 64) :
    k5_pay1 (F := Ideal) x b var mean (ix2 p q)
      = Cert.Spec.bnApplyAt (x (ix2 p q)) (b (ix2 0 q)) (mean (ix2 0 q)) (var (ix2 0 q)) := by
  unfold k5_pay1 Cert.Spec.bnApplyAt
  simp only [shapeCast_self, maximumf_apply, mulf_apply, subf_apply, addf_apply, broadcast_apply, broadcastTo_1b_ab_apply]
  rfl

theorem sits5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem lt_ten5 (t : Fin cfg5.N) : t.val < 10 := t.isLt.trans_eq N_5

theorem row_lt5 (t : Fin cfg5.N) (p : Fin 5000) : t.val * 5000 + p.val < 50000 := by
  have := lt_ten5 t; have := p.isLt; omega

theorem shown5_x_at (c : Dev nD) (t : Fin cfg5.N) (p : Fin 5000) (q : Fin 64) :
    shown5 V c 0 t (ix2 p q)
      = V c (Pipeline.arrRef spec5 0) (ix2 (n0 := 50000) (n1 := 64) ⟨t.val * 5000 + p.val, row_lt5 t p⟩ q) := by
  obtain ⟨x0, x1, -⟩ := sits5 t
  show V c (Pipeline.arrRef spec5 0) (((cfg5.win 0).blk t).view.emb (ix2 p q)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * q.val = q.val; omega

theorem shown5_b_at (c : Dev nD) (t : Fin cfg5.N) (q : Fin 64) :
    shown5 V c 1 t (ix2 (0 : Fin 1) q) = V c (Pipeline.arrRef spec5 1) (ix2 (n0 := 1) (n1 := 64) 0 q) := by
  obtain ⟨-, -, b0, b1, -⟩ := sits5 t
  show V c (Pipeline.arrRef spec5 1) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = q.val; omega

theorem shown5_mean_at (c : Dev nD) (t : Fin cfg5.N) (q : Fin 64) :
    shown5 V c 2 t (ix2 (0 : Fin 1) q) = V c (Pipeline.arrRef spec5 2) (ix2 (n0 := 1) (n1 := 64) 0 q) := by
  obtain ⟨-, -, -, -, m0, m1, -⟩ := sits5 t
  show V c (Pipeline.arrRef spec5 2) (((cfg5.win 2).blk t).view.emb (ix2 (0 : Fin 1) q)) = _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = q.val; omega

theorem shown5_var_at (c : Dev nD) (t : Fin cfg5.N) (q : Fin 64) :
    shown5 V c 3 t (ix2 (0 : Fin 1) q) = V c (Pipeline.arrRef spec5 3) (ix2 (n0 := 1) (n1 := 64) 0 q) := by
  obtain ⟨-, -, -, -, -, -, v0, v1, -⟩ := sits5 t
  show V c (Pipeline.arrRef spec5 3) (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = q.val; omega

theorem out5_block_at (G : S50000x64.Idx → EReal) (t : Fin cfg5.N) (p : Fin 5000) (q : Fin 64) :
    ((cfg5.win 4).blk t).view.read (Elt Ideal) G (ix2 p q)
      = G (ix2 (n0 := 50000) (n1 := 64) ⟨t.val * 5000 + p.val, row_lt5 t p⟩ q) := by
  obtain ⟨-, -, -, -, -, -, -, -, o0, o1⟩ := sits5 t
  show G (((cfg5.win 4).blk t).view.emb (ix2 p q)) = _
  refine congrArg _ (funext fun a => Fin.ext ?_)
  match a with
  | ⟨0, _⟩ => show win5_4.index t (0 : Fin 2) * 5000 + 1 * p.val = t.val * 5000 + p.val; omega
  | ⟨1, _⟩ => show win5_4.index t (1 : Fin 2) * 64 + 1 * q.val = q.val; omega

set_option maxHeartbeats 1000000 in
theorem flushed5_out (c : Dev nD) (t : Fin cfg5.N) :
    (dat5 V c).flushed 4 t = ((cfg5.win 4).blk t).view.read (Elt Ideal)
      (Cert.Spec.bnApply64 (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_out]
  unfold normed5
  rw [View.canon_unit_zero origin2]
  simp only [View.ld_unit_zero (S := S5000x64) origin2, View.ld_unit_zero (S := S1x64) origin2]
  funext j
  obtain ⟨p, q, rfl⟩ : ∃ (p : Fin 5000) (q : Fin 64), j = ix2 p q := ⟨j 0, j 1, eq_ix2 j⟩
  refine (normed5_at (shown5 V c 0 t) (shown5 V c 1 t) (shown5 V c 3 t) (shown5 V c 2 t) p q).trans ?_
  rw [shown5_x_at, shown5_b_at, shown5_mean_at, shown5_var_at, out5_block_at]
  exact (Cert.Spec.bnApply64_ix2 _ _ _ _ _ _).symm

theorem covered5 (i : S50000x64.Idx) :
    ∃ t : Fin cfg5.N, (cfg5.win 4).flush t = true ∧ i ∈ ((cfg5.win 4).blk t).view.set := by
  have hi : (i 0).val < 50000 := (i 0).isLt
  obtain ⟨t, ht⟩ : ∃ t : Fin cfg5.N, t.val = (i 0).val / 5000 :=
    ⟨⟨_, by rw [show cfg5.N = 10 from N_5]; omega⟩, rfl⟩
  obtain ⟨-, -, -, -, -, -, -, -, o0, o1⟩ := sits5 t
  refine ⟨t, flush5_4 t, ?_⟩
  show i ∈ ((View.whole main_v45).slice (win5_4.rect t)).set
  rw [View.set_slice_whole]
  exact mem_rowblock (B := 5000) (by decide) i (by show win5_4.index t 0 * 5000 = _; rw [o0, ht])
    (by rfl) (by show win5_4.index t 1 * 64 = 0; rw [o1, Nat.zero_mul]) (by rfl)

theorem val5_4 (c : Dev nD) :
    (dat5 V c).arrAt 4 cfg5.N
      = Cert.Spec.bnApply64 (V c (Pipeline.arrRef spec5 0)) (V c (Pipeline.arrRef spec5 1))
          (V c (Pipeline.arrRef spec5 2)) (V c (Pipeline.arrRef spec5 3)) :=
  (dat5 V c).arrAt_eq_of_cover 4 _ (fun t _ => flushed5_out V c t) covered5

end Cert.KernelIdeal.Hand

end
-- ==== Proof.Spec.GateMix.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

def gateAlpha (x inp : (⟨2, ![50000, 128]⟩ : Shape).Idx → EReal) (w1 w2 : (⟨2, ![128, 1]⟩ : Shape).Idx → EReal)
    (b : (⟨2, ![1, 1]⟩ : Shape).Idx → EReal) : (⟨2, ![50000, 1]⟩ : Shape).Idx → EReal :=
  fun i => Ideal.logistic ((∑ k : Fin 128, inp (ix2 (i 0) k) * w1 (ix2 k 0)) + (∑ k : Fin 128, x (ix2 (i 0) k) * w2 (ix2 k 0)) + b (ix2 0 0))

def gateMixed (x inp : (⟨2, ![50000, 128]⟩ : Shape).Idx → EReal) (w1 w2 : (⟨2, ![128, 1]⟩ : Shape).Idx → EReal)
    (b : (⟨2, ![1, 1]⟩ : Shape).Idx → EReal) : (⟨2, ![50000, 128]⟩ : Shape).Idx → EReal :=
  fun i => gateAlpha x inp w1 w2 b (ix2 (i 0) 0) * x i
    + (Ideal.ofBits .f32 0x3F800000#32 - gateAlpha x inp w1 w2 b (ix2 (i 0) 0)) * inp i

theorem gateAlpha_ix2 (x inp : (⟨2, ![50000, 128]⟩ : Shape).Idx → EReal) (w1 w2 : (⟨2, ![128, 1]⟩ : Shape).Idx → EReal)
    (b : (⟨2, ![1, 1]⟩ : Shape).Idx → EReal) (r : Fin 50000) (z : Fin 1) :
    gateAlpha x inp w1 w2 b (ix2 r z)
      = Ideal.logistic ((∑ k : Fin 128, inp (ix2 r k) * w1 (ix2 k 0)) + (∑ k : Fin 128, x (ix2 r k) * w2 (ix2 k 0)) + b (ix2 0 0)) := rfl

theorem gateMixed_ix2 (x inp : (⟨2, ![50000, 128]⟩ : Shape).Idx → EReal) (w1 w2 : (⟨2, ![128, 1]⟩ : Shape).Idx → EReal)
    (b : (⟨2, ![1, 1]⟩ : Shape).Idx → EReal) (r : Fin 50000) (l : Fin 128) :
    gateMixed x inp w1 w2 b (ix2 r l)
      = gateAlpha x inp w1 w2 b (ix2 r 0) * x (ix2 r l)
        + (Ideal.ofBits .f32 0x3F800000#32 - gateAlpha x inp w1 w2 b (ix2 r 0)) * inp (ix2 r l) := rfl

end Cert.Spec

end
-- ==== Proof.KI.V6.lean ====
import proofs.«165280_j63788854280268_1_alg».proof.Proof.KI.R6
import proofs.«165280_j63788854280268_1_alg».proof.Proof.Spec.GateMix
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem gateDot6_lhs_0 (j : S5000x1.Idx) (k : dot_S5000x128_S128x1_S5000x1_1_0_0_1_n_n.contr.Idx) :
    (dot_S5000x128_S128x1_S5000x1_1_0_0_1_n_n.lhsIdx j k 0).val = (j 0).val := by
  simp [DotDims.lhsIdx, dot_S5000x128_S128x1_S5000x1_1_0_0_1_n_n]; rfl

theorem gateDot6_rhs_1 (j : S5000x1.Idx) (k : dot_S5000x128_S128x1_S5000x1_1_0_0_1_n_n.contr.Idx) :
    (dot_S5000x128_S128x1_S5000x1_1_0_0_1_n_n.rhsIdx j k 1).val = (j 1).val := by
  simp [DotDims.rhsIdx, dot_S5000x128_S128x1_S5000x1_1_0_0_1_n_n]
  have h := idx2_lt1 j
  omega

theorem gateDot6_apply {φ₁ φ₂ : FTy} (A : FVec Ideal S5000x128 φ₁) (B : FVec Ideal S128x1 φ₂) (r : Fin 5000) :
    matmul dot_S5000x128_S128x1_S5000x1_1_0_0_1_n_n none A B (constant (F := Ideal) S5000x1 .f32 0x00000000#32) (ix2 r 0)
      = ∑ k : Fin 128, A (ix2 r k) * B (ix2 k 0) := by
  simp only [matmul]
  rw [Ideal.matmul_constant_zero_apply]
  rw [← Equiv.sum_comp (contrEquiv1 dot_S5000x128_S128x1_S5000x1_1_0_0_1_n_n 128 rfl rfl).symm]
  refine Finset.sum_congr rfl fun k _ => ?_
  have hl : dot_S5000x128_S128x1_S5000x1_1_0_0_1_n_n.lhsIdx (ix2 r 0) ((contrEquiv1 dot_S5000x128_S128x1_S5000x1_1_0_0_1_n_n 128 rfl rfl).symm k) = ix2 r k := by
    funext a; apply Fin.ext
    match a with
    | ⟨0, _⟩ => exact gateDot6_lhs_0 _ _
    | ⟨1, _⟩ => exact (dot_S5000x128_S128x1_S5000x1_1_0_0_1_n_n.lhsIdx_val_of_single rfl _ _).trans (contrEquiv1_symm_val _ 128 rfl rfl k)
  have hr : dot_S5000x128_S128x1_S5000x1_1_0_0_1_n_n.rhsIdx (ix2 r 0) ((contrEquiv1 dot_S5000x128_S128x1_S5000x1_1_0_0_1_n_n 128 rfl rfl).symm k) = ix2 k 0 := by
    funext a; apply Fin.ext
    match a with
    | ⟨0, _⟩ => exact (dot_S5000x128_S128x1_S5000x1_1_0_0_1_n_n.rhsIdx_val_of_single rfl _ _).trans (contrEquiv1_symm_val _ 128 rfl rfl k)
    | ⟨1, _⟩ => exact gateDot6_rhs_1 _ _
  rw [hl, hr]

theorem logistic_apply6 {s : Shape} (v : FVec Ideal s .f32) (i : s.Idx) : logistic v i = Ideal.logistic (v i) := rfl

theorem gate_pay_apply6 (x0 x1 : Vec Ideal S5000x128 .f32) (x2 x3 : Vec Ideal S128x1 .f32) (x4 : Vec Ideal S1x1 .f32) (r : Fin 5000) :
    k6_pay3 x0 x1 x2 x3 x4 (ix2 r 0)
      = Ideal.logistic ((∑ k : Fin 128, x1 (ix2 r k) * x2 (ix2 k 0)) + (∑ k : Fin 128, x0 (ix2 r k) * x3 (ix2 k 0)) + x4 (ix2 0 0)) := by
  unfold k6_pay3 k6_pay1 k6_pay2
  simp only [shapeCast_self]
  rw [logistic_apply6, addf_apply, addf_apply, gateDot6_apply, gateDot6_apply,
    broadcastTo_apply x4 broadcasts_S1x1_S5000x1 (ix2 r 0) (ix2 0 0) (fun a => by
      match a with
      | ⟨0, _⟩ => rfl
      | ⟨1, _⟩ => rfl)]
  simp only [truncf_apply]

theorem mixed_pay_apply6 (x0 x1 : Vec Ideal S5000x128 .f32) (x2 x3 : Vec Ideal S128x1 .f32) (x4 : Vec Ideal S1x1 .f32) (r : Fin 5000) (l : Fin 128) :
    k6_pay4 x0 x1 x2 x3 x4 (ix2 r l)
      = k6_pay3 x0 x1 x2 x3 x4 (ix2 r 0) * x0 (ix2 r l)
        + (Ideal.ofBits .f32 0x3F800000#32 - k6_pay3 x0 x1 x2 x3 x4 (ix2 r 0)) * x1 (ix2 r l) := by
  unfold k6_pay4 k6_pay1 k6_pay2
  simp only [shapeCast_self]
  rw [addf_apply, mulf_apply, mulf_apply,
    broadcastTo_apply (k6_pay3 x0 x1 x2 x3 x4) broadcasts_S5000x1_S5000x128 (ix2 r l) (ix2 r 0) (fun a => by
      match a with
      | ⟨0, _⟩ => rfl
      | ⟨1, _⟩ => rfl),
    broadcastTo_apply _ broadcasts_S5000x1_S5000x128 (ix2 r l) (ix2 r 0) (fun a => by
      match a with
      | ⟨0, _⟩ => rfl
      | ⟨1, _⟩ => rfl),
    subf_apply, broadcast_apply]
  rfl

variable (V : (c : Dev nD) → (b : Ref sig .tc) → Buf (Elt Ideal) ((c : Thread nD τ).loc b))

theorem hz6 : (![0, 0] : Fin 2 → Nat) = fun _ => 0 := funext fun a => by fin_cases a <;> rfl

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

theorem lt_ten6 (t : Fin cfg6.N) : t.val < 10 := by
  have h : t.val < grid6.N := t.isLt
  rw [N_6] at h
  exact h

theorem gate_block_eq6 (X INP : S50000x128.Idx → EReal) (W1 W2 : S128x1.Idx → EReal) (B : S1x1.Idx → EReal)
    (x0 x1 : Vec Ideal S5000x128 .f32) (x2 x3 : Vec Ideal S128x1 .f32) (x4 : Vec Ideal S1x1 .f32) (n : Nat) (hn : n < 10)
    (h0 : ∀ (r : Fin 5000) (k : Fin 128), x0 (ix2 r k) = X (ix2 (⟨n * 5000 + r.val, by omega⟩ : Fin 50000) k))
    (h1 : ∀ (r : Fin 5000) (k : Fin 128), x1 (ix2 r k) = INP (ix2 (⟨n * 5000 + r.val, by omega⟩ : Fin 50000) k))
    (h2 : x2 = W1) (h3 : x3 = W2) (h4 : x4 = B) (r : Fin 5000) :
    k6_pay3 x0 x1 x2 x3 x4 (ix2 r 0)
      = Cert.Spec.gateAlpha X INP W1 W2 B (ix2 (⟨n * 5000 + r.val, by omega⟩ : Fin 50000) 0) := by
  subst h2 h3 h4
  rw [gate_pay_apply6, Cert.Spec.gateAlpha_ix2]
  simp only [h0, h1]

theorem iblk6_0_apply (c : Dev nD) (t : Fin cfg6.N) (r : Fin 5000) (k : Fin 128) :
    iblk6 V c 0 t (ix2 r k) = V c (Pipeline.arrRef spec6 0) (ix2 (⟨t.val * 5000 + r.val, by have := lt_ten6 t; omega⟩ : Fin 50000) k) := by
  obtain ⟨e0r, e0c, -⟩ := idx_facts6 t
  show V c (Pipeline.arrRef spec6 0) (((cfg6.win 0).blk t).view.emb (ix2 r k)) = _
  refine congrArg _ (funext fun a => Fin.ext ?_)
  match a with
  | ⟨0, _⟩ => show win6_0.index t (0 : Fin 2) * 5000 + 1 * r.val = t.val * 5000 + r.val; omega
  | ⟨1, _⟩ => show win6_0.index t (1 : Fin 2) * 128 + 1 * k.val = k.val; omega

theorem iblk6_1_apply (c : Dev nD) (t : Fin cfg6.N) (r : Fin 5000) (k : Fin 128) :
    iblk6 V c 1 t (ix2 r k) = V c (Pipeline.arrRef spec6 1) (ix2 (⟨t.val * 5000 + r.val, by have := lt_ten6 t; omega⟩ : Fin 50000) k) := by
  obtain ⟨-, -, e1r, e1c, -⟩ := idx_facts6 t
  show V c (Pipeline.arrRef spec6 1) (((cfg6.win 1).blk t).view.emb (ix2 r k)) = _
  refine congrArg _ (funext fun a => Fin.ext ?_)
  match a with
  | ⟨0, _⟩ => show win6_1.index t (0 : Fin 2) * 5000 + 1 * r.val = t.val * 5000 + r.val; omega
  | ⟨1, _⟩ => show win6_1.index t (1 : Fin 2) * 128 + 1 * k.val = k.val; omega

theorem iblk6_2_eq (c : Dev nD) (t : Fin cfg6.N) : iblk6 V c 2 t = V c (Pipeline.arrRef spec6 2) := by
  obtain ⟨-, -, -, -, e2r, e2c, -⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 1 + 1 * (y 1).val = (y 1).val; omega
theorem iblk6_3_eq (c : Dev nD) (t : Fin cfg6.N) : iblk6 V c 3 t = V c (Pipeline.arrRef spec6 3) := by
  obtain ⟨-, -, -, -, -, -, e3r, e3c, -⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 128 + 1 * (y 0).val = (y 0).val; omega
  | ⟨1, _⟩ => show win6_3.index t (1 : Fin 2) * 1 + 1 * (y 1).val = (y 1).val; omega
theorem iblk6_4_eq (c : Dev nD) (t : Fin cfg6.N) : iblk6 V c 4 t = V c (Pipeline.arrRef spec6 4) := by
  obtain ⟨-, -, -, -, -, -, -, -, e4r, e4c, -⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 1 + 1 * (y 1).val = (y 1).val; omega

theorem mixed_block_eq6 (X INP : S50000x128.Idx → EReal) (W1 W2 : S128x1.Idx → EReal) (B : S1x1.Idx → EReal)
    (x0 x1 : Vec Ideal S5000x128 .f32) (x2 x3 : Vec Ideal S128x1 .f32) (x4 : Vec Ideal S1x1 .f32) (n : Nat) (hn : n < 10)
    (h0 : ∀ (r : Fin 5000) (k : Fin 128), x0 (ix2 r k) = X (ix2 (⟨n * 5000 + r.val, by omega⟩ : Fin 50000) k))
    (h1 : ∀ (r : Fin 5000) (k : Fin 128), x1 (ix2 r k) = INP (ix2 (⟨n * 5000 + r.val, by omega⟩ : Fin 50000) k))
    (h2 : x2 = W1) (h3 : x3 = W2) (h4 : x4 = B) (r : Fin 5000) (l : Fin 128) :
    k6_pay4 x0 x1 x2 x3 x4 (ix2 r l)
      = Cert.Spec.gateMixed X INP W1 W2 B (ix2 (⟨n * 5000 + r.val, by omega⟩ : Fin 50000) l) := by
  rw [mixed_pay_apply6, Cert.Spec.gateMixed_ix2, gate_block_eq6 X INP W1 W2 B x0 x1 x2 x3 x4 n hn h0 h1 h2 h3 h4 r, h0, h1]

theorem blk6_5_apply (G : S50000x128.Idx → EReal) (t : Fin cfg6.N) (r : Fin 5000) (l : Fin 128) :
    ((cfg6.win 5).blk t).view.read (Elt Ideal) G (ix2 r l)
      = G (ix2 (⟨t.val * 5000 + r.val, by have := lt_ten6 t; omega⟩ : Fin 50000) l) := by
  obtain ⟨-, -, -, -, -, -, -, -, -, -, e5r, e5c, -⟩ := idx_facts6 t
  show G (((cfg6.win 5).blk t).view.emb (ix2 r l)) = _
  refine congrArg _ (funext fun a => Fin.ext ?_)
  match a with
  | ⟨0, _⟩ => show win6_5.index t (0 : Fin 2) * 5000 + 1 * r.val = t.val * 5000 + r.val; omega
  | ⟨1, _⟩ => show win6_5.index t (1 : Fin 2) * 128 + 1 * l.val = l.val; omega

set_option maxHeartbeats 1600000 in
theorem flushed6_5_eq (c : Dev nD) (t : Fin cfg6.N) :
    (dat6 V c).flushed 5 t = ((cfg6.win 5).blk t).view.read (Elt Ideal)
      (Cert.Spec.gateMixed (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold mixed6
  rw [View.canon_unit_zero hz6]
  simp only [View.ld_unit_zero (S := S5000x128) hz6, View.ld_unit_zero (S := S128x1) hz6, View.ld_unit_zero (S := S1x1) hz6]
  funext j
  obtain ⟨r, l, rfl⟩ : ∃ (r : Fin 5000) (l : Fin 128), j = ix2 r l := ⟨j 0, j 1, eq_ix2 j⟩
  exact (mixed_block_eq6 _ _ _ _ _ _ _ _ _ _ t.val (lt_ten6 t) (iblk6_0_apply V c t) (iblk6_1_apply V c t)
    (iblk6_2_eq V c t) (iblk6_3_eq V c t) (iblk6_4_eq V c t) r l).trans (blk6_5_apply _ t r l).symm

theorem mem_blk6_5 (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v50_0).slice (win6_5.rect t)).set ↔ _
  rw [View.set_slice_whole, Rect.mem_set_unit]
  exact Iff.rfl

theorem cover6_5 (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  have ht : (i 0).val / 5000 < cfg6.N := by show _ < grid6.N; rw [N_6]; omega
  obtain ⟨-, -, -, -, -, -, -, -, -, -, e5r, e5c, -⟩ := idx_facts6 ⟨(i 0).val / 5000, ht⟩
  have e5r' : win6_5.index ⟨(i 0).val / 5000, ht⟩ (0 : Fin 2) = (i 0).val / 5000 := e5r
  refine ⟨⟨(i 0).val / 5000, ht⟩, flush6_5 _, ?_⟩
  rw [mem_blk6_5]
  intro a
  match a with
  | ⟨0, _⟩ => show win6_5.index ⟨(i 0).val / 5000, ht⟩ (0 : Fin 2) * 5000 ≤ (i 0).val ∧ (i 0).val < win6_5.index ⟨(i 0).val / 5000, ht⟩ (0 : Fin 2) * 5000 + 5000; omega
  | ⟨1, _⟩ => show win6_5.index ⟨(i 0).val / 5000, ht⟩ (1 : Fin 2) * 128 ≤ (i 1).val ∧ (i 1).val < win6_5.index ⟨(i 0).val / 5000, ht⟩ (1 : Fin 2) * 128 + 128; omega

theorem val6_5 (c : Dev nD) : (dat6 V c).arrAt 5 cfg6.N
    = Cert.Spec.gateMixed (V c (Pipeline.arrRef spec6 0)) (V c (Pipeline.arrRef spec6 1)) (V c (Pipeline.arrRef spec6 2))
        (V c (Pipeline.arrRef spec6 3)) (V c (Pipeline.arrRef spec6 4)) :=
  (dat6 V c).arrAt_eq_of_cover 5 _ (fun t _ => flushed6_5_eq V c t) cover6_5

end Cert.KernelIdeal.Hand

end
-- ==== Proof.KI.V7.lean ====
import proofs.«165280_j63788854280268_1_alg».proof.Proof.KI.R7
import proofs.«165280_j63788854280268_1_alg».proof.Proof.KI.VCommon
import proofs.«165280_j63788854280268_1_alg».proof.Proof.Spec.Matmul

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pay_at7 (x : Vec Ideal S5000x128 .f32) (w : Vec Ideal S128x128 .f32) (p : Fin 5000) (q : Fin 128) :
    k7_pay1 (F := Ideal) x w (ix2 p q) = ∑ k : Fin 128, x (ix2 p k) * w (ix2 k q) :=
  (plain_matmul_at rfl none _ _ p q).trans (by simp only [truncf_apply, shapeCast_self])

theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 1000000 in
theorem flushed_eq7 (c : Dev nD) (t : Fin cfg7.N) :
    (dat7 V c).flushed 2 t = ((cfg7.win 2).blk t).view.read (Elt Ideal)
      (Cert.Spec.matProd128 (V c (Pipeline.arrRef spec7 0)) (V c (Pipeline.arrRef spec7 1))) := by
  show (cfg7.win 2).cut (grid7.coords t) ((dat7 V c).after 2 t) = _
  rw [after_prod7]
  unfold product7
  rw [View.canon_unit_zero origin2]
  simp only [View.ld_unit_zero (S := S5000x128) origin2, View.ld_unit_zero (S := S128x128) origin2]
  obtain ⟨e00, e01, e10, e11, e20, e21⟩ := index_facts7 t
  funext j
  obtain ⟨p, q, rfl⟩ : ∃ (p : Fin 5000) (q : Fin 128), j = ix2 p q := ⟨j 0, j 1, eq_ix2 j⟩
  show k7_pay1 (F := Ideal) (blockAt7 V c 0 t) (blockAt7 V c 1 t) (ix2 p q)
    = Cert.Spec.matProd128 (V c (Pipeline.arrRef spec7 0)) (V c (Pipeline.arrRef spec7 1)) (((cfg7.win 2).blk t).view.emb (ix2 p q))
  rw [pay_at7]
  have ht : t.val < 10 := Nat.lt_of_lt_of_eq t.isLt N_7
  have hE : ((cfg7.win 2).blk t).view.emb (ix2 p q)
      = ix2 (n0 := 50000) (n1 := 128) ⟨t.val * 5000 + p.val, by omega⟩ q := by
    funext a; apply Fin.ext
    match a with
    | ⟨0, _⟩ =>
      show win7_2.index t (0 : Fin 2) * 5000 + 1 * p.val = t.val * 5000 + p.val
      omega
    | ⟨1, _⟩ =>
      show win7_2.index t (1 : Fin 2) * 128 + 1 * q.val = q.val
      omega
  rw [hE, Cert.Spec.matProd128_ix2]
  refine Finset.sum_congr rfl fun k _ => ?_
  have hx : blockAt7 V c 0 t (ix2 p k) = V c (Pipeline.arrRef spec7 0)
      (ix2 (n0 := 50000) (n1 := 128) ⟨t.val * 5000 + p.val, by omega⟩ k) := by
    show V c (Pipeline.arrRef spec7 0) (((cfg7.win 0).blk t).view.emb (ix2 p k)) = _
    refine congrArg _ (funext fun a => Fin.ext ?_)
    match a with
    | ⟨0, _⟩ =>
      show win7_0.index t (0 : Fin 2) * 5000 + 1 * p.val = t.val * 5000 + p.val
      omega
    | ⟨1, _⟩ =>
      show win7_0.index t (1 : Fin 2) * 128 + 1 * k.val = k.val
      omega
  have hw : blockAt7 V c 1 t (ix2 k q) = V c (Pipeline.arrRef spec7 1) (ix2 (n0 := 128) (n1 := 128) k q) := by
    show V c (Pipeline.arrRef spec7 1) (((cfg7.win 1).blk t).view.emb (ix2 k q)) = _
    refine congrArg _ (funext fun a => Fin.ext ?_)
    match a with
    | ⟨0, _⟩ =>
      show win7_1.index t (0 : Fin 2) * 128 + 1 * k.val = k.val
      omega
    | ⟨1, _⟩ =>
      show win7_1.index t (1 : Fin 2) * 128 + 1 * q.val = q.val
      omega
  rw [hx, hw]

theorem covered7 (i : S50000x128.Idx) :
    ∃ t : Fin cfg7.N, (cfg7.win 2).flush t = true ∧ i ∈ ((cfg7.win 2).blk t).view.set := by
  have hi : (i 0).val < 50000 := (i 0).isLt
  obtain ⟨t, ht⟩ : ∃ t : Fin cfg7.N, t.val = (i 0).val / 5000 :=
    ⟨⟨_, by rw [show cfg7.N = 10 from N_7]; omega⟩, rfl⟩
  obtain ⟨-, -, -, -, e20, e21⟩ := index_facts7 t
  refine ⟨t, flush7_2 t, ?_⟩
  show i ∈ ((View.whole main_v53).slice (win7_2.rect t)).set
  rw [View.set_slice_whole]
  exact mem_rowblock (B := 5000) (by decide) i (by show win7_2.index t 0 * 5000 = _; rw [e20, ht])
    (by rfl) (by show win7_2.index t 1 * 128 = 0; rw [e21, Nat.zero_mul]) (by rfl)

theorem val7_2 (c : Dev nD) :
    (dat7 V c).arrAt 2 cfg7.N
      = Cert.Spec.matProd128 (V c (Pipeline.arrRef spec7 0)) (V c (Pipeline.arrRef spec7 1)) :=
  (dat7 V c).arrAt_eq_of_cover 2 _ (fun t _ => flushed_eq7 V c t) covered7

end Cert.KernelIdeal.Hand

end
-- ==== Proof.KI.V8.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.Spec.BnStats
import proofs.«165280_j63788854280268_1_alg».proof.Proof.KI.R8
import Idealize.ShloMosaic.Lib.Pipeline.FrameBody
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem pay8_1_at (j : Fin 128) : k8_pay1 (F := Ideal) (ix2 0 j) = 0 := zero_row_at _ j

theorem pay8_2_at (j : Fin 128) : k8_pay2 (F := Ideal) (ix2 0 j) = 0 := zero_row_at _ j

theorem pay8_3_at (v3 : Vec Ideal S5000x128 .f32) (v5 : Vec Ideal S1x128 .f32) (r : Fin 5000) (j : Fin 128) :
    k8_pay3 v3 v5 (ix2 r j) = v3 (ix2 r j) + v5 (ix2 0 j) := shift_at v3 v5 _ _ _ r j

theorem pay8_4_at (v3 : Vec Ideal S5000x128 .f32) (v5 : Vec Ideal S1x128 .f32) (v9 : Vec Ideal S1x128 .f32) (j : Fin 128) :
    k8_pay4 v3 v5 v9 (ix2 0 j) = v9 (ix2 0 j) + ∑ r : Fin 5000, (v3 (ix2 r j) + v5 (ix2 0 j)) :=
  (add_colsum_at v9 (k8_pay3 v3 v5) _ _ _ j).trans
    (congrArg _ (Finset.sum_congr rfl fun r _ => pay8_3_at v3 v5 r j))

theorem pay8_5_at (v3 : Vec Ideal S5000x128 .f32) (v5 : Vec Ideal S1x128 .f32) (v16 : Vec Ideal S1x128 .f32) (j : Fin 128) :
    k8_pay5 v3 v5 v16 (ix2 0 j) = v16 (ix2 0 j) + ∑ r : Fin 5000, (v3 (ix2 r j) + v5 (ix2 0 j)) * (v3 (ix2 r j) + v5 (ix2 0 j)) :=
  (add_colsum_at v16 (mulf (k8_pay3 v3 v5) (k8_pay3 v3 v5)) _ _ _ j).trans
    (congrArg _ (Finset.sum_congr rfl fun r _ => by
      show k8_pay3 v3 v5 (ix2 r j) * k8_pay3 v3 v5 (ix2 r j) = _
      rw [pay8_3_at]))

theorem pay8_6_at (v27 : Vec Ideal S1x128 .f32) (j : Fin 128) :
    k8_pay6 v27 (ix2 0 j) = v27 (ix2 0 j) * ((1 / 50000 : ℝ) : EReal) := congrArg (v27 (ix2 0 j) * ·) inv_rows

theorem pay8_7_at (v27 v30 : Vec Ideal S1x128 .f32) (j : Fin 128) :
    k8_pay7 v27 v30 (ix2 0 j) = v30 (ix2 0 j) * ((1 / 50000 : ℝ) : EReal)
      - (v27 (ix2 0 j) * ((1 / 50000 : ℝ) : EReal)) * (v27 (ix2 0 j) * ((1 / 50000 : ℝ) : EReal)) := by
  unfold k8_pay7
  show v30 (ix2 0 j) * Named.named (F := Ideal) κ "inv_50000" (φ := .f32) 0x37A7C5AC#32
      - k8_pay6 v27 (ix2 0 j) * k8_pay6 v27 (ix2 0 j) = _
  rw [inv_rows, pay8_6_at]

variable (V : (c : Dev nD) → (b : Ref sig .tc) → Buf (Elt Ideal) ((c : Thread nD τ).loc b))

abbrev xarr8 (c : Dev nD) : Vec Ideal S50000x128 .f32 := V c (Pipeline.arrRef spec8 0)
abbrev barr8 (c : Dev nD) : Vec Ideal S1x128 .f32 := V c (Pipeline.arrRef spec8 1)

theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)
theorem idx8_1 : ∀ t : Fin cfg8.N, win8_1.index t (0 : Fin 2) = 0 ∧ win8_1.index t (1 : Fin 2) = 0 :=
  (by decide +kernel : ∀ t : Fin grid8.N, win8_1.index t (0 : Fin 2) = 0 ∧ win8_1.index t (1 : Fin 2) = 0)

theorem xblk8_at (c : Dev nD) (t : Fin cfg8.N) (r : Fin 5000) (j : Fin 128) (h : 5000 * t.val + r.val < 50000) :
    (iblk8 V c 0 t : Vec Ideal S5000x128 .f32) (ix2 r j) = xarr8 V c (ix2 ⟨5000 * t.val + r.val, h⟩ j) := by
  unfold iblk8
  rw [View.read_apply]
  show V c (Pipeline.arrRef spec8 0) _ = V c (Pipeline.arrRef spec8 0) _
  congr 1
  funext a
  apply Fin.ext
  match a with
  | ⟨0, _⟩ => show win8_0.index t 0 * 5000 + 1 * r.val = 5000 * t.val + r.val; rw [(idx8_0 t).1]; omega
  | ⟨1, _⟩ => show win8_0.index t 1 * 128 + 1 * j.val = j.val; rw [(idx8_0 t).2]; omega

theorem bblk8_at (c : Dev nD) (t : Fin cfg8.N) (j : Fin 128) :
    (iblk8 V c 1 t : Vec Ideal S1x128 .f32) (ix2 0 j) = barr8 V c (ix2 0 j) := by
  unfold iblk8
  rw [View.read_apply]
  show V c (Pipeline.arrRef spec8 1) _ = V c (Pipeline.arrRef spec8 1) _
  congr 1
  funext a
  apply Fin.ext
  match a with
  | ⟨0, _⟩ => show win8_1.index t 0 * 1 + 1 * 0 = 0; rw [(idx8_1 t).1]
  | ⟨1, _⟩ => show win8_1.index t 1 * 128 + 1 * j.val = j.val; rw [(idx8_1 t).2]; omega

def ycol8 (c : Dev nD) (j : Fin 128) : Fin 50000 → EReal := fun R => xarr8 V c (ix2 R j) + barr8 V c (ix2 0 j)

theorem pt8_lt (n : ℕ) (hn : n < 10) : (pt8 n).val = n := Nat.mod_eq_of_lt hn

theorem block8_at (c : Dev nD) (n : ℕ) (hn : n < 10) (j : Fin 128) (r : Fin 5000) :
    (xAt8 V c n) (ix2 r j) + (bAt8 V c n) (ix2 0 j)
      = ycol8 V c j ⟨5000 * n + r.val, by have := r.isLt; omega⟩ := by
  have hr : r.val < 5000 := r.isLt
  have hlt : 5000 * (pt8 n).val + r.val < 50000 := by rw [pt8_lt n hn]; omega
  unfold xAt8 bAt8
  rw [xblk8_at V c (pt8 n) r j hlt, bblk8_at V c (pt8 n) j]
  unfold ycol8
  refine congrArg (· + barr8 V c (ix2 0 j)) (congrArg (xarr8 V c) ?_)
  funext a; apply Fin.ext
  match a with
  | ⟨0, _⟩ => show 5000 * (pt8 n).val + r.val = 5000 * n + r.val; rw [pt8_lt n hn]
  | ⟨1, _⟩ => rfl

theorem sum8_last (c : Dev nD) (j : Fin 128) : sum8 V c 9 (ix2 0 j) = ∑ R : Fin 50000, ycol8 V c j R :=
  ten_blocks_sum _ (fun n => sum8 V c n (ix2 0 j)) (fun n r => xAt8 V c n (ix2 r j) + bAt8 V c n (ix2 0 j))
    (by
      rw [sum8_zero V c 0 rfl, View.ld_unit_zero (S := S5000x128) origin2, View.ld_unit_zero (S := S1x128) origin2]
      exact (pay8_4_at _ _ _ j).trans (by rw [pay8_1_at]))
    (fun n => by
      rw [sum8_pos V c (n + 1) n.succ_ne_zero, View.ld_unit_zero (S := S5000x128) origin2, View.ld_unit_zero (S := S1x128) origin2]
      exact (pay8_4_at _ _ _ j).trans (by rw [Nat.add_sub_cancel]))
    fun n hn r => block8_at V c n hn j r

theorem sq8_last (c : Dev nD) (j : Fin 128) :
    sq8 V c 9 (ix2 0 j) = ∑ R : Fin 50000, ycol8 V c j R * ycol8 V c j R :=
  ten_blocks_sum (fun R => ycol8 V c j R * ycol8 V c j R) (fun n => sq8 V c n (ix2 0 j))
    (fun n r => (xAt8 V c n (ix2 r j) + bAt8 V c n (ix2 0 j)) * (xAt8 V c n (ix2 r j) + bAt8 V c n (ix2 0 j)))
    (by
      rw [sq8_zero V c 0 rfl, View.ld_unit_zero (S := S5000x128) origin2, View.ld_unit_zero (S := S1x128) origin2]
      exact (pay8_5_at _ _ _ j).trans (by rw [pay8_2_at]))
    (fun n => by
      rw [sq8_pos V c (n + 1) n.succ_ne_zero, View.ld_unit_zero (S := S5000x128) origin2, View.ld_unit_zero (S := S1x128) origin2]
      exact (pay8_5_at _ _ _ j).trans (by rw [Nat.add_sub_cancel]))
    fun n hn r => by rw [block8_at V c n hn j r]

theorem mean8_canon (c : Dev nD) :
    (View.canon [⟨rS8, k8_pay6 (sum8 V c 9)⟩] : Vec Ideal S1x128 .f32) = Cert.Spec.bnMean128 (xarr8 V c) (barr8 V c) := by
  rw [View.canon_unit_zero origin2]
  funext i
  obtain ⟨p, j, rfl⟩ : ∃ (p : Fin 1) (j : Fin 128), i = ix2 p j := ⟨i 0, i 1, eq_ix2 i⟩
  obtain rfl : p = 0 := Subsingleton.elim _ _
  rw [pay8_6_at, sum8_last]
  rfl

theorem var8_canon (c : Dev nD) :
    (View.canon [⟨rS8, k8_pay7 (sum8 V c 9) (sq8 V c 9)⟩] : Vec Ideal S1x128 .f32) = Cert.Spec.bnVar128 (xarr8 V c) (barr8 V c) := by
  rw [View.canon_unit_zero origin2]
  funext i
  obtain ⟨p, j, rfl⟩ : ∃ (p : Fin 1) (j : Fin 128), i = ix2 p j := ⟨i 0, i 1, eq_ix2 i⟩
  obtain rfl : p = 0 := Subsingleton.elim _ _
  rw [pay8_7_at, sum8_last, sq8_last]
  rfl

theorem flush8_2_last (t : Fin cfg8.N) (hf : (cfg8.win 2).flush t = true) : t = t8_9 :=
  Fin.ext (by have := (flush8_2 t).mp hf; have := lt_of_lt_of_eq t.isLt (show cfg8.N = 10 from N_8); show t.val = 9; omega)
theorem flush8_3_last (t : Fin cfg8.N) (hf : (cfg8.win 3).flush t = true) : t = t8_9 :=
  Fin.ext (by have := (flush8_3 t).mp hf; have := lt_of_lt_of_eq t.isLt (show cfg8.N = 10 from N_8); show t.val = 9; omega)

theorem flushed8_2_eq (c : Dev nD) (t : Fin cfg8.N) (hf : (cfg8.win 2).flush t = true) :
    (dat8 V c).flushed 2 t = ((cfg8.win 2).blk t).view.read (Elt Ideal) (Cert.Spec.bnMean128 (xarr8 V c) (barr8 V c)) := by
  obtain rfl := flush8_2_last t hf
  show (cfg8.win 2).cut (grid8.coords t8_9) ((dat8 V c).after 2 t8_9) = _
  rw [after8_2, show (t8_9 : Fin cfg8.N).val = 9 from rfl, mean8_canon]
  have hz' : (fun a => win8_2.index t8_9 a * main_v70_0.ty.shape.size a) = fun _ => 0 := funext fun a => by fin_cases a <;> decide
  exact (Memref.read_access_unit_zero (Elt Ideal) main_v70_0 hz' (fun a => by rw [congrFun hz' a]; simp) _).symm

theorem flushed8_3_eq (c : Dev nD) (t : Fin cfg8.N) (hf : (cfg8.win 3).flush t = true) :
    (dat8 V c).flushed 3 t = ((cfg8.win 3).blk t).view.read (Elt Ideal) (Cert.Spec.bnVar128 (xarr8 V c) (barr8 V c)) := by
  obtain rfl := flush8_3_last t hf
  show (cfg8.win 3).cut (grid8.coords t8_9) ((dat8 V c).after 3 t8_9) = _
  rw [after8_3, show (t8_9 : Fin cfg8.N).val = 9 from rfl, var8_canon]
  have hz' : (fun a => win8_3.index t8_9 a * main_v70_1.ty.shape.size a) = fun _ => 0 := funext fun a => by fin_cases a <;> decide
  exact (Memref.read_access_unit_zero (Elt Ideal) main_v70_1 hz' (fun a => by rw [congrFun hz' a]; simp) _).symm

theorem val8_2 (c : Dev nD) :
    (dat8 V c).arrAt 2 cfg8.N = Cert.Spec.bnMean128 (V c (Pipeline.arrRef spec8 0)) (V c (Pipeline.arrRef spec8 1)) :=
  (dat8 V c).arrAt_eq_of_cover 2 (Cert.Spec.bnMean128 (xarr8 V c) (barr8 V c)) (flushed8_2_eq V c) fun i =>
    ⟨t8_9, (flush8_2 t8_9).mpr rfl, by
      show i ∈ ((View.whole main_v70_0).slice (win8_2.rect t8_9)).set
      rw [View.set_slice_whole]
      exact mem_whole_block (s := S1x128) i (by decide +kernel) (by decide +kernel)⟩

theorem val8_3 (c : Dev nD) :
    (dat8 V c).arrAt 3 cfg8.N = Cert.Spec.bnVar128 (V c (Pipeline.arrRef spec8 0)) (V c (Pipeline.arrRef spec8 1)) :=
  (dat8 V c).arrAt_eq_of_cover 3 (Cert.Spec.bnVar128 (xarr8 V c) (barr8 V c)) (flushed8_3_eq V c) fun i =>
    ⟨t8_9, (flush8_3 t8_9).mpr rfl, by
      show i ∈ ((View.whole main_v70_1).slice (win8_3.rect t8_9)).set
      rw [View.set_slice_whole]
      exact mem_whole_block (s := S1x128) i (by decide +kernel) (by decide +kernel)⟩

end Cert.KernelIdeal.Hand

end
-- ==== Proof.KI.V9.lean ====
import proofs.«165280_j63788854280268_1_alg».proof.Proof.KI.R9
import proofs.«165280_j63788854280268_1_alg».proof.Proof.Spec.BnApply
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem normed9_at (x : Vec Ideal S5000x128 .f32) (b var mean : Vec Ideal S1x128 .f32) (p : Fin 5000) (q : Fin 128) :
    k9_pay1 (F := Ideal) x b var mean (ix2 p q)
      = Cert.Spec.bnApplyAt (x (ix2 p q)) (b (ix2 0 q)) (mean (ix2 0 q)) (var (ix2 0 q)) := by
  unfold k9_pay1 Cert.Spec.bnApplyAt
  simp only [shapeCast_self, maximumf_apply, mulf_apply, subf_apply, addf_apply, broadcast_apply, broadcastTo_1b_ab_apply]
  rfl

theorem sits9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

theorem lt_ten9 (t : Fin cfg9.N) : t.val < 10 := t.isLt.trans_eq N_9

theorem row_lt9 (t : Fin cfg9.N) (p : Fin 5000) : t.val * 5000 + p.val < 50000 := by
  have := lt_ten9 t; have := p.isLt; omega

theorem shown9_x_at (c : Dev nD) (t : Fin cfg9.N) (p : Fin 5000) (q : Fin 128) :
    shown9 V c 0 t (ix2 p q)
      = V c (Pipeline.arrRef spec9 0) (ix2 (n0 := 50000) (n1 := 128) ⟨t.val * 5000 + p.val, row_lt9 t p⟩ q) := by
  obtain ⟨x0, x1, -⟩ := sits9 t
  show V c (Pipeline.arrRef spec9 0) (((cfg9.win 0).blk t).view.emb (ix2 p q)) = _
  refine congrArg _ (funext fun a => Fin.ext ?_)
  match a with
  | ⟨0, _⟩ => show win9_0.index t (0 : Fin 2) * 5000 + 1 * p.val = t.val * 5000 + p.val; omega
  | ⟨1, _⟩ => show win9_0.index t (1 : Fin 2) * 128 + 1 * q.val = q.val; omega

theorem shown9_b_at (c : Dev nD) (t : Fin cfg9.N) (q : Fin 128) :
    shown9 V c 1 t (ix2 (0 : Fin 1) q) = V c (Pipeline.arrRef spec9 1) (ix2 (n0 := 1) (n1 := 128) 0 q) := by
  obtain ⟨-, -, b0, b1, -⟩ := sits9 t
  show V c (Pipeline.arrRef spec9 1) (((cfg9.win 1).blk t).view.emb (ix2 (0 : Fin 1) q)) = _
  refine congrArg _ (funext fun a => Fin.ext ?_)
  match a with
  | ⟨0, _⟩ => show win9_1.index t (0 : Fin 2) * 1 + 1 * 0 = 0; omega
  | ⟨1, _⟩ => show win9_1.index t (1 : Fin 2) * 128 + 1 * q.val = q.val; omega

theorem shown9_mean_at (c : Dev nD) (t : Fin cfg9.N) (q : Fin 128) :
    shown9 V c 2 t (ix2 (0 : Fin 1) q) = V c (Pipeline.arrRef spec9 2) (ix2 (n0 := 1) (n1 := 128) 0 q) := by
  obtain ⟨-, -, -, -, m0, m1, -⟩ := sits9 t
  show V c (Pipeline.arrRef spec9 2) (((cfg9.win 2).blk t).view.emb (ix2 (0 : Fin 1) q)) = _
  refine congrArg _ (funext fun a => Fin.ext ?_)
  match a with
  | ⟨0, _⟩ => show win9_2.index t (0 : Fin 2) * 1 + 1 * 0 = 0; omega
  | ⟨1, _⟩ => show win9_2.index t (1 : Fin 2) * 128 + 1 * q.val = q.val; omega

theorem shown9_var_at (c : Dev nD) (t : Fin cfg9.N) (q : Fin 128) :
    shown9 V c 3 t (ix2 (0 : Fin 1) q) = V c (Pipeline.arrRef spec9 3) (ix2 (n0 := 1) (n1 := 128) 0 q) := by
  obtain ⟨-, -, -, -, -, -, v0, v1, -⟩ := sits9 t
  show V c (Pipeline.arrRef spec9 3) (((cfg9.win 3).blk t).view.emb (ix2 (0 : Fin 1) q)) = _
  refine congrArg _ (funext fun a => Fin.ext ?_)
  match a with
  | ⟨0, _⟩ => show win9_3.index t (0 : Fin 2) * 1 + 1 * 0 = 0; omega
  | ⟨1, _⟩ => show win9_3.index t (1 : Fin 2) * 128 + 1 * q.val = q.val; omega

theorem out9_block_at (G : S50000x128.Idx → EReal) (t : Fin cfg9.N) (p : Fin 5000) (q : Fin 128) :
    ((cfg9.win 4).blk t).view.read (Elt Ideal) G (ix2 p q)
      = G (ix2 (n0 := 50000) (n1 := 128) ⟨t.val * 5000 + p.val, row_lt9 t p⟩ q) := by
  obtain ⟨-, -, -, -, -, -, -, -, o0, o1⟩ := sits9 t
  show G (((cfg9.win 4).blk t).view.emb (ix2 p q)) = _
  refine congrArg _ (funext fun a => Fin.ext ?_)
  match a with
  | ⟨0, _⟩ => show win9_4.index t (0 : Fin 2) * 5000 + 1 * p.val = t.val * 5000 + p.val; omega
  | ⟨1, _⟩ => show win9_4.index t (1 : Fin 2) * 128 + 1 * q.val = q.val; omega

set_option maxHeartbeats 1000000 in
theorem flushed9_out (c : Dev nD) (t : Fin cfg9.N) :
    (dat9 V c).flushed 4 t = ((cfg9.win 4).blk t).view.read (Elt Ideal)
      (Cert.Spec.bnApply128 (V c (Pipeline.arrRef spec9 0)) (V c (Pipeline.arrRef spec9 1))
        (V c (Pipeline.arrRef spec9 2)) (V c (Pipeline.arrRef spec9 3))) := by
  show (cfg9.win 4).cut (grid9.coords t) ((dat9 V c).after 4 t) = _
  rw [after9_out]
  unfold normed9
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  refine (normed9_at (shown9 V c 0 t) (shown9 V c 1 t) (shown9 V c 3 t) (shown9 V c 2 t) p q).trans ?_
  rw [shown9_x_at, shown9_b_at, shown9_mean_at, shown9_var_at, out9_block_at]
  exact (Cert.Spec.bnApply128_ix2 _ _ _ _ _ _).symm

theorem covered9 (i : S50000x128.Idx) :
    ∃ t : Fin cfg9.N, (cfg9.win 4).flush t = true ∧ i ∈ ((cfg9.win 4).blk t).view.set := by
  have hi : (i 0).val < 50000 := (i 0).isLt
  obtain ⟨t, ht⟩ : ∃ t : Fin cfg9.N, t.val = (i 0).val / 5000 :=
    ⟨⟨_, by rw [show cfg9.N = 10 from N_9]; omega⟩, rfl⟩
  obtain ⟨-, -, -, -, -, -, -, -, o0, o1⟩ := sits9 t
  refine ⟨t, flush9_4 t, ?_⟩
  show i ∈ ((View.whole main_v71).slice (win9_4.rect t)).set
  rw [View.set_slice_whole]
  exact mem_rowblock (B := 5000) (by decide) i (by show win9_4.index t 0 * 5000 = _; rw [o0, ht])
    (by rfl) (by show win9_4.index t 1 * 128 = 0; rw [o1, Nat.zero_mul]) (by rfl)

theorem val9_4 (c : Dev nD) :
    (dat9 V c).arrAt 4 cfg9.N
      = Cert.Spec.bnApply128 (V c (Pipeline.arrRef spec9 0)) (V c (Pipeline.arrRef spec9 1))
          (V c (Pipeline.arrRef spec9 2)) (V c (Pipeline.arrRef spec9 3)) :=
  (dat9 V c).arrAt_eq_of_cover 4 _ (fun t _ => flushed9_out V c t) covered9

end Cert.KernelIdeal.Hand

end
-- ==== Proof.KI.V10.lean ====
import proofs.«165280_j63788854280268_1_alg».proof.Proof.KI.R10
import proofs.«165280_j63788854280268_1_alg».proof.Proof.KI.V6

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0
    ∧ win10_6.index t (0 : Fin 2) = t.val ∧ win10_6.index t (1 : Fin 2) = 0 :=
  (by decide +kernel : ∀ t : Fin grid10.N, _)

theorem lt_ten10 (t : Fin cfg10.N) : t.val < 10 := by
  have h : t.val < grid10.N := t.isLt
  rw [N_10] at h
  exact h

theorem iblk10_0_apply (c : Dev nD) (t : Fin cfg10.N) (r : Fin 5000) (k : Fin 128) :
    iblk10 V c 0 t (ix2 r k) = V c (Pipeline.arrRef spec10 0) (ix2 (⟨t.val * 5000 + r.val, by have := lt_ten10 t; omega⟩ : Fin 50000) k) := by
  obtain ⟨e0r, e0c, -⟩ := idx_facts10 t
  show V c (Pipeline.arrRef spec10 0) (((cfg10.win 0).blk t).view.emb (ix2 r k)) = _
  refine congrArg _ (funext fun a => Fin.ext ?_)
  match a with
  | ⟨0, _⟩ => show win10_0.index t (0 : Fin 2) * 5000 + 1 * r.val = t.val * 5000 + r.val; omega
  | ⟨1, _⟩ => show win10_0.index t (1 : Fin 2) * 128 + 1 * k.val = k.val; omega

theorem iblk10_1_apply (c : Dev nD) (t : Fin cfg10.N) (r : Fin 5000) (k : Fin 128) :
    iblk10 V c 1 t (ix2 r k) = V c (Pipeline.arrRef spec10 1) (ix2 (⟨t.val * 5000 + r.val, by have := lt_ten10 t; omega⟩ : Fin 50000) k) := by
  obtain ⟨-, -, e1r, e1c, -⟩ := idx_facts10 t
  show V c (Pipeline.arrRef spec10 1) (((cfg10.win 1).blk t).view.emb (ix2 r k)) = _
  refine congrArg _ (funext fun a => Fin.ext ?_)
  match a with
  | ⟨0, _⟩ => show win10_1.index t (0 : Fin 2) * 5000 + 1 * r.val = t.val * 5000 + r.val; omega
  | ⟨1, _⟩ => show win10_1.index t (1 : Fin 2) * 128 + 1 * k.val = k.val; omega

theorem iblk10_2_eq (c : Dev nD) (t : Fin cfg10.N) : iblk10 V c 2 t = V c (Pipeline.arrRef spec10 2) := by
  obtain ⟨-, -, -, -, e2r, e2c, -⟩ := idx_facts10 t
  funext y
  show V c (Pipeline.arrRef spec10 2) (((cfg10.win 2).blk t).view.emb y) = V c (Pipeline.arrRef spec10 2) y
  refine congrArg _ (funext fun a => Fin.ext ?_)
  match a with
  | ⟨0, _⟩ => show win10_2.index t (0 : Fin 2) * 128 + 1 * (y 0).val = (y 0).val; omega
  | ⟨1, _⟩ => show win10_2.index t (1 : Fin 2) * 1 + 1 * (y 1).val = (y 1).val; omega
theorem iblk10_3_eq (c : Dev nD) (t : Fin cfg10.N) : iblk10 V c 3 t = V c (Pipeline.arrRef spec10 3) := by
  obtain ⟨-, -, -, -, -, -, e3r, e3c, -⟩ := idx_facts10 t
  funext y
  show V c (Pipeline.arrRef spec10 3) (((cfg10.win 3).blk t).view.emb y) = V c (Pipeline.arrRef spec10 3) y
  refine congrArg _ (funext fun a => Fin.ext ?_)
  match a with
  | ⟨0, _⟩ => show win10_3.index t (0 : Fin 2) * 128 + 1 * (y 0).val = (y 0).val; omega
  | ⟨1, _⟩ => show win10_3.index t (1 : Fin 2) * 1 + 1 * (y 1).val = (y 1).val; omega
theorem iblk10_4_eq (c : Dev nD) (t : Fin cfg10.N) : iblk10 V c 4 t = V c (Pipeline.arrRef spec10 4) := by
  obtain ⟨-, -, -, -, -, -, -, -, e4r, e4c, -⟩ := idx_facts10 t
  funext y
  show V c (Pipeline.arrRef spec10 4) (((cfg10.win 4).blk t).view.emb y) = V c (Pipeline.arrRef spec10 4) y
  refine congrArg _ (funext fun a => Fin.ext ?_)
  match a with
  | ⟨0, _⟩ => show win10_4.index t (0 : Fin 2) * 1 + 1 * (y 0).val = (y 0).val; omega
  | ⟨1, _⟩ => show win10_4.index t (1 : Fin 2) * 1 + 1 * (y 1).val = (y 1).val; omega

theorem blk10_6_apply (G : S50000x1.Idx → EReal) (t : Fin cfg10.N) (r : Fin 5000) :
    ((cfg10.win 6).blk t).view.read (Elt Ideal) G (ix2 r 0)
      = G (ix2 (⟨t.val * 5000 + r.val, by have := lt_ten10 t; omega⟩ : Fin 50000) 0) := by
  obtain ⟨-, -, -, -, -, -, -, -, -, -, -, -, e6r, e6c⟩ := idx_facts10 t
  show G (((cfg10.win 6).blk t).view.emb (ix2 r 0)) = _
  refine congrArg _ (funext fun a => Fin.ext ?_)
  match a with
  | ⟨0, _⟩ => show win10_6.index t (0 : Fin 2) * 5000 + 1 * r.val = t.val * 5000 + r.val; omega
  | ⟨1, _⟩ => show win10_6.index t (1 : Fin 2) * 1 + 1 * 0 = 0; omega

set_option maxHeartbeats 1600000 in
theorem flushed10_6_eq (c : Dev nD) (t : Fin cfg10.N) :
    (dat10 V c).flushed 6 t = ((cfg10.win 6).blk t).view.read (Elt Ideal)
      (Cert.Spec.gateAlpha (V c (Pipeline.arrRef spec10 0)) (V c (Pipeline.arrRef spec10 1)) (V c (Pipeline.arrRef spec10 2))
        (V c (Pipeline.arrRef spec10 3)) (V c (Pipeline.arrRef spec10 4))) := by
  show (cfg10.win 6).cut (grid10.coords t) ((dat10 V c).after 6 t) = _
  rw [after10_6]
  unfold alpha10
  rw [View.canon_unit_zero hz6]
  simp only [View.ld_unit_zero (S := S5000x128) hz6, View.ld_unit_zero (S := S128x1) hz6, View.ld_unit_zero (S := S1x1) hz6]
  funext j
  obtain ⟨r, z, rfl⟩ : ∃ (r : Fin 5000) (z : Fin 1), j = ix2 r z := ⟨j 0, j 1, eq_ix2 j⟩
  obtain rfl : z = 0 := Subsingleton.elim _ _
  exact (gate_block_eq6 _ _ _ _ _ _ _ _ _ _ t.val (lt_ten10 t) (iblk10_0_apply V c t) (iblk10_1_apply V c t)
    (iblk10_2_eq V c t) (iblk10_3_eq V c t) (iblk10_4_eq V c t) r).trans (blk10_6_apply _ t r).symm

theorem mem_blk10_6 (t : Fin cfg10.N) (i : S50000x1.Idx) :
    i ∈ ((cfg10.win 6).blk t).view.set ↔ ∀ a : Fin 2, win10_6.index t a * S5000x1.size a ≤ (i a).val ∧ (i a).val < win10_6.index t a * S5000x1.size a + S5000x1.size a := by
  show i ∈ ((View.whole main_v73_1).slice (win10_6.rect t)).set ↔ _
  rw [View.set_slice_whole, Rect.mem_set_unit]
  exact Iff.rfl

theorem cover10_6 (i : S50000x1.Idx) : ∃ t : Fin cfg10.N, (cfg10.win 6).flush t = true ∧ i ∈ ((cfg10.win 6).blk t).view.set := by
  have hi0 : (i 0).val < 50000 := (i 0).isLt
  have hi1 : (i 1).val < 1 := (i 1).isLt
  have ht : (i 0).val / 5000 < cfg10.N := by show _ < grid10.N; rw [N_10]; omega
  obtain ⟨-, -, -, -, -, -, -, -, -, -, -, -, e6r, e6c⟩ := idx_facts10 ⟨(i 0).val / 5000, ht⟩
  have e6r' : win10_6.index ⟨(i 0).val / 5000, ht⟩ (0 : Fin 2) = (i 0).val / 5000 := e6r
  refine ⟨⟨(i 0).val / 5000, ht⟩, flush10_6 _, ?_⟩
  rw [mem_blk10_6]
  intro a
  match a with
  | ⟨0, _⟩ => show win10_6.index ⟨(i 0).val / 5000, ht⟩ (0 : Fin 2) * 5000 ≤ (i 0).val ∧ (i 0).val < win10_6.index ⟨(i 0).val / 5000, ht⟩ (0 : Fin 2) * 5000 + 5000; omega
  | ⟨1, _⟩ => show win10_6.index ⟨(i 0).val / 5000, ht⟩ (1 : Fin 2) * 1 ≤ (i 1).val ∧ (i 1).val < win10_6.index ⟨(i 0).val / 5000, ht⟩ (1 : Fin 2) * 1 + 1; omega

theorem val10_6 (c : Dev nD) : (dat10 V c).arrAt 6 cfg10.N
    = Cert.Spec.gateAlpha (V c (Pipeline.arrRef spec10 0)) (V c (Pipeline.arrRef spec10 1)) (V c (Pipeline.arrRef spec10 2))
        (V c (Pipeline.arrRef spec10 3)) (V c (Pipeline.arrRef spec10 4)) :=
  (dat10 V c).arrAt_eq_of_cover 6 _ (fun t _ => flushed10_6_eq V c t) cover10_6

theorem blk10_5_apply (G : S50000x128.Idx → EReal) (t : Fin cfg10.N) (r : Fin 5000) (l : Fin 128) :
    ((cfg10.win 5).blk t).view.read (Elt Ideal) G (ix2 r l)
      = G (ix2 (⟨t.val * 5000 + r.val, by have := lt_ten10 t; omega⟩ : Fin 50000) l) := by
  obtain ⟨-, -, -, -, -, -, -, -, -, -, e5r, e5c, -⟩ := idx_facts10 t
  show G (((cfg10.win 5).blk t).view.emb (ix2 r l)) = _
  refine congrArg _ (funext fun a => Fin.ext ?_)
  match a with
  | ⟨0, _⟩ => show win10_5.index t (0 : Fin 2) * 5000 + 1 * r.val = t.val * 5000 + r.val; omega
  | ⟨1, _⟩ => show win10_5.index t (1 : Fin 2) * 128 + 1 * l.val = l.val; omega

set_option maxHeartbeats 1600000 in
theorem flushed10_5_eq (c : Dev nD) (t : Fin cfg10.N) :
    (dat10 V c).flushed 5 t = ((cfg10.win 5).blk t).view.read (Elt Ideal)
      (Cert.Spec.gateMixed (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  unfold mixed10
  rw [View.canon_unit_zero hz6]
  simp only [View.ld_unit_zero (S := S5000x128) hz6, View.ld_unit_zero (S := S128x1) hz6, View.ld_unit_zero (S := S1x1) hz6]
  funext j
  obtain ⟨r, l, rfl⟩ : ∃ (r : Fin 5000) (l : Fin 128), j = ix2 r l := ⟨j 0, j 1, eq_ix2 j⟩
  exact (mixed_block_eq6 _ _ _ _ _ _ _ _ _ _ t.val (lt_ten10 t) (iblk10_0_apply V c t) (iblk10_1_apply V c t)
    (iblk10_2_eq V c t) (iblk10_3_eq V c t) (iblk10_4_eq V c t) r l).trans (blk10_5_apply _ t r l).symm

theorem mem_blk10_5 (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v73_0).slice (win10_5.rect t)).set ↔ _
  rw [View.set_slice_whole, Rect.mem_set_unit]
  exact Iff.rfl

theorem cover10_5 (i : S50000x128.Idx) : ∃ t : Fin cfg10.N, (cfg10.win 5).flush t = true ∧ i ∈ ((cfg10.win 5).blk t).view.set := by
  have hi0 : (i 0).val < 50000 := (i 0).isLt
  have hi1 : (i 1).val < 128 := (i 1).isLt
  have ht : (i 0).val / 5000 < cfg10.N := by show _ < grid10.N; rw [N_10]; omega
  obtain ⟨-, -, -, -, -, -, -, -, -, -, e5r, e5c, -⟩ := idx_facts10 ⟨(i 0).val / 5000, ht⟩
  have e5r' : win10_5.index ⟨(i 0).val / 5000, ht⟩ (0 : Fin 2) = (i 0).val / 5000 := e5r
  refine ⟨⟨(i 0).val / 5000, ht⟩, flush10_5 _, ?_⟩
  rw [mem_blk10_5]
  intro a
  match a with
  | ⟨0, _⟩ => show win10_5.index ⟨(i 0).val / 5000, ht⟩ (0 : Fin 2) * 5000 ≤ (i 0).val ∧ (i 0).val < win10_5.index ⟨(i 0).val / 5000, ht⟩ (0 : Fin 2) * 5000 + 5000; omega
  | ⟨1, _⟩ => show win10_5.index ⟨(i 0).val / 5000, ht⟩ (1 : Fin 2) * 128 ≤ (i 1).val ∧ (i 1).val < win10_5.index ⟨(i 0).val / 5000, ht⟩ (1 : Fin 2) * 128 + 128; omega

theorem val10_5 (c : Dev nD) : (dat10 V c).arrAt 5 cfg10.N
    = Cert.Spec.gateMixed (V c (Pipeline.arrRef spec10 0)) (V c (Pipeline.arrRef spec10 1)) (V c (Pipeline.arrRef spec10 2))
        (V c (Pipeline.arrRef spec10 3)) (V c (Pipeline.arrRef spec10 4)) :=
  (dat10 V c).arrAt_eq_of_cover 5 _ (fun t _ => flushed10_5_eq V c t) cover10_5

end Cert.KernelIdeal.Hand

end
-- ==== Proof.KI.V11.lean ====
import proofs.«165280_j63788854280268_1_alg».proof.Proof.KI.R11
import proofs.«165280_j63788854280268_1_alg».proof.Proof.KI.VCommon
import proofs.«165280_j63788854280268_1_alg».proof.Proof.Spec.Matmul

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pay_at11 (x : Vec Ideal S5000x128 .f32) (w : Vec Ideal S128x128 .f32) (p : Fin 5000) (q : Fin 128) :
    k11_pay1 (F := Ideal) x w (ix2 p q) = ∑ k : Fin 128, x (ix2 p k) * w (ix2 k q) :=
  (plain_matmul_at rfl none _ _ p q).trans (by simp only [truncf_apply, shapeCast_self])

theorem index_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

set_option maxHeartbeats 1000000 in
theorem flushed_eq11 (c : Dev nD) (t : Fin cfg11.N) :
    (dat11 V c).flushed 2 t = ((cfg11.win 2).blk t).view.read (Elt Ideal)
      (Cert.Spec.matProd128 (V c (Pipeline.arrRef spec11 0)) (V c (Pipeline.arrRef spec11 1))) := by
  show (cfg11.win 2).cut (grid11.coords t) ((dat11 V c).after 2 t) = _
  rw [after_prod11]
  unfold product11
  rw [View.canon_unit_zero origin2]
  simp only [View.ld_unit_zero (S := S5000x128) origin2, View.ld_unit_zero (S := S128x128) origin2]
  obtain ⟨e00, e01, e10, e11, e20, e21⟩ := index_facts11 t
  funext j
  obtain ⟨p, q, rfl⟩ : ∃ (p : Fin 5000) (q : Fin 128), j = ix2 p q := ⟨j 0, j 1, eq_ix2 j⟩
  show k11_pay1 (F := Ideal) (blockAt11 V c 0 t) (blockAt11 V c 1 t) (ix2 p q)
    = Cert.Spec.matProd128 (V c (Pipeline.arrRef spec11 0)) (V c (Pipeline.arrRef spec11 1)) (((cfg11.win 2).blk t).view.emb (ix2 p q))
  rw [pay_at11]
  have ht : t.val < 10 := Nat.lt_of_lt_of_eq t.isLt N_11
  have hE : ((cfg11.win 2).blk t).view.emb (ix2 p q)
      = ix2 (n0 := 50000) (n1 := 128) ⟨t.val * 5000 + p.val, by omega⟩ q := by
    funext a; apply Fin.ext
    match a with
    | ⟨0, _⟩ =>
      show win11_2.index t (0 : Fin 2) * 5000 + 1 * p.val = t.val * 5000 + p.val
      omega
    | ⟨1, _⟩ =>
      show win11_2.index t (1 : Fin 2) * 128 + 1 * q.val = q.val
      omega
  rw [hE, Cert.Spec.matProd128_ix2]
  refine Finset.sum_congr rfl fun k _ => ?_
  have hx : blockAt11 V c 0 t (ix2 p k) = V c (Pipeline.arrRef spec11 0)
      (ix2 (n0 := 50000) (n1 := 128) ⟨t.val * 5000 + p.val, by omega⟩ k) := by
    show V c (Pipeline.arrRef spec11 0) (((cfg11.win 0).blk t).view.emb (ix2 p k)) = _
    refine congrArg _ (funext fun a => Fin.ext ?_)
    match a with
    | ⟨0, _⟩ =>
      show win11_0.index t (0 : Fin 2) * 5000 + 1 * p.val = t.val * 5000 + p.val
      omega
    | ⟨1, _⟩ =>
      show win11_0.index t (1 : Fin 2) * 128 + 1 * k.val = k.val
      omega
  have hw : blockAt11 V c 1 t (ix2 k q) = V c (Pipeline.arrRef spec11 1) (ix2 (n0 := 128) (n1 := 128) k q) := by
    show V c (Pipeline.arrRef spec11 1) (((cfg11.win 1).blk t).view.emb (ix2 k q)) = _
    refine congrArg _ (funext fun a => Fin.ext ?_)
    match a with
    | ⟨0, _⟩ =>
      show win11_1.index t (0 : Fin 2) * 128 + 1 * k.val = k.val
      omega
    | ⟨1, _⟩ =>
      show win11_1.index t (1 : Fin 2) * 128 + 1 * q.val = q.val
      omega
  rw [hx, hw]

theorem covered11 (i : S50000x128.Idx) :
    ∃ t : Fin cfg11.N, (cfg11.win 2).flush t = true ∧ i ∈ ((cfg11.win 2).blk t).view.set := by
  have hi : (i 0).val < 50000 := (i 0).isLt
  obtain ⟨t, ht⟩ : ∃ t : Fin cfg11.N, t.val = (i 0).val / 5000 :=
    ⟨⟨_, by rw [show cfg11.N = 10 from N_11]; omega⟩, rfl⟩
  obtain ⟨-, -, -, -, e20, e21⟩ := index_facts11 t
  refine ⟨t, flush11_2 t, ?_⟩
  show i ∈ ((View.whole main_v76).slice (win11_2.rect t)).set
  rw [View.set_slice_whole]
  exact mem_rowblock (B := 5000) (by decide) i (by show win11_2.index t 0 * 5000 = _; rw [e20, ht])
    (by rfl) (by show win11_2.index t 1 * 128 = 0; rw [e21, Nat.zero_mul]) (by rfl)

theorem val11_2 (c : Dev nD) :
    (dat11 V c).arrAt 2 cfg11.N
      = Cert.Spec.matProd128 (V c (Pipeline.arrRef spec11 0)) (V c (Pipeline.arrRef spec11 1)) :=
  (dat11 V c).arrAt_eq_of_cover 2 _ (fun t _ => flushed_eq11 V c t) covered11

end Cert.KernelIdeal.Hand

end
-- ==== Proof.KI.V12.lean ====
import proofs.«165280_j63788854280268_1_alg».proof.Proof.Gen.KernelIdeal.Launch
import proofs.«165280_j63788854280268_1_alg».proof.Proof.Gen.KernelIdeal.Skeleton
import proofs.«165280_j63788854280268_1_alg».proof.Proof.Gen.KernelIdeal.Points
import proofs.«165280_j63788854280268_1_alg».proof.Proof.Spec.BnStats
import proofs.«165280_j63788854280268_1_alg».proof.Proof.KI.R12
import Idealize.ShloMosaic.Lib.Pipeline.FrameBody
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem pay12_1_at (j : Fin 128) : k12_pay1 (F := Ideal) (ix2 0 j) = 0 := zero_row_at _ j

theorem pay12_2_at (j : Fin 128) : k12_pay2 (F := Ideal) (ix2 0 j) = 0 := zero_row_at _ j

theorem pay12_3_at (v3 : Vec Ideal S5000x128 .f32) (v5 : Vec Ideal S1x128 .f32) (r : Fin 5000) (j : Fin 128) :
    k12_pay3 v3 v5 (ix2 r j) = v3 (ix2 r j) + v5 (ix2 0 j) := shift_at v3 v5 _ _ _ r j

theorem pay12_4_at (v3 : Vec Ideal S5000x128 .f32) (v5 : Vec Ideal S1x128 .f32) (v9 : Vec Ideal S1x128 .f32) (j : Fin 128) :
    k12_pay4 v3 v5 v9 (ix2 0 j) = v9 (ix2 0 j) + ∑ r : Fin 5000, (v3 (ix2 r j) + v5 (ix2 0 j)) :=
  (add_colsum_at v9 (k12_pay3 v3 v5) _ _ _ j).trans
    (congrArg _ (Finset.sum_congr rfl fun r _ => pay12_3_at v3 v5 r j))

theorem pay12_5_at (v3 : Vec Ideal S5000x128 .f32) (v5 : Vec Ideal S1x128 .f32) (v16 : Vec Ideal S1x128 .f32) (j : Fin 128) :
    k12_pay5 v3 v5 v16 (ix2 0 j) = v16 (ix2 0 j) + ∑ r : Fin 5000, (v3 (ix2 r j) + v5 (ix2 0 j)) * (v3 (ix2 r j) + v5 (ix2 0 j)) :=
  (add_colsum_at v16 (mulf (k12_pay3 v3 v5) (k12_pay3 v3 v5)) _ _ _ j).trans
    (congrArg _ (Finset.sum_congr rfl fun r _ => by
      show k12_pay3 v3 v5 (ix2 r j) * k12_pay3 v3 v5 (ix2 r j) = _
      rw [pay12_3_at]))

theorem pay12_6_at (v27 : Vec Ideal S1x128 .f32) (j : Fin 128) :
    k12_pay6 v27 (ix2 0 j) = v27 (ix2 0 j) * ((1 / 50000 : ℝ) : EReal) := congrArg (v27 (ix2 0 j) * ·) inv_rows

theorem pay12_7_at (v27 v30 : Vec Ideal S1x128 .f32) (j : Fin 128) :
    k12_pay7 v27 v30 (ix2 0 j) = v30 (ix2 0 j) * ((1 / 50000 : ℝ) : EReal)
      - (v27 (ix2 0 j) * ((1 / 50000 : ℝ) : EReal)) * (v27 (ix2 0 j) * ((1 / 50000 : ℝ) : EReal)) := by
  unfold k12_pay7
  show v30 (ix2 0 j) * Named.named (F := Ideal) κ "inv_50000" (φ := .f32) 0x37A7C5AC#32
      - k12_pay6 v27 (ix2 0 j) * k12_pay6 v27 (ix2 0 j) = _
  rw [inv_rows, pay12_6_at]

variable (V : (c : Dev nD) → (b : Ref sig .tc) → Buf (Elt Ideal) ((c : Thread nD τ).loc b))

abbrev xarr12 (c : Dev nD) : Vec Ideal S50000x128 .f32 := V c (Pipeline.arrRef spec12 0)
abbrev barr12 (c : Dev nD) : Vec Ideal S1x128 .f32 := V c (Pipeline.arrRef spec12 1)

theorem idx12_0 : ∀ t : Fin cfg12.N, win12_0.index t (0 : Fin 2) = t.val ∧ win12_0.index t (1 : Fin 2) = 0 :=
  (by decide +kernel : ∀ t : Fin grid12.N, win12_0.index t (0 : Fin 2) = t.val ∧ win12_0.index t (1 : Fin 2) = 0)
theorem idx12_1 : ∀ t : Fin cfg12.N, win12_1.index t (0 : Fin 2) = 0 ∧ win12_1.index t (1 : Fin 2) = 0 :=
  (by decide +kernel : ∀ t : Fin grid12.N, win12_1.index t (0 : Fin 2) = 0 ∧ win12_1.index t (1 : Fin 2) = 0)

theorem xblk12_at (c : Dev nD) (t : Fin cfg12.N) (r : Fin 5000) (j : Fin 128) (h : 5000 * t.val + r.val < 50000) :
    (iblk12 V c 0 t : Vec Ideal S5000x128 .f32) (ix2 r j) = xarr12 V c (ix2 ⟨5000 * t.val + r.val, h⟩ j) := by
  unfold iblk12
  rw [View.read_apply]
  show V c (Pipeline.arrRef spec12 0) _ = V c (Pipeline.arrRef spec12 0) _
  congr 1
  funext a
  apply Fin.ext
  match a with
  | ⟨0, _⟩ => show win12_0.index t 0 * 5000 + 1 * r.val = 5000 * t.val + r.val; rw [(idx12_0 t).1]; omega
  | ⟨1, _⟩ => show win12_0.index t 1 * 128 + 1 * j.val = j.val; rw [(idx12_0 t).2]; omega

theorem bblk12_at (c : Dev nD) (t : Fin cfg12.N) (j : Fin 128) :
    (iblk12 V c 1 t : Vec Ideal S1x128 .f32) (ix2 0 j) = barr12 V c (ix2 0 j) := by
  unfold iblk12
  rw [View.read_apply]
  show V c (Pipeline.arrRef spec12 1) _ = V c (Pipeline.arrRef spec12 1) _
  congr 1
  funext a
  apply Fin.ext
  match a with
  | ⟨0, _⟩ => show win12_1.index t 0 * 1 + 1 * 0 = 0; rw [(idx12_1 t).1]
  | ⟨1, _⟩ => show win12_1.index t 1 * 128 + 1 * j.val = j.val; rw [(idx12_1 t).2]; omega

def ycol12 (c : Dev nD) (j : Fin 128) : Fin 50000 → EReal := fun R => xarr12 V c (ix2 R j) + barr12 V c (ix2 0 j)

theorem pt12_lt (n : ℕ) (hn : n < 10) : (pt12 n).val = n := Nat.mod_eq_of_lt hn

theorem block12_at (c : Dev nD) (n : ℕ) (hn : n < 10) (j : Fin 128) (r : Fin 5000) :
    (xAt12 V c n) (ix2 r j) + (bAt12 V c n) (ix2 0 j)
      = ycol12 V c j ⟨5000 * n + r.val, by have := r.isLt; omega⟩ := by
  have hr : r.val < 5000 := r.isLt
  have hlt : 5000 * (pt12 n).val + r.val < 50000 := by rw [pt12_lt n hn]; omega
  unfold xAt12 bAt12
  rw [xblk12_at V c (pt12 n) r j hlt, bblk12_at V c (pt12 n) j]
  unfold ycol12
  refine congrArg (· + barr12 V c (ix2 0 j)) (congrArg (xarr12 V c) ?_)
  funext a; apply Fin.ext
  match a with
  | ⟨0, _⟩ => show 5000 * (pt12 n).val + r.val = 5000 * n + r.val; rw [pt12_lt n hn]
  | ⟨1, _⟩ => rfl

theorem sum12_last (c : Dev nD) (j : Fin 128) : sum12 V c 9 (ix2 0 j) = ∑ R : Fin 50000, ycol12 V c j R :=
  ten_blocks_sum _ (fun n => sum12 V c n (ix2 0 j)) (fun n r => xAt12 V c n (ix2 r j) + bAt12 V c n (ix2 0 j))
    (by
      rw [sum12_zero V c 0 rfl, View.ld_unit_zero (S := S5000x128) origin2, View.ld_unit_zero (S := S1x128) origin2]
      exact (pay12_4_at _ _ _ j).trans (by rw [pay12_1_at]))
    (fun n => by
      rw [sum12_pos V c (n + 1) n.succ_ne_zero, View.ld_unit_zero (S := S5000x128) origin2, View.ld_unit_zero (S := S1x128) origin2]
      exact (pay12_4_at _ _ _ j).trans (by rw [Nat.add_sub_cancel]))
    fun n hn r => block12_at V c n hn j r

theorem sq12_last (c : Dev nD) (j : Fin 128) :
    sq12 V c 9 (ix2 0 j) = ∑ R : Fin 50000, ycol12 V c j R * ycol12 V c j R :=
  ten_blocks_sum (fun R => ycol12 V c j R * ycol12 V c j R) (fun n => sq12 V c n (ix2 0 j))
    (fun n r => (xAt12 V c n (ix2 r j) + bAt12 V c n (ix2 0 j)) * (xAt12 V c n (ix2 r j) + bAt12 V c n (ix2 0 j)))
    (by
      rw [sq12_zero V c 0 rfl, View.ld_unit_zero (S := S5000x128) origin2, View.ld_unit_zero (S := S1x128) origin2]
      exact (pay12_5_at _ _ _ j).trans (by rw [pay12_2_at]))
    (fun n => by
      rw [sq12_pos V c (n + 1) n.succ_ne_zero, View.ld_unit_zero (S := S5000x128) origin2, View.ld_unit_zero (S := S1x128) origin2]
      exact (pay12_5_at _ _ _ j).trans (by rw [Nat.add_sub_cancel]))
    fun n hn r => by rw [block12_at V c n hn j r]

theorem mean12_canon (c : Dev nD) :
    (View.canon [⟨rS12, k12_pay6 (sum12 V c 9)⟩] : Vec Ideal S1x128 .f32) = Cert.Spec.bnMean128 (xarr12 V c) (barr12 V c) := by
  rw [View.canon_unit_zero origin2]
  funext i
  obtain ⟨p, j, rfl⟩ : ∃ (p : Fin 1) (j : Fin 128), i = ix2 p j := ⟨i 0, i 1, eq_ix2 i⟩
  obtain rfl : p = 0 := Subsingleton.elim _ _
  rw [pay12_6_at, sum12_last]
  rfl

theorem var12_canon (c : Dev nD) :
    (View.canon [⟨rS12, k12_pay7 (sum12 V c 9) (sq12 V c 9)⟩] : Vec Ideal S1x128 .f32) = Cert.Spec.bnVar128 (xarr12 V c) (barr12 V c) := by
  rw [View.canon_unit_zero origin2]
  funext i
  obtain ⟨p, j, rfl⟩ : ∃ (p : Fin 1) (j : Fin 128), i = ix2 p j := ⟨i 0, i 1, eq_ix2 i⟩
  obtain rfl : p = 0 := Subsingleton.elim _ _
  rw [pay12_7_at, sum12_last, sq12_last]
  rfl

theorem flush12_2_last (t : Fin cfg12.N) (hf : (cfg12.win 2).flush t = true) : t = t12_9 :=
  Fin.ext (by have := (flush12_2 t).mp hf; have := lt_of_lt_of_eq t.isLt (show cfg12.N = 10 from N_12); show t.val = 9; omega)
theorem flush12_3_last (t : Fin cfg12.N) (hf : (cfg12.win 3).flush t = true) : t = t12_9 :=
  Fin.ext (by have := (flush12_3 t).mp hf; have := lt_of_lt_of_eq t.isLt (show cfg12.N = 10 from N_12); show t.val = 9; omega)

theorem flushed12_2_eq (c : Dev nD) (t : Fin cfg12.N) (hf : (cfg12.win 2).flush t = true) :
    (dat12 V c).flushed 2 t = ((cfg12.win 2).blk t).view.read (Elt Ideal) (Cert.Spec.bnMean128 (xarr12 V c) (barr12 V c)) := by
  obtain rfl := flush12_2_last t hf
  show (cfg12.win 2).cut (grid12.coords t12_9) ((dat12 V c).after 2 t12_9) = _
  rw [after12_2, show (t12_9 : Fin cfg12.N).val = 9 from rfl, mean12_canon]
  have hz' : (fun a => win12_2.index t12_9 a * main_v93_0.ty.shape.size a) = fun _ => 0 := funext fun a => by fin_cases a <;> decide
  exact (Memref.read_access_unit_zero (Elt Ideal) main_v93_0 hz' (fun a => by rw [congrFun hz' a]; simp) _).symm

theorem flushed12_3_eq (c : Dev nD) (t : Fin cfg12.N) (hf : (cfg12.win 3).flush t = true) :
    (dat12 V c).flushed 3 t = ((cfg12.win 3).blk t).view.read (Elt Ideal) (Cert.Spec.bnVar128 (xarr12 V c) (barr12 V c)) := by
  obtain rfl := flush12_3_last t hf
  show (cfg12.win 3).cut (grid12.coords t12_9) ((dat12 V c).after 3 t12_9) = _
  rw [after12_3, show (t12_9 : Fin cfg12.N).val = 9 from rfl, var12_canon]
  have hz' : (fun a => win12_3.index t12_9 a * main_v93_1.ty.shape.size a) = fun _ => 0 := funext fun a => by fin_cases a <;> decide
  exact (Memref.read_access_unit_zero (Elt Ideal) main_v93_1 hz' (fun a => by rw [congrFun hz' a]; simp) _).symm

theorem val12_2 (c : Dev nD) :
    (dat12 V c).arrAt 2 cfg12.N = Cert.Spec.bnMean128 (V c (Pipeline.arrRef spec12 0)) (V c (Pipeline.arrRef spec12 1)) :=
  (dat12 V c).arrAt_eq_of_cover 2 (Cert.Spec.bnMean128 (xarr12 V c) (barr12 V c)) (flushed12_2_eq V c) fun i =>
    ⟨t12_9, (flush12_2 t12_9).mpr rfl, by
      show i ∈ ((View.whole main_v93_0).slice (win12_2.rect t12_9)).set
      rw [View.set_slice_whole]
      exact mem_whole_block (s := S1x128) i (by decide +kernel) (by decide +kernel)⟩

theorem val12_3 (c : Dev nD) :
    (dat12 V c).arrAt 3 cfg12.N = Cert.Spec.bnVar128 (V c (Pipeline.arrRef spec12 0)) (V c (Pipeline.arrRef spec12 1)) :=
  (dat12 V c).arrAt_eq_of_cover 3 (Cert.Spec.bnVar128 (xarr12 V c) (barr12 V c)) (flushed12_3_eq V c) fun i =>
    ⟨t12_9, (flush12_3 t12_9).mpr rfl, by
      show i ∈ ((View.whole main_v93_1).slice (win12_3.rect t12_9)).set
      rw [View.set_slice_whole]
      exact mem_whole_block (s := S1x128) i (by decide +kernel) (by decide +kernel)⟩

end Cert.KernelIdeal.Hand

end
-- ==== Proof.KI.V13.lean ====
import proofs.«165280_j63788854280268_1_alg».proof.Proof.KI.R13
import proofs.«165280_j63788854280268_1_alg».proof.Proof.Spec.BnApply
import proofs.«165280_j63788854280268_1_alg».proof.Proof.KI.VCommon

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem normed13_at (x : Vec Ideal S5000x128 .f32) (b var mean : Vec Ideal S1x128 .f32) (p : Fin 5000) (q : Fin 128) :
    k13_pay1 (F := Ideal) x b var mean (ix2 p q)
      = Cert.Spec.bnApplyAt (x (ix2 p q)) (b (ix2 0 q)) (mean (ix2 0 q)) (var (ix2 0 q)) := by
  unfold k13_pay1 Cert.Spec.bnApplyAt
  simp only [shapeCast_self, maximumf_apply, mulf_apply, subf_apply, addf_apply, broadcast_apply, broadcastTo_1b_ab_apply]
  rfl

theorem sits13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

theorem lt_ten13 (t : Fin cfg13.N) : t.val < 10 := t.isLt.trans_eq N_13

theorem row_lt13 (t : Fin cfg13.N) (p : Fin 5000) : t.val * 5000 + p.val < 50000 := by
  have := lt_ten13 t; have := p.isLt; omega

theorem shown13_x_at (c : Dev nD) (t : Fin cfg13.N) (p : Fin 5000) (q : Fin 128) :
    shown13 V c 0 t (ix2 p q)
      = V c (Pipeline.arrRef spec13 0) (ix2 (n0 := 50000) (n1 := 128) ⟨t.val * 5000 + p.val, row_lt13 t p⟩ q) := by
  obtain ⟨x0, x1, -⟩ := sits13 t
  show V c (Pipeline.arrRef spec13 0) (((cfg13.win 0).blk t).view.emb (ix2 p q)) = _
  refine congrArg _ (funext fun a => Fin.ext ?_)
  match a with
  | ⟨0, _⟩ => show win13_0.index t (0 : Fin 2) * 5000 + 1 * p.val = t.val * 5000 + p.val; omega
  | ⟨1, _⟩ => show win13_0.index t (1 : Fin 2) * 128 + 1 * q.val = q.val; omega

theorem shown13_b_at (c : Dev nD) (t : Fin cfg13.N) (q : Fin 128) :
    shown13 V c 1 t (ix2 (0 : Fin 1) q) = V c (Pipeline.arrRef spec13 1) (ix2 (n0 := 1) (n1 := 128) 0 q) := by
  obtain ⟨-, -, b0, b1, -⟩ := sits13 t
  show V c (Pipeline.arrRef spec13 1) (((cfg13.win 1).blk t).view.emb (ix2 (0 : Fin 1) q)) = _
  refine congrArg _ (funext fun a => Fin.ext ?_)
  match a with
  | ⟨0, _⟩ => show win13_1.index t (0 : Fin 2) * 1 + 1 * 0 = 0; omega
  | ⟨1, _⟩ => show win13_1.index t (1 : Fin 2) * 128 + 1 * q.val = q.val; omega

theorem shown13_mean_at (c : Dev nD) (t : Fin cfg13.N) (q : Fin 128) :
    shown13 V c 2 t (ix2 (0 : Fin 1) q) = V c (Pipeline.arrRef spec13 2) (ix2 (n0 := 1) (n1 := 128) 0 q) := by
  obtain ⟨-, -, -, -, m0, m1, -⟩ := sits13 t
  show V c (Pipeline.arrRef spec13 2) (((cfg13.win 2).blk t).view.emb (ix2 (0 : Fin 1) q)) = _
  refine congrArg _ (funext fun a => Fin.ext ?_)
  match a with
  | ⟨0, _⟩ => show win13_2.index t (0 : Fin 2) * 1 + 1 * 0 = 0; omega
  | ⟨1, _⟩ => show win13_2.index t (1 : Fin 2) * 128 + 1 * q.val = q.val; omega

theorem shown13_var_at (c : Dev nD) (t : Fin cfg13.N) (q : Fin 128) :
    shown13 V c 3 t (ix2 (0 : Fin 1) q) = V c (Pipeline.arrRef spec13 3) (ix2 (n0 := 1) (n1 := 128) 0 q) := by
  obtain ⟨-, -, -, -, -, -, v0, v1, -⟩ := sits13 t
  show V c (Pipeline.arrRef spec13 3) (((cfg13.win 3).blk t).view.emb (ix2 (0 : Fin 1) q)) = _
  refine congrArg _ (funext fun a => Fin.ext ?_)
  match a with
  | ⟨0, _⟩ => show win13_3.index t (0 : Fin 2) * 1 + 1 * 0 = 0; omega
  | ⟨1, _⟩ => show win13_3.index t (1 : Fin 2) * 128 + 1 * q.val = q.val; omega

theorem out13_block_at (G : S50000x128.Idx → EReal) (t : Fin cfg13.N) (p : Fin 5000) (q : Fin 128) :
    ((cfg13.win 4).blk t).view.read (Elt Ideal) G (ix2 p q)
      = G (ix2 (n0 := 50000) (n1 := 128) ⟨t.val * 5000 + p.val, row_lt13 t p⟩ q) := by
  obtain ⟨-, -, -, -, -, -, -, -, o0, o1⟩ := sits13 t
  show G (((cfg13.win 4).blk t).view.emb (ix2 p q)) = _
  refine congrArg _ (funext fun a => Fin.ext ?_)
  match a with
  | ⟨0, _⟩ => show win13_4.index t (0 : Fin 2) * 5000 + 1 * p.val = t.val * 5000 + p.val; omega
  | ⟨1, _⟩ => show win13_4.index t (1 : Fin 2) * 128 + 1 * q.val = q.val; omega

set_option maxHeartbeats 1000000 in
theorem flushed13_out (c : Dev nD) (t : Fin cfg13.N) :
    (dat13 V c).flushed 4 t = ((cfg13.win 4).blk t).view.read (Elt Ideal)
      (Cert.Spec.bnApply128 (V c (Pipeline.arrRef spec13 0)) (V c (Pipeline.arrRef spec13 1))
        (V c (Pipeline.arrRef spec13 2)) (V c (Pipeline.arrRef spec13 3))) := by
  show (cfg13.win 4).cut (grid13.coords t) ((dat13 V c).after 4 t) = _
  rw [after13_out]
  unfold normed13
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  refine (normed13_at (shown13 V c 0 t) (shown13 V c 1 t) (shown13 V c 3 t) (shown13 V c 2 t) p q).trans ?_
  rw [shown13_x_at, shown13_b_at, shown13_mean_at, shown13_var_at, out13_block_at]
  exact (Cert.Spec.bnApply128_ix2 _ _ _ _ _ _).symm

theorem covered13 (i : S50000x128.Idx) :
    ∃ t : Fin cfg13.N, (cfg13.win 4).flush t = true ∧ i ∈ ((cfg13.win 4).blk t).view.set := by
  have hi : (i 0).val < 50000 := (i 0).isLt
  obtain ⟨t, ht⟩ : ∃ t : Fin cfg13.N, t.val = (i 0).val / 5000 :=
    ⟨⟨_, by rw [show cfg13.N = 10 from N_13]; omega⟩, rfl⟩
  obtain ⟨-, -, -, -, -, -, -, -, o0, o1⟩ := sits13 t
  refine ⟨t, flush13_4 t, ?_⟩
  show i ∈ ((View.whole main_v94).slice (win13_4.rect t)).set
  rw [View.set_slice_whole]
  exact mem_rowblock (B := 5000) (by decide) i (by show win13_4.index t 0 * 5000 = _; rw [o0, ht])
    (by rfl) (by show win13_4.index t 1 * 128 = 0; rw [o1, Nat.zero_mul]) (by rfl)

theorem val13_4 (c : Dev nD) :
    (dat13 V c).arrAt 4 cfg13.N
      = Cert.Spec.bnApply128 (V c (Pipeline.arrRef spec13 0)) (V c (Pipeline.arrRef spec13 1))
          (V c (Pipeline.arrRef spec13 2)) (V c (Pipeline.arrRef spec13 3)) :=
  (dat13 V c).arrAt_eq_of_cover 4 _ (fun t _ => flushed13_out V c t) covered13

end Cert.KernelIdeal.Hand

end
-- ==== Proof.Spec.ApplyGate.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

def applyGateAt (a x inp : EReal) : EReal :=
  a * x + (Ideal.ofBits .f32 0x3F800000#32 - a) * inp

def applyGate (x inp : (⟨2, ![50000, 128]⟩ : Shape).Idx → EReal) (a : (⟨2, ![50000, 1]⟩ : Shape).Idx → EReal) :
    (⟨2, ![50000, 128]⟩ : Shape).Idx → EReal :=
  fun i => applyGateAt (a (ix2 (i 0) 0)) (x i) (inp i)

theorem applyGate_ix2 (x inp : (⟨2, ![50000, 128]⟩ : Shape).Idx → EReal) (a : (⟨2, ![50000, 1]⟩ : Shape).Idx → EReal)
    (r : Fin 50000) (l : Fin 128) :
    applyGate x inp a (ix2 r l)
      = a (ix2 r 0) * x (ix2 r l) + (Ideal.ofBits .f32 0x3F800000#32 - a (ix2 r 0)) * inp (ix2 r l) := rfl

end Cert.Spec

end
-- ==== Proof.KI.V14.lean ====
import proofs.«165280_j63788854280268_1_alg».proof.Proof.KI.R14
import proofs.«165280_j63788854280268_1_alg».proof.Proof.Spec.ApplyGate
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem spread14 {α : Type} (a : S5000x1.Idx → α) (p : Fin 5000) (q : Fin 128) :
    broadcastTo S5000x128 a broadcasts_S5000x1_S5000x128 (ix2 p q) = a (ix2 p 0) :=
  broadcastTo_apply a _ (ix2 p q) (ix2 p 0) (fun k => by
    match k with
    | ⟨0, _⟩ => rfl
    | ⟨1, _⟩ => rfl)

theorem pay14_at (a : Vec Ideal S5000x1 .f32) (x inp : Vec Ideal S5000x128 .f32) (p : Fin 5000) (q : Fin 128) :
    k14_pay1 (F := Ideal) a x inp (ix2 p q) = Cert.Spec.applyGateAt (a (ix2 p 0)) (x (ix2 p q)) (inp (ix2 p q)) := by
  unfold k14_pay1 Cert.Spec.applyGateAt
  simp only [shapeCast_self]
  rw [addf_apply, mulf_apply, mulf_apply, spread14, spread14, subf_apply, broadcast_apply]
  rfl

theorem zeros14 : (![0, 0] : Fin 2 → Nat) = fun _ => 0 := funext fun a => by fin_cases a <;> rfl

theorem rows14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0 :=
  (by decide +kernel : ∀ t : Fin grid14.N, _)

set_option maxHeartbeats 1000000 in
theorem wrote14 (c : Dev nD) (t : Fin cfg14.N) :
    (dat14 V c).flushed 3 t = ((cfg14.win 3).blk t).view.read (Elt Ideal)
      (Cert.Spec.applyGate (V c (Pipeline.arrRef spec14 0)) (V c (Pipeline.arrRef spec14 1)) (V c (Pipeline.arrRef spec14 2))) := by
  show (cfg14.win 3).cut (grid14.coords t) ((dat14 V c).after 3 t) = _
  rw [after14_out]
  unfold gated14
  rw [View.canon_unit_zero zeros14]
  simp only [View.ld_unit_zero (S := S5000x128) zeros14, View.ld_unit_zero (S := S5000x1) zeros14]
  obtain ⟨x0, x1, i0, i1, a0, a1, o0, o1⟩ := rows14 t
  funext j
  obtain ⟨p, q, rfl⟩ : ∃ (p : Fin 5000) (q : Fin 128), j = ix2 p q := ⟨j 0, j 1, eq_ix2 j⟩
  show k14_pay1 (F := Ideal) (blockAt14 V c 2 t) (blockAt14 V c 0 t) (blockAt14 V c 1 t) (ix2 p q)
    = Cert.Spec.applyGate (V c (Pipeline.arrRef spec14 0)) (V c (Pipeline.arrRef spec14 1)) (V c (Pipeline.arrRef spec14 2))
        (((cfg14.win 3).blk t).view.emb (ix2 p q))
  rw [pay14_at]
  have hx : ((cfg14.win 0).blk t).view.emb (ix2 p q) = ((cfg14.win 3).blk t).view.emb (ix2 p q) := by
    funext k; apply Fin.ext
    match k with
    | ⟨0, _⟩ => show win14_0.index t (0 : Fin 2) * 5000 + 1 * p.val = win14_3.index t (0 : Fin 2) * 5000 + 1 * p.val; rw [x0, o0]
    | ⟨1, _⟩ => show win14_0.index t (1 : Fin 2) * 128 + 1 * q.val = win14_3.index t (1 : Fin 2) * 128 + 1 * q.val; rw [x1, o1]
  have hi : ((cfg14.win 1).blk t).view.emb (ix2 p q) = ((cfg14.win 3).blk t).view.emb (ix2 p q) := by
    funext k; apply Fin.ext
    match k with
    | ⟨0, _⟩ => show win14_1.index t (0 : Fin 2) * 5000 + 1 * p.val = win14_3.index t (0 : Fin 2) * 5000 + 1 * p.val; rw [i0, o0]
    | ⟨1, _⟩ => show win14_1.index t (1 : Fin 2) * 128 + 1 * q.val = win14_3.index t (1 : Fin 2) * 128 + 1 * q.val; rw [i1, o1]
  have ha : ((cfg14.win 2).blk t).view.emb (ix2 p (0 : Fin 1))
      = ix2 ((((cfg14.win 3).blk t).view.emb (ix2 p q)) 0) (0 : Fin 1) := by
    funext k; apply Fin.ext
    match k with
    | ⟨0, _⟩ => show win14_2.index t (0 : Fin 2) * 5000 + 1 * p.val = win14_3.index t (0 : Fin 2) * 5000 + 1 * p.val; rw [a0, o0]
    | ⟨1, _⟩ => show win14_2.index t (1 : Fin 2) * 1 + 1 * 0 = 0; rw [a1]
  show Cert.Spec.applyGateAt
      (V c (Pipeline.arrRef spec14 2) (((cfg14.win 2).blk t).view.emb (ix2 p (0 : Fin 1))))
      (V c (Pipeline.arrRef spec14 0) (((cfg14.win 0).blk t).view.emb (ix2 p q)))
      (V c (Pipeline.arrRef spec14 1) (((cfg14.win 1).blk t).view.emb (ix2 p q)))
    = Cert.Spec.applyGateAt
      (V c (Pipeline.arrRef spec14 2) (ix2 ((((cfg14.win 3).blk t).view.emb (ix2 p q)) 0) (0 : Fin 1)))
      (V c (Pipeline.arrRef spec14 0) (((cfg14.win 3).blk t).view.emb (ix2 p q)))
      (V c (Pipeline.arrRef spec14 1) (((cfg14.win 3).blk t).view.emb (ix2 p q)))
  exact congr (congr (congrArg _ (congrArg _ ha)) (congrArg _ hx)) (congrArg _ hi)

theorem mem_out14 (t : Fin cfg14.N) (i : S50000x128.Idx) :
    i ∈ ((cfg14.win 3).blk t).view.set ↔ ∀ a : Fin 2, win14_3.index t a * S5000x128.size a ≤ (i a).val
      ∧ (i a).val < win14_3.index t a * S5000x128.size a + S5000x128.size a := by
  show i ∈ ((View.whole main_v95).slice (win14_3.rect t)).set ↔ _
  rw [View.set_slice_whole, Rect.mem_set_unit]
  exact Iff.rfl

theorem out14_covered (i : S50000x128.Idx) :
    ∃ t : Fin cfg14.N, (cfg14.win 3).flush t = true ∧ i ∈ ((cfg14.win 3).blk t).view.set := by
  have hr : (i 0).val < 50000 := (i 0).isLt
  have hl : (i 1).val < 128 := (i 1).isLt
  have hN : cfg14.N = 10 := N_14
  refine ⟨⟨(i 0).val / 5000, by rw [hN]; omega⟩, flush14_3 _, ?_⟩
  rw [mem_out14]
  obtain ⟨-, -, -, -, -, -, e0, e1⟩ := rows14 ⟨(i 0).val / 5000, by rw [hN]; omega⟩
  intro a
  match a with
  | ⟨0, _⟩ =>
    show win14_3.index _ (0 : Fin 2) * 5000 ≤ (i 0).val ∧ (i 0).val < win14_3.index _ (0 : Fin 2) * 5000 + 5000
    rw [e0]; show (i 0).val / 5000 * 5000 ≤ (i 0).val ∧ (i 0).val < (i 0).val / 5000 * 5000 + 5000; omega
  | ⟨1, _⟩ =>
    show win14_3.index _ (1 : Fin 2) * 128 ≤ (i 1).val ∧ (i 1).val < win14_3.index _ (1 : Fin 2) * 128 + 128
    rw [e1]; omega

theorem val14_3 (c : Dev nD) :
    (dat14 V c).arrAt 3 cfg14.N
      = Cert.Spec.applyGate (V c (Pipeline.arrRef spec14 0)) (V c (Pipeline.arrRef spec14 1)) (V c (Pipeline.arrRef spec14 2)) :=
  (dat14 V c).arrAt_eq_of_cover 3 _ (fun t _ => wrote14 V c t) out14_covered

end Cert.KernelIdeal.Hand

end
-- ==== Proof.KI.V15.lean ====
import proofs.«165280_j63788854280268_1_alg».proof.Proof.KI.R15
import proofs.«165280_j63788854280268_1_alg».proof.Proof.KI.VCommon
import proofs.«165280_j63788854280268_1_alg».proof.Proof.Spec.Matmul

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem pay_at15 (x : Vec Ideal S5000x128 .f32) (w : Vec Ideal S128x64 .f32) (p : Fin 5000) (q : Fin 64) :
    k15_pay1 (F := Ideal) x w (ix2 p q) = ∑ k : Fin 128, x (ix2 p k) * w (ix2 k q) :=
  (plain_matmul_at rfl none _ _ p q).trans (by simp only [truncf_apply, shapeCast_self])

theorem index_facts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

set_option maxHeartbeats 1000000 in
theorem flushed_eq15 (c : Dev nD) (t : Fin cfg15.N) :
    (dat15 V c).flushed 2 t = ((cfg15.win 2).blk t).view.read (Elt Ideal)
      (Cert.Spec.matProd64 (V c (Pipeline.arrRef spec15 0)) (V c (Pipeline.arrRef spec15 1))) := by
  show (cfg15.win 2).cut (grid15.coords t) ((dat15 V c).after 2 t) = _
  rw [after_prod15]
  unfold product15
  rw [View.canon_unit_zero origin2]
  simp only [View.ld_unit_zero (S := S5000x128) origin2, View.ld_unit_zero (S := S128x64) origin2]
  obtain ⟨e00, e01, e10, e11, e20, e21⟩ := index_facts15 t
  funext j
  obtain ⟨p, q, rfl⟩ : ∃ (p : Fin 5000) (q : Fin 64), j = ix2 p q := ⟨j 0, j 1, eq_ix2 j⟩
  show k15_pay1 (F := Ideal) (blockAt15 V c 0 t) (blockAt15 V c 1 t) (ix2 p q)
    = Cert.Spec.matProd64 (V c (Pipeline.arrRef spec15 0)) (V c (Pipeline.arrRef spec15 1)) (((cfg15.win 2).blk t).view.emb (ix2 p q))
  rw [pay_at15]
  have ht : t.val < 10 := Nat.lt_of_lt_of_eq t.isLt N_15
  have hE : ((cfg15.win 2).blk t).view.emb (ix2 p q)
      = ix2 (n0 := 50000) (n1 := 64) ⟨t.val * 5000 + p.val, by omega⟩ q := by
    funext a; apply Fin.ext
    match a with
    | ⟨0, _⟩ =>
      show win15_2.index t (0 : Fin 2) * 5000 + 1 * p.val = t.val * 5000 + p.val
      omega
    | ⟨1, _⟩ =>
      show win15_2.index t (1 : Fin 2) * 64 + 1 * q.val = q.val
      omega
  rw [hE, Cert.Spec.matProd64_ix2]
  refine Finset.sum_congr rfl fun k _ => ?_
  have hx : blockAt15 V c 0 t (ix2 p k) = V c (Pipeline.arrRef spec15 0)
      (ix2 (n0 := 50000) (n1 := 128) ⟨t.val * 5000 + p.val, by omega⟩ k) := by
    show V c (Pipeline.arrRef spec15 0) (((cfg15.win 0).blk t).view.emb (ix2 p k)) = _
    refine congrArg _ (funext fun a => Fin.ext ?_)
    match a with
    | ⟨0, _⟩ =>
      show win15_0.index t (0 : Fin 2) * 5000 + 1 * p.val = t.val * 5000 + p.val
      omega
    | ⟨1, _⟩ =>
      show win15_0.index t (1 : Fin 2) * 128 + 1 * k.val = k.val
      omega
  have hw : blockAt15 V c 1 t (ix2 k q) = V c (Pipeline.arrRef spec15 1) (ix2 (n0 := 128) (n1 := 64) k q) := by
    show V c (Pipeline.arrRef spec15 1) (((cfg15.win 1).blk t).view.emb (ix2 k q)) = _
    refine congrArg _ (funext fun a => Fin.ext ?_)
    match a with
    | ⟨0, _⟩ =>
      show win15_1.index t (0 : Fin 2) * 128 + 1 * k.val = k.val
      omega
    | ⟨1, _⟩ =>
      show win15_1.index t (1 : Fin 2) * 64 + 1 * q.val = q.val
      omega
  rw [hx, hw]

theorem covered15 (i : S50000x64.Idx) :
    ∃ t : Fin cfg15.N, (cfg15.win 2).flush t = true ∧ i ∈ ((cfg15.win 2).blk t).view.set := by
  have hi : (i 0).val < 50000 := (i 0).isLt
  obtain ⟨t, ht⟩ : ∃ t : Fin cfg15.N, t.val = (i 0).val / 5000 :=
    ⟨⟨_, by rw [show cfg15.N = 10 from N_15]; omega⟩, rfl⟩
  obtain ⟨-, -, -, -, e20, e21⟩ := index_facts15 t
  refine ⟨t, flush15_2 t, ?_⟩
  show i ∈ ((View.whole main_v96).slice (win15_2.rect t)).set
  rw [View.set_slice_whole]
  exact mem_rowblock (B := 5000) (by decide) i (by show win15_2.index t 0 * 5000 = _; rw [e20, ht])
    (by rfl) (by show win15_2.index t 1 * 64 = 0; rw [e21, Nat.zero_mul]) (by rfl)

theorem val15_2 (c : Dev nD) :
    (dat15 V c).arrAt 2 cfg15.N
      = Cert.Spec.matProd64 (V c (Pipeline.arrRef spec15 0)) (V c (Pipeline.arrRef spec15 1)) :=
  (dat15 V c).arrAt_eq_of_cover 2 _ (fun t _ => flushed_eq15 V c t) covered15

end Cert.KernelIdeal.Hand

end
-- ==== Proof.Spec.LogSoftmax.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

def biasedRow (x : (⟨2, ![50000, 64]⟩ : Shape).Idx → EReal) (b : (⟨2, ![1, 64]⟩ : Shape).Idx → EReal)
    (r : Fin 50000) (k : Fin 64) : EReal :=
  x (ix2 r k) + b (ix2 (0 : Fin 1) k)

def rowMax (x : (⟨2, ![50000, 64]⟩ : Shape).Idx → EReal) (b : (⟨2, ![1, 64]⟩ : Shape).Idx → EReal)
    (r : Fin 50000) : EReal :=
  (Finset.univ : Finset (Fin 64)).fold max (Ideal.ofBits .f32 0xFF800000#32) (biasedRow x b r)

def shiftedRow (x : (⟨2, ![50000, 64]⟩ : Shape).Idx → EReal) (b : (⟨2, ![1, 64]⟩ : Shape).Idx → EReal)
    (r : Fin 50000) (k : Fin 64) : EReal :=
  biasedRow x b r k - rowMax x b r

def logSoftmaxBias (x : (⟨2, ![50000, 64]⟩ : Shape).Idx → EReal) (b : (⟨2, ![1, 64]⟩ : Shape).Idx → EReal) :
    (⟨2, ![50000, 64]⟩ : Shape).Idx → EReal :=
  fun i => shiftedRow x b (i 0) (i 1) - Ideal.log (∑ k : Fin 64, Ideal.exp (shiftedRow x b (i 0) k))

theorem logSoftmaxBias_ix2 (x : (⟨2, ![50000, 64]⟩ : Shape).Idx → EReal) (b : (⟨2, ![1, 64]⟩ : Shape).Idx → EReal)
    (r : Fin 50000) (j : Fin 64) :
    logSoftmaxBias x b (ix2 r j) = shiftedRow x b r j - Ideal.log (∑ k : Fin 64, Ideal.exp (shiftedRow x b r k)) := rfl

end Cert.Spec

end
-- ==== Proof.KI.V16.lean ====
import proofs.«165280_j63788854280268_1_alg».proof.Proof.KI.R16
import proofs.«165280_j63788854280268_1_alg».proof.Proof.Spec.LogSoftmax
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem col_broadcast_apply {α : Type} (w : S5000x1.Idx → α) (h' : S5000x1.Broadcasts S5000x64) (p : Fin 5000) (q : Fin 64) :
    broadcastTo S5000x64 w h' (ix2 p q) = w (ix2 p (0 : Fin 1)) := by
  refine broadcastTo_apply _ h' (ix2 p q) (ix2 p (0 : Fin 1)) fun ax => ?_
  match ax with
  | ⟨0, _⟩ => rfl
  | ⟨1, _⟩ => rfl

theorem col_keep_apply {α : Type} (v : S5000.Idx → α) (h : S5000.ShapeCasts S5000x1) (p : Fin 5000) :
    shapeCast S5000x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

theorem keepdims_col_apply {α : Type} (v : S5000.Idx → α) (h : S5000.ShapeCasts S5000x1) (h' : S5000x1.Broadcasts S5000x64)
    (p : Fin 5000) (q : Fin 64) :
    broadcastTo S5000x64 (shapeCast S5000x1 v h) h' (ix2 p q) = v (ix1 p) :=
  (col_broadcast_apply _ h' p q).trans (col_keep_apply v h p)

theorem rowMax_apply (src : FVec Ideal S5000x64 .f32) (h : S5000x64.Reduces [1] S5000) (hφ : FKind.Formats .f32)
    (hacc : (0xFF800000#32 : BitVec 32) = FKind.maximumf.neutral .f32 hφ) (p : Fin 5000) :
    multiReduction .maximumf [1] S5000 src 0xFF800000#32 h hφ hacc (ix1 p)
      = (Finset.univ : Finset (Fin 64)).fold max (Ideal.ofBits .f32 0xFF800000#32) (fun k => src (ix2 p k)) := by
  refine (Ideal.multiReduction_maximumf_single src _ h hφ hacc (ix1 p)).trans ?_
  have e : (src ∘ h.lift (ix1 p) : Fin 64 → EReal) = fun k => src (ix2 p k) := by
    funext k
    refine congrArg src (funext fun c => Fin.ext ?_)
    match c with
    | ⟨0, _⟩ => rfl
    | ⟨1, _⟩ => rfl
  exact congrArg (fun f => (Finset.univ : Finset (Fin 64)).fold max (Ideal.ofBits .f32 0xFF800000#32) f) e

theorem rowSum_apply (src : FVec Ideal S5000x64 .f32) (h : S5000x64.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 64, src (ix2 p k) := by
  refine (Ideal.multiReduction_add_single src _ h hφ hacc (ix1 p)).trans ?_
  refine Finset.sum_congr rfl fun k _ => congrArg src (funext fun c => Fin.ext ?_)
  match c with
  | ⟨0, _⟩ => rfl
  | ⟨1, _⟩ => rfl

theorem biased_apply (x : Vec Ideal S5000x64 .f32) (b : Vec Ideal S1x64 .f32) (p : Fin 5000) (k : Fin 64) :
    addf (F := Ideal) (φ := .f32) (shapeCast S5000x64 x shapeCasts_S5000x64_S5000x64)
        (broadcastTo S5000x64 (shapeCast S1x64 b shapeCasts_S1x64_S1x64) broadcasts_S1x64_S5000x64) (ix2 p k)
      = x (ix2 p k) + b (ix2 (0 : Fin 1) k) := by
  rw [addf_apply, shapeCast_self, shapeCast_self]
  exact congrArg (fun z => x (ix2 p k) + z) (broadcastTo_1b_ab_apply b _ p k)

theorem logSoftmaxRow_apply (y : FVec Ideal S5000x64 .f32) (hφ : FKind.Formats .f32)
    (hmax : (0xFF800000#32 : BitVec 32) = FKind.maximumf.neutral .f32 hφ)
    (hadd : (0x00000000#32 : BitVec 32) = FKind.add.neutral .f32 hφ) (p : Fin 5000) (q : Fin 64) :
    subf (F := Ideal)
        (subf y (broadcastTo S5000x64 (shapeCast S5000x1 (multiReduction .maximumf [1] S5000 y 0xFF800000#32 reduces_S5000x64_S5000 hφ hmax) shapeCasts_S5000_S5000x1) broadcasts_S5000x1_S5000x64))
        (broadcastTo S5000x64 (log (shapeCast S5000x1 (multiReduction .add [1] S5000
            (exp (subf y (broadcastTo S5000x64 (shapeCast S5000x1 (multiReduction .maximumf [1] S5000 y 0xFF800000#32 reduces_S5000x64_S5000 hφ hmax) shapeCasts_S5000_S5000x1) broadcasts_S5000x1_S5000x64)))
            0x00000000#32 reduces_S5000x64_S5000 hφ hadd) shapeCasts_S5000_S5000x1)) broadcasts_S5000x1_S5000x64)
        (ix2 p q)
      = (y (ix2 p q) - (Finset.univ : Finset (Fin 64)).fold max (Ideal.ofBits .f32 0xFF800000#32) (fun k => y (ix2 p k)))
        - Ideal.log (∑ k : Fin 64, Ideal.exp (y (ix2 p k)
            - (Finset.univ : Finset (Fin 64)).fold max (Ideal.ofBits .f32 0xFF800000#32) (fun k => y (ix2 p k)))) := by
  have hM : ∀ k : Fin 64,
      broadcastTo S5000x64 (shapeCast S5000x1 (multiReduction .maximumf [1] S5000 y 0xFF800000#32 reduces_S5000x64_S5000 hφ hmax) shapeCasts_S5000_S5000x1) broadcasts_S5000x1_S5000x64 (ix2 p k)
        = (Finset.univ : Finset (Fin 64)).fold max (Ideal.ofBits .f32 0xFF800000#32) (fun k => y (ix2 p k)) := fun k =>
    (keepdims_col_apply _ _ _ p k).trans (rowMax_apply y _ hφ hmax p)
  rw [subf_apply, subf_apply, hM q]
  congr 1
  refine (col_broadcast_apply _ _ p q).trans ?_
  show Ideal.log (shapeCast S5000x1 _ _ (ix2 p (0 : Fin 1))) = _
  rw [col_keep_apply, rowSum_apply]
  refine congrArg Ideal.log (Finset.sum_congr rfl fun k _ => ?_)
  show Ideal.exp (subf y _ (ix2 p k)) = _
  rw [subf_apply, hM k]

theorem pay_apply (x : Vec Ideal S5000x64 .f32) (b : Vec Ideal S1x64 .f32) (p : Fin 5000) (q : Fin 64) :
    k16_pay1 (F := Ideal) x b (ix2 p q)
      = (x (ix2 p q) + b (ix2 (0 : Fin 1) q)
          - (Finset.univ : Finset (Fin 64)).fold max (Ideal.ofBits .f32 0xFF800000#32) (fun k => x (ix2 p k) + b (ix2 (0 : Fin 1) k)))
        - Ideal.log (∑ k : Fin 64, Ideal.exp (x (ix2 p k) + b (ix2 (0 : Fin 1) k)
            - (Finset.univ : Finset (Fin 64)).fold max (Ideal.ofBits .f32 0xFF800000#32) (fun k => x (ix2 p k) + b (ix2 (0 : Fin 1) k)))) := by
  refine (logSoftmaxRow_apply _ _ _ _ p q).trans ?_
  simp only [biased_apply]

theorem pay_eq_spec (X : (⟨2, ![50000, 64]⟩ : Shape).Idx → EReal) (B : (⟨2, ![1, 64]⟩ : Shape).Idx → EReal)
    (x : Vec Ideal S5000x64 .f32) (b : Vec Ideal S1x64 .f32) (p : Fin 5000) (q : Fin 64) (r : Fin 50000)
    (hx : ∀ k : Fin 64, x (ix2 p k) = X (ix2 r k)) (hb : ∀ k : Fin 64, b (ix2 (0 : Fin 1) k) = B (ix2 (0 : Fin 1) k)) :
    k16_pay1 (F := Ideal) x b (ix2 p q) = Cert.Spec.logSoftmaxBias X B (ix2 r q) := by
  rw [pay_apply, Cert.Spec.logSoftmaxBias_ix2]
  unfold Cert.Spec.shiftedRow Cert.Spec.rowMax Cert.Spec.biasedRow
  simp only [hx, hb]

section Array

variable (V : (c : Dev nD) → (b : Ref sig .tc) → Buf (Elt Ideal) ((c : Thread nD τ).loc b))

theorem zeroOffsets16 : (![0, 0] : Fin 2 → Nat) = fun _ => 0 := funext fun a => by fin_cases a <;> rfl

theorem idx_facts16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0 :=
  (by decide +kernel : ∀ t : Fin grid16.N, _)

theorem flushed16_2_eq (c : Dev nD) (t : Fin cfg16.N) :
    (dat16 V c).flushed 2 t = ((cfg16.win 2).blk t).view.read (Elt Ideal)
      (Cert.Spec.logSoftmaxBias (V c (Pipeline.arrRef spec16 0)) (V c (Pipeline.arrRef spec16 1))) := by
  show (cfg16.win 2).cut (grid16.coords t) ((dat16 V c).after 2 t) = _
  rw [after16_2]
  unfold logSoftmaxOut16
  rw [View.canon_unit_zero zeroOffsets16]
  simp only [View.ld_unit_zero (S := S5000x64) zeroOffsets16, View.ld_unit_zero (S := S1x64) zeroOffsets16]
  obtain ⟨e0, e1, e2, e3, e4, e5⟩ := idx_facts16 t
  have hN : cfg16.N = 10 := N_16
  have ht : t.val < 10 := by have := t.isLt; omega
  funext j
  have hj0 : (j 0).val < 5000 := (j 0).isLt
  have hj1 : (j 1).val < 64 := (j 1).isLt
  have hr : t.val * 5000 + (j 0).val < 50000 := by omega
  have hemb : ((cfg16.win 2).blk t).view.emb j
      = ix2 (⟨t.val * 5000 + (j 0).val, hr⟩ : Fin 50000) (⟨(j 1).val, hj1⟩ : Fin 64) := by
    funext a; apply Fin.ext
    match a with
    | ⟨0, _⟩ => show win16_2.index t (0 : Fin 2) * 5000 + 1 * (j 0).val = t.val * 5000 + (j 0).val; omega
    | ⟨1, _⟩ => show win16_2.index t (1 : Fin 2) * 64 + 1 * (j 1).val = (j 1).val; omega
  have hj : j = ix2 (⟨(j 0).val, hj0⟩ : Fin 5000) (⟨(j 1).val, hj1⟩ : Fin 64) := by
    funext a; apply Fin.ext
    match a with
    | ⟨0, _⟩ => rfl
    | ⟨1, _⟩ => rfl
  show k16_pay1 (F := Ideal) (iblk16 V c 0 t) (iblk16 V c 1 t) j
    = Cert.Spec.logSoftmaxBias (V c (Pipeline.arrRef spec16 0)) (V c (Pipeline.arrRef spec16 1)) (((cfg16.win 2).blk t).view.emb j)
  rw [hemb]
  refine (congrArg (k16_pay1 (F := Ideal) (iblk16 V c 0 t) (iblk16 V c 1 t)) hj).trans ?_
  refine pay_eq_spec _ _ _ _ _ _ _ (fun k => ?_) (fun k => ?_)
  · show V c (Pipeline.arrRef spec16 0) (((cfg16.win 0).blk t).view.emb (ix2 (⟨(j 0).val, hj0⟩ : Fin 5000) k)) = _
    refine congrArg _ (funext fun a => Fin.ext ?_)
    match a with
    | ⟨0, _⟩ => show win16_0.index t (0 : Fin 2) * 5000 + 1 * (j 0).val = t.val * 5000 + (j 0).val; omega
    | ⟨1, _⟩ => show win16_0.index t (1 : Fin 2) * 64 + 1 * k.val = k.val; omega
  · show V c (Pipeline.arrRef spec16 1) (((cfg16.win 1).blk t).view.emb (ix2 (0 : Fin 1) k)) = _
    refine congrArg _ (funext fun a => Fin.ext ?_)
    match a with
    | ⟨0, _⟩ => show win16_1.index t (0 : Fin 2) * 1 + 1 * 0 = 0; omega
    | ⟨1, _⟩ => show win16_1.index t (1 : Fin 2) * 64 + 1 * k.val = k.val; omega

theorem mem_blk16_2 (t : Fin cfg16.N) (i : S50000x64.Idx) :
    i ∈ ((cfg16.win 2).blk t).view.set ↔ ∀ a : Fin 2, win16_2.index t a * S5000x64.size a ≤ (i a).val
      ∧ (i a).val < win16_2.index t a * S5000x64.size a + S5000x64.size a := by
  show i ∈ ((View.whole main_v111).slice (win16_2.rect t)).set ↔ _
  rw [View.set_slice_whole, Rect.mem_set_unit]
  exact Iff.rfl

theorem cover16_2 (i : S50000x64.Idx) :
    ∃ t : Fin cfg16.N, (cfg16.win 2).flush t = true ∧ i ∈ ((cfg16.win 2).blk t).view.set := by
  have hi0 : (i 0).val < 50000 := (i 0).isLt
  have hi1 : (i 1).val < 64 := (i 1).isLt
  have hN : cfg16.N = 10 := N_16
  have hlt : (i 0).val / 5000 < cfg16.N := by omega
  obtain ⟨e0, e1, e2, e3, e4, e5⟩ := idx_facts16 ⟨(i 0).val / 5000, hlt⟩
  have e4' : win16_2.index ⟨(i 0).val / 5000, hlt⟩ (0 : Fin 2) = (i 0).val / 5000 := e4
  refine ⟨⟨(i 0).val / 5000, hlt⟩, flush16_2 _, ?_⟩
  rw [mem_blk16_2]
  intro a
  match a with
  | ⟨0, _⟩ =>
    show win16_2.index ⟨(i 0).val / 5000, hlt⟩ (0 : Fin 2) * 5000 ≤ (i 0).val
      ∧ (i 0).val < win16_2.index ⟨(i 0).val / 5000, hlt⟩ (0 : Fin 2) * 5000 + 5000
    omega
  | ⟨1, _⟩ =>
    show win16_2.index ⟨(i 0).val / 5000, hlt⟩ (1 : Fin 2) * 64 ≤ (i 1).val
      ∧ (i 1).val < win16_2.index ⟨(i 0).val / 5000, hlt⟩ (1 : Fin 2) * 64 + 64
    omega

theorem val16_2 (c : Dev nD) :
    (dat16 V c).arrAt 2 cfg16.N
      = Cert.Spec.logSoftmaxBias (V c (Pipeline.arrRef spec16 0)) (V c (Pipeline.arrRef spec16 1)) :=
  (dat16 V c).arrAt_eq_of_cover 2 _ (fun t _ => flushed16_2_eq V c t) cover16_2

end Array

end Cert.KernelIdeal.Hand

end
-- ==== Proof.KI.WireKeep.lean ====
import proofs.«165280_j63788854280268_1_alg».proof.Proof.KI.Chain
import proofs.«165280_j63788854280268_1_alg».proof.Proof.Gen.KernelIdeal.Regions

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

-- Setting b to the value it already has changes nothing, even when several indices name b.
theorem withArrays_keep {gr : Nat} {W : Nat} (win : Fin W → Pipeline.WinSpec sig gr) (c : Dev nD) (V : Valuation τ sig (Elt F))
    (A : (w : Fin W) → Buf (Elt F) ((win w).arr.view.loc (c.tc : Thread nD τ))) (b : Ref sig .tc)
    (hA : ∀ w, Pipeline.arrRef win w = b → A w = V (Proc.devRef .tc (Pipeline.arrRef win w))) :
    Pipeline.withArrays win c V A (Proc.devRef .tc b) = V (Proc.devRef .tc b) := by
  unfold Pipeline.withArrays
  by_cases h : ∃ w, Proc.devRef .tc (Pipeline.arrRef win w) = Proc.devRef (τ := τ) .tc b
  · rw [dif_pos h]
    suffices ∀ (w' : Fin W) (e : Proc.devRef .tc (Pipeline.arrRef win w') = Proc.devRef (τ := τ) .tc b),
        cast (congrArg (fun b' : DevRef τ sig => b'.ty.Contents (Elt F)) e) (A w') = V (Proc.devRef .tc b) from this _ h.choose_spec
    intro w' e
    have e' : Pipeline.arrRef win w' = b := Proc.devRef_injective _ e
    subst e'
    rw [hA w' rfl]
    rfl
  · rw [dif_neg h]

abbrev OutFree (cfg : Pipeline.Cfg sig Λ₀) (b : Ref sig .tc) : Prop :=
  ∀ w, (cfg.win w).isOut = true → Pipeline.arrRef cfg.spec w ≠ b

-- Only an output index changes its array, so b is kept when no output index names it.
theorem region_keep {Ix : Type} [DecidableEq Ix] {Name : Type} [DecidableEq Name] {U : Type} [Idealize.SL.RA.URA U] {Lvl : Type}
    {cfg : Pipeline.Cfg sig Λ₀} {c : Dev nD} (dat : Pipeline.Dat τ (Elt F) Ix Name U Lvl cfg c)
    (V : Valuation τ sig (Elt F)) (hA : ∀ w, dat.A w = V (Proc.devRef .tc (Pipeline.arrRef cfg.spec w))) (b : Ref sig .tc)
    (hb : OutFree cfg b) :
    Pipeline.withArrays cfg.spec c V (fun w => dat.arrAt w cfg.N) (Proc.devRef .tc b) = V (Proc.devRef .tc b) :=
  withArrays_keep cfg.spec c V _ b fun w e => by
    cases hh : (cfg.win w).isOut with
    | true => exact absurd e (hb w hh)
    | false => exact (dat.arrAt_in w hh cfg.N).trans (hA w)

variable (m : (ℓ : Loc nD τ sig) → Buf (Elt F) ℓ) (ρ : Dev nD → PrngReg) (c : Dev nD)

-- The contents at boundary n of the run.
def Bat : Nat → Valuation τ sig (Elt F)
  | 0 => B0 m ρ c | 1 => B1 m ρ c | 2 => B2 m ρ c | 3 => B3 m ρ c | 4 => B4 m ρ c | 5 => B5 m ρ c | 6 => B6 m ρ c | 7 => B7 m ρ c | 8 => B8 m ρ c | 9 => B9 m ρ c | 10 => B10 m ρ c | 11 => B11 m ρ c | 12 => B12 m ρ c | 13 => B13 m ρ c | 14 => B14 m ρ c | 15 => B15 m ρ c | 16 => B16 m ρ c | 17 => B17 m ρ c | 18 => B18 m ρ c | 19 => B19 m ρ c | 20 => B20 m ρ c | 21 => B21 m ρ c | 22 => B22 m ρ c | 23 => B23 m ρ c | 24 => B24 m ρ c | 25 => B25 m ρ c | 26 => B26 m ρ c | 27 => B27 m ρ c | _ => B28 m ρ c

-- A sufficient condition for item n of the run to leave b as it was.
def Keeps (b : Ref sig .tc) : Nat → Prop
  | 0 => b ∉ hostOps0_W
  | 1 => OutFree cfg0 b
  | 2 => b ∉ hostOps1_W
  | 3 => OutFree cfg1 b
  | 4 => OutFree cfg2 b
  | 5 => b ∉ hostOps3_W
  | 6 => OutFree cfg3 b
  | 7 => b ∉ hostOps4_W
  | 8 => OutFree cfg4 b
  | 9 => OutFree cfg5 b
  | 10 => b ∉ hostOps6_W
  | 11 => OutFree cfg6 b
  | 12 => b ∉ hostOps7_W
  | 13 => OutFree cfg7 b
  | 14 => b ∉ hostOps8_W
  | 15 => OutFree cfg8 b
  | 16 => OutFree cfg9 b
  | 17 => b ∉ hostOps10_W
  | 18 => OutFree cfg10 b
  | 19 => b ∉ hostOps11_W
  | 20 => OutFree cfg11 b
  | 21 => b ∉ hostOps12_W
  | 22 => OutFree cfg12 b
  | 23 => OutFree cfg13 b
  | 24 => OutFree cfg14 b
  | 25 => OutFree cfg15 b
  | 26 => b ∉ hostOps16_W
  | 27 => OutFree cfg16 b
  | _ => True

instance (b : Ref sig .tc) (n : Nat) : Decidable (Keeps b n) := by unfold Keeps; split <;> infer_instance

theorem keep0 (b : Ref sig .tc) (h : Keeps b 0) : Bat m ρ c 1 (Proc.devRef .tc b) = Bat m ρ c 0 (Proc.devRef .tc b) :=
  StableHlo.after_of_writes_sub hostOps0 _ hostOps0_writes h
theorem keep1 (b : Ref sig .tc) (h : Keeps b 1) : Bat m ρ c 2 (Proc.devRef .tc b) = Bat m ρ c 1 (Proc.devRef .tc b) :=
  region_keep (dat0 (T1 m ρ) c) _ (A_eq0 (T1 m ρ) c) b h
theorem keep2 (b : Ref sig .tc) (h : Keeps b 2) : Bat m ρ c 3 (Proc.devRef .tc b) = Bat m ρ c 2 (Proc.devRef .tc b) :=
  StableHlo.after_of_writes_sub hostOps1 _ hostOps1_writes h
theorem keep3 (b : Ref sig .tc) (h : Keeps b 3) : Bat m ρ c 4 (Proc.devRef .tc b) = Bat m ρ c 3 (Proc.devRef .tc b) :=
  region_keep (dat1 (T3 m ρ) c) _ (A_eq1 (T3 m ρ) c) b h
theorem keep4 (b : Ref sig .tc) (h : Keeps b 4) : Bat m ρ c 5 (Proc.devRef .tc b) = Bat m ρ c 4 (Proc.devRef .tc b) :=
  region_keep (dat2 (T4 m ρ) c) _ (A_eq2 (T4 m ρ) c) b h
theorem keep5 (b : Ref sig .tc) (h : Keeps b 5) : Bat m ρ c 6 (Proc.devRef .tc b) = Bat m ρ c 5 (Proc.devRef .tc b) :=
  StableHlo.after_of_writes_sub hostOps3 _ hostOps3_writes h
theorem keep6 (b : Ref sig .tc) (h : Keeps b 6) : Bat m ρ c 7 (Proc.devRef .tc b) = Bat m ρ c 6 (Proc.devRef .tc b) :=
  region_keep (dat3 (T6 m ρ) c) _ (A_eq3 (T6 m ρ) c) b h
theorem keep7 (b : Ref sig .tc) (h : Keeps b 7) : Bat m ρ c 8 (Proc.devRef .tc b) = Bat m ρ c 7 (Proc.devRef .tc b) :=
  StableHlo.after_of_writes_sub hostOps4 _ hostOps4_writes h
theorem keep8 (b : Ref sig .tc) (h : Keeps b 8) : Bat m ρ c 9 (Proc.devRef .tc b) = Bat m ρ c 8 (Proc.devRef .tc b) :=
  region_keep (dat4 (T8 m ρ) c) _ (A_eq4 (T8 m ρ) c) b h
theorem keep9 (b : Ref sig .tc) (h : Keeps b 9) : Bat m ρ c 10 (Proc.devRef .tc b) = Bat m ρ c 9 (Proc.devRef .tc b) :=
  region_keep (dat5 (T9 m ρ) c) _ (A_eq5 (T9 m ρ) c) b h
theorem keep10 (b : Ref sig .tc) (h : Keeps b 10) : Bat m ρ c 11 (Proc.devRef .tc b) = Bat m ρ c 10 (Proc.devRef .tc b) :=
  StableHlo.after_of_writes_sub hostOps6 _ hostOps6_writes h
theorem keep11 (b : Ref sig .tc) (h : Keeps b 11) : Bat m ρ c 12 (Proc.devRef .tc b) = Bat m ρ c 11 (Proc.devRef .tc b) :=
  region_keep (dat6 (T11 m ρ) c) _ (A_eq6 (T11 m ρ) c) b h
theorem keep12 (b : Ref sig .tc) (h : Keeps b 12) : Bat m ρ c 13 (Proc.devRef .tc b) = Bat m ρ c 12 (Proc.devRef .tc b) :=
  StableHlo.after_of_writes_sub hostOps7 _ hostOps7_writes h
theorem keep13 (b : Ref sig .tc) (h : Keeps b 13) : Bat m ρ c 14 (Proc.devRef .tc b) = Bat m ρ c 13 (Proc.devRef .tc b) :=
  region_keep (dat7 (T13 m ρ) c) _ (A_eq7 (T13 m ρ) c) b h
theorem keep14 (b : Ref sig .tc) (h : Keeps b 14) : Bat m ρ c 15 (Proc.devRef .tc b) = Bat m ρ c 14 (Proc.devRef .tc b) :=
  StableHlo.after_of_writes_sub hostOps8 _ hostOps8_writes h
theorem keep15 (b : Ref sig .tc) (h : Keeps b 15) : Bat m ρ c 16 (Proc.devRef .tc b) = Bat m ρ c 15 (Proc.devRef .tc b) :=
  region_keep (dat8 (T15 m ρ) c) _ (A_eq8 (T15 m ρ) c) b h
theorem keep16 (b : Ref sig .tc) (h : Keeps b 16) : Bat m ρ c 17 (Proc.devRef .tc b) = Bat m ρ c 16 (Proc.devRef .tc b) :=
  region_keep (dat9 (T16 m ρ) c) _ (A_eq9 (T16 m ρ) c) b h
theorem keep17 (b : Ref sig .tc) (h : Keeps b 17) : Bat m ρ c 18 (Proc.devRef .tc b) = Bat m ρ c 17 (Proc.devRef .tc b) :=
  StableHlo.after_of_writes_sub hostOps10 _ hostOps10_writes h
theorem keep18 (b : Ref sig .tc) (h : Keeps b 18) : Bat m ρ c 19 (Proc.devRef .tc b) = Bat m ρ c 18 (Proc.devRef .tc b) :=
  region_keep (dat10 (T18 m ρ) c) _ (A_eq10 (T18 m ρ) c) b h
theorem keep19 (b : Ref sig .tc) (h : Keeps b 19) : Bat m ρ c 20 (Proc.devRef .tc b) = Bat m ρ c 19 (Proc.devRef .tc b) :=
  StableHlo.after_of_writes_sub hostOps11 _ hostOps11_writes h
theorem keep20 (b : Ref sig .tc) (h : Keeps b 20) : Bat m ρ c 21 (Proc.devRef .tc b) = Bat m ρ c 20 (Proc.devRef .tc b) :=
  region_keep (dat11 (T20 m ρ) c) _ (A_eq11 (T20 m ρ) c) b h
theorem keep21 (b : Ref sig .tc) (h : Keeps b 21) : Bat m ρ c 22 (Proc.devRef .tc b) = Bat m ρ c 21 (Proc.devRef .tc b) :=
  StableHlo.after_of_writes_sub hostOps12 _ hostOps12_writes h
theorem keep22 (b : Ref sig .tc) (h : Keeps b 22) : Bat m ρ c 23 (Proc.devRef .tc b) = Bat m ρ c 22 (Proc.devRef .tc b) :=
  region_keep (dat12 (T22 m ρ) c) _ (A_eq12 (T22 m ρ) c) b h
theorem keep23 (b : Ref sig .tc) (h : Keeps b 23) : Bat m ρ c 24 (Proc.devRef .tc b) = Bat m ρ c 23 (Proc.devRef .tc b) :=
  region_keep (dat13 (T23 m ρ) c) _ (A_eq13 (T23 m ρ) c) b h
theorem keep24 (b : Ref sig .tc) (h : Keeps b 24) : Bat m ρ c 25 (Proc.devRef .tc b) = Bat m ρ c 24 (Proc.devRef .tc b) :=
  region_keep (dat14 (T24 m ρ) c) _ (A_eq14 (T24 m ρ) c) b h
theorem keep25 (b : Ref sig .tc) (h : Keeps b 25) : Bat m ρ c 26 (Proc.devRef .tc b) = Bat m ρ c 25 (Proc.devRef .tc b) :=
  region_keep (dat15 (T25 m ρ) c) _ (A_eq15 (T25 m ρ) c) b h
theorem keep26 (b : Ref sig .tc) (h : Keeps b 26) : Bat m ρ c 27 (Proc.devRef .tc b) = Bat m ρ c 26 (Proc.devRef .tc b) :=
  StableHlo.after_of_writes_sub hostOps16 _ hostOps16_writes h
theorem keep27 (b : Ref sig .tc) (h : Keeps b 27) : Bat m ρ c 28 (Proc.devRef .tc b) = Bat m ρ c 27 (Proc.devRef .tc b) :=
  region_keep (dat16 (T27 m ρ) c) _ (A_eq16 (T27 m ρ) c) b h

theorem keep_item (b : Ref sig .tc) (n : Nat) (h : Keeps b n) :
    Bat m ρ c (n + 1) (Proc.devRef .tc b) = Bat m ρ c n (Proc.devRef .tc b) := by
  rcases n with _ | _ | _ | _ | _ | _ | _ | _ | _ | _ | _ | _ | _ | _ | _ | _ | _ | _ | _ | _ | _ | _ | _ | _ | _ | _ | _ | _ | n
  exacts [keep0 m ρ c b h, keep1 m ρ c b h, keep2 m ρ c b h, keep3 m ρ c b h, keep4 m ρ c b h, keep5 m ρ c b h, keep6 m ρ c b h, keep7 m ρ c b h, keep8 m ρ c b h, keep9 m ρ c b h, keep10 m ρ c b h, keep11 m ρ c b h, keep12 m ρ c b h, keep13 m ρ c b h, keep14 m ρ c b h, keep15 m ρ c b h, keep16 m ρ c b h, keep17 m ρ c b h, keep18 m ρ c b h, keep19 m ρ c b h, keep20 m ρ c b h, keep21 m ρ c b h, keep22 m ρ c b h, keep23 m ρ c b h, keep24 m ρ c b h, keep25 m ρ c b h, keep26 m ρ c b h, keep27 m ρ c b h, rfl]

-- By induction on k: every item from boundary i to boundary i + k leaves b as it was.
theorem kept (b : Ref sig .tc) (i : Nat) :
    ∀ k, (∀ j < k, Keeps b (i + j)) → Bat m ρ c (i + k) (Proc.devRef .tc b) = Bat m ρ c i (Proc.devRef .tc b)
  | 0, _ => rfl
  | k + 1, h => (keep_item m ρ c b (i + k) (h k k.lt_succ_self)).trans (kept b i k fun j hj => h j (Nat.lt_succ_of_lt hj))

end Cert.KernelIdeal.Hand

end
-- ==== Proof.KI.WireArgs.lean ====
import proofs.«165280_j63788854280268_1_alg».proof.Proof.KI.WireKeep

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg) (c : Dev nD)

-- A buffer that no item before boundary n changes holds there what it held at the start.
theorem arg_at (b : Ref sig .tc) (n : Nat) (h : ∀ j < n, Keeps b j) : Bat m ρ c n (Proc.devRef .tc b) = m ((c : Thread nD τ).loc b) := by
  have := kept m ρ c b 0 n fun j hj => (Nat.zero_add j).symm ▸ h j hj
  rwa [Nat.zero_add] at this

end Cert.KernelIdeal.Hand

end
-- ==== Proof.KI.Wire0.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem host0_main_v1 (V : Valuation τ sig (Elt Ideal)) :
    (StableHlo.after hostOps0 V (Proc.devRef .tc main_v1) : FVec Ideal S50000x128 .f32) = Cert.ReferenceIdeal.RefRun.x0 (V (Proc.devRef .tc main_arg0)) := by
  after_results
  rfl

theorem host0_main_v3 (V : Valuation τ sig (Elt Ideal)) :
    (StableHlo.after hostOps0 V (Proc.devRef .tc main_v3) : FVec Ideal S128x64 .f32) = Cert.ReferenceIdeal.RefRun.wInit0 (V (Proc.devRef .tc main_arg4)) := by
  after_results
  rfl

variable (m : (ℓ : Loc nD τ sig) → Buf (Elt Ideal) ℓ) (ρ : Dev nD → PrngReg)

theorem wire0_main_v1 (c : Dev nD) :
    (T1 m ρ c main_v1 : FVec Ideal S50000x128 .f32) = Cert.ReferenceIdeal.RefRun.x0 (m ((c : Thread nD τ).loc main_arg0)) :=
  host0_main_v1 (B0 m ρ c)

theorem wire0_main_v3 (c : Dev nD) :
    (T1 m ρ c main_v3 : FVec Ideal S128x64 .f32) = Cert.ReferenceIdeal.RefRun.wInit0 (m ((c : Thread nD τ).loc main_arg4)) :=
  host0_main_v3 (B0 m ρ c)

end Cert.KernelIdeal.Hand

end
-- ==== Proof.KI.Wire1.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem host1_main_v17 (V : Valuation τ sig (Elt Ideal)) :
    (StableHlo.after hostOps1 V (Proc.devRef .tc main_v17) : FVec Ideal S50000x64 .f32)
      = Cert.ReferenceIdeal.RefRun.agg64 (V (Proc.devRef .tc main_v4)) (V (Proc.devRef .tc main_arg1)) (V (Proc.devRef .tc main_arg2)) (V (Proc.devRef .tc main_arg3)) := by
  after_results_simp
  rfl

theorem host1_main_v20 (V : Valuation τ sig (Elt Ideal)) :
    (StableHlo.after hostOps1 V (Proc.devRef .tc main_v20) : FVec Ideal S1x64 .f32)
      = shapeCast S1x64 (Cert.ReferenceIdeal.RefRun.bInit0 (V (Proc.devRef .tc main_arg5))) shapeCasts_S64_S1x64 := by
  after_results
  rfl

variable (m : (ℓ : Loc nD τ sig) → Buf (Elt Ideal) ℓ) (ρ : Dev nD → PrngReg)

theorem wire1_main_v17 (c : Dev nD) :
    (T3 m ρ c main_v17 : FVec Ideal S50000x64 .f32)
      = Cert.ReferenceIdeal.RefRun.agg64 (T2 m ρ c main_v4) (m ((c : Thread nD τ).loc main_arg1)) (m ((c : Thread nD τ).loc main_arg2)) (m ((c : Thread nD τ).loc main_arg3)) := by
  rw [← arg_at m ρ c main_arg1 2 (by decide), ← arg_at m ρ c main_arg2 2 (by decide), ← arg_at m ρ c main_arg3 2 (by decide)]
  exact host1_main_v17 (B2 m ρ c)

theorem wire1_main_v20 (c : Dev nD) :
    (T3 m ρ c main_v20 : FVec Ideal S1x64 .f32)
      = shapeCast S1x64 (Cert.ReferenceIdeal.RefRun.bInit0 (m ((c : Thread nD τ).loc main_arg5))) shapeCasts_S64_S1x64 := by
  rw [← arg_at m ρ c main_arg5 2 (by decide)]
  exact host1_main_v20 (B2 m ρ c)

end Cert.KernelIdeal.Hand

end
-- ==== Proof.KI.Wire3.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem host3_main_v24 (V : Valuation τ sig (Elt Ideal)) :
    (StableHlo.after hostOps3 V (Proc.devRef .tc main_v24) : FVec Ideal S50000x128 .f32) = Cert.ReferenceIdeal.RefRun.x1 (V (Proc.devRef .tc main_arg0)) := by
  after_results
  rfl

theorem host3_main_v26 (V : Valuation τ sig (Elt Ideal)) :
    (StableHlo.after hostOps3 V (Proc.devRef .tc main_v26) : FVec Ideal S128x64 .f32) = Cert.ReferenceIdeal.RefRun.wInit1 (V (Proc.devRef .tc main_arg4)) := by
  after_results
  rfl

variable (m : (ℓ : Loc nD τ sig) → Buf (Elt Ideal) ℓ) (ρ : Dev nD → PrngReg)

theorem wire3_main_v24 (c : Dev nD) :
    (T6 m ρ c main_v24 : FVec Ideal S50000x128 .f32) = Cert.ReferenceIdeal.RefRun.x1 (m ((c : Thread nD τ).loc main_arg0)) := by
  rw [← arg_at m ρ c main_arg0 5 (by decide)]
  exact host3_main_v24 (B5 m ρ c)

theorem wire3_main_v26 (c : Dev nD) :
    (T6 m ρ c main_v26 : FVec Ideal S128x64 .f32) = Cert.ReferenceIdeal.RefRun.wInit1 (m ((c : Thread nD τ).loc main_arg4)) := by
  rw [← arg_at m ρ c main_arg4 5 (by decide)]
  exact host3_main_v26 (B5 m ρ c)

end Cert.KernelIdeal.Hand

end
-- ==== Proof.KI.Wire4.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem host4_main_v40 (V : Valuation τ sig (Elt Ideal)) :
    (StableHlo.after hostOps4 V (Proc.devRef .tc main_v40) : FVec Ideal S50000x64 .f32)
      = Cert.ReferenceIdeal.RefRun.agg64 (V (Proc.devRef .tc main_v27)) (V (Proc.devRef .tc main_arg1)) (V (Proc.devRef .tc main_arg2)) (V (Proc.devRef .tc main_arg3)) := by
  after_results_simp
  rfl

theorem host4_main_v43 (V : Valuation τ sig (Elt Ideal)) :
    (StableHlo.after hostOps4 V (Proc.devRef .tc main_v43) : FVec Ideal S1x64 .f32)
      = shapeCast S1x64 (Cert.ReferenceIdeal.RefRun.bInit1 (V (Proc.devRef .tc main_arg5))) shapeCasts_S64_S1x64 := by
  after_results
  rfl

variable (m : (ℓ : Loc nD τ sig) → Buf (Elt Ideal) ℓ) (ρ : Dev nD → PrngReg)

theorem wire4_main_v40 (c : Dev nD) :
    (T8 m ρ c main_v40 : FVec Ideal S50000x64 .f32)
      = Cert.ReferenceIdeal.RefRun.agg64 (T7 m ρ c main_v27) (m ((c : Thread nD τ).loc main_arg1)) (m ((c : Thread nD τ).loc main_arg2)) (m ((c : Thread nD τ).loc main_arg3)) := by
  rw [← arg_at m ρ c main_arg1 7 (by decide), ← arg_at m ρ c main_arg2 7 (by decide), ← arg_at m ρ c main_arg3 7 (by decide)]
  exact host4_main_v40 (B7 m ρ c)

theorem wire4_main_v43 (c : Dev nD) :
    (T8 m ρ c main_v43 : FVec Ideal S1x64 .f32)
      = shapeCast S1x64 (Cert.ReferenceIdeal.RefRun.bInit1 (m ((c : Thread nD τ).loc main_arg5))) shapeCasts_S64_S1x64 := by
  rw [← arg_at m ρ c main_arg5 7 (by decide)]
  exact host4_main_v43 (B7 m ρ c)

end Cert.KernelIdeal.Hand

end
-- ==== Proof.KI.Wire6.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem host6_main_v46 (V : Valuation τ sig (Elt Ideal)) :
    (StableHlo.after hostOps6 V (Proc.devRef .tc main_v46) : FVec Ideal S50000x128 .f32)
      = Cert.ReferenceIdeal.RefRun.cat64 (V (Proc.devRef .tc main_v22)) (V (Proc.devRef .tc main_v45)) := by
  after_results
  rfl

theorem host6_main_v47 (V : Valuation τ sig (Elt Ideal)) :
    (StableHlo.after hostOps6 V (Proc.devRef .tc main_v47) : FVec Ideal S128x1 .f32)
      = extractStridedSlice S128x1 ![0, 0] (V (Proc.devRef .tc main_arg10) : FVec Ideal S256x1 .f32) slices_S256x1_S128x1_0_0 := by
  after_results

theorem host6_main_v48 (V : Valuation τ sig (Elt Ideal)) :
    (StableHlo.after hostOps6 V (Proc.devRef .tc main_v48) : FVec Ideal S128x1 .f32)
      = extractStridedSlice S128x1 ![128, 0] (V (Proc.devRef .tc main_arg10) : FVec Ideal S256x1 .f32) slices_S256x1_S128x1_128_0 := by
  after_results

theorem host6_main_v49 (V : Valuation τ sig (Elt Ideal)) :
    (StableHlo.after hostOps6 V (Proc.devRef .tc main_v49) : FVec Ideal S1x1 .f32)
      = shapeCast S1x1 (V (Proc.devRef .tc main_arg11) : FVec Ideal S1 .f32) shapeCasts_S1_S1x1 := by
  after_results
  rfl

variable (m : (ℓ : Loc nD τ sig) → Buf (Elt Ideal) ℓ) (ρ : Dev nD → PrngReg)

theorem wire6_main_v46 (c : Dev nD) :
    (T11 m ρ c main_v46 : FVec Ideal S50000x128 .f32)
      = Cert.ReferenceIdeal.RefRun.cat64 (T10 m ρ c main_v22) (T10 m ρ c main_v45) :=
  host6_main_v46 (B10 m ρ c)

theorem wire6_main_v47 (c : Dev nD) :
    (T11 m ρ c main_v47 : FVec Ideal S128x1 .f32)
      = extractStridedSlice S128x1 ![0, 0] (m ((c : Thread nD τ).loc main_arg10)) slices_S256x1_S128x1_0_0 := by
  rw [← arg_at m ρ c main_arg10 10 (by decide)]
  exact host6_main_v47 (B10 m ρ c)

theorem wire6_main_v48 (c : Dev nD) :
    (T11 m ρ c main_v48 : FVec Ideal S128x1 .f32)
      = extractStridedSlice S128x1 ![128, 0] (m ((c : Thread nD τ).loc main_arg10)) slices_S256x1_S128x1_128_0 := by
  rw [← arg_at m ρ c main_arg10 10 (by decide)]
  exact host6_main_v48 (B10 m ρ c)

theorem wire6_main_v49 (c : Dev nD) :
    (T11 m ρ c main_v49 : FVec Ideal S1x1 .f32) = shapeCast S1x1 (m ((c : Thread nD τ).loc main_arg11)) shapeCasts_S1_S1x1 := by
  rw [← arg_at m ρ c main_arg11 10 (by decide)]
  exact host6_main_v49 (B10 m ρ c)

end Cert.KernelIdeal.Hand

end
-- ==== Proof.KI.Wire7.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after7_v52 (W : Valuation τ sig (Elt Ideal)) :
    (StableHlo.after (hostOps7 (F := Ideal)) W (Proc.devRef .tc main_v52) : FVec Ideal S128x128 .f32)
      = Cert.ReferenceIdeal.RefRun.wMid0 (W (Proc.devRef .tc main_arg6)) := by
  after_results
  rfl

variable (m : (ℓ : Loc nD τ sig) → Buf (Elt Ideal) ℓ) (ρ : Dev nD → PrngReg)

theorem T13_main_v52 (c : Dev nD) :
    (T13 m ρ c main_v52 : FVec Ideal S128x128 .f32) = Cert.ReferenceIdeal.RefRun.wMid0 (m ((c : Thread nD τ).loc main_arg6)) := by
  rw [← arg_at m ρ c main_arg6 12 (by decide)]
  exact after7_v52 (B12 m ρ c)

theorem T13_main_v50_0 (c : Dev nD) : T13 m ρ c main_v50_0 = T12 m ρ c main_v50_0 := kept m ρ c main_v50_0 12 1 (by decide)

end Cert.KernelIdeal.Hand

end
-- ==== Proof.KI.Wire8.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after8_v66 (W : Valuation τ sig (Elt Ideal)) :
    (StableHlo.after (hostOps8 (F := Ideal)) W (Proc.devRef .tc main_v66) : FVec Ideal S50000x128 .f32)
      = Cert.ReferenceIdeal.RefRun.agg128 (W (Proc.devRef .tc main_v53)) (W (Proc.devRef .tc main_arg1))
          (W (Proc.devRef .tc main_arg2)) (W (Proc.devRef .tc main_arg3)) := by
  after_results_simp
  rfl

theorem after8_v69 (W : Valuation τ sig (Elt Ideal)) :
    (StableHlo.after (hostOps8 (F := Ideal)) W (Proc.devRef .tc main_v69) : FVec Ideal S1x128 .f32)
      = shapeCast S1x128 (Cert.ReferenceIdeal.RefRun.bMid0 (W (Proc.devRef .tc main_arg7))) shapeCasts_S128_S1x128 := by
  after_results_simp
  rfl

variable (m : (ℓ : Loc nD τ sig) → Buf (Elt Ideal) ℓ) (ρ : Dev nD → PrngReg)

theorem T15_main_v66 (c : Dev nD) :
    (T15 m ρ c main_v66 : FVec Ideal S50000x128 .f32)
      = Cert.ReferenceIdeal.RefRun.agg128 (T14 m ρ c main_v53) (m ((c : Thread nD τ).loc main_arg1)) (m ((c : Thread nD τ).loc main_arg2))
          (m ((c : Thread nD τ).loc main_arg3)) := by
  rw [← arg_at m ρ c main_arg1 14 (by decide), ← arg_at m ρ c main_arg2 14 (by decide), ← arg_at m ρ c main_arg3 14 (by decide)]
  exact after8_v66 (B14 m ρ c)

theorem T15_main_v69 (c : Dev nD) :
    (T15 m ρ c main_v69 : FVec Ideal S1x128 .f32)
      = shapeCast S1x128 (Cert.ReferenceIdeal.RefRun.bMid0 (m ((c : Thread nD τ).loc main_arg7))) shapeCasts_S128_S1x128 := by
  rw [← arg_at m ρ c main_arg7 14 (by decide)]
  exact after8_v69 (B14 m ρ c)

theorem T16_main_v66 (c : Dev nD) : T16 m ρ c main_v66 = T15 m ρ c main_v66 := kept m ρ c main_v66 15 1 (by decide)
theorem T16_main_v69 (c : Dev nD) : T16 m ρ c main_v69 = T15 m ρ c main_v69 := kept m ρ c main_v69 15 1 (by decide)

end Cert.KernelIdeal.Hand

end
-- ==== Proof.KI.Wire10.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after10_v72 (W : Valuation τ sig (Elt Ideal)) :
    (StableHlo.after (hostOps10 (F := Ideal)) W (Proc.devRef .tc main_v72) : FVec Ideal S1x1 .f32)
      = shapeCast S1x1 (W (Proc.devRef .tc main_arg11) : FVec Ideal S1 .f32) shapeCasts_S1_S1x1 := by
  after_results
  rfl

variable (m : (ℓ : Loc nD τ sig) → Buf (Elt Ideal) ℓ) (ρ : Dev nD → PrngReg)

theorem T18_main_v72 (c : Dev nD) :
    (T18 m ρ c main_v72 : FVec Ideal S1x1 .f32)
      = shapeCast S1x1 (m ((c : Thread nD τ).loc main_arg11) : FVec Ideal S1 .f32) shapeCasts_S1_S1x1 := by
  rw [← arg_at m ρ c main_arg11 17 (by decide)]
  exact after10_v72 (B17 m ρ c)

theorem T18_main_v71 (c : Dev nD) : T18 m ρ c main_v71 = T17 m ρ c main_v71 := kept m ρ c main_v71 17 1 (by decide)

end Cert.KernelIdeal.Hand

end
-- ==== Proof.KI.Wire11.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after11_v75 (W : Valuation τ sig (Elt Ideal)) :
    (StableHlo.after (hostOps11 (F := Ideal)) W (Proc.devRef .tc main_v75) : FVec Ideal S128x128 .f32)
      = Cert.ReferenceIdeal.RefRun.wMid1 (W (Proc.devRef .tc main_arg6)) := by
  after_results
  rfl

variable (m : (ℓ : Loc nD τ sig) → Buf (Elt Ideal) ℓ) (ρ : Dev nD → PrngReg)

theorem T20_main_v75 (c : Dev nD) :
    (T20 m ρ c main_v75 : FVec Ideal S128x128 .f32) = Cert.ReferenceIdeal.RefRun.wMid1 (m ((c : Thread nD τ).loc main_arg6)) := by
  rw [← arg_at m ρ c main_arg6 19 (by decide)]
  exact after11_v75 (B19 m ρ c)

theorem T20_main_v73_0 (c : Dev nD) : T20 m ρ c main_v73_0 = T19 m ρ c main_v73_0 := kept m ρ c main_v73_0 19 1 (by decide)

end Cert.KernelIdeal.Hand

end
-- ==== Proof.KI.Wire12.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after12_v89 (W : Valuation τ sig (Elt Ideal)) :
    (StableHlo.after (hostOps12 (F := Ideal)) W (Proc.devRef .tc main_v89) : FVec Ideal S50000x128 .f32)
      = Cert.ReferenceIdeal.RefRun.agg128 (W (Proc.devRef .tc main_v76)) (W (Proc.devRef .tc main_arg1))
          (W (Proc.devRef .tc main_arg2)) (W (Proc.devRef .tc main_arg3)) := by
  after_results_simp
  rfl

theorem after12_v92 (W : Valuation τ sig (Elt Ideal)) :
    (StableHlo.after (hostOps12 (F := Ideal)) W (Proc.devRef .tc main_v92) : FVec Ideal S1x128 .f32)
      = shapeCast S1x128 (Cert.ReferenceIdeal.RefRun.bMid1 (W (Proc.devRef .tc main_arg7))) shapeCasts_S128_S1x128 := by
  after_results_simp
  rfl

variable (m : (ℓ : Loc nD τ sig) → Buf (Elt Ideal) ℓ) (ρ : Dev nD → PrngReg)

theorem T22_main_v89 (c : Dev nD) :
    (T22 m ρ c main_v89 : FVec Ideal S50000x128 .f32)
      = Cert.ReferenceIdeal.RefRun.agg128 (T21 m ρ c main_v76) (m ((c : Thread nD τ).loc main_arg1)) (m ((c : Thread nD τ).loc main_arg2))
          (m ((c : Thread nD τ).loc main_arg3)) := by
  rw [← arg_at m ρ c main_arg1 21 (by decide), ← arg_at m ρ c main_arg2 21 (by decide), ← arg_at m ρ c main_arg3 21 (by decide)]
  exact after12_v89 (B21 m ρ c)

theorem T22_main_v92 (c : Dev nD) :
    (T22 m ρ c main_v92 : FVec Ideal S1x128 .f32)
      = shapeCast S1x128 (Cert.ReferenceIdeal.RefRun.bMid1 (m ((c : Thread nD τ).loc main_arg7))) shapeCasts_S128_S1x128 := by
  rw [← arg_at m ρ c main_arg7 21 (by decide)]
  exact after12_v92 (B21 m ρ c)

theorem T23_main_v89 (c : Dev nD) : T23 m ρ c main_v89 = T22 m ρ c main_v89 := kept m ρ c main_v89 22 1 (by decide)
theorem T23_main_v92 (c : Dev nD) : T23 m ρ c main_v92 = T22 m ρ c main_v92 := kept m ρ c main_v92 22 1 (by decide)

theorem T24_main_v73_1 (c : Dev nD) : T24 m ρ c main_v73_1 = T19 m ρ c main_v73_1 := kept m ρ c main_v73_1 19 5 (by decide)

theorem T25_main_arg8 (c : Dev nD) : T25 m ρ c main_arg8 = m ((c : Thread nD τ).loc main_arg8) := arg_at m ρ c main_arg8 25 (by decide)

end Cert.KernelIdeal.Hand

end
-- ==== Proof.KI.Wire16.lean ====
import proofs.«165280_j63788854280268_1_alg».proof.Proof.KI.WireArgs
import proofs.«165280_j63788854280268_1_alg».proof.Proof.Gen.ReferenceIdeal
import proofs.«165280_j63788854280268_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL.Sem

theorem after16_v109 (W : Valuation τ sig (Elt Ideal)) :
    (StableHlo.after (hostOps16 (F := Ideal)) W (Proc.devRef .tc main_v109) : FVec Ideal S50000x64 .f32)
      = Cert.ReferenceIdeal.RefRun.agg64 (W (Proc.devRef .tc main_v96)) (W (Proc.devRef .tc main_arg1))
          (W (Proc.devRef .tc main_arg2)) (W (Proc.devRef .tc main_arg3)) := by
  after_results_simp
  rfl

theorem after16_v110 (W : Valuation τ sig (Elt Ideal)) :
    (StableHlo.after (hostOps16 (F := Ideal)) W (Proc.devRef .tc main_v110) : FVec Ideal S1x64 .f32)
      = shapeCast S1x64 (W (Proc.devRef .tc main_arg9) : FVec Ideal S64 .f32) shapeCasts_S64_S1x64 := by
  after_results_simp
  rfl

variable (m : (ℓ : Loc nD τ sig) → Buf (Elt Ideal) ℓ) (ρ : Dev nD → PrngReg)

theorem T27_main_v109 (c : Dev nD) :
    (T27 m ρ c main_v109 : FVec Ideal S50000x64 .f32)
      = Cert.ReferenceIdeal.RefRun.agg64 (T26 m ρ c main_v96) (m ((c : Thread nD τ).loc main_arg1)) (m ((c : Thread nD τ).loc main_arg2))
          (m ((c : Thread nD τ).loc main_arg3)) := by
  rw [← arg_at m ρ c main_arg1 26 (by decide), ← arg_at m ρ c main_arg2 26 (by decide), ← arg_at m ρ c main_arg3 26 (by decide)]
  exact after16_v109 (B26 m ρ c)

theorem T27_main_v110 (c : Dev nD) :
    (T27 m ρ c main_v110 : FVec Ideal S1x64 .f32)
      = shapeCast S1x64 (m ((c : Thread nD τ).loc main_arg9) : FVec Ideal S64 .f32) shapeCasts_S64_S1x64 := by
  rw [← arg_at m ρ c main_arg9 26 (by decide)]
  exact after16_v110 (B26 m ρ c)

end Cert.KernelIdeal.Hand

end
-- ==== Proof.KI.WireAt.lean ====
import proofs.«165280_j63788854280268_1_alg».proof.Proof.KI.Wire1
import proofs.«165280_j63788854280268_1_alg».proof.Proof.KI.Wire4
import proofs.«165280_j63788854280268_1_alg».proof.Proof.KI.Wire6

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem wire1_main_v17_at4 (c : Dev nD) :
    (T4 m ρ c main_v17 : FVec Ideal S50000x64 .f32)
      = Cert.ReferenceIdeal.RefRun.agg64 (T2 m ρ c main_v4) (m ((c : Thread nD τ).loc main_arg1)) (m ((c : Thread nD τ).loc main_arg2)) (m ((c : Thread nD τ).loc main_arg3)) :=
  (kept m ρ c main_v17 3 1 (by decide)).trans (wire1_main_v17 m ρ c)

theorem wire1_main_v20_at4 (c : Dev nD) :
    (T4 m ρ c main_v20 : FVec Ideal S1x64 .f32)
      = shapeCast S1x64 (Cert.ReferenceIdeal.RefRun.bInit0 (m ((c : Thread nD τ).loc main_arg5))) shapeCasts_S64_S1x64 :=
  (kept m ρ c main_v20 3 1 (by decide)).trans (wire1_main_v20 m ρ c)

theorem wire4_main_v40_at9 (c : Dev nD) :
    (T9 m ρ c main_v40 : FVec Ideal S50000x64 .f32)
      = Cert.ReferenceIdeal.RefRun.agg64 (T7 m ρ c main_v27) (m ((c : Thread nD τ).loc main_arg1)) (m ((c : Thread nD τ).loc main_arg2)) (m ((c : Thread nD τ).loc main_arg3)) :=
  (kept m ρ c main_v40 8 1 (by decide)).trans (wire4_main_v40 m ρ c)

theorem wire4_main_v43_at9 (c : Dev nD) :
    (T9 m ρ c main_v43 : FVec Ideal S1x64 .f32)
      = shapeCast S1x64 (Cert.ReferenceIdeal.RefRun.bInit1 (m ((c : Thread nD τ).loc main_arg5))) shapeCasts_S64_S1x64 :=
  (kept m ρ c main_v43 8 1 (by decide)).trans (wire4_main_v43 m ρ c)

theorem wire6_main_v46_from5 (c : Dev nD) :
    (T11 m ρ c main_v46 : FVec Ideal S50000x128 .f32)
      = Cert.ReferenceIdeal.RefRun.cat64 (T5 m ρ c main_v22) (T10 m ρ c main_v45) :=
  (wire6_main_v46 m ρ c).trans
    (congrArg (fun x : FVec Ideal S50000x64 .f32 => Cert.ReferenceIdeal.RefRun.cat64 x (T10 m ρ c main_v45)) (kept m ρ c main_v22 5 5 (by decide)))

theorem wire6_main_v46_at18 (c : Dev nD) :
    (T18 m ρ c main_v46 : FVec Ideal S50000x128 .f32)
      = Cert.ReferenceIdeal.RefRun.cat64 (T5 m ρ c main_v22) (T10 m ρ c main_v45) :=
  (kept m ρ c main_v46 11 7 (by decide)).trans (wire6_main_v46_from5 m ρ c)

theorem wire6_main_v46_at24 (c : Dev nD) :
    (T24 m ρ c main_v46 : FVec Ideal S50000x128 .f32)
      = Cert.ReferenceIdeal.RefRun.cat64 (T5 m ρ c main_v22) (T10 m ρ c main_v45) :=
  (kept m ρ c main_v46 11 13 (by decide)).trans (wire6_main_v46_from5 m ρ c)

theorem wire6_main_v47_at18 (c : Dev nD) :
    (T18 m ρ c main_v47 : FVec Ideal S128x1 .f32)
      = extractStridedSlice S128x1 ![0, 0] (m ((c : Thread nD τ).loc main_arg10)) slices_S256x1_S128x1_0_0 :=
  (kept m ρ c main_v47 11 7 (by decide)).trans (wire6_main_v47 m ρ c)

theorem wire6_main_v48_at18 (c : Dev nD) :
    (T18 m ρ c main_v48 : FVec Ideal S128x1 .f32)
      = extractStridedSlice S128x1 ![128, 0] (m ((c : Thread nD τ).loc main_arg10)) slices_S256x1_S128x1_128_0 :=
  (kept m ρ c main_v48 11 7 (by decide)).trans (wire6_main_v48 m ρ c)

end Cert.KernelIdeal.Hand

end
-- ==== Proof.Bridge.Matmul.lean ====
import proofs.«165280_j63788854280268_1_alg».proof.Proof.Spec.Matmul
import proofs.«165280_j63788854280268_1_alg».proof.Proof.Ref.Stages
import Idealize.ShloMosaic.PureOps.Ideal.Laws
import Idealize.ShloMosaic.Lib.ValueIdx

set_option maxRecDepth 16384

noncomputable section

namespace Cert.Bridge

open scoped BigOperators
open Cert.ReferenceIdeal Cert.ReferenceIdeal.RefRun Cert.ReferenceIdeal.Facts₀
open Idealize.ShloMosaic Idealize.ShloMosaic.ValueIdx

variable [Facts₀]

theorem mm64_apply (x : FVec Ideal S50000x128 .f32) (w : FVec Ideal S128x64 .f32) (r : Fin 50000) (j : Fin 64) :
    mm64 x w (ix2 r j) = ∑ k : Fin 128, x (ix2 r k) * w (ix2 k j) := by
  unfold mm64 Host.dotGeneral
  rw [Ideal.dotGeneral_apply,
    ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  congr 1
  · refine congrArg x (funext fun a => Fin.ext ?_)
    match a with
    | ⟨0, _⟩ => rfl
    | ⟨1, _⟩ => exact (DotDims.lhsIdx_val_of_single _ rfl _ _).trans hk
  · refine congrArg w (funext fun a => Fin.ext ?_)
    match a with
    | ⟨0, _⟩ => exact (DotDims.rhsIdx_val_of_single _ rfl _ _).trans hk
    | ⟨1, _⟩ => rfl

theorem mm128_apply (x : FVec Ideal S50000x128 .f32) (w : FVec Ideal S128x128 .f32) (r : Fin 50000) (j : Fin 128) :
    mm128 x w (ix2 r j) = ∑ k : Fin 128, x (ix2 r k) * w (ix2 k j) := by
  unfold mm128 Host.dotGeneral
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  congr 1
  · refine congrArg x (funext fun a => Fin.ext ?_)
    match a with
    | ⟨0, _⟩ => rfl
    | ⟨1, _⟩ => exact (DotDims.lhsIdx_val_of_single _ rfl _ _).trans hk
  · refine congrArg w (funext fun a => Fin.ext ?_)
    match a with
    | ⟨0, _⟩ => exact (DotDims.rhsIdx_val_of_single _ rfl _ _).trans hk
    | ⟨1, _⟩ => rfl

theorem matProd64_eq_ref (x : FVec Ideal S50000x128 .f32) (w : FVec Ideal S128x64 .f32) :
    Cert.Spec.matProd64 x w = mm64 x w := by
  funext i
  obtain ⟨r, j, rfl⟩ : ∃ (r : Fin 50000) (j : Fin 64), i = ix2 r j := ⟨i 0, i 1, eq_ix2 i⟩
  rw [Cert.Spec.matProd64_ix2, mm64_apply]

theorem matProd128_eq_ref (x : FVec Ideal S50000x128 .f32) (w : FVec Ideal S128x128 .f32) :
    Cert.Spec.matProd128 x w = mm128 x w := by
  funext i
  obtain ⟨r, j, rfl⟩ : ∃ (r : Fin 50000) (j : Fin 128), i = ix2 r j := ⟨i 0, i 1, eq_ix2 i⟩
  rw [Cert.Spec.matProd128_ix2, mm128_apply]

end Cert.Bridge

end
-- ==== Proof.Spec.IsReal.lean ====
import Idealize.ShloMosaic.PureOps.Ideal
import Idealize.ShloMosaic.PureOps.Ideal.Laws

noncomputable section

namespace Cert.Spec

open scoped BigOperators
open Idealize.ShloMosaic

variable {ι : Type*}

def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.ne_top {x : EReal} (h : IsReal x) : x ≠ ⊤ := (isReal_iff.mp h).1

theorem IsReal.ne_bot {x : EReal} (h : IsReal x) : x ≠ ⊥ := (isReal_iff.mp h).2

theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.mul_coe {x : EReal} (hx : IsReal x) (c : ℝ) : IsReal (x * (c : EReal)) := hx.mul (isReal_coe c)

theorem IsReal.coe_mul {x : EReal} (c : ℝ) (hx : IsReal x) : IsReal ((c : EReal) * x) := (isReal_coe c).mul hx

theorem IsReal.max {x y : EReal} (hx : IsReal x) (hy : IsReal y) : IsReal (max x y) := by
  rcases max_choice x y with h | h <;> rw [h] <;> assumption

theorem isReal_sum (s : Finset ι) {Y : ι → EReal} (hY : ∀ i ∈ s, IsReal (Y i)) : IsReal (∑ i ∈ s, Y i) := by
  classical
  induction s using Finset.induction_on with
  | empty => simpa using isReal_zero
  | insert a s ha ih =>
    rw [Finset.sum_insert ha]
    exact (hY a (Finset.mem_insert_self a s)).add (ih fun i hi => hY i (Finset.mem_insert_of_mem hi))

theorem isReal_fintype_sum [Fintype ι] {Y : ι → EReal} (hY : ∀ i, IsReal (Y i)) : IsReal (∑ i, Y i) :=
  isReal_sum Finset.univ fun i _ => hY i

theorem isReal_add_sum_mul (s : Finset ι) {a : EReal} {L R : ι → EReal} (ha : IsReal a) (hL : ∀ i ∈ s, IsReal (L i))
    (hR : ∀ i ∈ s, IsReal (R i)) : IsReal (a + ∑ i ∈ s, L i * R i) :=
  ha.add (isReal_sum s fun i hi => (hL i hi).mul (hR i hi))

theorem div_coe_coe (a : ℝ) {b : ℝ} (hb : b ≠ 0) : Ideal.div (a : EReal) (b : EReal) = ((a / b : ℝ) : EReal) := by
  rw [Ideal.div_coe hb, ← EReal.coe_mul, mul_one_div]

theorem IsReal.div_coe {x : EReal} (hx : IsReal x) {c : ℝ} (hc : c ≠ 0) : IsReal (Ideal.div x (c : EReal)) := by
  obtain ⟨a, rfl⟩ := hx
  exact ⟨a / c, div_coe_coe a hc⟩

theorem IsReal.div {x y : EReal} (hx : IsReal x) (hy : IsReal y) (hy0 : y ≠ 0) : IsReal (Ideal.div x y) := by
  obtain ⟨b, rfl⟩ := hy
  exact hx.div_coe (EReal.coe_ne_zero.mp hy0)

theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_coe {r : ℝ} (hr : 0 < r) : IsReal (Ideal.rsqrt (r : EReal)) :=
  ⟨_, rsqrt_coe_of_pos hr⟩

theorem IsReal.rsqrt {x : EReal} (hx : IsReal x) (hpos : 0 < x) : IsReal (Ideal.rsqrt x) := by
  obtain ⟨r, rfl⟩ := hx
  exact isReal_rsqrt_coe (EReal.coe_pos.mp hpos)

theorem IsReal.exp {x : EReal} (hx : IsReal x) : IsReal (Ideal.exp x) := by
  obtain ⟨r, rfl⟩ := hx
  exact ⟨Real.exp r, Ideal.exp_coe r⟩

theorem IsReal.logistic {x : EReal} (hx : IsReal x) : IsReal (Ideal.logistic x) := by
  obtain ⟨r, rfl⟩ := hx
  exact ⟨_, Ideal.logistic_coe r⟩

theorem IsReal.div_one_add_exp_neg {x : EReal} (hx : IsReal x) : IsReal (Ideal.div 1 (1 + Ideal.exp (-x))) :=
  hx.logistic

end Cert.Spec

end
-- ==== Proof.Spec.RealSum.lean ====
import Idealize.ShloMosaic.PureOps.Ideal

noncomputable section

namespace Cert.Spec

open scoped BigOperators

variable {ι : Type*}

theorem coe_finset_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_coe (s : Finset ι) (f : ι → ℝ) :
    ∑ i ∈ s, ((f i : ℝ) : EReal) = ((∑ i ∈ s, f i : ℝ) : EReal) :=
  (coe_finset_sum s f).symm

theorem sum_coe_mul_coe (s : Finset ι) (f g : ι → ℝ) :
    ∑ i ∈ s, ((f i : ℝ) : EReal) * ((g i : ℝ) : EReal) = ((∑ i ∈ s, f i * g i : ℝ) : EReal) := by
  rw [coe_finset_sum]
  exact Finset.sum_congr rfl fun i _ => (EReal.coe_mul _ _).symm

theorem sum_coe_mul_self (s : Finset ι) (f : ι → ℝ) :
    ∑ i ∈ s, ((f i : ℝ) : EReal) * ((f i : ℝ) : EReal) = ((∑ i ∈ s, f i * f i : ℝ) : EReal) :=
  sum_coe_mul_coe s f f

theorem sum_coe_sub_coe_mul_self (s : Finset ι) (f : ι → ℝ) (m : ℝ) :
    ∑ i ∈ s, (((f i : ℝ) : EReal) - (m : EReal)) * (((f i : ℝ) : EReal) - (m : EReal))
      = ((∑ i ∈ s, (f i - m) * (f i - m) : ℝ) : EReal) := by
  rw [coe_finset_sum]
  exact Finset.sum_congr rfl fun i _ => by rw [← EReal.coe_sub, ← EReal.coe_mul]

end Cert.Spec

end
-- ==== Proof.Spec.Variance.lean ====
import Idealize.ShloMosaic.PureOps.Ideal
import proofs.«165280_j63788854280268_1_alg».proof.Proof.Spec.RealSum
import proofs.«165280_j63788854280268_1_alg».proof.Proof.Spec.IsReal

noncomputable section

namespace Cert.Spec

open scoped BigOperators
open Idealize.ShloMosaic

variable {ι : Type*} [Fintype ι]

theorem sum_centred_sq (y : ι → ℝ) (m : ℝ) :
    ∑ i, (y i - m) * (y i - m) = (∑ i, y i * y i) - 2 * m * (∑ i, y i) + (Fintype.card ι : ℝ) * (m * m) := by
  have h : ∀ i, (y i - m) * (y i - m) = y i * y i - 2 * m * y i + m * m := fun i => by ring
  rw [Finset.sum_congr rfl fun i _ => h i, Finset.sum_add_distrib, Finset.sum_sub_distrib, ← Finset.mul_sum,
    Finset.sum_const, Finset.card_univ, nsmul_eq_mul]

theorem card_pos_of_ne_zero {n : ℝ} (hn : (Fintype.card ι : ℝ) = n) (hn0 : n ≠ 0) : 0 < n := by
  rw [← hn] at hn0 ⊢
  exact lt_of_le_of_ne (Nat.cast_nonneg _) (Ne.symm hn0)

theorem variance_real (y : ι → ℝ) {n : ℝ} (hn : (Fintype.card ι : ℝ) = n) (hn0 : n ≠ 0) :
    (∑ i, y i * y i) * (1 / n) - ((∑ i, y i) * (1 / n)) * ((∑ i, y i) * (1 / n))
      = (∑ i, (y i - (∑ j, y j) / n) * (y i - (∑ j, y j) / n)) / n := by
  rw [sum_centred_sq, hn]
  field_simp
  ring

theorem variance_centred_nonneg (y : ι → ℝ) (m : ℝ) {n : ℝ} (hpos : 0 < n) :
    0 ≤ (∑ i, (y i - m) * (y i - m)) / n :=
  div_nonneg (Finset.sum_nonneg fun i _ => mul_self_nonneg _) hpos.le

theorem variance_accum_nonneg (y : ι → ℝ) {n : ℝ} (hn : (Fintype.card ι : ℝ) = n) (hn0 : n ≠ 0) :
    0 ≤ (∑ i, y i * y i) * (1 / n) - ((∑ i, y i) * (1 / n)) * ((∑ i, y i) * (1 / n)) := by
  rw [variance_real y hn hn0]
  exact variance_centred_nonneg y _ (card_pos_of_ne_zero hn hn0)

theorem mul_inv_coe_eq_div (x : EReal) {n : ℝ} (hn0 : n ≠ 0) :
    x * ((1 / n : ℝ) : EReal) = Ideal.div x (n : EReal) :=
  (Ideal.div_coe hn0 x).symm

theorem mean_accum_eq_mean_div (Y : ι → EReal) {n : ℝ} (hn0 : n ≠ 0) :
    (∑ i, Y i) * ((1 / n : ℝ) : EReal) = Ideal.div (∑ i, Y i) (n : EReal) :=
  mul_inv_coe_eq_div _ hn0

theorem isReal_mean_accum {Y : ι → EReal} (hY : ∀ i, IsReal (Y i)) (n : ℝ) :
    IsReal ((∑ i, Y i) * ((1 / n : ℝ) : EReal)) :=
  (isReal_fintype_sum hY).mul_coe _

theorem variance_accum_coe (y : ι → ℝ) (n : ℝ) :
    (∑ i, (y i : EReal) * (y i : EReal)) * ((1 / n : ℝ) : EReal)
        - ((∑ i, (y i : EReal)) * ((1 / n : ℝ) : EReal)) * ((∑ i, (y i : EReal)) * ((1 / n : ℝ) : EReal))
      = (((∑ i, y i * y i) * (1 / n) - ((∑ i, y i) * (1 / n)) * ((∑ i, y i) * (1 / n)) : ℝ) : EReal) := by
  rw [sum_coe_mul_self, sum_coe, ← EReal.coe_mul, ← EReal.coe_mul, ← EReal.coe_mul, ← EReal.coe_sub]

theorem variance_centred_coe (y : ι → ℝ) {n : ℝ} (hn0 : n ≠ 0) :
    Ideal.div (∑ i, ((y i : EReal) - Ideal.div (∑ j, (y j : EReal)) (n : EReal))
        * ((y i : EReal) - Ideal.div (∑ j, (y j : EReal)) (n : EReal))) (n : EReal)
      = (((∑ i, (y i - (∑ j, y j) / n) * (y i - (∑ j, y j) / n)) / n : ℝ) : EReal) := by
  rw [sum_coe, div_coe_coe _ hn0, sum_coe_sub_coe_mul_self, div_coe_coe _ hn0]

theorem variance_accum_eq_centred {Y : ι → EReal} (hY : ∀ i, IsReal (Y i)) {n : ℝ}
    (hn : (Fintype.card ι : ℝ) = n) (hn0 : n ≠ 0) :
    (∑ i, Y i * Y i) * ((1 / n : ℝ) : EReal)
        - ((∑ i, Y i) * ((1 / n : ℝ) : EReal)) * ((∑ i, Y i) * ((1 / n : ℝ) : EReal))
      = Ideal.div (∑ i, (Y i - Ideal.div (∑ j, Y j) (n : EReal)) * (Y i - Ideal.div (∑ j, Y j) (n : EReal)))
          (n : EReal) := by
  choose y hy using hY
  simp only [hy]
  rw [variance_accum_coe, variance_centred_coe y hn0, variance_real y hn hn0]

theorem variance_accum_eq_coe_nonneg {Y : ι → EReal} (hY : ∀ i, IsReal (Y i)) {n : ℝ}
    (hn : (Fintype.card ι : ℝ) = n) (hn0 : n ≠ 0) :
    ∃ v : ℝ, 0 ≤ v ∧ (∑ i, Y i * Y i) * ((1 / n : ℝ) : EReal)
        - ((∑ i, Y i) * ((1 / n : ℝ) : EReal)) * ((∑ i, Y i) * ((1 / n : ℝ) : EReal)) = (v : EReal) := by
  choose y hy using hY
  simp only [hy]
  exact ⟨_, variance_accum_nonneg y hn hn0, variance_accum_coe y n⟩

theorem add_eps_pos {v eps : EReal} (hv : IsReal v) (hv0 : 0 ≤ v) (he : IsReal eps) (he0 : 0 < eps) :
    IsReal (v + eps) ∧ 0 < v + eps := by
  obtain ⟨a, rfl⟩ := hv
  obtain ⟨e, rfl⟩ := he
  refine ⟨⟨a + e, (EReal.coe_add a e).symm⟩, ?_⟩
  rw [← EReal.coe_add]
  exact EReal.coe_pos.mpr (add_pos_of_nonneg_of_pos (EReal.coe_nonneg.mp hv0) (EReal.coe_pos.mp he0))

end Cert.Spec

end
-- ==== Proof.Spec.Words.lean ====
import Idealize.ShloMosaic.PureOps.Ideal
import Idealize.ShloMosaic.PureOps.Ideal.Laws
import proofs.«165280_j63788854280268_1_alg».proof.Proof.Spec.IsReal

noncomputable section

namespace Cert.Spec

open Idealize.ShloMosaic

theorem word_zero : Ideal.ofBits .f32 0x00000000#32 = 0 := Ideal.ofBits_zero_f32

theorem word_one : Ideal.ofBits .f32 0x3F800000#32 = 1 := by
  simp [Ideal.ofBits, Ideal.ieee, -EReal.coe_mul]
  norm_num

theorem word_rows : Ideal.ofBits .f32 0x47435000#32 = ((50000 : ℝ) : EReal) := by
  simp [Ideal.ofBits, Ideal.ieee, -EReal.coe_mul]
  norm_num

theorem word_eps : Ideal.ofBits .f32 0x3727C5AC#32 = ((10995116 * (2 : ℝ) ^ (-40 : Int) : ℝ) : EReal) := by
  simp [Ideal.ofBits, Ideal.ieee, -EReal.coe_mul]

theorem isReal_word_zero : IsReal (Ideal.ofBits .f32 0x00000000#32) := word_zero ▸ isReal_zero

theorem isReal_word_one : IsReal (Ideal.ofBits .f32 0x3F800000#32) := word_one ▸ isReal_one

theorem isReal_word_eps : IsReal (Ideal.ofBits .f32 0x3727C5AC#32) := ⟨_, word_eps⟩

theorem word_eps_pos : 0 < Ideal.ofBits .f32 0x3727C5AC#32 := by
  rw [word_eps]
  exact EReal.coe_pos.mpr (by positivity)

theorem sitofp_zero_word : (((0#32 : BitVec 32).toInt : ℝ) : EReal) = 0 := by
  simp

theorem word_rows_sub_sitofp_zero :
    Ideal.ofBits .f32 0x47435000#32 - (((0#32 : BitVec 32).toInt : ℝ) : EReal) = ((50000 : ℝ) : EReal) := by
  rw [sitofp_zero_word, sub_zero, word_rows]

theorem guard_rows :
    Ideal.cmp .ogt (Ideal.ofBits .f32 0x47435000#32 - (((0#32 : BitVec 32).toInt : ℝ) : EReal))
      (Ideal.ofBits .f32 0x00000000#32) = 1 := by
  rw [word_rows_sub_sitofp_zero, word_zero]
  have h : (0 : EReal) < ((50000 : ℝ) : EReal) := EReal.coe_pos.mpr (by norm_num)
  simp [Ideal.cmp, h]

theorem select_guard_rows {α : Type} (a b : α) :
    Scalar.select (Ideal.cmp .ogt (Ideal.ofBits .f32 0x47435000#32 - (((0#32 : BitVec 32).toInt : ℝ) : EReal))
      (Ideal.ofBits .f32 0x00000000#32)) a b = a := by
  rw [guard_rows]
  rfl

end Cert.Spec

end
-- ==== Proof.Spec.BnBridge.lean ====
import Idealize.ShloMosaic.PureOps.Ideal
import Idealize.ShloMosaic.PureOps.Ideal.Laws
import proofs.«165280_j63788854280268_1_alg».proof.Proof.Spec.IsReal
import proofs.«165280_j63788854280268_1_alg».proof.Proof.Spec.Variance
import proofs.«165280_j63788854280268_1_alg».proof.Proof.Spec.Words

noncomputable section

namespace Cert.Spec

open scoped BigOperators
open Idealize.ShloMosaic

variable {ι : Type*} [Fintype ι]

def accMean (Y : ι → EReal) (c : EReal) : EReal := (∑ i, Y i) * c

def accVar (Y : ι → EReal) (c : EReal) : EReal := (∑ i, Y i * Y i) * c - accMean Y c * accMean Y c

def accBn (Y : ι → EReal) (c : EReal) (k : ι) : EReal :=
  max ((Y k - accMean Y c) * Ideal.rsqrt (accVar Y c + Ideal.ofBits .f32 0x3727C5AC#32)) (Ideal.ofBits .f32 0x00000000#32)

def divMean (Y : ι → EReal) : EReal :=
  Ideal.div (Ideal.ofBits .f32 0x00000000#32 + ∑ i, Y i) (Ideal.ofBits .f32 0x47435000#32)

def divVar (Y : ι → EReal) : EReal :=
  Scalar.select
    (Ideal.cmp .ogt (Ideal.ofBits .f32 0x47435000#32 - (((0#32 : BitVec 32).toInt : ℝ) : EReal))
      (Ideal.ofBits .f32 0x00000000#32))
    (Ideal.div (Ideal.ofBits .f32 0x00000000#32 + ∑ i, (Y i - divMean Y) * (Y i - divMean Y))
      (Ideal.ofBits .f32 0x47435000#32 - (((0#32 : BitVec 32).toInt : ℝ) : EReal)))
    (Ideal.ofBits .f32 0x7FC00000#32)

def divBn (Y : ι → EReal) (k : ι) : EReal :=
  max ((Y k - divMean Y) * Ideal.rsqrt (divVar Y + Ideal.ofBits .f32 0x3727C5AC#32)) (Ideal.ofBits .f32 0x00000000#32)

theorem accMean_eq_divMean (Y : ι → EReal) {c : EReal} (hc : c = ((1 / 50000 : ℝ) : EReal)) :
    accMean Y c = divMean Y := by
  rw [accMean, divMean, hc, word_zero, zero_add, word_rows]
  exact mean_accum_eq_mean_div Y (by norm_num)

theorem divVar_eq (Y : ι → EReal) :
    divVar Y = Ideal.div (∑ i, (Y i - Ideal.div (∑ j, Y j) ((50000 : ℝ) : EReal))
        * (Y i - Ideal.div (∑ j, Y j) ((50000 : ℝ) : EReal))) ((50000 : ℝ) : EReal) := by
  rw [divVar, select_guard_rows, word_rows_sub_sitofp_zero, divMean, word_zero, zero_add, zero_add, word_rows]

theorem accVar_eq_divVar {Y : ι → EReal} (hY : ∀ i, IsReal (Y i)) (hcard : (Fintype.card ι : ℝ) = 50000)
    {c : EReal} (hc : c = ((1 / 50000 : ℝ) : EReal)) : accVar Y c = divVar Y := by
  rw [divVar_eq, accVar, accMean, hc]
  exact variance_accum_eq_centred hY hcard (by norm_num)

theorem accBn_eq_divBn {Y : ι → EReal} (hY : ∀ i, IsReal (Y i)) (hcard : (Fintype.card ι : ℝ) = 50000)
    {c : EReal} (hc : c = ((1 / 50000 : ℝ) : EReal)) (k : ι) : accBn Y c k = divBn Y k := by
  rw [accBn, divBn, accMean_eq_divMean Y hc, accVar_eq_divVar hY hcard hc]

theorem isReal_accMean {Y : ι → EReal} (hY : ∀ i, IsReal (Y i)) {c : EReal} (hc : c = ((1 / 50000 : ℝ) : EReal)) :
    IsReal (accMean Y c) := by
  rw [accMean, hc]
  exact isReal_mean_accum hY _

theorem accVar_eq_coe_nonneg {Y : ι → EReal} (hY : ∀ i, IsReal (Y i)) (hcard : (Fintype.card ι : ℝ) = 50000)
    {c : EReal} (hc : c = ((1 / 50000 : ℝ) : EReal)) : ∃ v : ℝ, 0 ≤ v ∧ accVar Y c = (v : EReal) := by
  rw [accVar, accMean, hc]
  exact variance_accum_eq_coe_nonneg hY hcard (by norm_num)

theorem isReal_rsqrt_accVar_add_eps {Y : ι → EReal} (hY : ∀ i, IsReal (Y i)) (hcard : (Fintype.card ι : ℝ) = 50000)
    {c : EReal} (hc : c = ((1 / 50000 : ℝ) : EReal)) :
    IsReal (Ideal.rsqrt (accVar Y c + Ideal.ofBits .f32 0x3727C5AC#32)) := by
  obtain ⟨v, hv, h⟩ := accVar_eq_coe_nonneg hY hcard hc
  have hp := add_eps_pos (isReal_coe v) (EReal.coe_nonneg.mpr hv) isReal_word_eps word_eps_pos
  rw [h]
  exact hp.1.rsqrt hp.2

theorem isReal_accBn {Y : ι → EReal} (hY : ∀ i, IsReal (Y i)) (hcard : (Fintype.card ι : ℝ) = 50000)
    {c : EReal} (hc : c = ((1 / 50000 : ℝ) : EReal)) (k : ι) : IsReal (accBn Y c k) :=
  (((hY k).sub (isReal_accMean hY hc)).mul (isReal_rsqrt_accVar_add_eps hY hcard hc)).max isReal_word_zero

theorem isReal_divBn {Y : ι → EReal} (hY : ∀ i, IsReal (Y i)) (hcard : (Fintype.card ι : ℝ) = 50000) (k : ι) :
    IsReal (divBn Y k) := by
  rw [← accBn_eq_divBn hY hcard rfl k]
  exact isReal_accBn hY hcard rfl k

end Cert.Spec

end
-- ==== Proof.Bridge.BatchNorm.lean ====
import proofs.«165280_j63788854280268_1_alg».proof.Proof.Spec.BnApply
import proofs.«165280_j63788854280268_1_alg».proof.Proof.Spec.BnStats
import proofs.«165280_j63788854280268_1_alg».proof.Proof.Spec.IsReal
import proofs.«165280_j63788854280268_1_alg».proof.Proof.Spec.BnBridge
import proofs.«165280_j63788854280268_1_alg».proof.Proof.Ref.Stages
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.Bridge

open scoped BigOperators
open Cert.ReferenceIdeal Cert.ReferenceIdeal.RefRun Cert.ReferenceIdeal.Facts₀
open Idealize.ShloMosaic Idealize.ShloMosaic.ValueIdx

variable [Facts₀]

theorem hostRsqrt_apply {s : Shape} (w : FVec Ideal s .f32) (i : s.Idx) : Host.rsqrt w i = Ideal.rsqrt (w i) := rfl

theorem bnReduces64 : S50000x64.Reduces [0] S64 := by decide

theorem bnRowRows64_apply {α : Type} (w : S1x64.Idx → α) (r : Fin 50000) (k : Fin 64) :
    broadcastInDim S50000x64 ![0, 1] bcast_S1x64_S50000x64_0_1 w (ix2 r k) = w (ix2 (0 : Fin 1) k) := by
  refine broadcastInDim_apply _ _ _ (ix2 r k) (ix2 (0 : Fin 1) k) fun a => ?_
  match a with
  | ⟨0, _⟩ => rfl
  | ⟨1, _⟩ => rfl

theorem bnRowKeep64_apply {α : Type} (v : S64.Idx → α) (k : Fin 64) :
    broadcastInDim S1x64 ![1] bcast_S64_S1x64_1 v (ix2 (0 : Fin 1) k) = v (ix1 k) := by
  refine broadcastInDim_apply _ _ _ (ix2 (0 : Fin 1) k) (ix1 k) fun a => ?_
  match a with
  | ⟨0, _⟩ => rfl

theorem bnAddBias64_apply (g : FVec Ideal S50000x64 .f32) (b : FVec Ideal S64 .f32) (r : Fin 50000) (k : Fin 64) :
    addBias64 g b (ix2 r k) = g (ix2 r k) + b (ix1 k) := by
  unfold addBias64
  rw [addf_apply, bnRowRows64_apply, bnRowKeep64_apply]

theorem bnHostColSum64_apply (x : FVec Ideal S50000x64 .f32) (k : Fin 64) :
    Host.reduceAdd x (constant (F := Ideal) S_ .f32 0x00000000#32) reducesTo_S50000x64_S64_d0 h_S_ (ix1 k)
      = Ideal.ofBits .f32 0x00000000#32 + ∑ r : Fin 50000, x (ix2 r k) := by
  rw [hostReduceAdd_apply, Ideal.hostReduceAdd_single reducesTo_S50000x64_S64_d0 bnReduces64, constant_apply]
  refine congrArg (fun z => Ideal.ofBits .f32 0x00000000#32 + z) ?_
  refine Finset.sum_congr rfl fun r _ => congrArg x (funext fun c => Fin.ext ?_)
  match c with
  | ⟨0, _⟩ => rfl
  | ⟨1, _⟩ => rfl

theorem bnMean64_apply (x : FVec Ideal S50000x64 .f32) (k : Fin 64) :
    mean64 x (ix1 k) = Cert.Spec.divMean (fun r : Fin 50000 => x (ix2 r k)) := by
  unfold mean64
  rw [hostDivf_apply, bnHostColSum64_apply, broadcastInDim_scalar_apply, constant_apply]
  rfl

theorem bnDev64_apply (x : FVec Ideal S50000x64 .f32) (r : Fin 50000) (k : Fin 64) :
    dev64 x (ix2 r k) = x (ix2 r k) - Cert.Spec.divMean (fun r : Fin 50000 => x (ix2 r k)) := by
  unfold dev64
  rw [subf_apply, bnRowRows64_apply, hostDivf_apply, bnRowKeep64_apply, bnHostColSum64_apply, broadcastInDim_scalar_apply,
    constant_apply]
  rfl

theorem bnVar64_apply (x : FVec Ideal S50000x64 .f32) (k : Fin 64) :
    var64 x (ix1 k) = Cert.Spec.divVar (fun r : Fin 50000 => x (ix2 r k)) := by
  unfold var64 varRaw64
  simp only [select_apply, hostDivf_apply, broadcastInDim_scalar_apply, constant_apply, bnHostColSum64_apply, mulf_apply,
    bnDev64_apply]
  rfl

theorem bnRelu64_apply (x : FVec Ideal S50000x64 .f32) (r : Fin 50000) (k : Fin 64) :
    bnRelu64 x (ix2 r k) = Cert.Spec.divBn (fun r : Fin 50000 => x (ix2 r k)) r := by
  unfold bnRelu64 bnNorm64
  rw [maximumf_apply, mulf_apply, subf_apply, bnRowRows64_apply, bnRowKeep64_apply, bnMean64_apply, bnRowRows64_apply,
    bnRowKeep64_apply, hostRsqrt_apply, addf_apply, bnVar64_apply, broadcastInDim_scalar_apply, constant_apply,
    broadcastInDim_scalar_apply, constant_apply]
  rfl

theorem bn64_eq_ref (g : FVec Ideal S50000x64 .f32) (b : FVec Ideal S64 .f32)
    (b' : (⟨2, ![1, 64]⟩ : Shape).Idx → EReal) (hb : ∀ k : Fin 64, b' (ix2 (0 : Fin 1) k) = b (ix1 k))
    (hg : ∀ i, Cert.Spec.IsReal (g i)) (hbr : ∀ i, Cert.Spec.IsReal (b i)) :
    Cert.Spec.bnApply64 g b' (Cert.Spec.bnMean64 g b') (Cert.Spec.bnVar64 g b') = bnRelu64 (addBias64 g b) := by
  funext i
  obtain ⟨r, k, rfl⟩ : ∃ (r : Fin 50000) (k : Fin 64), i = ix2 r k := ⟨i 0, i 1, eq_ix2 i⟩
  have hY : (fun r : Fin 50000 => addBias64 g b (ix2 r k)) = fun r => g (ix2 r k) + b (ix1 k) :=
    funext fun r => bnAddBias64_apply g b r k
  rw [Cert.Spec.bnApply64_ix2, bnRelu64_apply, hY,
    ← Cert.Spec.accBn_eq_divBn (Y := fun r : Fin 50000 => g (ix2 r k) + b (ix1 k)) (fun r => (hg _).add (hbr _)) (by simp) rfl r,
    Cert.Spec.bnMean64_ix2, Cert.Spec.bnVar64_ix2, hb]
  rfl

theorem isReal_bnRelu64 (x : FVec Ideal S50000x64 .f32) (hx : ∀ i, Cert.Spec.IsReal (x i)) (i : S50000x64.Idx) :
    Cert.Spec.IsReal (bnRelu64 x i) := by
  obtain ⟨r, k, rfl⟩ : ∃ (r : Fin 50000) (k : Fin 64), i = ix2 r k := ⟨i 0, i 1, eq_ix2 i⟩
  rw [bnRelu64_apply]
  exact Cert.Spec.isReal_divBn (fun r => hx _) (by simp) r

theorem bnReduces128 : S50000x128.Reduces [0] S128 := by decide

theorem bnRowRows128_apply {α : Type} (w : S1x128.Idx → α) (r : Fin 50000) (k : Fin 128) :
    broadcastInDim S50000x128 ![0, 1] bcast_S1x128_S50000x128_0_1 w (ix2 r k) = w (ix2 (0 : Fin 1) k) := by
  refine broadcastInDim_apply _ _ _ (ix2 r k) (ix2 (0 : Fin 1) k) fun a => ?_
  match a with
  | ⟨0, _⟩ => rfl
  | ⟨1, _⟩ => rfl

theorem bnRowKeep128_apply {α : Type} (v : S128.Idx → α) (k : Fin 128) :
    broadcastInDim S1x128 ![1] bcast_S128_S1x128_1 v (ix2 (0 : Fin 1) k) = v (ix1 k) := by
  refine broadcastInDim_apply _ _ _ (ix2 (0 : Fin 1) k) (ix1 k) fun a => ?_
  match a with
  | ⟨0, _⟩ => rfl

theorem bnAddBias128_apply (g : FVec Ideal S50000x128 .f32) (b : FVec Ideal S128 .f32) (r : Fin 50000) (k : Fin 128) :
    addBias128 g b (ix2 r k) = g (ix2 r k) + b (ix1 k) := by
  unfold addBias128
  rw [addf_apply, bnRowRows128_apply, bnRowKeep128_apply]

theorem bnHostColSum128_apply (x : FVec Ideal S50000x128 .f32) (k : Fin 128) :
    Host.reduceAdd x (constant (F := Ideal) S_ .f32 0x00000000#32) reducesTo_S50000x128_S128_d0 h_S_ (ix1 k)
      = Ideal.ofBits .f32 0x00000000#32 + ∑ r : Fin 50000, x (ix2 r k) := by
  rw [hostReduceAdd_apply, Ideal.hostReduceAdd_single reducesTo_S50000x128_S128_d0 bnReduces128, constant_apply]
  refine congrArg (fun z => Ideal.ofBits .f32 0x00000000#32 + z) ?_
  refine Finset.sum_congr rfl fun r _ => congrArg x (funext fun c => Fin.ext ?_)
  match c with
  | ⟨0, _⟩ => rfl
  | ⟨1, _⟩ => rfl

theorem bnMean128_apply (x : FVec Ideal S50000x128 .f32) (k : Fin 128) :
    mean128 x (ix1 k) = Cert.Spec.divMean (fun r : Fin 50000 => x (ix2 r k)) := by
  unfold mean128
  rw [hostDivf_apply, bnHostColSum128_apply, broadcastInDim_scalar_apply, constant_apply]
  rfl

theorem bnDev128_apply (x : FVec Ideal S50000x128 .f32) (r : Fin 50000) (k : Fin 128) :
    dev128 x (ix2 r k) = x (ix2 r k) - Cert.Spec.divMean (fun r : Fin 50000 => x (ix2 r k)) := by
  unfold dev128
  rw [subf_apply, bnRowRows128_apply, hostDivf_apply, bnRowKeep128_apply, bnHostColSum128_apply, broadcastInDim_scalar_apply,
    constant_apply]
  rfl

theorem bnVar128_apply (x : FVec Ideal S50000x128 .f32) (k : Fin 128) :
    var128 x (ix1 k) = Cert.Spec.divVar (fun r : Fin 50000 => x (ix2 r k)) := by
  unfold var128 varRaw128
  simp only [select_apply, hostDivf_apply, broadcastInDim_scalar_apply, constant_apply, bnHostColSum128_apply, mulf_apply,
    bnDev128_apply]
  rfl

theorem bnRelu128_apply (x : FVec Ideal S50000x128 .f32) (r : Fin 50000) (k : Fin 128) :
    bnRelu128 x (ix2 r k) = Cert.Spec.divBn (fun r : Fin 50000 => x (ix2 r k)) r := by
  unfold bnRelu128 bnNorm128
  rw [maximumf_apply, mulf_apply, subf_apply, bnRowRows128_apply, bnRowKeep128_apply, bnMean128_apply, bnRowRows128_apply,
    bnRowKeep128_apply, hostRsqrt_apply, addf_apply, bnVar128_apply, broadcastInDim_scalar_apply, constant_apply,
    broadcastInDim_scalar_apply, constant_apply]
  rfl

theorem bn128_eq_ref (g : FVec Ideal S50000x128 .f32) (b : FVec Ideal S128 .f32)
    (b' : (⟨2, ![1, 128]⟩ : Shape).Idx → EReal) (hb : ∀ k : Fin 128, b' (ix2 (0 : Fin 1) k) = b (ix1 k))
    (hg : ∀ i, Cert.Spec.IsReal (g i)) (hbr : ∀ i, Cert.Spec.IsReal (b i)) :
    Cert.Spec.bnApply128 g b' (Cert.Spec.bnMean128 g b') (Cert.Spec.bnVar128 g b') = bnRelu128 (addBias128 g b) := by
  funext i
  obtain ⟨r, k, rfl⟩ : ∃ (r : Fin 50000) (k : Fin 128), i = ix2 r k := ⟨i 0, i 1, eq_ix2 i⟩
  have hY : (fun r : Fin 50000 => addBias128 g b (ix2 r k)) = fun r => g (ix2 r k) + b (ix1 k) :=
    funext fun r => bnAddBias128_apply g b r k
  rw [Cert.Spec.bnApply128_ix2, bnRelu128_apply, hY,
    ← Cert.Spec.accBn_eq_divBn (Y := fun r : Fin 50000 => g (ix2 r k) + b (ix1 k)) (fun r => (hg _).add (hbr _)) (by simp) rfl r,
    Cert.Spec.bnMean128_ix2, Cert.Spec.bnVar128_ix2, hb]
  rfl

theorem isReal_bnRelu128 (x : FVec Ideal S50000x128 .f32) (hx : ∀ i, Cert.Spec.IsReal (x i)) (i : S50000x128.Idx) :
    Cert.Spec.IsReal (bnRelu128 x i) := by
  obtain ⟨r, k, rfl⟩ : ∃ (r : Fin 50000) (k : Fin 128), i = ix2 r k := ⟨i 0, i 1, eq_ix2 i⟩
  rw [bnRelu128_apply]
  exact Cert.Spec.isReal_divBn (fun r => hx _) (by simp) r

end Cert.Bridge

end
-- ==== Proof.Bridge.ApplyGate.lean ====
import proofs.«165280_j63788854280268_1_alg».proof.Proof.Spec.ApplyGate
import proofs.«165280_j63788854280268_1_alg».proof.Proof.Spec.GateMix
import proofs.«165280_j63788854280268_1_alg».proof.Proof.Ref.Stages
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

namespace Cert.Bridge

open Cert.ReferenceIdeal Cert.ReferenceIdeal.RefRun Cert.ReferenceIdeal.Facts₀
open Idealize.ShloMosaic Idealize.ShloMosaic.ValueIdx

variable [Facts₀]

theorem colLanes_apply {α : Type} (w : S50000x1.Idx → α) (r : Fin 50000) (l : Fin 128) :
    broadcastInDim S50000x128 ![0, 1] bcast_S50000x1_S50000x128_0_1 w (ix2 r l) = w (ix2 r (0 : Fin 1)) := by
  refine broadcastInDim_apply _ _ _ (ix2 r l) (ix2 r (0 : Fin 1)) fun a => ?_
  match a with
  | ⟨0, _⟩ => rfl
  | ⟨1, _⟩ => rfl

theorem mix_apply (al : FVec Ideal S50000x1 .f32) (x inp : FVec Ideal S50000x128 .f32) (r : Fin 50000) (l : Fin 128) :
    mix al x inp (ix2 r l)
      = al (ix2 r 0) * x (ix2 r l) + (Ideal.ofBits .f32 0x3F800000#32 - al (ix2 r 0)) * inp (ix2 r l) := by
  unfold mix
  rw [addf_apply, mulf_apply, mulf_apply, colLanes_apply, colLanes_apply, subf_apply, broadcastInDim_scalar_apply,
    constant_apply]

theorem applyGate_eq_ref (x inp : FVec Ideal S50000x128 .f32) (a : FVec Ideal S50000x1 .f32) :
    Cert.Spec.applyGate x inp a = mix a x inp := by
  funext i
  obtain ⟨r, l, rfl⟩ : ∃ (r : Fin 50000) (l : Fin 128), i = ix2 r l := ⟨i 0, i 1, eq_ix2 i⟩
  rw [Cert.Spec.applyGate_ix2, mix_apply]

theorem gateMixed_eq_ref (x inp : FVec Ideal S50000x128 .f32) (w1 w2 : (⟨2, ![128, 1]⟩ : Shape).Idx → EReal)
    (b : (⟨2, ![1, 1]⟩ : Shape).Idx → EReal) :
    Cert.Spec.gateMixed x inp w1 w2 b = mix (Cert.Spec.gateAlpha x inp w1 w2 b) x inp := by
  funext i
  obtain ⟨r, l, rfl⟩ : ∃ (r : Fin 50000) (l : Fin 128), i = ix2 r l := ⟨i 0, i 1, eq_ix2 i⟩
  rw [Cert.Spec.gateMixed_ix2, mix_apply]

end Cert.Bridge

end
-- ==== Proof.Bridge.Gate.lean ====
import proofs.«165280_j63788854280268_1_alg».proof.Proof.Spec.GateMix
import proofs.«165280_j63788854280268_1_alg».proof.Proof.Spec.Words
import proofs.«165280_j63788854280268_1_alg».proof.Proof.Ref.Stages
import Idealize.ShloMosaic.PureOps.Ideal.Laws
import Idealize.ShloMosaic.Lib.ValueIdx
import Idealize.ShloMosaic.Lib.IdealHost
import Idealize.ShloMosaic.Lib.Pipeline.Value
import Mathlib.Algebra.BigOperators.Fin

set_option maxRecDepth 16384

noncomputable section

namespace Cert.Bridge

open scoped BigOperators
open Cert.ReferenceIdeal Cert.ReferenceIdeal.RefRun Cert.ReferenceIdeal.Facts₀
open Idealize.ShloMosaic Idealize.ShloMosaic.ValueIdx

def firstHalf (k : Fin 128) : Fin 256 := ⟨k.val, Nat.lt_of_lt_of_le k.isLt (by decide)⟩

def secondHalf (k : Fin 128) : Fin 256 := ⟨128 + k.val, by have := k.isLt; omega⟩

theorem sum256_halves (f : Fin 256 → EReal) :
    ∑ k : Fin 256, f k = (∑ k : Fin 128, f (firstHalf k)) + ∑ k : Fin 128, f (secondHalf k) :=
  Fin.sum_univ_add (a := 128) (b := 128) f

theorem firstWeights_apply {α : Type} (lw : (⟨2, ![256, 1]⟩ : Shape).Idx → α)
    (h : (⟨2, ![256, 1]⟩ : Shape).Slices ![0, 0] ⟨2, ![128, 1]⟩) (k : Fin 128) :
    extractStridedSlice (⟨2, ![128, 1]⟩ : Shape) ![0, 0] lw h (ix2 k (0 : Fin 1))
      = lw (ix2 (firstHalf k) (0 : Fin 1)) :=
  extractStridedSlice_apply _ lw h (ix2 k (0 : Fin 1)) (ix2 (firstHalf k) (0 : Fin 1)) (fun a => by
    match a with
    | ⟨0, _⟩ => show k.val = 0 + k.val; omega
    | ⟨1, _⟩ => rfl)

theorem secondWeights_apply {α : Type} (lw : (⟨2, ![256, 1]⟩ : Shape).Idx → α)
    (h : (⟨2, ![256, 1]⟩ : Shape).Slices ![128, 0] ⟨2, ![128, 1]⟩) (k : Fin 128) :
    extractStridedSlice (⟨2, ![128, 1]⟩ : Shape) ![128, 0] lw h (ix2 k (0 : Fin 1))
      = lw (ix2 (secondHalf k) (0 : Fin 1)) :=
  extractStridedSlice_apply _ lw h (ix2 k (0 : Fin 1)) (ix2 (secondHalf k) (0 : Fin 1)) (fun a => by
    match a with
    | ⟨0, _⟩ => rfl
    | ⟨1, _⟩ => rfl)

theorem biasCell_apply {α : Type} (lb : (⟨1, ![1]⟩ : Shape).Idx → α)
    (h : (⟨1, ![1]⟩ : Shape).ShapeCasts ⟨2, ![1, 1]⟩) :
    shapeCast (⟨2, ![1, 1]⟩ : Shape) lb h (ix2 (0 : Fin 1) (0 : Fin 1)) = lb (ix1 (0 : Fin 1)) :=
  shapeCast_apply lb h (ix2 (0 : Fin 1) (0 : Fin 1)) (ix1 (0 : Fin 1)) (by
    rw [Shape.rowMajor_val_one, Shape.rowMajor_val_two]; rfl)

variable [Facts₀]

theorem cat128_first (a b : FVec Ideal S50000x128 .f32) (r : Fin 50000) (k : Fin 128) :
    cat128 a b (ix2 r (firstHalf k)) = a (ix2 r k) := by
  unfold cat128
  exact concatenate_pair_apply_left 1 a b _ (ix2 r (firstHalf k)) rfl (ix2 r k) (fun c => by
    match c with
    | ⟨0, _⟩ => rfl
    | ⟨1, _⟩ => rfl)

theorem cat128_second (a b : FVec Ideal S50000x128 .f32) (r : Fin 50000) (k : Fin 128) :
    cat128 a b (ix2 r (secondHalf k)) = b (ix2 r k) := by
  unfold cat128
  exact concatenate_pair_apply_right 1 a b _ (ix2 r (secondHalf k)) rfl rfl (ix2 r k)
    (fun c hc => by
      match c with
      | ⟨0, _⟩ => rfl
      | ⟨1, _⟩ => exact absurd rfl hc)
    (by show k.val + 128 = 128 + k.val; omega)

theorem gateBias_apply (lb : FVec Ideal S1 .f32) (r : Fin 50000) :
    broadcastInDim S50000x1 ![0, 1] bcast_S1x1_S50000x1_0_1 (broadcastInDim S1x1 ![1] bcast_S1_S1x1_1 lb)
      (ix2 r (0 : Fin 1)) = lb (ix1 (0 : Fin 1)) := by
  rw [broadcastInDim_apply _ _ _ (ix2 r (0 : Fin 1)) (ix2 (0 : Fin 1) (0 : Fin 1)) (fun a => by
    match a with
    | ⟨0, _⟩ => rfl
    | ⟨1, _⟩ => rfl)]
  exact broadcastInDim_apply _ _ _ (ix2 (0 : Fin 1) (0 : Fin 1)) (ix1 (0 : Fin 1)) (fun a => by
    match a with
    | ⟨0, _⟩ => rfl)

theorem gateLin_apply (inp x : FVec Ideal S50000x128 .f32) (lw : FVec Ideal S256x1 .f32) (lb : FVec Ideal S1 .f32)
    (r : Fin 50000) :
    gateLin inp x lw lb (ix2 r (0 : Fin 1))
      = (∑ k : Fin 256, cat128 inp x (ix2 r k) * lw (ix2 k (0 : Fin 1))) + lb (ix1 (0 : Fin 1)) := by
  unfold gateLin Host.dotGeneral
  rw [addf_apply, gateBias_apply, Ideal.dotGeneral_apply,
    ← Equiv.sum_comp (contrEquiv1 dot_S50000x256_S256x1_S50000x1_1_0_0_1_n_n 256 rfl rfl).symm]
  congr 1
  refine Finset.sum_congr rfl fun k _ => ?_
  have hk := contrEquiv1_symm_val dot_S50000x256_S256x1_S50000x1_1_0_0_1_n_n 256 rfl rfl k
  congr 1
  · refine congrArg (cat128 inp x) (funext fun a => Fin.ext ?_)
    match a with
    | ⟨0, _⟩ => rfl
    | ⟨1, _⟩ => exact (DotDims.lhsIdx_val_of_single _ rfl _ _).trans hk
  · refine congrArg lw (funext fun a => Fin.ext ?_)
    match a with
    | ⟨0, _⟩ => exact (DotDims.rhsIdx_val_of_single _ rfl _ _).trans hk
    | ⟨1, _⟩ => rfl

theorem logistic1_apply (z : FVec Ideal S50000x1 .f32) (i : S50000x1.Idx) : logistic1 z i = Ideal.logistic (z i) := by
  show Ideal.div (Ideal.ofBits .f32 0x3F800000#32) (Ideal.ofBits .f32 0x3F800000#32 + Ideal.exp (-(z i)))
    = Ideal.logistic (z i)
  rw [Cert.Spec.word_one]
  rfl

theorem gateAlpha_eq_ref (x inp : FVec Ideal S50000x128 .f32) (lw : FVec Ideal S256x1 .f32) (lb : FVec Ideal S1 .f32)
    (w1 w2 : (⟨2, ![128, 1]⟩ : Shape).Idx → EReal) (b : (⟨2, ![1, 1]⟩ : Shape).Idx → EReal)
    (h1 : ∀ k : Fin 128, w1 (ix2 k (0 : Fin 1)) = lw (ix2 (firstHalf k) (0 : Fin 1)))
    (h2 : ∀ k : Fin 128, w2 (ix2 k (0 : Fin 1)) = lw (ix2 (secondHalf k) (0 : Fin 1)))
    (hb : b (ix2 (0 : Fin 1) (0 : Fin 1)) = lb (ix1 (0 : Fin 1))) :
    Cert.Spec.gateAlpha x inp w1 w2 b = alpha inp x lw lb := by
  funext i
  obtain ⟨r, z, rfl⟩ : ∃ (r : Fin 50000) (z : Fin 1), i = ix2 r z := ⟨i 0, i 1, eq_ix2 i⟩
  obtain rfl : z = 0 := Fin.fin_one_eq_zero z
  rw [Cert.Spec.gateAlpha_ix2]
  unfold alpha
  rw [logistic1_apply, gateLin_apply, sum256_halves, hb]
  congr 3
  · exact Finset.sum_congr rfl fun k _ => by rw [cat128_first, h1]
  · exact Finset.sum_congr rfl fun k _ => by rw [cat128_second, h2]

theorem gateAlpha_slices_eq_ref (x inp : FVec Ideal S50000x128 .f32) (lw : FVec Ideal S256x1 .f32) (lb : FVec Ideal S1 .f32)
    (hs1 : (⟨2, ![256, 1]⟩ : Shape).Slices ![0, 0] ⟨2, ![128, 1]⟩)
    (hs2 : (⟨2, ![256, 1]⟩ : Shape).Slices ![128, 0] ⟨2, ![128, 1]⟩)
    (hc : (⟨1, ![1]⟩ : Shape).ShapeCasts ⟨2, ![1, 1]⟩) :
    Cert.Spec.gateAlpha x inp
        (extractStridedSlice (⟨2, ![128, 1]⟩ : Shape) ![0, 0] lw hs1)
        (extractStridedSlice (⟨2, ![128, 1]⟩ : Shape) ![128, 0] lw hs2)
        (shapeCast (⟨2, ![1, 1]⟩ : Shape) lb hc)
      = alpha inp x lw lb :=
  gateAlpha_eq_ref x inp lw lb _ _ _ (fun k => firstWeights_apply lw hs1 k) (fun k => secondWeights_apply lw hs2 k)
    (biasCell_apply lb hc)

end Cert.Bridge

end
-- ==== Proof.Bridge.LogSoftmax.lean ====
import proofs.«165280_j63788854280268_1_alg».proof.Proof.Spec.LogSoftmax
import proofs.«165280_j63788854280268_1_alg».proof.Proof.Bridge.BatchNorm
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.Bridge

open Cert.ReferenceIdeal Cert.ReferenceIdeal.RefRun Cert.ReferenceIdeal.Facts₀
open Idealize.ShloMosaic Idealize.ShloMosaic.ValueIdx

variable [Facts₀]

theorem colRows_apply {α : Type} (w : S50000x1.Idx → α) (r : Fin 50000) (k : Fin 64) :
    broadcastInDim S50000x64 ![0, 1] bcast_S50000x1_S50000x64_0_1 w (ix2 r k) = w (ix2 r (0 : Fin 1)) := by
  refine broadcastInDim_apply _ _ _ (ix2 r k) (ix2 r (0 : Fin 1)) fun a => ?_
  match a with
  | ⟨0, _⟩ => rfl
  | ⟨1, _⟩ => rfl

theorem colKeep_apply {α : Type} (v : S50000.Idx → α) (r : Fin 50000) :
    broadcastInDim S50000x1 ![0] bcast_S50000_S50000x1_0 v (ix2 r (0 : Fin 1)) = v (ix1 r) := by
  refine broadcastInDim_apply _ _ _ (ix2 r (0 : Fin 1)) (ix1 r) fun a => ?_
  match a with
  | ⟨0, _⟩ => rfl

theorem reduces_rows : S50000x64.Reduces [1] S50000 := by decide

theorem hostRowMax_apply (x : FVec Ideal S50000x64 .f32) (r : Fin 50000) :
    Host.reduce FloatOps.maximumf x (constant (F := Ideal) S_ .f32 0xFF800000#32) reducesTo_S50000x64_S50000_d1 h_S_ (ix1 r)
      = (Finset.univ : Finset (Fin 64)).fold max (Ideal.ofBits .f32 0xFF800000#32) (fun k => x (ix2 r k)) := by
  refine (Host.reduce_eq_fold_single FloatOps.maximumf x _ reducesTo_S50000x64_S50000_d1 reduces_rows h_S_ (ix1 r)).trans ?_
  have e : (x ∘ reduces_rows.lift (ix1 r) : Fin 64 → EReal) = fun k => x (ix2 r k) := by
    funext k
    refine congrArg x (funext fun c => Fin.ext ?_)
    match c with
    | ⟨0, _⟩ => rfl
    | ⟨1, _⟩ => rfl
  exact congrArg (fun f => (Finset.univ : Finset (Fin 64)).fold max (Ideal.ofBits .f32 0xFF800000#32) f) e

theorem hostRowSum_apply (x : FVec Ideal S50000x64 .f32) (r : Fin 50000) :
    Host.reduceAdd x (constant (F := Ideal) S_ .f32 0x00000000#32) reducesTo_S50000x64_S50000_d1 h_S_ (ix1 r)
      = ∑ k : Fin 64, x (ix2 r k) := by
  rw [hostReduceAdd_apply, Ideal.hostReduceAdd_single reducesTo_S50000x64_S50000_d1 reduces_rows]
  rw [constant_apply, Ideal.ofBits_zero_f32, zero_add]
  refine Finset.sum_congr rfl fun k _ => congrArg x (funext fun c => Fin.ext ?_)
  match c with
  | ⟨0, _⟩ => rfl
  | ⟨1, _⟩ => rfl

theorem max_fold_max_self {ι : Type} (s : Finset ι) (a : EReal) (f : ι → EReal) :
    max a (s.fold max a f) = s.fold max a f :=
  max_eq_right (Finset.le_fold_max a |>.mpr (Or.inl le_rfl))

theorem lsmShift_apply (x : FVec Ideal S50000x64 .f32) (r : Fin 50000) (k : Fin 64) :
    lsmShift x (ix2 r k)
      = x (ix2 r k) - (Finset.univ : Finset (Fin 64)).fold max (Ideal.ofBits .f32 0xFF800000#32) (fun k => x (ix2 r k)) := by
  unfold lsmShift
  rw [subf_apply]
  refine congrArg (fun z => x (ix2 r k) - z) ?_
  rw [colRows_apply, colKeep_apply, maximumf_apply, hostRowMax_apply, broadcastInDim_scalar_apply, constant_apply]
  exact max_fold_max_self _ _ _

theorem hostLog_apply {s : Shape} (w : FVec Ideal s .f32) (i : s.Idx) : Host.log w i = Ideal.log (w i) := rfl
theorem hostExp_apply {s : Shape} (w : FVec Ideal s .f32) (i : s.Idx) : Host.exp w i = Ideal.exp (w i) := rfl

theorem logSoftmax_apply (x : FVec Ideal S50000x64 .f32) (r : Fin 50000) (q : Fin 64) :
    logSoftmax x (ix2 r q) = lsmShift x (ix2 r q) - Ideal.log (∑ k : Fin 64, Ideal.exp (lsmShift x (ix2 r k))) := by
  unfold logSoftmax
  rw [subf_apply]
  refine congrArg (fun z => lsmShift x (ix2 r q) - z) ?_
  rw [colRows_apply, hostLog_apply, colKeep_apply, hostRowSum_apply]
  exact congrArg Ideal.log (Finset.sum_congr rfl fun k _ => hostExp_apply _ _)

theorem logSoftmaxBias_eq_ref (g : FVec Ideal S50000x64 .f32) (b : FVec Ideal S64 .f32)
    (b' : (⟨2, ![1, 64]⟩ : Shape).Idx → EReal) (hb : ∀ k : Fin 64, b' (ix2 (0 : Fin 1) k) = b (ix1 k)) :
    Cert.Spec.logSoftmaxBias g b' = logSoftmax (addBias64 g b) := by
  funext i
  obtain ⟨r, q, rfl⟩ : ∃ (r : Fin 50000) (q : Fin 64), i = ix2 r q := ⟨i 0, i 1, eq_ix2 i⟩
  rw [Cert.Spec.logSoftmaxBias_ix2, logSoftmax_apply]
  unfold Cert.Spec.shiftedRow Cert.Spec.rowMax Cert.Spec.biasedRow
  simp only [lsmShift_apply, bnAddBias64_apply, hb]

end Cert.Bridge

end
-- ==== Proof.Bridge.RealStages.lean ====
import proofs.«165280_j63788854280268_1_alg».proof.Proof.Ref.Stages
import proofs.«165280_j63788854280268_1_alg».proof.Proof.Spec.IsReal
import Idealize.ShloMosaic.PureOps.Ideal
import Idealize.ShloMosaic.PureOps.Ideal.Laws

noncomputable section

namespace Cert.Bridge

open scoped BigOperators
open Idealize.ShloMosaic Idealize.SL.Sem
open Cert.ReferenceIdeal Cert.ReferenceIdeal.Facts₀ Cert.ReferenceIdeal.RefRun
open Cert.Spec

def AllReal {s : Shape} (x : FVec Ideal s .f32) : Prop := ∀ i, IsReal (x i)

section Reindex
variable {s t : Shape}

theorem allReal_broadcastInDim (t : Shape) (dims : Fin s.rank → Fin t.rank) (h : s.BroadcastsInDim t dims)
    {x : FVec Ideal s .f32} (hx : AllReal x) : AllReal (broadcastInDim t dims h x) :=
  fun _ => hx _

-- A slice followed by a reshape only re-indexes the entries.
theorem allReal_slice {u : Shape} {off : Fin s.rank → Nat} {x : FVec Ideal s .f32} (h : s.Slices off t) (h' : t.ShapeCasts u) (hx : AllReal x) :
    AllReal (shapeCast u (extractStridedSlice t off x h) h') :=
  fun _ => hx _

theorem allReal_gather {si : Shape} {w : Nat} (d : GatherDims s si t) {x : FVec Ideal s .f32} (idx : IVec si w)
    (hx : AllReal x) : AllReal (Host.gather d x idx) :=
  fun _ => hx _

theorem allReal_concatenate (t : Shape) (a : Fin t.rank) (xs : List ((s : Shape) × FVec Ideal s .f32))
    (h : Shape.Concatenates (xs.map (·.1)) t a) (hxs : ∀ p ∈ xs, AllReal p.2) : AllReal (concatenate t a xs h) := by
  intro j
  unfold concatenate
  exact hxs _ (List.getElem_mem _) _

end Reindex

section Elementwise
variable {s : Shape}

theorem allReal_constant (s : Shape) {b : BitVec FTy.f32.bits} (hb : IsReal (Ideal.ofBits .f32 b)) :
    AllReal (constant (F := Ideal) s .f32 b) :=
  fun _ => hb

theorem allReal_constant_zero (s : Shape) : AllReal (constant (F := Ideal) s .f32 0x00000000#32) :=
  allReal_constant s (Ideal.ofBits_zero_f32 ▸ isReal_zero)

theorem allReal_addf {x y : FVec Ideal s .f32} (hx : AllReal x) (hy : AllReal y) : AllReal (addf x y) :=
  fun i => (hx i).add (hy i)

theorem allReal_subf {x y : FVec Ideal s .f32} (hx : AllReal x) (hy : AllReal y) : AllReal (subf x y) :=
  fun i => (hx i).sub (hy i)

theorem allReal_mulf {x y : FVec Ideal s .f32} (hx : AllReal x) (hy : AllReal y) : AllReal (mulf x y) :=
  fun i => (hx i).mul (hy i)

end Elementwise

section Sums
variable {s : Shape}

theorem allReal_scatterAdd {si u : Shape} {w : Nat} (d : ScatterDims s si u) {x : FVec Ideal s .f32} (idx : IVec si w)
    {upd : FVec Ideal u .f32} (hx : AllReal x) (hu : AllReal upd) : AllReal (Host.scatterAdd d x idx upd) :=
  fun i => (hx i).add (isReal_sum _ fun j _ => hu j)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) :=
  fun j => isReal_add_sum_mul _ isReal_zero (fun k _ => hx _) (fun k _ => hw _)

end Sums

variable [Facts₀]

theorem allReal_bInit0 {a5 : FVec Ideal S2x64 .f32} (h : AllReal a5) : AllReal (bInit0 a5) :=
  allReal_slice _ _ h
theorem allReal_bInit1 {a5 : FVec Ideal S2x64 .f32} (h : AllReal a5) : AllReal (bInit1 a5) :=
  allReal_slice _ _ h

theorem allReal_bMid0 {a7 : FVec Ideal S2x128 .f32} (h : AllReal a7) : AllReal (bMid0 a7) :=
  allReal_slice _ _ h
theorem allReal_bMid1 {a7 : FVec Ideal S2x128 .f32} (h : AllReal a7) : AllReal (bMid1 a7) :=
  allReal_slice _ _ h

theorem allReal_mm64 {x : FVec Ideal S50000x128 .f32} {w : FVec Ideal S128x64 .f32} (hx : AllReal x) (hw : AllReal w) :
    AllReal (mm64 x w) :=
  allReal_dotGeneral _ _ hx hw

theorem allReal_mm128 {x : FVec Ideal S50000x128 .f32} {w : FVec Ideal S128x128 .f32} (hx : AllReal x) (hw : AllReal w) :
    AllReal (mm128 x w) :=
  allReal_dotGeneral _ _ hx hw

theorem allReal_wCol {w : FVec Ideal S400000 .f32} (hw : AllReal w) : AllReal (wCol w) :=
  allReal_broadcastInDim _ _ _ hw

theorem allReal_msg64 {s : FVec Ideal S50000x64 .f32} (src : IVec S400000 32) {w : FVec Ideal S400000 .f32}
    (hs : AllReal s) (hw : AllReal w) : AllReal (msg64 s src w) :=
  allReal_mulf (allReal_broadcastInDim _ _ _ (allReal_wCol hw)) (allReal_gather _ _ hs)

theorem allReal_msg128 {s : FVec Ideal S50000x128 .f32} (src : IVec S400000 32) {w : FVec Ideal S400000 .f32}
    (hs : AllReal s) (hw : AllReal w) : AllReal (msg128 s src w) :=
  allReal_mulf (allReal_broadcastInDim _ _ _ (allReal_wCol hw)) (allReal_gather _ _ hs)

theorem allReal_agg64 {s : FVec Ideal S50000x64 .f32} (src dst : IVec S400000 32) {w : FVec Ideal S400000 .f32}
    (hs : AllReal s) (hw : AllReal w) : AllReal (agg64 s src dst w) :=
  allReal_scatterAdd _ _ (allReal_broadcastInDim _ _ _ (allReal_constant_zero _)) (allReal_msg64 src hs hw)

theorem allReal_agg128 {s : FVec Ideal S50000x128 .f32} (src dst : IVec S400000 32) {w : FVec Ideal S400000 .f32}
    (hs : AllReal s) (hw : AllReal w) : AllReal (agg128 s src dst w) :=
  allReal_scatterAdd _ _ (allReal_broadcastInDim _ _ _ (allReal_constant_zero _)) (allReal_msg128 src hs hw)

theorem allReal_addBias64 {x : FVec Ideal S50000x64 .f32} {b : FVec Ideal S64 .f32} (hx : AllReal x) (hb : AllReal b) :
    AllReal (addBias64 x b) :=
  allReal_addf hx (allReal_broadcastInDim _ _ _ (allReal_broadcastInDim _ _ _ hb))

theorem allReal_addBias128 {x : FVec Ideal S50000x128 .f32} {b : FVec Ideal S128 .f32} (hx : AllReal x) (hb : AllReal b) :
    AllReal (addBias128 x b) :=
  allReal_addf hx (allReal_broadcastInDim _ _ _ (allReal_broadcastInDim _ _ _ hb))

theorem allReal_cat64 {a b : FVec Ideal S50000x64 .f32} (ha : AllReal a) (hb : AllReal b) : AllReal (cat64 a b) :=
  allReal_concatenate _ _ _ _ fun p hp => by
    simp only [List.mem_cons, List.not_mem_nil, or_false] at hp
    rcases hp with rfl | rfl
    · exact ha
    · exact hb

theorem allReal_cat128 {a b : FVec Ideal S50000x128 .f32} (ha : AllReal a) (hb : AllReal b) : AllReal (cat128 a b) :=
  allReal_concatenate _ _ _ _ fun p hp => by
    simp only [List.mem_cons, List.not_mem_nil, or_false] at hp
    rcases hp with rfl | rfl
    · exact ha
    · exact hb

end Cert.Bridge

end
-- ==== Proof.Bridge.RealStagesGate.lean ====
import proofs.«165280_j63788854280268_1_alg».proof.Proof.Bridge.RealStages
import proofs.«165280_j63788854280268_1_alg».proof.Proof.Spec.Words

noncomputable section

namespace Cert.Bridge

open scoped BigOperators
open Idealize.ShloMosaic Idealize.SL.Sem
open Cert.ReferenceIdeal Cert.ReferenceIdeal.Facts₀ Cert.ReferenceIdeal.RefRun
open Cert.Spec

theorem allReal_constant_one (s : Shape) : AllReal (constant (F := Ideal) s .f32 0x3F800000#32) :=
  allReal_constant s isReal_word_one

variable [Facts₀]

theorem allReal_gateLin {inp x : FVec Ideal S50000x128 .f32} {lw : FVec Ideal S256x1 .f32} {lb : FVec Ideal S1 .f32}
    (hinp : AllReal inp) (hx : AllReal x) (hlw : AllReal lw) (hlb : AllReal lb) : AllReal (gateLin inp x lw lb) :=
  allReal_addf (allReal_dotGeneral _ _ (allReal_cat128 hinp hx) hlw)
    (allReal_broadcastInDim _ _ _ (allReal_broadcastInDim _ _ _ hlb))

theorem allReal_logistic1 {z : FVec Ideal S50000x1 .f32} (hz : AllReal z) : AllReal (logistic1 z) := by
  intro i
  show IsReal (Ideal.div (Ideal.ofBits .f32 0x3F800000#32) (Ideal.ofBits .f32 0x3F800000#32 + Ideal.exp (-(z i))))
  rw [word_one]
  exact (hz i).div_one_add_exp_neg

theorem allReal_alpha {inp x : FVec Ideal S50000x128 .f32} {lw : FVec Ideal S256x1 .f32} {lb : FVec Ideal S1 .f32}
    (hinp : AllReal inp) (hx : AllReal x) (hlw : AllReal lw) (hlb : AllReal lb) : AllReal (alpha inp x lw lb) :=
  allReal_logistic1 (allReal_gateLin hinp hx hlw hlb)

theorem allReal_mix {al : FVec Ideal S50000x1 .f32} {x inp : FVec Ideal S50000x128 .f32}
    (hal : AllReal al) (hx : AllReal x) (hinp : AllReal inp) : AllReal (mix al x inp) :=
  allReal_addf (allReal_mulf (allReal_broadcastInDim _ _ _ hal) hx)
    (allReal_mulf (allReal_broadcastInDim _ _ _
      (allReal_subf (allReal_broadcastInDim _ _ _ (allReal_constant_one _)) hal)) hinp)

end Cert.Bridge

end
-- ==== Proof.Bridge.RealStagesNet.lean ====
import proofs.«165280_j63788854280268_1_alg».proof.Proof.Bridge.RealStagesGate
import proofs.«165280_j63788854280268_1_alg».proof.Proof.Bridge.BatchNorm

noncomputable section

namespace Cert.Bridge

open scoped BigOperators
open Idealize.ShloMosaic Idealize.SL.Sem
open Cert.ReferenceIdeal Cert.ReferenceIdeal.Facts₀ Cert.ReferenceIdeal.RefRun
open Cert.Spec

variable [Facts₀]

theorem allReal_bnRelu64 {x : FVec Ideal S50000x64 .f32} (hx : AllReal x) : AllReal (bnRelu64 x) := isReal_bnRelu64 x hx

theorem allReal_bnRelu128 {x : FVec Ideal S50000x128 .f32} (hx : AllReal x) : AllReal (bnRelu128 x) := isReal_bnRelu128 x hx

variable {a0 : FVec Ideal S2x50000x128 .f32} (a1 a2 : IVec S400000 32) {a3 : FVec Ideal S400000 .f32} {a4 : FVec Ideal S2x128x64 .f32}
  {a5 : FVec Ideal S2x64 .f32} {a6 : FVec Ideal S2x128x128 .f32} {a7 : FVec Ideal S2x128 .f32} {a10 : FVec Ideal S256x1 .f32} {a11 : FVec Ideal S1 .f32}

-- Every stage is built from sums, products and re-indexings of real entries, so realness passes from the inputs stage by stage.
theorem allReal_aggI0 (h0 : AllReal a0) (h3 : AllReal a3) (h4 : AllReal a4) : AllReal (aggI0 a0 a1 a2 a3 a4) :=
  allReal_agg64 a1 a2 (allReal_mm64 (allReal_slice _ _ h0) (allReal_slice _ _ h4)) h3

theorem allReal_aggI1 (h0 : AllReal a0) (h3 : AllReal a3) (h4 : AllReal a4) : AllReal (aggI1 a0 a1 a2 a3 a4) :=
  allReal_agg64 a1 a2 (allReal_mm64 (allReal_slice _ _ h0) (allReal_slice _ _ h4)) h3

theorem allReal_xcat (h0 : AllReal a0) (h3 : AllReal a3) (h4 : AllReal a4) (h5 : AllReal a5) : AllReal (xcat a0 a1 a2 a3 a4 a5) :=
  allReal_cat64 (allReal_bnRelu64 (allReal_addBias64 (allReal_aggI0 a1 a2 h0 h3 h4) (allReal_bInit0 h5)))
    (allReal_bnRelu64 (allReal_addBias64 (allReal_aggI1 a1 a2 h0 h3 h4) (allReal_bInit1 h5)))

theorem allReal_mix0 (h0 : AllReal a0) (h3 : AllReal a3) (h4 : AllReal a4) (h5 : AllReal a5) (h10 : AllReal a10) (h11 : AllReal a11) :
    AllReal (mix0 a0 a1 a2 a3 a4 a5 a10 a11) :=
  have X := allReal_xcat a1 a2 h0 h3 h4 h5
  allReal_mix (allReal_alpha X X h10 h11) X X

theorem allReal_aggM0 (h0 : AllReal a0) (h3 : AllReal a3) (h4 : AllReal a4) (h5 : AllReal a5) (h6 : AllReal a6) (h10 : AllReal a10)
    (h11 : AllReal a11) : AllReal (aggM0 a0 a1 a2 a3 a4 a5 a6 a10 a11) :=
  allReal_agg128 a1 a2 (allReal_mm128 (allReal_mix0 a1 a2 h0 h3 h4 h5 h10 h11) (allReal_slice _ _ h6)) h3

theorem allReal_aggM1 (h0 : AllReal a0) (h3 : AllReal a3) (h4 : AllReal a4) (h5 : AllReal a5) (h6 : AllReal a6) (h7 : AllReal a7)
    (h10 : AllReal a10) (h11 : AllReal a11) : AllReal (aggM1 a0 a1 a2 a3 a4 a5 a6 a7 a10 a11) :=
  have X := allReal_xcat a1 a2 h0 h3 h4 h5
  have H := allReal_bnRelu128 (allReal_addBias128 (allReal_aggM0 a1 a2 h0 h3 h4 h5 h6 h10 h11) (allReal_bMid0 h7))
  allReal_agg128 a1 a2 (allReal_mm128 (allReal_mix (allReal_alpha X H h10 h11) H X) (allReal_slice _ _ h6)) h3

end Cert.Bridge

end
-- ==== Proof.Bridge.PreReal.lean ====
import proofs.«165280_j63788854280268_1_alg».proof.Defs
import proofs.«165280_j63788854280268_1_alg».proof.Proof.Gen.Pre_finite_inputs
import proofs.«165280_j63788854280268_1_alg».proof.Proof.Spec.IsReal
import Idealize.ShloMosaic.PureOps.Ideal.Laws
import Idealize.ShloMosaic.Lib.ValueIdx
import Idealize.ShloMosaic.Lib.IdealHost
import Idealize.ShloMosaic.Lib.ReduceAll

set_option maxRecDepth 16384

noncomputable section

namespace Cert.Bridge

open Idealize.ShloMosaic Idealize.ShloMosaic.ValueIdx Idealize.SL.Sem
open Cert.Spec (IsReal)

theorem ofBits_inf_f32 : Ideal.ofBits .f32 0x7F800000#32 = ⊤ := by simp [Ideal.ofBits, Ideal.ieee]

theorem isReal_of_abs_lt_inf (x : EReal)
    (h : Ideal.cmp .olt (max x (-x)) (Ideal.ofBits .f32 0x7F800000#32) = 1#1) : IsReal x := by
  rw [ofBits_inf_f32] at h
  induction x using EReal.rec with
  | bot => exact absurd h (by simp [Ideal.cmp])
  | coe r => exact ⟨r, rfl⟩
  | top => exact absurd h (by simp [Ideal.cmp])

local instance : Subsingleton (⟨0, ![]⟩ : Shape).Idx := ⟨fun a b => funext fun d => d.elim0⟩

theorem all_isReal {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 e i
  refine isReal_of_abs_lt_inf (x i) ?_
  rw [← hi]
  show _ = Ideal.cmp .olt (max (x i) (-(x i))) (broadcastInDim s ![] hb (constant (F := Ideal) ⟨0, ![]⟩ .f32 0x7F800000#32) i)
  rw [broadcastInDim_scalar_apply]
  rfl

section Decode

open Cert.KernelIdeal

variable (m : (ℓ : Loc nD τ sig) → Buf (Elt Ideal) ℓ) (h : Cert.Pre_KernelIdeal m) (c : Dev nD)
include h

theorem pre_decoded :
    (∀ i, IsReal (m ((c.tc : Thread nD τ).loc main_arg0) i))
      ∧ (∀ i, IsReal (m ((c.tc : Thread nD τ).loc main_arg3) i))
      ∧ (∀ i, IsReal (m ((c.tc : Thread nD τ).loc main_arg4) i))
      ∧ (∀ i, IsReal (m ((c.tc : Thread nD τ).loc main_arg5) i))
      ∧ (∀ i, IsReal (m ((c.tc : Thread nD τ).loc main_arg6) i))
      ∧ (∀ i, IsReal (m ((c.tc : Thread nD τ).loc main_arg7) i))
      ∧ (∀ i, IsReal (m ((c.tc : Thread nD τ).loc main_arg8) i))
      ∧ (∀ i, IsReal (m ((c.tc : Thread nD τ).loc main_arg9) i))
      ∧ (∀ i, IsReal (m ((c.tc : Thread nD τ).loc main_arg10) i))
      ∧ (∀ i, IsReal (m ((c.tc : Thread nD τ).loc main_arg11) i)) := by
  have h0 := congrFun (h c) ix0
  dsimp only [Cert.Pre_finite_inputs.fn, Cert.Pre_finite_inputs.fn_part1, Cert.Pre_finite_inputs.fn_part2] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_isReal _ _ _ _ e0, all_isReal _ _ _ _ e3, all_isReal _ _ _ _ e4, all_isReal _ _ _ _ e5,
    all_isReal _ _ _ _ e6, all_isReal _ _ _ _ e7, all_isReal _ _ _ _ e8, all_isReal _ _ _ _ e9,
    all_isReal _ _ _ _ e10, all_isReal _ _ _ _ e11⟩

theorem preReal_arg0 : ∀ i, IsReal (m ((c.tc : Thread nD τ).loc main_arg0) i) := (pre_decoded m h c).1

theorem preReal_arg3 : ∀ i, IsReal (m ((c.tc : Thread nD τ).loc main_arg3) i) := (pre_decoded m h c).2.1

theorem preReal_arg4 : ∀ i, IsReal (m ((c.tc : Thread nD τ).loc main_arg4) i) := (pre_decoded m h c).2.2.1

theorem preReal_arg5 : ∀ i, IsReal (m ((c.tc : Thread nD τ).loc main_arg5) i) := (pre_decoded m h c).2.2.2.1

theorem preReal_arg6 : ∀ i, IsReal (m ((c.tc : Thread nD τ).loc main_arg6) i) := (pre_decoded m h c).2.2.2.2.1

theorem preReal_arg7 : ∀ i, IsReal (m ((c.tc : Thread nD τ).loc main_arg7) i) := (pre_decoded m h c).2.2.2.2.2.1

theorem preReal_arg10 : ∀ i, IsReal (m ((c.tc : Thread nD τ).loc main_arg10) i) := (pre_decoded m h c).2.2.2.2.2.2.2.2.1

theorem preReal_arg11 : ∀ i, IsReal (m ((c.tc : Thread nD τ).loc main_arg11) i) := (pre_decoded m h c).2.2.2.2.2.2.2.2.2

end Decode

end Cert.Bridge

end
-- ==== Proof.Bridge.Rows.lean ====
import proofs.«165280_j63788854280268_1_alg».proof.KernelIdeal
import Idealize.ShloMosaic.Lib.ValueIdx
import Idealize.ShloMosaic.Lib.Pipeline.Value

noncomputable section

namespace Cert.Bridge

open Idealize.ShloMosaic Idealize.ShloMosaic.ValueIdx
open Cert.KernelIdeal (S64 S1x64 S128 S1x128 S1 S1x1 S256x1 S128x1)
open Cert.KernelIdeal.Facts₀

variable [Cert.KernelIdeal.Facts₀] {α : Type}

theorem rowCast64_apply (b : S64.Idx → α) (k : Fin 64) :
    shapeCast S1x64 b shapeCasts_S64_S1x64 (ix2 (0 : Fin 1) k) = b (ix1 k) := by
  refine shapeCast_apply b _ (ix2 (0 : Fin 1) k) (ix1 k) ?_
  rw [Shape.rowMajor_val_one, Shape.rowMajor_val_two]
  show k.val = (0 : Fin 1).val * _ + k.val
  simp

theorem rowCast128_apply (b : S128.Idx → α) (k : Fin 128) :
    shapeCast S1x128 b shapeCasts_S128_S1x128 (ix2 (0 : Fin 1) k) = b (ix1 k) := by
  refine shapeCast_apply b _ (ix2 (0 : Fin 1) k) (ix1 k) ?_
  rw [Shape.rowMajor_val_one, Shape.rowMajor_val_two]
  show k.val = (0 : Fin 1).val * _ + k.val
  simp

end Cert.Bridge

end
-- ==== Proof.Bridge.Final.lean ====
import proofs.«165280_j63788854280268_1_alg».proof.Proof.KI.Chain
import proofs.«165280_j63788854280268_1_alg».proof.Proof.KI.Regs
import proofs.«165280_j63788854280268_1_alg».proof.Proof.KI.V0
import proofs.«165280_j63788854280268_1_alg».proof.Proof.KI.V1
import proofs.«165280_j63788854280268_1_alg».proof.Proof.KI.V2
import proofs.«165280_j63788854280268_1_alg».proof.Proof.KI.V3
import proofs.«165280_j63788854280268_1_alg».proof.Proof.KI.V4
import proofs.«165280_j63788854280268_1_alg».proof.Proof.KI.V5
import proofs.«165280_j63788854280268_1_alg».proof.Proof.KI.V6
import proofs.«165280_j63788854280268_1_alg».proof.Proof.KI.V7
import proofs.«165280_j63788854280268_1_alg».proof.Proof.KI.V8
import proofs.«165280_j63788854280268_1_alg».proof.Proof.KI.V9
import proofs.«165280_j63788854280268_1_alg».proof.Proof.KI.V10
import proofs.«165280_j63788854280268_1_alg».proof.Proof.KI.V11
import proofs.«165280_j63788854280268_1_alg».proof.Proof.KI.V12
import proofs.«165280_j63788854280268_1_alg».proof.Proof.KI.V13
import proofs.«165280_j63788854280268_1_alg».proof.Proof.KI.V14
import proofs.«165280_j63788854280268_1_alg».proof.Proof.KI.V15
import proofs.«165280_j63788854280268_1_alg».proof.Proof.KI.V16
import proofs.«165280_j63788854280268_1_alg».proof.Proof.KI.Wire0
import proofs.«165280_j63788854280268_1_alg».proof.Proof.KI.Wire1
import proofs.«165280_j63788854280268_1_alg».proof.Proof.KI.Wire3
import proofs.«165280_j63788854280268_1_alg».proof.Proof.KI.Wire4
import proofs.«165280_j63788854280268_1_alg».proof.Proof.KI.Wire6
import proofs.«165280_j63788854280268_1_alg».proof.Proof.KI.Wire7
import proofs.«165280_j63788854280268_1_alg».proof.Proof.KI.Wire8
import proofs.«165280_j63788854280268_1_alg».proof.Proof.KI.Wire10
import proofs.«165280_j63788854280268_1_alg».proof.Proof.KI.Wire11
import proofs.«165280_j63788854280268_1_alg».proof.Proof.KI.Wire12
import proofs.«165280_j63788854280268_1_alg».proof.Proof.KI.Wire16
import proofs.«165280_j63788854280268_1_alg».proof.Proof.KI.WireKeep
import proofs.«165280_j63788854280268_1_alg».proof.Proof.KI.WireAt
import proofs.«165280_j63788854280268_1_alg».proof.Proof.KI.WireArgs
import proofs.«165280_j63788854280268_1_alg».proof.Proof.Gen.ReferenceIdeal
import proofs.«165280_j63788854280268_1_alg».proof.Proof.Ref.Stages
import proofs.«165280_j63788854280268_1_alg».proof.Proof.Bridge.Matmul
import proofs.«165280_j63788854280268_1_alg».proof.Proof.Bridge.BatchNorm
import proofs.«165280_j63788854280268_1_alg».proof.Proof.Bridge.ApplyGate
import proofs.«165280_j63788854280268_1_alg».proof.Proof.Bridge.Gate
import proofs.«165280_j63788854280268_1_alg».proof.Proof.Bridge.LogSoftmax
import proofs.«165280_j63788854280268_1_alg».proof.Proof.Bridge.RealStagesNet
import proofs.«165280_j63788854280268_1_alg».proof.Proof.Bridge.PreReal
import proofs.«165280_j63788854280268_1_alg».proof.Proof.Bridge.Rows
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Bridge (AllReal)

variable (m : (ℓ : Loc nD τ sig) → Buf (Elt Ideal) ℓ) (ρ : Dev nD → PrngReg)

abbrev arg0 (c : Dev nD) : FVec Ideal S2x50000x128 .f32 := m ((c : Thread nD τ).loc main_arg0)
abbrev arg1 (c : Dev nD) : IVec S400000 32 := m ((c : Thread nD τ).loc main_arg1)
abbrev arg2 (c : Dev nD) : IVec S400000 32 := m ((c : Thread nD τ).loc main_arg2)
abbrev arg3 (c : Dev nD) : FVec Ideal S400000 .f32 := m ((c : Thread nD τ).loc main_arg3)
abbrev arg4 (c : Dev nD) : FVec Ideal S2x128x64 .f32 := m ((c : Thread nD τ).loc main_arg4)
abbrev arg5 (c : Dev nD) : FVec Ideal S2x64 .f32 := m ((c : Thread nD τ).loc main_arg5)
abbrev arg6 (c : Dev nD) : FVec Ideal S2x128x128 .f32 := m ((c : Thread nD τ).loc main_arg6)
abbrev arg7 (c : Dev nD) : FVec Ideal S2x128 .f32 := m ((c : Thread nD τ).loc main_arg7)
abbrev arg8 (c : Dev nD) : FVec Ideal S128x64 .f32 := m ((c : Thread nD τ).loc main_arg8)
abbrev arg9 (c : Dev nD) : FVec Ideal S64 .f32 := m ((c : Thread nD τ).loc main_arg9)
abbrev arg10 (c : Dev nD) : FVec Ideal S256x1 .f32 := m ((c : Thread nD τ).loc main_arg10)
abbrev arg11 (c : Dev nD) : FVec Ideal S1 .f32 := m ((c : Thread nD τ).loc main_arg11)

theorem bn64_stage (g : FVec Ideal S50000x64 .f32) (b : FVec Ideal S64 .f32)
    (x : FVec Ideal S50000x64 .f32) (b' mean var : FVec Ideal S1x64 .f32)
    (hx : x = g) (hb' : b' = shapeCast S1x64 b shapeCasts_S64_S1x64)
    (hmean : mean = Cert.Spec.bnMean64 g (shapeCast S1x64 b shapeCasts_S64_S1x64))
    (hvar : var = Cert.Spec.bnVar64 g (shapeCast S1x64 b shapeCasts_S64_S1x64))
    (hg : AllReal g) (hb : AllReal b) :
    Cert.Spec.bnApply64 x b' mean var = Cert.ReferenceIdeal.RefRun.bnRelu64 (Cert.ReferenceIdeal.RefRun.addBias64 g b) := by
  subst hx hb' hmean hvar
  exact Cert.Bridge.bn64_eq_ref _ b _ (fun k => Cert.Bridge.rowCast64_apply b k) hg hb

theorem bn128_stage (g : FVec Ideal S50000x128 .f32) (b : FVec Ideal S128 .f32)
    (x : FVec Ideal S50000x128 .f32) (b' mean var : FVec Ideal S1x128 .f32)
    (hx : x = g) (hb' : b' = shapeCast S1x128 b shapeCasts_S128_S1x128)
    (hmean : mean = Cert.Spec.bnMean128 g (shapeCast S1x128 b shapeCasts_S128_S1x128))
    (hvar : var = Cert.Spec.bnVar128 g (shapeCast S1x128 b shapeCasts_S128_S1x128))
    (hg : AllReal g) (hb : AllReal b) :
    Cert.Spec.bnApply128 x b' mean var = Cert.ReferenceIdeal.RefRun.bnRelu128 (Cert.ReferenceIdeal.RefRun.addBias128 g b) := by
  subst hx hb' hmean hvar
  exact Cert.Bridge.bn128_eq_ref _ b _ (fun k => Cert.Bridge.rowCast128_apply b k) hg hb

section Stages

theorem real_arg0 (h : Cert.Pre_KernelIdeal m) (c : Dev nD) : AllReal (arg0 m c) := Cert.Bridge.preReal_arg0 m h c
theorem real_arg3 (h : Cert.Pre_KernelIdeal m) (c : Dev nD) : AllReal (arg3 m c) := Cert.Bridge.preReal_arg3 m h c
theorem real_arg4 (h : Cert.Pre_KernelIdeal m) (c : Dev nD) : AllReal (arg4 m c) := Cert.Bridge.preReal_arg4 m h c
theorem real_arg5 (h : Cert.Pre_KernelIdeal m) (c : Dev nD) : AllReal (arg5 m c) := Cert.Bridge.preReal_arg5 m h c
theorem real_arg6 (h : Cert.Pre_KernelIdeal m) (c : Dev nD) : AllReal (arg6 m c) := Cert.Bridge.preReal_arg6 m h c
theorem real_arg7 (h : Cert.Pre_KernelIdeal m) (c : Dev nD) : AllReal (arg7 m c) := Cert.Bridge.preReal_arg7 m h c
theorem real_arg10 (h : Cert.Pre_KernelIdeal m) (c : Dev nD) : AllReal (arg10 m c) := Cert.Bridge.preReal_arg10 m h c
theorem real_arg11 (h : Cert.Pre_KernelIdeal m) (c : Dev nD) : AllReal (arg11 m c) := Cert.Bridge.preReal_arg11 m h c

theorem s_mmI0 (c : Dev nD) : (T2 m ρ c main_v4 : FVec Ideal S50000x64 .f32) = Cert.ReferenceIdeal.RefRun.mmI0 (arg0 m c) (arg4 m c) :=
  ((B2_arr m ρ c 2).trans (val0_2 (T1 m ρ) c)).trans (by
    show Cert.Spec.matProd64 (T1 m ρ c main_v1) (T1 m ρ c main_v3) = _
    rw [wire0_main_v1, wire0_main_v3]
    exact Cert.Bridge.matProd64_eq_ref _ _)

theorem s_aggI0 (c : Dev nD) : (T3 m ρ c main_v17 : FVec Ideal S50000x64 .f32) = Cert.ReferenceIdeal.RefRun.aggI0 (arg0 m c) (arg1 m c) (arg2 m c) (arg3 m c) (arg4 m c) :=
  (wire1_main_v17 m ρ c).trans (congrArg (fun s => Cert.ReferenceIdeal.RefRun.agg64 s (arg1 m c) (arg2 m c) (arg3 m c)) (s_mmI0 m ρ c))

theorem s_hI0 (h : Cert.Pre_KernelIdeal m) (c : Dev nD) : (T5 m ρ c main_v22 : FVec Ideal S50000x64 .f32) = Cert.ReferenceIdeal.RefRun.hI0 (arg0 m c) (arg1 m c) (arg2 m c) (arg3 m c) (arg4 m c) (arg5 m c) :=
  ((B5_arr m ρ c 4).trans (val2_4 (T4 m ρ) c)).trans
    (bn64_stage (Cert.ReferenceIdeal.RefRun.aggI0 (arg0 m c) (arg1 m c) (arg2 m c) (arg3 m c) (arg4 m c)) (Cert.ReferenceIdeal.RefRun.bInit0 (arg5 m c)) _ _ _ _
      ((wire1_main_v17_at4 m ρ c).trans (congrArg (fun s => Cert.ReferenceIdeal.RefRun.agg64 s (arg1 m c) (arg2 m c) (arg3 m c)) (s_mmI0 m ρ c)))
      (wire1_main_v20_at4 m ρ c)
      (((B4_arr m ρ c 2).trans (val1_2 (T3 m ρ) c)).trans (by
        show Cert.Spec.bnMean64 (T3 m ρ c main_v17) (T3 m ρ c main_v20) = _
        rw [s_aggI0, wire1_main_v20]))
      (((B4_arr m ρ c 3).trans (val1_3 (T3 m ρ) c)).trans (by
        show Cert.Spec.bnVar64 (T3 m ρ c main_v17) (T3 m ρ c main_v20) = _
        rw [s_aggI0, wire1_main_v20]))
      (Cert.Bridge.allReal_aggI0 _ _ (real_arg0 m h c) (real_arg3 m h c) (real_arg4 m h c))
      (Cert.Bridge.allReal_bInit0 (real_arg5 m h c)))

theorem s_mmI1 (c : Dev nD) : (T7 m ρ c main_v27 : FVec Ideal S50000x64 .f32) = Cert.ReferenceIdeal.RefRun.mmI1 (arg0 m c) (arg4 m c) :=
  ((B7_arr m ρ c 2).trans (val3_2 (T6 m ρ) c)).trans (by
    show Cert.Spec.matProd64 (T6 m ρ c main_v24) (T6 m ρ c main_v26) = _
    rw [wire3_main_v24, wire3_main_v26]
    exact Cert.Bridge.matProd64_eq_ref _ _)

theorem s_aggI1 (c : Dev nD) : (T8 m ρ c main_v40 : FVec Ideal S50000x64 .f32) = Cert.ReferenceIdeal.RefRun.aggI1 (arg0 m c) (arg1 m c) (arg2 m c) (arg3 m c) (arg4 m c) :=
  (wire4_main_v40 m ρ c).trans (congrArg (fun s => Cert.ReferenceIdeal.RefRun.agg64 s (arg1 m c) (arg2 m c) (arg3 m c)) (s_mmI1 m ρ c))

theorem s_hI1 (h : Cert.Pre_KernelIdeal m) (c : Dev nD) : (T10 m ρ c main_v45 : FVec Ideal S50000x64 .f32) = Cert.ReferenceIdeal.RefRun.hI1 (arg0 m c) (arg1 m c) (arg2 m c) (arg3 m c) (arg4 m c) (arg5 m c) :=
  ((B10_arr m ρ c 4).trans (val5_4 (T9 m ρ) c)).trans
    (bn64_stage (Cert.ReferenceIdeal.RefRun.aggI1 (arg0 m c) (arg1 m c) (arg2 m c) (arg3 m c) (arg4 m c)) (Cert.ReferenceIdeal.RefRun.bInit1 (arg5 m c)) _ _ _ _
      ((wire4_main_v40_at9 m ρ c).trans (congrArg (fun s => Cert.ReferenceIdeal.RefRun.agg64 s (arg1 m c) (arg2 m c) (arg3 m c)) (s_mmI1 m ρ c)))
      (wire4_main_v43_at9 m ρ c)
      (((B9_arr m ρ c 2).trans (val4_2 (T8 m ρ) c)).trans (by
        show Cert.Spec.bnMean64 (T8 m ρ c main_v40) (T8 m ρ c main_v43) = _
        rw [s_aggI1, wire4_main_v43]))
      (((B9_arr m ρ c 3).trans (val4_3 (T8 m ρ) c)).trans (by
        show Cert.Spec.bnVar64 (T8 m ρ c main_v40) (T8 m ρ c main_v43) = _
        rw [s_aggI1, wire4_main_v43]))
      (Cert.Bridge.allReal_aggI1 _ _ (real_arg0 m h c) (real_arg3 m h c) (real_arg4 m h c))
      (Cert.Bridge.allReal_bInit1 (real_arg5 m h c)))

theorem s_xcat (h : Cert.Pre_KernelIdeal m) (c : Dev nD) : (T11 m ρ c main_v46 : FVec Ideal S50000x128 .f32) = Cert.ReferenceIdeal.RefRun.xcat (arg0 m c) (arg1 m c) (arg2 m c) (arg3 m c) (arg4 m c) (arg5 m c) := by
  rw [wire6_main_v46_from5, s_hI0 m ρ h, s_hI1 m ρ h]
  rfl

theorem s_xcat_at18 (h : Cert.Pre_KernelIdeal m) (c : Dev nD) : (T18 m ρ c main_v46 : FVec Ideal S50000x128 .f32) = Cert.ReferenceIdeal.RefRun.xcat (arg0 m c) (arg1 m c) (arg2 m c) (arg3 m c) (arg4 m c) (arg5 m c) := by
  rw [wire6_main_v46_at18, s_hI0 m ρ h, s_hI1 m ρ h]
  rfl

theorem s_xcat_at24 (h : Cert.Pre_KernelIdeal m) (c : Dev nD) : (T24 m ρ c main_v46 : FVec Ideal S50000x128 .f32) = Cert.ReferenceIdeal.RefRun.xcat (arg0 m c) (arg1 m c) (arg2 m c) (arg3 m c) (arg4 m c) (arg5 m c) := by
  rw [wire6_main_v46_at24, s_hI0 m ρ h, s_hI1 m ρ h]
  rfl

theorem s_mix0 (h : Cert.Pre_KernelIdeal m) (c : Dev nD) : (T12 m ρ c main_v50_0 : FVec Ideal S50000x128 .f32) = Cert.ReferenceIdeal.RefRun.mix0 (arg0 m c) (arg1 m c) (arg2 m c) (arg3 m c) (arg4 m c) (arg5 m c) (arg10 m c) (arg11 m c) :=
  ((hF6 m ρ c 5).symm.trans (val6_5 (T11 m ρ) c)).trans (by
    show Cert.Spec.gateMixed (T11 m ρ c main_v46) (T11 m ρ c main_v46) (T11 m ρ c main_v47) (T11 m ρ c main_v48)
      (T11 m ρ c main_v49) = _
    rw [s_xcat m ρ h, wire6_main_v47, wire6_main_v48, wire6_main_v49, Cert.Bridge.gateMixed_eq_ref,
      Cert.Bridge.gateAlpha_slices_eq_ref]
    rfl)

theorem s_mmM0 (h : Cert.Pre_KernelIdeal m) (c : Dev nD) : (T14 m ρ c main_v53 : FVec Ideal S50000x128 .f32) = Cert.ReferenceIdeal.RefRun.mmM0 (arg0 m c) (arg1 m c) (arg2 m c) (arg3 m c) (arg4 m c) (arg5 m c) (arg6 m c) (arg10 m c) (arg11 m c) :=
  ((B14_arr m ρ c 2).trans (val7_2 (T13 m ρ) c)).trans (by
    show Cert.Spec.matProd128 (T13 m ρ c main_v50_0) (T13 m ρ c main_v52) = _
    rw [T13_main_v50_0, s_mix0 m ρ h, T13_main_v52]
    exact Cert.Bridge.matProd128_eq_ref _ _)

theorem s_aggM0 (h : Cert.Pre_KernelIdeal m) (c : Dev nD) : (T15 m ρ c main_v66 : FVec Ideal S50000x128 .f32) = Cert.ReferenceIdeal.RefRun.aggM0 (arg0 m c) (arg1 m c) (arg2 m c) (arg3 m c) (arg4 m c) (arg5 m c) (arg6 m c) (arg10 m c) (arg11 m c) :=
  (T15_main_v66 m ρ c).trans (congrArg (fun s => Cert.ReferenceIdeal.RefRun.agg128 s (arg1 m c) (arg2 m c) (arg3 m c)) (s_mmM0 m ρ h c))

theorem s_hM0 (h : Cert.Pre_KernelIdeal m) (c : Dev nD) : (T17 m ρ c main_v71 : FVec Ideal S50000x128 .f32) = Cert.ReferenceIdeal.RefRun.hM0 (arg0 m c) (arg1 m c) (arg2 m c) (arg3 m c) (arg4 m c) (arg5 m c) (arg6 m c) (arg7 m c) (arg10 m c) (arg11 m c) :=
  ((B17_arr m ρ c 4).trans (val9_4 (T16 m ρ) c)).trans
    (bn128_stage (Cert.ReferenceIdeal.RefRun.aggM0 (arg0 m c) (arg1 m c) (arg2 m c) (arg3 m c) (arg4 m c) (arg5 m c) (arg6 m c) (arg10 m c) (arg11 m c)) (Cert.ReferenceIdeal.RefRun.bMid0 (arg7 m c)) _ _ _ _
      ((T16_main_v66 m ρ c).trans (s_aggM0 m ρ h c))
      ((T16_main_v69 m ρ c).trans (T15_main_v69 m ρ c))
      (((B16_arr m ρ c 2).trans (val8_2 (T15 m ρ) c)).trans (by
        show Cert.Spec.bnMean128 (T15 m ρ c main_v66) (T15 m ρ c main_v69) = _
        rw [s_aggM0 m ρ h, T15_main_v69]))
      (((B16_arr m ρ c 3).trans (val8_3 (T15 m ρ) c)).trans (by
        show Cert.Spec.bnVar128 (T15 m ρ c main_v66) (T15 m ρ c main_v69) = _
        rw [s_aggM0 m ρ h, T15_main_v69]))
      (Cert.Bridge.allReal_aggM0 _ _ (real_arg0 m h c) (real_arg3 m h c) (real_arg4 m h c) (real_arg5 m h c) (real_arg6 m h c) (real_arg10 m h c) (real_arg11 m h c))
      (Cert.Bridge.allReal_bMid0 (real_arg7 m h c)))

theorem s_alpha1 (h : Cert.Pre_KernelIdeal m) (c : Dev nD) : (T19 m ρ c main_v73_1 : FVec Ideal S50000x1 .f32) = Cert.ReferenceIdeal.RefRun.alpha1 (arg0 m c) (arg1 m c) (arg2 m c) (arg3 m c) (arg4 m c) (arg5 m c) (arg6 m c) (arg7 m c) (arg10 m c) (arg11 m c) :=
  ((B19_arr m ρ c 6).trans (val10_6 (T18 m ρ) c)).trans (by
    show Cert.Spec.gateAlpha (T18 m ρ c main_v71) (T18 m ρ c main_v46) (T18 m ρ c main_v47) (T18 m ρ c main_v48)
      (T18 m ρ c main_v72) = _
    rw [T18_main_v71, s_hM0 m ρ h, s_xcat_at18 m ρ h, wire6_main_v47_at18, wire6_main_v48_at18, T18_main_v72,
      Cert.Bridge.gateAlpha_slices_eq_ref]
    rfl)

theorem s_mix1 (h : Cert.Pre_KernelIdeal m) (c : Dev nD) : (T19 m ρ c main_v73_0 : FVec Ideal S50000x128 .f32) = Cert.ReferenceIdeal.RefRun.mix1 (arg0 m c) (arg1 m c) (arg2 m c) (arg3 m c) (arg4 m c) (arg5 m c) (arg6 m c) (arg7 m c) (arg10 m c) (arg11 m c) :=
  ((B19_arr m ρ c 5).trans (val10_5 (T18 m ρ) c)).trans (by
    show Cert.Spec.gateMixed (T18 m ρ c main_v71) (T18 m ρ c main_v46) (T18 m ρ c main_v47) (T18 m ρ c main_v48)
      (T18 m ρ c main_v72) = _
    rw [T18_main_v71, s_hM0 m ρ h, s_xcat_at18 m ρ h, wire6_main_v47_at18, wire6_main_v48_at18, T18_main_v72,
      Cert.Bridge.gateMixed_eq_ref, Cert.Bridge.gateAlpha_slices_eq_ref]
    rfl)

theorem s_mmM1 (h : Cert.Pre_KernelIdeal m) (c : Dev nD) : (T21 m ρ c main_v76 : FVec Ideal S50000x128 .f32) = Cert.ReferenceIdeal.RefRun.mmM1 (arg0 m c) (arg1 m c) (arg2 m c) (arg3 m c) (arg4 m c) (arg5 m c) (arg6 m c) (arg7 m c) (arg10 m c) (arg11 m c) :=
  ((B21_arr m ρ c 2).trans (val11_2 (T20 m ρ) c)).trans (by
    show Cert.Spec.matProd128 (T20 m ρ c main_v73_0) (T20 m ρ c main_v75) = _
    rw [T20_main_v73_0, s_mix1 m ρ h, T20_main_v75]
    exact Cert.Bridge.matProd128_eq_ref _ _)

theorem s_aggM1 (h : Cert.Pre_KernelIdeal m) (c : Dev nD) : (T22 m ρ c main_v89 : FVec Ideal S50000x128 .f32) = Cert.ReferenceIdeal.RefRun.aggM1 (arg0 m c) (arg1 m c) (arg2 m c) (arg3 m c) (arg4 m c) (arg5 m c) (arg6 m c) (arg7 m c) (arg10 m c) (arg11 m c) :=
  (T22_main_v89 m ρ c).trans (congrArg (fun s => Cert.ReferenceIdeal.RefRun.agg128 s (arg1 m c) (arg2 m c) (arg3 m c)) (s_mmM1 m ρ h c))

set_option maxHeartbeats 1000000 in
theorem s_hM1 (h : Cert.Pre_KernelIdeal m) (c : Dev nD) : (T24 m ρ c main_v94 : FVec Ideal S50000x128 .f32) = Cert.ReferenceIdeal.RefRun.hM1 (arg0 m c) (arg1 m c) (arg2 m c) (arg3 m c) (arg4 m c) (arg5 m c) (arg6 m c) (arg7 m c) (arg10 m c) (arg11 m c) :=
  ((B24_arr m ρ c 4).trans (val13_4 (T23 m ρ) c)).trans
    (bn128_stage (Cert.ReferenceIdeal.RefRun.aggM1 (arg0 m c) (arg1 m c) (arg2 m c) (arg3 m c) (arg4 m c) (arg5 m c) (arg6 m c) (arg7 m c) (arg10 m c) (arg11 m c)) (Cert.ReferenceIdeal.RefRun.bMid1 (arg7 m c)) _ _ _ _
      ((T23_main_v89 m ρ c).trans (s_aggM1 m ρ h c))
      ((T23_main_v92 m ρ c).trans (T22_main_v92 m ρ c))
      (((B23_arr m ρ c 2).trans (val12_2 (T22 m ρ) c)).trans (by
        show Cert.Spec.bnMean128 (T22 m ρ c main_v89) (T22 m ρ c main_v92) = _
        rw [s_aggM1 m ρ h, T22_main_v92]))
      (((B23_arr m ρ c 3).trans (val12_3 (T22 m ρ) c)).trans (by
        show Cert.Spec.bnVar128 (T22 m ρ c main_v89) (T22 m ρ c main_v92) = _
        rw [s_aggM1 m ρ h, T22_main_v92]))
      (Cert.Bridge.allReal_aggM1 _ _ (real_arg0 m h c) (real_arg3 m h c) (real_arg4 m h c) (real_arg5 m h c) (real_arg6 m h c) (real_arg7 m h c) (real_arg10 m h c) (real_arg11 m h c))
      (Cert.Bridge.allReal_bMid1 (real_arg7 m h c)))

theorem s_mix2 (h : Cert.Pre_KernelIdeal m) (c : Dev nD) : (T25 m ρ c main_v95 : FVec Ideal S50000x128 .f32) = Cert.ReferenceIdeal.RefRun.mix2 (arg0 m c) (arg1 m c) (arg2 m c) (arg3 m c) (arg4 m c) (arg5 m c) (arg6 m c) (arg7 m c) (arg10 m c) (arg11 m c) :=
  ((B25_arr m ρ c 3).trans (val14_3 (T24 m ρ) c)).trans (by
    show Cert.Spec.applyGate (T24 m ρ c main_v94) (T24 m ρ c main_v46) (T24 m ρ c main_v73_1) = _
    rw [s_hM1 m ρ h, s_xcat_at24 m ρ h, T24_main_v73_1, s_alpha1 m ρ h]
    exact Cert.Bridge.applyGate_eq_ref _ _ _)

theorem s_mmL (h : Cert.Pre_KernelIdeal m) (c : Dev nD) : (T26 m ρ c main_v96 : FVec Ideal S50000x64 .f32) = Cert.ReferenceIdeal.RefRun.mmL (arg0 m c) (arg1 m c) (arg2 m c) (arg3 m c) (arg4 m c) (arg5 m c) (arg6 m c) (arg7 m c) (arg8 m c) (arg10 m c) (arg11 m c) :=
  ((B26_arr m ρ c 2).trans (val15_2 (T25 m ρ) c)).trans (by
    show Cert.Spec.matProd64 (T25 m ρ c main_v95) (T25 m ρ c main_arg8) = _
    rw [s_mix2 m ρ h, T25_main_arg8]
    exact Cert.Bridge.matProd64_eq_ref _ _)

theorem s_aggL (h : Cert.Pre_KernelIdeal m) (c : Dev nD) : (T27 m ρ c main_v109 : FVec Ideal S50000x64 .f32) = Cert.ReferenceIdeal.RefRun.aggL (arg0 m c) (arg1 m c) (arg2 m c) (arg3 m c) (arg4 m c) (arg5 m c) (arg6 m c) (arg7 m c) (arg8 m c) (arg10 m c) (arg11 m c) :=
  (T27_main_v109 m ρ c).trans (congrArg (fun s => Cert.ReferenceIdeal.RefRun.agg64 s (arg1 m c) (arg2 m c) (arg3 m c)) (s_mmL m ρ h c))

theorem s_out (h : Cert.Pre_KernelIdeal m) (c : Dev nD) : (T28 m ρ c main_v111 : FVec Ideal S50000x64 .f32) = Cert.ReferenceIdeal.RefRun.out (arg0 m c) (arg1 m c) (arg2 m c) (arg3 m c) (arg4 m c) (arg5 m c) (arg6 m c) (arg7 m c) (arg8 m c) (arg9 m c) (arg10 m c) (arg11 m c) :=
  ((B28_arr m ρ c 2).trans (val16_2 (T27 m ρ) c)).trans (by
    show Cert.Spec.logSoftmaxBias (T27 m ρ c main_v109) (T27 m ρ c main_v110) = _
    rw [s_aggL m ρ h, T27_main_v110]
    exact Cert.Bridge.logSoftmaxBias_eq_ref _ _ _ (fun k => Cert.Bridge.rowCast64_apply _ k))

end Stages

end Cert.KernelIdeal.Hand

namespace Cert.Bridge

open Idealize.ShloMosaic Idealize.ShloMosaic.TcCoe Idealize.SL.Sem

theorem kernel_value (m : (ℓ : Loc Cert.KernelIdeal.nD Cert.KernelIdeal.τ Cert.KernelIdeal.sig) → Buf (Elt Ideal) ℓ)
    (ρ : Dev Cert.KernelIdeal.nD → PrngReg)
    (h : Cert.Pre_KernelIdeal (hPre_finite_inputs := Cert.Pre_finite_inputs.Gen.facts) m) (c : Dev Cert.KernelIdeal.nD) :
    Cert.KernelIdeal.Hand.B28 m ρ c (Proc.devRef .tc Cert.KernelIdeal.main_v111)
      = Cert.ReferenceIdeal.RefRun.out (m ((c.tc : Thread _ _).loc Cert.KernelIdeal.main_arg0))
        (m ((c.tc : Thread _ _).loc Cert.KernelIdeal.main_arg1))
        (m ((c.tc : Thread _ _).loc Cert.KernelIdeal.main_arg2))
        (m ((c.tc : Thread _ _).loc Cert.KernelIdeal.main_arg3))
        (m ((c.tc : Thread _ _).loc Cert.KernelIdeal.main_arg4))
        (m ((c.tc : Thread _ _).loc Cert.KernelIdeal.main_arg5))
        (m ((c.tc : Thread _ _).loc Cert.KernelIdeal.main_arg6))
        (m ((c.tc : Thread _ _).loc Cert.KernelIdeal.main_arg7))
        (m ((c.tc : Thread _ _).loc Cert.KernelIdeal.main_arg8))
        (m ((c.tc : Thread _ _).loc Cert.KernelIdeal.main_arg9))
        (m ((c.tc : Thread _ _).loc Cert.KernelIdeal.main_arg10))
        (m ((c.tc : Thread _ _).loc Cert.KernelIdeal.main_arg11)) :=
  Cert.KernelIdeal.Hand.s_out m ρ h c

end Cert.Bridge

end
-- ==== Proof.lean ====
import proofs.«165280_j63788854280268_1_alg».proof.Defs
import proofs.«165280_j63788854280268_1_alg».proof.Proof.Gen.Kernel
import proofs.«165280_j63788854280268_1_alg».proof.Proof.Gen.KernelIdeal
import proofs.«165280_j63788854280268_1_alg».proof.Proof.Gen.ReferenceIdeal
import proofs.«165280_j63788854280268_1_alg».proof.Proof.Gen.Pre_finite_inputs
import proofs.«165280_j63788854280268_1_alg».proof.Proof.K.Main
import proofs.«165280_j63788854280268_1_alg».proof.Proof.KI.Main
import proofs.«165280_j63788854280268_1_alg».proof.Proof.Ref.Run
import proofs.«165280_j63788854280268_1_alg».proof.Proof.Bridge.Final

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_H (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_H (F := Ideal) m ρ

/-- The reference's frame is its run with the result forgotten. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Every ledger entry names the same constant, whose table value is 1/50000. -/
theorem preserves : Cert.preserves_Kernel_KernelIdeal :=
  have h := IdealRules.named_const.statement Cert.KernelIdeal.κ "inv_50000" .f32 0x37A7C5AC#32 ((1 / 50000 : ℝ) : EReal) rfl
  ⟨h, h, h, h, h, h, h, h⟩

/-- Both runs end at one function of the arguments: the reference's value. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.ReferenceIdeal.RefRun.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.Bridge.kernel_value m ρ hpre c), (h c).2⟩)
      (Cert.KernelIdeal.Hand.run_val (F := Ideal) m ρ)
  · refine (θ_run Cert.ReferenceIdeal.defs _ _).mono (fun _ h c => ⟨(h c).1.trans ?_, (h c).2⟩) (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
